-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S16x1 : Shape := ⟨2, ![16, 1]⟩
abbrev S16 : Shape := ⟨1, ![16]⟩
abbrev S16x16 : Shape := ⟨2, ![16, 16]⟩
abbrev S_ : Shape := ⟨0, ![]⟩

class Facts : Prop where
  bcast_S_S16x1 : S_.BroadcastsInDim S16x1 (![] : Fin 0 → Fin S16x1.rank)
  reducesTo_S16x1_S_d0_1 : S16x1.ReducesTo [0, 1] S_
  h_S_ : 0 < S_.numel
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S1024x200 : S_.BroadcastsInDim S1024x200 (![] : Fin 0 → Fin S1024x200.rank)
  reducesTo_S1024x200_S_d0_1 : S1024x200.ReducesTo [0, 1] S_

variable [Facts]

def fn_part1 {F : FTy → Type} [FloatOps F] (main_arg0 : IVec S1024x200 32) (main_arg1 : IVec S1024x200 32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_c_6 : IVec S_ 32 := constantI S_ 32 0#32
  let main_v19 : IVec S1024x200 32 := broadcastInDim S1024x200 ![] bcast_S_S1024x200 main_c_6
  let main_v20 : IVec S1024x200 1 := cmpi .sge main_arg0 main_v19
  let main_c_7 : IVec S_ 32 := constantI S_ 32 99999#32
  let main_v21 : IVec S1024x200 32 := broadcastInDim S1024x200 ![] bcast_S_S1024x200 main_c_7
  let main_v22 : IVec S1024x200 1 := cmpi .sle main_arg0 main_v21
  let main_v23 : IVec S1024x200 1 := andi main_v20 main_v22
  let main_c_8 : IVec S_ 1 := constantI S_ 1 1#1
  let main_v24 : IVec S_ 1 := (fun x v => Host.reduce IntOp.andi x v reducesTo_S1024x200_S_d0_1 h_S_) main_v23 main_c_8
  let main_v25 : IVec S_ 1 := andi main_v18 main_v24
  let main_c_9 : IVec S_ 32 := constantI S_ 32 0#32
  let main_v26 : IVec S1024x200 32 := broadcastInDim S1024x200 ![] bcast_S_S1024x200 main_c_9
  let main_v27 : IVec S1024x200 1 := cmpi .sge main_arg1 main_v26
  let main_c_10 : IVec S_ 32 := constantI S_ 32 99999#32
  let main_v28 : IVec S1024x200 32 := broadcastInDim S1024x200 ![] bcast_S_S1024x200 main_c_10
  let main_v29 : IVec S1024x200 1 := cmpi .sle main_arg1 main_v28
  let main_v30 : IVec S1024x200 1 := andi main_v27 main_v29
  let main_c_11 : IVec S_ 1 := constantI S_ 1 1#1
  let main_v31 : IVec S_ 1 := (fun x v => Host.reduce IntOp.andi x v reducesTo_S1024x200_S_d0_1 h_S_) main_v30 main_c_11
  let main_v32 : IVec S_ 1 := andi main_v25 main_v31
  main_v32

def fn {F : FTy → Type} [FloatOps F] (main_arg0 : IVec S1024x200 32) (main_arg1 : IVec S1024x200 32) (main_arg2 : FVec F S16x1 .f32) (main_arg3 : FVec F S16 .f32) (main_arg4 : FVec F S16x16 .f32) (main_arg5 : FVec F S16 .f32) : IVec S_ 1 :=
  let main_v0 : FVec F S16x1 .f32 := Host.absf main_arg2
  let main_cst : FVec F S_ .f32 := constant S_ .f32 0x7F800000#32
  let main_v1 : FVec F S16x1 .f32 := broadcastInDim S16x1 ![] bcast_S_S16x1 main_cst
  let main_v2 : IVec S16x1 1 := cmpf .olt main_v0 main_v1
  let main_c : IVec S_ 1 := constantI S_ 1 1#1
  let main_v3 : IVec S_ 1 := (fun x v => Host.reduce IntOp.andi x v reducesTo_S16x1_S_d0_1 h_S_) main_v2 main_c
  let main_v4 : FVec F S16 .f32 := Host.absf main_arg3
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16x16 .f32 := Host.absf main_arg4
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg0 main_arg1 main_v13 main_v16
-- ==== Kernel.lean ====
abbrev S1024x200 : Shape := ⟨2, ![1024, 200]⟩
abbrev S16x1 : Shape := ⟨2, ![16, 1]⟩
abbrev S16 : Shape := ⟨1, ![16]⟩
abbrev S16x16 : Shape := ⟨2, ![16, 16]⟩
abbrev S_ : Shape := ⟨0, ![]⟩
abbrev S1024x8 : Shape := ⟨2, ![1024, 8]⟩
abbrev S1024x208 : Shape := ⟨2, ![1024, 208]⟩
abbrev S1024x832 : Shape := ⟨2, ![1024, 832]⟩
abbrev S100096 : Shape := ⟨1, ![100096]⟩
abbrev S208 : Shape := ⟨1, ![208]⟩
abbrev S832 : Shape := ⟨1, ![832]⟩
abbrev S1x208 : Shape := ⟨2, ![1, 208]⟩
abbrev S1x832 : Shape := ⟨2, ![1, 832]⟩
abbrev S1024x4x208 : Shape := ⟨3, ![1024, 4, 208]⟩
abbrev S4x208x1024 : Shape := ⟨3, ![4, 208, 1024]⟩
abbrev S200x16x1024 : Shape := ⟨3, ![200, 16, 1024]⟩
abbrev S4x208x512 : Shape := ⟨3, ![4, 208, 512]⟩
abbrev S200x16x512 : Shape := ⟨3, ![200, 16, 512]⟩
abbrev S1x1x512 : Shape := ⟨3, ![1, 1, 512]⟩
abbrev S1x512 : Shape := ⟨2, ![1, 512]⟩
abbrev S16x512 : Shape := ⟨2, ![16, 512]⟩
abbrev S1x16x512 : Shape := ⟨3, ![1, 16, 512]⟩
abbrev S1024x200x16 : Shape := ⟨3, ![1024, 200, 16]⟩

abbrev nBuf : Table → Nat
  | .hbm => 19
  | .local .tc .vmem => 10
  | .local .scVector .vmem => 7
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S16x1, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S_, .i32⟩
  | .hbm, ⟨7, _⟩ => ⟨S1024x8, .i32⟩
  | .hbm, ⟨8, _⟩ => ⟨S1024x208, .i32⟩
  | .hbm, ⟨9, _⟩ => ⟨S1024x208, .i32⟩
  | .hbm, ⟨10, _⟩ => ⟨S1024x832, .i32⟩
  | .hbm, ⟨11, _⟩ => ⟨S1024x4x208, .i32⟩
  | .hbm, ⟨12, _⟩ => ⟨S4x208x1024, .i32⟩
  | .hbm, ⟨13, _⟩ => ⟨S16x1, .f32⟩
  | .hbm, ⟨14, _⟩ => ⟨S16x1, .f32⟩
  | .hbm, ⟨15, _⟩ => ⟨S200x16x1024, .f32⟩
  | .hbm, ⟨16, _⟩ => ⟨S200x16x1024, .f32⟩
  | .hbm, ⟨17, _⟩ => ⟨S1024x200x16, .f32⟩
  | .hbm, ⟨18, _⟩ => ⟨S1024x200x16, .f32⟩
  | .local .tc .vmem, ⟨0, _⟩ => ⟨S4x208x512, .i32⟩
  | .local .tc .vmem, ⟨1, _⟩ => ⟨S4x208x512, .i32⟩
  | .local .tc .vmem, ⟨2, _⟩ => ⟨S16x1, .f32⟩
  | .local .tc .vmem, ⟨3, _⟩ => ⟨S16x1, .f32⟩
  | .local .tc .vmem, ⟨4, _⟩ => ⟨S16x16, .f32⟩
  | .local .tc .vmem, ⟨5, _⟩ => ⟨S16x1, .f32⟩
  | .local .tc .vmem, ⟨6, _⟩ => ⟨S200x16x512, .f32⟩
  | .local .tc .vmem, ⟨7, _⟩ => ⟨S200x16x512, .f32⟩
  | .local .tc .vmem, ⟨8, _⟩ => ⟨S200x16x512, .f32⟩
  | .local .tc .vmem, ⟨9, _⟩ => ⟨S200x16x512, .f32⟩
  | .local .scVector .vmem, ⟨0, _⟩ => ⟨S100096, .i32⟩
  | .local .scVector .vmem, ⟨1, _⟩ => ⟨S208, .i32⟩
  | .local .scVector .vmem, ⟨2, _⟩ => ⟨S208, .i32⟩
  | .local .scVector .vmem, ⟨3, _⟩ => ⟨S208, .i32⟩
  | .local .scVector .vmem, ⟨4, _⟩ => ⟨S208, .i32⟩
  | .local .scVector .vmem, ⟨5, _⟩ => ⟨S832, .i32⟩
  | .local .scVector .vmem, ⟨6, _⟩ => ⟨S832, .i32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v1_scv : Ref sig .scVector := ⟨.hbm, 8, rfl⟩
abbrev main_v2_scv : Ref sig .scVector := ⟨.hbm, 9, rfl⟩
abbrev main_v3_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc1_stg6_0 : Ref sig .tc := ⟨.vmem, 8, rfl⟩
abbrev cc1_stg6_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c782_i32 : BitVec 32 := 782#32
  let v5 : BitVec 32 := Scalar.addi c0_i32_1 c782_i32
  let c1_i32_2 : BitVec 32 := 1#32
  ⟨c0_i32_1, v5, c1_i32_2⟩
def k0_off1 (k0_t1 : Fin k0_t1_loop.trips) (c0_i32_25 : BitVec 32) : Fin 1 → Nat :=
  let c0_i32_1 : BitVec 32 := 0#32
  let c1_i32_2 : BitVec 32 := 1#32
  let arg18 : BitVec 32 := Scf.iv c0_i32_1 c1_i32_2 k0_t1
  let c8_i32 : BitVec 32 := 8#32
  let v36 : BitVec 32 := Scalar.muli arg18 c8_i32
  let v37 : BitVec 32 := Scalar.addi v36 c0_i32_25
  let c16_i32_26 : BitVec 32 := 16#32
  let v38 : BitVec 32 := Scalar.muli v37 c16_i32_26
  let v39 : Index := Scalar.indexCast v38
  ![v39.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_4 : BitVec 32 := 0#32
  ![v2.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_8 : BitVec 32 := 1#32
  let v14 : BitVec 32 := Scalar.addi v2 c1_i32_8
  let c0_i32_9 : BitVec 32 := 0#32
  ![v14.toNat, 0]
@[reducible] def k0_t2_loop : Scf.Loop 32 :=
  let c0_i32_15 : BitVec 32 := 0#32
  let c16_i32 : BitVec 32 := 16#32
  let v24 : BitVec 32 := Scalar.addi c0_i32_15 c16_i32
  let c1_i32_16 : BitVec 32 := 1#32
  ⟨c0_i32_15, v24, c1_i32_16⟩
def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_25 : BitVec 32 := 2#32
  let c0_i32_15 : BitVec 32 := 0#32
  let c1_i32_16 : BitVec 32 := 1#32
  let arg18 : BitVec 32 := Scf.iv c0_i32_15 c1_i32_16 k0_t2
  let v36 : BitVec 32 := Scalar.muli c2_i32_25 arg18
  let v37 : BitVec 32 := Scalar.addi v2 v36
  let c0_i32_26 : BitVec 32 := 0#32
  ![v37.toNat, 0]
def k0_cond1 (k0_t2 : Fin k0_t2_loop.trips) : BitVec 1 :=
  let c0_i32_15 : BitVec 32 := 0#32
  let c1_i32_16 : BitVec 32 := 1#32
  let arg18 : BitVec 32 := Scf.iv c0_i32_15 c1_i32_16 k0_t2
  let c1_i32_43 : BitVec 32 := 1#32
  let v72 : BitVec 32 := Scalar.addi arg18 c1_i32_43
  let c16_i32_44 : BitVec 32 := 16#32
  let v73 : BitVec 1 := Scalar.cmpi .slt v72 c16_i32_44
  let v74 : BitVec 32 := Scalar.extui v73
  let c0_i32_45 : BitVec 32 := 0#32
  let v75 : BitVec 1 := Scalar.cmpi .ne v74 c0_i32_45
  v75

def k0_off5 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_25 : BitVec 32 := 2#32
  let c0_i32_15 : BitVec 32 := 0#32
  let c1_i32_16 : BitVec 32 := 1#32
  let arg18 : BitVec 32 := Scf.iv c0_i32_15 c1_i32_16 k0_t2
  let v36 : BitVec 32 := Scalar.muli c2_i32_25 arg18
  let v37 : BitVec 32 := Scalar.addi v2 v36
  let c2_i32_361 : BitVec 32 := 2#32
  let v753 : BitVec 32 := Scalar.addi v37 c2_i32_361
  let c0_i32_362 : BitVec 32 := 0#32
  ![v753.toNat, 0]
def k0_cond2 (k0_t2 : Fin k0_t2_loop.trips) : BitVec 1 :=
  let c0_i32_15 : BitVec 32 := 0#32
  let c1_i32_16 : BitVec 32 := 1#32
  let arg18 : BitVec 32 := Scf.iv c0_i32_15 c1_i32_16 k0_t2
  let c0_i32_46 : BitVec 32 := 0#32
  let v76 : BitVec 1 := Scalar.cmpi .sgt arg18 c0_i32_46
  let v77 : BitVec 32 := Scalar.extui v76
  let c0_i32_47 : BitVec 32 := 0#32
  let v78 : BitVec 1 := Scalar.cmpi .ne v77 c0_i32_47
  v78

def k0_off6 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_25 : BitVec 32 := 2#32
  let c0_i32_15 : BitVec 32 := 0#32
  let c1_i32_16 : BitVec 32 := 1#32
  let arg18 : BitVec 32 := Scf.iv c0_i32_15 c1_i32_16 k0_t2
  let v36 : BitVec 32 := Scalar.muli c2_i32_25 arg18
  let v37 : BitVec 32 := Scalar.addi v2 v36
  let c2_i32_361 : BitVec 32 := 2#32
  let v753 : BitVec 32 := Scalar.subi v37 c2_i32_361
  let c0_i32_362 : BitVec 32 := 0#32
  ![v753.toNat, 0]

def k0_chk1 (v46 : IVec S16 32) : Prop :=
  (∀ a x, ((![v46] : Fin 1 → IVec S16 32) a x).toNat < S100096.size a) ∧
  (∀ a x, ((![v46] : Fin 1 → IVec S16 32) a x).toNat < S100096.size a) ∧
  (∀ a x, ((![v46] : Fin 1 → IVec S16 32) a x).toNat < S100096.size a) ∧
  (∀ a x, ((![v46] : Fin 1 → IVec S16 32) a x).toNat < S100096.size a)
instance k0_chk1.dec : ∀ (v46 : IVec S16 32), Decidable (k0_chk1 v46) := fun v46 => decidable_of_iff' _ (Iff.of_eq (k0_chk1.eq_1 v46))
theorem k0_idx1_inb : ∀ (v46 : IVec S16 32) (k0_hw1 : k0_chk1 v46), ∀ a x, ((![v46] : Fin 1 → IVec S16 32) a x).toNat < S100096.size a := fun v46 k0_hw1 => k0_hw1.1
theorem k0_idx14_inb : ∀ (v46 : IVec S16 32) (k0_hw1 : k0_chk1 v46), ∀ a x, ((![v46] : Fin 1 → IVec S16 32) a x).toNat < S100096.size a := fun v46 k0_hw1 => k0_hw1.2.1
theorem k0_idx40_inb : ∀ (v46 : IVec S16 32) (k0_hw1 : k0_chk1 v46), ∀ a x, ((![v46] : Fin 1 → IVec S16 32) a x).toNat < S100096.size a := fun v46 k0_hw1 => k0_hw1.2.2.1
theorem k0_idx67_inb : ∀ (v46 : IVec S16 32) (k0_hw1 : k0_chk1 v46), ∀ a x, ((![v46] : Fin 1 → IVec S16 32) a x).toNat < S100096.size a := fun v46 k0_hw1 => k0_hw1.2.2.2

def k0_chk2 (v47 : IVec S16 32) : Prop :=
  (∀ a x, ((![v47] : Fin 1 → IVec S16 32) a x).toNat < S100096.size a) ∧
  (∀ a x, ((![v47] : Fin 1 → IVec S16 32) a x).toNat < S100096.size a) ∧
  (∀ a x, ((![v47] : Fin 1 → IVec S16 32) a x).toNat < S100096.size a) ∧
  (∀ a x, ((![v47] : Fin 1 → IVec S16 32) a x).toNat < S100096.size a)
instance k0_chk2.dec : ∀ (v47 : IVec S16 32), Decidable (k0_chk2 v47) := fun v47 => decidable_of_iff' _ (Iff.of_eq (k0_chk2.eq_1 v47))
theorem k0_idx2_inb : ∀ (v47 : IVec S16 32) (k0_hw2 : k0_chk2 v47), ∀ a x, ((![v47] : Fin 1 → IVec S16 32) a x).toNat < S100096.size a := fun v47 k0_hw2 => k0_hw2.1
theorem k0_idx16_inb : ∀ (v47 : IVec S16 32) (k0_hw2 : k0_chk2 v47), ∀ a x, ((![v47] : Fin 1 → IVec S16 32) a x).toNat < S100096.size a := fun v47 k0_hw2 => k0_hw2.2.1
theorem k0_idx41_inb : ∀ (v47 : IVec S16 32) (k0_hw2 : k0_chk2 v47), ∀ a x, ((![v47] : Fin 1 → IVec S16 32) a x).toNat < S100096.size a := fun v47 k0_hw2 => k0_hw2.2.2.1
theorem k0_idx69_inb : ∀ (v47 : IVec S16 32) (k0_hw2 : k0_chk2 v47), ∀ a x, ((![v47] : Fin 1 → IVec S16 32) a x).toNat < S100096.size a := fun v47 k0_hw2 => k0_hw2.2.2.2

def k0_chk3 (v48 : IVec S16 32) : Prop :=
  (∀ a x, ((![v48] : Fin 1 → IVec S16 32) a x).toNat < S100096.size a) ∧
  (∀ a x, ((![v48] : Fin 1 → IVec S16 32) a x).toNat < S100096.size a) ∧
  (∀ a x, ((![v48] : Fin 1 → IVec S16 32) a x).toNat < S100096.size a) ∧
  (∀ a x, ((![v48] : Fin 1 → IVec S16 32) a x).toNat < S100096.size a)
instance k0_chk3.dec : ∀ (v48 : IVec S16 32), Decidable (k0_chk3 v48) := fun v48 => decidable_of_iff' _ (Iff.of_eq (k0_chk3.eq_1 v48))
theorem k0_idx3_inb : ∀ (v48 : IVec S16 32) (k0_hw3 : k0_chk3 v48), ∀ a x, ((![v48] : Fin 1 → IVec S16 32) a x).toNat < S100096.size a := fun v48 k0_hw3 => k0_hw3.1
theorem k0_idx18_inb : ∀ (v48 : IVec S16 32) (k0_hw3 : k0_chk3 v48), ∀ a x, ((![v48] : Fin 1 → IVec S16 32) a x).toNat < S100096.size a := fun v48 k0_hw3 => k0_hw3.2.1
theorem k0_idx42_inb : ∀ (v48 : IVec S16 32) (k0_hw3 : k0_chk3 v48), ∀ a x, ((![v48] : Fin 1 → IVec S16 32) a x).toNat < S100096.size a := fun v48 k0_hw3 => k0_hw3.2.2.1
theorem k0_idx71_inb : ∀ (v48 : IVec S16 32) (k0_hw3 : k0_chk3 v48), ∀ a x, ((![v48] : Fin 1 → IVec S16 32) a x).toNat < S100096.size a := fun v48 k0_hw3 => k0_hw3.2.2.2

def k0_chk4 (v49 : IVec S16 32) : Prop :=
  (∀ a x, ((![v49] : Fin 1 → IVec S16 32) a x).toNat < S100096.size a) ∧
  (∀ a x, ((![v49] : Fin 1 → IVec S16 32) a x).toNat < S100096.size a) ∧
  (∀ a x, ((![v49] : Fin 1 → IVec S16 32) a x).toNat < S100096.size a) ∧
  (∀ a x, ((![v49] : Fin 1 → IVec S16 32) a x).toNat < S100096.size a)
instance k0_chk4.dec : ∀ (v49 : IVec S16 32), Decidable (k0_chk4 v49) := fun v49 => decidable_of_iff' _ (Iff.of_eq (k0_chk4.eq_1 v49))
theorem k0_idx4_inb : ∀ (v49 : IVec S16 32) (k0_hw4 : k0_chk4 v49), ∀ a x, ((![v49] : Fin 1 → IVec S16 32) a x).toNat < S100096.size a := fun v49 k0_hw4 => k0_hw4.1
theorem k0_idx20_inb : ∀ (v49 : IVec S16 32) (k0_hw4 : k0_chk4 v49), ∀ a x, ((![v49] : Fin 1 → IVec S16 32) a x).toNat < S100096.size a := fun v49 k0_hw4 => k0_hw4.2.1
theorem k0_idx43_inb : ∀ (v49 : IVec S16 32) (k0_hw4 : k0_chk4 v49), ∀ a x, ((![v49] : Fin 1 → IVec S16 32) a x).toNat < S100096.size a := fun v49 k0_hw4 => k0_hw4.2.2.1
theorem k0_idx73_inb : ∀ (v49 : IVec S16 32) (k0_hw4 : k0_chk4 v49), ∀ a x, ((![v49] : Fin 1 → IVec S16 32) a x).toNat < S100096.size a := fun v49 k0_hw4 => k0_hw4.2.2.2

def k0_chk5 (v50 : IVec S16 32) : Prop :=
  (∀ a x, ((![v50] : Fin 1 → IVec S16 32) a x).toNat < S100096.size a) ∧
  (∀ a x, ((![v50] : Fin 1 → IVec S16 32) a x).toNat < S100096.size a) ∧
  (∀ a x, ((![v50] : Fin 1 → IVec S16 32) a x).toNat < S100096.size a) ∧
  (∀ a x, ((![v50] : Fin 1 → IVec S16 32) a x).toNat < S100096.size a)
instance k0_chk5.dec : ∀ (v50 : IVec S16 32), Decidable (k0_chk5 v50) := fun v50 => decidable_of_iff' _ (Iff.of_eq (k0_chk5.eq_1 v50))
theorem k0_idx5_inb : ∀ (v50 : IVec S16 32) (k0_hw5 : k0_chk5 v50), ∀ a x, ((![v50] : Fin 1 → IVec S16 32) a x).toNat < S100096.size a := fun v50 k0_hw5 => k0_hw5.1
theorem k0_idx22_inb : ∀ (v50 : IVec S16 32) (k0_hw5 : k0_chk5 v50), ∀ a x, ((![v50] : Fin 1 → IVec S16 32) a x).toNat < S100096.size a := fun v50 k0_hw5 => k0_hw5.2.1
theorem k0_idx44_inb : ∀ (v50 : IVec S16 32) (k0_hw5 : k0_chk5 v50), ∀ a x, ((![v50] : Fin 1 → IVec S16 32) a x).toNat < S100096.size a := fun v50 k0_hw5 => k0_hw5.2.2.1
theorem k0_idx75_inb : ∀ (v50 : IVec S16 32) (k0_hw5 : k0_chk5 v50), ∀ a x, ((![v50] : Fin 1 → IVec S16 32) a x).toNat < S100096.size a := fun v50 k0_hw5 => k0_hw5.2.2.2

def k0_chk6 (v51 : IVec S16 32) : Prop :=
  (∀ a x, ((![v51] : Fin 1 → IVec S16 32) a x).toNat < S100096.size a) ∧
  (∀ a x, ((![v51] : Fin 1 → IVec S16 32) a x).toNat < S100096.size a) ∧
  (∀ a x, ((![v51] : Fin 1 → IVec S16 32) a x).toNat < S100096.size a) ∧
  (∀ a x, ((![v51] : Fin 1 → IVec S16 32) a x).toNat < S100096.size a)
instance k0_chk6.dec : ∀ (v51 : IVec S16 32), Decidable (k0_chk6 v51) := fun v51 => decidable_of_iff' _ (Iff.of_eq (k0_chk6.eq_1 v51))
theorem k0_idx6_inb : ∀ (v51 : IVec S16 32) (k0_hw6 : k0_chk6 v51), ∀ a x, ((![v51] : Fin 1 → IVec S16 32) a x).toNat < S100096.size a := fun v51 k0_hw6 => k0_hw6.1
theorem k0_idx24_inb : ∀ (v51 : IVec S16 32) (k0_hw6 : k0_chk6 v51), ∀ a x, ((![v51] : Fin 1 → IVec S16 32) a x).toNat < S100096.size a := fun v51 k0_hw6 => k0_hw6.2.1
theorem k0_idx45_inb : ∀ (v51 : IVec S16 32) (k0_hw6 : k0_chk6 v51), ∀ a x, ((![v51] : Fin 1 → IVec S16 32) a x).toNat < S100096.size a := fun v51 k0_hw6 => k0_hw6.2.2.1
theorem k0_idx77_inb : ∀ (v51 : IVec S16 32) (k0_hw6 : k0_chk6 v51), ∀ a x, ((![v51] : Fin 1 → IVec S16 32) a x).toNat < S100096.size a := fun v51 k0_hw6 => k0_hw6.2.2.2

def k0_chk7 (v52 : IVec S16 32) : Prop :=
  (∀ a x, ((![v52] : Fin 1 → IVec S16 32) a x).toNat < S100096.size a) ∧
  (∀ a x, ((![v52] : Fin 1 → IVec S16 32) a x).toNat < S100096.size a) ∧
  (∀ a x, ((![v52] : Fin 1 → IVec S16 32) a x).toNat < S100096.size a) ∧
  (∀ a x, ((![v52] : Fin 1 → IVec S16 32) a x).toNat < S100096.size a)
instance k0_chk7.dec : ∀ (v52 : IVec S16 32), Decidable (k0_chk7 v52) := fun v52 => decidable_of_iff' _ (Iff.of_eq (k0_chk7.eq_1 v52))
theorem k0_idx7_inb : ∀ (v52 : IVec S16 32) (k0_hw7 : k0_chk7 v52), ∀ a x, ((![v52] : Fin 1 → IVec S16 32) a x).toNat < S100096.size a := fun v52 k0_hw7 => k0_hw7.1
theorem k0_idx26_inb : ∀ (v52 : IVec S16 32) (k0_hw7 : k0_chk7 v52), ∀ a x, ((![v52] : Fin 1 → IVec S16 32) a x).toNat < S100096.size a := fun v52 k0_hw7 => k0_hw7.2.1
theorem k0_idx46_inb : ∀ (v52 : IVec S16 32) (k0_hw7 : k0_chk7 v52), ∀ a x, ((![v52] : Fin 1 → IVec S16 32) a x).toNat < S100096.size a := fun v52 k0_hw7 => k0_hw7.2.2.1
theorem k0_idx79_inb : ∀ (v52 : IVec S16 32) (k0_hw7 : k0_chk7 v52), ∀ a x, ((![v52] : Fin 1 → IVec S16 32) a x).toNat < S100096.size a := fun v52 k0_hw7 => k0_hw7.2.2.2

def k0_chk8 (v53 : IVec S16 32) : Prop :=
  (∀ a x, ((![v53] : Fin 1 → IVec S16 32) a x).toNat < S100096.size a) ∧
  (∀ a x, ((![v53] : Fin 1 → IVec S16 32) a x).toNat < S100096.size a) ∧
  (∀ a x, ((![v53] : Fin 1 → IVec S16 32) a x).toNat < S100096.size a) ∧
  (∀ a x, ((![v53] : Fin 1 → IVec S16 32) a x).toNat < S100096.size a)
instance k0_chk8.dec : ∀ (v53 : IVec S16 32), Decidable (k0_chk8 v53) := fun v53 => decidable_of_iff' _ (Iff.of_eq (k0_chk8.eq_1 v53))
theorem k0_idx8_inb : ∀ (v53 : IVec S16 32) (k0_hw8 : k0_chk8 v53), ∀ a x, ((![v53] : Fin 1 → IVec S16 32) a x).toNat < S100096.size a := fun v53 k0_hw8 => k0_hw8.1
theorem k0_idx28_inb : ∀ (v53 : IVec S16 32) (k0_hw8 : k0_chk8 v53), ∀ a x, ((![v53] : Fin 1 → IVec S16 32) a x).toNat < S100096.size a := fun v53 k0_hw8 => k0_hw8.2.1
theorem k0_idx47_inb : ∀ (v53 : IVec S16 32) (k0_hw8 : k0_chk8 v53), ∀ a x, ((![v53] : Fin 1 → IVec S16 32) a x).toNat < S100096.size a := fun v53 k0_hw8 => k0_hw8.2.2.1
theorem k0_idx81_inb : ∀ (v53 : IVec S16 32) (k0_hw8 : k0_chk8 v53), ∀ a x, ((![v53] : Fin 1 → IVec S16 32) a x).toNat < S100096.size a := fun v53 k0_hw8 => k0_hw8.2.2.2

def k0_chk9 (v54 : IVec S16 32) : Prop :=
  (∀ a x, ((![v54] : Fin 1 → IVec S16 32) a x).toNat < S100096.size a) ∧
  (∀ a x, ((![v54] : Fin 1 → IVec S16 32) a x).toNat < S100096.size a) ∧
  (∀ a x, ((![v54] : Fin 1 → IVec S16 32) a x).toNat < S100096.size a) ∧
  (∀ a x, ((![v54] : Fin 1 → IVec S16 32) a x).toNat < S100096.size a)
instance k0_chk9.dec : ∀ (v54 : IVec S16 32), Decidable (k0_chk9 v54) := fun v54 => decidable_of_iff' _ (Iff.of_eq (k0_chk9.eq_1 v54))
theorem k0_idx9_inb : ∀ (v54 : IVec S16 32) (k0_hw9 : k0_chk9 v54), ∀ a x, ((![v54] : Fin 1 → IVec S16 32) a x).toNat < S100096.size a := fun v54 k0_hw9 => k0_hw9.1
theorem k0_idx30_inb : ∀ (v54 : IVec S16 32) (k0_hw9 : k0_chk9 v54), ∀ a x, ((![v54] : Fin 1 → IVec S16 32) a x).toNat < S100096.size a := fun v54 k0_hw9 => k0_hw9.2.1
theorem k0_idx48_inb : ∀ (v54 : IVec S16 32) (k0_hw9 : k0_chk9 v54), ∀ a x, ((![v54] : Fin 1 → IVec S16 32) a x).toNat < S100096.size a := fun v54 k0_hw9 => k0_hw9.2.2.1
theorem k0_idx83_inb : ∀ (v54 : IVec S16 32) (k0_hw9 : k0_chk9 v54), ∀ a x, ((![v54] : Fin 1 → IVec S16 32) a x).toNat < S100096.size a := fun v54 k0_hw9 => k0_hw9.2.2.2

def k0_chk10 (v55 : IVec S16 32) : Prop :=
  (∀ a x, ((![v55] : Fin 1 → IVec S16 32) a x).toNat < S100096.size a) ∧
  (∀ a x, ((![v55] : Fin 1 → IVec S16 32) a x).toNat < S100096.size a) ∧
  (∀ a x, ((![v55] : Fin 1 → IVec S16 32) a x).toNat < S100096.size a) ∧
  (∀ a x, ((![v55] : Fin 1 → IVec S16 32) a x).toNat < S100096.size a)
instance k0_chk10.dec : ∀ (v55 : IVec S16 32), Decidable (k0_chk10 v55) := fun v55 => decidable_of_iff' _ (Iff.of_eq (k0_chk10.eq_1 v55))
theorem k0_idx10_inb : ∀ (v55 : IVec S16 32) (k0_hw10 : k0_chk10 v55), ∀ a x, ((![v55] : Fin 1 → IVec S16 32) a x).toNat < S100096.size a := fun v55 k0_hw10 => k0_hw10.1
theorem k0_idx32_inb : ∀ (v55 : IVec S16 32) (k0_hw10 : k0_chk10 v55), ∀ a x, ((![v55] : Fin 1 → IVec S16 32) a x).toNat < S100096.size a := fun v55 k0_hw10 => k0_hw10.2.1
theorem k0_idx49_inb : ∀ (v55 : IVec S16 32) (k0_hw10 : k0_chk10 v55), ∀ a x, ((![v55] : Fin 1 → IVec S16 32) a x).toNat < S100096.size a := fun v55 k0_hw10 => k0_hw10.2.2.1
theorem k0_idx85_inb : ∀ (v55 : IVec S16 32) (k0_hw10 : k0_chk10 v55), ∀ a x, ((![v55] : Fin 1 → IVec S16 32) a x).toNat < S100096.size a := fun v55 k0_hw10 => k0_hw10.2.2.2

def k0_chk11 (v56 : IVec S16 32) : Prop :=
  (∀ a x, ((![v56] : Fin 1 → IVec S16 32) a x).toNat < S100096.size a) ∧
  (∀ a x, ((![v56] : Fin 1 → IVec S16 32) a x).toNat < S100096.size a) ∧
  (∀ a x, ((![v56] : Fin 1 → IVec S16 32) a x).toNat < S100096.size a) ∧
  (∀ a x, ((![v56] : Fin 1 → IVec S16 32) a x).toNat < S100096.size a)
instance k0_chk11.dec : ∀ (v56 : IVec S16 32), Decidable (k0_chk11 v56) := fun v56 => decidable_of_iff' _ (Iff.of_eq (k0_chk11.eq_1 v56))
theorem k0_idx11_inb : ∀ (v56 : IVec S16 32) (k0_hw11 : k0_chk11 v56), ∀ a x, ((![v56] : Fin 1 → IVec S16 32) a x).toNat < S100096.size a := fun v56 k0_hw11 => k0_hw11.1
theorem k0_idx34_inb : ∀ (v56 : IVec S16 32) (k0_hw11 : k0_chk11 v56), ∀ a x, ((![v56] : Fin 1 → IVec S16 32) a x).toNat < S100096.size a := fun v56 k0_hw11 => k0_hw11.2.1
theorem k0_idx50_inb : ∀ (v56 : IVec S16 32) (k0_hw11 : k0_chk11 v56), ∀ a x, ((![v56] : Fin 1 → IVec S16 32) a x).toNat < S100096.size a := fun v56 k0_hw11 => k0_hw11.2.2.1
theorem k0_idx87_inb : ∀ (v56 : IVec S16 32) (k0_hw11 : k0_chk11 v56), ∀ a x, ((![v56] : Fin 1 → IVec S16 32) a x).toNat < S100096.size a := fun v56 k0_hw11 => k0_hw11.2.2.2

def k0_chk12 (v57 : IVec S16 32) : Prop :=
  (∀ a x, ((![v57] : Fin 1 → IVec S16 32) a x).toNat < S100096.size a) ∧
  (∀ a x, ((![v57] : Fin 1 → IVec S16 32) a x).toNat < S100096.size a) ∧
  (∀ a x, ((![v57] : Fin 1 → IVec S16 32) a x).toNat < S100096.size a) ∧
  (∀ a x, ((![v57] : Fin 1 → IVec S16 32) a x).toNat < S100096.size a)
instance k0_chk12.dec : ∀ (v57 : IVec S16 32), Decidable (k0_chk12 v57) := fun v57 => decidable_of_iff' _ (Iff.of_eq (k0_chk12.eq_1 v57))
theorem k0_idx12_inb : ∀ (v57 : IVec S16 32) (k0_hw12 : k0_chk12 v57), ∀ a x, ((![v57] : Fin 1 → IVec S16 32) a x).toNat < S100096.size a := fun v57 k0_hw12 => k0_hw12.1
theorem k0_idx36_inb : ∀ (v57 : IVec S16 32) (k0_hw12 : k0_chk12 v57), ∀ a x, ((![v57] : Fin 1 → IVec S16 32) a x).toNat < S100096.size a := fun v57 k0_hw12 => k0_hw12.2.1
theorem k0_idx51_inb : ∀ (v57 : IVec S16 32) (k0_hw12 : k0_chk12 v57), ∀ a x, ((![v57] : Fin 1 → IVec S16 32) a x).toNat < S100096.size a := fun v57 k0_hw12 => k0_hw12.2.2.1
theorem k0_idx89_inb : ∀ (v57 : IVec S16 32) (k0_hw12 : k0_chk12 v57), ∀ a x, ((![v57] : Fin 1 → IVec S16 32) a x).toNat < S100096.size a := fun v57 k0_hw12 => k0_hw12.2.2.2

def k0_chk13 (v58 : IVec S16 32) : Prop :=
  (∀ a x, ((![v58] : Fin 1 → IVec S16 32) a x).toNat < S100096.size a) ∧
  (∀ a x, ((![v58] : Fin 1 → IVec S16 32) a x).toNat < S100096.size a) ∧
  (∀ a x, ((![v58] : Fin 1 → IVec S16 32) a x).toNat < S100096.size a) ∧
  (∀ a x, ((![v58] : Fin 1 → IVec S16 32) a x).toNat < S100096.size a)
instance k0_chk13.dec : ∀ (v58 : IVec S16 32), Decidable (k0_chk13 v58) := fun v58 => decidable_of_iff' _ (Iff.of_eq (k0_chk13.eq_1 v58))
theorem k0_idx13_inb : ∀ (v58 : IVec S16 32) (k0_hw13 : k0_chk13 v58), ∀ a x, ((![v58] : Fin 1 → IVec S16 32) a x).toNat < S100096.size a := fun v58 k0_hw13 => k0_hw13.1
theorem k0_idx38_inb : ∀ (v58 : IVec S16 32) (k0_hw13 : k0_chk13 v58), ∀ a x, ((![v58] : Fin 1 → IVec S16 32) a x).toNat < S100096.size a := fun v58 k0_hw13 => k0_hw13.2.1
theorem k0_idx52_inb : ∀ (v58 : IVec S16 32) (k0_hw13 : k0_chk13 v58), ∀ a x, ((![v58] : Fin 1 → IVec S16 32) a x).toNat < S100096.size a := fun v58 k0_hw13 => k0_hw13.2.2.1
theorem k0_idx91_inb : ∀ (v58 : IVec S16 32) (k0_hw13 : k0_chk13 v58), ∀ a x, ((![v58] : Fin 1 → IVec S16 32) a x).toNat < S100096.size a := fun v58 k0_hw13 => k0_hw13.2.2.2

def k0_chk14 (v59 : IVec S16 32) : Prop :=
  (∀ a x, ((![v59] : Fin 1 → IVec S16 32) a x).toNat < S100096.size a) ∧
  (∀ a x, ((![v59] : Fin 1 → IVec S16 32) a x).toNat < S100096.size a) ∧
  (∀ a x, ((![v59] : Fin 1 → IVec S16 32) a x).toNat < S100096.size a) ∧
  (∀ a x, ((![v59] : Fin 1 → IVec S16 32) a x).toNat < S100096.size a)
instance k0_chk14.dec : ∀ (v59 : IVec S16 32), Decidable (k0_chk14 v59) := fun v59 => decidable_of_iff' _ (Iff.of_eq (k0_chk14.eq_1 v59))
theorem k0_idx15_inb : ∀ (v59 : IVec S16 32) (k0_hw14 : k0_chk14 v59), ∀ a x, ((![v59] : Fin 1 → IVec S16 32) a x).toNat < S100096.size a := fun v59 k0_hw14 => k0_hw14.1
theorem k0_idx53_inb : ∀ (v59 : IVec S16 32) (k0_hw14 : k0_chk14 v59), ∀ a x, ((![v59] : Fin 1 → IVec S16 32) a x).toNat < S100096.size a := fun v59 k0_hw14 => k0_hw14.2.1
theorem k0_idx66_inb : ∀ (v59 : IVec S16 32) (k0_hw14 : k0_chk14 v59), ∀ a x, ((![v59] : Fin 1 → IVec S16 32) a x).toNat < S100096.size a := fun v59 k0_hw14 => k0_hw14.2.2.1
theorem k0_idx92_inb : ∀ (v59 : IVec S16 32) (k0_hw14 : k0_chk14 v59), ∀ a x, ((![v59] : Fin 1 → IVec S16 32) a x).toNat < S100096.size a := fun v59 k0_hw14 => k0_hw14.2.2.2

def k0_chk15 (v60 : IVec S16 32) : Prop :=
  (∀ a x, ((![v60] : Fin 1 → IVec S16 32) a x).toNat < S100096.size a) ∧
  (∀ a x, ((![v60] : Fin 1 → IVec S16 32) a x).toNat < S100096.size a) ∧
  (∀ a x, ((![v60] : Fin 1 → IVec S16 32) a x).toNat < S100096.size a) ∧
  (∀ a x, ((![v60] : Fin 1 → IVec S16 32) a x).toNat < S100096.size a)
instance k0_chk15.dec : ∀ (v60 : IVec S16 32), Decidable (k0_chk15 v60) := fun v60 => decidable_of_iff' _ (Iff.of_eq (k0_chk15.eq_1 v60))
theorem k0_idx17_inb : ∀ (v60 : IVec S16 32) (k0_hw15 : k0_chk15 v60), ∀ a x, ((![v60] : Fin 1 → IVec S16 32) a x).toNat < S100096.size a := fun v60 k0_hw15 => k0_hw15.1
theorem k0_idx54_inb : ∀ (v60 : IVec S16 32) (k0_hw15 : k0_chk15 v60), ∀ a x, ((![v60] : Fin 1 → IVec S16 32) a x).toNat < S100096.size a := fun v60 k0_hw15 => k0_hw15.2.1
theorem k0_idx68_inb : ∀ (v60 : IVec S16 32) (k0_hw15 : k0_chk15 v60), ∀ a x, ((![v60] : Fin 1 → IVec S16 32) a x).toNat < S100096.size a := fun v60 k0_hw15 => k0_hw15.2.2.1
theorem k0_idx93_inb : ∀ (v60 : IVec S16 32) (k0_hw15 : k0_chk15 v60), ∀ a x, ((![v60] : Fin 1 → IVec S16 32) a x).toNat < S100096.size a := fun v60 k0_hw15 => k0_hw15.2.2.2

def k0_chk16 (v61 : IVec S16 32) : Prop :=
  (∀ a x, ((![v61] : Fin 1 → IVec S16 32) a x).toNat < S100096.size a) ∧
  (∀ a x, ((![v61] : Fin 1 → IVec S16 32) a x).toNat < S100096.size a) ∧
  (∀ a x, ((![v61] : Fin 1 → IVec S16 32) a x).toNat < S100096.size a) ∧
  (∀ a x, ((![v61] : Fin 1 → IVec S16 32) a x).toNat < S100096.size a)
instance k0_chk16.dec : ∀ (v61 : IVec S16 32), Decidable (k0_chk16 v61) := fun v61 => decidable_of_iff' _ (Iff.of_eq (k0_chk16.eq_1 v61))
theorem k0_idx19_inb : ∀ (v61 : IVec S16 32) (k0_hw16 : k0_chk16 v61), ∀ a x, ((![v61] : Fin 1 → IVec S16 32) a x).toNat < S100096.size a := fun v61 k0_hw16 => k0_hw16.1
theorem k0_idx55_inb : ∀ (v61 : IVec S16 32) (k0_hw16 : k0_chk16 v61), ∀ a x, ((![v61] : Fin 1 → IVec S16 32) a x).toNat < S100096.size a := fun v61 k0_hw16 => k0_hw16.2.1
theorem k0_idx70_inb : ∀ (v61 : IVec S16 32) (k0_hw16 : k0_chk16 v61), ∀ a x, ((![v61] : Fin 1 → IVec S16 32) a x).toNat < S100096.size a := fun v61 k0_hw16 => k0_hw16.2.2.1
theorem k0_idx94_inb : ∀ (v61 : IVec S16 32) (k0_hw16 : k0_chk16 v61), ∀ a x, ((![v61] : Fin 1 → IVec S16 32) a x).toNat < S100096.size a := fun v61 k0_hw16 => k0_hw16.2.2.2

def k0_chk17 (v62 : IVec S16 32) : Prop :=
  (∀ a x, ((![v62] : Fin 1 → IVec S16 32) a x).toNat < S100096.size a) ∧
  (∀ a x, ((![v62] : Fin 1 → IVec S16 32) a x).toNat < S100096.size a) ∧
  (∀ a x, ((![v62] : Fin 1 → IVec S16 32) a x).toNat < S100096.size a) ∧
  (∀ a x, ((![v62] : Fin 1 → IVec S16 32) a x).toNat < S100096.size a)
instance k0_chk17.dec : ∀ (v62 : IVec S16 32), Decidable (k0_chk17 v62) := fun v62 => decidable_of_iff' _ (Iff.of_eq (k0_chk17.eq_1 v62))
theorem k0_idx21_inb : ∀ (v62 : IVec S16 32) (k0_hw17 : k0_chk17 v62), ∀ a x, ((![v62] : Fin 1 → IVec S16 32) a x).toNat < S100096.size a := fun v62 k0_hw17 => k0_hw17.1
theorem k0_idx56_inb : ∀ (v62 : IVec S16 32) (k0_hw17 : k0_chk17 v62), ∀ a x, ((![v62] : Fin 1 → IVec S16 32) a x).toNat < S100096.size a := fun v62 k0_hw17 => k0_hw17.2.1
theorem k0_idx72_inb : ∀ (v62 : IVec S16 32) (k0_hw17 : k0_chk17 v62), ∀ a x, ((![v62] : Fin 1 → IVec S16 32) a x).toNat < S100096.size a := fun v62 k0_hw17 => k0_hw17.2.2.1
theorem k0_idx95_inb : ∀ (v62 : IVec S16 32) (k0_hw17 : k0_chk17 v62), ∀ a x, ((![v62] : Fin 1 → IVec S16 32) a x).toNat < S100096.size a := fun v62 k0_hw17 => k0_hw17.2.2.2

def k0_chk18 (v63 : IVec S16 32) : Prop :=
  (∀ a x, ((![v63] : Fin 1 → IVec S16 32) a x).toNat < S100096.size a) ∧
  (∀ a x, ((![v63] : Fin 1 → IVec S16 32) a x).toNat < S100096.size a) ∧
  (∀ a x, ((![v63] : Fin 1 → IVec S16 32) a x).toNat < S100096.size a) ∧
  (∀ a x, ((![v63] : Fin 1 → IVec S16 32) a x).toNat < S100096.size a)
instance k0_chk18.dec : ∀ (v63 : IVec S16 32), Decidable (k0_chk18 v63) := fun v63 => decidable_of_iff' _ (Iff.of_eq (k0_chk18.eq_1 v63))
theorem k0_idx23_inb : ∀ (v63 : IVec S16 32) (k0_hw18 : k0_chk18 v63), ∀ a x, ((![v63] : Fin 1 → IVec S16 32) a x).toNat < S100096.size a := fun v63 k0_hw18 => k0_hw18.1
theorem k0_idx57_inb : ∀ (v63 : IVec S16 32) (k0_hw18 : k0_chk18 v63), ∀ a x, ((![v63] : Fin 1 → IVec S16 32) a x).toNat < S100096.size a := fun v63 k0_hw18 => k0_hw18.2.1
theorem k0_idx74_inb : ∀ (v63 : IVec S16 32) (k0_hw18 : k0_chk18 v63), ∀ a x, ((![v63] : Fin 1 → IVec S16 32) a x).toNat < S100096.size a := fun v63 k0_hw18 => k0_hw18.2.2.1
theorem k0_idx96_inb : ∀ (v63 : IVec S16 32) (k0_hw18 : k0_chk18 v63), ∀ a x, ((![v63] : Fin 1 → IVec S16 32) a x).toNat < S100096.size a := fun v63 k0_hw18 => k0_hw18.2.2.2

def k0_chk19 (v64 : IVec S16 32) : Prop :=
  (∀ a x, ((![v64] : Fin 1 → IVec S16 32) a x).toNat < S100096.size a) ∧
  (∀ a x, ((![v64] : Fin 1 → IVec S16 32) a x).toNat < S100096.size a) ∧
  (∀ a x, ((![v64] : Fin 1 → IVec S16 32) a x).toNat < S100096.size a) ∧
  (∀ a x, ((![v64] : Fin 1 → IVec S16 32) a x).toNat < S100096.size a)
instance k0_chk19.dec : ∀ (v64 : IVec S16 32), Decidable (k0_chk19 v64) := fun v64 => decidable_of_iff' _ (Iff.of_eq (k0_chk19.eq_1 v64))
theorem k0_idx25_inb : ∀ (v64 : IVec S16 32) (k0_hw19 : k0_chk19 v64), ∀ a x, ((![v64] : Fin 1 → IVec S16 32) a x).toNat < S100096.size a := fun v64 k0_hw19 => k0_hw19.1
theorem k0_idx58_inb : ∀ (v64 : IVec S16 32) (k0_hw19 : k0_chk19 v64), ∀ a x, ((![v64] : Fin 1 → IVec S16 32) a x).toNat < S100096.size a := fun v64 k0_hw19 => k0_hw19.2.1
theorem k0_idx76_inb : ∀ (v64 : IVec S16 32) (k0_hw19 : k0_chk19 v64), ∀ a x, ((![v64] : Fin 1 → IVec S16 32) a x).toNat < S100096.size a := fun v64 k0_hw19 => k0_hw19.2.2.1
theorem k0_idx97_inb : ∀ (v64 : IVec S16 32) (k0_hw19 : k0_chk19 v64), ∀ a x, ((![v64] : Fin 1 → IVec S16 32) a x).toNat < S100096.size a := fun v64 k0_hw19 => k0_hw19.2.2.2

def k0_chk20 (v65 : IVec S16 32) : Prop :=
  (∀ a x, ((![v65] : Fin 1 → IVec S16 32) a x).toNat < S100096.size a) ∧
  (∀ a x, ((![v65] : Fin 1 → IVec S16 32) a x).toNat < S100096.size a) ∧
  (∀ a x, ((![v65] : Fin 1 → IVec S16 32) a x).toNat < S100096.size a) ∧
  (∀ a x, ((![v65] : Fin 1 → IVec S16 32) a x).toNat < S100096.size a)
instance k0_chk20.dec : ∀ (v65 : IVec S16 32), Decidable (k0_chk20 v65) := fun v65 => decidable_of_iff' _ (Iff.of_eq (k0_chk20.eq_1 v65))
theorem k0_idx27_inb : ∀ (v65 : IVec S16 32) (k0_hw20 : k0_chk20 v65), ∀ a x, ((![v65] : Fin 1 → IVec S16 32) a x).toNat < S100096.size a := fun v65 k0_hw20 => k0_hw20.1
theorem k0_idx59_inb : ∀ (v65 : IVec S16 32) (k0_hw20 : k0_chk20 v65), ∀ a x, ((![v65] : Fin 1 → IVec S16 32) a x).toNat < S100096.size a := fun v65 k0_hw20 => k0_hw20.2.1
theorem k0_idx78_inb : ∀ (v65 : IVec S16 32) (k0_hw20 : k0_chk20 v65), ∀ a x, ((![v65] : Fin 1 → IVec S16 32) a x).toNat < S100096.size a := fun v65 k0_hw20 => k0_hw20.2.2.1
theorem k0_idx98_inb : ∀ (v65 : IVec S16 32) (k0_hw20 : k0_chk20 v65), ∀ a x, ((![v65] : Fin 1 → IVec S16 32) a x).toNat < S100096.size a := fun v65 k0_hw20 => k0_hw20.2.2.2

def k0_chk21 (v66 : IVec S16 32) : Prop :=
  (∀ a x, ((![v66] : Fin 1 → IVec S16 32) a x).toNat < S100096.size a) ∧
  (∀ a x, ((![v66] : Fin 1 → IVec S16 32) a x).toNat < S100096.size a) ∧
  (∀ a x, ((![v66] : Fin 1 → IVec S16 32) a x).toNat < S100096.size a) ∧
  (∀ a x, ((![v66] : Fin 1 → IVec S16 32) a x).toNat < S100096.size a)
instance k0_chk21.dec : ∀ (v66 : IVec S16 32), Decidable (k0_chk21 v66) := fun v66 => decidable_of_iff' _ (Iff.of_eq (k0_chk21.eq_1 v66))
theorem k0_idx29_inb : ∀ (v66 : IVec S16 32) (k0_hw21 : k0_chk21 v66), ∀ a x, ((![v66] : Fin 1 → IVec S16 32) a x).toNat < S100096.size a := fun v66 k0_hw21 => k0_hw21.1
theorem k0_idx60_inb : ∀ (v66 : IVec S16 32) (k0_hw21 : k0_chk21 v66), ∀ a x, ((![v66] : Fin 1 → IVec S16 32) a x).toNat < S100096.size a := fun v66 k0_hw21 => k0_hw21.2.1
theorem k0_idx80_inb : ∀ (v66 : IVec S16 32) (k0_hw21 : k0_chk21 v66), ∀ a x, ((![v66] : Fin 1 → IVec S16 32) a x).toNat < S100096.size a := fun v66 k0_hw21 => k0_hw21.2.2.1
theorem k0_idx99_inb : ∀ (v66 : IVec S16 32) (k0_hw21 : k0_chk21 v66), ∀ a x, ((![v66] : Fin 1 → IVec S16 32) a x).toNat < S100096.size a := fun v66 k0_hw21 => k0_hw21.2.2.2

def k0_chk22 (v67 : IVec S16 32) : Prop :=
  (∀ a x, ((![v67] : Fin 1 → IVec S16 32) a x).toNat < S100096.size a) ∧
  (∀ a x, ((![v67] : Fin 1 → IVec S16 32) a x).toNat < S100096.size a) ∧
  (∀ a x, ((![v67] : Fin 1 → IVec S16 32) a x).toNat < S100096.size a) ∧
  (∀ a x, ((![v67] : Fin 1 → IVec S16 32) a x).toNat < S100096.size a)
instance k0_chk22.dec : ∀ (v67 : IVec S16 32), Decidable (k0_chk22 v67) := fun v67 => decidable_of_iff' _ (Iff.of_eq (k0_chk22.eq_1 v67))
theorem k0_idx31_inb : ∀ (v67 : IVec S16 32) (k0_hw22 : k0_chk22 v67), ∀ a x, ((![v67] : Fin 1 → IVec S16 32) a x).toNat < S100096.size a := fun v67 k0_hw22 => k0_hw22.1
theorem k0_idx61_inb : ∀ (v67 : IVec S16 32) (k0_hw22 : k0_chk22 v67), ∀ a x, ((![v67] : Fin 1 → IVec S16 32) a x).toNat < S100096.size a := fun v67 k0_hw22 => k0_hw22.2.1
theorem k0_idx82_inb : ∀ (v67 : IVec S16 32) (k0_hw22 : k0_chk22 v67), ∀ a x, ((![v67] : Fin 1 → IVec S16 32) a x).toNat < S100096.size a := fun v67 k0_hw22 => k0_hw22.2.2.1
theorem k0_idx100_inb : ∀ (v67 : IVec S16 32) (k0_hw22 : k0_chk22 v67), ∀ a x, ((![v67] : Fin 1 → IVec S16 32) a x).toNat < S100096.size a := fun v67 k0_hw22 => k0_hw22.2.2.2

def k0_chk23 (v68 : IVec S16 32) : Prop :=
  (∀ a x, ((![v68] : Fin 1 → IVec S16 32) a x).toNat < S100096.size a) ∧
  (∀ a x, ((![v68] : Fin 1 → IVec S16 32) a x).toNat < S100096.size a) ∧
  (∀ a x, ((![v68] : Fin 1 → IVec S16 32) a x).toNat < S100096.size a) ∧
  (∀ a x, ((![v68] : Fin 1 → IVec S16 32) a x).toNat < S100096.size a)
instance k0_chk23.dec : ∀ (v68 : IVec S16 32), Decidable (k0_chk23 v68) := fun v68 => decidable_of_iff' _ (Iff.of_eq (k0_chk23.eq_1 v68))
theorem k0_idx33_inb : ∀ (v68 : IVec S16 32) (k0_hw23 : k0_chk23 v68), ∀ a x, ((![v68] : Fin 1 → IVec S16 32) a x).toNat < S100096.size a := fun v68 k0_hw23 => k0_hw23.1
theorem k0_idx62_inb : ∀ (v68 : IVec S16 32) (k0_hw23 : k0_chk23 v68), ∀ a x, ((![v68] : Fin 1 → IVec S16 32) a x).toNat < S100096.size a := fun v68 k0_hw23 => k0_hw23.2.1
theorem k0_idx84_inb : ∀ (v68 : IVec S16 32) (k0_hw23 : k0_chk23 v68), ∀ a x, ((![v68] : Fin 1 → IVec S16 32) a x).toNat < S100096.size a := fun v68 k0_hw23 => k0_hw23.2.2.1
theorem k0_idx101_inb : ∀ (v68 : IVec S16 32) (k0_hw23 : k0_chk23 v68), ∀ a x, ((![v68] : Fin 1 → IVec S16 32) a x).toNat < S100096.size a := fun v68 k0_hw23 => k0_hw23.2.2.2

def k0_chk24 (v69 : IVec S16 32) : Prop :=
  (∀ a x, ((![v69] : Fin 1 → IVec S16 32) a x).toNat < S100096.size a) ∧
  (∀ a x, ((![v69] : Fin 1 → IVec S16 32) a x).toNat < S100096.size a) ∧
  (∀ a x, ((![v69] : Fin 1 → IVec S16 32) a x).toNat < S100096.size a) ∧
  (∀ a x, ((![v69] : Fin 1 → IVec S16 32) a x).toNat < S100096.size a)
instance k0_chk24.dec : ∀ (v69 : IVec S16 32), Decidable (k0_chk24 v69) := fun v69 => decidable_of_iff' _ (Iff.of_eq (k0_chk24.eq_1 v69))
theorem k0_idx35_inb : ∀ (v69 : IVec S16 32) (k0_hw24 : k0_chk24 v69), ∀ a x, ((![v69] : Fin 1 → IVec S16 32) a x).toNat < S100096.size a := fun v69 k0_hw24 => k0_hw24.1
theorem k0_idx63_inb : ∀ (v69 : IVec S16 32) (k0_hw24 : k0_chk24 v69), ∀ a x, ((![v69] : Fin 1 → IVec S16 32) a x).toNat < S100096.size a := fun v69 k0_hw24 => k0_hw24.2.1
theorem k0_idx86_inb : ∀ (v69 : IVec S16 32) (k0_hw24 : k0_chk24 v69), ∀ a x, ((![v69] : Fin 1 → IVec S16 32) a x).toNat < S100096.size a := fun v69 k0_hw24 => k0_hw24.2.2.1
theorem k0_idx102_inb : ∀ (v69 : IVec S16 32) (k0_hw24 : k0_chk24 v69), ∀ a x, ((![v69] : Fin 1 → IVec S16 32) a x).toNat < S100096.size a := fun v69 k0_hw24 => k0_hw24.2.2.2

def k0_chk25 (v70 : IVec S16 32) : Prop :=
  (∀ a x, ((![v70] : Fin 1 → IVec S16 32) a x).toNat < S100096.size a) ∧
  (∀ a x, ((![v70] : Fin 1 → IVec S16 32) a x).toNat < S100096.size a) ∧
  (∀ a x, ((![v70] : Fin 1 → IVec S16 32) a x).toNat < S100096.size a) ∧
  (∀ a x, ((![v70] : Fin 1 → IVec S16 32) a x).toNat < S100096.size a)
instance k0_chk25.dec : ∀ (v70 : IVec S16 32), Decidable (k0_chk25 v70) := fun v70 => decidable_of_iff' _ (Iff.of_eq (k0_chk25.eq_1 v70))
theorem k0_idx37_inb : ∀ (v70 : IVec S16 32) (k0_hw25 : k0_chk25 v70), ∀ a x, ((![v70] : Fin 1 → IVec S16 32) a x).toNat < S100096.size a := fun v70 k0_hw25 => k0_hw25.1
theorem k0_idx64_inb : ∀ (v70 : IVec S16 32) (k0_hw25 : k0_chk25 v70), ∀ a x, ((![v70] : Fin 1 → IVec S16 32) a x).toNat < S100096.size a := fun v70 k0_hw25 => k0_hw25.2.1
theorem k0_idx88_inb : ∀ (v70 : IVec S16 32) (k0_hw25 : k0_chk25 v70), ∀ a x, ((![v70] : Fin 1 → IVec S16 32) a x).toNat < S100096.size a := fun v70 k0_hw25 => k0_hw25.2.2.1
theorem k0_idx103_inb : ∀ (v70 : IVec S16 32) (k0_hw25 : k0_chk25 v70), ∀ a x, ((![v70] : Fin 1 → IVec S16 32) a x).toNat < S100096.size a := fun v70 k0_hw25 => k0_hw25.2.2.2

def k0_chk26 (v71 : IVec S16 32) : Prop :=
  (∀ a x, ((![v71] : Fin 1 → IVec S16 32) a x).toNat < S100096.size a) ∧
  (∀ a x, ((![v71] : Fin 1 → IVec S16 32) a x).toNat < S100096.size a) ∧
  (∀ a x, ((![v71] : Fin 1 → IVec S16 32) a x).toNat < S100096.size a) ∧
  (∀ a x, ((![v71] : Fin 1 → IVec S16 32) a x).toNat < S100096.size a)
instance k0_chk26.dec : ∀ (v71 : IVec S16 32), Decidable (k0_chk26 v71) := fun v71 => decidable_of_iff' _ (Iff.of_eq (k0_chk26.eq_1 v71))
theorem k0_idx39_inb : ∀ (v71 : IVec S16 32) (k0_hw26 : k0_chk26 v71), ∀ a x, ((![v71] : Fin 1 → IVec S16 32) a x).toNat < S100096.size a := fun v71 k0_hw26 => k0_hw26.1
theorem k0_idx65_inb : ∀ (v71 : IVec S16 32) (k0_hw26 : k0_chk26 v71), ∀ a x, ((![v71] : Fin 1 → IVec S16 32) a x).toNat < S100096.size a := fun v71 k0_hw26 => k0_hw26.2.1
theorem k0_idx90_inb : ∀ (v71 : IVec S16 32) (k0_hw26 : k0_chk26 v71), ∀ a x, ((![v71] : Fin 1 → IVec S16 32) a x).toNat < S100096.size a := fun v71 k0_hw26 => k0_hw26.2.2.1
theorem k0_idx104_inb : ∀ (v71 : IVec S16 32) (k0_hw26 : k0_chk26 v71), ∀ a x, ((![v71] : Fin 1 → IVec S16 32) a x).toNat < S100096.size a := fun v71 k0_hw26 => k0_hw26.2.2.2
def k0_off7 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_25 : BitVec 32 := 2#32
  let c0_i32_15 : BitVec 32 := 0#32
  let c1_i32_16 : BitVec 32 := 1#32
  let arg18 : BitVec 32 := Scf.iv c0_i32_15 c1_i32_16 k0_t2
  let v36 : BitVec 32 := Scalar.muli c2_i32_25 arg18
  let v37 : BitVec 32 := Scalar.addi v2 v36
  let c0_i32_165 : BitVec 32 := 0#32
  ![v37.toNat, 0]
def k0_off8 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_25 : BitVec 32 := 2#32
  let c0_i32_15 : BitVec 32 := 0#32
  let c1_i32_16 : BitVec 32 := 1#32
  let arg18 : BitVec 32 := Scf.iv c0_i32_15 c1_i32_16 k0_t2
  let v36 : BitVec 32 := Scalar.muli c2_i32_25 arg18
  let v37 : BitVec 32 := Scalar.addi v2 v36
  let c1_i32_167 : BitVec 32 := 1#32
  let v395 : BitVec 32 := Scalar.addi v37 c1_i32_167
  let c0_i32_168 : BitVec 32 := 0#32
  ![v395.toNat, 0]
def k0_cond3 (k0_t2 : Fin k0_t2_loop.trips) : BitVec 1 :=
  let c0_i32_15 : BitVec 32 := 0#32
  let c1_i32_16 : BitVec 32 := 1#32
  let arg18 : BitVec 32 := Scf.iv c0_i32_15 c1_i32_16 k0_t2
  let c1_i32_198 : BitVec 32 := 1#32
  let v430 : BitVec 32 := Scalar.addi arg18 c1_i32_198
  let c16_i32_199 : BitVec 32 := 16#32
  let v431 : BitVec 1 := Scalar.cmpi .slt v430 c16_i32_199
  let v432 : BitVec 32 := Scalar.extui v431
  let c0_i32_200 : BitVec 32 := 0#32
  let v433 : BitVec 1 := Scalar.cmpi .ne v432 c0_i32_200
  v433

def k0_off9 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_25 : BitVec 32 := 2#32
  let c0_i32_15 : BitVec 32 := 0#32
  let c1_i32_16 : BitVec 32 := 1#32
  let arg18 : BitVec 32 := Scf.iv c0_i32_15 c1_i32_16 k0_t2
  let v36 : BitVec 32 := Scalar.muli c2_i32_25 arg18
  let v37 : BitVec 32 := Scalar.addi v2 v36
  let c1_i32_167 : BitVec 32 := 1#32
  let v395 : BitVec 32 := Scalar.addi v37 c1_i32_167
  let c2_i32_361 : BitVec 32 := 2#32
  let v753 : BitVec 32 := Scalar.addi v395 c2_i32_361
  let c0_i32_362 : BitVec 32 := 0#32
  ![v753.toNat, 0]
def k0_cond4 (k0_t2 : Fin k0_t2_loop.trips) : BitVec 1 :=
  let c0_i32_15 : BitVec 32 := 0#32
  let c1_i32_16 : BitVec 32 := 1#32
  let arg18 : BitVec 32 := Scf.iv c0_i32_15 c1_i32_16 k0_t2
  let c0_i32_201 : BitVec 32 := 0#32
  let v434 : BitVec 1 := Scalar.cmpi .sgt arg18 c0_i32_201
  let v435 : BitVec 32 := Scalar.extui v434
  let c0_i32_202 : BitVec 32 := 0#32
  let v436 : BitVec 1 := Scalar.cmpi .ne v435 c0_i32_202
  v436

def k0_off10 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_25 : BitVec 32 := 2#32
  let c0_i32_15 : BitVec 32 := 0#32
  let c1_i32_16 : BitVec 32 := 1#32
  let arg18 : BitVec 32 := Scf.iv c0_i32_15 c1_i32_16 k0_t2
  let v36 : BitVec 32 := Scalar.muli c2_i32_25 arg18
  let v37 : BitVec 32 := Scalar.addi v2 v36
  let c1_i32_167 : BitVec 32 := 1#32
  let v395 : BitVec 32 := Scalar.addi v37 c1_i32_167
  let c2_i32_361 : BitVec 32 := 2#32
  let v753 : BitVec 32 := Scalar.subi v395 c2_i32_361
  let c0_i32_362 : BitVec 32 := 0#32
  ![v753.toNat, 0]

def k0_chk27 (v404 : IVec S16 32) : Prop :=
  (∀ a x, ((![v404] : Fin 1 → IVec S16 32) a x).toNat < S100096.size a) ∧
  (∀ a x, ((![v404] : Fin 1 → IVec S16 32) a x).toNat < S100096.size a) ∧
  (∀ a x, ((![v404] : Fin 1 → IVec S16 32) a x).toNat < S100096.size a) ∧
  (∀ a x, ((![v404] : Fin 1 → IVec S16 32) a x).toNat < S100096.size a)
instance k0_chk27.dec : ∀ (v404 : IVec S16 32), Decidable (k0_chk27 v404) := fun v404 => decidable_of_iff' _ (Iff.of_eq (k0_chk27.eq_1 v404))
theorem k0_idx105_inb : ∀ (v404 : IVec S16 32) (k0_hw27 : k0_chk27 v404), ∀ a x, ((![v404] : Fin 1 → IVec S16 32) a x).toNat < S100096.size a := fun v404 k0_hw27 => k0_hw27.1
theorem k0_idx118_inb : ∀ (v404 : IVec S16 32) (k0_hw27 : k0_chk27 v404), ∀ a x, ((![v404] : Fin 1 → IVec S16 32) a x).toNat < S100096.size a := fun v404 k0_hw27 => k0_hw27.2.1
theorem k0_idx144_inb : ∀ (v404 : IVec S16 32) (k0_hw27 : k0_chk27 v404), ∀ a x, ((![v404] : Fin 1 → IVec S16 32) a x).toNat < S100096.size a := fun v404 k0_hw27 => k0_hw27.2.2.1
theorem k0_idx171_inb : ∀ (v404 : IVec S16 32) (k0_hw27 : k0_chk27 v404), ∀ a x, ((![v404] : Fin 1 → IVec S16 32) a x).toNat < S100096.size a := fun v404 k0_hw27 => k0_hw27.2.2.2

def k0_chk28 (v405 : IVec S16 32) : Prop :=
  (∀ a x, ((![v405] : Fin 1 → IVec S16 32) a x).toNat < S100096.size a) ∧
  (∀ a x, ((![v405] : Fin 1 → IVec S16 32) a x).toNat < S100096.size a) ∧
  (∀ a x, ((![v405] : Fin 1 → IVec S16 32) a x).toNat < S100096.size a) ∧
  (∀ a x, ((![v405] : Fin 1 → IVec S16 32) a x).toNat < S100096.size a)
instance k0_chk28.dec : ∀ (v405 : IVec S16 32), Decidable (k0_chk28 v405) := fun v405 => decidable_of_iff' _ (Iff.of_eq (k0_chk28.eq_1 v405))
theorem k0_idx106_inb : ∀ (v405 : IVec S16 32) (k0_hw28 : k0_chk28 v405), ∀ a x, ((![v405] : Fin 1 → IVec S16 32) a x).toNat < S100096.size a := fun v405 k0_hw28 => k0_hw28.1
theorem k0_idx120_inb : ∀ (v405 : IVec S16 32) (k0_hw28 : k0_chk28 v405), ∀ a x, ((![v405] : Fin 1 → IVec S16 32) a x).toNat < S100096.size a := fun v405 k0_hw28 => k0_hw28.2.1
theorem k0_idx145_inb : ∀ (v405 : IVec S16 32) (k0_hw28 : k0_chk28 v405), ∀ a x, ((![v405] : Fin 1 → IVec S16 32) a x).toNat < S100096.size a := fun v405 k0_hw28 => k0_hw28.2.2.1
theorem k0_idx173_inb : ∀ (v405 : IVec S16 32) (k0_hw28 : k0_chk28 v405), ∀ a x, ((![v405] : Fin 1 → IVec S16 32) a x).toNat < S100096.size a := fun v405 k0_hw28 => k0_hw28.2.2.2

def k0_chk29 (v406 : IVec S16 32) : Prop :=
  (∀ a x, ((![v406] : Fin 1 → IVec S16 32) a x).toNat < S100096.size a) ∧
  (∀ a x, ((![v406] : Fin 1 → IVec S16 32) a x).toNat < S100096.size a) ∧
  (∀ a x, ((![v406] : Fin 1 → IVec S16 32) a x).toNat < S100096.size a) ∧
  (∀ a x, ((![v406] : Fin 1 → IVec S16 32) a x).toNat < S100096.size a)
instance k0_chk29.dec : ∀ (v406 : IVec S16 32), Decidable (k0_chk29 v406) := fun v406 => decidable_of_iff' _ (Iff.of_eq (k0_chk29.eq_1 v406))
theorem k0_idx107_inb : ∀ (v406 : IVec S16 32) (k0_hw29 : k0_chk29 v406), ∀ a x, ((![v406] : Fin 1 → IVec S16 32) a x).toNat < S100096.size a := fun v406 k0_hw29 => k0_hw29.1
theorem k0_idx122_inb : ∀ (v406 : IVec S16 32) (k0_hw29 : k0_chk29 v406), ∀ a x, ((![v406] : Fin 1 → IVec S16 32) a x).toNat < S100096.size a := fun v406 k0_hw29 => k0_hw29.2.1
theorem k0_idx146_inb : ∀ (v406 : IVec S16 32) (k0_hw29 : k0_chk29 v406), ∀ a x, ((![v406] : Fin 1 → IVec S16 32) a x).toNat < S100096.size a := fun v406 k0_hw29 => k0_hw29.2.2.1
theorem k0_idx175_inb : ∀ (v406 : IVec S16 32) (k0_hw29 : k0_chk29 v406), ∀ a x, ((![v406] : Fin 1 → IVec S16 32) a x).toNat < S100096.size a := fun v406 k0_hw29 => k0_hw29.2.2.2

def k0_chk30 (v407 : IVec S16 32) : Prop :=
  (∀ a x, ((![v407] : Fin 1 → IVec S16 32) a x).toNat < S100096.size a) ∧
  (∀ a x, ((![v407] : Fin 1 → IVec S16 32) a x).toNat < S100096.size a) ∧
  (∀ a x, ((![v407] : Fin 1 → IVec S16 32) a x).toNat < S100096.size a) ∧
  (∀ a x, ((![v407] : Fin 1 → IVec S16 32) a x).toNat < S100096.size a)
instance k0_chk30.dec : ∀ (v407 : IVec S16 32), Decidable (k0_chk30 v407) := fun v407 => decidable_of_iff' _ (Iff.of_eq (k0_chk30.eq_1 v407))
theorem k0_idx108_inb : ∀ (v407 : IVec S16 32) (k0_hw30 : k0_chk30 v407), ∀ a x, ((![v407] : Fin 1 → IVec S16 32) a x).toNat < S100096.size a := fun v407 k0_hw30 => k0_hw30.1
theorem k0_idx124_inb : ∀ (v407 : IVec S16 32) (k0_hw30 : k0_chk30 v407), ∀ a x, ((![v407] : Fin 1 → IVec S16 32) a x).toNat < S100096.size a := fun v407 k0_hw30 => k0_hw30.2.1
theorem k0_idx147_inb : ∀ (v407 : IVec S16 32) (k0_hw30 : k0_chk30 v407), ∀ a x, ((![v407] : Fin 1 → IVec S16 32) a x).toNat < S100096.size a := fun v407 k0_hw30 => k0_hw30.2.2.1
theorem k0_idx177_inb : ∀ (v407 : IVec S16 32) (k0_hw30 : k0_chk30 v407), ∀ a x, ((![v407] : Fin 1 → IVec S16 32) a x).toNat < S100096.size a := fun v407 k0_hw30 => k0_hw30.2.2.2

def k0_chk31 (v408 : IVec S16 32) : Prop :=
  (∀ a x, ((![v408] : Fin 1 → IVec S16 32) a x).toNat < S100096.size a) ∧
  (∀ a x, ((![v408] : Fin 1 → IVec S16 32) a x).toNat < S100096.size a) ∧
  (∀ a x, ((![v408] : Fin 1 → IVec S16 32) a x).toNat < S100096.size a) ∧
  (∀ a x, ((![v408] : Fin 1 → IVec S16 32) a x).toNat < S100096.size a)
instance k0_chk31.dec : ∀ (v408 : IVec S16 32), Decidable (k0_chk31 v408) := fun v408 => decidable_of_iff' _ (Iff.of_eq (k0_chk31.eq_1 v408))
theorem k0_idx109_inb : ∀ (v408 : IVec S16 32) (k0_hw31 : k0_chk31 v408), ∀ a x, ((![v408] : Fin 1 → IVec S16 32) a x).toNat < S100096.size a := fun v408 k0_hw31 => k0_hw31.1
theorem k0_idx126_inb : ∀ (v408 : IVec S16 32) (k0_hw31 : k0_chk31 v408), ∀ a x, ((![v408] : Fin 1 → IVec S16 32) a x).toNat < S100096.size a := fun v408 k0_hw31 => k0_hw31.2.1
theorem k0_idx148_inb : ∀ (v408 : IVec S16 32) (k0_hw31 : k0_chk31 v408), ∀ a x, ((![v408] : Fin 1 → IVec S16 32) a x).toNat < S100096.size a := fun v408 k0_hw31 => k0_hw31.2.2.1
theorem k0_idx179_inb : ∀ (v408 : IVec S16 32) (k0_hw31 : k0_chk31 v408), ∀ a x, ((![v408] : Fin 1 → IVec S16 32) a x).toNat < S100096.size a := fun v408 k0_hw31 => k0_hw31.2.2.2

def k0_chk32 (v409 : IVec S16 32) : Prop :=
  (∀ a x, ((![v409] : Fin 1 → IVec S16 32) a x).toNat < S100096.size a) ∧
  (∀ a x, ((![v409] : Fin 1 → IVec S16 32) a x).toNat < S100096.size a) ∧
  (∀ a x, ((![v409] : Fin 1 → IVec S16 32) a x).toNat < S100096.size a) ∧
  (∀ a x, ((![v409] : Fin 1 → IVec S16 32) a x).toNat < S100096.size a)
instance k0_chk32.dec : ∀ (v409 : IVec S16 32), Decidable (k0_chk32 v409) := fun v409 => decidable_of_iff' _ (Iff.of_eq (k0_chk32.eq_1 v409))
theorem k0_idx110_inb : ∀ (v409 : IVec S16 32) (k0_hw32 : k0_chk32 v409), ∀ a x, ((![v409] : Fin 1 → IVec S16 32) a x).toNat < S100096.size a := fun v409 k0_hw32 => k0_hw32.1
theorem k0_idx128_inb : ∀ (v409 : IVec S16 32) (k0_hw32 : k0_chk32 v409), ∀ a x, ((![v409] : Fin 1 → IVec S16 32) a x).toNat < S100096.size a := fun v409 k0_hw32 => k0_hw32.2.1
theorem k0_idx149_inb : ∀ (v409 : IVec S16 32) (k0_hw32 : k0_chk32 v409), ∀ a x, ((![v409] : Fin 1 → IVec S16 32) a x).toNat < S100096.size a := fun v409 k0_hw32 => k0_hw32.2.2.1
theorem k0_idx181_inb : ∀ (v409 : IVec S16 32) (k0_hw32 : k0_chk32 v409), ∀ a x, ((![v409] : Fin 1 → IVec S16 32) a x).toNat < S100096.size a := fun v409 k0_hw32 => k0_hw32.2.2.2

def k0_chk33 (v410 : IVec S16 32) : Prop :=
  (∀ a x, ((![v410] : Fin 1 → IVec S16 32) a x).toNat < S100096.size a) ∧
  (∀ a x, ((![v410] : Fin 1 → IVec S16 32) a x).toNat < S100096.size a) ∧
  (∀ a x, ((![v410] : Fin 1 → IVec S16 32) a x).toNat < S100096.size a) ∧
  (∀ a x, ((![v410] : Fin 1 → IVec S16 32) a x).toNat < S100096.size a)
instance k0_chk33.dec : ∀ (v410 : IVec S16 32), Decidable (k0_chk33 v410) := fun v410 => decidable_of_iff' _ (Iff.of_eq (k0_chk33.eq_1 v410))
theorem k0_idx111_inb : ∀ (v410 : IVec S16 32) (k0_hw33 : k0_chk33 v410), ∀ a x, ((![v410] : Fin 1 → IVec S16 32) a x).toNat < S100096.size a := fun v410 k0_hw33 => k0_hw33.1
theorem k0_idx130_inb : ∀ (v410 : IVec S16 32) (k0_hw33 : k0_chk33 v410), ∀ a x, ((![v410] : Fin 1 → IVec S16 32) a x).toNat < S100096.size a := fun v410 k0_hw33 => k0_hw33.2.1
theorem k0_idx150_inb : ∀ (v410 : IVec S16 32) (k0_hw33 : k0_chk33 v410), ∀ a x, ((![v410] : Fin 1 → IVec S16 32) a x).toNat < S100096.size a := fun v410 k0_hw33 => k0_hw33.2.2.1
theorem k0_idx183_inb : ∀ (v410 : IVec S16 32) (k0_hw33 : k0_chk33 v410), ∀ a x, ((![v410] : Fin 1 → IVec S16 32) a x).toNat < S100096.size a := fun v410 k0_hw33 => k0_hw33.2.2.2

def k0_chk34 (v411 : IVec S16 32) : Prop :=
  (∀ a x, ((![v411] : Fin 1 → IVec S16 32) a x).toNat < S100096.size a) ∧
  (∀ a x, ((![v411] : Fin 1 → IVec S16 32) a x).toNat < S100096.size a) ∧
  (∀ a x, ((![v411] : Fin 1 → IVec S16 32) a x).toNat < S100096.size a) ∧
  (∀ a x, ((![v411] : Fin 1 → IVec S16 32) a x).toNat < S100096.size a)
instance k0_chk34.dec : ∀ (v411 : IVec S16 32), Decidable (k0_chk34 v411) := fun v411 => decidable_of_iff' _ (Iff.of_eq (k0_chk34.eq_1 v411))
theorem k0_idx112_inb : ∀ (v411 : IVec S16 32) (k0_hw34 : k0_chk34 v411), ∀ a x, ((![v411] : Fin 1 → IVec S16 32) a x).toNat < S100096.size a := fun v411 k0_hw34 => k0_hw34.1
theorem k0_idx132_inb : ∀ (v411 : IVec S16 32) (k0_hw34 : k0_chk34 v411), ∀ a x, ((![v411] : Fin 1 → IVec S16 32) a x).toNat < S100096.size a := fun v411 k0_hw34 => k0_hw34.2.1
theorem k0_idx151_inb : ∀ (v411 : IVec S16 32) (k0_hw34 : k0_chk34 v411), ∀ a x, ((![v411] : Fin 1 → IVec S16 32) a x).toNat < S100096.size a := fun v411 k0_hw34 => k0_hw34.2.2.1
theorem k0_idx185_inb : ∀ (v411 : IVec S16 32) (k0_hw34 : k0_chk34 v411), ∀ a x, ((![v411] : Fin 1 → IVec S16 32) a x).toNat < S100096.size a := fun v411 k0_hw34 => k0_hw34.2.2.2

def k0_chk35 (v412 : IVec S16 32) : Prop :=
  (∀ a x, ((![v412] : Fin 1 → IVec S16 32) a x).toNat < S100096.size a) ∧
  (∀ a x, ((![v412] : Fin 1 → IVec S16 32) a x).toNat < S100096.size a) ∧
  (∀ a x, ((![v412] : Fin 1 → IVec S16 32) a x).toNat < S100096.size a) ∧
  (∀ a x, ((![v412] : Fin 1 → IVec S16 32) a x).toNat < S100096.size a)
instance k0_chk35.dec : ∀ (v412 : IVec S16 32), Decidable (k0_chk35 v412) := fun v412 => decidable_of_iff' _ (Iff.of_eq (k0_chk35.eq_1 v412))
theorem k0_idx113_inb : ∀ (v412 : IVec S16 32) (k0_hw35 : k0_chk35 v412), ∀ a x, ((![v412] : Fin 1 → IVec S16 32) a x).toNat < S100096.size a := fun v412 k0_hw35 => k0_hw35.1
theorem k0_idx134_inb : ∀ (v412 : IVec S16 32) (k0_hw35 : k0_chk35 v412), ∀ a x, ((![v412] : Fin 1 → IVec S16 32) a x).toNat < S100096.size a := fun v412 k0_hw35 => k0_hw35.2.1
theorem k0_idx152_inb : ∀ (v412 : IVec S16 32) (k0_hw35 : k0_chk35 v412), ∀ a x, ((![v412] : Fin 1 → IVec S16 32) a x).toNat < S100096.size a := fun v412 k0_hw35 => k0_hw35.2.2.1
theorem k0_idx187_inb : ∀ (v412 : IVec S16 32) (k0_hw35 : k0_chk35 v412), ∀ a x, ((![v412] : Fin 1 → IVec S16 32) a x).toNat < S100096.size a := fun v412 k0_hw35 => k0_hw35.2.2.2

def k0_chk36 (v413 : IVec S16 32) : Prop :=
  (∀ a x, ((![v413] : Fin 1 → IVec S16 32) a x).toNat < S100096.size a) ∧
  (∀ a x, ((![v413] : Fin 1 → IVec S16 32) a x).toNat < S100096.size a) ∧
  (∀ a x, ((![v413] : Fin 1 → IVec S16 32) a x).toNat < S100096.size a) ∧
  (∀ a x, ((![v413] : Fin 1 → IVec S16 32) a x).toNat < S100096.size a)
instance k0_chk36.dec : ∀ (v413 : IVec S16 32), Decidable (k0_chk36 v413) := fun v413 => decidable_of_iff' _ (Iff.of_eq (k0_chk36.eq_1 v413))
theorem k0_idx114_inb : ∀ (v413 : IVec S16 32) (k0_hw36 : k0_chk36 v413), ∀ a x, ((![v413] : Fin 1 → IVec S16 32) a x).toNat < S100096.size a := fun v413 k0_hw36 => k0_hw36.1
theorem k0_idx136_inb : ∀ (v413 : IVec S16 32) (k0_hw36 : k0_chk36 v413), ∀ a x, ((![v413] : Fin 1 → IVec S16 32) a x).toNat < S100096.size a := fun v413 k0_hw36 => k0_hw36.2.1
theorem k0_idx153_inb : ∀ (v413 : IVec S16 32) (k0_hw36 : k0_chk36 v413), ∀ a x, ((![v413] : Fin 1 → IVec S16 32) a x).toNat < S100096.size a := fun v413 k0_hw36 => k0_hw36.2.2.1
theorem k0_idx189_inb : ∀ (v413 : IVec S16 32) (k0_hw36 : k0_chk36 v413), ∀ a x, ((![v413] : Fin 1 → IVec S16 32) a x).toNat < S100096.size a := fun v413 k0_hw36 => k0_hw36.2.2.2

def k0_chk37 (v414 : IVec S16 32) : Prop :=
  (∀ a x, ((![v414] : Fin 1 → IVec S16 32) a x).toNat < S100096.size a) ∧
  (∀ a x, ((![v414] : Fin 1 → IVec S16 32) a x).toNat < S100096.size a) ∧
  (∀ a x, ((![v414] : Fin 1 → IVec S16 32) a x).toNat < S100096.size a) ∧
  (∀ a x, ((![v414] : Fin 1 → IVec S16 32) a x).toNat < S100096.size a)
instance k0_chk37.dec : ∀ (v414 : IVec S16 32), Decidable (k0_chk37 v414) := fun v414 => decidable_of_iff' _ (Iff.of_eq (k0_chk37.eq_1 v414))
theorem k0_idx115_inb : ∀ (v414 : IVec S16 32) (k0_hw37 : k0_chk37 v414), ∀ a x, ((![v414] : Fin 1 → IVec S16 32) a x).toNat < S100096.size a := fun v414 k0_hw37 => k0_hw37.1
theorem k0_idx138_inb : ∀ (v414 : IVec S16 32) (k0_hw37 : k0_chk37 v414), ∀ a x, ((![v414] : Fin 1 → IVec S16 32) a x).toNat < S100096.size a := fun v414 k0_hw37 => k0_hw37.2.1
theorem k0_idx154_inb : ∀ (v414 : IVec S16 32) (k0_hw37 : k0_chk37 v414), ∀ a x, ((![v414] : Fin 1 → IVec S16 32) a x).toNat < S100096.size a := fun v414 k0_hw37 => k0_hw37.2.2.1
theorem k0_idx191_inb : ∀ (v414 : IVec S16 32) (k0_hw37 : k0_chk37 v414), ∀ a x, ((![v414] : Fin 1 → IVec S16 32) a x).toNat < S100096.size a := fun v414 k0_hw37 => k0_hw37.2.2.2

def k0_chk38 (v415 : IVec S16 32) : Prop :=
  (∀ a x, ((![v415] : Fin 1 → IVec S16 32) a x).toNat < S100096.size a) ∧
  (∀ a x, ((![v415] : Fin 1 → IVec S16 32) a x).toNat < S100096.size a) ∧
  (∀ a x, ((![v415] : Fin 1 → IVec S16 32) a x).toNat < S100096.size a) ∧
  (∀ a x, ((![v415] : Fin 1 → IVec S16 32) a x).toNat < S100096.size a)
instance k0_chk38.dec : ∀ (v415 : IVec S16 32), Decidable (k0_chk38 v415) := fun v415 => decidable_of_iff' _ (Iff.of_eq (k0_chk38.eq_1 v415))
theorem k0_idx116_inb : ∀ (v415 : IVec S16 32) (k0_hw38 : k0_chk38 v415), ∀ a x, ((![v415] : Fin 1 → IVec S16 32) a x).toNat < S100096.size a := fun v415 k0_hw38 => k0_hw38.1
theorem k0_idx140_inb : ∀ (v415 : IVec S16 32) (k0_hw38 : k0_chk38 v415), ∀ a x, ((![v415] : Fin 1 → IVec S16 32) a x).toNat < S100096.size a := fun v415 k0_hw38 => k0_hw38.2.1
theorem k0_idx155_inb : ∀ (v415 : IVec S16 32) (k0_hw38 : k0_chk38 v415), ∀ a x, ((![v415] : Fin 1 → IVec S16 32) a x).toNat < S100096.size a := fun v415 k0_hw38 => k0_hw38.2.2.1
theorem k0_idx193_inb : ∀ (v415 : IVec S16 32) (k0_hw38 : k0_chk38 v415), ∀ a x, ((![v415] : Fin 1 → IVec S16 32) a x).toNat < S100096.size a := fun v415 k0_hw38 => k0_hw38.2.2.2

def k0_chk39 (v416 : IVec S16 32) : Prop :=
  (∀ a x, ((![v416] : Fin 1 → IVec S16 32) a x).toNat < S100096.size a) ∧
  (∀ a x, ((![v416] : Fin 1 → IVec S16 32) a x).toNat < S100096.size a) ∧
  (∀ a x, ((![v416] : Fin 1 → IVec S16 32) a x).toNat < S100096.size a) ∧
  (∀ a x, ((![v416] : Fin 1 → IVec S16 32) a x).toNat < S100096.size a)
instance k0_chk39.dec : ∀ (v416 : IVec S16 32), Decidable (k0_chk39 v416) := fun v416 => decidable_of_iff' _ (Iff.of_eq (k0_chk39.eq_1 v416))
theorem k0_idx117_inb : ∀ (v416 : IVec S16 32) (k0_hw39 : k0_chk39 v416), ∀ a x, ((![v416] : Fin 1 → IVec S16 32) a x).toNat < S100096.size a := fun v416 k0_hw39 => k0_hw39.1
theorem k0_idx142_inb : ∀ (v416 : IVec S16 32) (k0_hw39 : k0_chk39 v416), ∀ a x, ((![v416] : Fin 1 → IVec S16 32) a x).toNat < S100096.size a := fun v416 k0_hw39 => k0_hw39.2.1
theorem k0_idx156_inb : ∀ (v416 : IVec S16 32) (k0_hw39 : k0_chk39 v416), ∀ a x, ((![v416] : Fin 1 → IVec S16 32) a x).toNat < S100096.size a := fun v416 k0_hw39 => k0_hw39.2.2.1
theorem k0_idx195_inb : ∀ (v416 : IVec S16 32) (k0_hw39 : k0_chk39 v416), ∀ a x, ((![v416] : Fin 1 → IVec S16 32) a x).toNat < S100096.size a := fun v416 k0_hw39 => k0_hw39.2.2.2

def k0_chk40 (v417 : IVec S16 32) : Prop :=
  (∀ a x, ((![v417] : Fin 1 → IVec S16 32) a x).toNat < S100096.size a) ∧
  (∀ a x, ((![v417] : Fin 1 → IVec S16 32) a x).toNat < S100096.size a) ∧
  (∀ a x, ((![v417] : Fin 1 → IVec S16 32) a x).toNat < S100096.size a) ∧
  (∀ a x, ((![v417] : Fin 1 → IVec S16 32) a x).toNat < S100096.size a)
instance k0_chk40.dec : ∀ (v417 : IVec S16 32), Decidable (k0_chk40 v417) := fun v417 => decidable_of_iff' _ (Iff.of_eq (k0_chk40.eq_1 v417))
theorem k0_idx119_inb : ∀ (v417 : IVec S16 32) (k0_hw40 : k0_chk40 v417), ∀ a x, ((![v417] : Fin 1 → IVec S16 32) a x).toNat < S100096.size a := fun v417 k0_hw40 => k0_hw40.1
theorem k0_idx157_inb : ∀ (v417 : IVec S16 32) (k0_hw40 : k0_chk40 v417), ∀ a x, ((![v417] : Fin 1 → IVec S16 32) a x).toNat < S100096.size a := fun v417 k0_hw40 => k0_hw40.2.1
theorem k0_idx170_inb : ∀ (v417 : IVec S16 32) (k0_hw40 : k0_chk40 v417), ∀ a x, ((![v417] : Fin 1 → IVec S16 32) a x).toNat < S100096.size a := fun v417 k0_hw40 => k0_hw40.2.2.1
theorem k0_idx196_inb : ∀ (v417 : IVec S16 32) (k0_hw40 : k0_chk40 v417), ∀ a x, ((![v417] : Fin 1 → IVec S16 32) a x).toNat < S100096.size a := fun v417 k0_hw40 => k0_hw40.2.2.2

def k0_chk41 (v418 : IVec S16 32) : Prop :=
  (∀ a x, ((![v418] : Fin 1 → IVec S16 32) a x).toNat < S100096.size a) ∧
  (∀ a x, ((![v418] : Fin 1 → IVec S16 32) a x).toNat < S100096.size a) ∧
  (∀ a x, ((![v418] : Fin 1 → IVec S16 32) a x).toNat < S100096.size a) ∧
  (∀ a x, ((![v418] : Fin 1 → IVec S16 32) a x).toNat < S100096.size a)
instance k0_chk41.dec : ∀ (v418 : IVec S16 32), Decidable (k0_chk41 v418) := fun v418 => decidable_of_iff' _ (Iff.of_eq (k0_chk41.eq_1 v418))
theorem k0_idx121_inb : ∀ (v418 : IVec S16 32) (k0_hw41 : k0_chk41 v418), ∀ a x, ((![v418] : Fin 1 → IVec S16 32) a x).toNat < S100096.size a := fun v418 k0_hw41 => k0_hw41.1
theorem k0_idx158_inb : ∀ (v418 : IVec S16 32) (k0_hw41 : k0_chk41 v418), ∀ a x, ((![v418] : Fin 1 → IVec S16 32) a x).toNat < S100096.size a := fun v418 k0_hw41 => k0_hw41.2.1
theorem k0_idx172_inb : ∀ (v418 : IVec S16 32) (k0_hw41 : k0_chk41 v418), ∀ a x, ((![v418] : Fin 1 → IVec S16 32) a x).toNat < S100096.size a := fun v418 k0_hw41 => k0_hw41.2.2.1
theorem k0_idx197_inb : ∀ (v418 : IVec S16 32) (k0_hw41 : k0_chk41 v418), ∀ a x, ((![v418] : Fin 1 → IVec S16 32) a x).toNat < S100096.size a := fun v418 k0_hw41 => k0_hw41.2.2.2

def k0_chk42 (v419 : IVec S16 32) : Prop :=
  (∀ a x, ((![v419] : Fin 1 → IVec S16 32) a x).toNat < S100096.size a) ∧
  (∀ a x, ((![v419] : Fin 1 → IVec S16 32) a x).toNat < S100096.size a) ∧
  (∀ a x, ((![v419] : Fin 1 → IVec S16 32) a x).toNat < S100096.size a) ∧
  (∀ a x, ((![v419] : Fin 1 → IVec S16 32) a x).toNat < S100096.size a)
instance k0_chk42.dec : ∀ (v419 : IVec S16 32), Decidable (k0_chk42 v419) := fun v419 => decidable_of_iff' _ (Iff.of_eq (k0_chk42.eq_1 v419))
theorem k0_idx123_inb : ∀ (v419 : IVec S16 32) (k0_hw42 : k0_chk42 v419), ∀ a x, ((![v419] : Fin 1 → IVec S16 32) a x).toNat < S100096.size a := fun v419 k0_hw42 => k0_hw42.1
theorem k0_idx159_inb : ∀ (v419 : IVec S16 32) (k0_hw42 : k0_chk42 v419), ∀ a x, ((![v419] : Fin 1 → IVec S16 32) a x).toNat < S100096.size a := fun v419 k0_hw42 => k0_hw42.2.1
theorem k0_idx174_inb : ∀ (v419 : IVec S16 32) (k0_hw42 : k0_chk42 v419), ∀ a x, ((![v419] : Fin 1 → IVec S16 32) a x).toNat < S100096.size a := fun v419 k0_hw42 => k0_hw42.2.2.1
theorem k0_idx198_inb : ∀ (v419 : IVec S16 32) (k0_hw42 : k0_chk42 v419), ∀ a x, ((![v419] : Fin 1 → IVec S16 32) a x).toNat < S100096.size a := fun v419 k0_hw42 => k0_hw42.2.2.2

def k0_chk43 (v420 : IVec S16 32) : Prop :=
  (∀ a x, ((![v420] : Fin 1 → IVec S16 32) a x).toNat < S100096.size a) ∧
  (∀ a x, ((![v420] : Fin 1 → IVec S16 32) a x).toNat < S100096.size a) ∧
  (∀ a x, ((![v420] : Fin 1 → IVec S16 32) a x).toNat < S100096.size a) ∧
  (∀ a x, ((![v420] : Fin 1 → IVec S16 32) a x).toNat < S100096.size a)
instance k0_chk43.dec : ∀ (v420 : IVec S16 32), Decidable (k0_chk43 v420) := fun v420 => decidable_of_iff' _ (Iff.of_eq (k0_chk43.eq_1 v420))
theorem k0_idx125_inb : ∀ (v420 : IVec S16 32) (k0_hw43 : k0_chk43 v420), ∀ a x, ((![v420] : Fin 1 → IVec S16 32) a x).toNat < S100096.size a := fun v420 k0_hw43 => k0_hw43.1
theorem k0_idx160_inb : ∀ (v420 : IVec S16 32) (k0_hw43 : k0_chk43 v420), ∀ a x, ((![v420] : Fin 1 → IVec S16 32) a x).toNat < S100096.size a := fun v420 k0_hw43 => k0_hw43.2.1
theorem k0_idx176_inb : ∀ (v420 : IVec S16 32) (k0_hw43 : k0_chk43 v420), ∀ a x, ((![v420] : Fin 1 → IVec S16 32) a x).toNat < S100096.size a := fun v420 k0_hw43 => k0_hw43.2.2.1
theorem k0_idx199_inb : ∀ (v420 : IVec S16 32) (k0_hw43 : k0_chk43 v420), ∀ a x, ((![v420] : Fin 1 → IVec S16 32) a x).toNat < S100096.size a := fun v420 k0_hw43 => k0_hw43.2.2.2

def k0_chk44 (v421 : IVec S16 32) : Prop :=
  (∀ a x, ((![v421] : Fin 1 → IVec S16 32) a x).toNat < S100096.size a) ∧
  (∀ a x, ((![v421] : Fin 1 → IVec S16 32) a x).toNat < S100096.size a) ∧
  (∀ a x, ((![v421] : Fin 1 → IVec S16 32) a x).toNat < S100096.size a) ∧
  (∀ a x, ((![v421] : Fin 1 → IVec S16 32) a x).toNat < S100096.size a)
instance k0_chk44.dec : ∀ (v421 : IVec S16 32), Decidable (k0_chk44 v421) := fun v421 => decidable_of_iff' _ (Iff.of_eq (k0_chk44.eq_1 v421))
theorem k0_idx127_inb : ∀ (v421 : IVec S16 32) (k0_hw44 : k0_chk44 v421), ∀ a x, ((![v421] : Fin 1 → IVec S16 32) a x).toNat < S100096.size a := fun v421 k0_hw44 => k0_hw44.1
theorem k0_idx161_inb : ∀ (v421 : IVec S16 32) (k0_hw44 : k0_chk44 v421), ∀ a x, ((![v421] : Fin 1 → IVec S16 32) a x).toNat < S100096.size a := fun v421 k0_hw44 => k0_hw44.2.1
theorem k0_idx178_inb : ∀ (v421 : IVec S16 32) (k0_hw44 : k0_chk44 v421), ∀ a x, ((![v421] : Fin 1 → IVec S16 32) a x).toNat < S100096.size a := fun v421 k0_hw44 => k0_hw44.2.2.1
theorem k0_idx200_inb : ∀ (v421 : IVec S16 32) (k0_hw44 : k0_chk44 v421), ∀ a x, ((![v421] : Fin 1 → IVec S16 32) a x).toNat < S100096.size a := fun v421 k0_hw44 => k0_hw44.2.2.2

def k0_chk45 (v422 : IVec S16 32) : Prop :=
  (∀ a x, ((![v422] : Fin 1 → IVec S16 32) a x).toNat < S100096.size a) ∧
  (∀ a x, ((![v422] : Fin 1 → IVec S16 32) a x).toNat < S100096.size a) ∧
  (∀ a x, ((![v422] : Fin 1 → IVec S16 32) a x).toNat < S100096.size a) ∧
  (∀ a x, ((![v422] : Fin 1 → IVec S16 32) a x).toNat < S100096.size a)
instance k0_chk45.dec : ∀ (v422 : IVec S16 32), Decidable (k0_chk45 v422) := fun v422 => decidable_of_iff' _ (Iff.of_eq (k0_chk45.eq_1 v422))
theorem k0_idx129_inb : ∀ (v422 : IVec S16 32) (k0_hw45 : k0_chk45 v422), ∀ a x, ((![v422] : Fin 1 → IVec S16 32) a x).toNat < S100096.size a := fun v422 k0_hw45 => k0_hw45.1
theorem k0_idx162_inb : ∀ (v422 : IVec S16 32) (k0_hw45 : k0_chk45 v422), ∀ a x, ((![v422] : Fin 1 → IVec S16 32) a x).toNat < S100096.size a := fun v422 k0_hw45 => k0_hw45.2.1
theorem k0_idx180_inb : ∀ (v422 : IVec S16 32) (k0_hw45 : k0_chk45 v422), ∀ a x, ((![v422] : Fin 1 → IVec S16 32) a x).toNat < S100096.size a := fun v422 k0_hw45 => k0_hw45.2.2.1
theorem k0_idx201_inb : ∀ (v422 : IVec S16 32) (k0_hw45 : k0_chk45 v422), ∀ a x, ((![v422] : Fin 1 → IVec S16 32) a x).toNat < S100096.size a := fun v422 k0_hw45 => k0_hw45.2.2.2

def k0_chk46 (v423 : IVec S16 32) : Prop :=
  (∀ a x, ((![v423] : Fin 1 → IVec S16 32) a x).toNat < S100096.size a) ∧
  (∀ a x, ((![v423] : Fin 1 → IVec S16 32) a x).toNat < S100096.size a) ∧
  (∀ a x, ((![v423] : Fin 1 → IVec S16 32) a x).toNat < S100096.size a) ∧
  (∀ a x, ((![v423] : Fin 1 → IVec S16 32) a x).toNat < S100096.size a)
instance k0_chk46.dec : ∀ (v423 : IVec S16 32), Decidable (k0_chk46 v423) := fun v423 => decidable_of_iff' _ (Iff.of_eq (k0_chk46.eq_1 v423))
theorem k0_idx131_inb : ∀ (v423 : IVec S16 32) (k0_hw46 : k0_chk46 v423), ∀ a x, ((![v423] : Fin 1 → IVec S16 32) a x).toNat < S100096.size a := fun v423 k0_hw46 => k0_hw46.1
theorem k0_idx163_inb : ∀ (v423 : IVec S16 32) (k0_hw46 : k0_chk46 v423), ∀ a x, ((![v423] : Fin 1 → IVec S16 32) a x).toNat < S100096.size a := fun v423 k0_hw46 => k0_hw46.2.1
theorem k0_idx182_inb : ∀ (v423 : IVec S16 32) (k0_hw46 : k0_chk46 v423), ∀ a x, ((![v423] : Fin 1 → IVec S16 32) a x).toNat < S100096.size a := fun v423 k0_hw46 => k0_hw46.2.2.1
theorem k0_idx202_inb : ∀ (v423 : IVec S16 32) (k0_hw46 : k0_chk46 v423), ∀ a x, ((![v423] : Fin 1 → IVec S16 32) a x).toNat < S100096.size a := fun v423 k0_hw46 => k0_hw46.2.2.2

def k0_chk47 (v424 : IVec S16 32) : Prop :=
  (∀ a x, ((![v424] : Fin 1 → IVec S16 32) a x).toNat < S100096.size a) ∧
  (∀ a x, ((![v424] : Fin 1 → IVec S16 32) a x).toNat < S100096.size a) ∧
  (∀ a x, ((![v424] : Fin 1 → IVec S16 32) a x).toNat < S100096.size a) ∧
  (∀ a x, ((![v424] : Fin 1 → IVec S16 32) a x).toNat < S100096.size a)
instance k0_chk47.dec : ∀ (v424 : IVec S16 32), Decidable (k0_chk47 v424) := fun v424 => decidable_of_iff' _ (Iff.of_eq (k0_chk47.eq_1 v424))
theorem k0_idx133_inb : ∀ (v424 : IVec S16 32) (k0_hw47 : k0_chk47 v424), ∀ a x, ((![v424] : Fin 1 → IVec S16 32) a x).toNat < S100096.size a := fun v424 k0_hw47 => k0_hw47.1
theorem k0_idx164_inb : ∀ (v424 : IVec S16 32) (k0_hw47 : k0_chk47 v424), ∀ a x, ((![v424] : Fin 1 → IVec S16 32) a x).toNat < S100096.size a := fun v424 k0_hw47 => k0_hw47.2.1
theorem k0_idx184_inb : ∀ (v424 : IVec S16 32) (k0_hw47 : k0_chk47 v424), ∀ a x, ((![v424] : Fin 1 → IVec S16 32) a x).toNat < S100096.size a := fun v424 k0_hw47 => k0_hw47.2.2.1
theorem k0_idx203_inb : ∀ (v424 : IVec S16 32) (k0_hw47 : k0_chk47 v424), ∀ a x, ((![v424] : Fin 1 → IVec S16 32) a x).toNat < S100096.size a := fun v424 k0_hw47 => k0_hw47.2.2.2

def k0_chk48 (v425 : IVec S16 32) : Prop :=
  (∀ a x, ((![v425] : Fin 1 → IVec S16 32) a x).toNat < S100096.size a) ∧
  (∀ a x, ((![v425] : Fin 1 → IVec S16 32) a x).toNat < S100096.size a) ∧
  (∀ a x, ((![v425] : Fin 1 → IVec S16 32) a x).toNat < S100096.size a) ∧
  (∀ a x, ((![v425] : Fin 1 → IVec S16 32) a x).toNat < S100096.size a)
instance k0_chk48.dec : ∀ (v425 : IVec S16 32), Decidable (k0_chk48 v425) := fun v425 => decidable_of_iff' _ (Iff.of_eq (k0_chk48.eq_1 v425))
theorem k0_idx135_inb : ∀ (v425 : IVec S16 32) (k0_hw48 : k0_chk48 v425), ∀ a x, ((![v425] : Fin 1 → IVec S16 32) a x).toNat < S100096.size a := fun v425 k0_hw48 => k0_hw48.1
theorem k0_idx165_inb : ∀ (v425 : IVec S16 32) (k0_hw48 : k0_chk48 v425), ∀ a x, ((![v425] : Fin 1 → IVec S16 32) a x).toNat < S100096.size a := fun v425 k0_hw48 => k0_hw48.2.1
theorem k0_idx186_inb : ∀ (v425 : IVec S16 32) (k0_hw48 : k0_chk48 v425), ∀ a x, ((![v425] : Fin 1 → IVec S16 32) a x).toNat < S100096.size a := fun v425 k0_hw48 => k0_hw48.2.2.1
theorem k0_idx204_inb : ∀ (v425 : IVec S16 32) (k0_hw48 : k0_chk48 v425), ∀ a x, ((![v425] : Fin 1 → IVec S16 32) a x).toNat < S100096.size a := fun v425 k0_hw48 => k0_hw48.2.2.2

def k0_chk49 (v426 : IVec S16 32) : Prop :=
  (∀ a x, ((![v426] : Fin 1 → IVec S16 32) a x).toNat < S100096.size a) ∧
  (∀ a x, ((![v426] : Fin 1 → IVec S16 32) a x).toNat < S100096.size a) ∧
  (∀ a x, ((![v426] : Fin 1 → IVec S16 32) a x).toNat < S100096.size a) ∧
  (∀ a x, ((![v426] : Fin 1 → IVec S16 32) a x).toNat < S100096.size a)
instance k0_chk49.dec : ∀ (v426 : IVec S16 32), Decidable (k0_chk49 v426) := fun v426 => decidable_of_iff' _ (Iff.of_eq (k0_chk49.eq_1 v426))
theorem k0_idx137_inb : ∀ (v426 : IVec S16 32) (k0_hw49 : k0_chk49 v426), ∀ a x, ((![v426] : Fin 1 → IVec S16 32) a x).toNat < S100096.size a := fun v426 k0_hw49 => k0_hw49.1
theorem k0_idx166_inb : ∀ (v426 : IVec S16 32) (k0_hw49 : k0_chk49 v426), ∀ a x, ((![v426] : Fin 1 → IVec S16 32) a x).toNat < S100096.size a := fun v426 k0_hw49 => k0_hw49.2.1
theorem k0_idx188_inb : ∀ (v426 : IVec S16 32) (k0_hw49 : k0_chk49 v426), ∀ a x, ((![v426] : Fin 1 → IVec S16 32) a x).toNat < S100096.size a := fun v426 k0_hw49 => k0_hw49.2.2.1
theorem k0_idx205_inb : ∀ (v426 : IVec S16 32) (k0_hw49 : k0_chk49 v426), ∀ a x, ((![v426] : Fin 1 → IVec S16 32) a x).toNat < S100096.size a := fun v426 k0_hw49 => k0_hw49.2.2.2

def k0_chk50 (v427 : IVec S16 32) : Prop :=
  (∀ a x, ((![v427] : Fin 1 → IVec S16 32) a x).toNat < S100096.size a) ∧
  (∀ a x, ((![v427] : Fin 1 → IVec S16 32) a x).toNat < S100096.size a) ∧
  (∀ a x, ((![v427] : Fin 1 → IVec S16 32) a x).toNat < S100096.size a) ∧
  (∀ a x, ((![v427] : Fin 1 → IVec S16 32) a x).toNat < S100096.size a)
instance k0_chk50.dec : ∀ (v427 : IVec S16 32), Decidable (k0_chk50 v427) := fun v427 => decidable_of_iff' _ (Iff.of_eq (k0_chk50.eq_1 v427))
theorem k0_idx139_inb : ∀ (v427 : IVec S16 32) (k0_hw50 : k0_chk50 v427), ∀ a x, ((![v427] : Fin 1 → IVec S16 32) a x).toNat < S100096.size a := fun v427 k0_hw50 => k0_hw50.1
theorem k0_idx167_inb : ∀ (v427 : IVec S16 32) (k0_hw50 : k0_chk50 v427), ∀ a x, ((![v427] : Fin 1 → IVec S16 32) a x).toNat < S100096.size a := fun v427 k0_hw50 => k0_hw50.2.1
theorem k0_idx190_inb : ∀ (v427 : IVec S16 32) (k0_hw50 : k0_chk50 v427), ∀ a x, ((![v427] : Fin 1 → IVec S16 32) a x).toNat < S100096.size a := fun v427 k0_hw50 => k0_hw50.2.2.1
theorem k0_idx206_inb : ∀ (v427 : IVec S16 32) (k0_hw50 : k0_chk50 v427), ∀ a x, ((![v427] : Fin 1 → IVec S16 32) a x).toNat < S100096.size a := fun v427 k0_hw50 => k0_hw50.2.2.2

def k0_chk51 (v428 : IVec S16 32) : Prop :=
  (∀ a x, ((![v428] : Fin 1 → IVec S16 32) a x).toNat < S100096.size a) ∧
  (∀ a x, ((![v428] : Fin 1 → IVec S16 32) a x).toNat < S100096.size a) ∧
  (∀ a x, ((![v428] : Fin 1 → IVec S16 32) a x).toNat < S100096.size a) ∧
  (∀ a x, ((![v428] : Fin 1 → IVec S16 32) a x).toNat < S100096.size a)
instance k0_chk51.dec : ∀ (v428 : IVec S16 32), Decidable (k0_chk51 v428) := fun v428 => decidable_of_iff' _ (Iff.of_eq (k0_chk51.eq_1 v428))
theorem k0_idx141_inb : ∀ (v428 : IVec S16 32) (k0_hw51 : k0_chk51 v428), ∀ a x, ((![v428] : Fin 1 → IVec S16 32) a x).toNat < S100096.size a := fun v428 k0_hw51 => k0_hw51.1
theorem k0_idx168_inb : ∀ (v428 : IVec S16 32) (k0_hw51 : k0_chk51 v428), ∀ a x, ((![v428] : Fin 1 → IVec S16 32) a x).toNat < S100096.size a := fun v428 k0_hw51 => k0_hw51.2.1
theorem k0_idx192_inb : ∀ (v428 : IVec S16 32) (k0_hw51 : k0_chk51 v428), ∀ a x, ((![v428] : Fin 1 → IVec S16 32) a x).toNat < S100096.size a := fun v428 k0_hw51 => k0_hw51.2.2.1
theorem k0_idx207_inb : ∀ (v428 : IVec S16 32) (k0_hw51 : k0_chk51 v428), ∀ a x, ((![v428] : Fin 1 → IVec S16 32) a x).toNat < S100096.size a := fun v428 k0_hw51 => k0_hw51.2.2.2

def k0_chk52 (v429 : IVec S16 32) : Prop :=
  (∀ a x, ((![v429] : Fin 1 → IVec S16 32) a x).toNat < S100096.size a) ∧
  (∀ a x, ((![v429] : Fin 1 → IVec S16 32) a x).toNat < S100096.size a) ∧
  (∀ a x, ((![v429] : Fin 1 → IVec S16 32) a x).toNat < S100096.size a) ∧
  (∀ a x, ((![v429] : Fin 1 → IVec S16 32) a x).toNat < S100096.size a)
instance k0_chk52.dec : ∀ (v429 : IVec S16 32), Decidable (k0_chk52 v429) := fun v429 => decidable_of_iff' _ (Iff.of_eq (k0_chk52.eq_1 v429))
theorem k0_idx143_inb : ∀ (v429 : IVec S16 32) (k0_hw52 : k0_chk52 v429), ∀ a x, ((![v429] : Fin 1 → IVec S16 32) a x).toNat < S100096.size a := fun v429 k0_hw52 => k0_hw52.1
theorem k0_idx169_inb : ∀ (v429 : IVec S16 32) (k0_hw52 : k0_chk52 v429), ∀ a x, ((![v429] : Fin 1 → IVec S16 32) a x).toNat < S100096.size a := fun v429 k0_hw52 => k0_hw52.2.1
theorem k0_idx194_inb : ∀ (v429 : IVec S16 32) (k0_hw52 : k0_chk52 v429), ∀ a x, ((![v429] : Fin 1 → IVec S16 32) a x).toNat < S100096.size a := fun v429 k0_hw52 => k0_hw52.2.2.1
theorem k0_idx208_inb : ∀ (v429 : IVec S16 32) (k0_hw52 : k0_chk52 v429), ∀ a x, ((![v429] : Fin 1 → IVec S16 32) a x).toNat < S100096.size a := fun v429 k0_hw52 => k0_hw52.2.2.2
def k0_off11 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_25 : BitVec 32 := 2#32
  let c0_i32_15 : BitVec 32 := 0#32
  let c1_i32_16 : BitVec 32 := 1#32
  let arg18 : BitVec 32 := Scf.iv c0_i32_15 c1_i32_16 k0_t2
  let v36 : BitVec 32 := Scalar.muli c2_i32_25 arg18
  let v37 : BitVec 32 := Scalar.addi v2 v36
  let c1_i32_167 : BitVec 32 := 1#32
  let v395 : BitVec 32 := Scalar.addi v37 c1_i32_167
  let c0_i32_359 : BitVec 32 := 0#32
  ![v395.toNat, 0]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_18 : BitVec 32 := 32#32
  let v25 : BitVec 32 := Scalar.addi v2 c32_i32_18
  let c2_i32_19 : BitVec 32 := 2#32
  let v26 : BitVec 32 := Scalar.subi v25 c2_i32_19
  let c0_i32_20 : BitVec 32 := 0#32
  ![v26.toNat, 0]
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_18 : BitVec 32 := 32#32
  let v25 : BitVec 32 := Scalar.addi v2 c32_i32_18
  let c2_i32_19 : BitVec 32 := 2#32
  let v26 : BitVec 32 := Scalar.subi v25 c2_i32_19
  let c1_i32_22 : BitVec 32 := 1#32
  let v31 : BitVec 32 := Scalar.addi v26 c1_i32_22
  let c0_i32_23 : BitVec 32 := 0#32
  ![v31.toNat, 0]
abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S4x208x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x16x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S200x16x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.Facts₀ : Prop where
  hcore0 : grid0.bound 0 ≤ τ.nSC
  hsub0 : grid0.bound 1 ≤ τ.nSub
  k0_t1_ok : k0_t1_loop.OK
  k0_off1_inb : ∀ k0_t1 : Fin k0_t1_loop.trips, ∀ (r : Fin 8), ∀ a, (k0_off1 k0_t1 (BitVec.ofNat 32 r.val)) a + S16.size a ≤ S100096.size a
  k0_off2_inb : ∀ i : grid0.Coords, ∀ a, (k0_off2 i) a + S1x208.size a ≤ S1024x208.size a
  k0_off3_inb : ∀ i : grid0.Coords, ∀ a, (k0_off3 i) a + S1x208.size a ≤ S1024x208.size a
  k0_t2_ok : k0_t2_loop.OK
  k0_off4_inb : ∀ (i : grid0.Coords) (k0_t2 : Fin k0_t2_loop.trips), ∀ a, (k0_off4 i k0_t2) a + S1x208.size a ≤ S1024x208.size a
  k0_off5_inb : ∀ (i : grid0.Coords) (k0_t2 : Fin k0_t2_loop.trips), ∀ (k0_h1 : k0_cond1 k0_t2 = 1#1), ∀ a, (k0_off5 i k0_t2) a + S1x208.size a ≤ S1024x208.size a
  k0_off6_inb : ∀ (i : grid0.Coords) (k0_t2 : Fin k0_t2_loop.trips), ∀ (k0_h2 : k0_cond2 k0_t2 = 1#1), ∀ a, (k0_off6 i k0_t2) a + S1x832.size a ≤ S1024x832.size a
  k0_off7_inb : ∀ (i : grid0.Coords) (k0_t2 : Fin k0_t2_loop.trips), ∀ a, (k0_off7 i k0_t2) a + S1x832.size a ≤ S1024x832.size a
  k0_off8_inb : ∀ (i : grid0.Coords) (k0_t2 : Fin k0_t2_loop.trips), ∀ a, (k0_off8 i k0_t2) a + S1x208.size a ≤ S1024x208.size a
  k0_off9_inb : ∀ (i : grid0.Coords) (k0_t2 : Fin k0_t2_loop.trips), ∀ (k0_h3 : k0_cond3 k0_t2 = 1#1), ∀ a, (k0_off9 i k0_t2) a + S1x208.size a ≤ S1024x208.size a
  k0_off10_inb : ∀ (i : grid0.Coords) (k0_t2 : Fin k0_t2_loop.trips), ∀ (k0_h4 : k0_cond4 k0_t2 = 1#1), ∀ a, (k0_off10 i k0_t2) a + S1x832.size a ≤ S1024x832.size a
  k0_off11_inb : ∀ (i : grid0.Coords) (k0_t2 : Fin k0_t2_loop.trips), ∀ a, (k0_off11 i k0_t2) a + S1x832.size a ≤ S1024x832.size a
  k0_off12_inb : ∀ i : grid0.Coords, ∀ a, (k0_off12 i) a + S1x832.size a ≤ S1024x832.size a
  k0_off13_inb : ∀ i : grid0.Coords, ∀ a, (k0_off13 i) a + S1x832.size a ≤ S1024x832.size a

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x208x512.size a ≤ S4x208x1024.size a
  hwx1_0 : ∀ i : grid1.Coords, EltTy.bits .i32 = 32 ∨ (Rect.block (s := S4x208x1024) S4x208x512.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S16x1.size a
  hwx1_1 : ∀ i : grid1.Coords, EltTy.bits .f32 = 32 ∨ (Rect.block (s := S16x1) S16x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x1.size a ≤ S16x1.size a
  hwx1_4 : ∀ i : grid1.Coords, EltTy.bits .f32 = 32 ∨ (Rect.block (s := S16x1) S16x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x16x512.size a ≤ S200x16x1024.size a
  hwx1_5 : ∀ i : grid1.Coords, EltTy.bits .f32 = 32 ∨ (Rect.block (s := S200x16x1024) S200x16x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x16x512.size a ≤ S200x16x1024.size a
  hwx1_6 : ∀ i : grid1.Coords, EltTy.bits .f32 = 32 ∨ (Rect.block (s := S200x16x1024) S200x16x512.size (cc1_transform_6 i) (hinb1_6 i)).WholeWords (EltTy.packing .f32)

class Shapes1.Facts₀ : Prop where
  bcast_S_S1024x8 : S_.BroadcastsInDim S1024x8 (![] : Fin 0 → Fin S1024x8.rank)
  concatenates_S1024x200_S1024x8_S1024x208_d1 : Shape.Concatenates [S1024x200, S1024x8] S1024x208 1
  h_S16 : 0 < S16.numel
  squeezes_S1x208_S208 : S1x208.Squeezes S208
  inb_S208_S16_0 : ∀ a, (![0] : Fin 1 → Nat) a + S16.size a ≤ S208.size a
  inb_S208_S16_16 : ∀ a, (![16] : Fin 1 → Nat) a + S16.size a ≤ S208.size a
  inb_S208_S16_32 : ∀ a, (![32] : Fin 1 → Nat) a + S16.size a ≤ S208.size a
  inb_S208_S16_48 : ∀ a, (![48] : Fin 1 → Nat) a + S16.size a ≤ S208.size a
  inb_S208_S16_64 : ∀ a, (![64] : Fin 1 → Nat) a + S16.size a ≤ S208.size a
  inb_S208_S16_80 : ∀ a, (![80] : Fin 1 → Nat) a + S16.size a ≤ S208.size a
  inb_S208_S16_96 : ∀ a, (![96] : Fin 1 → Nat) a + S16.size a ≤ S208.size a
  inb_S208_S16_112 : ∀ a, (![112] : Fin 1 → Nat) a + S16.size a ≤ S208.size a
  inb_S208_S16_128 : ∀ a, (![128] : Fin 1 → Nat) a + S16.size a ≤ S208.size a
  inb_S208_S16_144 : ∀ a, (![144] : Fin 1 → Nat) a + S16.size a ≤ S208.size a
  inb_S208_S16_160 : ∀ a, (![160] : Fin 1 → Nat) a + S16.size a ≤ S208.size a
  inb_S208_S16_176 : ∀ a, (![176] : Fin 1 → Nat) a + S16.size a ≤ S208.size a
  inb_S208_S16_192 : ∀ a, (![192] : Fin 1 → Nat) a + S16.size a ≤ S208.size a
  squeezes_S1x832_S832 : S1x832.Squeezes S832
  h_S100096 : 0 < S100096.numel
  inb_S832_S16_0 : ∀ a, (![0] : Fin 1 → Nat) a + S16.size a ≤ S832.size a
  inb_S832_S16_624 : ∀ a, (![624] : Fin 1 → Nat) a + S16.size a ≤ S832.size a
  inb_S832_S16_16 : ∀ a, (![16] : Fin 1 → Nat) a + S16.size a ≤ S832.size a
  inb_S832_S16_640 : ∀ a, (![640] : Fin 1 → Nat) a + S16.size a ≤ S832.size a
  inb_S832_S16_32 : ∀ a, (![32] : Fin 1 → Nat) a + S16.size a ≤ S832.size a
  inb_S832_S16_656 : ∀ a, (![656] : Fin 1 → Nat) a + S16.size a ≤ S832.size a
  inb_S832_S16_48 : ∀ a, (![48] : Fin 1 → Nat) a + S16.size a ≤ S832.size a
  inb_S832_S16_672 : ∀ a, (![672] : Fin 1 → Nat) a + S16.size a ≤ S832.size a
  inb_S832_S16_64 : ∀ a, (![64] : Fin 1 → Nat) a + S16.size a ≤ S832.size a
  inb_S832_S16_688 : ∀ a, (![688] : Fin 1 → Nat) a + S16.size a ≤ S832.size a
  inb_S832_S16_80 : ∀ a, (![80] : Fin 1 → Nat) a + S16.size a ≤ S832.size a
  inb_S832_S16_704 : ∀ a, (![704] : Fin 1 → Nat) a + S16.size a ≤ S832.size a
  inb_S832_S16_96 : ∀ a, (![96] : Fin 1 → Nat) a + S16.size a ≤ S832.size a
  inb_S832_S16_720 : ∀ a, (![720] : Fin 1 → Nat) a + S16.size a ≤ S832.size a
  inb_S832_S16_112 : ∀ a, (![112] : Fin 1 → Nat) a + S16.size a ≤ S832.size a
  inb_S832_S16_736 : ∀ a, (![736] : Fin 1 → Nat) a + S16.size a ≤ S832.size a
  inb_S832_S16_128 : ∀ a, (![128] : Fin 1 → Nat) a + S16.size a ≤ S832.size a
  inb_S832_S16_752 : ∀ a, (![752] : Fin 1 → Nat) a + S16.size a ≤ S832.size a
  inb_S832_S16_144 : ∀ a, (![144] : Fin 1 → Nat) a + S16.size a ≤ S832.size a
  inb_S832_S16_768 : ∀ a, (![768] : Fin 1 → Nat) a + S16.size a ≤ S832.size a
  inb_S832_S16_160 : ∀ a, (![160] : Fin 1 → Nat) a + S16.size a ≤ S832.size a
  inb_S832_S16_784 : ∀ a, (![784] : Fin 1 → Nat) a + S16.size a ≤ S832.size a
  inb_S832_S16_176 : ∀ a, (![176] : Fin 1 → Nat) a + S16.size a ≤ S832.size a
  inb_S832_S16_800 : ∀ a, (![800] : Fin 1 → Nat) a + S16.size a ≤ S832.size a
  inb_S832_S16_192 : ∀ a, (![192] : Fin 1 → Nat) a + S16.size a ≤ S832.size a
  inb_S832_S16_816 : ∀ a, (![816] : Fin 1 → Nat) a + S16.size a ≤ S832.size a
  inb_S832_S16_416 : ∀ a, (![416] : Fin 1 → Nat) a + S16.size a ≤ S832.size a
  inb_S832_S16_208 : ∀ a, (![208] : Fin 1 → Nat) a + S16.size a ≤ S832.size a
  inb_S832_S16_432 : ∀ a, (![432] : Fin 1 → Nat) a + S16.size a ≤ S832.size a
  inb_S832_S16_224 : ∀ a, (![224] : Fin 1 → Nat) a + S16.size a ≤ S832.size a
  inb_S832_S16_448 : ∀ a, (![448] : Fin 1 → Nat) a + S16.size a ≤ S832.size a
  inb_S832_S16_240 : ∀ a, (![240] : Fin 1 → Nat) a + S16.size a ≤ S832.size a
  inb_S832_S16_464 : ∀ a, (![464] : Fin 1 → Nat) a + S16.size a ≤ S832.size a
  inb_S832_S16_256 : ∀ a, (![256] : Fin 1 → Nat) a + S16.size a ≤ S832.size a
  inb_S832_S16_480 : ∀ a, (![480] : Fin 1 → Nat) a + S16.size a ≤ S832.size a
  inb_S832_S16_272 : ∀ a, (![272] : Fin 1 → Nat) a + S16.size a ≤ S832.size a
  inb_S832_S16_496 : ∀ a, (![496] : Fin 1 → Nat) a + S16.size a ≤ S832.size a
  inb_S832_S16_288 : ∀ a, (![288] : Fin 1 → Nat) a + S16.size a ≤ S832.size a
  inb_S832_S16_512 : ∀ a, (![512] : Fin 1 → Nat) a + S16.size a ≤ S832.size a
  inb_S832_S16_304 : ∀ a, (![304] : Fin 1 → Nat) a + S16.size a ≤ S832.size a
  inb_S832_S16_528 : ∀ a, (![528] : Fin 1 → Nat) a + S16.size a ≤ S832.size a
  inb_S832_S16_320 : ∀ a, (![320] : Fin 1 → Nat) a + S16.size a ≤ S832.size a
  inb_S832_S16_544 : ∀ a, (![544] : Fin 1 → Nat) a + S16.size a ≤ S832.size a
  inb_S832_S16_336 : ∀ a, (![336] : Fin 1 → Nat) a + S16.size a ≤ S832.size a
  inb_S832_S16_560 : ∀ a, (![560] : Fin 1 → Nat) a + S16.size a ≤ S832.size a
  inb_S832_S16_352 : ∀ a, (![352] : Fin 1 → Nat) a + S16.size a ≤ S832.size a
  inb_S832_S16_576 : ∀ a, (![576] : Fin 1 → Nat) a + S16.size a ≤ S832.size a
  inb_S832_S16_368 : ∀ a, (![368] : Fin 1 → Nat) a + S16.size a ≤ S832.size a
  inb_S832_S16_592 : ∀ a, (![592] : Fin 1 → Nat) a + S16.size a ≤ S832.size a
  inb_S832_S16_384 : ∀ a, (![384] : Fin 1 → Nat) a + S16.size a ≤ S832.size a
  inb_S832_S16_608 : ∀ a, (![608] : Fin 1 → Nat) a + S16.size a ≤ S832.size a
  inb_S832_S16_400 : ∀ a, (![400] : Fin 1 → Nat) a + S16.size a ≤ S832.size a
  shapeCasts_S1024x832_S1024x4x208 : S1024x832.ShapeCasts S1024x4x208
  transposes_S1024x4x208_S4x208x1024_1_2_0 : S1024x4x208.Transposes [1, 2, 0] S4x208x1024
  shapeCasts_S16_S16x1 : S16.ShapeCasts S16x1
  inb_S4x208x512_S4x208x512_0_0_0 : ∀ a, (![0, 0, 0] : Fin 3 → Nat) a + S4x208x512.size a ≤ S4x208x512.size a
  h_S4x208x512 : 0 < S4x208x512.numel
  shapeCasts_S4x208x512_S4x208x512 : S4x208x512.ShapeCasts S4x208x512
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x16_S16x16_0_0 : ∀ a, (![0, 0] : Fin 2 → Nat) a + S16x16.size a ≤ S16x16.size a
  h_S16x16 : 0 < S16x16.numel
  slices_S4x208x512_o0_0_0_S1x1x512 : S4x208x512.Slices ![0, 0, 0] S1x1x512
  shapeCasts_S1x1x512_S1x512 : S1x1x512.ShapeCasts S1x512
  slices_S4x208x512_o1_0_0_S1x1x512 : S4x208x512.Slices ![1, 0, 0] S1x1x512
  broadcasts_S16x1_S16x512 : S16x1.Broadcasts S16x512
  broadcasts_S1x512_S16x512 : S1x512.Broadcasts S16x512
  inb_S200x16x512_S1x16x512_0_0_0 : ∀ a, (![0, 0, 0] : Fin 3 → Nat) a + S1x16x512.size a ≤ S200x16x512.size a
  h_S1x16x512 : 0 < S1x16x512.numel
  shapeCasts_S1x16x512_S16x512 : S1x16x512.ShapeCasts S16x512
  shapeCasts_S16x512_S1x16x512 : S16x512.ShapeCasts S1x16x512
  slices_S4x208x512_o0_1_0_S1x1x512 : S4x208x512.Slices ![0, 1, 0] S1x1x512
  slices_S4x208x512_o1_1_0_S1x1x512 : S4x208x512.Slices ![1, 1, 0] S1x1x512
  inb_S200x16x512_S1x16x512_1_0_0 : ∀ a, (![1, 0, 0] : Fin 3 → Nat) a + S1x16x512.size a ≤ S200x16x512.size a
  slices_S4x208x512_o0_2_0_S1x1x512 : S4x208x512.Slices ![0, 2, 0] S1x1x512
  slices_S4x208x512_o1_2_0_S1x1x512 : S4x208x512.Slices ![1, 2, 0] S1x1x512
  inb_S200x16x512_S1x16x512_2_0_0 : ∀ a, (![2, 0, 0] : Fin 3 → Nat) a + S1x16x512.size a ≤ S200x16x512.size a
  slices_S4x208x512_o0_3_0_S1x1x512 : S4x208x512.Slices ![0, 3, 0] S1x1x512
  slices_S4x208x512_o1_3_0_S1x1x512 : S4x208x512.Slices ![1, 3, 0] S1x1x512
  inb_S200x16x512_S1x16x512_3_0_0 : ∀ a, (![3, 0, 0] : Fin 3 → Nat) a + S1x16x512.size a ≤ S200x16x512.size a
  slices_S4x208x512_o0_4_0_S1x1x512 : S4x208x512.Slices ![0, 4, 0] S1x1x512
  slices_S4x208x512_o1_4_0_S1x1x512 : S4x208x512.Slices ![1, 4, 0] S1x1x512
  inb_S200x16x512_S1x16x512_4_0_0 : ∀ a, (![4, 0, 0] : Fin 3 → Nat) a + S1x16x512.size a ≤ S200x16x512.size a
  slices_S4x208x512_o0_5_0_S1x1x512 : S4x208x512.Slices ![0, 5, 0] S1x1x512
  slices_S4x208x512_o1_5_0_S1x1x512 : S4x208x512.Slices ![1, 5, 0] S1x1x512
  inb_S200x16x512_S1x16x512_5_0_0 : ∀ a, (![5, 0, 0] : Fin 3 → Nat) a + S1x16x512.size a ≤ S200x16x512.size a
  slices_S4x208x512_o0_6_0_S1x1x512 : S4x208x512.Slices ![0, 6, 0] S1x1x512
  slices_S4x208x512_o1_6_0_S1x1x512 : S4x208x512.Slices ![1, 6, 0] S1x1x512
  inb_S200x16x512_S1x16x512_6_0_0 : ∀ a, (![6, 0, 0] : Fin 3 → Nat) a + S1x16x512.size a ≤ S200x16x512.size a
  slices_S4x208x512_o0_7_0_S1x1x512 : S4x208x512.Slices ![0, 7, 0] S1x1x512
  slices_S4x208x512_o1_7_0_S1x1x512 : S4x208x512.Slices ![1, 7, 0] S1x1x512
  inb_S200x16x512_S1x16x512_7_0_0 : ∀ a, (![7, 0, 0] : Fin 3 → Nat) a + S1x16x512.size a ≤ S200x16x512.size a
  slices_S4x208x512_o0_8_0_S1x1x512 : S4x208x512.Slices ![0, 8, 0] S1x1x512
  slices_S4x208x512_o1_8_0_S1x1x512 : S4x208x512.Slices ![1, 8, 0] S1x1x512
  inb_S200x16x512_S1x16x512_8_0_0 : ∀ a, (![8, 0, 0] : Fin 3 → Nat) a + S1x16x512.size a ≤ S200x16x512.size a
  slices_S4x208x512_o0_9_0_S1x1x512 : S4x208x512.Slices ![0, 9, 0] S1x1x512
  slices_S4x208x512_o1_9_0_S1x1x512 : S4x208x512.Slices ![1, 9, 0] S1x1x512
  inb_S200x16x512_S1x16x512_9_0_0 : ∀ a, (![9, 0, 0] : Fin 3 → Nat) a + S1x16x512.size a ≤ S200x16x512.size a
  slices_S4x208x512_o0_10_0_S1x1x512 : S4x208x512.Slices ![0, 10, 0] S1x1x512
  slices_S4x208x512_o1_10_0_S1x1x512 : S4x208x512.Slices ![1, 10, 0] S1x1x512
  inb_S200x16x512_S1x16x512_10_0_0 : ∀ a, (![10, 0, 0] : Fin 3 → Nat) a + S1x16x512.size a ≤ S200x16x512.size a
  slices_S4x208x512_o0_11_0_S1x1x512 : S4x208x512.Slices ![0, 11, 0] S1x1x512
  slices_S4x208x512_o1_11_0_S1x1x512 : S4x208x512.Slices ![1, 11, 0] S1x1x512
  inb_S200x16x512_S1x16x512_11_0_0 : ∀ a, (![11, 0, 0] : Fin 3 → Nat) a + S1x16x512.size a ≤ S200x16x512.size a
  slices_S4x208x512_o0_12_0_S1x1x512 : S4x208x512.Slices ![0, 12, 0] S1x1x512
  slices_S4x208x512_o1_12_0_S1x1x512 : S4x208x512.Slices ![1, 12, 0] S1x1x512
  inb_S200x16x512_S1x16x512_12_0_0 : ∀ a, (![12, 0, 0] : Fin 3 → Nat) a + S1x16x512.size a ≤ S200x16x512.size a
  slices_S4x208x512_o0_13_0_S1x1x512 : S4x208x512.Slices ![0, 13, 0] S1x1x512
  slices_S4x208x512_o1_13_0_S1x1x512 : S4x208x512.Slices ![1, 13, 0] S1x1x512
  inb_S200x16x512_S1x16x512_13_0_0 : ∀ a, (![13, 0, 0] : Fin 3 → Nat) a + S1x16x512.size a ≤ S200x16x512.size a
  slices_S4x208x512_o0_14_0_S1x1x512 : S4x208x512.Slices ![0, 14, 0] S1x1x512
  slices_S4x208x512_o1_14_0_S1x1x512 : S4x208x512.Slices ![1, 14, 0] S1x1x512
  inb_S200x16x512_S1x16x512_14_0_0 : ∀ a, (![14, 0, 0] : Fin 3 → Nat) a + S1x16x512.size a ≤ S200x16x512.size a
  slices_S4x208x512_o0_15_0_S1x1x512 : S4x208x512.Slices ![0, 15, 0] S1x1x512
  slices_S4x208x512_o1_15_0_S1x1x512 : S4x208x512.Slices ![1, 15, 0] S1x1x512
  inb_S200x16x512_S1x16x512_15_0_0 : ∀ a, (![15, 0, 0] : Fin 3 → Nat) a + S1x16x512.size a ≤ S200x16x512.size a
  slices_S4x208x512_o0_16_0_S1x1x512 : S4x208x512.Slices ![0, 16, 0] S1x1x512
  slices_S4x208x512_o1_16_0_S1x1x512 : S4x208x512.Slices ![1, 16, 0] S1x1x512
  inb_S200x16x512_S1x16x512_16_0_0 : ∀ a, (![16, 0, 0] : Fin 3 → Nat) a + S1x16x512.size a ≤ S200x16x512.size a
  slices_S4x208x512_o0_17_0_S1x1x512 : S4x208x512.Slices ![0, 17, 0] S1x1x512
  slices_S4x208x512_o1_17_0_S1x1x512 : S4x208x512.Slices ![1, 17, 0] S1x1x512
  inb_S200x16x512_S1x16x512_17_0_0 : ∀ a, (![17, 0, 0] : Fin 3 → Nat) a + S1x16x512.size a ≤ S200x16x512.size a
  slices_S4x208x512_o0_18_0_S1x1x512 : S4x208x512.Slices ![0, 18, 0] S1x1x512
  slices_S4x208x512_o1_18_0_S1x1x512 : S4x208x512.Slices ![1, 18, 0] S1x1x512
  inb_S200x16x512_S1x16x512_18_0_0 : ∀ a, (![18, 0, 0] : Fin 3 → Nat) a + S1x16x512.size a ≤ S200x16x512.size a
  slices_S4x208x512_o0_19_0_S1x1x512 : S4x208x512.Slices ![0, 19, 0] S1x1x512
  slices_S4x208x512_o1_19_0_S1x1x512 : S4x208x512.Slices ![1, 19, 0] S1x1x512
  inb_S200x16x512_S1x16x512_19_0_0 : ∀ a, (![19, 0, 0] : Fin 3 → Nat) a + S1x16x512.size a ≤ S200x16x512.size a
  slices_S4x208x512_o0_20_0_S1x1x512 : S4x208x512.Slices ![0, 20, 0] S1x1x512
  slices_S4x208x512_o1_20_0_S1x1x512 : S4x208x512.Slices ![1, 20, 0] S1x1x512
  inb_S200x16x512_S1x16x512_20_0_0 : ∀ a, (![20, 0, 0] : Fin 3 → Nat) a + S1x16x512.size a ≤ S200x16x512.size a
  slices_S4x208x512_o0_21_0_S1x1x512 : S4x208x512.Slices ![0, 21, 0] S1x1x512
  slices_S4x208x512_o1_21_0_S1x1x512 : S4x208x512.Slices ![1, 21, 0] S1x1x512
  inb_S200x16x512_S1x16x512_21_0_0 : ∀ a, (![21, 0, 0] : Fin 3 → Nat) a + S1x16x512.size a ≤ S200x16x512.size a
  slices_S4x208x512_o0_22_0_S1x1x512 : S4x208x512.Slices ![0, 22, 0] S1x1x512
  slices_S4x208x512_o1_22_0_S1x1x512 : S4x208x512.Slices ![1, 22, 0] S1x1x512
  inb_S200x16x512_S1x16x512_22_0_0 : ∀ a, (![22, 0, 0] : Fin 3 → Nat) a + S1x16x512.size a ≤ S200x16x512.size a
  slices_S4x208x512_o0_23_0_S1x1x512 : S4x208x512.Slices ![0, 23, 0] S1x1x512
  slices_S4x208x512_o1_23_0_S1x1x512 : S4x208x512.Slices ![1, 23, 0] S1x1x512
  inb_S200x16x512_S1x16x512_23_0_0 : ∀ a, (![23, 0, 0] : Fin 3 → Nat) a + S1x16x512.size a ≤ S200x16x512.size a
  slices_S4x208x512_o0_24_0_S1x1x512 : S4x208x512.Slices ![0, 24, 0] S1x1x512
  slices_S4x208x512_o1_24_0_S1x1x512 : S4x208x512.Slices ![1, 24, 0] S1x1x512
  inb_S200x16x512_S1x16x512_24_0_0 : ∀ a, (![24, 0, 0] : Fin 3 → Nat) a + S1x16x512.size a ≤ S200x16x512.size a
  slices_S4x208x512_o0_25_0_S1x1x512 : S4x208x512.Slices ![0, 25, 0] S1x1x512
  slices_S4x208x512_o1_25_0_S1x1x512 : S4x208x512.Slices ![1, 25, 0] S1x1x512
  inb_S200x16x512_S1x16x512_25_0_0 : ∀ a, (![25, 0, 0] : Fin 3 → Nat) a + S1x16x512.size a ≤ S200x16x512.size a
  slices_S4x208x512_o0_26_0_S1x1x512 : S4x208x512.Slices ![0, 26, 0] S1x1x512
  slices_S4x208x512_o1_26_0_S1x1x512 : S4x208x512.Slices ![1, 26, 0] S1x1x512
  inb_S200x16x512_S1x16x512_26_0_0 : ∀ a, (![26, 0, 0] : Fin 3 → Nat) a + S1x16x512.size a ≤ S200x16x512.size a
  slices_S4x208x512_o0_27_0_S1x1x512 : S4x208x512.Slices ![0, 27, 0] S1x1x512
  slices_S4x208x512_o1_27_0_S1x1x512 : S4x208x512.Slices ![1, 27, 0] S1x1x512
  inb_S200x16x512_S1x16x512_27_0_0 : ∀ a, (![27, 0, 0] : Fin 3 → Nat) a + S1x16x512.size a ≤ S200x16x512.size a
  slices_S4x208x512_o0_28_0_S1x1x512 : S4x208x512.Slices ![0, 28, 0] S1x1x512
  slices_S4x208x512_o1_28_0_S1x1x512 : S4x208x512.Slices ![1, 28, 0] S1x1x512
  inb_S200x16x512_S1x16x512_28_0_0 : ∀ a, (![28, 0, 0] : Fin 3 → Nat) a + S1x16x512.size a ≤ S200x16x512.size a
  slices_S4x208x512_o0_29_0_S1x1x512 : S4x208x512.Slices ![0, 29, 0] S1x1x512
  slices_S4x208x512_o1_29_0_S1x1x512 : S4x208x512.Slices ![1, 29, 0] S1x1x512
  inb_S200x16x512_S1x16x512_29_0_0 : ∀ a, (![29, 0, 0] : Fin 3 → Nat) a + S1x16x512.size a ≤ S200x16x512.size a
  slices_S4x208x512_o0_30_0_S1x1x512 : S4x208x512.Slices ![0, 30, 0] S1x1x512
  slices_S4x208x512_o1_30_0_S1x1x512 : S4x208x512.Slices ![1, 30, 0] S1x1x512
  inb_S200x16x512_S1x16x512_30_0_0 : ∀ a, (![30, 0, 0] : Fin 3 → Nat) a + S1x16x512.size a ≤ S200x16x512.size a
  slices_S4x208x512_o0_31_0_S1x1x512 : S4x208x512.Slices ![0, 31, 0] S1x1x512
  slices_S4x208x512_o1_31_0_S1x1x512 : S4x208x512.Slices ![1, 31, 0] S1x1x512
  inb_S200x16x512_S1x16x512_31_0_0 : ∀ a, (![31, 0, 0] : Fin 3 → Nat) a + S1x16x512.size a ≤ S200x16x512.size a
  slices_S4x208x512_o0_32_0_S1x1x512 : S4x208x512.Slices ![0, 32, 0] S1x1x512
  slices_S4x208x512_o1_32_0_S1x1x512 : S4x208x512.Slices ![1, 32, 0] S1x1x512
  inb_S200x16x512_S1x16x512_32_0_0 : ∀ a, (![32, 0, 0] : Fin 3 → Nat) a + S1x16x512.size a ≤ S200x16x512.size a
  slices_S4x208x512_o0_33_0_S1x1x512 : S4x208x512.Slices ![0, 33, 0] S1x1x512
  slices_S4x208x512_o1_33_0_S1x1x512 : S4x208x512.Slices ![1, 33, 0] S1x1x512
  inb_S200x16x512_S1x16x512_33_0_0 : ∀ a, (![33, 0, 0] : Fin 3 → Nat) a + S1x16x512.size a ≤ S200x16x512.size a
  slices_S4x208x512_o0_34_0_S1x1x512 : S4x208x512.Slices ![0, 34, 0] S1x1x512
  slices_S4x208x512_o1_34_0_S1x1x512 : S4x208x512.Slices ![1, 34, 0] S1x1x512
  inb_S200x16x512_S1x16x512_34_0_0 : ∀ a, (![34, 0, 0] : Fin 3 → Nat) a + S1x16x512.size a ≤ S200x16x512.size a
  slices_S4x208x512_o0_35_0_S1x1x512 : S4x208x512.Slices ![0, 35, 0] S1x1x512
  slices_S4x208x512_o1_35_0_S1x1x512 : S4x208x512.Slices ![1, 35, 0] S1x1x512
  inb_S200x16x512_S1x16x512_35_0_0 : ∀ a, (![35, 0, 0] : Fin 3 → Nat) a + S1x16x512.size a ≤ S200x16x512.size a
  slices_S4x208x512_o0_36_0_S1x1x512 : S4x208x512.Slices ![0, 36, 0] S1x1x512
  slices_S4x208x512_o1_36_0_S1x1x512 : S4x208x512.Slices ![1, 36, 0] S1x1x512
  inb_S200x16x512_S1x16x512_36_0_0 : ∀ a, (![36, 0, 0] : Fin 3 → Nat) a + S1x16x512.size a ≤ S200x16x512.size a
  slices_S4x208x512_o0_37_0_S1x1x512 : S4x208x512.Slices ![0, 37, 0] S1x1x512
  slices_S4x208x512_o1_37_0_S1x1x512 : S4x208x512.Slices ![1, 37, 0] S1x1x512
  inb_S200x16x512_S1x16x512_37_0_0 : ∀ a, (![37, 0, 0] : Fin 3 → Nat) a + S1x16x512.size a ≤ S200x16x512.size a
  slices_S4x208x512_o0_38_0_S1x1x512 : S4x208x512.Slices ![0, 38, 0] S1x1x512
  slices_S4x208x512_o1_38_0_S1x1x512 : S4x208x512.Slices ![1, 38, 0] S1x1x512
  inb_S200x16x512_S1x16x512_38_0_0 : ∀ a, (![38, 0, 0] : Fin 3 → Nat) a + S1x16x512.size a ≤ S200x16x512.size a
  slices_S4x208x512_o0_39_0_S1x1x512 : S4x208x512.Slices ![0, 39, 0] S1x1x512
  slices_S4x208x512_o1_39_0_S1x1x512 : S4x208x512.Slices ![1, 39, 0] S1x1x512
  inb_S200x16x512_S1x16x512_39_0_0 : ∀ a, (![39, 0, 0] : Fin 3 → Nat) a + S1x16x512.size a ≤ S200x16x512.size a
  slices_S4x208x512_o0_40_0_S1x1x512 : S4x208x512.Slices ![0, 40, 0] S1x1x512
  slices_S4x208x512_o1_40_0_S1x1x512 : S4x208x512.Slices ![1, 40, 0] S1x1x512
  inb_S200x16x512_S1x16x512_40_0_0 : ∀ a, (![40, 0, 0] : Fin 3 → Nat) a + S1x16x512.size a ≤ S200x16x512.size a
  slices_S4x208x512_o0_41_0_S1x1x512 : S4x208x512.Slices ![0, 41, 0] S1x1x512
  slices_S4x208x512_o1_41_0_S1x1x512 : S4x208x512.Slices ![1, 41, 0] S1x1x512
  inb_S200x16x512_S1x16x512_41_0_0 : ∀ a, (![41, 0, 0] : Fin 3 → Nat) a + S1x16x512.size a ≤ S200x16x512.size a
  slices_S4x208x512_o0_42_0_S1x1x512 : S4x208x512.Slices ![0, 42, 0] S1x1x512
  slices_S4x208x512_o1_42_0_S1x1x512 : S4x208x512.Slices ![1, 42, 0] S1x1x512
  inb_S200x16x512_S1x16x512_42_0_0 : ∀ a, (![42, 0, 0] : Fin 3 → Nat) a + S1x16x512.size a ≤ S200x16x512.size a
  slices_S4x208x512_o0_43_0_S1x1x512 : S4x208x512.Slices ![0, 43, 0] S1x1x512
  slices_S4x208x512_o1_43_0_S1x1x512 : S4x208x512.Slices ![1, 43, 0] S1x1x512
  inb_S200x16x512_S1x16x512_43_0_0 : ∀ a, (![43, 0, 0] : Fin 3 → Nat) a + S1x16x512.size a ≤ S200x16x512.size a
  slices_S4x208x512_o0_44_0_S1x1x512 : S4x208x512.Slices ![0, 44, 0] S1x1x512
  slices_S4x208x512_o1_44_0_S1x1x512 : S4x208x512.Slices ![1, 44, 0] S1x1x512
  inb_S200x16x512_S1x16x512_44_0_0 : ∀ a, (![44, 0, 0] : Fin 3 → Nat) a + S1x16x512.size a ≤ S200x16x512.size a
  slices_S4x208x512_o0_45_0_S1x1x512 : S4x208x512.Slices ![0, 45, 0] S1x1x512
  slices_S4x208x512_o1_45_0_S1x1x512 : S4x208x512.Slices ![1, 45, 0] S1x1x512
  inb_S200x16x512_S1x16x512_45_0_0 : ∀ a, (![45, 0, 0] : Fin 3 → Nat) a + S1x16x512.size a ≤ S200x16x512.size a
  slices_S4x208x512_o0_46_0_S1x1x512 : S4x208x512.Slices ![0, 46, 0] S1x1x512
  slices_S4x208x512_o1_46_0_S1x1x512 : S4x208x512.Slices ![1, 46, 0] S1x1x512
  inb_S200x16x512_S1x16x512_46_0_0 : ∀ a, (![46, 0, 0] : Fin 3 → Nat) a + S1x16x512.size a ≤ S200x16x512.size a
  slices_S4x208x512_o0_47_0_S1x1x512 : S4x208x512.Slices ![0, 47, 0] S1x1x512
  slices_S4x208x512_o1_47_0_S1x1x512 : S4x208x512.Slices ![1, 47, 0] S1x1x512
  inb_S200x16x512_S1x16x512_47_0_0 : ∀ a, (![47, 0, 0] : Fin 3 → Nat) a + S1x16x512.size a ≤ S200x16x512.size a
  slices_S4x208x512_o0_48_0_S1x1x512 : S4x208x512.Slices ![0, 48, 0] S1x1x512
  slices_S4x208x512_o1_48_0_S1x1x512 : S4x208x512.Slices ![1, 48, 0] S1x1x512
  inb_S200x16x512_S1x16x512_48_0_0 : ∀ a, (![48, 0, 0] : Fin 3 → Nat) a + S1x16x512.size a ≤ S200x16x512.size a
  slices_S4x208x512_o0_49_0_S1x1x512 : S4x208x512.Slices ![0, 49, 0] S1x1x512
  slices_S4x208x512_o1_49_0_S1x1x512 : S4x208x512.Slices ![1, 49, 0] S1x1x512
  inb_S200x16x512_S1x16x512_49_0_0 : ∀ a, (![49, 0, 0] : Fin 3 → Nat) a + S1x16x512.size a ≤ S200x16x512.size a
  slices_S4x208x512_o0_50_0_S1x1x512 : S4x208x512.Slices ![0, 50, 0] S1x1x512
  slices_S4x208x512_o1_50_0_S1x1x512 : S4x208x512.Slices ![1, 50, 0] S1x1x512
  inb_S200x16x512_S1x16x512_50_0_0 : ∀ a, (![50, 0, 0] : Fin 3 → Nat) a + S1x16x512.size a ≤ S200x16x512.size a
  slices_S4x208x512_o0_51_0_S1x1x512 : S4x208x512.Slices ![0, 51, 0] S1x1x512
  slices_S4x208x512_o1_51_0_S1x1x512 : S4x208x512.Slices ![1, 51, 0] S1x1x512
  inb_S200x16x512_S1x16x512_51_0_0 : ∀ a, (![51, 0, 0] : Fin 3 → Nat) a + S1x16x512.size a ≤ S200x16x512.size a
  slices_S4x208x512_o0_52_0_S1x1x512 : S4x208x512.Slices ![0, 52, 0] S1x1x512
  slices_S4x208x512_o1_52_0_S1x1x512 : S4x208x512.Slices ![1, 52, 0] S1x1x512
  inb_S200x16x512_S1x16x512_52_0_0 : ∀ a, (![52, 0, 0] : Fin 3 → Nat) a + S1x16x512.size a ≤ S200x16x512.size a
  slices_S4x208x512_o0_53_0_S1x1x512 : S4x208x512.Slices ![0, 53, 0] S1x1x512
  slices_S4x208x512_o1_53_0_S1x1x512 : S4x208x512.Slices ![1, 53, 0] S1x1x512
  inb_S200x16x512_S1x16x512_53_0_0 : ∀ a, (![53, 0, 0] : Fin 3 → Nat) a + S1x16x512.size a ≤ S200x16x512.size a
  slices_S4x208x512_o0_54_0_S1x1x512 : S4x208x512.Slices ![0, 54, 0] S1x1x512
  slices_S4x208x512_o1_54_0_S1x1x512 : S4x208x512.Slices ![1, 54, 0] S1x1x512
  inb_S200x16x512_S1x16x512_54_0_0 : ∀ a, (![54, 0, 0] : Fin 3 → Nat) a + S1x16x512.size a ≤ S200x16x512.size a
  slices_S4x208x512_o0_55_0_S1x1x512 : S4x208x512.Slices ![0, 55, 0] S1x1x512
  slices_S4x208x512_o1_55_0_S1x1x512 : S4x208x512.Slices ![1, 55, 0] S1x1x512
  inb_S200x16x512_S1x16x512_55_0_0 : ∀ a, (![55, 0, 0] : Fin 3 → Nat) a + S1x16x512.size a ≤ S200x16x512.size a
  slices_S4x208x512_o0_56_0_S1x1x512 : S4x208x512.Slices ![0, 56, 0] S1x1x512
  slices_S4x208x512_o1_56_0_S1x1x512 : S4x208x512.Slices ![1, 56, 0] S1x1x512
  inb_S200x16x512_S1x16x512_56_0_0 : ∀ a, (![56, 0, 0] : Fin 3 → Nat) a + S1x16x512.size a ≤ S200x16x512.size a
  slices_S4x208x512_o0_57_0_S1x1x512 : S4x208x512.Slices ![0, 57, 0] S1x1x512
  slices_S4x208x512_o1_57_0_S1x1x512 : S4x208x512.Slices ![1, 57, 0] S1x1x512
  inb_S200x16x512_S1x16x512_57_0_0 : ∀ a, (![57, 0, 0] : Fin 3 → Nat) a + S1x16x512.size a ≤ S200x16x512.size a
  slices_S4x208x512_o0_58_0_S1x1x512 : S4x208x512.Slices ![0, 58, 0] S1x1x512
  slices_S4x208x512_o1_58_0_S1x1x512 : S4x208x512.Slices ![1, 58, 0] S1x1x512
  inb_S200x16x512_S1x16x512_58_0_0 : ∀ a, (![58, 0, 0] : Fin 3 → Nat) a + S1x16x512.size a ≤ S200x16x512.size a
  slices_S4x208x512_o0_59_0_S1x1x512 : S4x208x512.Slices ![0, 59, 0] S1x1x512
  slices_S4x208x512_o1_59_0_S1x1x512 : S4x208x512.Slices ![1, 59, 0] S1x1x512
  inb_S200x16x512_S1x16x512_59_0_0 : ∀ a, (![59, 0, 0] : Fin 3 → Nat) a + S1x16x512.size a ≤ S200x16x512.size a
  slices_S4x208x512_o0_60_0_S1x1x512 : S4x208x512.Slices ![0, 60, 0] S1x1x512
  slices_S4x208x512_o1_60_0_S1x1x512 : S4x208x512.Slices ![1, 60, 0] S1x1x512
  inb_S200x16x512_S1x16x512_60_0_0 : ∀ a, (![60, 0, 0] : Fin 3 → Nat) a + S1x16x512.size a ≤ S200x16x512.size a
  slices_S4x208x512_o0_61_0_S1x1x512 : S4x208x512.Slices ![0, 61, 0] S1x1x512
  slices_S4x208x512_o1_61_0_S1x1x512 : S4x208x512.Slices ![1, 61, 0] S1x1x512
  inb_S200x16x512_S1x16x512_61_0_0 : ∀ a, (![61, 0, 0] : Fin 3 → Nat) a + S1x16x512.size a ≤ S200x16x512.size a
  slices_S4x208x512_o0_62_0_S1x1x512 : S4x208x512.Slices ![0, 62, 0] S1x1x512
  slices_S4x208x512_o1_62_0_S1x1x512 : S4x208x512.Slices ![1, 62, 0] S1x1x512
  inb_S200x16x512_S1x16x512_62_0_0 : ∀ a, (![62, 0, 0] : Fin 3 → Nat) a + S1x16x512.size a ≤ S200x16x512.size a
  slices_S4x208x512_o0_63_0_S1x1x512 : S4x208x512.Slices ![0, 63, 0] S1x1x512
  slices_S4x208x512_o1_63_0_S1x1x512 : S4x208x512.Slices ![1, 63, 0] S1x1x512
  inb_S200x16x512_S1x16x512_63_0_0 : ∀ a, (![63, 0, 0] : Fin 3 → Nat) a + S1x16x512.size a ≤ S200x16x512.size a
  slices_S4x208x512_o0_64_0_S1x1x512 : S4x208x512.Slices ![0, 64, 0] S1x1x512
  slices_S4x208x512_o1_64_0_S1x1x512 : S4x208x512.Slices ![1, 64, 0] S1x1x512
  inb_S200x16x512_S1x16x512_64_0_0 : ∀ a, (![64, 0, 0] : Fin 3 → Nat) a + S1x16x512.size a ≤ S200x16x512.size a
  slices_S4x208x512_o0_65_0_S1x1x512 : S4x208x512.Slices ![0, 65, 0] S1x1x512
  slices_S4x208x512_o1_65_0_S1x1x512 : S4x208x512.Slices ![1, 65, 0] S1x1x512
  inb_S200x16x512_S1x16x512_65_0_0 : ∀ a, (![65, 0, 0] : Fin 3 → Nat) a + S1x16x512.size a ≤ S200x16x512.size a
  slices_S4x208x512_o0_66_0_S1x1x512 : S4x208x512.Slices ![0, 66, 0] S1x1x512
  slices_S4x208x512_o1_66_0_S1x1x512 : S4x208x512.Slices ![1, 66, 0] S1x1x512
  inb_S200x16x512_S1x16x512_66_0_0 : ∀ a, (![66, 0, 0] : Fin 3 → Nat) a + S1x16x512.size a ≤ S200x16x512.size a
  slices_S4x208x512_o0_67_0_S1x1x512 : S4x208x512.Slices ![0, 67, 0] S1x1x512
  slices_S4x208x512_o1_67_0_S1x1x512 : S4x208x512.Slices ![1, 67, 0] S1x1x512
  inb_S200x16x512_S1x16x512_67_0_0 : ∀ a, (![67, 0, 0] : Fin 3 → Nat) a + S1x16x512.size a ≤ S200x16x512.size a
  slices_S4x208x512_o0_68_0_S1x1x512 : S4x208x512.Slices ![0, 68, 0] S1x1x512
  slices_S4x208x512_o1_68_0_S1x1x512 : S4x208x512.Slices ![1, 68, 0] S1x1x512
  inb_S200x16x512_S1x16x512_68_0_0 : ∀ a, (![68, 0, 0] : Fin 3 → Nat) a + S1x16x512.size a ≤ S200x16x512.size a
  slices_S4x208x512_o0_69_0_S1x1x512 : S4x208x512.Slices ![0, 69, 0] S1x1x512
  slices_S4x208x512_o1_69_0_S1x1x512 : S4x208x512.Slices ![1, 69, 0] S1x1x512
  inb_S200x16x512_S1x16x512_69_0_0 : ∀ a, (![69, 0, 0] : Fin 3 → Nat) a + S1x16x512.size a ≤ S200x16x512.size a
  slices_S4x208x512_o0_70_0_S1x1x512 : S4x208x512.Slices ![0, 70, 0] S1x1x512
  slices_S4x208x512_o1_70_0_S1x1x512 : S4x208x512.Slices ![1, 70, 0] S1x1x512
  inb_S200x16x512_S1x16x512_70_0_0 : ∀ a, (![70, 0, 0] : Fin 3 → Nat) a + S1x16x512.size a ≤ S200x16x512.size a
  slices_S4x208x512_o0_71_0_S1x1x512 : S4x208x512.Slices ![0, 71, 0] S1x1x512
  slices_S4x208x512_o1_71_0_S1x1x512 : S4x208x512.Slices ![1, 71, 0] S1x1x512
  inb_S200x16x512_S1x16x512_71_0_0 : ∀ a, (![71, 0, 0] : Fin 3 → Nat) a + S1x16x512.size a ≤ S200x16x512.size a
  slices_S4x208x512_o0_72_0_S1x1x512 : S4x208x512.Slices ![0, 72, 0] S1x1x512
  slices_S4x208x512_o1_72_0_S1x1x512 : S4x208x512.Slices ![1, 72, 0] S1x1x512
  inb_S200x16x512_S1x16x512_72_0_0 : ∀ a, (![72, 0, 0] : Fin 3 → Nat) a + S1x16x512.size a ≤ S200x16x512.size a
  slices_S4x208x512_o0_73_0_S1x1x512 : S4x208x512.Slices ![0, 73, 0] S1x1x512
  slices_S4x208x512_o1_73_0_S1x1x512 : S4x208x512.Slices ![1, 73, 0] S1x1x512
  inb_S200x16x512_S1x16x512_73_0_0 : ∀ a, (![73, 0, 0] : Fin 3 → Nat) a + S1x16x512.size a ≤ S200x16x512.size a
  slices_S4x208x512_o0_74_0_S1x1x512 : S4x208x512.Slices ![0, 74, 0] S1x1x512
  slices_S4x208x512_o1_74_0_S1x1x512 : S4x208x512.Slices ![1, 74, 0] S1x1x512
  inb_S200x16x512_S1x16x512_74_0_0 : ∀ a, (![74, 0, 0] : Fin 3 → Nat) a + S1x16x512.size a ≤ S200x16x512.size a
  slices_S4x208x512_o0_75_0_S1x1x512 : S4x208x512.Slices ![0, 75, 0] S1x1x512
  slices_S4x208x512_o1_75_0_S1x1x512 : S4x208x512.Slices ![1, 75, 0] S1x1x512
  inb_S200x16x512_S1x16x512_75_0_0 : ∀ a, (![75, 0, 0] : Fin 3 → Nat) a + S1x16x512.size a ≤ S200x16x512.size a
  slices_S4x208x512_o0_76_0_S1x1x512 : S4x208x512.Slices ![0, 76, 0] S1x1x512
  slices_S4x208x512_o1_76_0_S1x1x512 : S4x208x512.Slices ![1, 76, 0] S1x1x512
  inb_S200x16x512_S1x16x512_76_0_0 : ∀ a, (![76, 0, 0] : Fin 3 → Nat) a + S1x16x512.size a ≤ S200x16x512.size a
  slices_S4x208x512_o0_77_0_S1x1x512 : S4x208x512.Slices ![0, 77, 0] S1x1x512
  slices_S4x208x512_o1_77_0_S1x1x512 : S4x208x512.Slices ![1, 77, 0] S1x1x512
  inb_S200x16x512_S1x16x512_77_0_0 : ∀ a, (![77, 0, 0] : Fin 3 → Nat) a + S1x16x512.size a ≤ S200x16x512.size a
  slices_S4x208x512_o0_78_0_S1x1x512 : S4x208x512.Slices ![0, 78, 0] S1x1x512
  slices_S4x208x512_o1_78_0_S1x1x512 : S4x208x512.Slices ![1, 78, 0] S1x1x512
  inb_S200x16x512_S1x16x512_78_0_0 : ∀ a, (![78, 0, 0] : Fin 3 → Nat) a + S1x16x512.size a ≤ S200x16x512.size a
  slices_S4x208x512_o0_79_0_S1x1x512 : S4x208x512.Slices ![0, 79, 0] S1x1x512
  slices_S4x208x512_o1_79_0_S1x1x512 : S4x208x512.Slices ![1, 79, 0] S1x1x512
  inb_S200x16x512_S1x16x512_79_0_0 : ∀ a, (![79, 0, 0] : Fin 3 → Nat) a + S1x16x512.size a ≤ S200x16x512.size a
  slices_S4x208x512_o0_80_0_S1x1x512 : S4x208x512.Slices ![0, 80, 0] S1x1x512
  slices_S4x208x512_o1_80_0_S1x1x512 : S4x208x512.Slices ![1, 80, 0] S1x1x512
  inb_S200x16x512_S1x16x512_80_0_0 : ∀ a, (![80, 0, 0] : Fin 3 → Nat) a + S1x16x512.size a ≤ S200x16x512.size a
  slices_S4x208x512_o0_81_0_S1x1x512 : S4x208x512.Slices ![0, 81, 0] S1x1x512
  slices_S4x208x512_o1_81_0_S1x1x512 : S4x208x512.Slices ![1, 81, 0] S1x1x512
  inb_S200x16x512_S1x16x512_81_0_0 : ∀ a, (![81, 0, 0] : Fin 3 → Nat) a + S1x16x512.size a ≤ S200x16x512.size a
  slices_S4x208x512_o0_82_0_S1x1x512 : S4x208x512.Slices ![0, 82, 0] S1x1x512
  slices_S4x208x512_o1_82_0_S1x1x512 : S4x208x512.Slices ![1, 82, 0] S1x1x512
  inb_S200x16x512_S1x16x512_82_0_0 : ∀ a, (![82, 0, 0] : Fin 3 → Nat) a + S1x16x512.size a ≤ S200x16x512.size a
  slices_S4x208x512_o0_83_0_S1x1x512 : S4x208x512.Slices ![0, 83, 0] S1x1x512
  slices_S4x208x512_o1_83_0_S1x1x512 : S4x208x512.Slices ![1, 83, 0] S1x1x512
  inb_S200x16x512_S1x16x512_83_0_0 : ∀ a, (![83, 0, 0] : Fin 3 → Nat) a + S1x16x512.size a ≤ S200x16x512.size a
  slices_S4x208x512_o0_84_0_S1x1x512 : S4x208x512.Slices ![0, 84, 0] S1x1x512
  slices_S4x208x512_o1_84_0_S1x1x512 : S4x208x512.Slices ![1, 84, 0] S1x1x512
  inb_S200x16x512_S1x16x512_84_0_0 : ∀ a, (![84, 0, 0] : Fin 3 → Nat) a + S1x16x512.size a ≤ S200x16x512.size a
  slices_S4x208x512_o0_85_0_S1x1x512 : S4x208x512.Slices ![0, 85, 0] S1x1x512
  slices_S4x208x512_o1_85_0_S1x1x512 : S4x208x512.Slices ![1, 85, 0] S1x1x512
  inb_S200x16x512_S1x16x512_85_0_0 : ∀ a, (![85, 0, 0] : Fin 3 → Nat) a + S1x16x512.size a ≤ S200x16x512.size a
  slices_S4x208x512_o0_86_0_S1x1x512 : S4x208x512.Slices ![0, 86, 0] S1x1x512
  slices_S4x208x512_o1_86_0_S1x1x512 : S4x208x512.Slices ![1, 86, 0] S1x1x512
  inb_S200x16x512_S1x16x512_86_0_0 : ∀ a, (![86, 0, 0] : Fin 3 → Nat) a + S1x16x512.size a ≤ S200x16x512.size a
  slices_S4x208x512_o0_87_0_S1x1x512 : S4x208x512.Slices ![0, 87, 0] S1x1x512
  slices_S4x208x512_o1_87_0_S1x1x512 : S4x208x512.Slices ![1, 87, 0] S1x1x512
  inb_S200x16x512_S1x16x512_87_0_0 : ∀ a, (![87, 0, 0] : Fin 3 → Nat) a + S1x16x512.size a ≤ S200x16x512.size a
  slices_S4x208x512_o0_88_0_S1x1x512 : S4x208x512.Slices ![0, 88, 0] S1x1x512
  slices_S4x208x512_o1_88_0_S1x1x512 : S4x208x512.Slices ![1, 88, 0] S1x1x512
  inb_S200x16x512_S1x16x512_88_0_0 : ∀ a, (![88, 0, 0] : Fin 3 → Nat) a + S1x16x512.size a ≤ S200x16x512.size a
  slices_S4x208x512_o0_89_0_S1x1x512 : S4x208x512.Slices ![0, 89, 0] S1x1x512
  slices_S4x208x512_o1_89_0_S1x1x512 : S4x208x512.Slices ![1, 89, 0] S1x1x512
  inb_S200x16x512_S1x16x512_89_0_0 : ∀ a, (![89, 0, 0] : Fin 3 → Nat) a + S1x16x512.size a ≤ S200x16x512.size a
  slices_S4x208x512_o0_90_0_S1x1x512 : S4x208x512.Slices ![0, 90, 0] S1x1x512
  slices_S4x208x512_o1_90_0_S1x1x512 : S4x208x512.Slices ![1, 90, 0] S1x1x512
  inb_S200x16x512_S1x16x512_90_0_0 : ∀ a, (![90, 0, 0] : Fin 3 → Nat) a + S1x16x512.size a ≤ S200x16x512.size a
  slices_S4x208x512_o0_91_0_S1x1x512 : S4x208x512.Slices ![0, 91, 0] S1x1x512
  slices_S4x208x512_o1_91_0_S1x1x512 : S4x208x512.Slices ![1, 91, 0] S1x1x512
  inb_S200x16x512_S1x16x512_91_0_0 : ∀ a, (![91, 0, 0] : Fin 3 → Nat) a + S1x16x512.size a ≤ S200x16x512.size a
  slices_S4x208x512_o0_92_0_S1x1x512 : S4x208x512.Slices ![0, 92, 0] S1x1x512
  slices_S4x208x512_o1_92_0_S1x1x512 : S4x208x512.Slices ![1, 92, 0] S1x1x512
  inb_S200x16x512_S1x16x512_92_0_0 : ∀ a, (![92, 0, 0] : Fin 3 → Nat) a + S1x16x512.size a ≤ S200x16x512.size a
  slices_S4x208x512_o0_93_0_S1x1x512 : S4x208x512.Slices ![0, 93, 0] S1x1x512
  slices_S4x208x512_o1_93_0_S1x1x512 : S4x208x512.Slices ![1, 93, 0] S1x1x512
  inb_S200x16x512_S1x16x512_93_0_0 : ∀ a, (![93, 0, 0] : Fin 3 → Nat) a + S1x16x512.size a ≤ S200x16x512.size a
  slices_S4x208x512_o0_94_0_S1x1x512 : S4x208x512.Slices ![0, 94, 0] S1x1x512
  slices_S4x208x512_o1_94_0_S1x1x512 : S4x208x512.Slices ![1, 94, 0] S1x1x512
  inb_S200x16x512_S1x16x512_94_0_0 : ∀ a, (![94, 0, 0] : Fin 3 → Nat) a + S1x16x512.size a ≤ S200x16x512.size a
  slices_S4x208x512_o0_95_0_S1x1x512 : S4x208x512.Slices ![0, 95, 0] S1x1x512
  slices_S4x208x512_o1_95_0_S1x1x512 : S4x208x512.Slices ![1, 95, 0] S1x1x512
  inb_S200x16x512_S1x16x512_95_0_0 : ∀ a, (![95, 0, 0] : Fin 3 → Nat) a + S1x16x512.size a ≤ S200x16x512.size a
  slices_S4x208x512_o0_96_0_S1x1x512 : S4x208x512.Slices ![0, 96, 0] S1x1x512
  slices_S4x208x512_o1_96_0_S1x1x512 : S4x208x512.Slices ![1, 96, 0] S1x1x512
  inb_S200x16x512_S1x16x512_96_0_0 : ∀ a, (![96, 0, 0] : Fin 3 → Nat) a + S1x16x512.size a ≤ S200x16x512.size a
  slices_S4x208x512_o0_97_0_S1x1x512 : S4x208x512.Slices ![0, 97, 0] S1x1x512
  slices_S4x208x512_o1_97_0_S1x1x512 : S4x208x512.Slices ![1, 97, 0] S1x1x512
  inb_S200x16x512_S1x16x512_97_0_0 : ∀ a, (![97, 0, 0] : Fin 3 → Nat) a + S1x16x512.size a ≤ S200x16x512.size a
  slices_S4x208x512_o0_98_0_S1x1x512 : S4x208x512.Slices ![0, 98, 0] S1x1x512
  slices_S4x208x512_o1_98_0_S1x1x512 : S4x208x512.Slices ![1, 98, 0] S1x1x512
  inb_S200x16x512_S1x16x512_98_0_0 : ∀ a, (![98, 0, 0] : Fin 3 → Nat) a + S1x16x512.size a ≤ S200x16x512.size a
  slices_S4x208x512_o0_99_0_S1x1x512 : S4x208x512.Slices ![0, 99, 0] S1x1x512
  slices_S4x208x512_o1_99_0_S1x1x512 : S4x208x512.Slices ![1, 99, 0] S1x1x512
  inb_S200x16x512_S1x16x512_99_0_0 : ∀ a, (![99, 0, 0] : Fin 3 → Nat) a + S1x16x512.size a ≤ S200x16x512.size a
  slices_S4x208x512_o0_100_0_S1x1x512 : S4x208x512.Slices ![0, 100, 0] S1x1x512
  slices_S4x208x512_o1_100_0_S1x1x512 : S4x208x512.Slices ![1, 100, 0] S1x1x512
  inb_S200x16x512_S1x16x512_100_0_0 : ∀ a, (![100, 0, 0] : Fin 3 → Nat) a + S1x16x512.size a ≤ S200x16x512.size a
  slices_S4x208x512_o0_101_0_S1x1x512 : S4x208x512.Slices ![0, 101, 0] S1x1x512
  slices_S4x208x512_o1_101_0_S1x1x512 : S4x208x512.Slices ![1, 101, 0] S1x1x512
  inb_S200x16x512_S1x16x512_101_0_0 : ∀ a, (![101, 0, 0] : Fin 3 → Nat) a + S1x16x512.size a ≤ S200x16x512.size a
  slices_S4x208x512_o0_102_0_S1x1x512 : S4x208x512.Slices ![0, 102, 0] S1x1x512
  slices_S4x208x512_o1_102_0_S1x1x512 : S4x208x512.Slices ![1, 102, 0] S1x1x512
  inb_S200x16x512_S1x16x512_102_0_0 : ∀ a, (![102, 0, 0] : Fin 3 → Nat) a + S1x16x512.size a ≤ S200x16x512.size a
  slices_S4x208x512_o0_103_0_S1x1x512 : S4x208x512.Slices ![0, 103, 0] S1x1x512
  slices_S4x208x512_o1_103_0_S1x1x512 : S4x208x512.Slices ![1, 103, 0] S1x1x512
  inb_S200x16x512_S1x16x512_103_0_0 : ∀ a, (![103, 0, 0] : Fin 3 → Nat) a + S1x16x512.size a ≤ S200x16x512.size a
  slices_S4x208x512_o0_104_0_S1x1x512 : S4x208x512.Slices ![0, 104, 0] S1x1x512
  slices_S4x208x512_o1_104_0_S1x1x512 : S4x208x512.Slices ![1, 104, 0] S1x1x512
  inb_S200x16x512_S1x16x512_104_0_0 : ∀ a, (![104, 0, 0] : Fin 3 → Nat) a + S1x16x512.size a ≤ S200x16x512.size a
  slices_S4x208x512_o0_105_0_S1x1x512 : S4x208x512.Slices ![0, 105, 0] S1x1x512
  slices_S4x208x512_o1_105_0_S1x1x512 : S4x208x512.Slices ![1, 105, 0] S1x1x512
  inb_S200x16x512_S1x16x512_105_0_0 : ∀ a, (![105, 0, 0] : Fin 3 → Nat) a + S1x16x512.size a ≤ S200x16x512.size a
  slices_S4x208x512_o0_106_0_S1x1x512 : S4x208x512.Slices ![0, 106, 0] S1x1x512
  slices_S4x208x512_o1_106_0_S1x1x512 : S4x208x512.Slices ![1, 106, 0] S1x1x512
  inb_S200x16x512_S1x16x512_106_0_0 : ∀ a, (![106, 0, 0] : Fin 3 → Nat) a + S1x16x512.size a ≤ S200x16x512.size a
  slices_S4x208x512_o0_107_0_S1x1x512 : S4x208x512.Slices ![0, 107, 0] S1x1x512
  slices_S4x208x512_o1_107_0_S1x1x512 : S4x208x512.Slices ![1, 107, 0] S1x1x512
  inb_S200x16x512_S1x16x512_107_0_0 : ∀ a, (![107, 0, 0] : Fin 3 → Nat) a + S1x16x512.size a ≤ S200x16x512.size a
  slices_S4x208x512_o0_108_0_S1x1x512 : S4x208x512.Slices ![0, 108, 0] S1x1x512
  slices_S4x208x512_o1_108_0_S1x1x512 : S4x208x512.Slices ![1, 108, 0] S1x1x512
  inb_S200x16x512_S1x16x512_108_0_0 : ∀ a, (![108, 0, 0] : Fin 3 → Nat) a + S1x16x512.size a ≤ S200x16x512.size a
  slices_S4x208x512_o0_109_0_S1x1x512 : S4x208x512.Slices ![0, 109, 0] S1x1x512
  slices_S4x208x512_o1_109_0_S1x1x512 : S4x208x512.Slices ![1, 109, 0] S1x1x512
  inb_S200x16x512_S1x16x512_109_0_0 : ∀ a, (![109, 0, 0] : Fin 3 → Nat) a + S1x16x512.size a ≤ S200x16x512.size a
  slices_S4x208x512_o0_110_0_S1x1x512 : S4x208x512.Slices ![0, 110, 0] S1x1x512
  slices_S4x208x512_o1_110_0_S1x1x512 : S4x208x512.Slices ![1, 110, 0] S1x1x512
  inb_S200x16x512_S1x16x512_110_0_0 : ∀ a, (![110, 0, 0] : Fin 3 → Nat) a + S1x16x512.size a ≤ S200x16x512.size a
  slices_S4x208x512_o0_111_0_S1x1x512 : S4x208x512.Slices ![0, 111, 0] S1x1x512
  slices_S4x208x512_o1_111_0_S1x1x512 : S4x208x512.Slices ![1, 111, 0] S1x1x512
  inb_S200x16x512_S1x16x512_111_0_0 : ∀ a, (![111, 0, 0] : Fin 3 → Nat) a + S1x16x512.size a ≤ S200x16x512.size a
  slices_S4x208x512_o0_112_0_S1x1x512 : S4x208x512.Slices ![0, 112, 0] S1x1x512
  slices_S4x208x512_o1_112_0_S1x1x512 : S4x208x512.Slices ![1, 112, 0] S1x1x512
  inb_S200x16x512_S1x16x512_112_0_0 : ∀ a, (![112, 0, 0] : Fin 3 → Nat) a + S1x16x512.size a ≤ S200x16x512.size a
  slices_S4x208x512_o0_113_0_S1x1x512 : S4x208x512.Slices ![0, 113, 0] S1x1x512
  slices_S4x208x512_o1_113_0_S1x1x512 : S4x208x512.Slices ![1, 113, 0] S1x1x512
  inb_S200x16x512_S1x16x512_113_0_0 : ∀ a, (![113, 0, 0] : Fin 3 → Nat) a + S1x16x512.size a ≤ S200x16x512.size a
  slices_S4x208x512_o0_114_0_S1x1x512 : S4x208x512.Slices ![0, 114, 0] S1x1x512
  slices_S4x208x512_o1_114_0_S1x1x512 : S4x208x512.Slices ![1, 114, 0] S1x1x512
  inb_S200x16x512_S1x16x512_114_0_0 : ∀ a, (![114, 0, 0] : Fin 3 → Nat) a + S1x16x512.size a ≤ S200x16x512.size a
  slices_S4x208x512_o0_115_0_S1x1x512 : S4x208x512.Slices ![0, 115, 0] S1x1x512
  slices_S4x208x512_o1_115_0_S1x1x512 : S4x208x512.Slices ![1, 115, 0] S1x1x512
  inb_S200x16x512_S1x16x512_115_0_0 : ∀ a, (![115, 0, 0] : Fin 3 → Nat) a + S1x16x512.size a ≤ S200x16x512.size a
  slices_S4x208x512_o0_116_0_S1x1x512 : S4x208x512.Slices ![0, 116, 0] S1x1x512
  slices_S4x208x512_o1_116_0_S1x1x512 : S4x208x512.Slices ![1, 116, 0] S1x1x512
  inb_S200x16x512_S1x16x512_116_0_0 : ∀ a, (![116, 0, 0] : Fin 3 → Nat) a + S1x16x512.size a ≤ S200x16x512.size a
  slices_S4x208x512_o0_117_0_S1x1x512 : S4x208x512.Slices ![0, 117, 0] S1x1x512
  slices_S4x208x512_o1_117_0_S1x1x512 : S4x208x512.Slices ![1, 117, 0] S1x1x512
  inb_S200x16x512_S1x16x512_117_0_0 : ∀ a, (![117, 0, 0] : Fin 3 → Nat) a + S1x16x512.size a ≤ S200x16x512.size a
  slices_S4x208x512_o0_118_0_S1x1x512 : S4x208x512.Slices ![0, 118, 0] S1x1x512
  slices_S4x208x512_o1_118_0_S1x1x512 : S4x208x512.Slices ![1, 118, 0] S1x1x512
  inb_S200x16x512_S1x16x512_118_0_0 : ∀ a, (![118, 0, 0] : Fin 3 → Nat) a + S1x16x512.size a ≤ S200x16x512.size a
  slices_S4x208x512_o0_119_0_S1x1x512 : S4x208x512.Slices ![0, 119, 0] S1x1x512
  slices_S4x208x512_o1_119_0_S1x1x512 : S4x208x512.Slices ![1, 119, 0] S1x1x512
  inb_S200x16x512_S1x16x512_119_0_0 : ∀ a, (![119, 0, 0] : Fin 3 → Nat) a + S1x16x512.size a ≤ S200x16x512.size a
  slices_S4x208x512_o0_120_0_S1x1x512 : S4x208x512.Slices ![0, 120, 0] S1x1x512
  slices_S4x208x512_o1_120_0_S1x1x512 : S4x208x512.Slices ![1, 120, 0] S1x1x512
  inb_S200x16x512_S1x16x512_120_0_0 : ∀ a, (![120, 0, 0] : Fin 3 → Nat) a + S1x16x512.size a ≤ S200x16x512.size a
  slices_S4x208x512_o0_121_0_S1x1x512 : S4x208x512.Slices ![0, 121, 0] S1x1x512
  slices_S4x208x512_o1_121_0_S1x1x512 : S4x208x512.Slices ![1, 121, 0] S1x1x512
  inb_S200x16x512_S1x16x512_121_0_0 : ∀ a, (![121, 0, 0] : Fin 3 → Nat) a + S1x16x512.size a ≤ S200x16x512.size a
  slices_S4x208x512_o0_122_0_S1x1x512 : S4x208x512.Slices ![0, 122, 0] S1x1x512
  slices_S4x208x512_o1_122_0_S1x1x512 : S4x208x512.Slices ![1, 122, 0] S1x1x512
  inb_S200x16x512_S1x16x512_122_0_0 : ∀ a, (![122, 0, 0] : Fin 3 → Nat) a + S1x16x512.size a ≤ S200x16x512.size a
  slices_S4x208x512_o0_123_0_S1x1x512 : S4x208x512.Slices ![0, 123, 0] S1x1x512
  slices_S4x208x512_o1_123_0_S1x1x512 : S4x208x512.Slices ![1, 123, 0] S1x1x512
  inb_S200x16x512_S1x16x512_123_0_0 : ∀ a, (![123, 0, 0] : Fin 3 → Nat) a + S1x16x512.size a ≤ S200x16x512.size a
  slices_S4x208x512_o0_124_0_S1x1x512 : S4x208x512.Slices ![0, 124, 0] S1x1x512
  slices_S4x208x512_o1_124_0_S1x1x512 : S4x208x512.Slices ![1, 124, 0] S1x1x512
  inb_S200x16x512_S1x16x512_124_0_0 : ∀ a, (![124, 0, 0] : Fin 3 → Nat) a + S1x16x512.size a ≤ S200x16x512.size a
  slices_S4x208x512_o0_125_0_S1x1x512 : S4x208x512.Slices ![0, 125, 0] S1x1x512
  slices_S4x208x512_o1_125_0_S1x1x512 : S4x208x512.Slices ![1, 125, 0] S1x1x512
  inb_S200x16x512_S1x16x512_125_0_0 : ∀ a, (![125, 0, 0] : Fin 3 → Nat) a + S1x16x512.size a ≤ S200x16x512.size a
  slices_S4x208x512_o0_126_0_S1x1x512 : S4x208x512.Slices ![0, 126, 0] S1x1x512
  slices_S4x208x512_o1_126_0_S1x1x512 : S4x208x512.Slices ![1, 126, 0] S1x1x512
  inb_S200x16x512_S1x16x512_126_0_0 : ∀ a, (![126, 0, 0] : Fin 3 → Nat) a + S1x16x512.size a ≤ S200x16x512.size a
  slices_S4x208x512_o0_127_0_S1x1x512 : S4x208x512.Slices ![0, 127, 0] S1x1x512
  slices_S4x208x512_o1_127_0_S1x1x512 : S4x208x512.Slices ![1, 127, 0] S1x1x512
  inb_S200x16x512_S1x16x512_127_0_0 : ∀ a, (![127, 0, 0] : Fin 3 → Nat) a + S1x16x512.size a ≤ S200x16x512.size a
  slices_S4x208x512_o0_128_0_S1x1x512 : S4x208x512.Slices ![0, 128, 0] S1x1x512
  slices_S4x208x512_o1_128_0_S1x1x512 : S4x208x512.Slices ![1, 128, 0] S1x1x512
  inb_S200x16x512_S1x16x512_128_0_0 : ∀ a, (![128, 0, 0] : Fin 3 → Nat) a + S1x16x512.size a ≤ S200x16x512.size a
  slices_S4x208x512_o0_129_0_S1x1x512 : S4x208x512.Slices ![0, 129, 0] S1x1x512
  slices_S4x208x512_o1_129_0_S1x1x512 : S4x208x512.Slices ![1, 129, 0] S1x1x512
  inb_S200x16x512_S1x16x512_129_0_0 : ∀ a, (![129, 0, 0] : Fin 3 → Nat) a + S1x16x512.size a ≤ S200x16x512.size a
  slices_S4x208x512_o0_130_0_S1x1x512 : S4x208x512.Slices ![0, 130, 0] S1x1x512
  slices_S4x208x512_o1_130_0_S1x1x512 : S4x208x512.Slices ![1, 130, 0] S1x1x512
  inb_S200x16x512_S1x16x512_130_0_0 : ∀ a, (![130, 0, 0] : Fin 3 → Nat) a + S1x16x512.size a ≤ S200x16x512.size a
  slices_S4x208x512_o0_131_0_S1x1x512 : S4x208x512.Slices ![0, 131, 0] S1x1x512
  slices_S4x208x512_o1_131_0_S1x1x512 : S4x208x512.Slices ![1, 131, 0] S1x1x512
  inb_S200x16x512_S1x16x512_131_0_0 : ∀ a, (![131, 0, 0] : Fin 3 → Nat) a + S1x16x512.size a ≤ S200x16x512.size a
  slices_S4x208x512_o0_132_0_S1x1x512 : S4x208x512.Slices ![0, 132, 0] S1x1x512
  slices_S4x208x512_o1_132_0_S1x1x512 : S4x208x512.Slices ![1, 132, 0] S1x1x512
  inb_S200x16x512_S1x16x512_132_0_0 : ∀ a, (![132, 0, 0] : Fin 3 → Nat) a + S1x16x512.size a ≤ S200x16x512.size a
  slices_S4x208x512_o0_133_0_S1x1x512 : S4x208x512.Slices ![0, 133, 0] S1x1x512
  slices_S4x208x512_o1_133_0_S1x1x512 : S4x208x512.Slices ![1, 133, 0] S1x1x512
  inb_S200x16x512_S1x16x512_133_0_0 : ∀ a, (![133, 0, 0] : Fin 3 → Nat) a + S1x16x512.size a ≤ S200x16x512.size a
  slices_S4x208x512_o0_134_0_S1x1x512 : S4x208x512.Slices ![0, 134, 0] S1x1x512
  slices_S4x208x512_o1_134_0_S1x1x512 : S4x208x512.Slices ![1, 134, 0] S1x1x512
  inb_S200x16x512_S1x16x512_134_0_0 : ∀ a, (![134, 0, 0] : Fin 3 → Nat) a + S1x16x512.size a ≤ S200x16x512.size a
  slices_S4x208x512_o0_135_0_S1x1x512 : S4x208x512.Slices ![0, 135, 0] S1x1x512
  slices_S4x208x512_o1_135_0_S1x1x512 : S4x208x512.Slices ![1, 135, 0] S1x1x512
  inb_S200x16x512_S1x16x512_135_0_0 : ∀ a, (![135, 0, 0] : Fin 3 → Nat) a + S1x16x512.size a ≤ S200x16x512.size a
  slices_S4x208x512_o0_136_0_S1x1x512 : S4x208x512.Slices ![0, 136, 0] S1x1x512
  slices_S4x208x512_o1_136_0_S1x1x512 : S4x208x512.Slices ![1, 136, 0] S1x1x512
  inb_S200x16x512_S1x16x512_136_0_0 : ∀ a, (![136, 0, 0] : Fin 3 → Nat) a + S1x16x512.size a ≤ S200x16x512.size a
  slices_S4x208x512_o0_137_0_S1x1x512 : S4x208x512.Slices ![0, 137, 0] S1x1x512
  slices_S4x208x512_o1_137_0_S1x1x512 : S4x208x512.Slices ![1, 137, 0] S1x1x512
  inb_S200x16x512_S1x16x512_137_0_0 : ∀ a, (![137, 0, 0] : Fin 3 → Nat) a + S1x16x512.size a ≤ S200x16x512.size a
  slices_S4x208x512_o0_138_0_S1x1x512 : S4x208x512.Slices ![0, 138, 0] S1x1x512
  slices_S4x208x512_o1_138_0_S1x1x512 : S4x208x512.Slices ![1, 138, 0] S1x1x512
  inb_S200x16x512_S1x16x512_138_0_0 : ∀ a, (![138, 0, 0] : Fin 3 → Nat) a + S1x16x512.size a ≤ S200x16x512.size a
  slices_S4x208x512_o0_139_0_S1x1x512 : S4x208x512.Slices ![0, 139, 0] S1x1x512
  slices_S4x208x512_o1_139_0_S1x1x512 : S4x208x512.Slices ![1, 139, 0] S1x1x512
  inb_S200x16x512_S1x16x512_139_0_0 : ∀ a, (![139, 0, 0] : Fin 3 → Nat) a + S1x16x512.size a ≤ S200x16x512.size a
  slices_S4x208x512_o0_140_0_S1x1x512 : S4x208x512.Slices ![0, 140, 0] S1x1x512
  slices_S4x208x512_o1_140_0_S1x1x512 : S4x208x512.Slices ![1, 140, 0] S1x1x512
  inb_S200x16x512_S1x16x512_140_0_0 : ∀ a, (![140, 0, 0] : Fin 3 → Nat) a + S1x16x512.size a ≤ S200x16x512.size a
  slices_S4x208x512_o0_141_0_S1x1x512 : S4x208x512.Slices ![0, 141, 0] S1x1x512
  slices_S4x208x512_o1_141_0_S1x1x512 : S4x208x512.Slices ![1, 141, 0] S1x1x512
  inb_S200x16x512_S1x16x512_141_0_0 : ∀ a, (![141, 0, 0] : Fin 3 → Nat) a + S1x16x512.size a ≤ S200x16x512.size a
  slices_S4x208x512_o0_142_0_S1x1x512 : S4x208x512.Slices ![0, 142, 0] S1x1x512
  slices_S4x208x512_o1_142_0_S1x1x512 : S4x208x512.Slices ![1, 142, 0] S1x1x512
  inb_S200x16x512_S1x16x512_142_0_0 : ∀ a, (![142, 0, 0] : Fin 3 → Nat) a + S1x16x512.size a ≤ S200x16x512.size a
  slices_S4x208x512_o0_143_0_S1x1x512 : S4x208x512.Slices ![0, 143, 0] S1x1x512
  slices_S4x208x512_o1_143_0_S1x1x512 : S4x208x512.Slices ![1, 143, 0] S1x1x512
  inb_S200x16x512_S1x16x512_143_0_0 : ∀ a, (![143, 0, 0] : Fin 3 → Nat) a + S1x16x512.size a ≤ S200x16x512.size a
  slices_S4x208x512_o0_144_0_S1x1x512 : S4x208x512.Slices ![0, 144, 0] S1x1x512
  slices_S4x208x512_o1_144_0_S1x1x512 : S4x208x512.Slices ![1, 144, 0] S1x1x512
  inb_S200x16x512_S1x16x512_144_0_0 : ∀ a, (![144, 0, 0] : Fin 3 → Nat) a + S1x16x512.size a ≤ S200x16x512.size a
  slices_S4x208x512_o0_145_0_S1x1x512 : S4x208x512.Slices ![0, 145, 0] S1x1x512
  slices_S4x208x512_o1_145_0_S1x1x512 : S4x208x512.Slices ![1, 145, 0] S1x1x512
  inb_S200x16x512_S1x16x512_145_0_0 : ∀ a, (![145, 0, 0] : Fin 3 → Nat) a + S1x16x512.size a ≤ S200x16x512.size a
  slices_S4x208x512_o0_146_0_S1x1x512 : S4x208x512.Slices ![0, 146, 0] S1x1x512
  slices_S4x208x512_o1_146_0_S1x1x512 : S4x208x512.Slices ![1, 146, 0] S1x1x512
  inb_S200x16x512_S1x16x512_146_0_0 : ∀ a, (![146, 0, 0] : Fin 3 → Nat) a + S1x16x512.size a ≤ S200x16x512.size a
  slices_S4x208x512_o0_147_0_S1x1x512 : S4x208x512.Slices ![0, 147, 0] S1x1x512
  slices_S4x208x512_o1_147_0_S1x1x512 : S4x208x512.Slices ![1, 147, 0] S1x1x512
  inb_S200x16x512_S1x16x512_147_0_0 : ∀ a, (![147, 0, 0] : Fin 3 → Nat) a + S1x16x512.size a ≤ S200x16x512.size a
  slices_S4x208x512_o0_148_0_S1x1x512 : S4x208x512.Slices ![0, 148, 0] S1x1x512
  slices_S4x208x512_o1_148_0_S1x1x512 : S4x208x512.Slices ![1, 148, 0] S1x1x512
  inb_S200x16x512_S1x16x512_148_0_0 : ∀ a, (![148, 0, 0] : Fin 3 → Nat) a + S1x16x512.size a ≤ S200x16x512.size a
  slices_S4x208x512_o0_149_0_S1x1x512 : S4x208x512.Slices ![0, 149, 0] S1x1x512
  slices_S4x208x512_o1_149_0_S1x1x512 : S4x208x512.Slices ![1, 149, 0] S1x1x512
  inb_S200x16x512_S1x16x512_149_0_0 : ∀ a, (![149, 0, 0] : Fin 3 → Nat) a + S1x16x512.size a ≤ S200x16x512.size a
  slices_S4x208x512_o0_150_0_S1x1x512 : S4x208x512.Slices ![0, 150, 0] S1x1x512
  slices_S4x208x512_o1_150_0_S1x1x512 : S4x208x512.Slices ![1, 150, 0] S1x1x512
  inb_S200x16x512_S1x16x512_150_0_0 : ∀ a, (![150, 0, 0] : Fin 3 → Nat) a + S1x16x512.size a ≤ S200x16x512.size a
  slices_S4x208x512_o0_151_0_S1x1x512 : S4x208x512.Slices ![0, 151, 0] S1x1x512
  slices_S4x208x512_o1_151_0_S1x1x512 : S4x208x512.Slices ![1, 151, 0] S1x1x512
  inb_S200x16x512_S1x16x512_151_0_0 : ∀ a, (![151, 0, 0] : Fin 3 → Nat) a + S1x16x512.size a ≤ S200x16x512.size a
  slices_S4x208x512_o0_152_0_S1x1x512 : S4x208x512.Slices ![0, 152, 0] S1x1x512
  slices_S4x208x512_o1_152_0_S1x1x512 : S4x208x512.Slices ![1, 152, 0] S1x1x512
  inb_S200x16x512_S1x16x512_152_0_0 : ∀ a, (![152, 0, 0] : Fin 3 → Nat) a + S1x16x512.size a ≤ S200x16x512.size a
  slices_S4x208x512_o0_153_0_S1x1x512 : S4x208x512.Slices ![0, 153, 0] S1x1x512
  slices_S4x208x512_o1_153_0_S1x1x512 : S4x208x512.Slices ![1, 153, 0] S1x1x512
  inb_S200x16x512_S1x16x512_153_0_0 : ∀ a, (![153, 0, 0] : Fin 3 → Nat) a + S1x16x512.size a ≤ S200x16x512.size a
  slices_S4x208x512_o0_154_0_S1x1x512 : S4x208x512.Slices ![0, 154, 0] S1x1x512
  slices_S4x208x512_o1_154_0_S1x1x512 : S4x208x512.Slices ![1, 154, 0] S1x1x512
  inb_S200x16x512_S1x16x512_154_0_0 : ∀ a, (![154, 0, 0] : Fin 3 → Nat) a + S1x16x512.size a ≤ S200x16x512.size a
  slices_S4x208x512_o0_155_0_S1x1x512 : S4x208x512.Slices ![0, 155, 0] S1x1x512
  slices_S4x208x512_o1_155_0_S1x1x512 : S4x208x512.Slices ![1, 155, 0] S1x1x512
  inb_S200x16x512_S1x16x512_155_0_0 : ∀ a, (![155, 0, 0] : Fin 3 → Nat) a + S1x16x512.size a ≤ S200x16x512.size a
  slices_S4x208x512_o0_156_0_S1x1x512 : S4x208x512.Slices ![0, 156, 0] S1x1x512
  slices_S4x208x512_o1_156_0_S1x1x512 : S4x208x512.Slices ![1, 156, 0] S1x1x512
  inb_S200x16x512_S1x16x512_156_0_0 : ∀ a, (![156, 0, 0] : Fin 3 → Nat) a + S1x16x512.size a ≤ S200x16x512.size a
  slices_S4x208x512_o0_157_0_S1x1x512 : S4x208x512.Slices ![0, 157, 0] S1x1x512
  slices_S4x208x512_o1_157_0_S1x1x512 : S4x208x512.Slices ![1, 157, 0] S1x1x512
  inb_S200x16x512_S1x16x512_157_0_0 : ∀ a, (![157, 0, 0] : Fin 3 → Nat) a + S1x16x512.size a ≤ S200x16x512.size a
  slices_S4x208x512_o0_158_0_S1x1x512 : S4x208x512.Slices ![0, 158, 0] S1x1x512
  slices_S4x208x512_o1_158_0_S1x1x512 : S4x208x512.Slices ![1, 158, 0] S1x1x512
  inb_S200x16x512_S1x16x512_158_0_0 : ∀ a, (![158, 0, 0] : Fin 3 → Nat) a + S1x16x512.size a ≤ S200x16x512.size a
  slices_S4x208x512_o0_159_0_S1x1x512 : S4x208x512.Slices ![0, 159, 0] S1x1x512
  slices_S4x208x512_o1_159_0_S1x1x512 : S4x208x512.Slices ![1, 159, 0] S1x1x512
  inb_S200x16x512_S1x16x512_159_0_0 : ∀ a, (![159, 0, 0] : Fin 3 → Nat) a + S1x16x512.size a ≤ S200x16x512.size a
  slices_S4x208x512_o0_160_0_S1x1x512 : S4x208x512.Slices ![0, 160, 0] S1x1x512
  slices_S4x208x512_o1_160_0_S1x1x512 : S4x208x512.Slices ![1, 160, 0] S1x1x512
  inb_S200x16x512_S1x16x512_160_0_0 : ∀ a, (![160, 0, 0] : Fin 3 → Nat) a + S1x16x512.size a ≤ S200x16x512.size a
  slices_S4x208x512_o0_161_0_S1x1x512 : S4x208x512.Slices ![0, 161, 0] S1x1x512
  slices_S4x208x512_o1_161_0_S1x1x512 : S4x208x512.Slices ![1, 161, 0] S1x1x512
  inb_S200x16x512_S1x16x512_161_0_0 : ∀ a, (![161, 0, 0] : Fin 3 → Nat) a + S1x16x512.size a ≤ S200x16x512.size a
  slices_S4x208x512_o0_162_0_S1x1x512 : S4x208x512.Slices ![0, 162, 0] S1x1x512
  slices_S4x208x512_o1_162_0_S1x1x512 : S4x208x512.Slices ![1, 162, 0] S1x1x512
  inb_S200x16x512_S1x16x512_162_0_0 : ∀ a, (![162, 0, 0] : Fin 3 → Nat) a + S1x16x512.size a ≤ S200x16x512.size a
  slices_S4x208x512_o0_163_0_S1x1x512 : S4x208x512.Slices ![0, 163, 0] S1x1x512
  slices_S4x208x512_o1_163_0_S1x1x512 : S4x208x512.Slices ![1, 163, 0] S1x1x512
  inb_S200x16x512_S1x16x512_163_0_0 : ∀ a, (![163, 0, 0] : Fin 3 → Nat) a + S1x16x512.size a ≤ S200x16x512.size a
  slices_S4x208x512_o0_164_0_S1x1x512 : S4x208x512.Slices ![0, 164, 0] S1x1x512
  slices_S4x208x512_o1_164_0_S1x1x512 : S4x208x512.Slices ![1, 164, 0] S1x1x512
  inb_S200x16x512_S1x16x512_164_0_0 : ∀ a, (![164, 0, 0] : Fin 3 → Nat) a + S1x16x512.size a ≤ S200x16x512.size a
  slices_S4x208x512_o0_165_0_S1x1x512 : S4x208x512.Slices ![0, 165, 0] S1x1x512
  slices_S4x208x512_o1_165_0_S1x1x512 : S4x208x512.Slices ![1, 165, 0] S1x1x512
  inb_S200x16x512_S1x16x512_165_0_0 : ∀ a, (![165, 0, 0] : Fin 3 → Nat) a + S1x16x512.size a ≤ S200x16x512.size a
  slices_S4x208x512_o0_166_0_S1x1x512 : S4x208x512.Slices ![0, 166, 0] S1x1x512
  slices_S4x208x512_o1_166_0_S1x1x512 : S4x208x512.Slices ![1, 166, 0] S1x1x512
  inb_S200x16x512_S1x16x512_166_0_0 : ∀ a, (![166, 0, 0] : Fin 3 → Nat) a + S1x16x512.size a ≤ S200x16x512.size a
  slices_S4x208x512_o0_167_0_S1x1x512 : S4x208x512.Slices ![0, 167, 0] S1x1x512
  slices_S4x208x512_o1_167_0_S1x1x512 : S4x208x512.Slices ![1, 167, 0] S1x1x512
  inb_S200x16x512_S1x16x512_167_0_0 : ∀ a, (![167, 0, 0] : Fin 3 → Nat) a + S1x16x512.size a ≤ S200x16x512.size a
  slices_S4x208x512_o0_168_0_S1x1x512 : S4x208x512.Slices ![0, 168, 0] S1x1x512
  slices_S4x208x512_o1_168_0_S1x1x512 : S4x208x512.Slices ![1, 168, 0] S1x1x512
  inb_S200x16x512_S1x16x512_168_0_0 : ∀ a, (![168, 0, 0] : Fin 3 → Nat) a + S1x16x512.size a ≤ S200x16x512.size a
  slices_S4x208x512_o0_169_0_S1x1x512 : S4x208x512.Slices ![0, 169, 0] S1x1x512
  slices_S4x208x512_o1_169_0_S1x1x512 : S4x208x512.Slices ![1, 169, 0] S1x1x512
  inb_S200x16x512_S1x16x512_169_0_0 : ∀ a, (![169, 0, 0] : Fin 3 → Nat) a + S1x16x512.size a ≤ S200x16x512.size a
  slices_S4x208x512_o0_170_0_S1x1x512 : S4x208x512.Slices ![0, 170, 0] S1x1x512
  slices_S4x208x512_o1_170_0_S1x1x512 : S4x208x512.Slices ![1, 170, 0] S1x1x512
  inb_S200x16x512_S1x16x512_170_0_0 : ∀ a, (![170, 0, 0] : Fin 3 → Nat) a + S1x16x512.size a ≤ S200x16x512.size a
  slices_S4x208x512_o0_171_0_S1x1x512 : S4x208x512.Slices ![0, 171, 0] S1x1x512
  slices_S4x208x512_o1_171_0_S1x1x512 : S4x208x512.Slices ![1, 171, 0] S1x1x512
  inb_S200x16x512_S1x16x512_171_0_0 : ∀ a, (![171, 0, 0] : Fin 3 → Nat) a + S1x16x512.size a ≤ S200x16x512.size a
  slices_S4x208x512_o0_172_0_S1x1x512 : S4x208x512.Slices ![0, 172, 0] S1x1x512
  slices_S4x208x512_o1_172_0_S1x1x512 : S4x208x512.Slices ![1, 172, 0] S1x1x512
  inb_S200x16x512_S1x16x512_172_0_0 : ∀ a, (![172, 0, 0] : Fin 3 → Nat) a + S1x16x512.size a ≤ S200x16x512.size a
  slices_S4x208x512_o0_173_0_S1x1x512 : S4x208x512.Slices ![0, 173, 0] S1x1x512
  slices_S4x208x512_o1_173_0_S1x1x512 : S4x208x512.Slices ![1, 173, 0] S1x1x512
  inb_S200x16x512_S1x16x512_173_0_0 : ∀ a, (![173, 0, 0] : Fin 3 → Nat) a + S1x16x512.size a ≤ S200x16x512.size a
  slices_S4x208x512_o0_174_0_S1x1x512 : S4x208x512.Slices ![0, 174, 0] S1x1x512
  slices_S4x208x512_o1_174_0_S1x1x512 : S4x208x512.Slices ![1, 174, 0] S1x1x512
  inb_S200x16x512_S1x16x512_174_0_0 : ∀ a, (![174, 0, 0] : Fin 3 → Nat) a + S1x16x512.size a ≤ S200x16x512.size a
  slices_S4x208x512_o0_175_0_S1x1x512 : S4x208x512.Slices ![0, 175, 0] S1x1x512
  slices_S4x208x512_o1_175_0_S1x1x512 : S4x208x512.Slices ![1, 175, 0] S1x1x512
  inb_S200x16x512_S1x16x512_175_0_0 : ∀ a, (![175, 0, 0] : Fin 3 → Nat) a + S1x16x512.size a ≤ S200x16x512.size a
  slices_S4x208x512_o0_176_0_S1x1x512 : S4x208x512.Slices ![0, 176, 0] S1x1x512
  slices_S4x208x512_o1_176_0_S1x1x512 : S4x208x512.Slices ![1, 176, 0] S1x1x512
  inb_S200x16x512_S1x16x512_176_0_0 : ∀ a, (![176, 0, 0] : Fin 3 → Nat) a + S1x16x512.size a ≤ S200x16x512.size a
  slices_S4x208x512_o0_177_0_S1x1x512 : S4x208x512.Slices ![0, 177, 0] S1x1x512
  slices_S4x208x512_o1_177_0_S1x1x512 : S4x208x512.Slices ![1, 177, 0] S1x1x512
  inb_S200x16x512_S1x16x512_177_0_0 : ∀ a, (![177, 0, 0] : Fin 3 → Nat) a + S1x16x512.size a ≤ S200x16x512.size a
  slices_S4x208x512_o0_178_0_S1x1x512 : S4x208x512.Slices ![0, 178, 0] S1x1x512
  slices_S4x208x512_o1_178_0_S1x1x512 : S4x208x512.Slices ![1, 178, 0] S1x1x512
  inb_S200x16x512_S1x16x512_178_0_0 : ∀ a, (![178, 0, 0] : Fin 3 → Nat) a + S1x16x512.size a ≤ S200x16x512.size a
  slices_S4x208x512_o0_179_0_S1x1x512 : S4x208x512.Slices ![0, 179, 0] S1x1x512
  slices_S4x208x512_o1_179_0_S1x1x512 : S4x208x512.Slices ![1, 179, 0] S1x1x512
  inb_S200x16x512_S1x16x512_179_0_0 : ∀ a, (![179, 0, 0] : Fin 3 → Nat) a + S1x16x512.size a ≤ S200x16x512.size a
  slices_S4x208x512_o0_180_0_S1x1x512 : S4x208x512.Slices ![0, 180, 0] S1x1x512
  slices_S4x208x512_o1_180_0_S1x1x512 : S4x208x512.Slices ![1, 180, 0] S1x1x512
  inb_S200x16x512_S1x16x512_180_0_0 : ∀ a, (![180, 0, 0] : Fin 3 → Nat) a + S1x16x512.size a ≤ S200x16x512.size a
  slices_S4x208x512_o0_181_0_S1x1x512 : S4x208x512.Slices ![0, 181, 0] S1x1x512
  slices_S4x208x512_o1_181_0_S1x1x512 : S4x208x512.Slices ![1, 181, 0] S1x1x512
  inb_S200x16x512_S1x16x512_181_0_0 : ∀ a, (![181, 0, 0] : Fin 3 → Nat) a + S1x16x512.size a ≤ S200x16x512.size a
  slices_S4x208x512_o0_182_0_S1x1x512 : S4x208x512.Slices ![0, 182, 0] S1x1x512
  slices_S4x208x512_o1_182_0_S1x1x512 : S4x208x512.Slices ![1, 182, 0] S1x1x512
  inb_S200x16x512_S1x16x512_182_0_0 : ∀ a, (![182, 0, 0] : Fin 3 → Nat) a + S1x16x512.size a ≤ S200x16x512.size a
  slices_S4x208x512_o0_183_0_S1x1x512 : S4x208x512.Slices ![0, 183, 0] S1x1x512
  slices_S4x208x512_o1_183_0_S1x1x512 : S4x208x512.Slices ![1, 183, 0] S1x1x512
  inb_S200x16x512_S1x16x512_183_0_0 : ∀ a, (![183, 0, 0] : Fin 3 → Nat) a + S1x16x512.size a ≤ S200x16x512.size a
  slices_S4x208x512_o0_184_0_S1x1x512 : S4x208x512.Slices ![0, 184, 0] S1x1x512
  slices_S4x208x512_o1_184_0_S1x1x512 : S4x208x512.Slices ![1, 184, 0] S1x1x512
  inb_S200x16x512_S1x16x512_184_0_0 : ∀ a, (![184, 0, 0] : Fin 3 → Nat) a + S1x16x512.size a ≤ S200x16x512.size a
  slices_S4x208x512_o0_185_0_S1x1x512 : S4x208x512.Slices ![0, 185, 0] S1x1x512
  slices_S4x208x512_o1_185_0_S1x1x512 : S4x208x512.Slices ![1, 185, 0] S1x1x512
  inb_S200x16x512_S1x16x512_185_0_0 : ∀ a, (![185, 0, 0] : Fin 3 → Nat) a + S1x16x512.size a ≤ S200x16x512.size a
  slices_S4x208x512_o0_186_0_S1x1x512 : S4x208x512.Slices ![0, 186, 0] S1x1x512
  slices_S4x208x512_o1_186_0_S1x1x512 : S4x208x512.Slices ![1, 186, 0] S1x1x512
  inb_S200x16x512_S1x16x512_186_0_0 : ∀ a, (![186, 0, 0] : Fin 3 → Nat) a + S1x16x512.size a ≤ S200x16x512.size a
  slices_S4x208x512_o0_187_0_S1x1x512 : S4x208x512.Slices ![0, 187, 0] S1x1x512
  slices_S4x208x512_o1_187_0_S1x1x512 : S4x208x512.Slices ![1, 187, 0] S1x1x512
  inb_S200x16x512_S1x16x512_187_0_0 : ∀ a, (![187, 0, 0] : Fin 3 → Nat) a + S1x16x512.size a ≤ S200x16x512.size a
  slices_S4x208x512_o0_188_0_S1x1x512 : S4x208x512.Slices ![0, 188, 0] S1x1x512
  slices_S4x208x512_o1_188_0_S1x1x512 : S4x208x512.Slices ![1, 188, 0] S1x1x512
  inb_S200x16x512_S1x16x512_188_0_0 : ∀ a, (![188, 0, 0] : Fin 3 → Nat) a + S1x16x512.size a ≤ S200x16x512.size a
  slices_S4x208x512_o0_189_0_S1x1x512 : S4x208x512.Slices ![0, 189, 0] S1x1x512
  slices_S4x208x512_o1_189_0_S1x1x512 : S4x208x512.Slices ![1, 189, 0] S1x1x512
  inb_S200x16x512_S1x16x512_189_0_0 : ∀ a, (![189, 0, 0] : Fin 3 → Nat) a + S1x16x512.size a ≤ S200x16x512.size a
  slices_S4x208x512_o0_190_0_S1x1x512 : S4x208x512.Slices ![0, 190, 0] S1x1x512
  slices_S4x208x512_o1_190_0_S1x1x512 : S4x208x512.Slices ![1, 190, 0] S1x1x512
  inb_S200x16x512_S1x16x512_190_0_0 : ∀ a, (![190, 0, 0] : Fin 3 → Nat) a + S1x16x512.size a ≤ S200x16x512.size a
  slices_S4x208x512_o0_191_0_S1x1x512 : S4x208x512.Slices ![0, 191, 0] S1x1x512
  slices_S4x208x512_o1_191_0_S1x1x512 : S4x208x512.Slices ![1, 191, 0] S1x1x512
  inb_S200x16x512_S1x16x512_191_0_0 : ∀ a, (![191, 0, 0] : Fin 3 → Nat) a + S1x16x512.size a ≤ S200x16x512.size a
  slices_S4x208x512_o0_192_0_S1x1x512 : S4x208x512.Slices ![0, 192, 0] S1x1x512
  slices_S4x208x512_o1_192_0_S1x1x512 : S4x208x512.Slices ![1, 192, 0] S1x1x512
  inb_S200x16x512_S1x16x512_192_0_0 : ∀ a, (![192, 0, 0] : Fin 3 → Nat) a + S1x16x512.size a ≤ S200x16x512.size a
  slices_S4x208x512_o0_193_0_S1x1x512 : S4x208x512.Slices ![0, 193, 0] S1x1x512
  slices_S4x208x512_o1_193_0_S1x1x512 : S4x208x512.Slices ![1, 193, 0] S1x1x512
  inb_S200x16x512_S1x16x512_193_0_0 : ∀ a, (![193, 0, 0] : Fin 3 → Nat) a + S1x16x512.size a ≤ S200x16x512.size a
  slices_S4x208x512_o0_194_0_S1x1x512 : S4x208x512.Slices ![0, 194, 0] S1x1x512
  slices_S4x208x512_o1_194_0_S1x1x512 : S4x208x512.Slices ![1, 194, 0] S1x1x512
  inb_S200x16x512_S1x16x512_194_0_0 : ∀ a, (![194, 0, 0] : Fin 3 → Nat) a + S1x16x512.size a ≤ S200x16x512.size a
  slices_S4x208x512_o0_195_0_S1x1x512 : S4x208x512.Slices ![0, 195, 0] S1x1x512
  slices_S4x208x512_o1_195_0_S1x1x512 : S4x208x512.Slices ![1, 195, 0] S1x1x512
  inb_S200x16x512_S1x16x512_195_0_0 : ∀ a, (![195, 0, 0] : Fin 3 → Nat) a + S1x16x512.size a ≤ S200x16x512.size a
  slices_S4x208x512_o0_196_0_S1x1x512 : S4x208x512.Slices ![0, 196, 0] S1x1x512
  slices_S4x208x512_o1_196_0_S1x1x512 : S4x208x512.Slices ![1, 196, 0] S1x1x512
  inb_S200x16x512_S1x16x512_196_0_0 : ∀ a, (![196, 0, 0] : Fin 3 → Nat) a + S1x16x512.size a ≤ S200x16x512.size a
  slices_S4x208x512_o0_197_0_S1x1x512 : S4x208x512.Slices ![0, 197, 0] S1x1x512
  slices_S4x208x512_o1_197_0_S1x1x512 : S4x208x512.Slices ![1, 197, 0] S1x1x512
  inb_S200x16x512_S1x16x512_197_0_0 : ∀ a, (![197, 0, 0] : Fin 3 → Nat) a + S1x16x512.size a ≤ S200x16x512.size a
  slices_S4x208x512_o0_198_0_S1x1x512 : S4x208x512.Slices ![0, 198, 0] S1x1x512
  slices_S4x208x512_o1_198_0_S1x1x512 : S4x208x512.Slices ![1, 198, 0] S1x1x512
  inb_S200x16x512_S1x16x512_198_0_0 : ∀ a, (![198, 0, 0] : Fin 3 → Nat) a + S1x16x512.size a ≤ S200x16x512.size a
  slices_S4x208x512_o0_199_0_S1x1x512 : S4x208x512.Slices ![0, 199, 0] S1x1x512
  slices_S4x208x512_o1_199_0_S1x1x512 : S4x208x512.Slices ![1, 199, 0] S1x1x512
  inb_S200x16x512_S1x16x512_199_0_0 : ∀ a, (![199, 0, 0] : Fin 3 → Nat) a + S1x16x512.size a ≤ S200x16x512.size a
  slices_S4x208x512_o2_0_0_S1x1x512 : S4x208x512.Slices ![2, 0, 0] S1x1x512
  slices_S4x208x512_o3_0_0_S1x1x512 : S4x208x512.Slices ![3, 0, 0] S1x1x512
  slices_S4x208x512_o2_1_0_S1x1x512 : S4x208x512.Slices ![2, 1, 0] S1x1x512
  slices_S4x208x512_o3_1_0_S1x1x512 : S4x208x512.Slices ![3, 1, 0] S1x1x512
  slices_S4x208x512_o2_2_0_S1x1x512 : S4x208x512.Slices ![2, 2, 0] S1x1x512
  slices_S4x208x512_o3_2_0_S1x1x512 : S4x208x512.Slices ![3, 2, 0] S1x1x512
  slices_S4x208x512_o2_3_0_S1x1x512 : S4x208x512.Slices ![2, 3, 0] S1x1x512
  slices_S4x208x512_o3_3_0_S1x1x512 : S4x208x512.Slices ![3, 3, 0] S1x1x512
  slices_S4x208x512_o2_4_0_S1x1x512 : S4x208x512.Slices ![2, 4, 0] S1x1x512
  slices_S4x208x512_o3_4_0_S1x1x512 : S4x208x512.Slices ![3, 4, 0] S1x1x512
  slices_S4x208x512_o2_5_0_S1x1x512 : S4x208x512.Slices ![2, 5, 0] S1x1x512
  slices_S4x208x512_o3_5_0_S1x1x512 : S4x208x512.Slices ![3, 5, 0] S1x1x512
  slices_S4x208x512_o2_6_0_S1x1x512 : S4x208x512.Slices ![2, 6, 0] S1x1x512
  slices_S4x208x512_o3_6_0_S1x1x512 : S4x208x512.Slices ![3, 6, 0] S1x1x512
  slices_S4x208x512_o2_7_0_S1x1x512 : S4x208x512.Slices ![2, 7, 0] S1x1x512
  slices_S4x208x512_o3_7_0_S1x1x512 : S4x208x512.Slices ![3, 7, 0] S1x1x512
  slices_S4x208x512_o2_8_0_S1x1x512 : S4x208x512.Slices ![2, 8, 0] S1x1x512
  slices_S4x208x512_o3_8_0_S1x1x512 : S4x208x512.Slices ![3, 8, 0] S1x1x512
  slices_S4x208x512_o2_9_0_S1x1x512 : S4x208x512.Slices ![2, 9, 0] S1x1x512
  slices_S4x208x512_o3_9_0_S1x1x512 : S4x208x512.Slices ![3, 9, 0] S1x1x512
  slices_S4x208x512_o2_10_0_S1x1x512 : S4x208x512.Slices ![2, 10, 0] S1x1x512
  slices_S4x208x512_o3_10_0_S1x1x512 : S4x208x512.Slices ![3, 10, 0] S1x1x512
  slices_S4x208x512_o2_11_0_S1x1x512 : S4x208x512.Slices ![2, 11, 0] S1x1x512
  slices_S4x208x512_o3_11_0_S1x1x512 : S4x208x512.Slices ![3, 11, 0] S1x1x512
  slices_S4x208x512_o2_12_0_S1x1x512 : S4x208x512.Slices ![2, 12, 0] S1x1x512
  slices_S4x208x512_o3_12_0_S1x1x512 : S4x208x512.Slices ![3, 12, 0] S1x1x512
  slices_S4x208x512_o2_13_0_S1x1x512 : S4x208x512.Slices ![2, 13, 0] S1x1x512
  slices_S4x208x512_o3_13_0_S1x1x512 : S4x208x512.Slices ![3, 13, 0] S1x1x512
  slices_S4x208x512_o2_14_0_S1x1x512 : S4x208x512.Slices ![2, 14, 0] S1x1x512
  slices_S4x208x512_o3_14_0_S1x1x512 : S4x208x512.Slices ![3, 14, 0] S1x1x512
  slices_S4x208x512_o2_15_0_S1x1x512 : S4x208x512.Slices ![2, 15, 0] S1x1x512
  slices_S4x208x512_o3_15_0_S1x1x512 : S4x208x512.Slices ![3, 15, 0] S1x1x512
  slices_S4x208x512_o2_16_0_S1x1x512 : S4x208x512.Slices ![2, 16, 0] S1x1x512
  slices_S4x208x512_o3_16_0_S1x1x512 : S4x208x512.Slices ![3, 16, 0] S1x1x512
  slices_S4x208x512_o2_17_0_S1x1x512 : S4x208x512.Slices ![2, 17, 0] S1x1x512
  slices_S4x208x512_o3_17_0_S1x1x512 : S4x208x512.Slices ![3, 17, 0] S1x1x512
  slices_S4x208x512_o2_18_0_S1x1x512 : S4x208x512.Slices ![2, 18, 0] S1x1x512
  slices_S4x208x512_o3_18_0_S1x1x512 : S4x208x512.Slices ![3, 18, 0] S1x1x512
  slices_S4x208x512_o2_19_0_S1x1x512 : S4x208x512.Slices ![2, 19, 0] S1x1x512
  slices_S4x208x512_o3_19_0_S1x1x512 : S4x208x512.Slices ![3, 19, 0] S1x1x512
  slices_S4x208x512_o2_20_0_S1x1x512 : S4x208x512.Slices ![2, 20, 0] S1x1x512
  slices_S4x208x512_o3_20_0_S1x1x512 : S4x208x512.Slices ![3, 20, 0] S1x1x512
  slices_S4x208x512_o2_21_0_S1x1x512 : S4x208x512.Slices ![2, 21, 0] S1x1x512
  slices_S4x208x512_o3_21_0_S1x1x512 : S4x208x512.Slices ![3, 21, 0] S1x1x512
  slices_S4x208x512_o2_22_0_S1x1x512 : S4x208x512.Slices ![2, 22, 0] S1x1x512
  slices_S4x208x512_o3_22_0_S1x1x512 : S4x208x512.Slices ![3, 22, 0] S1x1x512
  slices_S4x208x512_o2_23_0_S1x1x512 : S4x208x512.Slices ![2, 23, 0] S1x1x512
  slices_S4x208x512_o3_23_0_S1x1x512 : S4x208x512.Slices ![3, 23, 0] S1x1x512
  slices_S4x208x512_o2_24_0_S1x1x512 : S4x208x512.Slices ![2, 24, 0] S1x1x512
  slices_S4x208x512_o3_24_0_S1x1x512 : S4x208x512.Slices ![3, 24, 0] S1x1x512
  slices_S4x208x512_o2_25_0_S1x1x512 : S4x208x512.Slices ![2, 25, 0] S1x1x512
  slices_S4x208x512_o3_25_0_S1x1x512 : S4x208x512.Slices ![3, 25, 0] S1x1x512
  slices_S4x208x512_o2_26_0_S1x1x512 : S4x208x512.Slices ![2, 26, 0] S1x1x512
  slices_S4x208x512_o3_26_0_S1x1x512 : S4x208x512.Slices ![3, 26, 0] S1x1x512
  slices_S4x208x512_o2_27_0_S1x1x512 : S4x208x512.Slices ![2, 27, 0] S1x1x512
  slices_S4x208x512_o3_27_0_S1x1x512 : S4x208x512.Slices ![3, 27, 0] S1x1x512
  slices_S4x208x512_o2_28_0_S1x1x512 : S4x208x512.Slices ![2, 28, 0] S1x1x512
  slices_S4x208x512_o3_28_0_S1x1x512 : S4x208x512.Slices ![3, 28, 0] S1x1x512
  slices_S4x208x512_o2_29_0_S1x1x512 : S4x208x512.Slices ![2, 29, 0] S1x1x512
  slices_S4x208x512_o3_29_0_S1x1x512 : S4x208x512.Slices ![3, 29, 0] S1x1x512
  slices_S4x208x512_o2_30_0_S1x1x512 : S4x208x512.Slices ![2, 30, 0] S1x1x512
  slices_S4x208x512_o3_30_0_S1x1x512 : S4x208x512.Slices ![3, 30, 0] S1x1x512
  slices_S4x208x512_o2_31_0_S1x1x512 : S4x208x512.Slices ![2, 31, 0] S1x1x512
  slices_S4x208x512_o3_31_0_S1x1x512 : S4x208x512.Slices ![3, 31, 0] S1x1x512
  slices_S4x208x512_o2_32_0_S1x1x512 : S4x208x512.Slices ![2, 32, 0] S1x1x512
  slices_S4x208x512_o3_32_0_S1x1x512 : S4x208x512.Slices ![3, 32, 0] S1x1x512
  slices_S4x208x512_o2_33_0_S1x1x512 : S4x208x512.Slices ![2, 33, 0] S1x1x512
  slices_S4x208x512_o3_33_0_S1x1x512 : S4x208x512.Slices ![3, 33, 0] S1x1x512
  slices_S4x208x512_o2_34_0_S1x1x512 : S4x208x512.Slices ![2, 34, 0] S1x1x512
  slices_S4x208x512_o3_34_0_S1x1x512 : S4x208x512.Slices ![3, 34, 0] S1x1x512
  slices_S4x208x512_o2_35_0_S1x1x512 : S4x208x512.Slices ![2, 35, 0] S1x1x512
  slices_S4x208x512_o3_35_0_S1x1x512 : S4x208x512.Slices ![3, 35, 0] S1x1x512
  slices_S4x208x512_o2_36_0_S1x1x512 : S4x208x512.Slices ![2, 36, 0] S1x1x512
  slices_S4x208x512_o3_36_0_S1x1x512 : S4x208x512.Slices ![3, 36, 0] S1x1x512
  slices_S4x208x512_o2_37_0_S1x1x512 : S4x208x512.Slices ![2, 37, 0] S1x1x512
  slices_S4x208x512_o3_37_0_S1x1x512 : S4x208x512.Slices ![3, 37, 0] S1x1x512
  slices_S4x208x512_o2_38_0_S1x1x512 : S4x208x512.Slices ![2, 38, 0] S1x1x512
  slices_S4x208x512_o3_38_0_S1x1x512 : S4x208x512.Slices ![3, 38, 0] S1x1x512
  slices_S4x208x512_o2_39_0_S1x1x512 : S4x208x512.Slices ![2, 39, 0] S1x1x512
  slices_S4x208x512_o3_39_0_S1x1x512 : S4x208x512.Slices ![3, 39, 0] S1x1x512
  slices_S4x208x512_o2_40_0_S1x1x512 : S4x208x512.Slices ![2, 40, 0] S1x1x512
  slices_S4x208x512_o3_40_0_S1x1x512 : S4x208x512.Slices ![3, 40, 0] S1x1x512
  slices_S4x208x512_o2_41_0_S1x1x512 : S4x208x512.Slices ![2, 41, 0] S1x1x512
  slices_S4x208x512_o3_41_0_S1x1x512 : S4x208x512.Slices ![3, 41, 0] S1x1x512
  slices_S4x208x512_o2_42_0_S1x1x512 : S4x208x512.Slices ![2, 42, 0] S1x1x512
  slices_S4x208x512_o3_42_0_S1x1x512 : S4x208x512.Slices ![3, 42, 0] S1x1x512
  slices_S4x208x512_o2_43_0_S1x1x512 : S4x208x512.Slices ![2, 43, 0] S1x1x512
  slices_S4x208x512_o3_43_0_S1x1x512 : S4x208x512.Slices ![3, 43, 0] S1x1x512
  slices_S4x208x512_o2_44_0_S1x1x512 : S4x208x512.Slices ![2, 44, 0] S1x1x512
  slices_S4x208x512_o3_44_0_S1x1x512 : S4x208x512.Slices ![3, 44, 0] S1x1x512
  slices_S4x208x512_o2_45_0_S1x1x512 : S4x208x512.Slices ![2, 45, 0] S1x1x512
  slices_S4x208x512_o3_45_0_S1x1x512 : S4x208x512.Slices ![3, 45, 0] S1x1x512
  slices_S4x208x512_o2_46_0_S1x1x512 : S4x208x512.Slices ![2, 46, 0] S1x1x512
  slices_S4x208x512_o3_46_0_S1x1x512 : S4x208x512.Slices ![3, 46, 0] S1x1x512
  slices_S4x208x512_o2_47_0_S1x1x512 : S4x208x512.Slices ![2, 47, 0] S1x1x512
  slices_S4x208x512_o3_47_0_S1x1x512 : S4x208x512.Slices ![3, 47, 0] S1x1x512
  slices_S4x208x512_o2_48_0_S1x1x512 : S4x208x512.Slices ![2, 48, 0] S1x1x512
  slices_S4x208x512_o3_48_0_S1x1x512 : S4x208x512.Slices ![3, 48, 0] S1x1x512
  slices_S4x208x512_o2_49_0_S1x1x512 : S4x208x512.Slices ![2, 49, 0] S1x1x512
  slices_S4x208x512_o3_49_0_S1x1x512 : S4x208x512.Slices ![3, 49, 0] S1x1x512
  slices_S4x208x512_o2_50_0_S1x1x512 : S4x208x512.Slices ![2, 50, 0] S1x1x512
  slices_S4x208x512_o3_50_0_S1x1x512 : S4x208x512.Slices ![3, 50, 0] S1x1x512
  slices_S4x208x512_o2_51_0_S1x1x512 : S4x208x512.Slices ![2, 51, 0] S1x1x512
  slices_S4x208x512_o3_51_0_S1x1x512 : S4x208x512.Slices ![3, 51, 0] S1x1x512
  slices_S4x208x512_o2_52_0_S1x1x512 : S4x208x512.Slices ![2, 52, 0] S1x1x512
  slices_S4x208x512_o3_52_0_S1x1x512 : S4x208x512.Slices ![3, 52, 0] S1x1x512
  slices_S4x208x512_o2_53_0_S1x1x512 : S4x208x512.Slices ![2, 53, 0] S1x1x512
  slices_S4x208x512_o3_53_0_S1x1x512 : S4x208x512.Slices ![3, 53, 0] S1x1x512
  slices_S4x208x512_o2_54_0_S1x1x512 : S4x208x512.Slices ![2, 54, 0] S1x1x512
  slices_S4x208x512_o3_54_0_S1x1x512 : S4x208x512.Slices ![3, 54, 0] S1x1x512
  slices_S4x208x512_o2_55_0_S1x1x512 : S4x208x512.Slices ![2, 55, 0] S1x1x512
  slices_S4x208x512_o3_55_0_S1x1x512 : S4x208x512.Slices ![3, 55, 0] S1x1x512
  slices_S4x208x512_o2_56_0_S1x1x512 : S4x208x512.Slices ![2, 56, 0] S1x1x512
  slices_S4x208x512_o3_56_0_S1x1x512 : S4x208x512.Slices ![3, 56, 0] S1x1x512
  slices_S4x208x512_o2_57_0_S1x1x512 : S4x208x512.Slices ![2, 57, 0] S1x1x512
  slices_S4x208x512_o3_57_0_S1x1x512 : S4x208x512.Slices ![3, 57, 0] S1x1x512
  slices_S4x208x512_o2_58_0_S1x1x512 : S4x208x512.Slices ![2, 58, 0] S1x1x512
  slices_S4x208x512_o3_58_0_S1x1x512 : S4x208x512.Slices ![3, 58, 0] S1x1x512
  slices_S4x208x512_o2_59_0_S1x1x512 : S4x208x512.Slices ![2, 59, 0] S1x1x512
  slices_S4x208x512_o3_59_0_S1x1x512 : S4x208x512.Slices ![3, 59, 0] S1x1x512
  slices_S4x208x512_o2_60_0_S1x1x512 : S4x208x512.Slices ![2, 60, 0] S1x1x512
  slices_S4x208x512_o3_60_0_S1x1x512 : S4x208x512.Slices ![3, 60, 0] S1x1x512
  slices_S4x208x512_o2_61_0_S1x1x512 : S4x208x512.Slices ![2, 61, 0] S1x1x512
  slices_S4x208x512_o3_61_0_S1x1x512 : S4x208x512.Slices ![3, 61, 0] S1x1x512
  slices_S4x208x512_o2_62_0_S1x1x512 : S4x208x512.Slices ![2, 62, 0] S1x1x512
  slices_S4x208x512_o3_62_0_S1x1x512 : S4x208x512.Slices ![3, 62, 0] S1x1x512
  slices_S4x208x512_o2_63_0_S1x1x512 : S4x208x512.Slices ![2, 63, 0] S1x1x512
  slices_S4x208x512_o3_63_0_S1x1x512 : S4x208x512.Slices ![3, 63, 0] S1x1x512
  slices_S4x208x512_o2_64_0_S1x1x512 : S4x208x512.Slices ![2, 64, 0] S1x1x512
  slices_S4x208x512_o3_64_0_S1x1x512 : S4x208x512.Slices ![3, 64, 0] S1x1x512
  slices_S4x208x512_o2_65_0_S1x1x512 : S4x208x512.Slices ![2, 65, 0] S1x1x512
  slices_S4x208x512_o3_65_0_S1x1x512 : S4x208x512.Slices ![3, 65, 0] S1x1x512
  slices_S4x208x512_o2_66_0_S1x1x512 : S4x208x512.Slices ![2, 66, 0] S1x1x512
  slices_S4x208x512_o3_66_0_S1x1x512 : S4x208x512.Slices ![3, 66, 0] S1x1x512
  slices_S4x208x512_o2_67_0_S1x1x512 : S4x208x512.Slices ![2, 67, 0] S1x1x512
  slices_S4x208x512_o3_67_0_S1x1x512 : S4x208x512.Slices ![3, 67, 0] S1x1x512
  slices_S4x208x512_o2_68_0_S1x1x512 : S4x208x512.Slices ![2, 68, 0] S1x1x512
  slices_S4x208x512_o3_68_0_S1x1x512 : S4x208x512.Slices ![3, 68, 0] S1x1x512
  slices_S4x208x512_o2_69_0_S1x1x512 : S4x208x512.Slices ![2, 69, 0] S1x1x512
  slices_S4x208x512_o3_69_0_S1x1x512 : S4x208x512.Slices ![3, 69, 0] S1x1x512
  slices_S4x208x512_o2_70_0_S1x1x512 : S4x208x512.Slices ![2, 70, 0] S1x1x512
  slices_S4x208x512_o3_70_0_S1x1x512 : S4x208x512.Slices ![3, 70, 0] S1x1x512
  slices_S4x208x512_o2_71_0_S1x1x512 : S4x208x512.Slices ![2, 71, 0] S1x1x512
  slices_S4x208x512_o3_71_0_S1x1x512 : S4x208x512.Slices ![3, 71, 0] S1x1x512
  slices_S4x208x512_o2_72_0_S1x1x512 : S4x208x512.Slices ![2, 72, 0] S1x1x512
  slices_S4x208x512_o3_72_0_S1x1x512 : S4x208x512.Slices ![3, 72, 0] S1x1x512
  slices_S4x208x512_o2_73_0_S1x1x512 : S4x208x512.Slices ![2, 73, 0] S1x1x512
  slices_S4x208x512_o3_73_0_S1x1x512 : S4x208x512.Slices ![3, 73, 0] S1x1x512
  slices_S4x208x512_o2_74_0_S1x1x512 : S4x208x512.Slices ![2, 74, 0] S1x1x512
  slices_S4x208x512_o3_74_0_S1x1x512 : S4x208x512.Slices ![3, 74, 0] S1x1x512
  slices_S4x208x512_o2_75_0_S1x1x512 : S4x208x512.Slices ![2, 75, 0] S1x1x512
  slices_S4x208x512_o3_75_0_S1x1x512 : S4x208x512.Slices ![3, 75, 0] S1x1x512
  slices_S4x208x512_o2_76_0_S1x1x512 : S4x208x512.Slices ![2, 76, 0] S1x1x512
  slices_S4x208x512_o3_76_0_S1x1x512 : S4x208x512.Slices ![3, 76, 0] S1x1x512
  slices_S4x208x512_o2_77_0_S1x1x512 : S4x208x512.Slices ![2, 77, 0] S1x1x512
  slices_S4x208x512_o3_77_0_S1x1x512 : S4x208x512.Slices ![3, 77, 0] S1x1x512
  slices_S4x208x512_o2_78_0_S1x1x512 : S4x208x512.Slices ![2, 78, 0] S1x1x512
  slices_S4x208x512_o3_78_0_S1x1x512 : S4x208x512.Slices ![3, 78, 0] S1x1x512
  slices_S4x208x512_o2_79_0_S1x1x512 : S4x208x512.Slices ![2, 79, 0] S1x1x512
  slices_S4x208x512_o3_79_0_S1x1x512 : S4x208x512.Slices ![3, 79, 0] S1x1x512
  slices_S4x208x512_o2_80_0_S1x1x512 : S4x208x512.Slices ![2, 80, 0] S1x1x512
  slices_S4x208x512_o3_80_0_S1x1x512 : S4x208x512.Slices ![3, 80, 0] S1x1x512
  slices_S4x208x512_o2_81_0_S1x1x512 : S4x208x512.Slices ![2, 81, 0] S1x1x512
  slices_S4x208x512_o3_81_0_S1x1x512 : S4x208x512.Slices ![3, 81, 0] S1x1x512
  slices_S4x208x512_o2_82_0_S1x1x512 : S4x208x512.Slices ![2, 82, 0] S1x1x512
  slices_S4x208x512_o3_82_0_S1x1x512 : S4x208x512.Slices ![3, 82, 0] S1x1x512
  slices_S4x208x512_o2_83_0_S1x1x512 : S4x208x512.Slices ![2, 83, 0] S1x1x512
  slices_S4x208x512_o3_83_0_S1x1x512 : S4x208x512.Slices ![3, 83, 0] S1x1x512
  slices_S4x208x512_o2_84_0_S1x1x512 : S4x208x512.Slices ![2, 84, 0] S1x1x512
  slices_S4x208x512_o3_84_0_S1x1x512 : S4x208x512.Slices ![3, 84, 0] S1x1x512
  slices_S4x208x512_o2_85_0_S1x1x512 : S4x208x512.Slices ![2, 85, 0] S1x1x512
  slices_S4x208x512_o3_85_0_S1x1x512 : S4x208x512.Slices ![3, 85, 0] S1x1x512
  slices_S4x208x512_o2_86_0_S1x1x512 : S4x208x512.Slices ![2, 86, 0] S1x1x512
  slices_S4x208x512_o3_86_0_S1x1x512 : S4x208x512.Slices ![3, 86, 0] S1x1x512
  slices_S4x208x512_o2_87_0_S1x1x512 : S4x208x512.Slices ![2, 87, 0] S1x1x512
  slices_S4x208x512_o3_87_0_S1x1x512 : S4x208x512.Slices ![3, 87, 0] S1x1x512
  slices_S4x208x512_o2_88_0_S1x1x512 : S4x208x512.Slices ![2, 88, 0] S1x1x512
  slices_S4x208x512_o3_88_0_S1x1x512 : S4x208x512.Slices ![3, 88, 0] S1x1x512
  slices_S4x208x512_o2_89_0_S1x1x512 : S4x208x512.Slices ![2, 89, 0] S1x1x512
  slices_S4x208x512_o3_89_0_S1x1x512 : S4x208x512.Slices ![3, 89, 0] S1x1x512
  slices_S4x208x512_o2_90_0_S1x1x512 : S4x208x512.Slices ![2, 90, 0] S1x1x512
  slices_S4x208x512_o3_90_0_S1x1x512 : S4x208x512.Slices ![3, 90, 0] S1x1x512
  slices_S4x208x512_o2_91_0_S1x1x512 : S4x208x512.Slices ![2, 91, 0] S1x1x512
  slices_S4x208x512_o3_91_0_S1x1x512 : S4x208x512.Slices ![3, 91, 0] S1x1x512
  slices_S4x208x512_o2_92_0_S1x1x512 : S4x208x512.Slices ![2, 92, 0] S1x1x512
  slices_S4x208x512_o3_92_0_S1x1x512 : S4x208x512.Slices ![3, 92, 0] S1x1x512
  slices_S4x208x512_o2_93_0_S1x1x512 : S4x208x512.Slices ![2, 93, 0] S1x1x512
  slices_S4x208x512_o3_93_0_S1x1x512 : S4x208x512.Slices ![3, 93, 0] S1x1x512
  slices_S4x208x512_o2_94_0_S1x1x512 : S4x208x512.Slices ![2, 94, 0] S1x1x512
  slices_S4x208x512_o3_94_0_S1x1x512 : S4x208x512.Slices ![3, 94, 0] S1x1x512
  slices_S4x208x512_o2_95_0_S1x1x512 : S4x208x512.Slices ![2, 95, 0] S1x1x512
  slices_S4x208x512_o3_95_0_S1x1x512 : S4x208x512.Slices ![3, 95, 0] S1x1x512
  slices_S4x208x512_o2_96_0_S1x1x512 : S4x208x512.Slices ![2, 96, 0] S1x1x512
  slices_S4x208x512_o3_96_0_S1x1x512 : S4x208x512.Slices ![3, 96, 0] S1x1x512
  slices_S4x208x512_o2_97_0_S1x1x512 : S4x208x512.Slices ![2, 97, 0] S1x1x512
  slices_S4x208x512_o3_97_0_S1x1x512 : S4x208x512.Slices ![3, 97, 0] S1x1x512
  slices_S4x208x512_o2_98_0_S1x1x512 : S4x208x512.Slices ![2, 98, 0] S1x1x512
  slices_S4x208x512_o3_98_0_S1x1x512 : S4x208x512.Slices ![3, 98, 0] S1x1x512
  slices_S4x208x512_o2_99_0_S1x1x512 : S4x208x512.Slices ![2, 99, 0] S1x1x512
  slices_S4x208x512_o3_99_0_S1x1x512 : S4x208x512.Slices ![3, 99, 0] S1x1x512
  slices_S4x208x512_o2_100_0_S1x1x512 : S4x208x512.Slices ![2, 100, 0] S1x1x512
  slices_S4x208x512_o3_100_0_S1x1x512 : S4x208x512.Slices ![3, 100, 0] S1x1x512
  slices_S4x208x512_o2_101_0_S1x1x512 : S4x208x512.Slices ![2, 101, 0] S1x1x512
  slices_S4x208x512_o3_101_0_S1x1x512 : S4x208x512.Slices ![3, 101, 0] S1x1x512
  slices_S4x208x512_o2_102_0_S1x1x512 : S4x208x512.Slices ![2, 102, 0] S1x1x512
  slices_S4x208x512_o3_102_0_S1x1x512 : S4x208x512.Slices ![3, 102, 0] S1x1x512
  slices_S4x208x512_o2_103_0_S1x1x512 : S4x208x512.Slices ![2, 103, 0] S1x1x512
  slices_S4x208x512_o3_103_0_S1x1x512 : S4x208x512.Slices ![3, 103, 0] S1x1x512
  slices_S4x208x512_o2_104_0_S1x1x512 : S4x208x512.Slices ![2, 104, 0] S1x1x512
  slices_S4x208x512_o3_104_0_S1x1x512 : S4x208x512.Slices ![3, 104, 0] S1x1x512
  slices_S4x208x512_o2_105_0_S1x1x512 : S4x208x512.Slices ![2, 105, 0] S1x1x512
  slices_S4x208x512_o3_105_0_S1x1x512 : S4x208x512.Slices ![3, 105, 0] S1x1x512
  slices_S4x208x512_o2_106_0_S1x1x512 : S4x208x512.Slices ![2, 106, 0] S1x1x512
  slices_S4x208x512_o3_106_0_S1x1x512 : S4x208x512.Slices ![3, 106, 0] S1x1x512
  slices_S4x208x512_o2_107_0_S1x1x512 : S4x208x512.Slices ![2, 107, 0] S1x1x512
  slices_S4x208x512_o3_107_0_S1x1x512 : S4x208x512.Slices ![3, 107, 0] S1x1x512
  slices_S4x208x512_o2_108_0_S1x1x512 : S4x208x512.Slices ![2, 108, 0] S1x1x512
  slices_S4x208x512_o3_108_0_S1x1x512 : S4x208x512.Slices ![3, 108, 0] S1x1x512
  slices_S4x208x512_o2_109_0_S1x1x512 : S4x208x512.Slices ![2, 109, 0] S1x1x512
  slices_S4x208x512_o3_109_0_S1x1x512 : S4x208x512.Slices ![3, 109, 0] S1x1x512
  slices_S4x208x512_o2_110_0_S1x1x512 : S4x208x512.Slices ![2, 110, 0] S1x1x512
  slices_S4x208x512_o3_110_0_S1x1x512 : S4x208x512.Slices ![3, 110, 0] S1x1x512
  slices_S4x208x512_o2_111_0_S1x1x512 : S4x208x512.Slices ![2, 111, 0] S1x1x512
  slices_S4x208x512_o3_111_0_S1x1x512 : S4x208x512.Slices ![3, 111, 0] S1x1x512
  slices_S4x208x512_o2_112_0_S1x1x512 : S4x208x512.Slices ![2, 112, 0] S1x1x512
  slices_S4x208x512_o3_112_0_S1x1x512 : S4x208x512.Slices ![3, 112, 0] S1x1x512
  slices_S4x208x512_o2_113_0_S1x1x512 : S4x208x512.Slices ![2, 113, 0] S1x1x512
  slices_S4x208x512_o3_113_0_S1x1x512 : S4x208x512.Slices ![3, 113, 0] S1x1x512
  slices_S4x208x512_o2_114_0_S1x1x512 : S4x208x512.Slices ![2, 114, 0] S1x1x512
  slices_S4x208x512_o3_114_0_S1x1x512 : S4x208x512.Slices ![3, 114, 0] S1x1x512
  slices_S4x208x512_o2_115_0_S1x1x512 : S4x208x512.Slices ![2, 115, 0] S1x1x512
  slices_S4x208x512_o3_115_0_S1x1x512 : S4x208x512.Slices ![3, 115, 0] S1x1x512
  slices_S4x208x512_o2_116_0_S1x1x512 : S4x208x512.Slices ![2, 116, 0] S1x1x512
  slices_S4x208x512_o3_116_0_S1x1x512 : S4x208x512.Slices ![3, 116, 0] S1x1x512
  slices_S4x208x512_o2_117_0_S1x1x512 : S4x208x512.Slices ![2, 117, 0] S1x1x512
  slices_S4x208x512_o3_117_0_S1x1x512 : S4x208x512.Slices ![3, 117, 0] S1x1x512
  slices_S4x208x512_o2_118_0_S1x1x512 : S4x208x512.Slices ![2, 118, 0] S1x1x512
  slices_S4x208x512_o3_118_0_S1x1x512 : S4x208x512.Slices ![3, 118, 0] S1x1x512
  slices_S4x208x512_o2_119_0_S1x1x512 : S4x208x512.Slices ![2, 119, 0] S1x1x512
  slices_S4x208x512_o3_119_0_S1x1x512 : S4x208x512.Slices ![3, 119, 0] S1x1x512
  slices_S4x208x512_o2_120_0_S1x1x512 : S4x208x512.Slices ![2, 120, 0] S1x1x512
  slices_S4x208x512_o3_120_0_S1x1x512 : S4x208x512.Slices ![3, 120, 0] S1x1x512
  slices_S4x208x512_o2_121_0_S1x1x512 : S4x208x512.Slices ![2, 121, 0] S1x1x512
  slices_S4x208x512_o3_121_0_S1x1x512 : S4x208x512.Slices ![3, 121, 0] S1x1x512
  slices_S4x208x512_o2_122_0_S1x1x512 : S4x208x512.Slices ![2, 122, 0] S1x1x512
  slices_S4x208x512_o3_122_0_S1x1x512 : S4x208x512.Slices ![3, 122, 0] S1x1x512
  slices_S4x208x512_o2_123_0_S1x1x512 : S4x208x512.Slices ![2, 123, 0] S1x1x512
  slices_S4x208x512_o3_123_0_S1x1x512 : S4x208x512.Slices ![3, 123, 0] S1x1x512
  slices_S4x208x512_o2_124_0_S1x1x512 : S4x208x512.Slices ![2, 124, 0] S1x1x512
  slices_S4x208x512_o3_124_0_S1x1x512 : S4x208x512.Slices ![3, 124, 0] S1x1x512
  slices_S4x208x512_o2_125_0_S1x1x512 : S4x208x512.Slices ![2, 125, 0] S1x1x512
  slices_S4x208x512_o3_125_0_S1x1x512 : S4x208x512.Slices ![3, 125, 0] S1x1x512
  slices_S4x208x512_o2_126_0_S1x1x512 : S4x208x512.Slices ![2, 126, 0] S1x1x512
  slices_S4x208x512_o3_126_0_S1x1x512 : S4x208x512.Slices ![3, 126, 0] S1x1x512
  slices_S4x208x512_o2_127_0_S1x1x512 : S4x208x512.Slices ![2, 127, 0] S1x1x512
  slices_S4x208x512_o3_127_0_S1x1x512 : S4x208x512.Slices ![3, 127, 0] S1x1x512
  slices_S4x208x512_o2_128_0_S1x1x512 : S4x208x512.Slices ![2, 128, 0] S1x1x512
  slices_S4x208x512_o3_128_0_S1x1x512 : S4x208x512.Slices ![3, 128, 0] S1x1x512
  slices_S4x208x512_o2_129_0_S1x1x512 : S4x208x512.Slices ![2, 129, 0] S1x1x512
  slices_S4x208x512_o3_129_0_S1x1x512 : S4x208x512.Slices ![3, 129, 0] S1x1x512
  slices_S4x208x512_o2_130_0_S1x1x512 : S4x208x512.Slices ![2, 130, 0] S1x1x512
  slices_S4x208x512_o3_130_0_S1x1x512 : S4x208x512.Slices ![3, 130, 0] S1x1x512
  slices_S4x208x512_o2_131_0_S1x1x512 : S4x208x512.Slices ![2, 131, 0] S1x1x512
  slices_S4x208x512_o3_131_0_S1x1x512 : S4x208x512.Slices ![3, 131, 0] S1x1x512
  slices_S4x208x512_o2_132_0_S1x1x512 : S4x208x512.Slices ![2, 132, 0] S1x1x512
  slices_S4x208x512_o3_132_0_S1x1x512 : S4x208x512.Slices ![3, 132, 0] S1x1x512
  slices_S4x208x512_o2_133_0_S1x1x512 : S4x208x512.Slices ![2, 133, 0] S1x1x512
  slices_S4x208x512_o3_133_0_S1x1x512 : S4x208x512.Slices ![3, 133, 0] S1x1x512
  slices_S4x208x512_o2_134_0_S1x1x512 : S4x208x512.Slices ![2, 134, 0] S1x1x512
  slices_S4x208x512_o3_134_0_S1x1x512 : S4x208x512.Slices ![3, 134, 0] S1x1x512
  slices_S4x208x512_o2_135_0_S1x1x512 : S4x208x512.Slices ![2, 135, 0] S1x1x512
  slices_S4x208x512_o3_135_0_S1x1x512 : S4x208x512.Slices ![3, 135, 0] S1x1x512
  slices_S4x208x512_o2_136_0_S1x1x512 : S4x208x512.Slices ![2, 136, 0] S1x1x512
  slices_S4x208x512_o3_136_0_S1x1x512 : S4x208x512.Slices ![3, 136, 0] S1x1x512
  slices_S4x208x512_o2_137_0_S1x1x512 : S4x208x512.Slices ![2, 137, 0] S1x1x512
  slices_S4x208x512_o3_137_0_S1x1x512 : S4x208x512.Slices ![3, 137, 0] S1x1x512
  slices_S4x208x512_o2_138_0_S1x1x512 : S4x208x512.Slices ![2, 138, 0] S1x1x512
  slices_S4x208x512_o3_138_0_S1x1x512 : S4x208x512.Slices ![3, 138, 0] S1x1x512
  slices_S4x208x512_o2_139_0_S1x1x512 : S4x208x512.Slices ![2, 139, 0] S1x1x512
  slices_S4x208x512_o3_139_0_S1x1x512 : S4x208x512.Slices ![3, 139, 0] S1x1x512
  slices_S4x208x512_o2_140_0_S1x1x512 : S4x208x512.Slices ![2, 140, 0] S1x1x512
  slices_S4x208x512_o3_140_0_S1x1x512 : S4x208x512.Slices ![3, 140, 0] S1x1x512
  slices_S4x208x512_o2_141_0_S1x1x512 : S4x208x512.Slices ![2, 141, 0] S1x1x512
  slices_S4x208x512_o3_141_0_S1x1x512 : S4x208x512.Slices ![3, 141, 0] S1x1x512
  slices_S4x208x512_o2_142_0_S1x1x512 : S4x208x512.Slices ![2, 142, 0] S1x1x512
  slices_S4x208x512_o3_142_0_S1x1x512 : S4x208x512.Slices ![3, 142, 0] S1x1x512
  slices_S4x208x512_o2_143_0_S1x1x512 : S4x208x512.Slices ![2, 143, 0] S1x1x512
  slices_S4x208x512_o3_143_0_S1x1x512 : S4x208x512.Slices ![3, 143, 0] S1x1x512
  slices_S4x208x512_o2_144_0_S1x1x512 : S4x208x512.Slices ![2, 144, 0] S1x1x512
  slices_S4x208x512_o3_144_0_S1x1x512 : S4x208x512.Slices ![3, 144, 0] S1x1x512
  slices_S4x208x512_o2_145_0_S1x1x512 : S4x208x512.Slices ![2, 145, 0] S1x1x512
  slices_S4x208x512_o3_145_0_S1x1x512 : S4x208x512.Slices ![3, 145, 0] S1x1x512
  slices_S4x208x512_o2_146_0_S1x1x512 : S4x208x512.Slices ![2, 146, 0] S1x1x512
  slices_S4x208x512_o3_146_0_S1x1x512 : S4x208x512.Slices ![3, 146, 0] S1x1x512
  slices_S4x208x512_o2_147_0_S1x1x512 : S4x208x512.Slices ![2, 147, 0] S1x1x512
  slices_S4x208x512_o3_147_0_S1x1x512 : S4x208x512.Slices ![3, 147, 0] S1x1x512
  slices_S4x208x512_o2_148_0_S1x1x512 : S4x208x512.Slices ![2, 148, 0] S1x1x512
  slices_S4x208x512_o3_148_0_S1x1x512 : S4x208x512.Slices ![3, 148, 0] S1x1x512
  slices_S4x208x512_o2_149_0_S1x1x512 : S4x208x512.Slices ![2, 149, 0] S1x1x512
  slices_S4x208x512_o3_149_0_S1x1x512 : S4x208x512.Slices ![3, 149, 0] S1x1x512
  slices_S4x208x512_o2_150_0_S1x1x512 : S4x208x512.Slices ![2, 150, 0] S1x1x512
  slices_S4x208x512_o3_150_0_S1x1x512 : S4x208x512.Slices ![3, 150, 0] S1x1x512
  slices_S4x208x512_o2_151_0_S1x1x512 : S4x208x512.Slices ![2, 151, 0] S1x1x512
  slices_S4x208x512_o3_151_0_S1x1x512 : S4x208x512.Slices ![3, 151, 0] S1x1x512
  slices_S4x208x512_o2_152_0_S1x1x512 : S4x208x512.Slices ![2, 152, 0] S1x1x512
  slices_S4x208x512_o3_152_0_S1x1x512 : S4x208x512.Slices ![3, 152, 0] S1x1x512
  slices_S4x208x512_o2_153_0_S1x1x512 : S4x208x512.Slices ![2, 153, 0] S1x1x512
  slices_S4x208x512_o3_153_0_S1x1x512 : S4x208x512.Slices ![3, 153, 0] S1x1x512
  slices_S4x208x512_o2_154_0_S1x1x512 : S4x208x512.Slices ![2, 154, 0] S1x1x512
  slices_S4x208x512_o3_154_0_S1x1x512 : S4x208x512.Slices ![3, 154, 0] S1x1x512
  slices_S4x208x512_o2_155_0_S1x1x512 : S4x208x512.Slices ![2, 155, 0] S1x1x512
  slices_S4x208x512_o3_155_0_S1x1x512 : S4x208x512.Slices ![3, 155, 0] S1x1x512

class Shapes2.Facts₀ : Prop where
  slices_S4x208x512_o2_156_0_S1x1x512 : S4x208x512.Slices ![2, 156, 0] S1x1x512
  slices_S4x208x512_o3_156_0_S1x1x512 : S4x208x512.Slices ![3, 156, 0] S1x1x512
  slices_S4x208x512_o2_157_0_S1x1x512 : S4x208x512.Slices ![2, 157, 0] S1x1x512
  slices_S4x208x512_o3_157_0_S1x1x512 : S4x208x512.Slices ![3, 157, 0] S1x1x512
  slices_S4x208x512_o2_158_0_S1x1x512 : S4x208x512.Slices ![2, 158, 0] S1x1x512
  slices_S4x208x512_o3_158_0_S1x1x512 : S4x208x512.Slices ![3, 158, 0] S1x1x512
  slices_S4x208x512_o2_159_0_S1x1x512 : S4x208x512.Slices ![2, 159, 0] S1x1x512
  slices_S4x208x512_o3_159_0_S1x1x512 : S4x208x512.Slices ![3, 159, 0] S1x1x512
  slices_S4x208x512_o2_160_0_S1x1x512 : S4x208x512.Slices ![2, 160, 0] S1x1x512
  slices_S4x208x512_o3_160_0_S1x1x512 : S4x208x512.Slices ![3, 160, 0] S1x1x512
  slices_S4x208x512_o2_161_0_S1x1x512 : S4x208x512.Slices ![2, 161, 0] S1x1x512
  slices_S4x208x512_o3_161_0_S1x1x512 : S4x208x512.Slices ![3, 161, 0] S1x1x512
  slices_S4x208x512_o2_162_0_S1x1x512 : S4x208x512.Slices ![2, 162, 0] S1x1x512
  slices_S4x208x512_o3_162_0_S1x1x512 : S4x208x512.Slices ![3, 162, 0] S1x1x512
  slices_S4x208x512_o2_163_0_S1x1x512 : S4x208x512.Slices ![2, 163, 0] S1x1x512
  slices_S4x208x512_o3_163_0_S1x1x512 : S4x208x512.Slices ![3, 163, 0] S1x1x512
  slices_S4x208x512_o2_164_0_S1x1x512 : S4x208x512.Slices ![2, 164, 0] S1x1x512
  slices_S4x208x512_o3_164_0_S1x1x512 : S4x208x512.Slices ![3, 164, 0] S1x1x512
  slices_S4x208x512_o2_165_0_S1x1x512 : S4x208x512.Slices ![2, 165, 0] S1x1x512
  slices_S4x208x512_o3_165_0_S1x1x512 : S4x208x512.Slices ![3, 165, 0] S1x1x512
  slices_S4x208x512_o2_166_0_S1x1x512 : S4x208x512.Slices ![2, 166, 0] S1x1x512
  slices_S4x208x512_o3_166_0_S1x1x512 : S4x208x512.Slices ![3, 166, 0] S1x1x512
  slices_S4x208x512_o2_167_0_S1x1x512 : S4x208x512.Slices ![2, 167, 0] S1x1x512
  slices_S4x208x512_o3_167_0_S1x1x512 : S4x208x512.Slices ![3, 167, 0] S1x1x512
  slices_S4x208x512_o2_168_0_S1x1x512 : S4x208x512.Slices ![2, 168, 0] S1x1x512
  slices_S4x208x512_o3_168_0_S1x1x512 : S4x208x512.Slices ![3, 168, 0] S1x1x512
  slices_S4x208x512_o2_169_0_S1x1x512 : S4x208x512.Slices ![2, 169, 0] S1x1x512
  slices_S4x208x512_o3_169_0_S1x1x512 : S4x208x512.Slices ![3, 169, 0] S1x1x512
  slices_S4x208x512_o2_170_0_S1x1x512 : S4x208x512.Slices ![2, 170, 0] S1x1x512
  slices_S4x208x512_o3_170_0_S1x1x512 : S4x208x512.Slices ![3, 170, 0] S1x1x512
  slices_S4x208x512_o2_171_0_S1x1x512 : S4x208x512.Slices ![2, 171, 0] S1x1x512
  slices_S4x208x512_o3_171_0_S1x1x512 : S4x208x512.Slices ![3, 171, 0] S1x1x512
  slices_S4x208x512_o2_172_0_S1x1x512 : S4x208x512.Slices ![2, 172, 0] S1x1x512
  slices_S4x208x512_o3_172_0_S1x1x512 : S4x208x512.Slices ![3, 172, 0] S1x1x512
  slices_S4x208x512_o2_173_0_S1x1x512 : S4x208x512.Slices ![2, 173, 0] S1x1x512
  slices_S4x208x512_o3_173_0_S1x1x512 : S4x208x512.Slices ![3, 173, 0] S1x1x512
  slices_S4x208x512_o2_174_0_S1x1x512 : S4x208x512.Slices ![2, 174, 0] S1x1x512
  slices_S4x208x512_o3_174_0_S1x1x512 : S4x208x512.Slices ![3, 174, 0] S1x1x512
  slices_S4x208x512_o2_175_0_S1x1x512 : S4x208x512.Slices ![2, 175, 0] S1x1x512
  slices_S4x208x512_o3_175_0_S1x1x512 : S4x208x512.Slices ![3, 175, 0] S1x1x512
  slices_S4x208x512_o2_176_0_S1x1x512 : S4x208x512.Slices ![2, 176, 0] S1x1x512
  slices_S4x208x512_o3_176_0_S1x1x512 : S4x208x512.Slices ![3, 176, 0] S1x1x512
  slices_S4x208x512_o2_177_0_S1x1x512 : S4x208x512.Slices ![2, 177, 0] S1x1x512
  slices_S4x208x512_o3_177_0_S1x1x512 : S4x208x512.Slices ![3, 177, 0] S1x1x512
  slices_S4x208x512_o2_178_0_S1x1x512 : S4x208x512.Slices ![2, 178, 0] S1x1x512
  slices_S4x208x512_o3_178_0_S1x1x512 : S4x208x512.Slices ![3, 178, 0] S1x1x512
  slices_S4x208x512_o2_179_0_S1x1x512 : S4x208x512.Slices ![2, 179, 0] S1x1x512
  slices_S4x208x512_o3_179_0_S1x1x512 : S4x208x512.Slices ![3, 179, 0] S1x1x512
  slices_S4x208x512_o2_180_0_S1x1x512 : S4x208x512.Slices ![2, 180, 0] S1x1x512
  slices_S4x208x512_o3_180_0_S1x1x512 : S4x208x512.Slices ![3, 180, 0] S1x1x512
  slices_S4x208x512_o2_181_0_S1x1x512 : S4x208x512.Slices ![2, 181, 0] S1x1x512
  slices_S4x208x512_o3_181_0_S1x1x512 : S4x208x512.Slices ![3, 181, 0] S1x1x512
  slices_S4x208x512_o2_182_0_S1x1x512 : S4x208x512.Slices ![2, 182, 0] S1x1x512
  slices_S4x208x512_o3_182_0_S1x1x512 : S4x208x512.Slices ![3, 182, 0] S1x1x512
  slices_S4x208x512_o2_183_0_S1x1x512 : S4x208x512.Slices ![2, 183, 0] S1x1x512
  slices_S4x208x512_o3_183_0_S1x1x512 : S4x208x512.Slices ![3, 183, 0] S1x1x512
  slices_S4x208x512_o2_184_0_S1x1x512 : S4x208x512.Slices ![2, 184, 0] S1x1x512
  slices_S4x208x512_o3_184_0_S1x1x512 : S4x208x512.Slices ![3, 184, 0] S1x1x512
  slices_S4x208x512_o2_185_0_S1x1x512 : S4x208x512.Slices ![2, 185, 0] S1x1x512
  slices_S4x208x512_o3_185_0_S1x1x512 : S4x208x512.Slices ![3, 185, 0] S1x1x512
  slices_S4x208x512_o2_186_0_S1x1x512 : S4x208x512.Slices ![2, 186, 0] S1x1x512
  slices_S4x208x512_o3_186_0_S1x1x512 : S4x208x512.Slices ![3, 186, 0] S1x1x512
  slices_S4x208x512_o2_187_0_S1x1x512 : S4x208x512.Slices ![2, 187, 0] S1x1x512
  slices_S4x208x512_o3_187_0_S1x1x512 : S4x208x512.Slices ![3, 187, 0] S1x1x512
  slices_S4x208x512_o2_188_0_S1x1x512 : S4x208x512.Slices ![2, 188, 0] S1x1x512
  slices_S4x208x512_o3_188_0_S1x1x512 : S4x208x512.Slices ![3, 188, 0] S1x1x512
  slices_S4x208x512_o2_189_0_S1x1x512 : S4x208x512.Slices ![2, 189, 0] S1x1x512
  slices_S4x208x512_o3_189_0_S1x1x512 : S4x208x512.Slices ![3, 189, 0] S1x1x512
  slices_S4x208x512_o2_190_0_S1x1x512 : S4x208x512.Slices ![2, 190, 0] S1x1x512
  slices_S4x208x512_o3_190_0_S1x1x512 : S4x208x512.Slices ![3, 190, 0] S1x1x512
  slices_S4x208x512_o2_191_0_S1x1x512 : S4x208x512.Slices ![2, 191, 0] S1x1x512
  slices_S4x208x512_o3_191_0_S1x1x512 : S4x208x512.Slices ![3, 191, 0] S1x1x512
  slices_S4x208x512_o2_192_0_S1x1x512 : S4x208x512.Slices ![2, 192, 0] S1x1x512
  slices_S4x208x512_o3_192_0_S1x1x512 : S4x208x512.Slices ![3, 192, 0] S1x1x512
  slices_S4x208x512_o2_193_0_S1x1x512 : S4x208x512.Slices ![2, 193, 0] S1x1x512
  slices_S4x208x512_o3_193_0_S1x1x512 : S4x208x512.Slices ![3, 193, 0] S1x1x512
  slices_S4x208x512_o2_194_0_S1x1x512 : S4x208x512.Slices ![2, 194, 0] S1x1x512
  slices_S4x208x512_o3_194_0_S1x1x512 : S4x208x512.Slices ![3, 194, 0] S1x1x512
  slices_S4x208x512_o2_195_0_S1x1x512 : S4x208x512.Slices ![2, 195, 0] S1x1x512
  slices_S4x208x512_o3_195_0_S1x1x512 : S4x208x512.Slices ![3, 195, 0] S1x1x512
  slices_S4x208x512_o2_196_0_S1x1x512 : S4x208x512.Slices ![2, 196, 0] S1x1x512
  slices_S4x208x512_o3_196_0_S1x1x512 : S4x208x512.Slices ![3, 196, 0] S1x1x512
  slices_S4x208x512_o2_197_0_S1x1x512 : S4x208x512.Slices ![2, 197, 0] S1x1x512
  slices_S4x208x512_o3_197_0_S1x1x512 : S4x208x512.Slices ![3, 197, 0] S1x1x512
  slices_S4x208x512_o2_198_0_S1x1x512 : S4x208x512.Slices ![2, 198, 0] S1x1x512
  slices_S4x208x512_o3_198_0_S1x1x512 : S4x208x512.Slices ![3, 198, 0] S1x1x512
  slices_S4x208x512_o2_199_0_S1x1x512 : S4x208x512.Slices ![2, 199, 0] S1x1x512
  slices_S4x208x512_o3_199_0_S1x1x512 : S4x208x512.Slices ![3, 199, 0] S1x1x512
  transposes_S200x16x1024_S1024x200x16_2_0_1 : S200x16x1024.Transposes [2, 0, 1] S1024x200x16
  dot_S16x16_S16x512_S16x512_1_0_0_1_n_n_wf : DotDims.WF S16x16 S16x512 S16x512 [1] [0] [0] [1] [] []
  hcc0_scratch7 : 0 + S_.numel ≤ 16
  hcc0_scratch8 : 1 + S_.numel ≤ 16
  hcc0_scratch9 : 2 + S_.numel ≤ 16
  hcc0_scratch10 : 3 + S_.numel ≤ 16
  hcc0_scratch11 : 4 + S_.numel ≤ 16
  hcc0_scratch12 : 5 + S_.numel ≤ 16
  hscKind : ∀ q, scKind q ≠ .tc
  hscCore : ∀ q, scNCore q ≤ τ.nSC
  hscSub : ∀ q, scNSub q ≤ τ.nSub

class Facts₀ : Prop where
  k0 : K0.Facts₀
  k1 : K1.Facts₀
  shapes1 : Shapes1.Facts₀
  shapes2 : Shapes2.Facts₀
attribute [instance] Facts₀.k0 Facts₀.k1 Facts₀.shapes1 Facts₀.shapes2

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scratch11 : DmaSems sig S_ := SemArray.consecutive 4 S_ hcc0_scratch11
abbrev cc0_scratch12 : DmaSems sig S_ := SemArray.consecutive 5 S_ hcc0_scratch12
def dot_S16x16_S16x512_S16x512_1_0_0_1_n_n : DotDims S16x16 S16x512 S16x512 where
  lhsContracting := [1]
  rhsContracting := [0]
  lhsNonContracting := [0]
  rhsNonContracting := [1]
  lhsBatch := []
  rhsBatch := []
  wf := dot_S16x16_S16x512_S16x512_1_0_0_1_n_n_wf

abbrev win1_0 : Pipeline.Window sig grid1 :=
  Pipeline.Window.ofSpec (Memref.whole main_v5) S4x208x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S16x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8_0) S200x16x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8_1) S200x16x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x200 : Shape := ⟨2, ![1024, 200]⟩
abbrev S16x1 : Shape := ⟨2, ![16, 1]⟩
abbrev S16 : Shape := ⟨1, ![16]⟩
abbrev S16x16 : Shape := ⟨2, ![16, 16]⟩
abbrev S1024x200x1 : Shape := ⟨3, ![1024, 200, 1]⟩
abbrev S1024x1x200 : Shape := ⟨3, ![1024, 1, 200]⟩
abbrev S1024x200x200 : Shape := ⟨3, ![1024, 200, 200]⟩
abbrev S_ : Shape := ⟨0, ![]⟩
abbrev S1024x200x2 : Shape := ⟨3, ![1024, 200, 2]⟩
abbrev S1024x200x2x1 : Shape := ⟨4, ![1024, 200, 2, 1]⟩
abbrev S1x16 : Shape := ⟨2, ![1, 16]⟩
abbrev S1024x200x2x16 : Shape := ⟨4, ![1024, 200, 2, 16]⟩
abbrev S1x1x1x16 : Shape := ⟨4, ![1, 1, 1, 16]⟩
abbrev S1024x200x16 : Shape := ⟨3, ![1024, 200, 16]⟩

abbrev nBuf : Space → Nat
  | .hbm => 98
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S16x1, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1024x200x1, .i32⟩
  | .hbm, ⟨7, _⟩ => ⟨S1024x1x200, .i32⟩
  | .hbm, ⟨8, _⟩ => ⟨S1024x200x200, .i32⟩
  | .hbm, ⟨9, _⟩ => ⟨S1024x200x200, .i32⟩
  | .hbm, ⟨10, _⟩ => ⟨S1024x200x200, .i1⟩
  | .hbm, ⟨11, _⟩ => ⟨S1024x200x200, .i32⟩
  | .hbm, ⟨12, _⟩ => ⟨S_, .i32⟩
  | .hbm, ⟨13, _⟩ => ⟨S1024x200, .i32⟩
  | .hbm, ⟨14, _⟩ => ⟨S1024x200, .f32⟩
  | .hbm, ⟨15, _⟩ => ⟨S1024x200x1, .i32⟩
  | .hbm, ⟨16, _⟩ => ⟨S1024x1x200, .i32⟩
  | .hbm, ⟨17, _⟩ => ⟨S1024x200x200, .i32⟩
  | .hbm, ⟨18, _⟩ => ⟨S1024x200x200, .i32⟩
  | .hbm, ⟨19, _⟩ => ⟨S1024x200x200, .i1⟩
  | .hbm, ⟨20, _⟩ => ⟨S1024x200x200, .i32⟩
  | .hbm, ⟨21, _⟩ => ⟨S_, .i32⟩
  | .hbm, ⟨22, _⟩ => ⟨S1024x200, .i32⟩
  | .hbm, ⟨23, _⟩ => ⟨S1024x200, .f32⟩
  | .hbm, ⟨24, _⟩ => ⟨S1024x200x1, .i32⟩
  | .hbm, ⟨25, _⟩ => ⟨S1024x1x200, .i32⟩
  | .hbm, ⟨26, _⟩ => ⟨S1024x200x200, .i32⟩
  | .hbm, ⟨27, _⟩ => ⟨S1024x200x200, .i32⟩
  | .hbm, ⟨28, _⟩ => ⟨S1024x200x200, .i1⟩
  | .hbm, ⟨29, _⟩ => ⟨S1024x200x200, .i32⟩
  | .hbm, ⟨30, _⟩ => ⟨S_, .i32⟩
  | .hbm, ⟨31, _⟩ => ⟨S1024x200, .i32⟩
  | .hbm, ⟨32, _⟩ => ⟨S1024x200, .f32⟩
  | .hbm, ⟨33, _⟩ => ⟨S1024x200x1, .i32⟩
  | .hbm, ⟨34, _⟩ => ⟨S1024x1x200, .i32⟩
  | .hbm, ⟨35, _⟩ => ⟨S1024x200x200, .i32⟩
  | .hbm, ⟨36, _⟩ => ⟨S1024x200x200, .i32⟩
  | .hbm, ⟨37, _⟩ => ⟨S1024x200x200, .i1⟩
  | .hbm, ⟨38, _⟩ => ⟨S1024x200x200, .i32⟩
  | .hbm, ⟨39, _⟩ => ⟨S_, .i32⟩
  | .hbm, ⟨40, _⟩ => ⟨S1024x200, .i32⟩
  | .hbm, ⟨41, _⟩ => ⟨S1024x200, .f32⟩
  | .hbm, ⟨42, _⟩ => ⟨S1024x200x1, .f32⟩
  | .hbm, ⟨43, _⟩ => ⟨S1024x200x1, .f32⟩
  | .hbm, ⟨44, _⟩ => ⟨S1024x200x2, .f32⟩
  | .hbm, ⟨45, _⟩ => ⟨S1024x200x1, .f32⟩
  | .hbm, ⟨46, _⟩ => ⟨S1024x200x1, .f32⟩
  | .hbm, ⟨47, _⟩ => ⟨S1024x200x2, .f32⟩
  | .hbm, ⟨48, _⟩ => ⟨S_, .i32⟩
  | .hbm, ⟨49, _⟩ => ⟨S1024x200, .i32⟩
  | .hbm, ⟨50, _⟩ => ⟨S1024x200, .i1⟩
  | .hbm, ⟨51, _⟩ => ⟨S1024x200x1, .i1⟩
  | .hbm, ⟨52, _⟩ => ⟨S_, .f32⟩
  | .hbm, ⟨53, _⟩ => ⟨S_, .f32⟩
  | .hbm, ⟨54, _⟩ => ⟨S1024x200x2, .i1⟩
  | .hbm, ⟨55, _⟩ => ⟨S1024x200x2, .f32⟩
  | .hbm, ⟨56, _⟩ => ⟨S1024x200x2, .f32⟩
  | .hbm, ⟨57, _⟩ => ⟨S_, .i32⟩
  | .hbm, ⟨58, _⟩ => ⟨S1024x200, .i32⟩
  | .hbm, ⟨59, _⟩ => ⟨S1024x200, .i1⟩
  | .hbm, ⟨60, _⟩ => ⟨S1024x200x1, .i1⟩
  | .hbm, ⟨61, _⟩ => ⟨S_, .f32⟩
  | .hbm, ⟨62, _⟩ => ⟨S_, .f32⟩
  | .hbm, ⟨63, _⟩ => ⟨S1024x200x2, .i1⟩
  | .hbm, ⟨64, _⟩ => ⟨S1024x200x2, .f32⟩
  | .hbm, ⟨65, _⟩ => ⟨S1024x200x2, .f32⟩
  | .hbm, ⟨66, _⟩ => ⟨S1024x200x2x1, .f32⟩
  | .hbm, ⟨67, _⟩ => ⟨S1x16, .f32⟩
  | .hbm, ⟨68, _⟩ => ⟨S1024x200x2x16, .f32⟩
  | .hbm, ⟨69, _⟩ => ⟨S1x1x1x16, .f32⟩
  | .hbm, ⟨70, _⟩ => ⟨S1024x200x2x16, .f32⟩
  | .hbm, ⟨71, _⟩ => ⟨S1024x200x2x16, .f32⟩
  | .hbm, ⟨72, _⟩ => ⟨S_, .f32⟩
  | .hbm, ⟨73, _⟩ => ⟨S1024x200x2x16, .f32⟩
  | .hbm, ⟨74, _⟩ => ⟨S1024x200x2x16, .f32⟩
  | .hbm, ⟨75, _⟩ => ⟨S16x16, .f32⟩
  | .hbm, ⟨76, _⟩ => ⟨S1024x200x2x16, .f32⟩
  | .hbm, ⟨77, _⟩ => ⟨S1x1x1x16, .f32⟩
  | .hbm, ⟨78, _⟩ => ⟨S1024x200x2x16, .f32⟩
  | .hbm, ⟨79, _⟩ => ⟨S1024x200x2x16, .f32⟩
  | .hbm, ⟨80, _⟩ => ⟨S_, .f32⟩
  | .hbm, ⟨81, _⟩ => ⟨S1024x200x16, .f32⟩
  | .hbm, ⟨82, _⟩ => ⟨S1024x200x2x1, .f32⟩
  | .hbm, ⟨83, _⟩ => ⟨S1x16, .f32⟩
  | .hbm, ⟨84, _⟩ => ⟨S1024x200x2x16, .f32⟩
  | .hbm, ⟨85, _⟩ => ⟨S1x1x1x16, .f32⟩
  | .hbm, ⟨86, _⟩ => ⟨S1024x200x2x16, .f32⟩
  | .hbm, ⟨87, _⟩ => ⟨S1024x200x2x16, .f32⟩
  | .hbm, ⟨88, _⟩ => ⟨S_, .f32⟩
  | .hbm, ⟨89, _⟩ => ⟨S1024x200x2x16, .f32⟩
  | .hbm, ⟨90, _⟩ => ⟨S1024x200x2x16, .f32⟩
  | .hbm, ⟨91, _⟩ => ⟨S16x16, .f32⟩
  | .hbm, ⟨92, _⟩ => ⟨S1024x200x2x16, .f32⟩
  | .hbm, ⟨93, _⟩ => ⟨S1x1x1x16, .f32⟩
  | .hbm, ⟨94, _⟩ => ⟨S1024x200x2x16, .f32⟩
  | .hbm, ⟨95, _⟩ => ⟨S1024x200x2x16, .f32⟩
  | .hbm, ⟨96, _⟩ => ⟨S_, .f32⟩
  | .hbm, ⟨97, _⟩ => ⟨S1024x200x16, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v41 : Ref sig .tc := ⟨.hbm, 56, rfl⟩
abbrev main_c_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call2_cst : Ref sig .tc := ⟨.hbm, 72, rfl⟩
abbrev main_call2_v0 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call3_cst : Ref sig .tc := ⟨.hbm, 88, rfl⟩
abbrev main_call3_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_7 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  bcast_S1024x200_S1024x200x1_0_1 : S1024x200.BroadcastsInDim S1024x200x1 (![0, 1] : Fin 2 → Fin S1024x200x1.rank)
  bcast_S1024x200_S1024x1x200_0_2 : S1024x200.BroadcastsInDim S1024x1x200 (![0, 2] : Fin 2 → Fin S1024x1x200.rank)
  bcast_S1024x200x1_S1024x200x200_0_1_2 : S1024x200x1.BroadcastsInDim S1024x200x200 (![0, 1, 2] : Fin 3 → Fin S1024x200x200.rank)
  bcast_S1024x1x200_S1024x200x200_0_1_2 : S1024x1x200.BroadcastsInDim S1024x200x200 (![0, 1, 2] : Fin 3 → Fin S1024x200x200.rank)
  natLt_1_32 : 1 < 32
  reducesTo_S1024x200x200_S1024x200_d2 : S1024x200x200.ReducesTo [2] S1024x200
  h_S_ : 0 < S_.numel
  concatenates_S1024x200x1_S1024x200x1_S1024x200x2_d2 : Shape.Concatenates [S1024x200x1, S1024x200x1] S1024x200x2 2
  bcast_S_S1024x200 : S_.BroadcastsInDim S1024x200 (![] : Fin 0 → Fin S1024x200.rank)
  bcast_S1024x200x1_S1024x200x2_0_1_2 : S1024x200x1.BroadcastsInDim S1024x200x2 (![0, 1, 2] : Fin 3 → Fin S1024x200x2.rank)
  bcast_S_S1024x200x2 : S_.BroadcastsInDim S1024x200x2 (![] : Fin 0 → Fin S1024x200x2.rank)
  bcast_S1024x200x2_S1024x200x2x1_0_1_2 : S1024x200x2.BroadcastsInDim S1024x200x2x1 (![0, 1, 2] : Fin 3 → Fin S1024x200x2x1.rank)
  transposes_S16x1_S1x16_1_0 : S16x1.Transposes [1, 0] S1x16
  bcast_S16_S1x1x1x16_3 : S16.BroadcastsInDim S1x1x1x16 (![3] : Fin 1 → Fin S1x1x1x16.rank)
  bcast_S1x1x1x16_S1024x200x2x16_0_1_2_3 : S1x1x1x16.BroadcastsInDim S1024x200x2x16 (![0, 1, 2, 3] : Fin 4 → Fin S1024x200x2x16.rank)
  bcast_S_S1024x200x2x16 : S_.BroadcastsInDim S1024x200x2x16 (![] : Fin 0 → Fin S1024x200x2x16.rank)
  transposes_S16x16_S16x16_1_0 : S16x16.Transposes [1, 0] S16x16
  reducesTo_S1024x200x2x16_S1024x200x16_d2 : S1024x200x2x16.ReducesTo [2] S1024x200x16
  dot_S1024x200x2x1_S1x16_S1024x200x2x16_3_0_012_1_n_n_wf : DotDims.WF S1024x200x2x1 S1x16 S1024x200x2x16 [3] [0] [0, 1, 2] [1] [] []
  dot_S1024x200x2x16_S16x16_S1024x200x2x16_3_0_012_1_n_n_wf : DotDims.WF S1024x200x2x16 S16x16 S1024x200x2x16 [3] [0] [0, 1, 2] [1] [] []

variable [Facts₀]

def dot_S1024x200x2x1_S1x16_S1024x200x2x16_3_0_012_1_n_n : DotDims S1024x200x2x1 S1x16 S1024x200x2x16 where
  lhsContracting := [3]
  rhsContracting := [0]
  lhsNonContracting := [0, 1, 2]
  rhsNonContracting := [1]
  lhsBatch := []
  rhsBatch := []
  wf := dot_S1024x200x2x1_S1x16_S1024x200x2x16_3_0_012_1_n_n_wf
def dot_S1024x200x2x16_S16x16_S1024x200x2x16_3_0_012_1_n_n : DotDims S1024x200x2x16 S16x16 S1024x200x2x16 where
  lhsContracting := [3]
  rhsContracting := [0]
  lhsNonContracting := [0, 1, 2]
  rhsNonContracting := [1]
  lhsBatch := []
  rhsBatch := []
  wf := dot_S1024x200x2x16_S16x16_S1024x200x2x16_3_0_012_1_n_n_wf

class Facts : Prop extends Facts₀ where

variable [Facts]
-- ==== Proof.PreDecode.lean ====
import proofs.«212098_g24275155157491_cont_8to1_80_30_alg».proof.Pre_input_domain
import proofs.«212098_g24275155157491_cont_8to1_80_30_alg».proof.Proof.Gen.Pre_input_domain
import Idealize.ShloMosaic.Lib.ReduceAll
import Idealize.ShloMosaic.Lib.ValueIdx
import Idealize.ShloMosaic.PureOps.Ideal

namespace Cert.PreDecode

open Idealize.ShloMosaic Cert.Pre_input_domain

instance : Subsingleton S_.Idx := ⟨fun _ _ => funext fun d => d.elim0⟩

theorem word_range {a : BitVec 32}
    (h : IntOp.andi (IntOp.cmpi .sge a 0#32) (IntOp.cmpi .sle a 99999#32) = 1#1) : a.toNat ≤ 99999 := by
  obtain ⟨h0, h1⟩ := IntOp.andi_eq_one.1 h
  rw [IntOp.cmpi_sge, show (0#32 : BitVec 32).toInt = 0 from by decide] at h0
  rw [IntOp.cmpi_sle, show (99999#32 : BitVec 32).toInt = 99999 from by decide] at h1
  have e := BitVec.toInt_eq_toNat_cond a
  have hlt := a.isLt
  by_cases hc : 2 * a.toNat < 2 ^ 32
  · rw [if_pos hc] at e; omega
  · rw [if_neg hc] at e; omega

theorem finite_of_abs_lt {x : EReal}
    (h : Ideal.cmp .olt (max x (-x)) (Ideal.ofBits .f32 0x7F800000#32) = 1#1) : x ≠ ⊤ ∧ x ≠ ⊥ := by
  have htop : Ideal.ofBits .f32 0x7F800000#32 = (⊤ : EReal) := by simp [Ideal.ofBits, Ideal.ieee]
  rw [htop] at h
  have hlt : max x (-x) < ⊤ := by
    by_contra hn
    have h0 : Ideal.cmp .olt (max x (-x)) ⊤ = 0#1 := by simp [Ideal.cmp, hn]
    rw [h0] at h
    exact absurd h (by decide)
  constructor
  · rintro rfl; simp at hlt
  · rintro rfl; simp at hlt

section
variable {F : FTy → Type} [FloatOps F] [Facts]

theorem ids_le (a0 a1 : IVec S1024x200 32) (w1 : FVec F S16x1 .f32) (b1 : FVec F S16 .f32) (w2 : FVec F S16x16 .f32)
    (b2 : FVec F S16 .f32) (h : fn (F := F) a0 a1 w1 b1 w2 b2 = fun _ => 1#1) :
    (∀ j, (a0 j).toNat ≤ 99999) ∧ (∀ j, (a1 j).toNat ≤ 99999) := by
  have h0 := congrFun h ValueIdx.ix0
  dsimp only [fn, fn_part1] at h0
  obtain ⟨h5, ha1⟩ := IntOp.andi_eq_one.1 h0
  obtain ⟨-, ha0⟩ := IntOp.andi_eq_one.1 h5
  exact ⟨fun j => word_range (Host.reduce_andi_all _ _ _ _ _ ha0 j),
    fun j => word_range (Host.reduce_andi_all _ _ _ _ _ ha1 j)⟩

end

theorem finite [Facts] (a0 a1 : IVec S1024x200 32) (w1 : FVec Ideal S16x1 .f32) (b1 : FVec Ideal S16 .f32)
    (w2 : FVec Ideal S16x16 .f32) (b2 : FVec Ideal S16 .f32) (h : fn (F := Ideal) a0 a1 w1 b1 w2 b2 = fun _ => 1#1) :
    (∀ j, w1 j ≠ (⊤ : EReal) ∧ w1 j ≠ (⊥ : EReal)) ∧ (∀ j, b1 j ≠ (⊤ : EReal) ∧ b1 j ≠ (⊥ : EReal))
      ∧ (∀ j, w2 j ≠ (⊤ : EReal) ∧ w2 j ≠ (⊥ : EReal)) ∧ (∀ j, b2 j ≠ (⊤ : EReal) ∧ b2 j ≠ (⊥ : EReal)) := by
  have h0 := congrFun h ValueIdx.ix0
  dsimp only [fn, fn_part1] at h0
  obtain ⟨h5, -⟩ := IntOp.andi_eq_one.1 h0
  obtain ⟨h4, -⟩ := IntOp.andi_eq_one.1 h5
  obtain ⟨h3, hb2⟩ := IntOp.andi_eq_one.1 h4
  obtain ⟨h2, hw2⟩ := IntOp.andi_eq_one.1 h3
  obtain ⟨hw1, hb1⟩ := IntOp.andi_eq_one.1 h2
  exact ⟨fun j => finite_of_abs_lt (Host.reduce_andi_all _ _ _ _ _ hw1 j),
    fun j => finite_of_abs_lt (Host.reduce_andi_all _ _ _ _ _ hb1 j),
    fun j => finite_of_abs_lt (Host.reduce_andi_all _ _ _ _ _ hw2 j),
    fun j => finite_of_abs_lt (Host.reduce_andi_all _ _ _ _ _ hb2 j)⟩

end Cert.PreDecode
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev SIds : Shape := ⟨2, ![1024, 200]⟩
abbrev SPad : Shape := ⟨2, ![1024, 208]⟩
abbrev SCnt : Shape := ⟨2, ![1024, 832]⟩
abbrev SW1 : Shape := ⟨2, ![16, 1]⟩
abbrev SB : Shape := ⟨1, ![16]⟩
abbrev SW2 : Shape := ⟨2, ![16, 16]⟩
abbrev SOut : Shape := ⟨3, ![1024, 200, 16]⟩

def occ (y : IVec SIds 32) (b : Fin 1024) (w : BitVec 32) : ℕ :=
  (Finset.univ.filter fun l : Fin 200 => y (ix2 b l) = w).card

def freq (x y : IVec SIds 32) (b : Fin 1024) (l : Fin 200) : BitVec 32 :=
  if x (ix2 b l) = 0#32 then 0#32 else BitVec.ofNat 32 (occ y b (x (ix2 b l)))

def padded (x : IVec SIds 32) : IVec SPad 32 := fun j =>
  if h : (j 1).val < 200 then x (ix2 (j 0) ⟨(j 1).val, h⟩) else 100000#32

def occP (y : IVec SPad 32) (b : Fin 1024) (w : BitVec 32) : ℕ :=
  (Finset.univ.filter fun l : Fin 208 => y (ix2 b l) = w).card

def freqP (x y : IVec SPad 32) (b : Fin 1024) (l : Fin 208) : BitVec 32 :=
  if x (ix2 b l) = 0#32 then 0#32 else BitVec.ofNat 32 (occP y b (x (ix2 b l)))

def counts (x y : IVec SPad 32) : IVec SCnt 32 := fun j =>
  if h0 : (j 1).val < 208 then freqP x x (j 0) ⟨(j 1).val, h0⟩
  else if h1 : (j 1).val < 416 then freqP x y (j 0) ⟨(j 1).val - 208, by omega⟩
  else if h2 : (j 1).val < 624 then freqP y y (j 0) ⟨(j 1).val - 416, by omega⟩
  else freqP y x (j 0) ⟨(j 1).val - 624, by have := idx2_lt1 j; omega⟩

def hid (W1 : Vec Ideal SW1 .f32) (b1 : Vec Ideal SB .f32) (n : BitVec 32) (g : Fin 16) : EReal :=
  max (W1 (ix2 g 0) * ((n.toInt : ℝ) : EReal) + b1 (ix1 g)) 0

def outK (W1 : Vec Ideal SW1 .f32) (b1 : Vec Ideal SB .f32) (W2 : Vec Ideal SW2 .f32) (b2 : Vec Ideal SB .f32)
    (n₀ n₁ : BitVec 32) (f : Fin 16) : EReal :=
  (∑ g : Fin 16, W2 (ix2 f g) * (hid W1 b1 n₀ g + hid W1 b1 n₁ g)) + 2 * b2 (ix1 f)

def outR (W1 : Vec Ideal SW1 .f32) (b1 : Vec Ideal SB .f32) (W2 : Vec Ideal SW2 .f32) (b2 : Vec Ideal SB .f32)
    (n₀ n₁ : BitVec 32) (f : Fin 16) : EReal :=
  ((∑ g : Fin 16, hid W1 b1 n₀ g * W2 (ix2 f g)) + b2 (ix1 f)) + ((∑ g : Fin 16, hid W1 b1 n₁ g * W2 (ix2 f g)) + b2 (ix1 f))

def GK0 (a0 a1 : IVec SIds 32) (W1 : Vec Ideal SW1 .f32) (b1 : Vec Ideal SB .f32) (W2 : Vec Ideal SW2 .f32) (b2 : Vec Ideal SB .f32) :
    Vec Ideal SOut .f32 := fun j => outK W1 b1 W2 b2 (freq a0 a0 (j 0) (j 1)) (freq a0 a1 (j 0) (j 1)) (j 2)
def GK1 (a0 a1 : IVec SIds 32) (W1 : Vec Ideal SW1 .f32) (b1 : Vec Ideal SB .f32) (W2 : Vec Ideal SW2 .f32) (b2 : Vec Ideal SB .f32) :
    Vec Ideal SOut .f32 := fun j => outK W1 b1 W2 b2 (freq a1 a1 (j 0) (j 1)) (freq a1 a0 (j 0) (j 1)) (j 2)
def GR0 (a0 a1 : IVec SIds 32) (W1 : Vec Ideal SW1 .f32) (b1 : Vec Ideal SB .f32) (W2 : Vec Ideal SW2 .f32) (b2 : Vec Ideal SB .f32) :
    Vec Ideal SOut .f32 := fun j => outR W1 b1 W2 b2 (freq a0 a0 (j 0) (j 1)) (freq a0 a1 (j 0) (j 1)) (j 2)
def GR1 (a0 a1 : IVec SIds 32) (W1 : Vec Ideal SW1 .f32) (b1 : Vec Ideal SB .f32) (W2 : Vec Ideal SW2 .f32) (b2 : Vec Ideal SB .f32) :
    Vec Ideal SOut .f32 := fun j => outR W1 b1 W2 b2 (freq a1 a1 (j 0) (j 1)) (freq a1 a0 (j 0) (j 1)) (j 2)

end Cert.Spec

end
-- ==== Proof.Algebra.lean ====
import proofs.«212098_g24275155157491_cont_8to1_80_30_alg».proof.Proof.Spec

noncomputable section

open scoped BigOperators

namespace Cert.Spec

open Idealize.ShloMosaic Idealize.ShloMosaic.ValueIdx

theorem coe_sum {ι : Type} (s : Finset ι) (F : ι → ℝ) : ((∑ i ∈ s, F i : ℝ) : EReal) = ∑ i ∈ s, (F i : EReal) := by
  classical
  induction s using Finset.induction_on with
  | empty => simp
  | insert a s ha ih => rw [Finset.sum_insert ha, Finset.sum_insert ha, EReal.coe_add, ih]

theorem exists_real {x : EReal} (h : x ≠ ⊤ ∧ x ≠ ⊥) : ∃ r : ℝ, x = r :=
  ⟨x.toReal, (EReal.coe_toReal h.1 h.2).symm⟩

theorem hid_real (W1 : Vec Ideal SW1 .f32) (b1 : Vec Ideal SB .f32) (w : SW1.Idx → ℝ) (c : SB.Idx → ℝ)
    (hw : ∀ j, W1 j = (w j : EReal)) (hc : ∀ j, b1 j = (c j : EReal)) (n : BitVec 32) (g : Fin 16) :
    hid W1 b1 n g = ((max (w (ix2 g 0) * (n.toInt : ℝ) + c (ix1 g)) 0 : ℝ) : EReal) := by
  unfold hid
  rw [hw, hc, ← EReal.coe_mul, ← EReal.coe_add, ← EReal.coe_zero, ← EReal.coe_strictMono.monotone.map_max]

theorem outK_eq_outR (W1 : Vec Ideal SW1 .f32) (b1 : Vec Ideal SB .f32) (W2 : Vec Ideal SW2 .f32) (b2 : Vec Ideal SB .f32)
    (hW1 : ∀ j, W1 j ≠ (⊤ : EReal) ∧ W1 j ≠ (⊥ : EReal)) (hb1 : ∀ j, b1 j ≠ (⊤ : EReal) ∧ b1 j ≠ (⊥ : EReal))
    (hW2 : ∀ j, W2 j ≠ (⊤ : EReal) ∧ W2 j ≠ (⊥ : EReal)) (hb2 : ∀ j, b2 j ≠ (⊤ : EReal) ∧ b2 j ≠ (⊥ : EReal))
    (n₀ n₁ : BitVec 32) (f : Fin 16) : outK W1 b1 W2 b2 n₀ n₁ f = outR W1 b1 W2 b2 n₀ n₁ f := by
  choose w hw using fun j => exists_real (hW1 j)
  choose c hc using fun j => exists_real (hb1 j)
  choose v hv using fun j => exists_real (hW2 j)
  choose d hd using fun j => exists_real (hb2 j)
  have h2 : (2 : EReal) = ((2 : ℝ) : EReal) := rfl
  unfold outK outR
  simp only [hid_real W1 b1 w c hw hc, hv, hd, h2, ← EReal.coe_mul, ← EReal.coe_add, ← coe_sum]
  congr 1
  rw [show (∑ g : Fin 16, v (ix2 f g) * (max (w (ix2 g 0) * (n₀.toInt : ℝ) + c (ix1 g)) 0 + max (w (ix2 g 0) * (n₁.toInt : ℝ) + c (ix1 g)) 0))
      = (∑ g : Fin 16, max (w (ix2 g 0) * (n₀.toInt : ℝ) + c (ix1 g)) 0 * v (ix2 f g))
        + ∑ g : Fin 16, max (w (ix2 g 0) * (n₁.toInt : ℝ) + c (ix1 g)) 0 * v (ix2 f g) from by
    rw [← Finset.sum_add_distrib]; exact Finset.sum_congr rfl fun g _ => by ring]
  ring

theorem padded_lt (x : IVec SIds 32) (b : Fin 1024) (l : Fin 208) (h : l.val < 200) :
    padded x (ix2 b l) = x (ix2 b ⟨l.val, h⟩) := by
  unfold padded
  rw [dif_pos (show ((ix2 b l : SPad.Idx) 1).val < 200 from h)]

theorem padded_ge (x : IVec SIds 32) (b : Fin 1024) (l : Fin 208) (h : ¬ l.val < 200) :
    padded x (ix2 b l) = 100000#32 := by
  unfold padded
  rw [dif_neg (show ¬ ((ix2 b l : SPad.Idx) 1).val < 200 from h)]

theorem occP_padded (y : IVec SIds 32) (b : Fin 1024) (w : BitVec 32) (hw : w ≠ 100000#32) :
    occP (padded y) b w = occ y b w := by
  unfold occP occ
  symm
  refine Finset.card_bij (fun l _ => (⟨l.val, by omega⟩ : Fin 208)) ?_ ?_ ?_
  · intro l hl
    rw [Finset.mem_filter] at hl ⊢
    exact ⟨Finset.mem_univ _, (padded_lt y b _ l.isLt).trans hl.2⟩
  · intro l₁ _ l₂ _ h
    exact Fin.ext (Fin.mk.inj h)
  · intro l' hl'
    rw [Finset.mem_filter] at hl'
    by_cases h : l'.val < 200
    · exact ⟨⟨l'.val, h⟩, Finset.mem_filter.2 ⟨Finset.mem_univ _, (padded_lt y b l' h).symm.trans hl'.2⟩, rfl⟩
    · exact absurd ((padded_ge y b l' h).symm.trans hl'.2).symm hw

theorem freqP_padded (x y : IVec SIds 32) (hx : ∀ j, (x j).toNat ≤ 99999) (hy : ∀ j, (y j).toNat ≤ 99999)
    (b : Fin 1024) (l : Fin 200) :
    freqP (padded x) (padded y) b ⟨l.val, by omega⟩ = freq x y b l := by
  have hne : x (ix2 b l) ≠ 100000#32 := fun e => by
    have := hx (ix2 b l)
    rw [e] at this
    exact absurd this (by decide)
  unfold freqP freq
  rw [padded_lt x b ⟨l.val, by omega⟩ l.isLt]
  show (if x (ix2 b l) = 0#32 then 0#32 else BitVec.ofNat 32 (occP (padded y) b (x (ix2 b l)))) = _
  rw [occP_padded y b _ hne]

end Cert.Spec

end
-- ==== Proof.RefValue.lean ====
import proofs.«212098_g24275155157491_cont_8to1_80_30_alg».proof.Defs
import proofs.«212098_g24275155157491_cont_8to1_80_30_alg».proof.Proof.Gen.ReferenceIdeal
import proofs.«212098_g24275155157491_cont_8to1_80_30_alg».proof.Proof.RefRun
import proofs.«212098_g24275155157491_cont_8to1_80_30_alg».proof.Proof.RefRead
import proofs.«212098_g24275155157491_cont_8to1_80_30_alg».proof.Proof.Spec
import Idealize.ShloMosaic.Lib.ValueIdx
import Idealize.ShloMosaic.Lib.StableHlo.Run
import Idealize.ShloMosaic.PureOps.Ideal.Laws
import Idealize.ShloMosaic.PureOps.Reduce
import Idealize.ShloMosaic.Lib.StableHlo.Predicate
import Idealize.ShloMosaic.Lib.Pipeline.Value

noncomputable section

open scoped BigOperators

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx
open Idealize.ShloMosaic.StableHlo.Predicate (toNat_fold_addi toNat_setWidth_bit cmpi_eq_iff)

abbrev Ids : Type := (⟨S1024x200, .i32⟩ : BufTy).Contents (Elt Ideal)
abbrev TW1 : Type := (⟨S16x1, .f32⟩ : BufTy).Contents (Elt Ideal)
abbrev TB : Type := (⟨S16, .f32⟩ : BufTy).Contents (Elt Ideal)
abbrev TW2 : Type := (⟨S16x16, .f32⟩ : BufTy).Contents (Elt Ideal)

theorem toNat_count_last {n m p : Nat} (hp : p < 2 ^ 32) (mask : IVec ⟨3, ![n, m, p]⟩ 1) (hw : 1 < 32)
    (h : (⟨3, ![n, m, p]⟩ : Shape).ReducesTo [2] ⟨2, ![n, m]⟩) {u : Shape} (hu : 0 < u.numel)
    (j : (⟨2, ![n, m]⟩ : Shape).Idx) :
    (Host.reduce IntOp.addi (extui 32 mask hw) (constantI u 32 0#32) h hu j).toNat
      = (Finset.univ.filter fun q : Fin p => mask (ix3 (j 0) (j 1) q) = 1#1).card := by
  classical
  have hdrop : ∀ i : (⟨3, ![n, m, p]⟩ : Shape).Idx, h.drop i = j ↔ i 0 = j 0 ∧ i 1 = j 1 := by
    intro i
    have h0 : (h.drop i 0 : Nat) = i 0 := Shape.ReducesTo.drop_apply_val h i 0
    have h1 : (h.drop i 1 : Nat) = i 1 := Shape.ReducesTo.drop_apply_val h i 1
    constructor
    · intro e; rw [e] at h0 h1; exact ⟨Fin.ext h0.symm, Fin.ext h1.symm⟩
    · rintro ⟨e0, e1⟩
      funext b
      match b with
      | ⟨0, _⟩ => exact Fin.ext (h0.trans (congrArg Fin.val e0))
      | ⟨1, _⟩ => exact Fin.ext (h1.trans (congrArg Fin.val e1))
  have hsum : ∑ i ∈ Finset.univ.filter (fun i : (⟨3, ![n, m, p]⟩ : Shape).Idx => h.drop i = j), (extui 32 mask hw i).toNat
      = (Finset.univ.filter fun q : Fin p => mask (ix3 (j 0) (j 1) q) = 1#1).card := by
    rw [Finset.card_filter]
    refine Finset.sum_nbij' (fun i => i 2) (fun q => ix3 (j 0) (j 1) q) ?_ ?_ ?_ ?_ ?_
    · intro i _; exact Finset.mem_univ _
    · intro q _; exact Finset.mem_filter.2 ⟨Finset.mem_univ _, (hdrop _).2 ⟨rfl, rfl⟩⟩
    · intro i hi
      obtain ⟨e0, e1⟩ := (hdrop i).1 (Finset.mem_filter.1 hi).2
      rw [← e0, ← e1]; exact (eq_ix3 i).symm
    · intro q _; rfl
    · intro i hi
      obtain ⟨e0, e1⟩ := (hdrop i).1 (Finset.mem_filter.1 hi).2
      rw [extui_apply, toNat_setWidth_bit, ← e0, ← e1]
      exact congrArg (fun x => if mask x = 1#1 then 1 else 0) (eq_ix3 i)
  rw [Host.reduce_eq_fold]
  show (Finset.fold IntOp.addi 0#32 (extui 32 mask hw)
    (Finset.univ.filter fun i : (⟨3, ![n, m, p]⟩ : Shape).Idx => h.drop i = j)).toNat = _
  rw [toNat_fold_addi _ _ (by rw [hsum]; exact lt_of_le_of_lt (Finset.card_le_univ _) (by simpa using hp)), hsum]

theorem count_eq (x y : Ids) (mask : IVec S1024x200x200 1) (hw : 1 < 32)
    (h : S1024x200x200.ReducesTo [2] S1024x200) (hu : 0 < S_.numel)
    (hmask : ∀ (b : Fin 1024) (l q : Fin 200), mask (ix3 b l q) = IntOp.cmpi .eq (x (ix2 b l)) (y (ix2 b q)))
    (b : Fin 1024) (l : Fin 200) :
    Host.reduce IntOp.addi (extui 32 mask hw) (constantI S_ 32 0#32) h hu (ix2 b l)
      = BitVec.ofNat 32 (Cert.Spec.occ y b (x (ix2 b l))) := by
  have hcard : (Finset.univ.filter fun q : Fin 200 => mask (ix3 ((ix2 b l : S1024x200.Idx) 0) ((ix2 b l : S1024x200.Idx) 1) q) = 1#1).card
      = Cert.Spec.occ y b (x (ix2 b l)) := by
    unfold Cert.Spec.occ
    refine congrArg Finset.card (Finset.filter_congr fun q _ => ?_)
    constructor
    · intro hq
      exact (cmpi_eq_iff.1 ((hmask b l q).symm.trans hq)).symm
    · intro hq
      exact (hmask b l q).trans (cmpi_eq_iff.2 hq.symm)
  have hle : Cert.Spec.occ y b (x (ix2 b l)) ≤ 200 := by
    unfold Cert.Spec.occ; exact (Finset.card_le_univ _).trans (by simp)
  apply BitVec.eq_of_toNat_eq
  rw [toNat_count_last (by norm_num) mask hw h hu (ix2 b l), hcard, BitVec.toNat_ofNat]
  exact (Nat.mod_eq_of_lt (by omega)).symm

theorem concat_at0 {α : Type} (x y : S1024x200x1.Idx → α) (h : Shape.Concatenates [S1024x200x1, S1024x200x1] S1024x200x2 2)
    (b : Fin 1024) (l : Fin 200) :
    concatenate S1024x200x2 2 [⟨S1024x200x1, x⟩, ⟨S1024x200x1, y⟩] h (ix3 b l 0) = x (ix3 b l 0) :=
  concatenate_pair_apply_left 2 x y h (ix3 b l 0) rfl (ix3 b l 0)
    (fun a => match a with | ⟨0, _⟩ => rfl | ⟨1, _⟩ => rfl | ⟨2, _⟩ => rfl)

theorem concat_at1 {α : Type} (x y : S1024x200x1.Idx → α) (h : Shape.Concatenates [S1024x200x1, S1024x200x1] S1024x200x2 2)
    (b : Fin 1024) (l : Fin 200) :
    concatenate S1024x200x2 2 [⟨S1024x200x1, x⟩, ⟨S1024x200x1, y⟩] h (ix3 b l 1) = y (ix3 b l 0) :=
  concatenate_pair_apply_right 2 x y h (ix3 b l 1) rfl rfl (ix3 b l 0)
    (fun a ha => match a, ha with
      | ⟨0, _⟩, _ => rfl
      | ⟨1, _⟩, _ => rfl
      | ⟨2, _⟩, ha => absurd rfl ha)
    rfl

theorem count_ss (x0 : Ids) (b : Fin 1024) (l : Fin 200) :
    val_main_v6 (F := Ideal) x0 (ix2 b l) = BitVec.ofNat 32 (Cert.Spec.occ x0 b (x0 (ix2 b l))) := by
  unfold val_main_v6 val_main_v5 val_main_c
  refine count_eq x0 x0 (val_main_v4 (F := Ideal) x0) natLt_1_32 reducesTo_S1024x200x200_S1024x200_d2 h_S_
    (fun b l q => ?_) b l
  have e1 : idx_main_v0 (idx_main_v2 (ix3 b l q)) = ix2 b l := eq_ix2 _
  have e2 : idx_main_v1 (idx_main_v3 (ix3 b l q)) = ix2 b q := eq_ix2 _
  rw [val_main_v4_apply, val_main_v2_apply, val_main_v0_apply, val_main_v3_apply, val_main_v1_apply, e1, e2]

theorem count_sd (x0 x1 : Ids) (b : Fin 1024) (l : Fin 200) :
    val_main_v14 (F := Ideal) x0 x1 (ix2 b l) = BitVec.ofNat 32 (Cert.Spec.occ x1 b (x0 (ix2 b l))) := by
  unfold val_main_v14 val_main_v13 val_main_c_0
  refine count_eq x0 x1 (val_main_v12 (F := Ideal) x0 x1) natLt_1_32 reducesTo_S1024x200x200_S1024x200_d2 h_S_
    (fun b l q => ?_) b l
  have e1 : idx_main_v8 (idx_main_v10 (ix3 b l q)) = ix2 b l := eq_ix2 _
  have e2 : idx_main_v9 (idx_main_v11 (ix3 b l q)) = ix2 b q := eq_ix2 _
  rw [val_main_v12_apply, val_main_v10_apply, val_main_v8_apply, val_main_v11_apply, val_main_v9_apply, e1, e2]

theorem count_dd (x1 : Ids) (b : Fin 1024) (l : Fin 200) :
    val_main_v22 (F := Ideal) x1 (ix2 b l) = BitVec.ofNat 32 (Cert.Spec.occ x1 b (x1 (ix2 b l))) := by
  unfold val_main_v22 val_main_v21 val_main_c_1
  refine count_eq x1 x1 (val_main_v20 (F := Ideal) x1) natLt_1_32 reducesTo_S1024x200x200_S1024x200_d2 h_S_
    (fun b l q => ?_) b l
  have e1 : idx_main_v16 (idx_main_v18 (ix3 b l q)) = ix2 b l := eq_ix2 _
  have e2 : idx_main_v17 (idx_main_v19 (ix3 b l q)) = ix2 b q := eq_ix2 _
  rw [val_main_v20_apply, val_main_v18_apply, val_main_v16_apply, val_main_v19_apply, val_main_v17_apply, e1, e2]

theorem count_ds (x0 x1 : Ids) (b : Fin 1024) (l : Fin 200) :
    val_main_v30 (F := Ideal) x0 x1 (ix2 b l) = BitVec.ofNat 32 (Cert.Spec.occ x0 b (x1 (ix2 b l))) := by
  unfold val_main_v30 val_main_v29 val_main_c_2
  refine count_eq x1 x0 (val_main_v28 (F := Ideal) x0 x1) natLt_1_32 reducesTo_S1024x200x200_S1024x200_d2 h_S_
    (fun b l q => ?_) b l
  have e1 : idx_main_v24 (idx_main_v26 (ix3 b l q)) = ix2 b l := eq_ix2 _
  have e2 : idx_main_v25 (idx_main_v27 (ix3 b l q)) = ix2 b q := eq_ix2 _
  rw [val_main_v28_apply, val_main_v26_apply, val_main_v24_apply, val_main_v27_apply, val_main_v25_apply, e1, e2]

-- A channel of the first output whose count is that of `x0[b, l]` in `y` reads, as a real number, the frequency of `x0` in `y`.
theorem sel0 (x0 x1 y : Ids) (b : Fin 1024) (l : Fin 200) (k : Fin 2)
    (hc : val_main_v34 (F := Ideal) x0 x1 (ix3 b l k)
      = FloatOps.sitofp (F := Ideal) .f32 (BitVec.ofNat 32 (Cert.Spec.occ y b (x0 (ix2 b l))))) :
    val_main_v41 (F := Ideal) x0 x1 (ix3 b l k) = (((Cert.Spec.freq x0 y b l).toInt : ℝ) : EReal) := by
  have e40 : idx_main_v40 (idx_main_call0_v1 (ix3 b l k)) = ix2 b l := eq_ix2 _
  rw [val_main_v41_apply, val_main_call0_v1_apply, val_main_v40_apply, val_main_v39_apply, val_main_v38_apply,
    val_main_c_3_apply, val_main_call0_v2_apply, val_main_call0_v0_apply, val_main_cst_apply, e40, hc]
  unfold Cert.Spec.freq
  by_cases h0 : x0 (ix2 b l) = 0#32
  · rw [if_pos h0, cmpi_eq_iff.2 h0, select_one, Ideal.ofBits_def, Ideal.ofBits_zero_f32]
    simp
  · rw [if_neg h0, eq_zero_of_ne_one (mt cmpi_eq_iff.1 h0), select_zero]
    rfl

theorem sel1 (x0 x1 y : Ids) (b : Fin 1024) (l : Fin 200) (k : Fin 2)
    (hc : val_main_v37 (F := Ideal) x0 x1 (ix3 b l k)
      = FloatOps.sitofp (F := Ideal) .f32 (BitVec.ofNat 32 (Cert.Spec.occ y b (x1 (ix2 b l))))) :
    val_main_v45 (F := Ideal) x0 x1 (ix3 b l k) = (((Cert.Spec.freq x1 y b l).toInt : ℝ) : EReal) := by
  have e40 : idx_main_v44 (idx_main_call1_v1 (ix3 b l k)) = ix2 b l := eq_ix2 _
  rw [val_main_v45_apply, val_main_call1_v1_apply, val_main_v44_apply, val_main_v43_apply, val_main_v42_apply,
    val_main_c_4_apply, val_main_call1_v2_apply, val_main_call1_v0_apply, val_main_cst_5_apply, e40, hc]
  unfold Cert.Spec.freq
  by_cases h0 : x1 (ix2 b l) = 0#32
  · rw [if_pos h0, cmpi_eq_iff.2 h0, select_one, Ideal.ofBits_def, Ideal.ofBits_zero_f32]
    simp
  · rw [if_neg h0, eq_zero_of_ne_one (mt cmpi_eq_iff.1 h0), select_zero]
    rfl

theorem hid0 (x0 x1 : Ids) (x2 : TW1) (x3 : TB) (b : Fin 1024) (l : Fin 200) (k : Fin 2) (g : Fin 16) (n : BitVec 32)
    (hn : val_main_v41 (F := Ideal) x0 x1 (ix3 b l k) = ((n.toInt : ℝ) : EReal)) :
    val_main_v52 (F := Ideal) x0 x1 x2 x3 (ix4 b l k g) = Cert.Spec.hid x2 x3 n g := by
  have e46 : idx_main_v46 (lidx_main_v48 (ix4 b l k g) 0) = ix3 b l k := eq_ix3 _
  have e47 : idx_main_v47 (ridx_main_v48 (ix4 b l k g) 0) = ix2 g 0 := eq_ix2 _
  have e49 : idx_main_v49 (idx_main_v50 (ix4 b l k g)) = ix1 g := eq_ix1 _
  rw [val_main_v52_apply, val_main_v51_apply, val_main_v48_apply, Fin.sum_univ_one, val_main_v46_apply, val_main_v47_apply,
    val_main_v50_apply, val_main_v49_apply, val_main_call2_v0_apply, val_main_call2_cst_apply, e46, e47, e49, hn,
    Ideal.maximumf_def, Ideal.addf_def, Ideal.ofBits_def, Ideal.ofBits_zero_f32, mul_comm]
  rfl

theorem hid1 (x0 x1 : Ids) (x2 : TW1) (x3 : TB) (b : Fin 1024) (l : Fin 200) (k : Fin 2) (g : Fin 16) (n : BitVec 32)
    (hn : val_main_v45 (F := Ideal) x0 x1 (ix3 b l k) = ((n.toInt : ℝ) : EReal)) :
    val_main_v65 (F := Ideal) x0 x1 x2 x3 (ix4 b l k g) = Cert.Spec.hid x2 x3 n g := by
  have e46 : idx_main_v59 (lidx_main_v61 (ix4 b l k g) 0) = ix3 b l k := eq_ix3 _
  have e47 : idx_main_v60 (ridx_main_v61 (ix4 b l k g) 0) = ix2 g 0 := eq_ix2 _
  have e49 : idx_main_v62 (idx_main_v63 (ix4 b l k g)) = ix1 g := eq_ix1 _
  rw [val_main_v65_apply, val_main_v64_apply, val_main_v61_apply, Fin.sum_univ_one, val_main_v59_apply, val_main_v60_apply,
    val_main_v63_apply, val_main_v62_apply, val_main_call3_v0_apply, val_main_call3_cst_apply, e46, e47, e49, hn,
    Ideal.maximumf_def, Ideal.addf_def, Ideal.ofBits_def, Ideal.ofBits_zero_f32, mul_comm]
  rfl

theorem out0 (x0 x1 : Ids) (x2 : TW1) (x3 : TB) (x4 : TW2) (x5 : TB) (b : Fin 1024) (l : Fin 200) (k : Fin 2) (f : Fin 16)
    (n : BitVec 32) (hn : val_main_v41 (F := Ideal) x0 x1 (ix3 b l k) = ((n.toInt : ℝ) : EReal)) :
    val_main_v57 (F := Ideal) x0 x1 x2 x3 x4 x5 (ix4 b l k f)
      = (∑ g : Fin 16, Cert.Spec.hid x2 x3 n g * x4 (ix2 f g)) + x5 (ix1 f) := by
  have e52 : ∀ g : Fin 16, lidx_main_v54 (ix4 b l k f) g = ix4 b l k g := fun g => eq_ix4 _
  have e53 : ∀ g : Fin 16, idx_main_v53 (ridx_main_v54 (ix4 b l k f) g) = ix2 f g := fun g => eq_ix2 _
  have e55 : idx_main_v55 (idx_main_v56 (ix4 b l k f)) = ix1 f := eq_ix1 _
  rw [val_main_v57_apply, val_main_v54_apply, val_main_v56_apply, val_main_v55_apply, e55, Ideal.addf_def]
  refine congrArg (· + x5 (ix1 f)) (Finset.sum_congr rfl fun g _ => ?_)
  rw [e52, val_main_v53_apply, e53, hid0 x0 x1 x2 x3 b l k g n hn]

theorem out1 (x0 x1 : Ids) (x2 : TW1) (x3 : TB) (x4 : TW2) (x5 : TB) (b : Fin 1024) (l : Fin 200) (k : Fin 2) (f : Fin 16)
    (n : BitVec 32) (hn : val_main_v45 (F := Ideal) x0 x1 (ix3 b l k) = ((n.toInt : ℝ) : EReal)) :
    val_main_v70 (F := Ideal) x0 x1 x2 x3 x4 x5 (ix4 b l k f)
      = (∑ g : Fin 16, Cert.Spec.hid x2 x3 n g * x4 (ix2 f g)) + x5 (ix1 f) := by
  have e52 : ∀ g : Fin 16, lidx_main_v67 (ix4 b l k f) g = ix4 b l k g := fun g => eq_ix4 _
  have e53 : ∀ g : Fin 16, idx_main_v66 (ridx_main_v67 (ix4 b l k f) g) = ix2 f g := fun g => eq_ix2 _
  have e55 : idx_main_v68 (idx_main_v69 (ix4 b l k f)) = ix1 f := eq_ix1 _
  rw [val_main_v70_apply, val_main_v67_apply, val_main_v69_apply, val_main_v68_apply, e55, Ideal.addf_def]
  refine congrArg (· + x5 (ix1 f)) (Finset.sum_congr rfl fun g _ => ?_)
  rw [e52, val_main_v66_apply, e53, hid1 x0 x1 x2 x3 b l k g n hn]

theorem ref0_eq (x0 x1 : Ids) (x2 : TW1) (x3 : TB) (x4 : TW2) (x5 : TB) :
    val_main_v58 (F := Ideal) x0 x1 x2 x3 x4 x5 = Cert.Spec.GR0 x0 x1 x2 x3 x4 x5 := by
  funext i
  obtain ⟨b, l, f, rfl⟩ : ∃ (b : Fin 1024) (l : Fin 200) (f : Fin 16), i = ix3 b l f := ⟨i 0, i 1, i 2, eq_ix3 i⟩
  have e0 : idx_main_v58 (ix3 b l f) 0 = ix4 b l 0 f := eq_ix4 _
  have e1 : idx_main_v58 (ix3 b l f) 1 = ix4 b l 1 f := eq_ix4 _
  rw [val_main_v58_apply, Fin.sum_univ_two, val_main_cst_6_apply, Ideal.ofBits_def, Ideal.ofBits_zero_f32, zero_add, e0, e1,
    out0 x0 x1 x2 x3 x4 x5 b l 0 f _ (sel0 x0 x1 x0 b l 0 (by unfold val_main_v34; rw [concat_at0, val_main_v32_apply, val_main_v7_apply, (show idx_main_v32 (ix3 b l 0) = ix2 b l from eq_ix2 _), count_ss])), out0 x0 x1 x2 x3 x4 x5 b l 1 f _ (sel0 x0 x1 x1 b l 1 (by unfold val_main_v34; rw [concat_at1, val_main_v33_apply, val_main_v15_apply, (show idx_main_v33 (ix3 b l 0) = ix2 b l from eq_ix2 _), count_sd]))]
  rfl

theorem ref1_eq (x0 x1 : Ids) (x2 : TW1) (x3 : TB) (x4 : TW2) (x5 : TB) :
    val_main_v71 (F := Ideal) x0 x1 x2 x3 x4 x5 = Cert.Spec.GR1 x0 x1 x2 x3 x4 x5 := by
  funext i
  obtain ⟨b, l, f, rfl⟩ : ∃ (b : Fin 1024) (l : Fin 200) (f : Fin 16), i = ix3 b l f := ⟨i 0, i 1, i 2, eq_ix3 i⟩
  have e0 : idx_main_v71 (ix3 b l f) 0 = ix4 b l 0 f := eq_ix4 _
  have e1 : idx_main_v71 (ix3 b l f) 1 = ix4 b l 1 f := eq_ix4 _
  rw [val_main_v71_apply, Fin.sum_univ_two, val_main_cst_7_apply, Ideal.ofBits_def, Ideal.ofBits_zero_f32, zero_add, e0, e1,
    out1 x0 x1 x2 x3 x4 x5 b l 0 f _ (sel1 x0 x1 x1 b l 0 (by unfold val_main_v37; rw [concat_at0, val_main_v35_apply, val_main_v23_apply, (show idx_main_v35 (ix3 b l 0) = ix2 b l from eq_ix2 _), count_dd])), out1 x0 x1 x2 x3 x4 x5 b l 1 f _ (sel1 x0 x1 x0 b l 1 (by unfold val_main_v37; rw [concat_at1, val_main_v36_apply, val_main_v31_apply, (show idx_main_v36 (ix3 b l 0) = ix2 b l from eq_ix2 _), count_ds]))]
  rfl

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v58) = Cert.Spec.GR0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v71) = Cert.Spec.GR1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c =>
      ⟨(h c).1.trans ((val_main_v58_eq _ _ _ _ _ _).trans (ref0_eq _ _ _ _ _ _)),
        (h c).2.1.trans ((val_main_v71_eq _ _ _ _ _ _).trans (ref1_eq _ _ _ _ _ _)),
        (h c).2.2⟩)
    (Cert.ReferenceIdeal.ValueP.run (F := Ideal) m ρ)

theorem frame_ri [hP : Cert.Pre_input_domain.Facts] : Cert.frame_ReferenceIdeal := fun m ρ _ =>
  (θ_run (defs (F := Ideal)) _ _).mono (fun _ h c => (h c).2.2) (ref_run m ρ)

end Cert.ReferenceIdeal.RefValue

end
-- ==== Proof.Tc.Body.lean ====
import proofs.«212098_g24275155157491_cont_8to1_80_30_alg».proof.Proof.Gen.KernelIdeal.Skeleton
import proofs.«212098_g24275155157491_cont_8to1_80_30_alg».proof.Proof.Gen.KernelIdeal.Points
import Idealize.ShloMosaic.Lib.Tactic
import Idealize.ShloMosaic.Lib.Ring
import Idealize.ShloMosaic.Lib.ValueIdx
import Idealize.ShloMosaic.Lib.Pipeline.Value

noncomputable section

namespace Cert.KernelIdeal.Tc

open Idealize.ShloMosaic Idealize.ShloMosaic.TcCoe Idealize.ShloMosaic.ValueIdx
open Idealize.SL Idealize.SL.RA
open Idealize.SL.BI (sProp bigSep)
open scoped Idealize.SL.BI
open Idealize.SL.BI.BIBase Idealize.SL.BI.Laws Idealize.SL.Sem Idealize.SL.ProofMode
open Idealize.ShloMosaic.Tactic
open Cert.KernelIdeal Cert.KernelIdeal.Gen

variable {F : FTy → Type} [FloatOps F]

theorem slices_row (q : Fin 4) (l : Fin 200) : S4x208x512.Slices ![q.val, l.val, 0] S1x1x512 :=
  ⟨rfl, fun a => match a with
    | ⟨0, _⟩ => by show q.val + 1 ≤ 4; omega
    | ⟨1, _⟩ => by show l.val + 1 ≤ 208; omega
    | ⟨2, _⟩ => by show 0 + 512 ≤ 512; omega⟩

def hid (x2 : FVec F S4x208x512 .f32) (w1 : Vec F S16x1 .f32) (b1s : FVec F S16x1 .f32) (q : Fin 4) (l : Fin 200) : FVec F S16x512 .f32 :=
  maximumf
    (addf
      (mulf (broadcastTo S16x512 w1 broadcasts_S16x1_S16x512)
        (broadcastTo S16x512
          (shapeCast S1x512 (extractStridedSlice S1x1x512 ![q.val, l.val, 0] x2 (slices_row q l)) shapeCasts_S1x1x512_S1x512)
          broadcasts_S1x512_S16x512))
      (broadcastTo S16x512 b1s broadcasts_S16x1_S16x512))
    (broadcast S16x512 (Scalar.ofBits .f32 0x00000000#32))

section
variable (x : Vec F S4x208x512 .i32) (w1 b1 : Vec F S16x1 .f32) (w2 : Vec F S16x16 .f32) (b2 : Vec F S16x1 .f32) (qa qb : Fin 4)

def piece (l : Fin 200) : FVec F S1x16x512 .f32 :=
  shapeCast S1x16x512
    (addf
      (matmul dot_S16x16_S16x512_S16x512_1_0_0_1_n_n none w2
        (addf (hid (k1_pay2 x) w1 (k1_pay3 b1) qa l) (hid (k1_pay2 x) w1 (k1_pay3 b1) qb l))
        (constant S16x512 .f32 0x00000000#32))
      (broadcastTo S16x512 (k1_pay4 b2) broadcasts_S16x1_S16x512))
    shapeCasts_S16x512_S1x16x512

def outBlk : FVec F S200x16x512 .f32 :=
  fun j => piece x w1 b1 w2 b2 qa qb (j 0) (ix3 0 (j 1) (j 2))

theorem pay5_eq :
    k1_pay5 x w1 b1 w2 b2 = piece x w1 b1 w2 b2 0 1 0 := rfl

theorem piece_congr {l l' : Fin 200} (h : l = l') {y y' : S1x16x512.Idx} (hy : y = y') :
    piece x w1 b1 w2 b2 qa qb l y = piece x w1 b1 w2 b2 qa qb l' y' := by subst h; subst hy; rfl

theorem outBlk_emb (l : ℕ) (hl : l < 200) (inb : ∀ a, (![l, 0, 0] : Fin 3 → ℕ) a + S1x16x512.size a ≤ S200x16x512.size a)
    (w : S1x16x512.Idx → F .f32) (hw : w = piece x w1 b1 w2 b2 qa qb ⟨l, hl⟩) (y : S1x16x512.Idx) :
    w y = outBlk x w1 b1 w2 b2 qa qb ((Rect.unit (s := S200x16x512) ![l, 0, 0] S1x16x512.size inb).emb y) := by
  subst hw
  have h0 : (y 0).val = 0 := by have h : (y 0).val < 1 := (y 0).isLt; omega
  refine piece_congr x w1 b1 w2 b2 qa qb (Fin.ext ?_) (funext fun a => ?_)
  · show l = l + 1 * (y 0).val
    omega
  · match a with
    | ⟨0, _⟩ => exact Fin.ext (by show (y 0).val = 0; exact h0)
    | ⟨1, _⟩ => exact Fin.ext (by show (y 1).val = 0 + 1 * (y 1).val; omega)
    | ⟨2, _⟩ => exact Fin.ext (by show (y 2).val = 0 + 1 * (y 2).val; omega)

theorem inb_row (l : ℕ) (hl : l < 200) : ∀ a, (![l, 0, 0] : Fin 3 → ℕ) a + S1x16x512.size a ≤ S200x16x512.size a :=
  fun a => match a with
    | ⟨0, _⟩ => by show l + 1 ≤ 200; omega
    | ⟨1, _⟩ => by show 0 + 16 ≤ 16; omega
    | ⟨2, _⟩ => by show 0 + 512 ≤ 512; omega

def slabs :
    ℕ → List (View.Piece (Elt F) S200x16x512 .f32)
  | 0 => []
  | n + 1 =>
    if h : n < 200 then ⟨Rect.unit ![n, 0, 0] S1x16x512.size (inb_row n h), piece x w1 b1 w2 b2 qa qb ⟨n, h⟩⟩ :: slabs n
    else slabs n

theorem slabs_ok :
    ∀ n, ∀ p ∈ slabs x w1 b1 w2 b2 qa qb n, ∀ y : p.1.shape.Idx, p.2 y = outBlk x w1 b1 w2 b2 qa qb (p.1.emb y)
  | 0 => fun p hp => absurd hp List.not_mem_nil
  | n + 1 => fun p hp => by
    unfold slabs at hp
    split at hp
    · rename_i h
      rcases List.mem_cons.mp hp with rfl | hp'
      · exact fun y => outBlk_emb x w1 b1 w2 b2 qa qb n h (inb_row n h) _ rfl y
      · exact slabs_ok n p hp'
    · exact slabs_ok n p hp

end

theorem read_writes_slabs {κ : Kind} {sp : Space} (v : View sig κ sp S200x16x512 .f32) (g : v.ty.Contents (Elt F))
    (L : List (View.Piece (Elt F) S200x16x512 .f32))
    (x : Vec F S4x208x512 .i32) (w1 b1 : Vec F S16x1 .f32) (w2 : Vec F S16x16 .f32) (b2 : Vec F S16x1 .f32) (qa qb : Fin 4)
    (hL : L = slabs x w1 b1 w2 b2 qa qb 200) :
    v.read (Elt F) (v.writes (Elt F) g L) = outBlk x w1 b1 w2 b2 qa qb := by
  subst hL
  have hc : ∀ y : S200x16x512.Idx, ∃ p ∈ slabs x w1 b1 w2 b2 qa qb 200, y ∈ p.1.set :=
    View.cover_of_tiledL (slabs x w1 b1 w2 b2 qa qb 200) S1x16x512.size (by sl_kernel_rfl)
  rw [View.read_writes_eq_canon v g _ hc]
  funext y
  exact View.canon_apply_of_pieces (outBlk x w1 b1 w2 b2 qa qb) _ (slabs_ok x w1 b1 w2 b2 qa qb 200) y (hc y)

variable {Ix : Type} [DecidableEq Ix] {Name : Type} [DecidableEq Name] {U : Type} [URA U] {Lvl : Type} [Preorder Lvl]

local notation "𝕄" => MT nD τ sig Ix (Elt F) Name U Lvl

theorem body_run (c : Dev nD) (i : grid1.Coords) (arg1 : Memref sig .tc .vmem S4x208x512 .i32) (harg1 : arg1.IsWhole) (arg2 : Memref sig .tc .vmem S16x1 .f32) (harg2 : arg2.IsWhole) (arg3 : Memref sig .tc .vmem S16x1 .f32) (harg3 : arg3.IsWhole) (arg4 : Memref sig .tc .vmem S16x16 .f32) (harg4 : arg4.IsWhole) (arg5 : Memref sig .tc .vmem S16x1 .f32) (harg5 : arg5.IsWhole) (arg6 : Memref sig .tc .vmem S200x16x512 .f32) (harg6 : arg6.IsWhole) (arg7 : Memref sig .tc .vmem S200x16x512 .f32) (harg7 : arg7.IsWhole)
    (x : Vec F S4x208x512 .i32) (w1 b1 : Vec F S16x1 .f32) (w2 : Vec F S16x16 .f32) (b2 : Vec F S16x1 .f32)
    (y6 y7 : Vec F S200x16x512 .f32) :
    (iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2
        ∗ owns (c : Thread nD τ) arg6 fullShare y6 ∗ owns (c : Thread nD τ) arg7 fullShare y7) : sProp 𝕄)
      ⊢ wp frame (wpE (defs₀ (F := F)) Variants.none (c : Thread nD τ) none) Set.univ (cc1__mlp_tc_kernel (F := F) i arg1 harg1 arg2 harg2 arg3 harg3 arg4 harg4 arg5 harg5 arg6 harg6 arg7 harg7)
          (fun _ => iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (outBlk x w1 b1 w2 b2 0 1) ∗ owns (c : Thread nD τ) arg7 fullShare (outBlk x w1 b1 w2 b2 2 3))) := by
  unfold owns
  iintro ⟨⟨%g1, %h1, H1⟩, ⟨%g2, %h2, H2⟩, ⟨%g3, %h3, H3⟩, ⟨%g4, %h4, H4⟩, ⟨%g5, %h5, H5⟩, ⟨%g6, %h6, H6⟩, ⟨%g7, %h7, H7⟩⟩
  have e1 : (View.readAt (Elt F) arg1.view (Rect.unit ![0, 0, 0] S4x208x512.size inb_S4x208x512_S4x208x512_0_0_0).toLoadRect g1) = x :=
    (View.readAt_eq_ld _ _ _).trans ((View.ld_unit_zero (funext fun a => match a with | ⟨0, _⟩ => rfl | ⟨1, _⟩ => rfl | ⟨2, _⟩ => rfl) _ _).trans h1)
  have z : (![0, 0] : Fin 2 → ℕ) = fun _ => 0 := funext fun a => match a with | ⟨0, _⟩ => rfl | ⟨1, _⟩ => rfl
  have e2 : (View.readAt (Elt F) arg2.view (Rect.unit ![0, 0] S16x1.size inb_S16x1_S16x1_0_0).toLoadRect g2) = w1 :=
    (View.readAt_eq_ld _ _ _).trans ((View.ld_unit_zero z _ _).trans h2)
  have e3 : (View.readAt (Elt F) arg3.view (Rect.unit ![0, 0] S16x1.size inb_S16x1_S16x1_0_0).toLoadRect g3) = b1 :=
    (View.readAt_eq_ld _ _ _).trans ((View.ld_unit_zero z _ _).trans h3)
  have e4 : (View.readAt (Elt F) arg4.view (Rect.unit ![0, 0] S16x16.size inb_S16x16_S16x16_0_0).toLoadRect g4) = w2 :=
    (View.readAt_eq_ld _ _ _).trans ((View.ld_unit_zero z _ _).trans h4)
  have e5 : (View.readAt (Elt F) arg5.view (Rect.unit ![0, 0] S16x1.size inb_S16x1_S16x1_0_0).toLoadRect g5) = b2 :=
    (View.readAt_eq_ld _ _ _).trans ((View.ld_unit_zero z _ _).trans h5)
  rw [cc1__mlp_tc_kernel_eq_skeleton]
  unfold cc1__mlp_tc_kernel_skel
  sl_exec_parts
  sl_step
  isplitl [H1]
  · iexists g1; isplitr
    · ipureintro; exact h1
    · iexact H1
  isplitl [H2]
  · iexists g2; isplitr
    · ipureintro; exact h2
    · iexact H2
  isplitl [H3]
  · iexists g3; isplitr
    · ipureintro; exact h3
    · iexact H3
  isplitl [H4]
  · iexists g4; isplitr
    · ipureintro; exact h4
    · iexact H4
  isplitl [H5]
  · iexists g5; isplitr
    · ipureintro; exact h5
    · iexact H5
  isplitl [H6]
  · iexists _; isplitr
    rotate_left
    · iexact H6
    · ipureintro
      refine read_writes_slabs _ _ _ x w1 b1 w2 b2 0 1 ?_
      sl_kernel_rfl
  · iexists _; isplitr
    rotate_left
    · iexact H7
    · ipureintro
      refine read_writes_slabs _ _ _ x w1 b1 w2 b2 2 3 ?_
      sl_kernel_rfl

end Cert.KernelIdeal.Tc

end
-- ==== Proof.Tc.Out.lean ====
import proofs.«212098_g24275155157491_cont_8to1_80_30_alg».proof.Proof.Tc.Body

noncomputable section

namespace Cert.KernelIdeal.Tc

open Idealize.ShloMosaic Idealize.ShloMosaic.ValueIdx
open Cert.KernelIdeal Cert.KernelIdeal.Gen

variable {F : FTy → Type} [FloatOps F]

def blk (x5 : Vec F S4x208x1024 .i32) (t : Fin 2) : Vec F S4x208x512 .i32 :=
  fun y => x5 (ix3 (y 0) (y 1) ⟨512 * t.val + (y 2).val, by have h : (y 2).val < 512 := (y 2).isLt; omega⟩)

def tcOut (qa qb : Fin 4) (x5 : Vec F S4x208x1024 .i32) (w1 b1 : Vec F S16x1 .f32) (w2 : Vec F S16x16 .f32) (b2 : Vec F S16x1 .f32) :
    FVec F S200x16x1024 .f32 :=
  fun j => piece (blk x5 ⟨(j 2).val / 512, by have h : (j 2).val < 1024 := (j 2).isLt; omega⟩) w1 b1 w2 b2 qa qb (j 0)
    (ix3 0 (j 1) ⟨(j 2).val % 512, Nat.mod_lt _ (by decide)⟩)

theorem tcOut_apply (qa qb : Fin 4) (x5 : Vec F S4x208x1024 .i32) (w1 b1 : Vec F S16x1 .f32) (w2 : Vec F S16x16 .f32) (b2 : Vec F S16x1 .f32)
    (t : Fin 2) (l : Fin 200) (p : Fin 16) (i : Fin 512) :
    tcOut qa qb x5 w1 b1 w2 b2 (ix3 l p ⟨512 * t.val + i.val, by omega⟩)
      = piece (blk x5 t) w1 b1 w2 b2 qa qb l (ix3 0 p i) := by
  have e1 : (⟨(512 * t.val + i.val) / 512, by omega⟩ : Fin 2) = t := Fin.ext (show _ / 512 = _ by omega)
  have e2 : (⟨(512 * t.val + i.val) % 512, Nat.mod_lt _ (by decide)⟩ : Fin 512) = i := Fin.ext (show _ % 512 = _ by omega)
  show piece (blk x5 ⟨(512 * t.val + i.val) / 512, _⟩) w1 b1 w2 b2 qa qb l (ix3 0 p ⟨(512 * t.val + i.val) % 512, _⟩) = _
  rw [e1, e2]

end Cert.KernelIdeal.Tc

end
-- ==== Proof.TcPiece.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Mathlib.Data.EReal.Basic
import proofs.«212098_g24275155157491_cont_8to1_80_30_alg».proof.Proof.Spec
import proofs.«212098_g24275155157491_cont_8to1_80_30_alg».proof.Proof.Algebra

noncomputable section

open scoped BigOperators

namespace Cert.TcValue

open Idealize.ShloMosaic Idealize.ShloMosaic.ValueIdx
open Cert.Spec

abbrev SC4 : Shape := ⟨3, ![1024, 4, 208]⟩
abbrev SCt : Shape := ⟨3, ![4, 208, 1024]⟩
abbrev SBlk : Shape := ⟨3, ![4, 208, 512]⟩
abbrev SRow3 : Shape := ⟨3, ![1, 1, 512]⟩
abbrev SRow : Shape := ⟨2, ![1, 512]⟩
abbrev SH : Shape := ⟨2, ![16, 512]⟩
abbrev SPiece : Shape := ⟨3, ![1, 16, 512]⟩
abbrev SOutT : Shape := ⟨3, ![200, 16, 1024]⟩

theorem slices_row {q l : ℕ} (hq : q < 4) (hl : l < 208) : SBlk.Slices ![q, l, 0] SRow3 :=
  ⟨rfl, fun a => match a with
    | ⟨0, _⟩ => (by show q + 1 ≤ 4; omega)
    | ⟨1, _⟩ => (by show l + 1 ≤ 208; omega)
    | ⟨2, _⟩ => (by show 0 + 512 ≤ 512; omega)⟩

def ctF (x : IVec SBlk 32) : FVec Ideal SBlk .f32 := sitofp .f32 (shapeCast SBlk x (by decide))

def row (x : FVec Ideal SBlk .f32) (q l : ℕ) (hq : q < 4) (hl : l < 208) : FVec Ideal SRow .f32 :=
  shapeCast SRow (extractStridedSlice SRow3 ![q, l, 0] x (slices_row hq hl)) (by decide)

def hidden (w1 b1c : FVec Ideal SW1 .f32) (r : FVec Ideal SRow .f32) : FVec Ideal SH .f32 :=
  maximumf (addf (mulf (broadcastTo SH w1 (by decide)) (broadcastTo SH r (by decide))) (broadcastTo SH b1c (by decide)))
    (broadcast SH (Scalar.ofBits .f32 0x00000000#32 : Ideal .f32))

def twice (b : FVec Ideal SW1 .f32) : FVec Ideal SW1 .f32 :=
  mulf (broadcast SW1 (Scalar.ofBits .f32 0x40000000#32 : Ideal .f32)) b

def piece (d : DotDims SW2 SH SH) (w1 b1c : FVec Ideal SW1 .f32) (w2 : FVec Ideal SW2 .f32) (b2t : FVec Ideal SW1 .f32)
    (ra rb : FVec Ideal SRow .f32) : FVec Ideal SPiece .f32 :=
  shapeCast SPiece
    (addf (matmul d none w2 (addf (hidden w1 b1c ra) (hidden w1 b1c rb)) (constant (F := Ideal) SH .f32 0x00000000#32))
      (broadcastTo SH b2t (by decide))) (by decide)

def pieceAt (d : DotDims SW2 SH SH) (x : IVec SBlk 32) (w1 b1c : Vec Ideal SW1 .f32) (w2 : Vec Ideal SW2 .f32)
    (b2c : Vec Ideal SW1 .f32) (qa qb l : ℕ) (hqa : qa < 4) (hqb : qb < 4) (hl : l < 208) : FVec Ideal SPiece .f32 :=
  piece d w1 (shapeCast SW1 b1c (by decide)) w2 (twice (shapeCast SW1 b2c (by decide))) (row (ctF x) qa l hqa hl) (row (ctF x) qb l hqb hl)

theorem ctF_apply (x : IVec SBlk 32) (j : SBlk.Idx) : ctF x j = (((x j).toInt : ℝ) : EReal) := by
  unfold ctF
  rw [shapeCast_self]
  rfl

theorem row_apply (x : FVec Ideal SBlk .f32) {q l : ℕ} (hq : q < 4) (hl : l < 208) (u : Fin 1) (i : Fin 512) :
    row x q l hq hl (ix2 u i) = x (ix3 ⟨q, hq⟩ ⟨l, hl⟩ i) := by
  unfold row
  refine (shapeCast_apply _ _ (ix2 u i) (ix3 (0 : Fin 1) (0 : Fin 1) i) ?_).trans ?_
  · rw [Shape.rowMajor_val_three, Shape.rowMajor_val_two]
    show (0 * 1 + 0) * 512 + i.val = u.val * 512 + i.val
    have := u.isLt
    omega
  · refine extractStridedSlice_apply _ x _ _ _ fun a => ?_
    match a with
    | ⟨0, _⟩ => show q = q + 0; rfl
    | ⟨1, _⟩ => show l = l + 0; rfl
    | ⟨2, _⟩ => show i.val = 0 + i.val; omega

theorem col_apply {α : Type} (v : SW1.Idx → α) (h : SW1.Broadcasts SH) (g : Fin 16) (i : Fin 512) :
    broadcastTo SH v h (ix2 g i) = v (ix2 g (0 : Fin 1)) := by
  refine broadcastTo_apply v h (ix2 g i) (ix2 g (0 : Fin 1)) fun ax => ?_
  match ax with
  | ⟨0, _⟩ => rfl
  | ⟨1, _⟩ => rfl

theorem hidden_apply (w1 b1c : FVec Ideal SW1 .f32) (r : FVec Ideal SRow .f32) (g : Fin 16) (i : Fin 512) :
    hidden w1 b1c r (ix2 g i) = max (w1 (ix2 g 0) * r (ix2 0 i) + b1c (ix2 g 0)) 0 := by
  unfold hidden
  rw [maximumf_apply, addf_apply, mulf_apply, broadcast_apply, col_apply, col_apply, broadcastTo_1b_ab_apply]
  show max _ (Ideal.ofBits .f32 0x00000000#32) = _
  rw [Ideal.ofBits_zero_f32]

theorem ofBits_two : Ideal.ofBits .f32 0x40000000#32 = (2 : EReal) := by
  simp [Ideal.ofBits, Ideal.ieee, -EReal.coe_mul]
  norm_num
  rfl

theorem twice_apply (b : FVec Ideal SW1 .f32) (j : SW1.Idx) : twice b j = 2 * b j := by
  unfold twice
  rw [mulf_apply, broadcast_apply]
  show Ideal.ofBits .f32 0x40000000#32 * b j = _
  rw [ofBits_two]

theorem matmul_plain_apply (d : DotDims SW2 SH SH) (hd : d = DotDims.plain 16 16 512) (A : FVec Ideal SW2 .f32)
    (B : FVec Ideal SH .f32) (p : Fin 16) (i : Fin 512) :
    matmul d none A B (constant (F := Ideal) SH .f32 0x00000000#32) (ix2 p i) = ∑ g : Fin 16, A (ix2 p g) * B (ix2 g i) := by
  subst hd
  rw [matmul_zero_eq_dotGeneral]
  exact StackMember.dotGeneral_plain_apply none A B p i

theorem pieceAt_apply (d : DotDims SW2 SH SH) (hd : d = DotDims.plain 16 16 512) (x : IVec SBlk 32)
    (w1 b1c : Vec Ideal SW1 .f32) (w2 : Vec Ideal SW2 .f32) (b2c : Vec Ideal SW1 .f32) {qa qb l : ℕ}
    (hqa : qa < 4) (hqb : qb < 4) (hl : l < 208) (u : Fin 1) (p : Fin 16) (i : Fin 512) :
    pieceAt d x w1 b1c w2 b2c qa qb l hqa hqb hl (ix3 u p i)
      = (∑ g : Fin 16, w2 (ix2 p g) *
          (max (w1 (ix2 g 0) * (((x (ix3 ⟨qa, hqa⟩ ⟨l, hl⟩ i)).toInt : ℝ) : EReal) + b1c (ix2 g 0)) 0
            + max (w1 (ix2 g 0) * (((x (ix3 ⟨qb, hqb⟩ ⟨l, hl⟩ i)).toInt : ℝ) : EReal) + b1c (ix2 g 0)) 0))
        + 2 * b2c (ix2 p 0) := by
  unfold pieceAt piece
  rw [shapeCast_ab_1ab_apply, addf_apply, matmul_plain_apply d hd, col_apply, twice_apply, shapeCast_self, shapeCast_self]
  refine congrArg (· + 2 * b2c (ix2 p 0)) (Finset.sum_congr rfl fun g _ => ?_)
  rw [addf_apply, hidden_apply, hidden_apply, row_apply, row_apply, ctF_apply, ctF_apply]

def inBlk (x5 : IVec SCt 32) (t : Fin 2) : IVec SBlk 32 := fun y =>
  x5 (ix3 (y 0) (y 1) ⟨512 * t.val + (y 2).val, by
    have h2 : (y 2).val < 512 := (y 2).isLt
    have := t.isLt
    omega⟩)

theorem column_apply (b : Vec Ideal SB .f32) (h : SB.ShapeCasts SW1) (g : Fin 16) (z : Fin 1) :
    shapeCast SW1 b h (ix2 g z) = b (ix1 g) := by
  refine shapeCast_apply b h _ _ ?_
  rw [Shape.rowMajor_val_one, Shape.rowMajor_val_two]
  show g.val = g.val * 1 + z.val
  have := z.isLt
  omega

theorem counts_val (x y : IVec SPad 32) (c : Fin 1024) (n : ℕ) (hn : n < 832) :
    counts x y (ix2 c ⟨n, hn⟩) = if h0 : n < 208 then freqP x x c ⟨n, h0⟩ else if h1 : n < 416 then freqP x y c ⟨n - 208, by omega⟩
      else if h2 : n < 624 then freqP y y c ⟨n - 416, by omega⟩ else freqP y x c ⟨n - 624, by omega⟩ := rfl

theorem freqP_at (x y : IVec SIds 32) (hx : ∀ j, (x j).toNat ≤ 99999) (hy : ∀ j, (y j).toNat ≤ 99999) (c : Fin 1024)
    (l : Fin 200) (n : ℕ) (hn : n < 208) (e : n = l.val) : freqP (padded x) (padded y) c ⟨n, hn⟩ = freq x y c l := by
  subst e; exact freqP_padded x y hx hy c l

-- Each slot of the side-by-side array over the padded lists carries, below position 200, a frequency over the lists.
theorem counts_slots (a0 a1 : IVec SIds 32) (ha0 : ∀ j, (a0 j).toNat ≤ 99999) (ha1 : ∀ j, (a1 j).toNat ≤ 99999)
    (c : Fin 1024) (l : Fin 200) (n : ℕ) (hn : n < 832) :
    (n = 208 * 0 + l.val → counts (padded a0) (padded a1) (ix2 c ⟨n, hn⟩) = freq a0 a0 c l)
    ∧ (n = 208 * 1 + l.val → counts (padded a0) (padded a1) (ix2 c ⟨n, hn⟩) = freq a0 a1 c l)
    ∧ (n = 208 * 2 + l.val → counts (padded a0) (padded a1) (ix2 c ⟨n, hn⟩) = freq a1 a1 c l)
    ∧ (n = 208 * 3 + l.val → counts (padded a0) (padded a1) (ix2 c ⟨n, hn⟩) = freq a1 a0 c l) := by
  have hl := l.isLt
  refine ⟨fun e => ?_, fun e => ?_, fun e => ?_, fun e => ?_⟩ <;> subst e <;> rw [counts_val]
  · rw [dif_pos (show 208 * 0 + l.val < 208 by omega)]
    exact freqP_at a0 a0 ha0 ha0 c l _ _ (by omega)
  · rw [dif_neg (show ¬ 208 * 1 + l.val < 208 by omega), dif_pos (show 208 * 1 + l.val < 416 by omega)]
    exact freqP_at a0 a1 ha0 ha1 c l _ _ (by omega)
  · rw [dif_neg (show ¬ 208 * 2 + l.val < 208 by omega), dif_neg (show ¬ 208 * 2 + l.val < 416 by omega),
      dif_pos (show 208 * 2 + l.val < 624 by omega)]
    exact freqP_at a1 a1 ha1 ha1 c l _ _ (by omega)
  · rw [dif_neg (show ¬ 208 * 3 + l.val < 208 by omega), dif_neg (show ¬ 208 * 3 + l.val < 416 by omega),
      dif_neg (show ¬ 208 * 3 + l.val < 624 by omega)]
    exact freqP_at a1 a0 ha1 ha0 c l _ _ (by omega)

theorem inBlk_regroup (v3 : IVec SCnt 32) (h4 : SCnt.ShapeCasts SC4) (h5 : SC4.Transposes [1, 2, 0] SCt)
    (t : Fin 2) (q : Fin 4) (l : Fin 208) (i : Fin 512) :
    inBlk (transpose SCt [1, 2, 0] (shapeCast SC4 v3 h4) h5) t (ix3 q l i)
      = v3 (ix2 ⟨512 * t.val + i.val, by have := t.isLt; have := i.isLt; omega⟩
          ⟨208 * q.val + l.val, by have := q.isLt; have := l.isLt; omega⟩) := by
  refine (transpose_apply [1, 2, 0] _ h5 (ix3 q l ⟨512 * t.val + i.val, by have := t.isLt; have := i.isLt; omega⟩) (ix3 ⟨512 * t.val + i.val, by have := t.isLt; have := i.isLt; omega⟩ q l) fun b => ?_).trans ?_
  · match b with
    | ⟨0, _⟩ => rfl
    | ⟨1, _⟩ => rfl
    | ⟨2, _⟩ => rfl
  · refine shapeCast_apply v3 h4 _ _ ?_
    rw [Shape.rowMajor_val_two, Shape.rowMajor_val_three]
    show (512 * t.val + i.val) * 832 + (208 * q.val + l.val) = ((512 * t.val + i.val) * 4 + q.val) * 208 + l.val
    omega

theorem split_batch (c : Fin 1024) :
    ∃ (t : Fin 2) (i : Fin 512), c = ⟨512 * t.val + i.val, by have := t.isLt; have := i.isLt; omega⟩ :=
  ⟨⟨c.val / 512, by have := c.isLt; omega⟩, ⟨c.val % 512, Nat.mod_lt _ (by decide)⟩, Fin.ext (by
    show c.val = 512 * (c.val / 512) + c.val % 512
    omega)⟩

-- An output array that holds, at (l, p, 512 t + i), the piece of slots `qa`, `qb` is, batch axis first, the kernel's arrangement at the two frequencies those slots carry.
theorem out_eq_outK (a0 a1 : IVec SIds 32) (W1 : Vec Ideal SW1 .f32) (b1 : Vec Ideal SB .f32) (W2 : Vec Ideal SW2 .f32)
    (b2 : Vec Ideal SB .f32) (d : DotDims SW2 SH SH) (hd : d = DotDims.plain 16 16 512)
    (h4 : SCnt.ShapeCasts SC4) (h5 : SC4.Transposes [1, 2, 0] SCt) (h6 : SB.ShapeCasts SW1)
    (h9 : SOutT.Transposes [2, 0, 1] SOut) (o : FVec Ideal SOutT .f32) {qa qb : ℕ} (hqa : qa < 4) (hqb : qb < 4)
    (fa fb : Fin 1024 → Fin 200 → BitVec 32)
    (hfa : ∀ c l hn, counts (padded a0) (padded a1) (ix2 c ⟨208 * qa + l.val, hn⟩) = fa c l)
    (hfb : ∀ c l hn, counts (padded a0) (padded a1) (ix2 c ⟨208 * qb + l.val, hn⟩) = fb c l)
    (H : ∀ (t : Fin 2) (l : Fin 200) (p : Fin 16) (i : Fin 512),
      o (ix3 l p ⟨512 * t.val + i.val, by have := t.isLt; have := i.isLt; omega⟩)
        = pieceAt d (inBlk (transpose SCt [1, 2, 0] (shapeCast SC4 (counts (padded a0) (padded a1)) h4) h5) t)
            W1 (shapeCast SW1 b1 h6) W2 (shapeCast SW1 b2 h6) qa qb l.val hqa hqb (by have := l.isLt; omega) (ix3 0 p i)) :
    transpose SOut [2, 0, 1] o h9 = fun j => outK W1 b1 W2 b2 (fa (j 0) (j 1)) (fb (j 0) (j 1)) (j 2) := by
  funext j
  obtain ⟨c, l, p, rfl⟩ : ∃ (c : Fin 1024) (l : Fin 200) (p : Fin 16), j = ix3 c l p := ⟨j 0, j 1, j 2, eq_ix3 j⟩
  obtain ⟨t, i, rfl⟩ := split_batch c
  rw [transpose_apply [2, 0, 1] o h9 _ (ix3 l p ⟨512 * t.val + i.val, by have := t.isLt; have := i.isLt; omega⟩)
    (fun b => match b with | ⟨0, _⟩ => rfl | ⟨1, _⟩ => rfl | ⟨2, _⟩ => rfl), H t l p i]
  rw [pieceAt_apply d hd, inBlk_regroup _ h4 h5 t ⟨qa, hqa⟩ ⟨l.val, by have := l.isLt; omega⟩ i,
    inBlk_regroup _ h4 h5 t ⟨qb, hqb⟩ ⟨l.val, by have := l.isLt; omega⟩ i, column_apply b2 h6 p 0, hfa, hfb]
  unfold outK hid
  refine congrArg (· + 2 * b2 (ix1 p)) (Finset.sum_congr rfl fun g _ => ?_)
  rw [column_apply b1 h6 g 0]

end Cert.TcValue

end
-- ==== Proof.TcValue.lean ====
import proofs.«212098_g24275155157491_cont_8to1_80_30_alg».proof.Proof.Tc.Out
import proofs.«212098_g24275155157491_cont_8to1_80_30_alg».proof.Proof.TcPiece

noncomputable section

namespace Cert.TcValue

open Idealize.ShloMosaic Idealize.ShloMosaic.ValueIdx Cert.Spec
open Cert.KernelIdeal Cert.KernelIdeal.Gen

-- The output array of slots `qa`, `qb` over the regrouped frequencies of the padded lists is, batch axis first, the kernel's arrangement at the two frequencies those slots carry.
theorem tcOut_eq (a0 a1 : IVec SIds 32) (W1 : Vec Ideal SW1 .f32) (b1 : Vec Ideal SB .f32) (W2 : Vec Ideal SW2 .f32)
    (b2 : Vec Ideal SB .f32) (h4 : SCnt.ShapeCasts SC4) (h5 : SC4.Transposes [1, 2, 0] SCt) (h6 : SB.ShapeCasts SW1)
    (h9 : SOutT.Transposes [2, 0, 1] SOut) (qa qb : Fin 4) (fa fb : Fin 1024 → Fin 200 → BitVec 32)
    (hfa : ∀ c l hn, counts (padded a0) (padded a1) (ix2 c ⟨208 * qa.val + l.val, hn⟩) = fa c l)
    (hfb : ∀ c l hn, counts (padded a0) (padded a1) (ix2 c ⟨208 * qb.val + l.val, hn⟩) = fb c l) :
    transpose SOut [2, 0, 1]
        (Tc.tcOut (F := Ideal) qa qb (transpose SCt [1, 2, 0] (shapeCast SC4 (counts (padded a0) (padded a1)) h4) h5)
          W1 (shapeCast SW1 b1 h6) W2 (shapeCast SW1 b2 h6)) h9
      = fun j => outK W1 b1 W2 b2 (fa (j 0) (j 1)) (fb (j 0) (j 1)) (j 2) :=
  out_eq_outK a0 a1 W1 b1 W2 b2 _ rfl h4 h5 h6 h9 _ qa.isLt qb.isLt fa fb hfa hfb
    (Tc.tcOut_apply (F := Ideal) qa qb _ W1 (shapeCast SW1 b1 h6) W2 (shapeCast SW1 b2 h6))

end Cert.TcValue

end
-- ==== Proof.Sc.Common.lean ====
import proofs.«212098_g24275155157491_cont_8to1_80_30_alg».proof.Proof.Spec
import proofs.«212098_g24275155157491_cont_8to1_80_30_alg».proof.Proof.Gen.KernelIdeal
import Idealize.ShloMosaic.Lib.SparseCore.Launch
import Idealize.ShloMosaic.Lib.SparseCore.Ops
import Idealize.ShloMosaic.Lib.Pipeline.Kit
import Idealize.ShloMosaic.Lib.Transfers
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb

instance ER_landsIn : (ER : Emb UR 𝕄).LandsIn (upEmb : UEmb _ 𝕄) := by unfold ER; infer_instance

variable (m : (ℓ : Loc nD τ sig) → Buf (Elt F) ℓ)

abbrev a0Loc (d : Dev nD) : Loc nD τ sig := (SparseCore.T d).loc main_arg0
abbrev a1Loc (d : Dev nD) : Loc nD τ sig := (SparseCore.T d).loc main_arg1
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

def pad0 (d : Dev nD) : Buf (Elt F) (v1Loc d) := Cert.Spec.padded (m (a0Loc d))
def pad1 (d : Dev nD) : Buf (Elt F) (v2Loc d) := Cert.Spec.padded (m (a1Loc d))
def cnts (d : Dev nD) : Buf (Elt F) (v3Loc d) := Cert.Spec.counts (pad0 m d) (pad1 m d)

def PreOK : Prop := ∀ d : Dev nD, (∀ j, (m (a0Loc d) j).toNat ≤ 99999) ∧ (∀ j, (m (a1Loc d) j).toNat ≤ 99999)

theorem hdivP : 1024 ∣ S1024x208.size 0 := ⟨1, rfl⟩
theorem hdivC : 1024 ∣ S1024x832.size 0 := ⟨1, rfl⟩
abbrev rowP (j : Fin 1024) : Rect S1024x208 := Rect.part (s := S1024x208) (a₀ := 0) hdivP j
abbrev rowC (j : Fin 1024) : Rect S1024x832 := Rect.part (s := S1024x832) (a₀ := 0) hdivC j
abbrev rowSetP (j : Fin 1024) : Finset S1024x208.Idx := (rowP j).set
abbrev rowSetC (j : Fin 1024) : Finset S1024x832.Idx := (rowC j).set
def rowIx (c : Fin 2) (s : Fin 16) (r : Fin 32) : Fin 1024 := ⟨64 * s.val + 32 * c.val + r.val, by omega⟩

variable [FloatOps F]

abbrev v1Row (d : Dev nD) (j : Fin 1024) : sProp 𝕄 := v1Loc d ↦[rowSetP j]{fullShare} pad0 m d
abbrev v2Row (d : Dev nD) (j : Fin 1024) : sProp 𝕄 := v2Loc d ↦[rowSetP j]{fullShare} pad1 m d
abbrev v3Row (d : Dev nD) (j : Fin 1024) (f : Buf (Elt F) (v3Loc d)) : sProp 𝕄 := v3Loc d ↦[rowSetC j]{fullShare} f

def tileIn (d : Dev nD) (c : Fin 2) (s : Fin 16) : sProp 𝕄 :=
  iprop((bigSep Finset.univ fun r : Fin 32 => v1Row m d (rowIx c s r)) ∗ (bigSep Finset.univ fun r : Fin 32 => v2Row m d (rowIx c s r))
    ∗ bigSep Finset.univ fun r : Fin 32 => iprop(∃ f, v3Row d (rowIx c s r) f))
def tileOut (d : Dev nD) (c : Fin 2) (s : Fin 16) : sProp 𝕄 :=
  iprop((bigSep Finset.univ fun r : Fin 32 => v1Row m d (rowIx c s r)) ∗ (bigSep Finset.univ fun r : Fin 32 => v2Row m d (rowIx c s r))
    ∗ bigSep Finset.univ fun r : Fin 32 => v3Row d (rowIx c s r) (cnts m d))

instance tileIn_storable (d : Dev nD) (c : Fin 2) (s : Fin 16) : BI.Storable (upEmb : UEmb _ 𝕄) (tileIn m d c s) := by
  unfold tileIn; infer_instance
instance tileOut_storable (d : Dev nD) (c : Fin 2) (s : Fin 16) : BI.Storable (upEmb : UEmb _ 𝕄) (tileOut m d c s) := by
  unfold tileOut; infer_instance

def P : (K (F := F)).Pay (nD := nD) (Val := Elt F) (Name := ℕ) (U := UU) where
  st := fun q d c => match q with | 0 => bigSep Finset.univ fun s : Fin 16 => tileIn m d (Fin.cast nCore_zero c) s
  dn := fun q d c => match q with | 0 => bigSep Finset.univ fun s : Fin 16 => tileOut m d (Fin.cast nCore_zero c) s
  go := fun q d c i => match q with | 0 => tileIn m d (Fin.cast nCore_zero c) (Fin.cast nSub_zero i)
  td := fun q d c i => match q with | 0 => tileOut m d (Fin.cast nCore_zero c) (Fin.cast nSub_zero i)
  x := fun _ _ => iprop(emp)

set_option maxHeartbeats 4000000 in
instance P_storable : (P (F := F) m).IsStorable where
  st q d c := match q with
    | 0 => (inferInstance : BI.Storable (upEmb : UEmb _ 𝕄) (bigSep Finset.univ fun s : Fin 16 => tileIn m d (Fin.cast nCore_zero c) s))
  dn q d c := match q with
    | 0 => (inferInstance : BI.Storable (upEmb : UEmb _ 𝕄) (bigSep Finset.univ fun s : Fin 16 => tileOut m d (Fin.cast nCore_zero c) s))
  go q d c i := match q with
    | 0 => (inferInstance : BI.Storable (upEmb : UEmb _ 𝕄) (tileIn m d (Fin.cast nCore_zero c) (Fin.cast nSub_zero i)))
  td q d c i := match q with
    | 0 => (inferInstance : BI.Storable (upEmb : UEmb _ 𝕄) (tileOut m d (Fin.cast nCore_zero c) (Fin.cast nSub_zero i)))

end Cert.KernelIdeal.Sc

end
-- ==== Proof.Sc.Split.lean ====
import proofs.«212098_g24275155157491_cont_8to1_80_30_alg».proof.Proof.Sc.Common

noncomputable section

namespace Cert.KernelIdeal.Sc

open Cert.KernelIdeal Cert.KernelIdeal.Gen Idealize.ShloMosaic Idealize.SL Idealize.SL.RA Idealize.SL.BI
open Idealize.ShloMosaic.SparseCore.Cfg (HIx)
open scoped Idealize.SL.BI
open Idealize.SL.BI.BIBase Idealize.SL.BI.Laws Idealize.SL.Sem

variable {F : FTy → Type}

local notation "𝕄" => MT nD τ sig (HIx 1) (Elt F) ℕ UU ℕ

variable (m : (ℓ : Loc nD τ sig) → Buf (Elt F) ℓ)

-- The element is the product of its first factor and the rest, and the rest likewise; the last factor is dropped.
theorem ownU_split3 (a : UH) (b : UR) (c : Counters) :
    (ownU ((a, (b, c)) : UU) : sProp 𝕄) ⊢ iprop(BI.own (EH a) ∗ BI.own (ER b)) :=
  let E := (uEmb (nD := nD) (sig := sig) (Ix := HIx 1) (Val := Elt F) (Name := ℕ) (U := UU) (Lvl := ℕ)).toEmb
  (BI.own_op_elim (E.op_of_mem (Prod.mk_mem_op (URA.mem_op_one a) (URA.mem_one_op ((b, c) : UR × Counters))))).trans
    (sep_mono_r ((BI.own_op_elim (E.op_of_mem
      (Prod.mk_mem_op (URA.mem_op_one (1 : UH)) (Prod.mk_mem_op (URA.mem_op_one b) (URA.mem_one_op c))))).trans
        ((sep_mono_r affine).trans sep_emp_elim)))

-- Row `64 s + 32 c + r` determines `c`, `s` and `r`.
def rowEquiv : Fin 2 × Fin 16 × Fin 32 ≃ Fin 1024 where
  toFun x := rowIx x.1 x.2.1 x.2.2
  invFun j := (⟨(j.val / 32) % 2, by omega⟩, ⟨j.val / 64, by omega⟩, ⟨j.val % 32, by omega⟩)
  left_inv x := by
    obtain ⟨c, s, r⟩ := x
    refine Prod.ext (Fin.ext ?_) (Prod.ext (Fin.ext ?_) (Fin.ext ?_)) <;> simp only [rowIx] <;> omega
  right_inv j := by apply Fin.ext; simp only [rowIx]; omega

theorem bigSep_rows (Φ : Fin 1024 → sProp 𝕄) :
    bigSep Finset.univ Φ = bigSep Finset.univ fun c : Fin 2 => bigSep Finset.univ fun s : Fin 16 => bigSep Finset.univ fun r : Fin 32 => Φ (rowIx c s r) := by
  rw [bigSep_univ_equiv rowEquiv Φ, bigSep_univ_prod]
  refine bigSep_congr fun c _ => ?_
  rw [bigSep_univ_prod]; rfl

-- An array held whole is held row by row, the rows being disjoint and covering it.
theorem pts_rows {ℓ : Loc nD τ sig} (R : Fin 1024 → Finset (Idx ℓ)) (hd : ∀ i j, i ≠ j → Disjoint (R i) (R j))
    (hc : Finset.univ.biUnion R = Finset.univ) (f : Buf (Elt F) ℓ) :
    (ℓ ↦{fullShare} f : sProp 𝕄) = bigSep Finset.univ fun c : Fin 2 => bigSep Finset.univ fun s : Fin 16 =>
      bigSep Finset.univ fun r : Fin 32 => ℓ ↦[R (rowIx c s r)]{fullShare} f := by
  rw [← bigSep_rows fun j => ℓ ↦[R j]{fullShare} f, ← pointsTo_biUnion Finset.univ R fun i _ j _ => hd i j, hc]

variable [FloatOps F]

theorem Px_emp : (bigSep Finset.univ fun thr : Thread nD τ => bigSep Finset.univ fun q : Fin 1 => (P (F := F) m).x q thr) = iprop(emp) :=
  (bigSep_congr fun _ _ => bigSep_emp_const (Finset.univ : Finset (Fin 1))).trans (bigSep_emp_const _)

-- The three arrays whole are their rows, SparseCore by SparseCore and task by task.
theorem arrays_rows (d : Dev nD) (f : Buf (Elt F) (v3Loc d)) :
    (iprop((v1Loc d ↦{fullShare} pad0 m d) ∗ (v2Loc d ↦{fullShare} pad1 m d) ∗ (v3Loc d ↦{fullShare} f)) : sProp 𝕄)
      = bigSep Finset.univ fun c : Fin 2 => bigSep Finset.univ fun s : Fin 16 =>
          iprop((bigSep Finset.univ fun r : Fin 32 => v1Row m d (rowIx c s r)) ∗ (bigSep Finset.univ fun r : Fin 32 => v2Row m d (rowIx c s r))
            ∗ bigSep Finset.univ fun r : Fin 32 => v3Row d (rowIx c s r) f) := by
  rw [pts_rows (ℓ := v1Loc d) rowSetP (fun _ _ => Rect.part_disjoint hdivP) (Rect.biUnion_part hdivP),
    pts_rows (ℓ := v2Loc d) rowSetP (fun _ _ => Rect.part_disjoint hdivP) (Rect.biUnion_part hdivP),
    pts_rows (ℓ := v3Loc d) rowSetC (fun _ _ => Rect.part_disjoint hdivC) (Rect.biUnion_part hdivC)]
  simp only [bigSep_sep']

set_option maxHeartbeats 4000000 in
theorem st0_intro (d : Dev nD) (f : Buf (Elt F) (v3Loc d)) :
    iprop((v1Loc d ↦{fullShare} pad0 m d) ∗ (v2Loc d ↦{fullShare} pad1 m d) ∗ (v3Loc d ↦{fullShare} f))
      ⊢ (bigSep Finset.univ fun c : Fin ((K (F := F)).nCore 0) => (P m).st 0 d c : sProp 𝕄) := by
  rw [arrays_rows]
  exact bigSep_mono fun c _ => bigSep_mono fun s _ => sep_mono_r (sep_mono_r (bigSep_mono fun r _ =>
    exists_intro (Φ := fun g : Buf (Elt F) (v3Loc d) => v3Row d (rowIx c s r) g) f))

set_option maxHeartbeats 4000000 in
theorem dn0_elim (d : Dev nD) :
    (bigSep Finset.univ fun c : Fin ((K (F := F)).nCore 0) => (P m).dn 0 d c : sProp 𝕄)
      ⊢ iprop((v1Loc d ↦{fullShare} pad0 m d) ∗ (v2Loc d ↦{fullShare} pad1 m d) ∗ (v3Loc d ↦{fullShare} cnts m d)) := by
  rw [arrays_rows]
  exact Entails.refl _

set_option maxHeartbeats 4000000 in
theorem vecSplit : (K (F := F)).VecSplit' (P m) 0 := by
  intro d c
  show (P m).st 0 d c ⊢ |={Set.univ}=> iprop((P m).st 0 d c ∗ ((P m).dn 0 d c -∗ (P m).dn 0 d c))
  iintro H; imodintro
  isplitl [H]; · iexact H
  iintro H; iexact H

end Cert.KernelIdeal.Sc

end
-- ==== Proof.Sc.Tile.lean ====
import proofs.«212098_g24275155157491_cont_8to1_80_30_alg».proof.Proof.Sc.Common
import proofs.«212098_g24275155157491_cont_8to1_80_30_alg».proof.Proof.Gen.KernelIdeal.Skeleton

noncomputable section

namespace Cert.KernelIdeal.Sc

open Cert.KernelIdeal Cert.KernelIdeal.Gen Idealize.ShloMosaic Idealize.SL.Sem
open Idealize.ShloMosaic.SparseCore (V)

variable {F : FTy → Type}

abbrev tV1 : Memref sig .scVector .hbm S1024x208 .i32 := Memref.whole main_v1_scv
abbrev tV2 : Memref sig .scVector .hbm S1024x208 .i32 := Memref.whole main_v2_scv
abbrev tV3 : Memref sig .scVector .hbm S1024x832 .i32 := Memref.whole main_v3_scv
abbrev sTab : Memref sig .scVector .vmem S100096 .i32 := Memref.whole cc0_scratch0
abbrev sSA : Memref sig .scVector .vmem S208 .i32 := Memref.whole cc0_scratch1
abbrev sDA : Memref sig .scVector .vmem S208 .i32 := Memref.whole cc0_scratch2
abbrev sSB : Memref sig .scVector .vmem S208 .i32 := Memref.whole cc0_scratch3
abbrev sDB : Memref sig .scVector .vmem S208 .i32 := Memref.whole cc0_scratch4
abbrev sCA : Memref sig .scVector .vmem S832 .i32 := Memref.whole cc0_scratch5
abbrev sCB : Memref sig .scVector .vmem S832 .i32 := Memref.whole cc0_scratch6

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

abbrev kern [FloatOps F] (L : grid0.Coords) : Prog (TpuEff nD τ sig (Elt F) Λ₀ (.scVector (cV L) (jV L))) PUnit :=
  cc0__sc_kernel L tV1 (Memref.isWhole_whole _) tV2 (Memref.isWhole_whole _) tV3 (Memref.isWhole_whole _)
    sTab (Memref.isWhole_whole _) sSA (Memref.isWhole_whole _) sDA (Memref.isWhole_whole _) sSB (Memref.isWhole_whole _) sDB (Memref.isWhole_whole _)
    sCA (Memref.isWhole_whole _) sCB (Memref.isWhole_whole _) cc0_scratch7 cc0_scratch8 cc0_scratch9 cc0_scratch10 cc0_scratch11 cc0_scratch12

def zeroTab (d : Dev nD) (L : grid0.Coords) : Buf (Elt F) ((thrV d L).loc cc0_scratch0) := fun _ => 0#32

end Cert.KernelIdeal.Sc

end
-- ==== Proof.Sc.Own.lean ====
import proofs.«212098_g24275155157491_cont_8to1_80_30_alg».proof.Proof.Sc.Tile

noncomputable section

namespace Cert.KernelIdeal.Sc

open Cert.KernelIdeal Cert.KernelIdeal.Gen Idealize.ShloMosaic Idealize.SL Idealize.SL.RA Idealize.SL.BI
open Idealize.ShloMosaic.SparseCore.Cfg (HIx ownBufs ownSems0 ownCells ownRefs mem_ownCells)
open scoped Idealize.SL.BI
open Idealize.SL.BI.BIBase Idealize.SL.BI.Laws Idealize.SL.Sem

variable {F : FTy → Type}

local notation "𝕄" => MT nD τ sig (HIx 1) (Elt F) ℕ UU ℕ

-- Peeling the distinct members of a list off a conjunction over a finite set, one erasure each.
theorem bigSep_peel {I : Type} [DecidableEq I] (Φ : I → sProp 𝕄) : ∀ (l : List I) (s : Finset I), l.Nodup → (∀ i ∈ l, i ∈ s) →
    bigSep s Φ = l.foldr (fun i R => iprop(Φ i ∗ R)) (bigSep (l.foldl Finset.erase s) Φ)
  | [], _, _, _ => rfl
  | i :: l, s, hn, hs => (SparseCore.bigSep_erase' (hs i (List.mem_cons_self ..))).trans (congrArg _
      (bigSep_peel Φ l (s.erase i) (List.nodup_cons.1 hn).2 fun j hj =>
        Finset.mem_erase_of_ne_of_mem (fun e => (List.nodup_cons.1 hn).1 (e ▸ hj)) (hs j (List.mem_cons_of_mem _ hj))))

variable (d : Dev nD) (L : grid0.Coords)

abbrev cellV (s : DmaSems sig S_) : GSem nD τ sig := (thrV d L, .dma s.sem)

abbrev restCells : Finset (GSem nD τ sig) := (((((((ownCells (thrV d L)).erase (cellV d L cc0_scratch7)).erase (cellV d L cc0_scratch8)).erase (cellV d L cc0_scratch9)).erase (cellV d L cc0_scratch10)).erase (cellV d L cc0_scratch11)).erase (cellV d L cc0_scratch12))
abbrev restRefs : Finset (DevRef τ sig) := ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))

theorem ownSems0_V :
    (ownSems0 (thrV d L) : sProp 𝕄)
      = iprop(semVal (cellV d L cc0_scratch7) 0 ∗ semVal (cellV d L cc0_scratch8) 0 ∗ semVal (cellV d L cc0_scratch9) 0 ∗ semVal (cellV d L cc0_scratch10) 0 ∗ semVal (cellV d L cc0_scratch11) 0 ∗ semVal (cellV d L cc0_scratch12) 0
          ∗ bigSep (restCells d L) fun g => semVal g 0) :=
  bigSep_peel (fun g => semVal g 0) ([cc0_scratch7, cc0_scratch8, cc0_scratch9, cc0_scratch10, cc0_scratch11, cc0_scratch12].map (cellV d L)) _
    (List.Nodup.of_map Prod.snd (show ([cc0_scratch7, cc0_scratch8, cc0_scratch9, cc0_scratch10, cc0_scratch11, cc0_scratch12].map fun s : DmaSems sig S_ => (SemLoc.dma s.sem : SemLoc sig)).Nodup by decide))
    (List.forall_mem_map.2 fun s hs => mem_ownCells.mpr ⟨rfl,
      (show ∀ s ∈ ([cc0_scratch7, cc0_scratch8, cc0_scratch9, cc0_scratch10, cc0_scratch11, cc0_scratch12] : List (DmaSems sig S_)), (SemLoc.dma s.sem : SemLoc sig).isScoped .scVector = true by decide) s hs⟩)

theorem ownBufs_V :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f) ∗ (∃ f, (thrV d L).loc cc0_scratch3 ↦{fullShare} f) ∗ (∃ f, (thrV d L).loc cc0_scratch4 ↦{fullShare} f) ∗ (∃ f, (thrV d L).loc cc0_scratch5 ↦{fullShare} f) ∗ (∃ f, (thrV d L).loc cc0_scratch6 ↦{fullShare} f)
          ∗ bigSep (restRefs L) fun b => iprop(∃ f, ((d, b) : Loc nD τ sig) ↦{fullShare} f)) :=
  bigSep_peel (fun b => iprop(∃ f, ((d, b) : Loc nD τ sig) ↦{fullShare} f)) ([cc0_scratch0, cc0_scratch1, cc0_scratch2, cc0_scratch3, cc0_scratch4, cc0_scratch5, cc0_scratch6].map (Proc.scVector (cV L) (jV L)).devRef) _
    ((show ([cc0_scratch0, cc0_scratch1, cc0_scratch2, cc0_scratch3, cc0_scratch4, cc0_scratch5, cc0_scratch6] : List (Ref sig .scVector)).Nodup by decide).map (Proc.devRef_injective _))
    (List.forall_mem_map.2 fun b hb => SparseCore.Cfg.mem_ownRefs_of_owner (by
      simp only [List.mem_cons, List.not_mem_nil, or_false] at hb
      rcases hb with rfl | rfl | rfl | rfl | rfl | rfl | rfl <;> rfl))

end Cert.KernelIdeal.Sc

end
-- ==== Proof.Sc.Pairs.lean ====
import proofs.«212098_g24275155157491_cont_8to1_80_30_alg».proof.Proof.Sc.Tile

noncomputable section

namespace Cert.KernelIdeal.Sc

open Cert.KernelIdeal Cert.KernelIdeal.Gen Idealize.ShloMosaic Idealize.SL Idealize.SL.RA Idealize.SL.BI
open Idealize.ShloMosaic.SparseCore.Cfg (HIx)
open scoped Idealize.SL.BI
open Idealize.SL.BI.BIBase Idealize.SL.BI.Laws Idealize.SL.Sem

variable {F : FTy → Type}

variable [FloatOps F]

local notation "𝕄" => MT nD τ sig (HIx 1) (Elt F) ℕ UU ℕ

def r0 (p : Fin 16) : Fin 32 := ⟨2 * p.val, by omega⟩
def r1 (p : Fin 16) : Fin 32 := ⟨2 * p.val + 1, by omega⟩

-- Row `2 p + b` is row `b` of pair `p`.
theorem bigSep_pairs (Φ : Fin 32 → sProp 𝕄) :
    bigSep Finset.univ Φ = bigSep Finset.univ fun p : Fin 16 => iprop(Φ (r0 p) ∗ Φ (r1 p)) := by
  rw [BI.bigSep_univ_equiv (finProdFinEquiv : Fin 16 × Fin 2 ≃ Fin 32) Φ, BI.bigSep_univ_prod]
  refine BI.bigSep_congr fun p _ => ?_
  rw [bigSep_univ_two]
  have e0 : (finProdFinEquiv : Fin 16 × Fin 2 ≃ Fin 32) (p, 0) = r0 p := Fin.ext (by simp [finProdFinEquiv, r0] <;> omega)
  have e1 : (finProdFinEquiv : Fin 16 × Fin 2 ≃ Fin 32) (p, 1) = r1 p := Fin.ext (by simp [finProdFinEquiv, r1] <;> omega)
  rw [e0, e1]

-- Three conjunctions over the rows, regrouped pair by pair.
theorem pairs3 (A B C : Fin 32 → sProp 𝕄) :
    iprop(bigSep Finset.univ A ∗ bigSep Finset.univ B ∗ bigSep Finset.univ C)
      = bigSep Finset.univ fun p : Fin 16 => iprop((A (r0 p) ∗ B (r0 p) ∗ A (r1 p) ∗ B (r1 p)) ∗ (C (r0 p) ∗ C (r1 p))) := by
  rw [bigSep_pairs A, bigSep_pairs B, bigSep_pairs C, ← bigSep_sep', ← bigSep_sep']
  refine BI.bigSep_congr fun p _ => BI.equiv_iff.mp ⟨?_, ?_⟩ <;> change (_ : sProp 𝕄) ⊢ _
  · iintro ⟨⟨A0, A1⟩, ⟨B0, B1⟩, C0, C1⟩
    iframe A0 A1 B0 B1 C0 C1
  · iintro ⟨⟨A0, B0, A1, B1⟩, C0, C1⟩
    iframe A0 A1 B0 B1 C0 C1

variable (m : (ℓ : Loc nD τ sig) → Buf (Elt F) ℓ)

theorem tileIn_pairs (d : Dev nD) (c : Fin 2) (s : Fin 16) :
    tileIn m d c s = bigSep Finset.univ fun p : Fin 16 =>
      iprop((v1Row m d (rowIx c s (r0 p)) ∗ v2Row m d (rowIx c s (r0 p)) ∗ v1Row m d (rowIx c s (r1 p)) ∗ v2Row m d (rowIx c s (r1 p)))
        ∗ ((∃ f, v3Row d (rowIx c s (r0 p)) f) ∗ (∃ f, v3Row d (rowIx c s (r1 p)) f))) :=
  pairs3 (fun r => v1Row m d (rowIx c s r)) (fun r => v2Row m d (rowIx c s r)) fun r => iprop(∃ f, v3Row d (rowIx c s r) f)

theorem tileOut_pairs (d : Dev nD) (c : Fin 2) (s : Fin 16) :
    tileOut m d c s = bigSep Finset.univ fun p : Fin 16 =>
      iprop((v1Row m d (rowIx c s (r0 p)) ∗ v2Row m d (rowIx c s (r0 p)) ∗ v1Row m d (rowIx c s (r1 p)) ∗ v2Row m d (rowIx c s (r1 p)))
        ∗ (v3Row d (rowIx c s (r0 p)) (cnts m d) ∗ v3Row d (rowIx c s (r1 p)) (cnts m d))) :=
  pairs3 (fun r => v1Row m d (rowIx c s r)) (fun r => v2Row m d (rowIx c s r)) fun r => v3Row d (rowIx c s r) (cnts m d)

end Cert.KernelIdeal.Sc

end
-- ==== Proof.Sc.Rows.lean ====
import proofs.«212098_g24275155157491_cont_8to1_80_30_alg».proof.Proof.Sc.Own
import proofs.«212098_g24275155157491_cont_8to1_80_30_alg».proof.Proof.Sc.Pairs

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section
variable (d : Dev nD) (L : grid0.Coords)
theorem pts_sTab (f : Buf (Elt F) ((thrV d L).loc cc0_scratch0)) :
    ((thrV d L).loc cc0_scratch0 ↦{fullShare} f : sProp 𝕄) = (sTab.view.loc (thrV d L) ↦{fullShare} f) := rfl
theorem pts_sSA (f : Buf (Elt F) ((thrV d L).loc cc0_scratch1)) :
    ((thrV d L).loc cc0_scratch1 ↦{fullShare} f : sProp 𝕄) = (sSA.view.loc (thrV d L) ↦{fullShare} f) := rfl
theorem pts_sDA (f : Buf (Elt F) ((thrV d L).loc cc0_scratch2)) :
    ((thrV d L).loc cc0_scratch2 ↦{fullShare} f : sProp 𝕄) = (sDA.view.loc (thrV d L) ↦{fullShare} f) := rfl
theorem pts_sSB (f : Buf (Elt F) ((thrV d L).loc cc0_scratch3)) :
    ((thrV d L).loc cc0_scratch3 ↦{fullShare} f : sProp 𝕄) = (sSB.view.loc (thrV d L) ↦{fullShare} f) := rfl
theorem pts_sDB (f : Buf (Elt F) ((thrV d L).loc cc0_scratch4)) :
    ((thrV d L).loc cc0_scratch4 ↦{fullShare} f : sProp 𝕄) = (sDB.view.loc (thrV d L) ↦{fullShare} f) := rfl
theorem pts_sCA (f : Buf (Elt F) ((thrV d L).loc cc0_scratch5)) :
    ((thrV d L).loc cc0_scratch5 ↦{fullShare} f : sProp 𝕄) = (sCA.view.loc (thrV d L) ↦{fullShare} f) := rfl
theorem pts_sCB (f : Buf (Elt F) ((thrV d L).loc cc0_scratch6)) :
    ((thrV d L).loc cc0_scratch6 ↦{fullShare} f : sProp 𝕄) = (sCB.view.loc (thrV d L) ↦{fullShare} f) := rfl
end

variable (m : (ℓ : Loc nD τ sig) → Buf (Elt F) ℓ) [FloatOps F]
variable (d : Dev nD) (L : grid0.Coords)

abbrev rowM1 (off : Fin 2 → ℕ) (h : ∀ a, off a + S1x208.size a ≤ S1024x208.size a) : Memref sig .scVector .hbm S208 .i32 :=
  (tV1.slice (Rect.unit (s := S1024x208) off S1x208.size h) (fun _ => rfl)).squeeze S208 squeezes_S1x208_S208
abbrev rowM2 (off : Fin 2 → ℕ) (h : ∀ a, off a + S1x208.size a ≤ S1024x208.size a) : Memref sig .scVector .hbm S208 .i32 :=
  (tV2.slice (Rect.unit (s := S1024x208) off S1x208.size h) (fun _ => rfl)).squeeze S208 squeezes_S1x208_S208
abbrev rowM3 (off : Fin 2 → ℕ) (h : ∀ a, off a + S1x832.size a ≤ S1024x832.size a) : Memref sig .scVector .hbm S832 .i32 :=
  (tV3.slice (Rect.unit (s := S1024x832) off S1x832.size h) (fun _ => rfl)).squeeze S832 squeezes_S1x832_S832

theorem rect_rowP (off : Fin 2 → ℕ) (h : ∀ a, off a + S1x208.size a ≤ S1024x208.size a) (j : Fin 1024) (hj : off = ![j.val, 0]) :
    Rect.unit (s := S1024x208) off S1x208.size h = rowP j := by
  subst hj
  unfold rowP Rect.part Rect.block
  congr 1 <;> funext a <;> fin_cases a <;> simp [Shape.partIx, Shape.partSize]
theorem rect_rowC (off : Fin 2 → ℕ) (h : ∀ a, off a + S1x832.size a ≤ S1024x832.size a) (j : Fin 1024) (hj : off = ![j.val, 0]) :
    Rect.unit (s := S1024x832) off S1x832.size h = rowC j := by
  subst hj
  unfold rowC Rect.part Rect.block
  congr 1 <;> funext a <;> fin_cases a <;> simp [Shape.partIx, Shape.partSize]

theorem set_rowM1 (off : Fin 2 → ℕ) (h : ∀ a, off a + S1x208.size a ≤ S1024x208.size a) (j : Fin 1024) (hj : off = ![j.val, 0]) :
    (rowM1 off h).view.set = rowSetP j :=
  ((View.set_reshape _ _).trans (View.set_slice_whole _ _)).trans (by rw [rect_rowP off h j hj])
theorem set_rowM2 (off : Fin 2 → ℕ) (h : ∀ a, off a + S1x208.size a ≤ S1024x208.size a) (j : Fin 1024) (hj : off = ![j.val, 0]) :
    (rowM2 off h).view.set = rowSetP j :=
  ((View.set_reshape _ _).trans (View.set_slice_whole _ _)).trans (by rw [rect_rowP off h j hj])
theorem set_rowM3 (off : Fin 2 → ℕ) (h : ∀ a, off a + S1x832.size a ≤ S1024x832.size a) (j : Fin 1024) (hj : off = ![j.val, 0]) :
    (rowM3 off h).view.set = rowSetC j :=
  ((View.set_reshape _ _).trans (View.set_slice_whole _ _)).trans (by rw [rect_rowC off h j hj])

theorem pts_rowM1 (off : Fin 2 → ℕ) (h : ∀ a, off a + S1x208.size a ≤ S1024x208.size a) (j : Fin 1024) (hj : off = ![j.val, 0]) (f : Buf (Elt F) (v1Loc d)) :
    ((rowM1 off h).view.loc (thrV d L) ↦[(rowM1 off h).view.set]{fullShare} f : sProp 𝕄) = (v1Loc d ↦[rowSetP j]{fullShare} f) := by
  rw [set_rowM1 off h j hj]
theorem pts_rowM2 (off : Fin 2 → ℕ) (h : ∀ a, off a + S1x208.size a ≤ S1024x208.size a) (j : Fin 1024) (hj : off = ![j.val, 0]) (f : Buf (Elt F) (v2Loc d)) :
    ((rowM2 off h).view.loc (thrV d L) ↦[(rowM2 off h).view.set]{fullShare} f : sProp 𝕄) = (v2Loc d ↦[rowSetP j]{fullShare} f) := by
  rw [set_rowM2 off h j hj]
theorem pts_rowM3 (off : Fin 2 → ℕ) (h : ∀ a, off a + S1x832.size a ≤ S1024x832.size a) (j : Fin 1024) (hj : off = ![j.val, 0]) (f : Buf (Elt F) (v3Loc d)) :
    ((rowM3 off h).view.loc (thrV d L) ↦[(rowM3 off h).view.set]{fullShare} f : sProp 𝕄) = (v3Loc d ↦[rowSetC j]{fullShare} f) := by
  rw [set_rowM3 off h j hj]

def rowOff (j : Fin 1024) : Fin 2 → ℕ := ![j.val, 0]
theorem rowOff_inbP (j : Fin 1024) : ∀ a, rowOff j a + S1x208.size a ≤ S1024x208.size a := by
  intro a; fin_cases a <;> simp [rowOff] <;> omega

abbrev jr (r : Fin 32) : Fin 1024 := rowIx (cL L) (sL L) r

abbrev idFlight (sem : DmaSems sig S_) (buf : Memref sig .scVector .vmem S208 .i32) (val : Buf (Elt F) (buf.view.loc (thrV d L))) (row : sProp 𝕄) : sProp 𝕄 :=
  Transfers.Flight countersEmb (thrV d L) (SemLoc.dma sem.sem) (default : HIx 1) 6656 iprop((buf.view.loc (thrV d L) ↦{fullShare} val) ∗ row)

-- one bound on a vector's lanes bounds the index each lane names
theorem chk_of {v : IVec S16 32} (h : ∀ x, (v x).toNat < 100096) :
    (∀ a x, ((![v] : Fin 1 → IVec S16 32) a x).toNat < S100096.size a) ∧ (∀ a x, ((![v] : Fin 1 → IVec S16 32) a x).toNat < S100096.size a)
      ∧ (∀ a x, ((![v] : Fin 1 → IVec S16 32) a x).toNat < S100096.size a) ∧ (∀ a x, ((![v] : Fin 1 → IVec S16 32) a x).toNat < S100096.size a) :=
  have H : ∀ a x, ((![v] : Fin 1 → IVec S16 32) a x).toNat < S100096.size a := fun a x => by
    obtain rfl : a = 0 := Subsingleton.elim _ _; exact h x
  ⟨H, H, H, H⟩

def rowBufSA (j : Fin 1024) : Buf (Elt F) (sSA.view.loc (thrV d L)) :=
  (rowM1 (rowOff j) (rowOff_inbP j)).view.read (Elt F) (pad0 m d)
def rowBufDA (j : Fin 1024) : Buf (Elt F) (sDA.view.loc (thrV d L)) :=
  (rowM2 (rowOff j) (rowOff_inbP j)).view.read (Elt F) (pad1 m d)
def rowBufSB (j : Fin 1024) : Buf (Elt F) (sSB.view.loc (thrV d L)) :=
  (rowM1 (rowOff j) (rowOff_inbP j)).view.read (Elt F) (pad0 m d)
def rowBufDB (j : Fin 1024) : Buf (Elt F) (sDB.view.loc (thrV d L)) :=
  (rowM2 (rowOff j) (rowOff_inbP j)).view.read (Elt F) (pad1 m d)

section
variable (hpre : PreOK m) (j : Fin 1024) (off : ℕ) (h : ∀ a, (![off] : Fin 1 → ℕ) a + S16.size a ≤ S208.size a)
include hpre

-- an id or the padding word is below the table's length
theorem pad0_lt (i : S1024x208.Idx) : (pad0 m d i).toNat < 100096 := by
  unfold pad0 Cert.Spec.padded
  split
  · exact Nat.lt_of_le_of_lt ((hpre d).1 _) (by decide)
  · decide
theorem pad1_lt (i : S1024x208.Idx) : (pad1 m d i).toNat < 100096 := by
  unfold pad1 Cert.Spec.padded
  split
  · exact Nat.lt_of_le_of_lt ((hpre d).2 _) (by decide)
  · decide

theorem readAt_lt_SA (x : S16.Idx) :
    ((sSA.view.readAt (Elt F) (Rect.unit (s := S208) ![off] S16.size h).toLoadRect (rowBufSA m d L j)) x).toNat < 100096 := by
  simp only [View.readAt_apply, Memref.view_whole, View.read_whole]
  unfold rowBufSA; rw [View.read_apply]; exact pad0_lt m d hpre _
theorem readAt_lt_DA (x : S16.Idx) :
    ((sDA.view.readAt (Elt F) (Rect.unit (s := S208) ![off] S16.size h).toLoadRect (rowBufDA m d L j)) x).toNat < 100096 := by
  simp only [View.readAt_apply, Memref.view_whole, View.read_whole]
  unfold rowBufDA; rw [View.read_apply]; exact pad1_lt m d hpre _
theorem readAt_lt_SB (x : S16.Idx) :
    ((sSB.view.readAt (Elt F) (Rect.unit (s := S208) ![off] S16.size h).toLoadRect (rowBufSB m d L j)) x).toNat < 100096 := by
  simp only [View.readAt_apply, Memref.view_whole, View.read_whole]
  unfold rowBufSB; rw [View.read_apply]; exact pad0_lt m d hpre _
theorem readAt_lt_DB (x : S16.Idx) :
    ((sDB.view.readAt (Elt F) (Rect.unit (s := S208) ![off] S16.size h).toLoadRect (rowBufDB m d L j)) x).toNat < 100096 := by
  simp only [View.readAt_apply, Memref.view_whole, View.read_whole]
  unfold rowBufDB; rw [View.read_apply]; exact pad1_lt m d hpre _

theorem chk1_of : k0_chk1 (sSA.view.readAt (Elt F) (Rect.unit (s := S208) ![off] S16.size h).toLoadRect (rowBufSA m d L j)) :=
  chk_of (readAt_lt_SA m d L hpre j off h)
theorem chk2_of : k0_chk2 (sSA.view.readAt (Elt F) (Rect.unit (s := S208) ![off] S16.size h).toLoadRect (rowBufSA m d L j)) :=
  chk_of (readAt_lt_SA m d L hpre j off h)
theorem chk3_of : k0_chk3 (sSA.view.readAt (Elt F) (Rect.unit (s := S208) ![off] S16.size h).toLoadRect (rowBufSA m d L j)) :=
  chk_of (readAt_lt_SA m d L hpre j off h)
theorem chk4_of : k0_chk4 (sSA.view.readAt (Elt F) (Rect.unit (s := S208) ![off] S16.size h).toLoadRect (rowBufSA m d L j)) :=
  chk_of (readAt_lt_SA m d L hpre j off h)
theorem chk5_of : k0_chk5 (sSA.view.readAt (Elt F) (Rect.unit (s := S208) ![off] S16.size h).toLoadRect (rowBufSA m d L j)) :=
  chk_of (readAt_lt_SA m d L hpre j off h)
theorem chk6_of : k0_chk6 (sSA.view.readAt (Elt F) (Rect.unit (s := S208) ![off] S16.size h).toLoadRect (rowBufSA m d L j)) :=
  chk_of (readAt_lt_SA m d L hpre j off h)
theorem chk7_of : k0_chk7 (sSA.view.readAt (Elt F) (Rect.unit (s := S208) ![off] S16.size h).toLoadRect (rowBufSA m d L j)) :=
  chk_of (readAt_lt_SA m d L hpre j off h)
theorem chk8_of : k0_chk8 (sSA.view.readAt (Elt F) (Rect.unit (s := S208) ![off] S16.size h).toLoadRect (rowBufSA m d L j)) :=
  chk_of (readAt_lt_SA m d L hpre j off h)
theorem chk9_of : k0_chk9 (sSA.view.readAt (Elt F) (Rect.unit (s := S208) ![off] S16.size h).toLoadRect (rowBufSA m d L j)) :=
  chk_of (readAt_lt_SA m d L hpre j off h)
theorem chk10_of : k0_chk10 (sSA.view.readAt (Elt F) (Rect.unit (s := S208) ![off] S16.size h).toLoadRect (rowBufSA m d L j)) :=
  chk_of (readAt_lt_SA m d L hpre j off h)
theorem chk11_of : k0_chk11 (sSA.view.readAt (Elt F) (Rect.unit (s := S208) ![off] S16.size h).toLoadRect (rowBufSA m d L j)) :=
  chk_of (readAt_lt_SA m d L hpre j off h)
theorem chk12_of : k0_chk12 (sSA.view.readAt (Elt F) (Rect.unit (s := S208) ![off] S16.size h).toLoadRect (rowBufSA m d L j)) :=
  chk_of (readAt_lt_SA m d L hpre j off h)
theorem chk13_of : k0_chk13 (sSA.view.readAt (Elt F) (Rect.unit (s := S208) ![off] S16.size h).toLoadRect (rowBufSA m d L j)) :=
  chk_of (readAt_lt_SA m d L hpre j off h)
theorem chk14_of : k0_chk14 (sDA.view.readAt (Elt F) (Rect.unit (s := S208) ![off] S16.size h).toLoadRect (rowBufDA m d L j)) :=
  chk_of (readAt_lt_DA m d L hpre j off h)
theorem chk27_of : k0_chk27 (sSB.view.readAt (Elt F) (Rect.unit (s := S208) ![off] S16.size h).toLoadRect (rowBufSB m d L j)) :=
  chk_of (readAt_lt_SB m d L hpre j off h)
theorem chk28_of : k0_chk28 (sSB.view.readAt (Elt F) (Rect.unit (s := S208) ![off] S16.size h).toLoadRect (rowBufSB m d L j)) :=
  chk_of (readAt_lt_SB m d L hpre j off h)
theorem chk29_of : k0_chk29 (sSB.view.readAt (Elt F) (Rect.unit (s := S208) ![off] S16.size h).toLoadRect (rowBufSB m d L j)) :=
  chk_of (readAt_lt_SB m d L hpre j off h)
theorem chk30_of : k0_chk30 (sSB.view.readAt (Elt F) (Rect.unit (s := S208) ![off] S16.size h).toLoadRect (rowBufSB m d L j)) :=
  chk_of (readAt_lt_SB m d L hpre j off h)
theorem chk31_of : k0_chk31 (sSB.view.readAt (Elt F) (Rect.unit (s := S208) ![off] S16.size h).toLoadRect (rowBufSB m d L j)) :=
  chk_of (readAt_lt_SB m d L hpre j off h)
theorem chk32_of : k0_chk32 (sSB.view.readAt (Elt F) (Rect.unit (s := S208) ![off] S16.size h).toLoadRect (rowBufSB m d L j)) :=
  chk_of (readAt_lt_SB m d L hpre j off h)
theorem chk33_of : k0_chk33 (sSB.view.readAt (Elt F) (Rect.unit (s := S208) ![off] S16.size h).toLoadRect (rowBufSB m d L j)) :=
  chk_of (readAt_lt_SB m d L hpre j off h)
theorem chk34_of : k0_chk34 (sSB.view.readAt (Elt F) (Rect.unit (s := S208) ![off] S16.size h).toLoadRect (rowBufSB m d L j)) :=
  chk_of (readAt_lt_SB m d L hpre j off h)
theorem chk35_of : k0_chk35 (sSB.view.readAt (Elt F) (Rect.unit (s := S208) ![off] S16.size h).toLoadRect (rowBufSB m d L j)) :=
  chk_of (readAt_lt_SB m d L hpre j off h)
theorem chk36_of : k0_chk36 (sSB.view.readAt (Elt F) (Rect.unit (s := S208) ![off] S16.size h).toLoadRect (rowBufSB m d L j)) :=
  chk_of (readAt_lt_SB m d L hpre j off h)
theorem chk37_of : k0_chk37 (sSB.view.readAt (Elt F) (Rect.unit (s := S208) ![off] S16.size h).toLoadRect (rowBufSB m d L j)) :=
  chk_of (readAt_lt_SB m d L hpre j off h)
theorem chk38_of : k0_chk38 (sSB.view.readAt (Elt F) (Rect.unit (s := S208) ![off] S16.size h).toLoadRect (rowBufSB m d L j)) :=
  chk_of (readAt_lt_SB m d L hpre j off h)
theorem chk39_of : k0_chk39 (sSB.view.readAt (Elt F) (Rect.unit (s := S208) ![off] S16.size h).toLoadRect (rowBufSB m d L j)) :=
  chk_of (readAt_lt_SB m d L hpre j off h)
theorem chk40_of : k0_chk40 (sDB.view.readAt (Elt F) (Rect.unit (s := S208) ![off] S16.size h).toLoadRect (rowBufDB m d L j)) :=
  chk_of (readAt_lt_DB m d L hpre j off h)
theorem chk41_of : k0_chk41 (sDB.view.readAt (Elt F) (Rect.unit (s := S208) ![off] S16.size h).toLoadRect (rowBufDB m d L j)) :=
  chk_of (readAt_lt_DB m d L hpre j off h)
theorem chk42_of : k0_chk42 (sDB.view.readAt (Elt F) (Rect.unit (s := S208) ![off] S16.size h).toLoadRect (rowBufDB m d L j)) :=
  chk_of (readAt_lt_DB m d L hpre j off h)
theorem chk43_of : k0_chk43 (sDB.view.readAt (Elt F) (Rect.unit (s := S208) ![off] S16.size h).toLoadRect (rowBufDB m d L j)) :=
  chk_of (readAt_lt_DB m d L hpre j off h)
theorem chk44_of : k0_chk44 (sDB.view.readAt (Elt F) (Rect.unit (s := S208) ![off] S16.size h).toLoadRect (rowBufDB m d L j)) :=
  chk_of (readAt_lt_DB m d L hpre j off h)
theorem chk45_of : k0_chk45 (sDB.view.readAt (Elt F) (Rect.unit (s := S208) ![off] S16.size h).toLoadRect (rowBufDB m d L j)) :=
  chk_of (readAt_lt_DB m d L hpre j off h)
theorem chk46_of : k0_chk46 (sDB.view.readAt (Elt F) (Rect.unit (s := S208) ![off] S16.size h).toLoadRect (rowBufDB m d L j)) :=
  chk_of (readAt_lt_DB m d L hpre j off h)
theorem chk47_of : k0_chk47 (sDB.view.readAt (Elt F) (Rect.unit (s := S208) ![off] S16.size h).toLoadRect (rowBufDB m d L j)) :=
  chk_of (readAt_lt_DB m d L hpre j off h)
theorem chk48_of : k0_chk48 (sDB.view.readAt (Elt F) (Rect.unit (s := S208) ![off] S16.size h).toLoadRect (rowBufDB m d L j)) :=
  chk_of (readAt_lt_DB m d L hpre j off h)
theorem chk49_of : k0_chk49 (sDB.view.readAt (Elt F) (Rect.unit (s := S208) ![off] S16.size h).toLoadRect (rowBufDB m d L j)) :=
  chk_of (readAt_lt_DB m d L hpre j off h)
theorem chk50_of : k0_chk50 (sDB.view.readAt (Elt F) (Rect.unit (s := S208) ![off] S16.size h).toLoadRect (rowBufDB m d L j)) :=
  chk_of (readAt_lt_DB m d L hpre j off h)
theorem chk51_of : k0_chk51 (sDB.view.readAt (Elt F) (Rect.unit (s := S208) ![off] S16.size h).toLoadRect (rowBufDB m d L j)) :=
  chk_of (readAt_lt_DB m d L hpre j off h)
theorem chk52_of : k0_chk52 (sDB.view.readAt (Elt F) (Rect.unit (s := S208) ![off] S16.size h).toLoadRect (rowBufDB m d L j)) :=
  chk_of (readAt_lt_DB m d L hpre j off h)
end
theorem cond1_pos (k : Fin k0_t2_loop.trips) (h : k.val + 1 < 16) : k0_cond1 k = 1#1 := by revert k; decide +kernel
theorem cond1_neg (k : Fin k0_t2_loop.trips) (h : ¬ k.val + 1 < 16) : ¬ k0_cond1 k = 1#1 := by revert k; decide +kernel
theorem cond2_pos (k : Fin k0_t2_loop.trips) (h : 0 < k.val) : k0_cond2 k = 1#1 := by revert k; decide +kernel
theorem cond2_neg (k : Fin k0_t2_loop.trips) (h : ¬ 0 < k.val) : ¬ k0_cond2 k = 1#1 := by revert k; decide +kernel
theorem cond3_pos (k : Fin k0_t2_loop.trips) (h : k.val + 1 < 16) : k0_cond3 k = 1#1 := by revert k; decide +kernel
theorem cond3_neg (k : Fin k0_t2_loop.trips) (h : ¬ k.val + 1 < 16) : ¬ k0_cond3 k = 1#1 := by revert k; decide +kernel
theorem cond4_pos (k : Fin k0_t2_loop.trips) (h : 0 < k.val) : k0_cond4 k = 1#1 := by revert k; decide +kernel
theorem cond4_neg (k : Fin k0_t2_loop.trips) (h : ¬ 0 < k.val) : ¬ k0_cond4 k = 1#1 := by revert k; decide +kernel

end Cert.KernelIdeal.Sc

end
-- ==== Proof.Sc.Inv.lean ====
import proofs.«212098_g24275155157491_cont_8to1_80_30_alg».proof.Proof.Sc.Rows

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) [FloatOps F]
variable (d : Dev nD) (L : grid0.Coords)

abbrev inRows (p : Fin 16) : sProp 𝕄 :=
  iprop(v1Row m d (jr L (r0 p)) ∗ v2Row m d (jr L (r0 p)) ∗ v1Row m d (jr L (r1 p)) ∗ v2Row m d (jr L (r1 p)))
abbrev outFree (p : Fin 16) : sProp 𝕄 := iprop((∃ f, v3Row d (jr L (r0 p)) f) ∗ (∃ f, v3Row d (jr L (r1 p)) f))
abbrev outDone (p : Fin 16) : sProp 𝕄 := iprop(v3Row d (jr L (r0 p)) (cnts m d) ∗ v3Row d (jr L (r1 p)) (cnts m d))

def inSt (k : ℕ) (p : Fin 16) : sProp 𝕄 := if p.val = k then iprop(emp) else inRows m d L p

def outSt (k : ℕ) (p : Fin 16) : sProp 𝕄 :=
  if p.val + 1 < k then outDone m d L p else if p.val + 1 = k then iprop(emp) else outFree d L p

def idFl (p : Fin 16) : sProp 𝕄 :=
  iprop(idFlight d L cc0_scratch7 sSA (rowBufSA m d L (jr L (r0 p))) (v1Row m d (jr L (r0 p)))
    ∗ idFlight d L cc0_scratch8 sDA (rowBufDA m d L (jr L (r0 p))) (v2Row m d (jr L (r0 p)))
    ∗ idFlight d L cc0_scratch9 sSB (rowBufSB m d L (jr L (r1 p))) (v1Row m d (jr L (r1 p)))
    ∗ idFlight d L cc0_scratch10 sDB (rowBufDB m d L (jr L (r1 p))) (v2Row m d (jr L (r1 p))))

def idHeld : sProp 𝕄 :=
  iprop((∃ f, sSA.view.loc (thrV d L) ↦{fullShare} f) ∗ (∃ f, sDA.view.loc (thrV d L) ↦{fullShare} f)
    ∗ (∃ f, sSB.view.loc (thrV d L) ↦{fullShare} f) ∗ (∃ f, sDB.view.loc (thrV d L) ↦{fullShare} f)
    ∗ semVal (cellV d L cc0_scratch7) 0 ∗ semVal (cellV d L cc0_scratch8) 0 ∗ semVal (cellV d L cc0_scratch9) 0 ∗ semVal (cellV d L cc0_scratch10) 0)

abbrev cntFlight (sem : DmaSems sig S_) (buf : Memref sig .scVector .vmem S832 .i32) (C : Buf (Elt F) (buf.view.loc (thrV d L))) (j : Fin 1024) : sProp 𝕄 :=
  Transfers.Flight countersEmb (thrV d L) (SemLoc.dma sem.sem) (default : HIx 1) 26624
    iprop(v3Row d j (cnts m d) ∗ (buf.view.loc (thrV d L) ↦{fullShare} C))

def cntFl (p : Fin 16) : sProp 𝕄 :=
  iprop((∃ C, cntFlight m d L cc0_scratch11 sCA C (jr L (r0 p))) ∗ (∃ C, cntFlight m d L cc0_scratch12 sCB C (jr L (r1 p))))

def cntHeld : sProp 𝕄 :=
  iprop((∃ C, sCA.view.loc (thrV d L) ↦{fullShare} C) ∗ (∃ C, sCB.view.loc (thrV d L) ↦{fullShare} C)
    ∗ semVal (cellV d L cc0_scratch11) 0 ∗ semVal (cellV d L cc0_scratch12) 0)

def idSt (k : ℕ) : sProp 𝕄 := if h : k < 16 then idFl m d L ⟨k, h⟩ else idHeld d L
def cntSt (k : ℕ) : sProp 𝕄 := if h : 0 < k ∧ k ≤ 16 then cntFl m d L ⟨k - 1, by omega⟩ else cntHeld d L

def invT (O : CellTallies nD τ sig (HIx 1)) (W : Waits sig (HIx 1)) (k : ℕ) (_ : PUnit) : sProp 𝕄 :=
  iprop((sTab.view.loc (thrV d L) ↦{fullShare} zeroTab d L)
    ∗ (bigSep Finset.univ fun p : Fin 16 => inSt m d L k p) ∗ (bigSep Finset.univ fun p : Fin 16 => outSt m d L k p)
    ∗ idSt m d L k ∗ cntSt m d L k
    ∗ ∃ W', ⌜∀ p ∈ W', p ∈ W ∨ p.2 = none⌝ ∗ owes (thrV d L) O W')

section Steps
open Idealize.SL.BI (bigSep_congr bigSep_univ_split bigSep_erase)

theorem bigSep_univ_split2 {I : Type} [Fintype I] [DecidableEq I] (Φ : I → sProp 𝕄) (i j : I) (hij : i ≠ j) :
    bigSep Finset.univ Φ = iprop(Φ i ∗ Φ j ∗ bigSep (((Finset.univ : Finset I).erase i).erase j) Φ) :=
  (BI.bigSep_univ_split i).trans (congrArg (BI.sep (Φ i))
    (BI.bigSep_erase (Finset.mem_erase.2 ⟨hij.symm, Finset.mem_univ _⟩)))

theorem bigSep_rest2 {I : Type} [Fintype I] [DecidableEq I] (Φ Ψ : I → sProp 𝕄) (i j : I)
    (h : ∀ x, x ≠ i → x ≠ j → Ψ x = Φ x) :
    bigSep (((Finset.univ : Finset I).erase i).erase j) Ψ = bigSep (((Finset.univ : Finset I).erase i).erase j) Φ :=
  BI.bigSep_congr fun x hx => h x (Finset.ne_of_mem_erase (Finset.mem_of_mem_erase hx)) (Finset.ne_of_mem_erase hx)

theorem in_step_last (pk : Fin 16) (hpk : pk.val = 15) :
    iprop((bigSep Finset.univ fun q => inSt m d L 15 q) ∗ inRows m d L pk) ⊢ bigSep Finset.univ fun q => inSt m d L 16 q := by
  have hrest : bigSep ((Finset.univ : Finset (Fin 16)).erase pk) (fun q => inSt m d L 16 q)
      = bigSep ((Finset.univ : Finset (Fin 16)).erase pk) (fun q => inSt m d L 15 q) :=
    BI.bigSep_congr fun x hx => by
      have h1 : x.val ≠ 15 := fun e => Finset.ne_of_mem_erase hx (Fin.ext (e.trans hpk.symm))
      have h2 : x.val ≠ 16 := by have := x.isLt; omega
      show inSt m d L 16 x = inSt m d L 15 x
      unfold inSt; rw [if_neg h1, if_neg h2]
  rw [bigSep_univ_at (fun q => inSt m d L 15 q) pk, bigSep_univ_at (fun q => inSt m d L 16 q) pk, hrest]
  have e1 : inSt m d L 15 pk = iprop(emp) := by unfold inSt; rw [if_pos hpk]
  have e2 : inSt m d L 16 pk = inRows m d L pk := by unfold inSt; rw [if_neg (by omega)]
  simp only [e1, e2]
  iintro ⟨⟨He, HR⟩, Hk⟩
  iclear He
  iframe Hk HR

theorem out_step_first (p0 : Fin 16) (hp0 : p0.val = 0) :
    (bigSep Finset.univ fun q => outSt m d L 0 q) ⊢ iprop(outFree d L p0 ∗ bigSep Finset.univ fun q => outSt m d L 1 q) := by
  have hrest : bigSep ((Finset.univ : Finset (Fin 16)).erase p0) (fun q => outSt m d L 1 q)
      = bigSep ((Finset.univ : Finset (Fin 16)).erase p0) (fun q => outSt m d L 0 q) :=
    BI.bigSep_congr fun x hx => by
      have h1 : x.val ≠ 0 := fun e => Finset.ne_of_mem_erase hx (Fin.ext (e.trans hp0.symm))
      show outSt m d L 1 x = outSt m d L 0 x
      unfold outSt; rw [if_neg (by omega), if_neg (by omega), if_neg (by omega), if_neg (by omega)]
  rw [bigSep_univ_at (fun q => outSt m d L 0 q) p0, bigSep_univ_at (fun q => outSt m d L 1 q) p0, hrest]
  have e1 : outSt m d L 0 p0 = outFree d L p0 := by unfold outSt; rw [if_neg (by omega), if_neg (by omega)]
  have e2 : outSt m d L 1 p0 = iprop(emp) := by unfold outSt; rw [if_neg (by omega), if_pos (by omega)]
  simp only [e1, e2]
  iintro ⟨Hf, HR⟩
  iframe Hf
  isplitl []; · iempintro
  iexact HR

theorem inv_start :
    tileIn m d (cL L) (sL L)
      ⊢ iprop(inRows m d L 0 ∗ (bigSep Finset.univ fun q => inSt m d L 0 q) ∗ bigSep Finset.univ fun q => outSt m d L 0 q) := by
  rw [tileIn_pairs]
  show bigSep Finset.univ (fun p : Fin 16 => iprop(inRows m d L p ∗ outFree d L p)) ⊢ _
  rw [bigSep_sep']
  have h0 : ((0 : Fin 16) : ℕ) = 0 := rfl
  have hout : (bigSep Finset.univ fun q => outSt m d L 0 q) = bigSep Finset.univ fun p : Fin 16 => outFree d L p :=
    BI.bigSep_congr fun x _ => by
      show outSt m d L 0 x = outFree d L x
      unfold outSt; rw [if_neg (by omega), if_neg (by omega)]
  have hin : bigSep ((Finset.univ : Finset (Fin 16)).erase 0) (fun q => inSt m d L 0 q)
      = bigSep ((Finset.univ : Finset (Fin 16)).erase 0) fun p => inRows m d L p :=
    BI.bigSep_congr fun x hx => by
      have h1 : x.val ≠ 0 := fun e => Finset.ne_of_mem_erase hx (Fin.ext (e.trans h0.symm))
      show inSt m d L 0 x = inRows m d L x
      unfold inSt; rw [if_neg h1]
  rw [hout, bigSep_univ_at (fun q => inSt m d L 0 q) 0, hin, bigSep_univ_at (fun p : Fin 16 => inRows m d L p) 0]
  have e1 : inSt m d L 0 0 = iprop(emp) := by unfold inSt; rw [if_pos h0]
  simp only [e1]
  iintro ⟨⟨H0, HR⟩, HO⟩
  iframe H0
  isplitl [HR]
  · isplitl []; · iempintro
    iexact HR
  iexact HO

theorem inv_end (p15 : Fin 16) (h : p15.val = 15) :
    iprop((bigSep Finset.univ fun q => inSt m d L 16 q) ∗ (bigSep Finset.univ fun q => outSt m d L 16 q) ∗ outDone m d L p15)
      ⊢ tileOut m d (cL L) (sL L) := by
  rw [tileOut_pairs]
  show _ ⊢ bigSep Finset.univ (fun p : Fin 16 => iprop(inRows m d L p ∗ outDone m d L p))
  rw [bigSep_sep']
  have hin : (bigSep Finset.univ fun q => inSt m d L 16 q) = bigSep Finset.univ fun p : Fin 16 => inRows m d L p :=
    BI.bigSep_congr fun x _ => by
      have h2 : x.val ≠ 16 := by have := x.isLt; omega
      show inSt m d L 16 x = inRows m d L x
      unfold inSt; rw [if_neg h2]
  have hrest : bigSep ((Finset.univ : Finset (Fin 16)).erase p15) (fun q => outSt m d L 16 q)
      = bigSep ((Finset.univ : Finset (Fin 16)).erase p15) fun p => outDone m d L p :=
    BI.bigSep_congr fun x hx => by
      have h1 : x.val ≠ 15 := fun e => Finset.ne_of_mem_erase hx (Fin.ext (e.trans h.symm))
      have h2 : x.val < 16 := x.isLt
      show outSt m d L 16 x = outDone m d L x
      unfold outSt; rw [if_pos (by omega)]
  rw [hin, bigSep_univ_at (fun q => outSt m d L 16 q) p15, hrest, bigSep_univ_at (fun p : Fin 16 => outDone m d L p) p15]
  have e1 : outSt m d L 16 p15 = iprop(emp) := by unfold outSt; rw [if_neg (by omega), if_pos (by omega)]
  simp only [e1]
  iintro ⟨HI, ⟨He, HR⟩, HD⟩
  iclear He
  iframe HI HD HR

end Steps

end Cert.KernelIdeal.Sc

end
-- ==== Proof.Sc.AtTile.lean ====
import proofs.«212098_g24275155157491_cont_8to1_80_30_alg».proof.Proof.Sc.Tile

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

/-- A function of a grid point and the kernel's sixteen operands, at the tile of grid point `L`: its arrays, its scratch and its six semaphores. -/
abbrev atTile {β : grid0.Coords → Type 1} (L : grid0.Coords)
    (f : (i : grid0.Coords) → (a2 : Memref sig .scVector .hbm S1024x208 .i32) → a2.IsWhole → (a3 : Memref sig .scVector .hbm S1024x208 .i32) → a3.IsWhole
      → (a4 : Memref sig .scVector .hbm S1024x832 .i32) → a4.IsWhole → (a5 : Memref sig .scVector .vmem S100096 .i32) → a5.IsWhole
      → (a6 : Memref sig .scVector .vmem S208 .i32) → a6.IsWhole → (a7 : Memref sig .scVector .vmem S208 .i32) → a7.IsWhole
      → (a8 : Memref sig .scVector .vmem S208 .i32) → a8.IsWhole → (a9 : Memref sig .scVector .vmem S208 .i32) → a9.IsWhole
      → (a10 : Memref sig .scVector .vmem S832 .i32) → a10.IsWhole → (a11 : Memref sig .scVector .vmem S832 .i32) → a11.IsWhole
      → DmaSems sig S_ → DmaSems sig S_ → DmaSems sig S_ → DmaSems sig S_ → DmaSems sig S_ → DmaSems sig S_ → β i) : β L :=
  f L tV1 (Memref.isWhole_whole _) tV2 (Memref.isWhole_whole _) tV3 (Memref.isWhole_whole _)
    sTab (Memref.isWhole_whole _) sSA (Memref.isWhole_whole _) sDA (Memref.isWhole_whole _) sSB (Memref.isWhole_whole _) sDB (Memref.isWhole_whole _)
    sCA (Memref.isWhole_whole _) sCB (Memref.isWhole_whole _) cc0_scratch7 cc0_scratch8 cc0_scratch9 cc0_scratch10 cc0_scratch11 cc0_scratch12

end Cert.KernelIdeal.Sc

end
-- ==== Proof.Sc.PartsC.lean ====
import proofs.«212098_g24275155157491_cont_8to1_80_30_alg».proof.Proof.Sc.Inv
import proofs.«212098_g24275155157491_cont_8to1_80_30_alg».proof.Proof.Sc.AtTile

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

-- The sixteen words from `o` on of an id buffer.
abbrev vecAt (B : Memref sig .scVector .vmem S208 .i32) (f : B.view.ty.Contents (Elt F)) (o : ℕ)
    (h : ∀ a, (![o] : Fin 1 → ℕ) a + S16.size a ≤ S208.size a) :=
  B.view.readAt (Elt F) (Rect.unit (s := S208) ![o] S16.size h).toLoadRect f

section PartsC
variable (d : Dev nD) (L : grid0.Coords)

theorem part2 {α : Type} {Q : α → sProp 𝕄} (hpre : PreOK m) (O : CellTallies nD τ sig (HIx 1)) (W : Waits sig (HIx 1))
    (v2 c0 c1 : BitVec 32) (k : Fin k0_t2_loop.trips) (j : Fin 1024)
    (kont : (Σ' (arg18 : BitVec 32) (v37 : BitVec 32) (v46 : Vec F S16 .i32) (k0_hw1 : k0_chk1 v46) (v47 : Vec F S16 .i32) (k0_hw2 : k0_chk2 v47) (v48 : Vec F S16 .i32) (k0_hw3 : k0_chk3 v48) (v49 : Vec F S16 .i32) (k0_hw4 : k0_chk4 v49) (v50 : Vec F S16 .i32) (k0_hw5 : k0_chk5 v50) (v51 : Vec F S16 .i32) (k0_hw6 : k0_chk6 v51) (v52 : Vec F S16 .i32) (k0_hw7 : k0_chk7 v52) (v53 : Vec F S16 .i32) (k0_hw8 : k0_chk8 v53) (v54 : Vec F S16 .i32) (k0_hw9 : k0_chk9 v54) (v55 : Vec F S16 .i32) (k0_hw10 : k0_chk10 v55) (v56 : Vec F S16 .i32) (k0_hw11 : k0_chk11 v56) (v57 : Vec F S16 .i32) (k0_hw12 : k0_chk12 v57) (v58 : Vec F S16 .i32) (k0_hw13 : k0_chk13 v58) (v59 : Vec F S16 .i32), k0_chk14 v59) → Prog (TpuEff nD τ sig (Elt F) Λ₀ (thrV d L).2) α) :
    iprop(□ Transfers.MayWaits (thrV d L) (none : HIx 1) O
        ∗ idFlight d L cc0_scratch7 sSA (rowBufSA m d L j) (v1Row m d j)
        ∗ idFlight d L cc0_scratch8 sDA (rowBufDA m d L j) (v2Row m d j)
        ∗ owes (thrV d L) O W
        ∗ (iprop((sSA.view.loc (thrV d L) ↦{fullShare} rowBufSA m d L j) ∗ v1Row m d j
              ∗ semVal (cellV d L cc0_scratch7) 0
              ∗ (sDA.view.loc (thrV d L) ↦{fullShare} rowBufDA m d L j) ∗ v2Row m d j
              ∗ semVal (cellV d L cc0_scratch8) 0
              ∗ owes (thrV d L) O (insert (SemLoc.dma cc0_scratch8.sem, (default : HIx 1)) (insert (SemLoc.dma cc0_scratch7.sem, (default : HIx 1)) W)))
            -∗ wp frame (wpE (defs₀ (F := F)) 𝒱₀ (thrV d L) none) Set.univ
                (kont ⟨Scf.iv c0 c1 k,
              Scalar.addi v2 (Scalar.muli 2#32 (Scf.iv c0 c1 k)),
              vecAt sSA (rowBufSA m d L j) 0 inb_S208_S16_0, chk1_of m d L hpre j 0 inb_S208_S16_0,
              vecAt sSA (rowBufSA m d L j) 16 inb_S208_S16_16, chk2_of m d L hpre j 16 inb_S208_S16_16,
              vecAt sSA (rowBufSA m d L j) 32 inb_S208_S16_32, chk3_of m d L hpre j 32 inb_S208_S16_32,
              vecAt sSA (rowBufSA m d L j) 48 inb_S208_S16_48, chk4_of m d L hpre j 48 inb_S208_S16_48,
              vecAt sSA (rowBufSA m d L j) 64 inb_S208_S16_64, chk5_of m d L hpre j 64 inb_S208_S16_64,
              vecAt sSA (rowBufSA m d L j) 80 inb_S208_S16_80, chk6_of m d L hpre j 80 inb_S208_S16_80,
              vecAt sSA (rowBufSA m d L j) 96 inb_S208_S16_96, chk7_of m d L hpre j 96 inb_S208_S16_96,
              vecAt sSA (rowBufSA m d L j) 112 inb_S208_S16_112, chk8_of m d L hpre j 112 inb_S208_S16_112,
              vecAt sSA (rowBufSA m d L j) 128 inb_S208_S16_128, chk9_of m d L hpre j 128 inb_S208_S16_128,
              vecAt sSA (rowBufSA m d L j) 144 inb_S208_S16_144, chk10_of m d L hpre j 144 inb_S208_S16_144,
              vecAt sSA (rowBufSA m d L j) 160 inb_S208_S16_160, chk11_of m d L hpre j 160 inb_S208_S16_160,
              vecAt sSA (rowBufSA m d L j) 176 inb_S208_S16_176, chk12_of m d L hpre j 176 inb_S208_S16_176,
              vecAt sSA (rowBufSA m d L j) 192 inb_S208_S16_192, chk13_of m d L hpre j 192 inb_S208_S16_192,
              vecAt sDA (rowBufDA m d L j) 0 inb_S208_S16_0, chk14_of m d L hpre j 0 inb_S208_S16_0⟩) Q))
      ⊢ wp frame (wpE (defs₀ (F := F)) 𝒱₀ (thrV d L) none) Set.univ
          (atTile L k0_part2 v2 c0 c1 k >>= kont) Q := by
  iintro ⟨#Hmw, Hf7, Hf8, HO, Hk⟩
  unfold atTile; rw [k0_part2_eq_skeleton]; unfold k0_part2_skel
  sl_exec (disch := first
    | sl_exact chk1_of m d L hpre _ _ _
    | sl_exact chk2_of m d L hpre _ _ _
    | sl_exact chk3_of m d L hpre _ _ _
    | sl_exact chk4_of m d L hpre _ _ _
    | sl_exact chk5_of m d L hpre _ _ _
    | sl_exact chk6_of m d L hpre _ _ _
    | sl_exact chk7_of m d L hpre _ _ _
    | sl_exact chk8_of m d L hpre _ _ _
    | sl_exact chk9_of m d L hpre _ _ _
    | sl_exact chk10_of m d L hpre _ _ _
    | sl_exact chk11_of m d L hpre _ _ _
    | sl_exact chk12_of m d L hpre _ _ _
    | sl_exact chk13_of m d L hpre _ _ _
    | sl_exact chk14_of m d L hpre _ _ _)
  iapply Hk
  isplitl [Hf7_dst]; · iexact Hf7_dst
  isplitl [Hf7_src]; · iexact Hf7_src
  isplitl [Hf7]; · iexact Hf7
  isplitl [Hf8_dst]; · iexact Hf8_dst
  isplitl [Hf8_src]; · iexact Hf8_src
  isplitl [Hf8]; · iexact Hf8
  iexact HO

theorem part14 {α : Type} {Q : α → sProp 𝕄} (hpre : PreOK m) (j : Fin 1024)
    (kont : (Σ' (v409 : Vec F S16 .i32) (k0_hw32 : k0_chk32 v409) (v410 : Vec F S16 .i32) (k0_hw33 : k0_chk33 v410) (v411 : Vec F S16 .i32) (k0_hw34 : k0_chk34 v411) (v412 : Vec F S16 .i32) (k0_hw35 : k0_chk35 v412) (v413 : Vec F S16 .i32) (k0_hw36 : k0_chk36 v413) (v414 : Vec F S16 .i32) (k0_hw37 : k0_chk37 v414) (v415 : Vec F S16 .i32) (k0_hw38 : k0_chk38 v415) (v416 : Vec F S16 .i32) (k0_hw39 : k0_chk39 v416) (v417 : Vec F S16 .i32) (k0_hw40 : k0_chk40 v417) (v418 : Vec F S16 .i32) (k0_hw41 : k0_chk41 v418) (v419 : Vec F S16 .i32) (k0_hw42 : k0_chk42 v419) (v420 : Vec F S16 .i32) (k0_hw43 : k0_chk43 v420) (v421 : Vec F S16 .i32) (k0_hw44 : k0_chk44 v421) (v422 : Vec F S16 .i32) (k0_hw45 : k0_chk45 v422) (v423 : Vec F S16 .i32) (k0_hw46 : k0_chk46 v423) (v424 : Vec F S16 .i32) (k0_hw47 : k0_chk47 v424) (v425 : Vec F S16 .i32) (k0_hw48 : k0_chk48 v425) (v426 : Vec F S16 .i32) (k0_hw49 : k0_chk49 v426) (v427 : Vec F S16 .i32) (k0_hw50 : k0_chk50 v427) (v428 : Vec F S16 .i32), k0_chk51 v428) → Prog (TpuEff nD τ sig (Elt F) Λ₀ (thrV d L).2) α) :
    iprop((sSB.view.loc (thrV d L) ↦{fullShare} rowBufSB m d L j)
        ∗ (sDB.view.loc (thrV d L) ↦{fullShare} rowBufDB m d L j)
        ∗ (iprop((sSB.view.loc (thrV d L) ↦{fullShare} rowBufSB m d L j)
              ∗ (sDB.view.loc (thrV d L) ↦{fullShare} rowBufDB m d L j))
            -∗ wp frame (wpE (defs₀ (F := F)) 𝒱₀ (thrV d L) none) Set.univ
                (kont ⟨vecAt sSB (rowBufSB m d L j) 80 inb_S208_S16_80, chk32_of m d L hpre j 80 inb_S208_S16_80,
              vecAt sSB (rowBufSB m d L j) 96 inb_S208_S16_96, chk33_of m d L hpre j 96 inb_S208_S16_96,
              vecAt sSB (rowBufSB m d L j) 112 inb_S208_S16_112, chk34_of m d L hpre j 112 inb_S208_S16_112,
              vecAt sSB (rowBufSB m d L j) 128 inb_S208_S16_128, chk35_of m d L hpre j 128 inb_S208_S16_128,
              vecAt sSB (rowBufSB m d L j) 144 inb_S208_S16_144, chk36_of m d L hpre j 144 inb_S208_S16_144,
              vecAt sSB (rowBufSB m d L j) 160 inb_S208_S16_160, chk37_of m d L hpre j 160 inb_S208_S16_160,
              vecAt sSB (rowBufSB m d L j) 176 inb_S208_S16_176, chk38_of m d L hpre j 176 inb_S208_S16_176,
              vecAt sSB (rowBufSB m d L j) 192 inb_S208_S16_192, chk39_of m d L hpre j 192 inb_S208_S16_192,
              vecAt sDB (rowBufDB m d L j) 0 inb_S208_S16_0, chk40_of m d L hpre j 0 inb_S208_S16_0,
              vecAt sDB (rowBufDB m d L j) 16 inb_S208_S16_16, chk41_of m d L hpre j 16 inb_S208_S16_16,
              vecAt sDB (rowBufDB m d L j) 32 inb_S208_S16_32, chk42_of m d L hpre j 32 inb_S208_S16_32,
              vecAt sDB (rowBufDB m d L j) 48 inb_S208_S16_48, chk43_of m d L hpre j 48 inb_S208_S16_48,
              vecAt sDB (rowBufDB m d L j) 64 inb_S208_S16_64, chk44_of m d L hpre j 64 inb_S208_S16_64,
              vecAt sDB (rowBufDB m d L j) 80 inb_S208_S16_80, chk45_of m d L hpre j 80 inb_S208_S16_80,
              vecAt sDB (rowBufDB m d L j) 96 inb_S208_S16_96, chk46_of m d L hpre j 96 inb_S208_S16_96,
              vecAt sDB (rowBufDB m d L j) 112 inb_S208_S16_112, chk47_of m d L hpre j 112 inb_S208_S16_112,
              vecAt sDB (rowBufDB m d L j) 128 inb_S208_S16_128, chk48_of m d L hpre j 128 inb_S208_S16_128,
              vecAt sDB (rowBufDB m d L j) 144 inb_S208_S16_144, chk49_of m d L hpre j 144 inb_S208_S16_144,
              vecAt sDB (rowBufDB m d L j) 160 inb_S208_S16_160, chk50_of m d L hpre j 160 inb_S208_S16_160,
              vecAt sDB (rowBufDB m d L j) 176 inb_S208_S16_176, chk51_of m d L hpre j 176 inb_S208_S16_176⟩) Q))
      ⊢ wp frame (wpE (defs₀ (F := F)) 𝒱₀ (thrV d L) none) Set.univ
          (atTile L k0_part14 >>= kont) Q := by
  iintro ⟨HSB, HDB, Hk⟩
  unfold atTile; rw [k0_part14_eq_skeleton]; unfold k0_part14_skel
  sl_exec (disch := first
    | sl_exact chk32_of m d L hpre _ _ _
    | sl_exact chk33_of m d L hpre _ _ _
    | sl_exact chk34_of m d L hpre _ _ _
    | sl_exact chk35_of m d L hpre _ _ _
    | sl_exact chk36_of m d L hpre _ _ _
    | sl_exact chk37_of m d L hpre _ _ _
    | sl_exact chk38_of m d L hpre _ _ _
    | sl_exact chk39_of m d L hpre _ _ _
    | sl_exact chk40_of m d L hpre _ _ _
    | sl_exact chk41_of m d L hpre _ _ _
    | sl_exact chk42_of m d L hpre _ _ _
    | sl_exact chk43_of m d L hpre _ _ _
    | sl_exact chk44_of m d L hpre _ _ _
    | sl_exact chk45_of m d L hpre _ _ _
    | sl_exact chk46_of m d L hpre _ _ _
    | sl_exact chk47_of m d L hpre _ _ _
    | sl_exact chk48_of m d L hpre _ _ _
    | sl_exact chk49_of m d L hpre _ _ _
    | sl_exact chk50_of m d L hpre _ _ _
    | sl_exact chk51_of m d L hpre _ _ _)
  iapply Hk
  iframe HSB HDB

end PartsC

end Cert.KernelIdeal.Sc

end
-- ==== Proof.ScMath.lean ====
import proofs.«212098_g24275155157491_cont_8to1_80_30_alg».proof.Proof.Spec
import Mathlib.Data.Fintype.Basic
import Mathlib.Data.Finset.Card

namespace Cert.ScMath

open Idealize.ShloMosaic Idealize.ShloMosaic.ValueIdx

abbrev STab : Shape := ⟨1, ![100096]⟩
abbrev SLane : Shape := ⟨1, ![16]⟩
abbrev SRow : Shape := ⟨1, ![208]⟩

section OneVector
variable {F : FTy → Type} [FloatOps F] {n c : ℕ}

-- What lane `k` leaves of the table: the stored word (added onto the old one under `add`) at the index the lane names.
def laneWrite (iv p : IVec ⟨1, ![c]⟩ 32) (add : Bool) (g : IVec ⟨1, ![n]⟩ 32) (k : Fin c) : IVec ⟨1, ![n]⟩ 32 :=
  fun j => if (iv (ix1 k)).toNat = (j 0).val then (if add then g j + p (ix1 k) else p (ix1 k)) else g j

-- With every mask bit set the store is the lanes' writes in ascending order.
theorem storeIdx_eq_foldl (f : IVec ⟨1, ![n]⟩ 32) (iv p : IVec ⟨1, ![c]⟩ 32) (m : IVec ⟨1, ![c]⟩ 1) (hm : ∀ x, m x = 1#1) (add : Bool)
    (h : ∀ a x, ((![iv] : Fin 1 → IVec ⟨1, ![c]⟩ 32) a x).toNat < (⟨1, ![n]⟩ : Shape).size a) :
    storeIdx (F := F) (s := ⟨1, ![n]⟩) (e := .i32) f ![iv] p m add h = (List.finRange c).foldl (laneWrite iv p add) f := by
  unfold storeIdx
  congr 1
  funext g k
  have hk : Shape.ofLane (d := ![c]) k = ix1 (n := c) k := by funext a; apply Fin.ext; rw [Fin.eq_zero a]; rfl
  simp only [hm, hk]
  rw [if_pos (show (1#1 : BitVec 1) = 1 from rfl)]
  funext j
  unfold laneWrite
  by_cases hc : (iv (ix1 k)).toNat = (j 0).val
  · have hi : idxAt (s := ⟨1, ![n]⟩) ![iv] h (ix1 k) = j := by
      funext a; apply Fin.ext; rw [Fin.eq_zero a]; exact hc
    rw [if_pos hc, if_pos (fun a => by rw [hi]), hi]
    rfl
  · rw [if_neg hc, if_neg (fun H => hc (H 0).symm)]

theorem countP_finRange {m : ℕ} (q : Fin m → Prop) [DecidablePred q] :
    (List.finRange m).countP (fun k => decide (q k)) = (Finset.univ.filter q).card := by
  rw [List.countP_eq_length_filter, Finset.card_def, Finset.filter_val, Finset.val_univ_fin, Multiset.filter_coe,
    Multiset.coe_card]

-- Storing ones with the add flag adds, at every index, the number of lanes that name it.
theorem storeIdx_add_ones (f : IVec ⟨1, ![n]⟩ 32) (iv p : IVec ⟨1, ![c]⟩ 32) (m : IVec ⟨1, ![c]⟩ 1)
    (hp : ∀ x, p x = 1#32) (hm : ∀ x, m x = 1#1)
    (h : ∀ a x, ((![iv] : Fin 1 → IVec ⟨1, ![c]⟩ 32) a x).toNat < (⟨1, ![n]⟩ : Shape).size a) :
    storeIdx (F := F) (s := ⟨1, ![n]⟩) (e := .i32) f ![iv] p m true h
      = fun j => f j + BitVec.ofNat 32 (Finset.univ.filter fun x : Fin c => (iv (ix1 x)).toNat = (j 0).val).card := by
  rw [storeIdx_eq_foldl f iv p m hm true h]
  funext j
  rw [← countP_finRange]
  generalize List.finRange c = L
  induction L generalizing f with
  | nil => simp
  | cons k L ih =>
    rw [List.foldl_cons, ih, List.countP_cons]
    unfold laneWrite
    by_cases hc : (iv (ix1 k)).toNat = (j 0).val
    · rw [if_pos hc, hp, if_pos rfl, decide_eq_true hc, if_pos rfl, BitVec.ofNat_add, BitVec.add_assoc, BitVec.add_comm (1#32)]
    · rw [if_neg hc, decide_eq_false hc, if_neg Bool.false_ne_true, Nat.add_zero]

-- Storing zeros clears every index some lane names and keeps the rest.
theorem storeIdx_zeros (f : IVec ⟨1, ![n]⟩ 32) (iv p : IVec ⟨1, ![c]⟩ 32) (m : IVec ⟨1, ![c]⟩ 1)
    (hp : ∀ x, p x = 0#32) (hm : ∀ x, m x = 1#1)
    (h : ∀ a x, ((![iv] : Fin 1 → IVec ⟨1, ![c]⟩ 32) a x).toNat < (⟨1, ![n]⟩ : Shape).size a) :
    storeIdx (F := F) (s := ⟨1, ![n]⟩) (e := .i32) f ![iv] p m false h
      = fun j => if ∃ x : Fin c, (iv (ix1 x)).toNat = (j 0).val then 0#32 else f j := by
  rw [storeIdx_eq_foldl f iv p m hm false h]
  funext j
  have key : ∀ (L : List (Fin c)) (f : IVec ⟨1, ![n]⟩ 32), L.foldl (laneWrite iv p false) f j
      = if ∃ k ∈ L, (iv (ix1 k)).toNat = (j 0).val then 0#32 else f j := by
    intro L
    induction L with
    | nil => intro f; simp
    | cons k L ih =>
      intro f
      rw [List.foldl_cons, ih]
      unfold laneWrite
      by_cases h1 : (iv (ix1 k)).toNat = (j 0).val <;> by_cases h2 : ∃ k' ∈ L, (iv (ix1 k')).toNat = (j 0).val <;>
        simp [h1, h2, hp]
  rw [key]
  simp only [List.mem_finRange, true_and]

-- An indexed load reads the table at the index the lane's word names.
theorem loadIdx_apply (f : IVec ⟨1, ![n]⟩ 32) (iv : IVec ⟨1, ![c]⟩ 32)
    (h : ∀ a x, ((![iv] : Fin 1 → IVec ⟨1, ![c]⟩ 32) a x).toNat < (⟨1, ![n]⟩ : Shape).size a) (x : (⟨1, ![c]⟩ : Shape).Idx) :
    loadIdx (F := F) (s := ⟨1, ![n]⟩) (e := .i32) f ![iv] h x = f (ix1 ⟨(iv x).toNat, h 0 x⟩) := by
  unfold loadIdx
  congr 1
  funext a; apply Fin.ext; rw [Fin.eq_zero a]; rfl

end OneVector

section Row
variable {F : FTy → Type} [FloatOps F]

def rowVec (r : IVec SRow 32) (v : Fin 13) : IVec SLane 32 :=
  fun x => r (ix1 ⟨16 * v.val + (x 0).val, by have h1 : (x 0).val < 16 := (x 0).isLt; have h2 := v.isLt; omega⟩)

def occRow (r : IVec SRow 32) (w : BitVec 32) : ℕ := (Finset.univ.filter fun l : Fin 208 => r (ix1 l) = w).card

def occBelow (r : IVec SRow 32) (a : ℕ) (w : BitVec 32) : ℕ :=
  (Finset.univ.filter fun l : Fin 208 => l.val < a ∧ r (ix1 l) = w).card

def addedTab (f : IVec STab 32) (r : IVec SRow 32) (a : ℕ) : IVec STab 32 :=
  fun j => f j + BitVec.ofNat 32 (occBelow r a (BitVec.ofNat 32 (j 0).val))

def clearedTab (f : IVec STab 32) (r : IVec SRow 32) (a : ℕ) : IVec STab 32 :=
  fun j => if ∃ l : Fin 208, l.val < a ∧ r (ix1 l) = BitVec.ofNat 32 (j 0).val then 0#32 else f j

def countTab (r : IVec SRow 32) : IVec STab 32 := fun j => BitVec.ofNat 32 (occRow r (BitVec.ofNat 32 (j 0).val))

-- The table is shorter than 2 ^ 32, so a word names the index `j` exactly when it is the word `j`.
theorem toNat_eq_iff (j : STab.Idx) (w : BitVec 32) : w.toNat = (j 0).val ↔ w = BitVec.ofNat 32 (j 0).val := by
  have hj : (j 0).val < 100096 := (j 0).isLt
  constructor
  · intro e; rw [← e, BitVec.ofNat_toNat, BitVec.setWidth_eq]
  · intro e; rw [e, BitVec.toNat_ofNat]; exact Nat.mod_eq_of_lt (by omega)

-- The positions below `a + 16` are those below `a` and the sixteen from `a` on.
theorem card_split (P : Fin 208 → Prop) [DecidablePred P] (a : ℕ) (ha : a + 16 ≤ 208) :
    (Finset.univ.filter fun l : Fin 208 => l.val < a + 16 ∧ P l).card
      = (Finset.univ.filter fun l : Fin 208 => l.val < a ∧ P l).card
        + (Finset.univ.filter fun x : Fin 16 => P ⟨a + x.val, by omega⟩).card := by
  let emb : Fin 16 ↪ Fin 208 := ⟨fun x => ⟨a + x.val, by omega⟩, fun x y e => by
    have := congrArg Fin.val e; simp only at this; exact Fin.ext (by omega)⟩
  have e : (Finset.univ.filter fun l : Fin 208 => l.val < a + 16 ∧ P l)
      = (Finset.univ.filter fun l : Fin 208 => l.val < a ∧ P l) ∪ (Finset.univ.filter fun x : Fin 16 => P (emb x)).map emb := by
    ext l
    simp only [Finset.mem_union, Finset.mem_filter, Finset.mem_univ, true_and, Finset.mem_map]
    constructor
    · rintro ⟨h1, h2⟩
      by_cases hl : l.val < a
      · exact Or.inl ⟨hl, h2⟩
      · have hx : emb ⟨l.val - a, by omega⟩ = l := Fin.ext (by show a + (l.val - a) = l.val; omega)
        refine Or.inr ⟨⟨l.val - a, by omega⟩, ?_, hx⟩
        rw [hx]; exact h2
    · rintro (⟨h1, h2⟩ | ⟨x, hx, rfl⟩)
      · exact ⟨by omega, h2⟩
      · exact ⟨by show a + x.val < a + 16; omega, hx⟩
  have hd : Disjoint (Finset.univ.filter fun l : Fin 208 => l.val < a ∧ P l) ((Finset.univ.filter fun x : Fin 16 => P (emb x)).map emb) := by
    rw [Finset.disjoint_left]
    intro l h1 h2
    simp only [Finset.mem_filter, Finset.mem_univ, true_and, Finset.mem_map] at h1 h2
    obtain ⟨x, -, rfl⟩ := h2
    have : a + x.val < a := h1.1
    omega
  rw [e, Finset.card_union_of_disjoint hd, Finset.card_map]
  rfl

theorem addedTab_step' (f : IVec STab 32) (r : IVec SRow 32) (v : Fin 13) (a b : ℕ) (ha : a = 16 * v.val) (hb : b = a + 16)
    (iv p : IVec SLane 32) (m : IVec SLane 1) (hiv : ∀ x, iv x = rowVec r v x) (hp : ∀ x, p x = 1#32) (hm : ∀ x, m x = 1#1)
    (h : ∀ a x, ((![iv] : Fin 1 → IVec SLane 32) a x).toNat < STab.size a) :
    storeIdx (F := F) (s := STab) (e := .i32) (addedTab f r a) ![iv] p m true h = addedTab f r b := by
  rw [storeIdx_add_ones (addedTab f r a) iv p m hp hm h]
  funext j
  have hv := v.isLt
  subst ha hb
  unfold addedTab
  rw [BitVec.add_assoc, ← BitVec.ofNat_add]
  congr 2
  unfold occBelow
  rw [card_split (fun l => r (ix1 l) = BitVec.ofNat 32 (j 0).val) (16 * v.val) (by omega)]
  congr 1
  apply congrArg Finset.card
  apply Finset.filter_congr
  intro x _
  rw [hiv, toNat_eq_iff]
  rfl

theorem addedTab_zero (f : IVec STab 32) (r : IVec SRow 32) : addedTab f r 0 = f := by
  funext j
  unfold addedTab occBelow
  simp

theorem addedTab_full (r : IVec SRow 32) : addedTab (fun _ => 0#32) r 208 = countTab r := by
  funext j
  unfold addedTab occBelow countTab occRow
  rw [BitVec.zero_add]
  congr 2
  apply Finset.filter_congr
  intro l _
  simp only [l.isLt, true_and]

theorem clearedTab_step' (f : IVec STab 32) (r : IVec SRow 32) (v : Fin 13) (a b : ℕ) (ha : a = 16 * v.val) (hb : b = a + 16)
    (iv p : IVec SLane 32) (m : IVec SLane 1) (hiv : ∀ x, iv x = rowVec r v x) (hp : ∀ x, p x = 0#32) (hm : ∀ x, m x = 1#1)
    (h : ∀ a x, ((![iv] : Fin 1 → IVec SLane 32) a x).toNat < STab.size a) :
    storeIdx (F := F) (s := STab) (e := .i32) (clearedTab f r a) ![iv] p m false h = clearedTab f r b := by
  rw [storeIdx_zeros (clearedTab f r a) iv p m hp hm h]
  funext j
  have hv := v.isLt
  subst ha hb
  unfold clearedTab
  have key : (∃ l : Fin 208, l.val < 16 * v.val + 16 ∧ r (ix1 l) = BitVec.ofNat 32 (j 0).val)
      ↔ (∃ x : Fin 16, (iv (ix1 x)).toNat = (j 0).val) ∨ (∃ l : Fin 208, l.val < 16 * v.val ∧ r (ix1 l) = BitVec.ofNat 32 (j 0).val) := by
    constructor
    · rintro ⟨l, hl, e⟩
      by_cases hlt : l.val < 16 * v.val
      · exact Or.inr ⟨l, hlt, e⟩
      · have hx : rowVec r v (ix1 ⟨l.val - 16 * v.val, by omega⟩) = r (ix1 l) := by
          unfold rowVec
          congr 2
          exact Fin.ext (by show 16 * v.val + (l.val - 16 * v.val) = l.val; omega)
        refine Or.inl ⟨⟨l.val - 16 * v.val, by omega⟩, ?_⟩
        rw [hiv, toNat_eq_iff, hx]; exact e
    · rintro (⟨x, e⟩ | ⟨l, hl, e⟩)
      · rw [hiv, toNat_eq_iff] at e
        exact ⟨⟨16 * v.val + x.val, by omega⟩, by show 16 * v.val + x.val < 16 * v.val + 16; omega, e⟩
      · exact ⟨l, by omega, e⟩
  simp only [key, ite_or]

theorem clearedTab_zero (f : IVec STab 32) (r : IVec SRow 32) : clearedTab f r 0 = f := by
  funext j
  unfold clearedTab
  rw [if_neg]
  rintro ⟨l, hl, -⟩
  omega

theorem clearedTab_full (r : IVec SRow 32) : clearedTab (countTab r) r 208 = fun _ => 0#32 := by
  funext j
  unfold clearedTab
  by_cases h : ∃ l : Fin 208, l.val < 208 ∧ r (ix1 l) = BitVec.ofNat 32 (j 0).val
  · rw [if_pos h]
  · rw [if_neg h]
    unfold countTab occRow
    rw [Finset.filter_eq_empty_iff.2 fun l _ e => h ⟨l, l.isLt, e⟩, Finset.card_empty]

-- Loading from a row's count table gives, lane by lane, how often the lane's word occurs in the row.
theorem loadIdx_countTab' (r : IVec SRow 32) (iv : IVec SLane 32)
    (h : ∀ a x, ((![iv] : Fin 1 → IVec SLane 32) a x).toNat < STab.size a) (x : SLane.Idx) :
    loadIdx (F := F) (s := STab) (e := .i32) (countTab r) ![iv] h x = BitVec.ofNat 32 (occRow r (iv x)) := by
  rw [loadIdx_apply]
  unfold countTab
  show BitVec.ofNat 32 (occRow r (BitVec.ofNat 32 (iv x).toNat)) = _
  rw [BitVec.ofNat_toNat, BitVec.setWidth_eq]

end Row

theorem occRow_eq_occP (y : IVec Cert.Spec.SPad 32) (b : Fin 1024) (r : IVec SRow 32)
    (hr : ∀ l : Fin 208, r (ix1 l) = y (ix2 b l)) (w : BitVec 32) : occRow r w = Cert.Spec.occP y b w := by
  unfold occRow Cert.Spec.occP
  congr 1
  apply Finset.filter_congr
  intro l _
  rw [hr]

-- The kept word, zero for the zero id and else the id's count in the other row, is the specification's frequency.
theorem freq_eq_freqP (y' y : IVec Cert.Spec.SPad 32) (b : Fin 1024) (r' r : IVec SRow 32)
    (hr' : ∀ l : Fin 208, r' (ix1 l) = y' (ix2 b l)) (hr : ∀ l : Fin 208, r (ix1 l) = y (ix2 b l)) (l : Fin 208) :
    (if r' (ix1 l) = 0#32 then 0#32 else BitVec.ofNat 32 (occRow r (r' (ix1 l)))) = Cert.Spec.freqP y' y b l := by
  unfold Cert.Spec.freqP
  rw [hr', occRow_eq_occP y b r hr]

end Cert.ScMath
-- ==== Proof.CntMath.lean ====
import proofs.«212098_g24275155157491_cont_8to1_80_30_alg».proof.Proof.ScMath
import Idealize.ShloMosaic.Lib.Writes

namespace Cert.ScMath

open Idealize.ShloMosaic Idealize.ShloMosaic.ValueIdx

abbrev SFreq : Shape := ⟨1, ![832]⟩

def fq (r' r : IVec SRow 32) (l : Fin 208) : BitVec 32 :=
  if r' (ix1 l) = 0#32 then 0#32 else BitVec.ofNat 32 (occRow r (r' (ix1 l)))

def tgtRow (rS rD : IVec SRow 32) : IVec SFreq 32 := fun p =>
  if h0 : (p 0).val < 208 then fq rS rS ⟨(p 0).val, h0⟩
  else if h1 : (p 0).val < 416 then fq rS rD ⟨(p 0).val - 208, by omega⟩
  else if h2 : (p 0).val < 624 then fq rD rD ⟨(p 0).val - 416, by omega⟩
  else fq rD rS ⟨(p 0).val - 624, by have h3 : (p 0).val < 832 := (p 0).isLt; omega⟩

theorem tgtRow_eq_counts (X Y : IVec Cert.Spec.SPad 32) (b : Fin 1024) (rS rD : IVec SRow 32)
    (hS : ∀ l : Fin 208, rS (ix1 l) = X (ix2 b l)) (hD : ∀ l : Fin 208, rD (ix1 l) = Y (ix2 b l)) (p : Fin 832) :
    tgtRow rS rD (ix1 p) = Cert.Spec.counts X Y (ix2 b p) := by
  unfold tgtRow Cert.Spec.counts
  show (if h0 : p.val < 208 then _ else _) = (if h0 : p.val < 208 then _ else _)
  by_cases h0 : p.val < 208
  · rw [dif_pos h0, dif_pos h0]; exact freq_eq_freqP X X b rS rS hS hS _
  · rw [dif_neg h0, dif_neg h0]
    by_cases h1 : p.val < 416
    · rw [dif_pos h1, dif_pos h1]; exact freq_eq_freqP X Y b rS rD hS hD _
    · rw [dif_neg h1, dif_neg h1]
      by_cases h2 : p.val < 624
      · rw [dif_pos h2, dif_pos h2]; exact freq_eq_freqP Y Y b rD rD hD hD _
      · rw [dif_neg h2, dif_neg h2]; exact freq_eq_freqP Y X b rD rS hD hS _

def filled (n0 n1 n2 n3 y : ℕ) : Prop :=
  (y < 208 ∧ y < 16 * n0) ∨ (208 ≤ y ∧ y < 416 ∧ y < 208 + 16 * n1) ∨ (416 ≤ y ∧ y < 624 ∧ y < 416 + 16 * n2)
    ∨ (624 ≤ y ∧ y < 624 + 16 * n3)

instance (n0 n1 n2 n3 y : ℕ) : Decidable (filled n0 n1 n2 n3 y) := by unfold filled; infer_instance

def cntAt (tgt base : IVec SFreq 32) (n0 n1 n2 n3 : ℕ) : IVec SFreq 32 :=
  fun p => if filled n0 n1 n2 n3 (p 0).val then tgt p else base p

theorem cntAt_none (tgt base : IVec SFreq 32) : cntAt tgt base 0 0 0 0 = base := by
  funext p
  unfold cntAt
  rw [if_neg]
  unfold filled
  omega

theorem cntAt_full (tgt base : IVec SFreq 32) : cntAt tgt base 13 13 13 13 = tgt := by
  funext p
  have h : (p 0).val < 832 := (p 0).isLt
  unfold cntAt
  rw [if_pos]
  unfold filled
  omega

def pieceAt (f : IVec SFreq 32) (off : ℕ) (w : IVec SLane 32) : IVec SFreq 32 := fun y =>
  if h : off ≤ (y 0).val ∧ (y 0).val < off + 16 then w (ix1 ⟨(y 0).val - off, by omega⟩) else f y

theorem pieceAt_cntAt (tgt base : IVec SFreq 32) (n0 n1 n2 n3 m0 m1 m2 m3 off : ℕ) (w : IVec SLane 32)
    (hf : ∀ y, y < 832 → (filled m0 m1 m2 m3 y ↔ filled n0 n1 n2 n3 y ∨ (off ≤ y ∧ y < off + 16)))
    (hw : ∀ (x : SLane.Idx) (hx : off + (x 0).val < 832), w x = tgt (ix1 ⟨off + (x 0).val, hx⟩)) :
    pieceAt (cntAt tgt base n0 n1 n2 n3) off w = cntAt tgt base m0 m1 m2 m3 := by
  funext y
  have hy : (y 0).val < 832 := (y 0).isLt
  unfold pieceAt cntAt
  by_cases h : off ≤ (y 0).val ∧ (y 0).val < off + 16
  · rw [dif_pos h, if_pos ((hf _ hy).2 (Or.inr h))]
    rw [hw _ (by show off + ((y 0).val - off) < 832; omega)]
    congr 1
    funext a
    apply Fin.ext
    rw [Fin.eq_zero a]
    show off + ((y 0).val - off) = (y 0).val
    omega
  · rw [dif_neg h]
    by_cases hn : filled n0 n1 n2 n3 (y 0).val
    · rw [if_pos hn, if_pos ((hf _ hy).2 (Or.inl hn))]
    · rw [if_neg hn, if_neg (fun hm => ((hf _ hy).1 hm).elim hn h)]

theorem filled_step0 (n0 n1 n2 n3 off : ℕ) (hoff : off = 16 * n0) (hn : n0 < 13) (y : ℕ) (_hy : y < 832) :
    filled (n0 + 1) n1 n2 n3 y ↔ filled n0 n1 n2 n3 y ∨ (off ≤ y ∧ y < off + 16) := by
  unfold filled; omega
theorem filled_step1 (n0 n1 n2 n3 off : ℕ) (hoff : off = 208 + 16 * n1) (hn : n1 < 13) (y : ℕ) (_hy : y < 832) :
    filled n0 (n1 + 1) n2 n3 y ↔ filled n0 n1 n2 n3 y ∨ (off ≤ y ∧ y < off + 16) := by
  unfold filled; omega
theorem filled_step2 (n0 n1 n2 n3 off : ℕ) (hoff : off = 416 + 16 * n2) (hn : n2 < 13) (y : ℕ) (_hy : y < 832) :
    filled n0 n1 (n2 + 1) n3 y ↔ filled n0 n1 n2 n3 y ∨ (off ≤ y ∧ y < off + 16) := by
  unfold filled; omega
theorem filled_step3 (n0 n1 n2 n3 off : ℕ) (hoff : off = 624 + 16 * n3) (hn : n3 < 13) (y : ℕ) (_hy : y < 832) :
    filled n0 n1 n2 (n3 + 1) y ↔ filled n0 n1 n2 n3 y ∨ (off ≤ y ∧ y < off + 16) := by
  unfold filled; omega

section Writes
variable {sig : RefSig} {κ : Kind} {sp : Space} {Val : EltTy → Type}

theorem read_writes_one (v : View sig κ sp SFreq .i32) (f : v.ty.Contents Val) (off : ℕ)
    (inb : ∀ a, (![off] : Fin 1 → ℕ) a + (![16] : Fin 1 → ℕ) a ≤ SFreq.size a) (w : (⟨1, ![16]⟩ : Shape).Idx → Val .i32) (y : SFreq.Idx) :
    v.read Val (v.writes Val f [⟨Rect.unit ![off] ![16] inb, w⟩]) y
      = if h : off ≤ (y 0).val ∧ (y 0).val < off + 16 then w (ix1 ⟨(y 0).val - off, by omega⟩) else v.read Val f y := by
  by_cases h : off ≤ (y 0).val ∧ (y 0).val < off + 16
  · rw [dif_pos h]
    have e : (Rect.unit ![off] ![16] inb).emb (ix1 ⟨(y 0).val - off, by omega⟩) = y := by
      funext a
      apply Fin.ext
      rw [Rect.emb_apply, Fin.eq_zero a]
      show off + 1 * ((y 0).val - off) = (y 0).val
      omega
    conv_lhs => rw [← e]
    exact View.read_writes_cons_emb v f (Rect.unit ![off] ![16] inb) w [] _
  · rw [dif_neg h]
    refine View.read_writes_apply_of_forall_not_mem v f y _ ?_
    intro p hp hy
    rw [List.mem_singleton] at hp
    subst hp
    rw [Rect.mem_set_unit] at hy
    have := hy 0
    exact h ⟨this.1, this.2⟩

end Writes

section Pay

theorem sel_apply (a c : IVec SLane 32) (x : SLane.Idx) :
    select (cmpi .eq a (broadcast SLane 0#32)) (broadcast SLane 0#32) c x = if a x = 0#32 then 0#32 else c x := by
  show Scalar.select (IntOp.cmpi .eq (a x) 0#32) 0#32 (c x) = _
  unfold Scalar.select IntOp.cmpi
  by_cases h : a x = 0#32
  · simp [h]
  · have hb : (a x == 0#32) = false := beq_eq_false_iff_ne.2 h
    simp [h, hb]

theorem pay_fq (r' r : IVec SRow 32) (v : Fin 13) (iv : IVec SLane 32) (hiv : ∀ x, iv x = rowVec r' v x)
    (c : IVec SLane 32) (hc : ∀ x, c x = BitVec.ofNat 32 (occRow r (iv x))) (x : SLane.Idx) :
    select (cmpi .eq iv (broadcast SLane 0#32)) (broadcast SLane 0#32) c x
      = fq r' r ⟨16 * v.val + (x 0).val, by have h1 : (x 0).val < 16 := (x 0).isLt; have h2 := v.isLt; omega⟩ := by
  rw [sel_apply, hc, hiv]
  rfl

theorem tgtRow_q0 (rS rD : IVec SRow 32) (l : ℕ) (hl : l < 208) (h : l < 832) : tgtRow rS rD (ix1 ⟨l, h⟩) = fq rS rS ⟨l, hl⟩ := by
  unfold tgtRow
  rw [dif_pos (show ((ix1 (⟨l, h⟩ : Fin 832) : SFreq.Idx) 0).val < 208 from hl)]
theorem tgtRow_q1 (rS rD : IVec SRow 32) (l : ℕ) (hl : l < 208) (h : 208 + l < 832) : tgtRow rS rD (ix1 ⟨208 + l, h⟩) = fq rS rD ⟨l, hl⟩ := by
  unfold tgtRow
  rw [dif_neg (show ¬ ((ix1 (⟨208 + l, h⟩ : Fin 832) : SFreq.Idx) 0).val < 208 from by show ¬ 208 + l < 208; omega),
    dif_pos (show ((ix1 (⟨208 + l, h⟩ : Fin 832) : SFreq.Idx) 0).val < 416 from by show 208 + l < 416; omega)]
  congr 1
  apply Fin.ext
  show 208 + l - 208 = l
  omega
theorem tgtRow_q2 (rS rD : IVec SRow 32) (l : ℕ) (hl : l < 208) (h : 416 + l < 832) : tgtRow rS rD (ix1 ⟨416 + l, h⟩) = fq rD rD ⟨l, hl⟩ := by
  unfold tgtRow
  rw [dif_neg (show ¬ ((ix1 (⟨416 + l, h⟩ : Fin 832) : SFreq.Idx) 0).val < 208 from by show ¬ 416 + l < 208; omega),
    dif_neg (show ¬ ((ix1 (⟨416 + l, h⟩ : Fin 832) : SFreq.Idx) 0).val < 416 from by show ¬ 416 + l < 416; omega),
    dif_pos (show ((ix1 (⟨416 + l, h⟩ : Fin 832) : SFreq.Idx) 0).val < 624 from by show 416 + l < 624; omega)]
  congr 1
  apply Fin.ext
  show 416 + l - 416 = l
  omega
theorem tgtRow_q3 (rS rD : IVec SRow 32) (l : ℕ) (hl : l < 208) (h : 624 + l < 832) : tgtRow rS rD (ix1 ⟨624 + l, h⟩) = fq rD rS ⟨l, hl⟩ := by
  unfold tgtRow
  rw [dif_neg (show ¬ ((ix1 (⟨624 + l, h⟩ : Fin 832) : SFreq.Idx) 0).val < 208 from by show ¬ 624 + l < 208; omega),
    dif_neg (show ¬ ((ix1 (⟨624 + l, h⟩ : Fin 832) : SFreq.Idx) 0).val < 416 from by show ¬ 624 + l < 416; omega),
    dif_neg (show ¬ ((ix1 (⟨624 + l, h⟩ : Fin 832) : SFreq.Idx) 0).val < 624 from by show ¬ 624 + l < 624; omega)]
  congr 1
  apply Fin.ext
  show 624 + l - 624 = l
  omega

theorem pay_tgt0 (rS rD : IVec SRow 32) (v : Fin 13) (off : ℕ) (hoff : off = 16 * v.val) (iv : IVec SLane 32)
    (hiv : ∀ x, iv x = rowVec rS v x) (c : IVec SLane 32) (hc : ∀ x, c x = BitVec.ofNat 32 (occRow rS (iv x)))
    (x : SLane.Idx) (hx : off + (x 0).val < 832) :
    select (cmpi .eq iv (broadcast SLane 0#32)) (broadcast SLane 0#32) c x = tgtRow rS rD (ix1 ⟨off + (x 0).val, hx⟩) := by
  subst hoff
  rw [pay_fq rS rS v iv hiv c hc x, tgtRow_q0]
theorem pay_tgt1 (rS rD : IVec SRow 32) (v : Fin 13) (off : ℕ) (hoff : off = 208 + 16 * v.val) (iv : IVec SLane 32)
    (hiv : ∀ x, iv x = rowVec rS v x) (c : IVec SLane 32) (hc : ∀ x, c x = BitVec.ofNat 32 (occRow rD (iv x)))
    (x : SLane.Idx) (hx : off + (x 0).val < 832) :
    select (cmpi .eq iv (broadcast SLane 0#32)) (broadcast SLane 0#32) c x = tgtRow rS rD (ix1 ⟨off + (x 0).val, hx⟩) := by
  subst hoff
  have e : (⟨208 + 16 * v.val + (x 0).val, hx⟩ : Fin 832) = ⟨208 + (16 * v.val + (x 0).val), by omega⟩ := Fin.ext (Nat.add_assoc _ _ _)
  rw [pay_fq rS rD v iv hiv c hc x, e, tgtRow_q1]
theorem pay_tgt2 (rS rD : IVec SRow 32) (v : Fin 13) (off : ℕ) (hoff : off = 416 + 16 * v.val) (iv : IVec SLane 32)
    (hiv : ∀ x, iv x = rowVec rD v x) (c : IVec SLane 32) (hc : ∀ x, c x = BitVec.ofNat 32 (occRow rD (iv x)))
    (x : SLane.Idx) (hx : off + (x 0).val < 832) :
    select (cmpi .eq iv (broadcast SLane 0#32)) (broadcast SLane 0#32) c x = tgtRow rS rD (ix1 ⟨off + (x 0).val, hx⟩) := by
  subst hoff
  have e : (⟨416 + 16 * v.val + (x 0).val, hx⟩ : Fin 832) = ⟨416 + (16 * v.val + (x 0).val), by omega⟩ := Fin.ext (Nat.add_assoc _ _ _)
  rw [pay_fq rD rD v iv hiv c hc x, e, tgtRow_q2]
theorem pay_tgt3 (rS rD : IVec SRow 32) (v : Fin 13) (off : ℕ) (hoff : off = 624 + 16 * v.val) (iv : IVec SLane 32)
    (hiv : ∀ x, iv x = rowVec rD v x) (c : IVec SLane 32) (hc : ∀ x, c x = BitVec.ofNat 32 (occRow rS (iv x)))
    (x : SLane.Idx) (hx : off + (x 0).val < 832) :
    select (cmpi .eq iv (broadcast SLane 0#32)) (broadcast SLane 0#32) c x = tgtRow rS rD (ix1 ⟨off + (x 0).val, hx⟩) := by
  subst hoff
  have e : (⟨624 + 16 * v.val + (x 0).val, hx⟩ : Fin 832) = ⟨624 + (16 * v.val + (x 0).val), by omega⟩ := Fin.ext (Nat.add_assoc _ _ _)
  rw [pay_fq rD rS v iv hiv c hc x, e, tgtRow_q3]

end Pay

section Ends
variable {F : FTy → Type} [FloatOps F]

theorem addedTab_first (r : IVec SRow 32) (iv p : IVec SLane 32) (m : IVec SLane 1) (hiv : ∀ x, iv x = rowVec r 0 x)
    (hp : ∀ x, p x = 1#32) (hm : ∀ x, m x = 1#1) (h : ∀ a x, ((![iv] : Fin 1 → IVec SLane 32) a x).toNat < STab.size a) :
    storeIdx (F := F) (s := STab) (e := .i32) (fun _ => 0#32) ![iv] p m true h = addedTab (fun _ => 0#32) r 16 := by
  have e := addedTab_step' (F := F) (fun _ => 0#32) r 0 0 16 rfl rfl iv p m hiv hp hm h
  rwa [addedTab_zero] at e

theorem addedTab_last (r : IVec SRow 32) (iv p : IVec SLane 32) (m : IVec SLane 1) (hiv : ∀ x, iv x = rowVec r 12 x)
    (hp : ∀ x, p x = 1#32) (hm : ∀ x, m x = 1#1) (h : ∀ a x, ((![iv] : Fin 1 → IVec SLane 32) a x).toNat < STab.size a) :
    storeIdx (F := F) (s := STab) (e := .i32) (addedTab (fun _ => 0#32) r 192) ![iv] p m true h = countTab r := by
  rw [addedTab_step' (F := F) (fun _ => 0#32) r 12 192 208 rfl rfl iv p m hiv hp hm h, addedTab_full]

theorem clearedTab_first (r : IVec SRow 32) (iv p : IVec SLane 32) (m : IVec SLane 1) (hiv : ∀ x, iv x = rowVec r 0 x)
    (hp : ∀ x, p x = 0#32) (hm : ∀ x, m x = 1#1) (h : ∀ a x, ((![iv] : Fin 1 → IVec SLane 32) a x).toNat < STab.size a) :
    storeIdx (F := F) (s := STab) (e := .i32) (countTab r) ![iv] p m false h = clearedTab (countTab r) r 16 := by
  have e := clearedTab_step' (F := F) (countTab r) r 0 0 16 rfl rfl iv p m hiv hp hm h
  rwa [clearedTab_zero] at e

theorem clearedTab_last (r : IVec SRow 32) (iv p : IVec SLane 32) (m : IVec SLane 1) (hiv : ∀ x, iv x = rowVec r 12 x)
    (hp : ∀ x, p x = 0#32) (hm : ∀ x, m x = 1#1) (h : ∀ a x, ((![iv] : Fin 1 → IVec SLane 32) a x).toNat < STab.size a) :
    storeIdx (F := F) (s := STab) (e := .i32) (clearedTab (countTab r) r 192) ![iv] p m false h = fun _ => 0#32 := by
  rw [clearedTab_step' (F := F) (countTab r) r 12 192 208 rfl rfl iv p m hiv hp hm h, clearedTab_full]

end Ends

end Cert.ScMath
-- ==== Proof.Sc.RowVal.lean ====
import proofs.«212098_g24275155157491_cont_8to1_80_30_alg».proof.Proof.Sc.Rows
import proofs.«212098_g24275155157491_cont_8to1_80_30_alg».proof.Proof.CntMath
import Idealize.ShloMosaic.Lib.ValueIdx

namespace Cert.KernelIdeal.Sc

open Cert.KernelIdeal Cert.KernelIdeal.Gen Idealize.ShloMosaic

variable {F : FTy → Type}

variable (m : (ℓ : Loc nD τ sig) → Buf (Elt F) ℓ) [FloatOps F]
variable (d : Dev nD) (L : grid0.Coords)

omit [FloatOps F] in
-- Both indices have the same row-major position.
theorem reshape_row {n : ℕ} (h : (⟨1, ![n]⟩ : Shape).numel = (⟨2, ![1, n]⟩ : Shape).numel) (l : Fin n) :
    Shape.reshapeEquiv h (ValueIdx.ix1 l) = ValueIdx.ix2 (0 : Fin 1) l :=
  Shape.reshapeEquiv_eq_of_rowMajor h (by
    rw [Shape.rowMajor_val_two, Shape.rowMajor_val_one]
    show 0 * n + l.val = l.val
    omega)

-- Position `l` of row `j` taken as a block of one row is position `(j, l)` of the list.
theorem rowEmb (j : Fin 1024) (l : Fin 208) :
    (Rect.unit (s := S1024x208) (rowOff j) S1x208.size (rowOff_inbP j)).emb
      (Shape.reshapeEquiv squeezes_S1x208_S208.numel_eq (ValueIdx.ix1 l)) = ValueIdx.ix2 j l := by
  rw [reshape_row]
  funext a
  apply Fin.ext
  match a with
  | ⟨0, _⟩ => show j.val + 1 * 0 = j.val; omega
  | ⟨1, _⟩ => show 0 + 1 * l.val = l.val; omega

theorem cnts_rowA (j : Fin 1024) (p : Fin 832) :
    Cert.ScMath.tgtRow (rowBufSA m d L j) (rowBufDA m d L j) (ValueIdx.ix1 p) = cnts m d (ValueIdx.ix2 j p) :=
  Cert.ScMath.tgtRow_eq_counts (pad0 m d) (pad1 m d) j _ _
    (fun l => congrArg (pad0 m d) (rowEmb j l)) (fun l => congrArg (pad1 m d) (rowEmb j l)) p

-- The second pair of id buffers holds the same rows.
theorem cnts_rowB (j : Fin 1024) (p : Fin 832) :
    Cert.ScMath.tgtRow (rowBufSB m d L j) (rowBufDB m d L j) (ValueIdx.ix1 p) = cnts m d (ValueIdx.ix2 j p) :=
  cnts_rowA m d L j p

end Cert.KernelIdeal.Sc
-- ==== Proof.Sc.Rules.lean ====
import proofs.«212098_g24275155157491_cont_8to1_80_30_alg».proof.Proof.Sc.Tile
import proofs.«212098_g24275155157491_cont_8to1_80_30_alg».proof.Proof.ScMath

noncomputable section

namespace Cert.KernelIdeal.Sc

open Cert.KernelIdeal Cert.KernelIdeal.Gen Idealize.ShloMosaic Idealize.SL Idealize.SL.RA Idealize.SL.BI
open Idealize.ShloMosaic.SparseCore.Cfg (HIx)
open scoped Idealize.SL.BI
open Idealize.SL.BI.BIBase Idealize.SL.BI.Laws Idealize.SL.Sem
open Idealize.ShloMosaic.Tactic

variable {F : FTy → Type} [FloatOps F]

local notation "𝕄" => MT nD τ sig (HIx 1) (Elt F) ℕ UU ℕ
section Rules
variable (d : Dev nD) (L : grid0.Coords)

theorem tab_sidx {α : Type} {Q : α → sProp 𝕄} {k : PUnit → Prog (TpuEff nD τ sig (Elt F) Λ₀ (thrV d L).2) α}
    {T T' : Buf (Elt F) (sTab.view.loc (thrV d L))} {iv p : IVec S16 32} {add : Bool}
    {h : ∀ a x, ((![iv] : Fin 1 → IVec S16 32) a x).toNat < S100096.size a}
    {hs : (sTab.access (.whole S100096)).Stores Finset.univ}
    (hT : storeIdx (F := F) (s := S100096) (e := .i32) T ![iv] p (fun _ => 1#1) add h = T') :
    (sTab.view.loc (thrV d L) ↦{fullShare} T)
      ⊢ iprop(((sTab.view.loc (thrV d L) ↦{fullShare} T') -∗ wp frame (wpE (defs₀ (F := F)) 𝒱₀ (thrV d L) none) Set.univ (k ⟨⟩) Q)
        -∗ wp frame (wpE (defs₀ (F := F)) 𝒱₀ (thrV d L) none) Set.univ (SparseCore.vectorStoreIdx sTab ![iv] p (fun _ => 1#1) add h hs >>= k) Q) := by
  subst hT
  have h0 := SparseCore.wp_vectorStoreIdx (defs := defs₀ (F := F)) 𝒱₀ (thrV d L) none Set.univ (Q := Q) (base := sTab) (idxs := ![iv])
    (v := p) (mask := fun _ => 1#1) (add := add) (h := h) (hs := hs) (k := k) (f := T)
  erw [Memref.set_access_whole, Memref.write_access_whole_univ, Memref.read_access_whole] at h0
  exact h0

theorem tab_lidx {α : Type} {Q : α → sProp 𝕄} {k : Vec F S16 .i32 → Prog (TpuEff nD τ sig (Elt F) Λ₀ (thrV d L).2) α}
    {T : Buf (Elt F) (sTab.view.loc (thrV d L))} {iv : IVec S16 32}
    {h : ∀ a x, ((![iv] : Fin 1 → IVec S16 32) a x).toNat < S100096.size a} {hl : sTab.view.Loads} :
    (sTab.view.loc (thrV d L) ↦{fullShare} T)
      ⊢ iprop(((sTab.view.loc (thrV d L) ↦{fullShare} T) -∗ wp frame (wpE (defs₀ (F := F)) 𝒱₀ (thrV d L) none) Set.univ (k (loadIdx (F := F) (s := S100096) (e := .i32) T ![iv] h)) Q)
        -∗ wp frame (wpE (defs₀ (F := F)) 𝒱₀ (thrV d L) none) Set.univ (SparseCore.vectorLoadIdx sTab ![iv] h hl >>= k) Q) := by
  have h0 := SparseCore.wp_vectorLoadIdx (defs := defs₀ (F := F)) 𝒱₀ (thrV d L) none Set.univ (Q := Q) (base := sTab) (idxs := ![iv])
    (h := h) (hl := hl) (k := k) (S := Finset.univ) (q := fullShare) (f := T) (Finset.subset_univ _)
  erw [Memref.read_access_whole] at h0
  exact h0

end Rules

end Cert.KernelIdeal.Sc

end
-- ==== Proof.Sc.PartsA.lean ====
import proofs.«212098_g24275155157491_cont_8to1_80_30_alg».proof.Proof.Sc.AtTile
import proofs.«212098_g24275155157491_cont_8to1_80_30_alg».proof.Proof.Sc.Rules
import proofs.«212098_g24275155157491_cont_8to1_80_30_alg».proof.Proof.CntMath

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Rules'
open Cert.ScMath Idealize.ShloMosaic.ValueIdx
variable (d : Dev nD) (L : grid0.Coords)

-- An indexed store into the table, a further continuation after it.
theorem tab_sidx' {α β : Type} {Q : β → sProp 𝕄} {k : PUnit → Prog (TpuEff nD τ sig (Elt F) Λ₀ (thrV d L).2) α} {k' : α → Prog (TpuEff nD τ sig (Elt F) Λ₀ (thrV d L).2) β} {T T' : Buf (Elt F) (sTab.view.loc (thrV d L))} {iv p : IVec S16 32} {add : Bool}
    {h : ∀ a x, ((![iv] : Fin 1 → IVec S16 32) a x).toNat < S100096.size a} {hs : (sTab.access (.whole S100096)).Stores Finset.univ}
    (hT : storeIdx (F := F) (s := S100096) (e := .i32) T ![iv] p (fun _ => 1#1) add h = T') :
    (sTab.view.loc (thrV d L) ↦{fullShare} T)
      ⊢ iprop(((sTab.view.loc (thrV d L) ↦{fullShare} T') -∗ wp frame (wpE (defs₀ (F := F)) 𝒱₀ (thrV d L) none) Set.univ (k ⟨⟩ >>= k') Q)
        -∗ wp frame (wpE (defs₀ (F := F)) 𝒱₀ (thrV d L) none) Set.univ ((SparseCore.vectorStoreIdx sTab ![iv] p (fun _ => 1#1) add h hs >>= k) >>= k') Q) := by
  rw [Prog.bind_assoc]
  exact tab_sidx d L (k := fun a => k a >>= k') hT

-- One more vector of a row added onto the table.
theorem tab_add {α β : Type} {Q : β → sProp 𝕄} {k : PUnit → Prog (TpuEff nD τ sig (Elt F) Λ₀ (thrV d L).2) α} {k' : α → Prog (TpuEff nD τ sig (Elt F) Λ₀ (thrV d L).2) β} {f : IVec STab 32} {r : IVec SRow 32} {i : Fin 13} {iv p : IVec S16 32}
    (hiv : ∀ x, iv x = rowVec r i x) (hp : ∀ x, p x = 1#32) (a b : ℕ) (ha : a = 16 * i.val) (hb : b = a + 16)
    {h : ∀ a x, ((![iv] : Fin 1 → IVec S16 32) a x).toNat < S100096.size a} {hs : (sTab.access (.whole S100096)).Stores Finset.univ} :
    (sTab.view.loc (thrV d L) ↦{fullShare} (addedTab f r a : Buf (Elt F) (sTab.view.loc (thrV d L))))
      ⊢ iprop(((sTab.view.loc (thrV d L) ↦{fullShare} (addedTab f r b : Buf (Elt F) (sTab.view.loc (thrV d L)))) -∗ wp frame (wpE (defs₀ (F := F)) 𝒱₀ (thrV d L) none) Set.univ (k ⟨⟩ >>= k') Q)
        -∗ wp frame (wpE (defs₀ (F := F)) 𝒱₀ (thrV d L) none) Set.univ ((SparseCore.vectorStoreIdx sTab ![iv] p (fun _ => 1#1) true h hs >>= k) >>= k') Q) :=
  tab_sidx' d L (addedTab_step' (F := F) f r i a b ha hb iv p _ hiv hp (fun _ => rfl) h)

-- One more vector of a row cleared out of the table.
theorem tab_clear {α β : Type} {Q : β → sProp 𝕄} {k : PUnit → Prog (TpuEff nD τ sig (Elt F) Λ₀ (thrV d L).2) α} {k' : α → Prog (TpuEff nD τ sig (Elt F) Λ₀ (thrV d L).2) β} {f : IVec STab 32} {r : IVec SRow 32} {i : Fin 13} {iv p : IVec S16 32}
    (hiv : ∀ x, iv x = rowVec r i x) (hp : ∀ x, p x = 0#32) (a b : ℕ) (ha : a = 16 * i.val) (hb : b = a + 16)
    {h : ∀ a x, ((![iv] : Fin 1 → IVec S16 32) a x).toNat < S100096.size a} {hs : (sTab.access (.whole S100096)).Stores Finset.univ} :
    (sTab.view.loc (thrV d L) ↦{fullShare} (clearedTab f r a : Buf (Elt F) (sTab.view.loc (thrV d L))))
      ⊢ iprop(((sTab.view.loc (thrV d L) ↦{fullShare} (clearedTab f r b : Buf (Elt F) (sTab.view.loc (thrV d L)))) -∗ wp frame (wpE (defs₀ (F := F)) 𝒱₀ (thrV d L) none) Set.univ (k ⟨⟩ >>= k') Q)
        -∗ wp frame (wpE (defs₀ (F := F)) 𝒱₀ (thrV d L) none) Set.univ ((SparseCore.vectorStoreIdx sTab ![iv] p (fun _ => 1#1) false h hs >>= k) >>= k') Q) :=
  tab_sidx' d L (clearedTab_step' (F := F) f r i a b ha hb iv p _ hiv hp (fun _ => rfl) h)

-- An indexed load from the table, a further continuation after it.
theorem tab_lidx' {α β : Type} {Q : β → sProp 𝕄} {k : Vec F S16 .i32 → Prog (TpuEff nD τ sig (Elt F) Λ₀ (thrV d L).2) α} {k' : α → Prog (TpuEff nD τ sig (Elt F) Λ₀ (thrV d L).2) β} {T : Buf (Elt F) (sTab.view.loc (thrV d L))} {iv : IVec S16 32}
    {h : ∀ a x, ((![iv] : Fin 1 → IVec S16 32) a x).toNat < S100096.size a} {hl : sTab.view.Loads} :
    (sTab.view.loc (thrV d L) ↦{fullShare} T)
      ⊢ iprop(((sTab.view.loc (thrV d L) ↦{fullShare} T) -∗ wp frame (wpE (defs₀ (F := F)) 𝒱₀ (thrV d L) none) Set.univ (k (loadIdx (F := F) (s := S100096) (e := .i32) T ![iv] h) >>= k') Q)
        -∗ wp frame (wpE (defs₀ (F := F)) 𝒱₀ (thrV d L) none) Set.univ ((SparseCore.vectorLoadIdx sTab ![iv] h hl >>= k) >>= k') Q) := by
  rw [Prog.bind_assoc]
  exact tab_lidx (F := F) d L (k := fun a => k a >>= k')

-- Two indexed loads from the table in a row.
theorem tab_lidx₂ {α β : Type} {Q : β → sProp 𝕄} {k : Vec F S16 .i32 → Vec F S16 .i32 → Prog (TpuEff nD τ sig (Elt F) Λ₀ (thrV d L).2) α} {k' : α → Prog (TpuEff nD τ sig (Elt F) Λ₀ (thrV d L).2) β} {T : Buf (Elt F) (sTab.view.loc (thrV d L))} {iv iv' : IVec S16 32}
    {h : ∀ a x, ((![iv] : Fin 1 → IVec S16 32) a x).toNat < S100096.size a} {h' : ∀ a x, ((![iv'] : Fin 1 → IVec S16 32) a x).toNat < S100096.size a} {hl hl' : sTab.view.Loads} :
    (sTab.view.loc (thrV d L) ↦{fullShare} T)
      ⊢ iprop(((sTab.view.loc (thrV d L) ↦{fullShare} T) -∗ wp frame (wpE (defs₀ (F := F)) 𝒱₀ (thrV d L) none) Set.univ
            (k (loadIdx (F := F) (s := S100096) (e := .i32) T ![iv] h) (loadIdx (F := F) (s := S100096) (e := .i32) T ![iv'] h') >>= k') Q)
        -∗ wp frame (wpE (defs₀ (F := F)) 𝒱₀ (thrV d L) none) Set.univ
            ((SparseCore.vectorLoadIdx sTab ![iv] h hl >>= fun c => SparseCore.vectorLoadIdx sTab ![iv'] h' hl' >>= k c) >>= k') Q) := by
  iintro HT Hk
  iapply (tab_lidx' d L) $$ HT; iintro HT
  iapply (tab_lidx' d L) $$ HT; iintro HT
  iapply Hk $$ HT

end Rules'

section CntSteps
open Cert.ScMath Idealize.ShloMosaic.ValueIdx

-- The last of a run of stores, peeled off.
theorem writes_cons₂ {sg : RefSig} {κ : Kind} {sp : Space} {s : Shape} {e : EltTy} {Val : EltTy → Type} (v : View sg κ sp s e)
    (f : v.ty.Contents Val) (p q : View.Piece Val s e) (l : List (View.Piece Val s e)) :
    v.writes Val f (p :: q :: l) = v.writes Val (v.writes Val f (q :: l)) [p] := rfl

theorem sCB_cons₂ (f : sCB.view.ty.Contents (Elt F)) (p q : View.Piece (Elt F) S832 .i32) (l : List (View.Piece (Elt F) S832 .i32)) :
    sCB.view.writes (Elt F) f (p :: q :: l) = sCB.view.writes (Elt F) (sCB.view.writes (Elt F) f (q :: l)) [p] := rfl

theorem sCA_writes_one (f : IVec SFreq 32) (off : ℕ)
    (inb : ∀ a, (![off] : Fin 1 → ℕ) a + S16.size a ≤ S832.size a) (w : IVec S16 32) :
    sCA.view.writes (Elt F) f [⟨Rect.unit ![off] S16.size inb, w⟩] = pieceAt f off w := by
  funext y
  exact read_writes_one (Val := Elt F) sCA.view f off inb w y

theorem sCB_writes_one (f : IVec SFreq 32) (off : ℕ)
    (inb : ∀ a, (![off] : Fin 1 → ℕ) a + S16.size a ≤ S832.size a) (w : IVec S16 32) :
    sCB.view.writes (Elt F) f [⟨Rect.unit ![off] S16.size inb, w⟩] = pieceAt f off w := by
  funext y
  exact read_writes_one (Val := Elt F) sCB.view f off inb w y

-- A piece of the target stored next to the filled part of its run extends that part.
theorem sCA_step (tgt base : IVec SFreq 32) (n0 n1 n2 n3 m0 m1 m2 m3 off : ℕ)
    (inb : ∀ a, (![off] : Fin 1 → ℕ) a + S16.size a ≤ S832.size a) (w : IVec S16 32)
    (hf : ∀ y, y < 832 → (filled m0 m1 m2 m3 y ↔ filled n0 n1 n2 n3 y ∨ (off ≤ y ∧ y < off + 16)))
    (hw : ∀ (x : SLane.Idx) (hx : off + (x 0).val < 832), w x = tgt (ix1 ⟨off + (x 0).val, hx⟩)) :
    sCA.view.writes (Elt F) (cntAt tgt base n0 n1 n2 n3) [⟨Rect.unit ![off] S16.size inb, w⟩]
      = cntAt tgt base m0 m1 m2 m3 := by
  rw [sCA_writes_one]
  exact pieceAt_cntAt tgt base n0 n1 n2 n3 m0 m1 m2 m3 off w hf hw

theorem sCB_step (tgt base : IVec SFreq 32) (n0 n1 n2 n3 m0 m1 m2 m3 off : ℕ)
    (inb : ∀ a, (![off] : Fin 1 → ℕ) a + S16.size a ≤ S832.size a) (w : IVec S16 32)
    (hf : ∀ y, y < 832 → (filled m0 m1 m2 m3 y ↔ filled n0 n1 n2 n3 y ∨ (off ≤ y ∧ y < off + 16)))
    (hw : ∀ (x : SLane.Idx) (hx : off + (x 0).val < 832), w x = tgt (ix1 ⟨off + (x 0).val, hx⟩)) :
    sCB.view.writes (Elt F) (cntAt tgt base n0 n1 n2 n3) [⟨Rect.unit ![off] S16.size inb, w⟩]
      = cntAt tgt base m0 m1 m2 m3 := by
  rw [sCB_writes_one]
  exact pieceAt_cntAt tgt base n0 n1 n2 n3 m0 m1 m2 m3 off w hf hw

-- The same of any way `W` of storing pieces into a buffer of four runs.
def StepOf (W : IVec SFreq 32 → List (View.Piece (Elt F) S832 .i32) → IVec SFreq 32) : Prop :=
  ∀ (tgt base : IVec SFreq 32) (n0 n1 n2 n3 m0 m1 m2 m3 off : ℕ) (inb : ∀ a, (![off] : Fin 1 → ℕ) a + S16.size a ≤ S832.size a) (w : IVec S16 32),
    (∀ y, y < 832 → (filled m0 m1 m2 m3 y ↔ filled n0 n1 n2 n3 y ∨ (off ≤ y ∧ y < off + 16))) →
    (∀ (x : SLane.Idx) (hx : off + (x 0).val < 832), w x = tgt (ix1 ⟨off + (x 0).val, hx⟩)) →
    W (cntAt tgt base n0 n1 n2 n3) [⟨Rect.unit ![off] S16.size inb, w⟩] = cntAt tgt base m0 m1 m2 m3

-- The words kept for vector `i` of a row, its counts just looked up in a row's table, are the next piece of their run.
theorem get0 {W : IVec SFreq 32 → List (View.Piece (Elt F) S832 .i32) → IVec SFreq 32} (hW : StepOf (F := F) W) (rS rD : IVec SRow 32) {base : IVec SFreq 32} (n0 : ℕ) {n1 n2 n3 : ℕ} (m off : ℕ) {i : Fin 13} {iv : IVec SLane 32}
    (hiv : ∀ x, iv x = rowVec rS i x) (hi : i.val = n0) (hm : m = n0 + 1) (hoff : off = 16 * n0)
    {inb : ∀ a, (![off] : Fin 1 → ℕ) a + S16.size a ≤ S832.size a} {h : ∀ a x, ((![iv] : Fin 1 → IVec SLane 32) a x).toNat < STab.size a}
    (w : IVec S16 32) (hw : w = select (cmpi .eq iv (broadcast SLane 0#32)) (broadcast SLane 0#32)
      (loadIdx (F := F) (s := STab) (e := .i32) (countTab rS) ![iv] h)) :
    W (cntAt (tgtRow rS rD) base n0 n1 n2 n3) [⟨Rect.unit ![off] S16.size inb, w⟩] = cntAt (tgtRow rS rD) base m n1 n2 n3 := by
  subst hi hm hw
  exact hW _ base _ n1 n2 n3 _ n1 n2 n3 off inb _ (filled_step0 _ n1 n2 n3 off hoff i.isLt)
    (pay_tgt0 rS rD i off hoff iv hiv _ (loadIdx_countTab' rS iv h))
theorem get1 {W : IVec SFreq 32 → List (View.Piece (Elt F) S832 .i32) → IVec SFreq 32} (hW : StepOf (F := F) W) (rS rD : IVec SRow 32) {base : IVec SFreq 32} (n1 : ℕ) {n0 n2 n3 : ℕ} (m off : ℕ) {i : Fin 13} {iv : IVec SLane 32}
    (hiv : ∀ x, iv x = rowVec rS i x) (hi : i.val = n1) (hm : m = n1 + 1) (hoff : off = 208 + 16 * n1)
    {inb : ∀ a, (![off] : Fin 1 → ℕ) a + S16.size a ≤ S832.size a} {h : ∀ a x, ((![iv] : Fin 1 → IVec SLane 32) a x).toNat < STab.size a}
    (w : IVec S16 32) (hw : w = select (cmpi .eq iv (broadcast SLane 0#32)) (broadcast SLane 0#32)
      (loadIdx (F := F) (s := STab) (e := .i32) (countTab rD) ![iv] h)) :
    W (cntAt (tgtRow rS rD) base n0 n1 n2 n3) [⟨Rect.unit ![off] S16.size inb, w⟩] = cntAt (tgtRow rS rD) base n0 m n2 n3 := by
  subst hi hm hw
  exact hW _ base n0 _ n2 n3 n0 _ n2 n3 off inb _ (filled_step1 n0 _ n2 n3 off hoff i.isLt)
    (pay_tgt1 rS rD i off hoff iv hiv _ (loadIdx_countTab' rD iv h))
theorem get2 {W : IVec SFreq 32 → List (View.Piece (Elt F) S832 .i32) → IVec SFreq 32} (hW : StepOf (F := F) W) (rS rD : IVec SRow 32) {base : IVec SFreq 32} (n2 : ℕ) {n0 n1 n3 : ℕ} (m off : ℕ) {i : Fin 13} {iv : IVec SLane 32}
    (hiv : ∀ x, iv x = rowVec rD i x) (hi : i.val = n2) (hm : m = n2 + 1) (hoff : off = 416 + 16 * n2)
    {inb : ∀ a, (![off] : Fin 1 → ℕ) a + S16.size a ≤ S832.size a} {h : ∀ a x, ((![iv] : Fin 1 → IVec SLane 32) a x).toNat < STab.size a}
    (w : IVec S16 32) (hw : w = select (cmpi .eq iv (broadcast SLane 0#32)) (broadcast SLane 0#32)
      (loadIdx (F := F) (s := STab) (e := .i32) (countTab rD) ![iv] h)) :
    W (cntAt (tgtRow rS rD) base n0 n1 n2 n3) [⟨Rect.unit ![off] S16.size inb, w⟩] = cntAt (tgtRow rS rD) base n0 n1 m n3 := by
  subst hi hm hw
  exact hW _ base n0 n1 _ n3 n0 n1 _ n3 off inb _ (filled_step2 n0 n1 _ n3 off hoff i.isLt)
    (pay_tgt2 rS rD i off hoff iv hiv _ (loadIdx_countTab' rD iv h))
theorem get3 {W : IVec SFreq 32 → List (View.Piece (Elt F) S832 .i32) → IVec SFreq 32} (hW : StepOf (F := F) W) (rS rD : IVec SRow 32) {base : IVec SFreq 32} (n3 : ℕ) {n0 n1 n2 : ℕ} (m off : ℕ) {i : Fin 13} {iv : IVec SLane 32}
    (hiv : ∀ x, iv x = rowVec rD i x) (hi : i.val = n3) (hm : m = n3 + 1) (hoff : off = 624 + 16 * n3)
    {inb : ∀ a, (![off] : Fin 1 → ℕ) a + S16.size a ≤ S832.size a} {h : ∀ a x, ((![iv] : Fin 1 → IVec SLane 32) a x).toNat < STab.size a}
    (w : IVec S16 32) (hw : w = select (cmpi .eq iv (broadcast SLane 0#32)) (broadcast SLane 0#32)
      (loadIdx (F := F) (s := STab) (e := .i32) (countTab rS) ![iv] h)) :
    W (cntAt (tgtRow rS rD) base n0 n1 n2 n3) [⟨Rect.unit ![off] S16.size inb, w⟩] = cntAt (tgtRow rS rD) base n0 n1 n2 m := by
  subst hi hm hw
  exact hW _ base n0 n1 n2 _ n0 n1 n2 _ off inb _ (filled_step3 n0 n1 n2 _ off hoff i.isLt)
    (pay_tgt3 rS rD i off hoff iv hiv _ (loadIdx_countTab' rS iv h))

end CntSteps

section PartsA
variable (d : Dev nD) (L : grid0.Coords)
open Cert.ScMath Idealize.ShloMosaic.ValueIdx

theorem part4 {α : Type} {Q : α → sProp 𝕄} (k : IVec S16 32 → Prog (TpuEff nD τ sig (Elt F) Λ₀ (thrV d L).2) α)
    (rS rD : IVec SRow 32) (base : IVec SFreq 32)
    (v4 : IVec S16 32) (v46 : Vec F S16 .i32) (k0_hw1 : k0_chk1 v46) (v47 : Vec F S16 .i32) (k0_hw2 : k0_chk2 v47) (v48 : Vec F S16 .i32) (k0_hw3 : k0_chk3 v48) (v56 : Vec F S16 .i32) (k0_hw11 : k0_chk11 v56) (v57 : Vec F S16 .i32) (k0_hw12 : k0_chk12 v57) (v58 : Vec F S16 .i32) (k0_hw13 : k0_chk13 v58) (v59 : Vec F S16 .i32) (k0_hw14 : k0_chk14 v59) (v60 : Vec F S16 .i32) (k0_hw15 : k0_chk15 v60) (v61 : Vec F S16 .i32) (k0_hw16 : k0_chk16 v61)
    (h4 : ∀ x, v4 x = 1#32)
    (h46 : ∀ x, v46 x = rowVec rS 0 x)
    (h47 : ∀ x, v47 x = rowVec rS 1 x)
    (h48 : ∀ x, v48 x = rowVec rS 2 x)
    (h56 : ∀ x, v56 x = rowVec rS 10 x)
    (h57 : ∀ x, v57 x = rowVec rS 11 x)
    (h58 : ∀ x, v58 x = rowVec rS 12 x)
    (h59 : ∀ x, v59 x = rowVec rD 0 x)
    (h60 : ∀ x, v60 x = rowVec rD 1 x)
    (h61 : ∀ x, v61 x = rowVec rD 2 x) :
    iprop((sTab.view.loc (thrV d L) ↦{fullShare} (addedTab (fun _ => 0#32) rS 160 : Buf (Elt F) (sTab.view.loc (thrV d L))))
        ∗ (sCA.view.loc (thrV d L) ↦{fullShare} (cntAt (tgtRow rS rD) base 0 0 0 0 : Buf (Elt F) (sCA.view.loc (thrV d L))))
        ∗ (∀ ret : IVec S16 32, ⌜∀ (x : SLane.Idx) (hx : 656 + (x 0).val < 832), ret x = tgtRow rS rD (ix1 ⟨656 + (x 0).val, hx⟩)⌝
            -∗ (sTab.view.loc (thrV d L) ↦{fullShare} (countTab rS : Buf (Elt F) (sTab.view.loc (thrV d L))))
            -∗ (sCA.view.loc (thrV d L) ↦{fullShare} (cntAt (tgtRow rS rD) base 3 0 0 2 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part4 v4 v46 k0_hw1 v47 k0_hw2 v48 k0_hw3 v56 k0_hw11 v57 k0_hw12 v58 k0_hw13 v59 k0_hw14 v60 k0_hw15 v61 k0_hw16 >>= k) Q := by
  iintro ⟨HT, HC, Hk⟩
  unfold atTile; rw [k0_part4_eq_skeleton]; unfold k0_part4_skel
  iapply (tab_add d L h56 h4 160 176 rfl rfl) $$ HT; iintro HT
  iapply (tab_add d L h57 h4 176 192 rfl rfl) $$ HT; iintro HT
  iapply (tab_sidx' d L (addedTab_last (F := F) rS v58 v4 _ h58 h4 (fun _ => rfl) _)) $$ HT; iintro HT
  iapply (tab_lidx₂ d L) $$ HT; iintro HT
  sl_exec
  rw [writes_cons₂, get0 sCA_step rS rD 0 1 0 h46 rfl rfl rfl (k0_pay1 v46 _) rfl,
    get3 sCA_step rS rD 0 1 624 h59 rfl rfl rfl (k0_pay2 v59 _) rfl]
  iapply (tab_lidx₂ d L) $$ HT; iintro HT
  sl_exec
  rw [writes_cons₂, get0 sCA_step rS rD 1 2 16 h47 rfl rfl rfl (k0_pay3 v47 _) rfl,
    get3 sCA_step rS rD 1 2 640 h60 rfl rfl rfl (k0_pay4 v60 _) rfl]
  iapply (tab_lidx₂ d L) $$ HT; iintro HT
  sl_exec
  rw [get0 sCA_step rS rD 2 3 32 h48 rfl rfl rfl (k0_pay5 v48 _) rfl]
  iapply Hk $$ %_ %(fun x hx => pay_tgt3 rS rD 2 _ rfl v61 h61 _ (fun x => loadIdx_countTab' (F := F) rS v61 _ x) x hx) HT HC

theorem part5 {α : Type} {Q : α → sProp 𝕄} (k : IVec S16 32 → Prog (TpuEff nD τ sig (Elt F) Λ₀ (thrV d L).2) α)
    (rS rD : IVec SRow 32) (base : IVec SFreq 32)
    (v49 : Vec F S16 .i32) (k0_hw4 : k0_chk4 v49) (v50 : Vec F S16 .i32) (k0_hw5 : k0_chk5 v50) (v51 : Vec F S16 .i32) (k0_hw6 : k0_chk6 v51) (v62 : Vec F S16 .i32) (k0_hw17 : k0_chk17 v62) (v63 : Vec F S16 .i32) (k0_hw18 : k0_chk18 v63) (v64 : Vec F S16 .i32) (k0_hw19 : k0_chk19 v64) (v113 : IVec S16 32)
    (h49 : ∀ x, v49 x = rowVec rS 3 x)
    (h50 : ∀ x, v50 x = rowVec rS 4 x)
    (h51 : ∀ x, v51 x = rowVec rS 5 x)
    (h62 : ∀ x, v62 x = rowVec rD 3 x)
    (h63 : ∀ x, v63 x = rowVec rD 4 x)
    (h64 : ∀ x, v64 x = rowVec rD 5 x)
    (h113 : ∀ (x : SLane.Idx) (hx : 656 + (x 0).val < 832), v113 x = tgtRow rS rD (ix1 ⟨656 + (x 0).val, hx⟩)) :
    iprop((sTab.view.loc (thrV d L) ↦{fullShare} (countTab rS : Buf (Elt F) (sTab.view.loc (thrV d L))))
        ∗ (sCA.view.loc (thrV d L) ↦{fullShare} (cntAt (tgtRow rS rD) base 3 0 0 2 : Buf (Elt F) (sCA.view.loc (thrV d L))))
        ∗ (∀ ret : IVec S16 32, ⌜∀ (x : SLane.Idx) (hx : 704 + (x 0).val < 832), ret x = tgtRow rS rD (ix1 ⟨704 + (x 0).val, hx⟩)⌝
            -∗ (sTab.view.loc (thrV d L) ↦{fullShare} (countTab rS : Buf (Elt F) (sTab.view.loc (thrV d L))))
            -∗ (sCA.view.loc (thrV d L) ↦{fullShare} (cntAt (tgtRow rS rD) base 6 0 0 5 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part5 v49 k0_hw4 v50 k0_hw5 v51 k0_hw6 v62 k0_hw17 v63 k0_hw18 v64 k0_hw19 v113 >>= k) Q := by
  iintro ⟨HT, HC, Hk⟩
  unfold atTile; rw [k0_part5_eq_skeleton]; unfold k0_part5_skel
  sl_exec
  rw [sCA_step (F := F) (tgtRow rS rD) base 3 0 0 2 3 0 0 3 656 _ _ (filled_step3 3 0 0 2 656 rfl (by omega))
    h113]
  iapply (tab_lidx₂ d L) $$ HT; iintro HT
  sl_exec
  rw [writes_cons₂, get0 sCA_step rS rD 3 4 48 h49 rfl rfl rfl (k0_pay7 v49 _) rfl,
    get3 sCA_step rS rD 3 4 672 h62 rfl rfl rfl (k0_pay8 v62 _) rfl]
  iapply (tab_lidx₂ d L) $$ HT; iintro HT
  sl_exec
  rw [writes_cons₂, get0 sCA_step rS rD 4 5 64 h50 rfl rfl rfl (k0_pay9 v50 _) rfl,
    get3 sCA_step rS rD 4 5 688 h63 rfl rfl rfl (k0_pay10 v63 _) rfl]
  iapply (tab_lidx₂ d L) $$ HT; iintro HT
  sl_exec
  rw [get0 sCA_step rS rD 5 6 80 h51 rfl rfl rfl (k0_pay11 v51 _) rfl]
  iapply Hk $$ %_ %(fun x hx => pay_tgt3 rS rD 5 _ rfl v64 h64 _ (fun x => loadIdx_countTab' (F := F) rS v64 _ x) x hx) HT HC

theorem part6 {α : Type} {Q : α → sProp 𝕄} (k : IVec S16 32 → Prog (TpuEff nD τ sig (Elt F) Λ₀ (thrV d L).2) α)
    (rS rD : IVec SRow 32) (base : IVec SFreq 32)
    (v52 : Vec F S16 .i32) (k0_hw7 : k0_chk7 v52) (v53 : Vec F S16 .i32) (k0_hw8 : k0_chk8 v53) (v54 : Vec F S16 .i32) (k0_hw9 : k0_chk9 v54) (v65 : Vec F S16 .i32) (k0_hw20 : k0_chk20 v65) (v66 : Vec F S16 .i32) (k0_hw21 : k0_chk21 v66) (v67 : Vec F S16 .i32) (k0_hw22 : k0_chk22 v67) (v149 : IVec S16 32)
    (h52 : ∀ x, v52 x = rowVec rS 6 x)
    (h53 : ∀ x, v53 x = rowVec rS 7 x)
    (h54 : ∀ x, v54 x = rowVec rS 8 x)
    (h65 : ∀ x, v65 x = rowVec rD 6 x)
    (h66 : ∀ x, v66 x = rowVec rD 7 x)
    (h67 : ∀ x, v67 x = rowVec rD 8 x)
    (h149 : ∀ (x : SLane.Idx) (hx : 704 + (x 0).val < 832), v149 x = tgtRow rS rD (ix1 ⟨704 + (x 0).val, hx⟩)) :
    iprop((sTab.view.loc (thrV d L) ↦{fullShare} (countTab rS : Buf (Elt F) (sTab.view.loc (thrV d L))))
        ∗ (sCA.view.loc (thrV d L) ↦{fullShare} (cntAt (tgtRow rS rD) base 6 0 0 5 : Buf (Elt F) (sCA.view.loc (thrV d L))))
        ∗ (∀ ret : IVec S16 32, ⌜∀ (x : SLane.Idx) (hx : 752 + (x 0).val < 832), ret x = tgtRow rS rD (ix1 ⟨752 + (x 0).val, hx⟩)⌝
            -∗ (sTab.view.loc (thrV d L) ↦{fullShare} (countTab rS : Buf (Elt F) (sTab.view.loc (thrV d L))))
            -∗ (sCA.view.loc (thrV d L) ↦{fullShare} (cntAt (tgtRow rS rD) base 9 0 0 8 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part6 v52 k0_hw7 v53 k0_hw8 v54 k0_hw9 v65 k0_hw20 v66 k0_hw21 v67 k0_hw22 v149 >>= k) Q := by
  iintro ⟨HT, HC, Hk⟩
  unfold atTile; rw [k0_part6_eq_skeleton]; unfold k0_part6_skel
  sl_exec
  rw [sCA_step (F := F) (tgtRow rS rD) base 6 0 0 5 6 0 0 6 704 _ _ (filled_step3 6 0 0 5 704 rfl (by omega))
    h149]
  iapply (tab_lidx₂ d L) $$ HT; iintro HT
  sl_exec
  rw [writes_cons₂, get0 sCA_step rS rD 6 7 96 h52 rfl rfl rfl (k0_pay13 v52 _) rfl,
    get3 sCA_step rS rD 6 7 720 h65 rfl rfl rfl (k0_pay14 v65 _) rfl]
  iapply (tab_lidx₂ d L) $$ HT; iintro HT
  sl_exec
  rw [writes_cons₂, get0 sCA_step rS rD 7 8 112 h53 rfl rfl rfl (k0_pay15 v53 _) rfl,
    get3 sCA_step rS rD 7 8 736 h66 rfl rfl rfl (k0_pay16 v66 _) rfl]
  iapply (tab_lidx₂ d L) $$ HT; iintro HT
  sl_exec
  rw [get0 sCA_step rS rD 8 9 128 h54 rfl rfl rfl (k0_pay17 v54 _) rfl]
  iapply Hk $$ %_ %(fun x hx => pay_tgt3 rS rD 8 _ rfl v67 h67 _ (fun x => loadIdx_countTab' (F := F) rS v67 _ x) x hx) HT HC

theorem part7 {α : Type} {Q : α → sProp 𝕄} (k : IVec S16 32 → Prog (TpuEff nD τ sig (Elt F) Λ₀ (thrV d L).2) α)
    (rS rD : IVec SRow 32) (base : IVec SFreq 32)
    (v55 : Vec F S16 .i32) (k0_hw10 : k0_chk10 v55) (v56 : Vec F S16 .i32) (k0_hw11 : k0_chk11 v56) (v57 : Vec F S16 .i32) (k0_hw12 : k0_chk12 v57) (v68 : Vec F S16 .i32) (k0_hw23 : k0_chk23 v68) (v69 : Vec F S16 .i32) (k0_hw24 : k0_chk24 v69) (v70 : Vec F S16 .i32) (k0_hw25 : k0_chk25 v70) (v185 : IVec S16 32)
    (h55 : ∀ x, v55 x = rowVec rS 9 x)
    (h56 : ∀ x, v56 x = rowVec rS 10 x)
    (h57 : ∀ x, v57 x = rowVec rS 11 x)
    (h68 : ∀ x, v68 x = rowVec rD 9 x)
    (h69 : ∀ x, v69 x = rowVec rD 10 x)
    (h70 : ∀ x, v70 x = rowVec rD 11 x)
    (h185 : ∀ (x : SLane.Idx) (hx : 752 + (x 0).val < 832), v185 x = tgtRow rS rD (ix1 ⟨752 + (x 0).val, hx⟩)) :
    iprop((sTab.view.loc (thrV d L) ↦{fullShare} (countTab rS : Buf (Elt F) (sTab.view.loc (thrV d L))))
        ∗ (sCA.view.loc (thrV d L) ↦{fullShare} (cntAt (tgtRow rS rD) base 9 0 0 8 : Buf (Elt F) (sCA.view.loc (thrV d L))))
        ∗ (∀ ret : IVec S16 32, ⌜∀ (x : SLane.Idx) (hx : 800 + (x 0).val < 832), ret x = tgtRow rS rD (ix1 ⟨800 + (x 0).val, hx⟩)⌝
            -∗ (sTab.view.loc (thrV d L) ↦{fullShare} (countTab rS : Buf (Elt F) (sTab.view.loc (thrV d L))))
            -∗ (sCA.view.loc (thrV d L) ↦{fullShare} (cntAt (tgtRow rS rD) base 12 0 0 11 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part7 v55 k0_hw10 v56 k0_hw11 v57 k0_hw12 v68 k0_hw23 v69 k0_hw24 v70 k0_hw25 v185 >>= k) Q := by
  iintro ⟨HT, HC, Hk⟩
  unfold atTile; rw [k0_part7_eq_skeleton]; unfold k0_part7_skel
  sl_exec
  rw [sCA_step (F := F) (tgtRow rS rD) base 9 0 0 8 9 0 0 9 752 _ _ (filled_step3 9 0 0 8 752 rfl (by omega))
    h185]
  iapply (tab_lidx₂ d L) $$ HT; iintro HT
  sl_exec
  rw [writes_cons₂, get0 sCA_step rS rD 9 10 144 h55 rfl rfl rfl (k0_pay19 v55 _) rfl,
    get3 sCA_step rS rD 9 10 768 h68 rfl rfl rfl (k0_pay20 v68 _) rfl]
  iapply (tab_lidx₂ d L) $$ HT; iintro HT
  sl_exec
  rw [writes_cons₂, get0 sCA_step rS rD 10 11 160 h56 rfl rfl rfl (k0_pay21 v56 _) rfl,
    get3 sCA_step rS rD 10 11 784 h69 rfl rfl rfl (k0_pay22 v69 _) rfl]
  iapply (tab_lidx₂ d L) $$ HT; iintro HT
  sl_exec
  rw [get0 sCA_step rS rD 11 12 176 h57 rfl rfl rfl (k0_pay23 v57 _) rfl]
  iapply Hk $$ %_ %(fun x hx => pay_tgt3 rS rD 11 _ rfl v70 h70 _ (fun x => loadIdx_countTab' (F := F) rS v70 _ x) x hx) HT HC

theorem part8 {α : Type} {Q : α → sProp 𝕄} (k : Vec F S16 .i32 → Prog (TpuEff nD τ sig (Elt F) Λ₀ (thrV d L).2) α)
    (rS rD : IVec SRow 32) (base : IVec SFreq 32)
    (v3 : IVec S16 32) (v4 : IVec S16 32) (v46 : Vec F S16 .i32) (k0_hw1 : k0_chk1 v46) (v47 : Vec F S16 .i32) (k0_hw2 : k0_chk2 v47) (v48 : Vec F S16 .i32) (k0_hw3 : k0_chk3 v48) (v49 : Vec F S16 .i32) (k0_hw4 : k0_chk4 v49) (v50 : Vec F S16 .i32) (k0_hw5 : k0_chk5 v50) (v51 : Vec F S16 .i32) (k0_hw6 : k0_chk6 v51) (v52 : Vec F S16 .i32) (k0_hw7 : k0_chk7 v52) (v53 : Vec F S16 .i32) (k0_hw8 : k0_chk8 v53) (v54 : Vec F S16 .i32) (k0_hw9 : k0_chk9 v54) (v55 : Vec F S16 .i32) (k0_hw10 : k0_chk10 v55) (v56 : Vec F S16 .i32) (k0_hw11 : k0_chk11 v56) (v57 : Vec F S16 .i32) (k0_hw12 : k0_chk12 v57) (v58 : Vec F S16 .i32) (k0_hw13 : k0_chk13 v58) (v59 : Vec F S16 .i32) (k0_hw14 : k0_chk14 v59) (v60 : Vec F S16 .i32) (k0_hw15 : k0_chk15 v60) (v61 : Vec F S16 .i32) (k0_hw16 : k0_chk16 v61) (v62 : Vec F S16 .i32) (k0_hw17 : k0_chk17 v62) (v63 : Vec F S16 .i32) (k0_hw18 : k0_chk18 v63) (v64 : Vec F S16 .i32) (k0_hw19 : k0_chk19 v64) (v65 : Vec F S16 .i32) (k0_hw20 : k0_chk20 v65) (v66 : Vec F S16 .i32) (k0_hw21 : k0_chk21 v66) (v67 : Vec F S16 .i32) (k0_hw22 : k0_chk22 v67) (v68 : Vec F S16 .i32) (k0_hw23 : k0_chk23 v68) (v69 : Vec F S16 .i32) (k0_hw24 : k0_chk24 v69) (v70 : Vec F S16 .i32) (k0_hw25 : k0_chk25 v70) (v71 : Vec F S16 .i32) (k0_hw26 : k0_chk26 v71) (v221 : IVec S16 32)
    (h3 : ∀ x, v3 x = 0#32)
    (h4 : ∀ x, v4 x = 1#32)
    (h46 : ∀ x, v46 x = rowVec rS 0 x)
    (h47 : ∀ x, v47 x = rowVec rS 1 x)
    (h48 : ∀ x, v48 x = rowVec rS 2 x)
    (h49 : ∀ x, v49 x = rowVec rS 3 x)
    (h50 : ∀ x, v50 x = rowVec rS 4 x)
    (h51 : ∀ x, v51 x = rowVec rS 5 x)
    (h52 : ∀ x, v52 x = rowVec rS 6 x)
    (h53 : ∀ x, v53 x = rowVec rS 7 x)
    (h54 : ∀ x, v54 x = rowVec rS 8 x)
    (h55 : ∀ x, v55 x = rowVec rS 9 x)
    (h56 : ∀ x, v56 x = rowVec rS 10 x)
    (h57 : ∀ x, v57 x = rowVec rS 11 x)
    (h58 : ∀ x, v58 x = rowVec rS 12 x)
    (h59 : ∀ x, v59 x = rowVec rD 0 x)
    (h60 : ∀ x, v60 x = rowVec rD 1 x)
    (h61 : ∀ x, v61 x = rowVec rD 2 x)
    (h62 : ∀ x, v62 x = rowVec rD 3 x)
    (h63 : ∀ x, v63 x = rowVec rD 4 x)
    (h64 : ∀ x, v64 x = rowVec rD 5 x)
    (h65 : ∀ x, v65 x = rowVec rD 6 x)
    (h66 : ∀ x, v66 x = rowVec rD 7 x)
    (h67 : ∀ x, v67 x = rowVec rD 8 x)
    (h68 : ∀ x, v68 x = rowVec rD 9 x)
    (h69 : ∀ x, v69 x = rowVec rD 10 x)
    (h70 : ∀ x, v70 x = rowVec rD 11 x)
    (h71 : ∀ x, v71 x = rowVec rD 12 x)
    (h221 : ∀ (x : SLane.Idx) (hx : 800 + (x 0).val < 832), v221 x = tgtRow rS rD (ix1 ⟨800 + (x 0).val, hx⟩)) :
    iprop((sTab.view.loc (thrV d L) ↦{fullShare} (countTab rS : Buf (Elt F) (sTab.view.loc (thrV d L))))
        ∗ (sCA.view.loc (thrV d L) ↦{fullShare} (cntAt (tgtRow rS rD) base 12 0 0 11 : Buf (Elt F) (sCA.view.loc (thrV d L))))
        ∗ (∀ ret : Vec F S16 .i32, ⌜∀ x, ret x = BitVec.ofNat 32 (occRow rD (v46 x))⌝
            -∗ (sTab.view.loc (thrV d L) ↦{fullShare} (countTab rD : Buf (Elt F) (sTab.view.loc (thrV d L))))
            -∗ (sCA.view.loc (thrV d L) ↦{fullShare} (cntAt (tgtRow rS rD) base 13 0 1 13 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part8 v3 v4 v46 k0_hw1 v47 k0_hw2 v48 k0_hw3 v49 k0_hw4 v50 k0_hw5 v51 k0_hw6 v52 k0_hw7 v53 k0_hw8 v54 k0_hw9 v55 k0_hw10 v56 k0_hw11 v57 k0_hw12 v58 k0_hw13 v59 k0_hw14 v60 k0_hw15 v61 k0_hw16 v62 k0_hw17 v63 k0_hw18 v64 k0_hw19 v65 k0_hw20 v66 k0_hw21 v67 k0_hw22 v68 k0_hw23 v69 k0_hw24 v70 k0_hw25 v71 k0_hw26 v221 >>= k) Q := by
  iintro ⟨HT, HC, Hk⟩
  unfold atTile; rw [k0_part8_eq_skeleton]; unfold k0_part8_skel
  sl_exec
  rw [sCA_step (F := F) (tgtRow rS rD) base 12 0 0 11 12 0 0 12 800 _ _ (filled_step3 12 0 0 11 800 rfl (by omega))
    h221]
  iapply (tab_lidx₂ d L) $$ HT; iintro HT
  sl_exec
  rw [writes_cons₂, get0 sCA_step rS rD 12 13 192 h58 rfl rfl rfl (k0_pay25 v58 _) rfl,
    get3 sCA_step rS rD 12 13 816 h71 rfl rfl rfl (k0_pay26 v71 _) rfl]
  iapply (tab_sidx' d L (clearedTab_first (F := F) rS v46 v3 _ h46 h3 (fun _ => rfl) _)) $$ HT; iintro HT
  iapply (tab_clear d L h47 h3 16 32 rfl rfl) $$ HT; iintro HT
  iapply (tab_clear d L h48 h3 32 48 rfl rfl) $$ HT; iintro HT
  iapply (tab_clear d L h49 h3 48 64 rfl rfl) $$ HT; iintro HT
  iapply (tab_clear d L h50 h3 64 80 rfl rfl) $$ HT; iintro HT
  iapply (tab_clear d L h51 h3 80 96 rfl rfl) $$ HT; iintro HT
  iapply (tab_clear d L h52 h3 96 112 rfl rfl) $$ HT; iintro HT
  iapply (tab_clear d L h53 h3 112 128 rfl rfl) $$ HT; iintro HT
  iapply (tab_clear d L h54 h3 128 144 rfl rfl) $$ HT; iintro HT
  iapply (tab_clear d L h55 h3 144 160 rfl rfl) $$ HT; iintro HT
  iapply (tab_clear d L h56 h3 160 176 rfl rfl) $$ HT; iintro HT
  iapply (tab_clear d L h57 h3 176 192 rfl rfl) $$ HT; iintro HT
  iapply (tab_sidx' d L (clearedTab_last (F := F) rS v58 v3 _ h58 h3 (fun _ => rfl) _)) $$ HT; iintro HT
  iapply (tab_sidx' d L (addedTab_first (F := F) rD v59 v4 _ h59 h4 (fun _ => rfl) _)) $$ HT; iintro HT
  iapply (tab_add d L h60 h4 16 32 rfl rfl) $$ HT; iintro HT
  iapply (tab_add d L h61 h4 32 48 rfl rfl) $$ HT; iintro HT
  iapply (tab_add d L h62 h4 48 64 rfl rfl) $$ HT; iintro HT
  iapply (tab_add d L h63 h4 64 80 rfl rfl) $$ HT; iintro HT
  iapply (tab_add d L h64 h4 80 96 rfl rfl) $$ HT; iintro HT
  iapply (tab_add d L h65 h4 96 112 rfl rfl) $$ HT; iintro HT
  iapply (tab_add d L h66 h4 112 128 rfl rfl) $$ HT; iintro HT
  iapply (tab_add d L h67 h4 128 144 rfl rfl) $$ HT; iintro HT
  iapply (tab_add d L h68 h4 144 160 rfl rfl) $$ HT; iintro HT
  iapply (tab_add d L h69 h4 160 176 rfl rfl) $$ HT; iintro HT
  iapply (tab_add d L h70 h4 176 192 rfl rfl) $$ HT; iintro HT
  iapply (tab_sidx' d L (addedTab_last (F := F) rD v71 v4 _ h71 h4 (fun _ => rfl) _)) $$ HT; iintro HT
  iapply (tab_lidx₂ d L) $$ HT; iintro HT
  sl_exec
  rw [get2 sCA_step rS rD 0 1 416 h59 rfl rfl rfl (k0_pay27 v59 _) rfl]
  iapply Hk $$ %_ %(fun x => loadIdx_countTab' (F := F) rD v46 _ x) HT HC

theorem part9 {α : Type} {Q : α → sProp 𝕄} (k : Vec F S16 .i32 → Prog (TpuEff nD τ sig (Elt F) Λ₀ (thrV d L).2) α)
    (rS rD : IVec SRow 32) (base : IVec SFreq 32)
    (v46 : Vec F S16 .i32) (v47 : Vec F S16 .i32) (k0_hw2 : k0_chk2 v47) (v48 : Vec F S16 .i32) (k0_hw3 : k0_chk3 v48) (v49 : Vec F S16 .i32) (k0_hw4 : k0_chk4 v49) (v60 : Vec F S16 .i32) (k0_hw15 : k0_chk15 v60) (v61 : Vec F S16 .i32) (k0_hw16 : k0_chk16 v61) (v62 : Vec F S16 .i32) (k0_hw17 : k0_chk17 v62) (v236 : Vec F S16 .i32)
    (h46 : ∀ x, v46 x = rowVec rS 0 x)
    (h47 : ∀ x, v47 x = rowVec rS 1 x)
    (h48 : ∀ x, v48 x = rowVec rS 2 x)
    (h49 : ∀ x, v49 x = rowVec rS 3 x)
    (h60 : ∀ x, v60 x = rowVec rD 1 x)
    (h61 : ∀ x, v61 x = rowVec rD 2 x)
    (h62 : ∀ x, v62 x = rowVec rD 3 x)
    (h236 : ∀ x, v236 x = BitVec.ofNat 32 (occRow rD (v46 x))) :
    iprop((sTab.view.loc (thrV d L) ↦{fullShare} (countTab rD : Buf (Elt F) (sTab.view.loc (thrV d L))))
        ∗ (sCA.view.loc (thrV d L) ↦{fullShare} (cntAt (tgtRow rS rD) base 13 0 1 13 : Buf (Elt F) (sCA.view.loc (thrV d L))))
        ∗ (∀ ret : Vec F S16 .i32, ⌜∀ x, ret x = BitVec.ofNat 32 (occRow rD (v49 x))⌝
            -∗ (sTab.view.loc (thrV d L) ↦{fullShare} (countTab rD : Buf (Elt F) (sTab.view.loc (thrV d L))))
            -∗ (sCA.view.loc (thrV d L) ↦{fullShare} (cntAt (tgtRow rS rD) base 13 3 4 13 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part9 v46 v47 k0_hw2 v48 k0_hw3 v49 k0_hw4 v60 k0_hw15 v61 k0_hw16 v62 k0_hw17 v236 >>= k) Q := by
  iintro ⟨HT, HC, Hk⟩
  unfold atTile; rw [k0_part9_eq_skeleton]; unfold k0_part9_skel
  sl_exec
  rw [sCA_step (F := F) (tgtRow rS rD) base 13 0 1 13 13 1 1 13 208 _ (k0_pay28 v46 v236) (filled_step1 13 0 1 13 208 rfl (by omega))
    (fun x hx => pay_tgt1 rS rD 0 _ rfl v46 h46 v236 h236 x hx)]
  iapply (tab_lidx₂ d L) $$ HT; iintro HT
  sl_exec
  rw [writes_cons₂, get2 sCA_step rS rD 1 2 432 h60 rfl rfl rfl (k0_pay29 v60 _) rfl,
    get1 sCA_step rS rD 1 2 224 h47 rfl rfl rfl (k0_pay30 v47 _) rfl]
  iapply (tab_lidx₂ d L) $$ HT; iintro HT
  sl_exec
  rw [writes_cons₂, get2 sCA_step rS rD 2 3 448 h61 rfl rfl rfl (k0_pay31 v61 _) rfl,
    get1 sCA_step rS rD 2 3 240 h48 rfl rfl rfl (k0_pay32 v48 _) rfl]
  iapply (tab_lidx₂ d L) $$ HT; iintro HT
  sl_exec
  rw [get2 sCA_step rS rD 3 4 464 h62 rfl rfl rfl (k0_pay33 v62 _) rfl]
  iapply Hk $$ %_ %(fun x => loadIdx_countTab' (F := F) rD v49 _ x) HT HC

theorem part10 {α : Type} {Q : α → sProp 𝕄} (k : Vec F S16 .i32 → Prog (TpuEff nD τ sig (Elt F) Λ₀ (thrV d L).2) α)
    (rS rD : IVec SRow 32) (base : IVec SFreq 32)
    (v49 : Vec F S16 .i32) (v50 : Vec F S16 .i32) (k0_hw5 : k0_chk5 v50) (v51 : Vec F S16 .i32) (k0_hw6 : k0_chk6 v51) (v52 : Vec F S16 .i32) (k0_hw7 : k0_chk7 v52) (v63 : Vec F S16 .i32) (k0_hw18 : k0_chk18 v63) (v64 : Vec F S16 .i32) (k0_hw19 : k0_chk19 v64) (v65 : Vec F S16 .i32) (k0_hw20 : k0_chk20 v65) (v272 : Vec F S16 .i32)
    (h49 : ∀ x, v49 x = rowVec rS 3 x)
    (h50 : ∀ x, v50 x = rowVec rS 4 x)
    (h51 : ∀ x, v51 x = rowVec rS 5 x)
    (h52 : ∀ x, v52 x = rowVec rS 6 x)
    (h63 : ∀ x, v63 x = rowVec rD 4 x)
    (h64 : ∀ x, v64 x = rowVec rD 5 x)
    (h65 : ∀ x, v65 x = rowVec rD 6 x)
    (h272 : ∀ x, v272 x = BitVec.ofNat 32 (occRow rD (v49 x))) :
    iprop((sTab.view.loc (thrV d L) ↦{fullShare} (countTab rD : Buf (Elt F) (sTab.view.loc (thrV d L))))
        ∗ (sCA.view.loc (thrV d L) ↦{fullShare} (cntAt (tgtRow rS rD) base 13 3 4 13 : Buf (Elt F) (sCA.view.loc (thrV d L))))
        ∗ (∀ ret : Vec F S16 .i32, ⌜∀ x, ret x = BitVec.ofNat 32 (occRow rD (v52 x))⌝
            -∗ (sTab.view.loc (thrV d L) ↦{fullShare} (countTab rD : Buf (Elt F) (sTab.view.loc (thrV d L))))
            -∗ (sCA.view.loc (thrV d L) ↦{fullShare} (cntAt (tgtRow rS rD) base 13 6 7 13 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part10 v49 v50 k0_hw5 v51 k0_hw6 v52 k0_hw7 v63 k0_hw18 v64 k0_hw19 v65 k0_hw20 v272 >>= k) Q := by
  iintro ⟨HT, HC, Hk⟩
  unfold atTile; rw [k0_part10_eq_skeleton]; unfold k0_part10_skel
  sl_exec
  rw [sCA_step (F := F) (tgtRow rS rD) base 13 3 4 13 13 4 4 13 256 _ (k0_pay34 v49 v272) (filled_step1 13 3 4 13 256 rfl (by omega))
    (fun x hx => pay_tgt1 rS rD 3 _ rfl v49 h49 v272 h272 x hx)]
  iapply (tab_lidx₂ d L) $$ HT; iintro HT
  sl_exec
  rw [writes_cons₂, get2 sCA_step rS rD 4 5 480 h63 rfl rfl rfl (k0_pay35 v63 _) rfl,
    get1 sCA_step rS rD 4 5 272 h50 rfl rfl rfl (k0_pay36 v50 _) rfl]
  iapply (tab_lidx₂ d L) $$ HT; iintro HT
  sl_exec
  rw [writes_cons₂, get2 sCA_step rS rD 5 6 496 h64 rfl rfl rfl (k0_pay37 v64 _) rfl,
    get1 sCA_step rS rD 5 6 288 h51 rfl rfl rfl (k0_pay38 v51 _) rfl]
  iapply (tab_lidx₂ d L) $$ HT; iintro HT
  sl_exec
  rw [get2 sCA_step rS rD 6 7 512 h65 rfl rfl rfl (k0_pay39 v65 _) rfl]
  iapply Hk $$ %_ %(fun x => loadIdx_countTab' (F := F) rD v52 _ x) HT HC

theorem part11 {α : Type} {Q : α → sProp 𝕄} (k : Vec F S16 .i32 → Prog (TpuEff nD τ sig (Elt F) Λ₀ (thrV d L).2) α)
    (rS rD : IVec SRow 32) (base : IVec SFreq 32)
    (v52 : Vec F S16 .i32) (v53 : Vec F S16 .i32) (k0_hw8 : k0_chk8 v53) (v54 : Vec F S16 .i32) (k0_hw9 : k0_chk9 v54) (v55 : Vec F S16 .i32) (k0_hw10 : k0_chk10 v55) (v66 : Vec F S16 .i32) (k0_hw21 : k0_chk21 v66) (v67 : Vec F S16 .i32) (k0_hw22 : k0_chk22 v67) (v68 : Vec F S16 .i32) (k0_hw23 : k0_chk23 v68) (v308 : Vec F S16 .i32)
    (h52 : ∀ x, v52 x = rowVec rS 6 x)
    (h53 : ∀ x, v53 x = rowVec rS 7 x)
    (h54 : ∀ x, v54 x = rowVec rS 8 x)
    (h55 : ∀ x, v55 x = rowVec rS 9 x)
    (h66 : ∀ x, v66 x = rowVec rD 7 x)
    (h67 : ∀ x, v67 x = rowVec rD 8 x)
    (h68 : ∀ x, v68 x = rowVec rD 9 x)
    (h308 : ∀ x, v308 x = BitVec.ofNat 32 (occRow rD (v52 x))) :
    iprop((sTab.view.loc (thrV d L) ↦{fullShare} (countTab rD : Buf (Elt F) (sTab.view.loc (thrV d L))))
        ∗ (sCA.view.loc (thrV d L) ↦{fullShare} (cntAt (tgtRow rS rD) base 13 6 7 13 : Buf (Elt F) (sCA.view.loc (thrV d L))))
        ∗ (∀ ret : Vec F S16 .i32, ⌜∀ x, ret x = BitVec.ofNat 32 (occRow rD (v55 x))⌝
            -∗ (sTab.view.loc (thrV d L) ↦{fullShare} (countTab rD : Buf (Elt F) (sTab.view.loc (thrV d L))))
            -∗ (sCA.view.loc (thrV d L) ↦{fullShare} (cntAt (tgtRow rS rD) base 13 9 10 13 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part11 v52 v53 k0_hw8 v54 k0_hw9 v55 k0_hw10 v66 k0_hw21 v67 k0_hw22 v68 k0_hw23 v308 >>= k) Q := by
  iintro ⟨HT, HC, Hk⟩
  unfold atTile; rw [k0_part11_eq_skeleton]; unfold k0_part11_skel
  sl_exec
  rw [sCA_step (F := F) (tgtRow rS rD) base 13 6 7 13 13 7 7 13 304 _ (k0_pay40 v52 v308) (filled_step1 13 6 7 13 304 rfl (by omega))
    (fun x hx => pay_tgt1 rS rD 6 _ rfl v52 h52 v308 h308 x hx)]
  iapply (tab_lidx₂ d L) $$ HT; iintro HT
  sl_exec
  rw [writes_cons₂, get2 sCA_step rS rD 7 8 528 h66 rfl rfl rfl (k0_pay41 v66 _) rfl,
    get1 sCA_step rS rD 7 8 320 h53 rfl rfl rfl (k0_pay42 v53 _) rfl]
  iapply (tab_lidx₂ d L) $$ HT; iintro HT
  sl_exec
  rw [writes_cons₂, get2 sCA_step rS rD 8 9 544 h67 rfl rfl rfl (k0_pay43 v67 _) rfl,
    get1 sCA_step rS rD 8 9 336 h54 rfl rfl rfl (k0_pay44 v54 _) rfl]
  iapply (tab_lidx₂ d L) $$ HT; iintro HT
  sl_exec
  rw [get2 sCA_step rS rD 9 10 560 h68 rfl rfl rfl (k0_pay45 v68 _) rfl]
  iapply Hk $$ %_ %(fun x => loadIdx_countTab' (F := F) rD v55 _ x) HT HC

theorem part12 {α : Type} {Q : α → sProp 𝕄} (k : Vec F S16 .i32 → Prog (TpuEff nD τ sig (Elt F) Λ₀ (thrV d L).2) α)
    (rS rD : IVec SRow 32) (base : IVec SFreq 32)
    (v55 : Vec F S16 .i32) (v56 : Vec F S16 .i32) (k0_hw11 : k0_chk11 v56) (v57 : Vec F S16 .i32) (k0_hw12 : k0_chk12 v57) (v58 : Vec F S16 .i32) (k0_hw13 : k0_chk13 v58) (v69 : Vec F S16 .i32) (k0_hw24 : k0_chk24 v69) (v70 : Vec F S16 .i32) (k0_hw25 : k0_chk25 v70) (v71 : Vec F S16 .i32) (k0_hw26 : k0_chk26 v71) (v344 : Vec F S16 .i32)
    (h55 : ∀ x, v55 x = rowVec rS 9 x)
    (h56 : ∀ x, v56 x = rowVec rS 10 x)
    (h57 : ∀ x, v57 x = rowVec rS 11 x)
    (h58 : ∀ x, v58 x = rowVec rS 12 x)
    (h69 : ∀ x, v69 x = rowVec rD 10 x)
    (h70 : ∀ x, v70 x = rowVec rD 11 x)
    (h71 : ∀ x, v71 x = rowVec rD 12 x)
    (h344 : ∀ x, v344 x = BitVec.ofNat 32 (occRow rD (v55 x))) :
    iprop((sTab.view.loc (thrV d L) ↦{fullShare} (countTab rD : Buf (Elt F) (sTab.view.loc (thrV d L))))
        ∗ (sCA.view.loc (thrV d L) ↦{fullShare} (cntAt (tgtRow rS rD) base 13 9 10 13 : Buf (Elt F) (sCA.view.loc (thrV d L))))
        ∗ (∀ ret : Vec F S16 .i32, ⌜∀ x, ret x = BitVec.ofNat 32 (occRow rD (v58 x))⌝
            -∗ (sTab.view.loc (thrV d L) ↦{fullShare} (countTab rD : Buf (Elt F) (sTab.view.loc (thrV d L))))
            -∗ (sCA.view.loc (thrV d L) ↦{fullShare} (cntAt (tgtRow rS rD) base 13 12 13 13 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part12 v55 v56 k0_hw11 v57 k0_hw12 v58 k0_hw13 v69 k0_hw24 v70 k0_hw25 v71 k0_hw26 v344 >>= k) Q := by
  iintro ⟨HT, HC, Hk⟩
  unfold atTile; rw [k0_part12_eq_skeleton]; unfold k0_part12_skel
  sl_exec
  rw [sCA_step (F := F) (tgtRow rS rD) base 13 9 10 13 13 10 10 13 352 _ (k0_pay46 v55 v344) (filled_step1 13 9 10 13 352 rfl (by omega))
    (fun x hx => pay_tgt1 rS rD 9 _ rfl v55 h55 v344 h344 x hx)]
  iapply (tab_lidx₂ d L) $$ HT; iintro HT
  sl_exec
  rw [writes_cons₂, get2 sCA_step rS rD 10 11 576 h69 rfl rfl rfl (k0_pay47 v69 _) rfl,
    get1 sCA_step rS rD 10 11 368 h56 rfl rfl rfl (k0_pay48 v56 _) rfl]
  iapply (tab_lidx₂ d L) $$ HT; iintro HT
  sl_exec
  rw [writes_cons₂, get2 sCA_step rS rD 11 12 592 h70 rfl rfl rfl (k0_pay49 v70 _) rfl,
    get1 sCA_step rS rD 11 12 384 h57 rfl rfl rfl (k0_pay50 v57 _) rfl]
  iapply (tab_lidx₂ d L) $$ HT; iintro HT
  sl_exec
  rw [get2 sCA_step rS rD 12 13 608 h71 rfl rfl rfl (k0_pay51 v71 _) rfl]
  iapply Hk $$ %_ %(fun x => loadIdx_countTab' (F := F) rD v58 _ x) HT HC

end PartsA

end Cert.KernelIdeal.Sc

end
-- ==== Proof.Sc.PartsD.lean ====
import proofs.«212098_g24275155157491_cont_8to1_80_30_alg».proof.Proof.Sc.Inv
import proofs.«212098_g24275155157491_cont_8to1_80_30_alg».proof.Proof.Sc.RowVal
import proofs.«212098_g24275155157491_cont_8to1_80_30_alg».proof.Proof.Sc.PartsA

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

theorem emb_rowM3 (j : Fin 1024) (h : ∀ a, rowOff j a + S1x832.size a ≤ S1024x832.size a) (p : Fin 832) :
    (rowM3 (rowOff j) h).view.emb (ix1 p) = ix2 j p := by
  show (Rect.unit (s := S1024x832) (rowOff j) S1x832.size h).emb (Shape.reshapeEquiv squeezes_S1x832_S832.numel_eq (ix1 p)) = _
  rw [reshape_row]
  funext a
  apply Fin.ext
  match a with
  | ⟨0, _⟩ => show j.val + 1 * 0 = j.val; omega
  | ⟨1, _⟩ => show 0 + 1 * p.val = p.val; omega

theorem landed_row (j : Fin 1024) (off : Fin 2 → ℕ) (h : ∀ a, off a + S1x832.size a ≤ S1024x832.size a) (hoff : off = rowOff j)
    (f3 : Buf (Elt F) (v3Loc d)) {w : S832.Idx → Elt F .i32} (hw : ∀ p : Fin 832, w (ix1 p) = cnts m d (ix2 j p)) :
    ((rowM3 off h).view.loc (thrV d L) ↦[(rowM3 off h).view.set]{fullShare}
        ((rowM3 off h).view.writes (Elt F) f3 [⟨Rect.whole S832, w⟩]) : sProp 𝕄)
      = v3Row d j (cnts m d) := by
  subst hoff
  rw [pts_rowM3 (F := F) d L (rowOff j) h j rfl]
  refine pointsTo_congr fun i hi => ?_
  rw [← set_rowM3 (rowOff j) h j rfl] at hi
  obtain ⟨y, -, rfl⟩ := Finset.mem_map.1 hi
  obtain ⟨p, rfl⟩ : ∃ p : Fin 832, y = ix1 p := ⟨y 0, eq_ix1 y⟩
  have e := View.read_writes_cons_emb (rowM3 (rowOff j) h).view f3 (Rect.whole S832) w [] (ix1 p)
  rw [Rect.emb_whole_apply, View.read_apply] at e
  rw [emb_rowM3 j h p] at e ⊢
  exact (cast_eq _ _).symm.trans (e.trans (hw p))

theorem readAt_rowVec_SB (f : Buf (Elt F) (sSB.view.loc (thrV d L))) (v : Fin 13) (off : ℕ) (hoff : off = 16 * v.val)
    (h : ∀ a, (![off] : Fin 1 → ℕ) a + S16.size a ≤ S208.size a) (x : S16.Idx) :
    (sSB.view.readAt (Elt F) (Rect.unit (s := S208) ![off] S16.size h).toLoadRect f) x = rowVec f v x := by
  subst hoff
  simp only [View.readAt_apply, Memref.view_whole, View.read_whole]
  unfold rowVec
  congr 1
  funext a; apply Fin.ext
  obtain rfl : a = 0 := Subsingleton.elim _ _
  simp [LoadRect.idx_apply, ValueIdx.ix1]

omit [FloatOps F] in
theorem pts_sCA_set (C : Buf (Elt F) (sCA.view.loc (thrV d L))) :
    (sCA.view.loc (thrV d L) ↦[sCA.view.set]{fullShare} C : sProp 𝕄)
      = (sCA.view.loc (thrV d L) ↦{fullShare} C) := by
  simp only [Memref.view_whole, View.set_whole]

omit [FloatOps F] in
theorem pts_sCB_set (C : Buf (Elt F) (sCB.view.loc (thrV d L))) :
    (sCB.view.loc (thrV d L) ↦[sCB.view.set]{fullShare} C : sProp 𝕄)
      = (sCB.view.loc (thrV d L) ↦{fullShare} C) := by
  simp only [Memref.view_whole, View.set_whole]

omit [FloatOps F] in
theorem pts_sCB_rest (C : Buf (Elt F) (sCB.view.loc (thrV d L))) :
    (sCB.view.loc (thrV d L) ↦[Finset.univ \ sCB.view.set]{fullShare} C : sProp 𝕄) = iprop(emp) := by
  simp only [Memref.view_whole, View.set_whole, Finset.sdiff_self]
  exact pointsTo_empty

omit [FloatOps F] in
theorem pts_sCA_rest (C : Buf (Elt F) (sCA.view.loc (thrV d L))) :
    (sCA.view.loc (thrV d L) ↦[Finset.univ \ sCA.view.set]{fullShare} C : sProp 𝕄) = iprop(emp) := by
  simp only [Memref.view_whole, View.set_whole, Finset.sdiff_self]
  exact pointsTo_empty

theorem part13 (hpre : PreOK m) (O : CellTallies nD τ sig (HIx 1)) (W : Waits sig (HIx 1)) {α : Type} {Q : α → sProp 𝕄}
    (kk : (Σ' (v395 : BitVec 32) (v404 : Vec F S16 .i32) (_ : k0_chk27 v404) (v405 : Vec F S16 .i32) (_ : k0_chk28 v405) (v406 : Vec F S16 .i32) (_ : k0_chk29 v406) (v407 : Vec F S16 .i32) (_ : k0_chk30 v407) (v408 : Vec F S16 .i32), k0_chk31 v408) → Prog (TpuEff nD τ sig (Elt F) Λ₀ (thrV d L).2) α)
    (k : Fin k0_t2_loop.trips) (j j' : Fin 1024) (hj : k0_off7 L k = rowOff j)
    (rS rD : IVec SRow 32) (base : IVec SFreq 32) (f3 : Buf (Elt F) (v3Loc d))
    (hrS : rS = rowBufSA m d L j) (hrD : rD = rowBufDA m d L j)
    (v3 : IVec S16 32) (v37 : BitVec 32) (v58 : Vec F S16 .i32)
    (v59 : Vec F S16 .i32) (hw14 : k0_chk14 v59) (v60 : Vec F S16 .i32) (hw15 : k0_chk15 v60) (v61 : Vec F S16 .i32) (hw16 : k0_chk16 v61) (v62 : Vec F S16 .i32) (hw17 : k0_chk17 v62) (v63 : Vec F S16 .i32) (hw18 : k0_chk18 v63) (v64 : Vec F S16 .i32) (hw19 : k0_chk19 v64) (v65 : Vec F S16 .i32) (hw20 : k0_chk20 v65) (v66 : Vec F S16 .i32) (hw21 : k0_chk21 v66) (v67 : Vec F S16 .i32) (hw22 : k0_chk22 v67) (v68 : Vec F S16 .i32) (hw23 : k0_chk23 v68) (v69 : Vec F S16 .i32) (hw24 : k0_chk24 v69) (v70 : Vec F S16 .i32) (hw25 : k0_chk25 v70) (v71 : Vec F S16 .i32) (hw26 : k0_chk26 v71)
    (v380 : Vec F S16 .i32)
    (h3 : ∀ x, v3 x = 0#32) (h58 : ∀ x, v58 x = rowVec rS 12 x)
    (h59 : ∀ x, v59 x = rowVec rD 0 x) (h60 : ∀ x, v60 x = rowVec rD 1 x) (h61 : ∀ x, v61 x = rowVec rD 2 x) (h62 : ∀ x, v62 x = rowVec rD 3 x) (h63 : ∀ x, v63 x = rowVec rD 4 x) (h64 : ∀ x, v64 x = rowVec rD 5 x) (h65 : ∀ x, v65 x = rowVec rD 6 x) (h66 : ∀ x, v66 x = rowVec rD 7 x) (h67 : ∀ x, v67 x = rowVec rD 8 x) (h68 : ∀ x, v68 x = rowVec rD 9 x) (h69 : ∀ x, v69 x = rowVec rD 10 x) (h70 : ∀ x, v70 x = rowVec rD 11 x) (h71 : ∀ x, v71 x = rowVec rD 12 x)
    (h380 : ∀ x, v380 x = BitVec.ofNat 32 (occRow rD (v58 x))) :
    iprop(□ Transfers.MayWaits (thrV d L) (none : HIx 1) O
        ∗ (sTab.view.loc (thrV d L) ↦{fullShare} (countTab rD : Buf (Elt F) (sTab.view.loc (thrV d L))))
        ∗ (sCA.view.loc (thrV d L) ↦{fullShare} (cntAt (tgtRow rS rD) base 13 12 13 13 : Buf (Elt F) (sCA.view.loc (thrV d L))))
        ∗ semVal (cellV d L cc0_scratch11) 0
        ∗ ((rowM3 (k0_off7 L k) (k0_off7_inb L k)).view.loc (thrV d L) ↦[(rowM3 (k0_off7 L k) (k0_off7_inb L k)).view.set]{fullShare} f3)
        ∗ idFlight d L cc0_scratch9 sSB (rowBufSB m d L j') (v1Row m d j')
        ∗ idFlight d L cc0_scratch10 sDB (rowBufDB m d L j') (v2Row m d j')
        ∗ owes (thrV d L) O W
        ∗ (∀ (v395 : BitVec 32) (v404 : Vec F S16 .i32) (hw27 : k0_chk27 v404) (v405 : Vec F S16 .i32) (hw28 : k0_chk28 v405) (v406 : Vec F S16 .i32) (hw29 : k0_chk29 v406)
              (v407 : Vec F S16 .i32) (hw30 : k0_chk30 v407) (v408 : Vec F S16 .i32) (hw31 : k0_chk31 v408),
            ⌜v395 = Scalar.addi v37 1#32⌝ -∗ ⌜∀ x, v404 x = rowVec (rowBufSB m d L j') 0 x⌝ -∗ ⌜∀ x, v405 x = rowVec (rowBufSB m d L j') 1 x⌝ -∗ ⌜∀ x, v406 x = rowVec (rowBufSB m d L j') 2 x⌝ -∗ ⌜∀ x, v407 x = rowVec (rowBufSB m d L j') 3 x⌝ -∗ ⌜∀ x, v408 x = rowVec (rowBufSB m d L j') 4 x⌝
            -∗ (sTab.view.loc (thrV d L) ↦{fullShare} zeroTab d L)
            -∗ cntFlight m d L cc0_scratch11 sCA (tgtRow rS rD) j
            -∗ (sSB.view.loc (thrV d L) ↦{fullShare} rowBufSB m d L j') -∗ v1Row m d j' -∗ semVal (cellV d L cc0_scratch9) 0
            -∗ (sDB.view.loc (thrV d L) ↦{fullShare} rowBufDB m d L j') -∗ v2Row m d j' -∗ semVal (cellV d L cc0_scratch10) 0
            -∗ owes (thrV d L) O (insert (SemLoc.dma cc0_scratch10.sem, (default : HIx 1)) (insert (SemLoc.dma cc0_scratch9.sem, (default : HIx 1)) W))
            -∗ wp frame (wpE (defs₀ (F := F)) 𝒱₀ (thrV d L) none) Set.univ (kk ⟨v395, v404, hw27, v405, hw28, v406, hw29, v407, hw30, v408, hw31⟩) Q))
      ⊢ wp frame (wpE (defs₀ (F := F)) 𝒱₀ (thrV d L) none) Set.univ
          (atTile L k0_part13 v3 k v37 v58 v59 hw14 v60 hw15 v61 hw16 v62 hw17 v63 hw18 v64 hw19 v65 hw20 v66 hw21 v67 hw22 v68 hw23 v69 hw24 v70 hw25 v71 hw26 v380 >>= kk) Q := by
  iintro ⟨#Hmw, HT, HC, Hs11, Hr3, Hf9, Hf10, HO, Hk⟩
  unfold atTile; rw [k0_part13_eq_skeleton]; unfold k0_part13_skel
  sl_exec
  rw [sCA_step (F := F) (tgtRow rS rD) base 13 12 13 13 13 13 13 13 400 _ (k0_pay52 v58 v380) (filled_step1 13 12 13 13 400 rfl (by omega))
    (fun x hx => pay_tgt1 rS rD 12 _ rfl v58 h58 v380 h380 x hx), cntAt_full]
  iapply (tab_sidx' d L (clearedTab_first (F := F) rD v59 v3 _ h59 h3 (fun _ => rfl) _)) $$ HT; iintro HT
  iapply (tab_clear d L h60 h3 16 32 rfl rfl) $$ HT; iintro HT
  iapply (tab_clear d L h61 h3 32 48 rfl rfl) $$ HT; iintro HT
  iapply (tab_clear d L h62 h3 48 64 rfl rfl) $$ HT; iintro HT
  iapply (tab_clear d L h63 h3 64 80 rfl rfl) $$ HT; iintro HT
  iapply (tab_clear d L h64 h3 80 96 rfl rfl) $$ HT; iintro HT
  iapply (tab_clear d L h65 h3 96 112 rfl rfl) $$ HT; iintro HT
  iapply (tab_clear d L h66 h3 112 128 rfl rfl) $$ HT; iintro HT
  iapply (tab_clear d L h67 h3 128 144 rfl rfl) $$ HT; iintro HT
  iapply (tab_clear d L h68 h3 144 160 rfl rfl) $$ HT; iintro HT
  iapply (tab_clear d L h69 h3 160 176 rfl rfl) $$ HT; iintro HT
  iapply (tab_clear d L h70 h3 176 192 rfl rfl) $$ HT; iintro HT
  iapply (tab_sidx' d L ((clearedTab_last (F := F) rD v71 v3 _ h71 h3 (fun _ => rfl) _).trans (rfl : _ = zeroTab (F := F) d L))) $$ HT; iintro HT
  sl_exec (disch := first
    | sl_exact chk27_of m d L hpre _ _ _
    | sl_exact chk28_of m d L hpre _ _ _
    | sl_exact chk29_of m d L hpre _ _ _
    | sl_exact chk30_of m d L hpre _ _ _
    | sl_exact chk31_of m d L hpre _ _ _)
  rw [landed_row (F := F) m d L j (k0_off7 L k) (k0_off7_inb L k) hj f3, pts_sCA_set, pts_sCA_rest]
  swap
  · intro p
    subst hrS hrD
    exact cnts_rowA m d L j p
  iapply Hk $$ %_ %_ %_ %_ %_ %_ %_ %_ %_ %_ %_ %rfl
    %(fun x => readAt_rowVec_SB (F := F) d L _ 0 0 rfl _ x) %(fun x => readAt_rowVec_SB (F := F) d L _ 1 16 rfl _ x)
    %(fun x => readAt_rowVec_SB (F := F) d L _ 2 32 rfl _ x) %(fun x => readAt_rowVec_SB (F := F) d L _ 3 48 rfl _ x)
    %(fun x => readAt_rowVec_SB (F := F) d L _ 4 64 rfl _ x) HT [Hs11] Hf9_dst Hf9_src [Hf9] Hf10_dst Hf10_src [Hf10] [HO]
  · iexact Hs11
  · iexact Hf9
  · iexact Hf10
  · iexact HO

end Cert.KernelIdeal.Sc

end
-- ==== Proof.Sc.TripLib.lean ====
import proofs.«212098_g24275155157491_cont_8to1_80_30_alg».proof.Proof.Sc.PartsC
import proofs.«212098_g24275155157491_cont_8to1_80_30_alg».proof.Proof.Sc.PartsD

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

theorem readAt_rowVec_SA (f : Buf (Elt F) (sSA.view.loc (thrV d L))) (v : Fin 13) (off : ℕ) (hoff : off = 16 * v.val)
    (h : ∀ a, (![off] : Fin 1 → ℕ) a + S16.size a ≤ S208.size a) (x : S16.Idx) :
    (sSA.view.readAt (Elt F) (Rect.unit (s := S208) ![off] S16.size h).toLoadRect f) x = rowVec f v x := by
  subst hoff
  simp only [View.readAt_apply, Memref.view_whole, View.read_whole]
  unfold rowVec
  congr 1
  funext a; apply Fin.ext
  obtain rfl : a = 0 := Subsingleton.elim _ _
  simp [LoadRect.idx_apply, ValueIdx.ix1]
theorem readAt_rowVec_DA (f : Buf (Elt F) (sDA.view.loc (thrV d L))) (v : Fin 13) (off : ℕ) (hoff : off = 16 * v.val)
    (h : ∀ a, (![off] : Fin 1 → ℕ) a + S16.size a ≤ S208.size a) (x : S16.Idx) :
    (sDA.view.readAt (Elt F) (Rect.unit (s := S208) ![off] S16.size h).toLoadRect f) x = rowVec f v x := by
  subst hoff
  simp only [View.readAt_apply, Memref.view_whole, View.read_whole]
  unfold rowVec
  congr 1
  funext a; apply Fin.ext
  obtain rfl : a = 0 := Subsingleton.elim _ _
  simp [LoadRect.idx_apply, ValueIdx.ix1]

theorem k0_off6_eq' : ∀ (i : grid0.Coords) (k : Fin k0_t2_loop.trips), 0 < k.val → k0_off6 i k = ![64 * (i 1).val + 32 * (i 0).val + 2 * k.val - 2, 0] := by
  decide +kernel
theorem k0_off10_eq' : ∀ (i : grid0.Coords) (k : Fin k0_t2_loop.trips), 0 < k.val → k0_off10 i k = ![64 * (i 1).val + 32 * (i 0).val + 2 * k.val - 1, 0] := by
  decide +kernel

theorem pts_sCA_none (tgt : IVec SFreq 32) (C : Buf (Elt F) (sCA.view.loc (thrV d L))) :
    (sCA.view.loc (thrV d L) ↦{fullShare} C : sProp 𝕄)
      = (sCA.view.loc (thrV d L) ↦{fullShare} (cntAt tgt C 0 0 0 0 : Buf (Elt F) (sCA.view.loc (thrV d L)))) := by
  rw [cntAt_none]

end Cert.KernelIdeal.Sc

end
-- ==== Proof.Sc.Flights.lean ====
import proofs.«212098_g24275155157491_cont_8to1_80_30_alg».proof.Proof.Sc.Inv

noncomputable section

namespace Cert.KernelIdeal.Sc

open Cert.KernelIdeal Cert.KernelIdeal.Gen Idealize.ShloMosaic Idealize.SL Idealize.SL.RA Idealize.SL.BI
open Idealize.ShloMosaic.SparseCore.Cfg (HIx)
open scoped Idealize.SL.BI
open Idealize.SL.BI.BIBase Idealize.SL.BI.Laws Idealize.SL.Sem

variable {F : FTy → Type}

local notation "𝕄" => MT nD τ sig (HIx 1) (Elt F) ℕ UU ℕ

variable (m : (ℓ : Loc nD τ sig) → Buf (Elt F) ℓ) [FloatOps F] (d : Dev nD) (L : grid0.Coords)

-- A buffer overwritten whole holds the words written, whatever it held.
theorem flight_whole {g : SemLoc sig} (b : Ref sig .scVector) (f w : b.ty.Contents (Elt F)) {R R' : sProp 𝕄} (hR : R = R') :
    (Transfers.Flight countersEmb (thrV d L) g (default : HIx 1) 6656
        iprop(((View.whole b).loc (thrV d L) ↦{fullShare} (View.whole b).write (Elt F) f w Finset.univ) ∗ R) : sProp 𝕄)
      = Transfers.Flight countersEmb (thrV d L) g (default : HIx 1) 6656 iprop(((View.whole b).loc (thrV d L) ↦{fullShare} w) ∗ R') := by
  rw [View.write_whole_univ, hR]

variable (j' : Fin 1024) (off : Fin 2 → ℕ) (h : ∀ a, off a + S1x208.size a ≤ S1024x208.size a) (e : off = rowOff j')
include e

theorem idFlight_of_exec_SA (h0 : 0 < sig.nDmaSem)
    (f : Buf (Elt F) (sSA.view.loc (thrV d L))) (w : S208.Idx → Elt F .i32)
    (hw : w = ReadAs.same.apply ((rowM1 off h).view.read (Elt F) (pad0 m d))) :
    (Transfers.Flight countersEmb (thrV d L) (SemLoc.dma (⟨0, h0⟩ : DmaSem sig)) (default : HIx 1) 6656
        iprop((sSA.view.loc (thrV d L) ↦{fullShare} View.write (Elt F) sSA.view f w Finset.univ)
          ∗ ((rowM1 off h).view.loc (thrV d L) ↦[(rowM1 off h).view.set]{fullShare} pad0 m d)) : sProp 𝕄)
      = idFlight d L cc0_scratch7 sSA (rowBufSA m d L j') (v1Row m d j') := by
  subst e hw
  exact flight_whole d L cc0_scratch1 f _ (pts_rowM1 d L _ h j' rfl (pad0 m d))

theorem idFlight_of_exec_DA (h0 : 1 < sig.nDmaSem)
    (f : Buf (Elt F) (sDA.view.loc (thrV d L))) (w : S208.Idx → Elt F .i32)
    (hw : w = ReadAs.same.apply ((rowM2 off h).view.read (Elt F) (pad1 m d))) :
    (Transfers.Flight countersEmb (thrV d L) (SemLoc.dma (⟨1, h0⟩ : DmaSem sig)) (default : HIx 1) 6656
        iprop((sDA.view.loc (thrV d L) ↦{fullShare} View.write (Elt F) sDA.view f w Finset.univ)
          ∗ ((rowM2 off h).view.loc (thrV d L) ↦[(rowM2 off h).view.set]{fullShare} pad1 m d)) : sProp 𝕄)
      = idFlight d L cc0_scratch8 sDA (rowBufDA m d L j') (v2Row m d j') := by
  subst e hw
  exact flight_whole d L cc0_scratch2 f _ (pts_rowM2 d L _ h j' rfl (pad1 m d))

theorem idFlight_of_exec_SB (h0 : 2 < sig.nDmaSem)
    (f : Buf (Elt F) (sSB.view.loc (thrV d L))) (w : S208.Idx → Elt F .i32)
    (hw : w = ReadAs.same.apply ((rowM1 off h).view.read (Elt F) (pad0 m d))) :
    (Transfers.Flight countersEmb (thrV d L) (SemLoc.dma (⟨2, h0⟩ : DmaSem sig)) (default : HIx 1) 6656
        iprop((sSB.view.loc (thrV d L) ↦{fullShare} View.write (Elt F) sSB.view f w Finset.univ)
          ∗ ((rowM1 off h).view.loc (thrV d L) ↦[(rowM1 off h).view.set]{fullShare} pad0 m d)) : sProp 𝕄)
      = idFlight d L cc0_scratch9 sSB (rowBufSB m d L j') (v1Row m d j') := by
  subst e hw
  exact flight_whole d L cc0_scratch3 f _ (pts_rowM1 d L _ h j' rfl (pad0 m d))

theorem idFlight_of_exec_DB (h0 : 3 < sig.nDmaSem)
    (f : Buf (Elt F) (sDB.view.loc (thrV d L))) (w : S208.Idx → Elt F .i32)
    (hw : w = ReadAs.same.apply ((rowM2 off h).view.read (Elt F) (pad1 m d))) :
    (Transfers.Flight countersEmb (thrV d L) (SemLoc.dma (⟨3, h0⟩ : DmaSem sig)) (default : HIx 1) 6656
        iprop((sDB.view.loc (thrV d L) ↦{fullShare} View.write (Elt F) sDB.view f w Finset.univ)
          ∗ ((rowM2 off h).view.loc (thrV d L) ↦[(rowM2 off h).view.set]{fullShare} pad1 m d)) : sProp 𝕄)
      = idFlight d L cc0_scratch10 sDB (rowBufDB m d L j') (v2Row m d j') := by
  subst e hw
  exact flight_whole d L cc0_scratch4 f _ (pts_rowM2 d L _ h j' rfl (pad1 m d))

end Cert.KernelIdeal.Sc

end
-- ==== Proof.Sc.Part3.lean ====
import proofs.«212098_g24275155157491_cont_8to1_80_30_alg».proof.Proof.Sc.Inv
import proofs.«212098_g24275155157491_cont_8to1_80_30_alg».proof.Proof.Sc.Rules
import proofs.«212098_g24275155157491_cont_8to1_80_30_alg».proof.Proof.CntMath
import proofs.«212098_g24275155157491_cont_8to1_80_30_alg».proof.Proof.Sc.Flights
import proofs.«212098_g24275155157491_cont_8to1_80_30_alg».proof.Proof.Sc.PartsA
import proofs.«212098_g24275155157491_cont_8to1_80_30_alg».proof.Proof.Sc.AtTile

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath

variable {F : FTy → Type}

local notation "𝕄" => MT nD τ sig (HIx 1) (Elt F) ℕ UU ℕ

variable (m : (ℓ : Loc nD τ sig) → Buf (Elt F) ℓ) [FloatOps F]
variable (d : Dev nD) (L : grid0.Coords)

theorem p3_readAt_rowVec_DA {f : Buf (Elt F) (sDA.view.loc (thrV d L))} (v : Fin 13) (off : ℕ) (hoff : off = 16 * v.val)
    {h : ∀ a, (![off] : Fin 1 → ℕ) a + S16.size a ≤ S208.size a} (x : S16.Idx) :
    (sDA.view.readAt (Elt F) (Rect.unit (s := S208) ![off] S16.size h).toLoadRect f) x = rowVec f v x := by
  subst hoff
  simp only [View.readAt_apply, Memref.view_whole, View.read_whole]
  unfold rowVec
  congr 1
  funext a; apply Fin.ext
  obtain rfl : a = 0 := Subsingleton.elim _ _
  simp [LoadRect.idx_apply, ValueIdx.ix1]

theorem p3_owes_insert (O : CellTallies nD τ sig (HIx 1)) (W : Waits sig (HIx 1)) (s : SemLoc sig) :
    (owes (thrV d L) O (insert (s, (default : HIx 1)) W) : sProp 𝕄)
      ⊢ iprop(∃ W', ⌜∀ x ∈ W', x ∈ W ∨ x.2 = none⌝ ∗ owes (thrV d L) O W') := by
  iintro H
  iexists (insert (s, (default : HIx 1)) W)
  isplitr
  · ipureintro
    intro x hx
    rcases Finset.mem_insert.mp hx with rfl | hx
    · exact Or.inr rfl
    · exact Or.inl hx
  · iexact H

theorem p3_owes_same (O : CellTallies nD τ sig (HIx 1)) (W : Waits sig (HIx 1)) :
    (owes (thrV d L) O W : sProp 𝕄) ⊢ iprop(∃ W', ⌜∀ x ∈ W', x ∈ W ∨ x.2 = none⌝ ∗ owes (thrV d L) O W') := by
  iintro H
  iexists W
  isplitr
  · ipureintro; exact fun x hx => Or.inl hx
  · iexact H

theorem part3_mid {α : Type} {Q : α → sProp 𝕄} (k : (Σ' (v60 : Vec F S16 .i32) (k0_hw15 : k0_chk15 v60) (v61 : Vec F S16 .i32) (k0_hw16 : k0_chk16 v61) (v62 : Vec F S16 .i32) (k0_hw17 : k0_chk17 v62) (v63 : Vec F S16 .i32) (k0_hw18 : k0_chk18 v63) (v64 : Vec F S16 .i32) (k0_hw19 : k0_chk19 v64) (v65 : Vec F S16 .i32) (k0_hw20 : k0_chk20 v65) (v66 : Vec F S16 .i32) (k0_hw21 : k0_chk21 v66) (v67 : Vec F S16 .i32) (k0_hw22 : k0_chk22 v67) (v68 : Vec F S16 .i32) (k0_hw23 : k0_chk23 v68) (v69 : Vec F S16 .i32) (k0_hw24 : k0_chk24 v69) (v70 : Vec F S16 .i32) (k0_hw25 : k0_chk25 v70) (v71 : Vec F S16 .i32), k0_chk26 v71) → Prog (TpuEff nD τ sig (Elt F) Λ₀ (thrV d L).2) α)
    (hpre : PreOK m) (O : CellTallies nD τ sig (HIx 1)) (W : Waits sig (HIx 1))
    (kk : Fin k0_t2_loop.trips) (hk0 : 0 < kk.val) (hk15 : kk.val + 1 < 16)
    (j j' j'' : Fin 1024) (e5 : k0_off5 L kk = rowOff j') (e6 : k0_off6 L kk = rowOff j'')
    (v4 : IVec S16 32) (arg18 v37 : BitVec 32) (v46 : Vec F S16 .i32) (k0_hw1 : k0_chk1 v46) (v47 : Vec F S16 .i32) (k0_hw2 : k0_chk2 v47) (v48 : Vec F S16 .i32) (k0_hw3 : k0_chk3 v48) (v49 : Vec F S16 .i32) (k0_hw4 : k0_chk4 v49) (v50 : Vec F S16 .i32) (k0_hw5 : k0_chk5 v50) (v51 : Vec F S16 .i32) (k0_hw6 : k0_chk6 v51) (v52 : Vec F S16 .i32) (k0_hw7 : k0_chk7 v52) (v53 : Vec F S16 .i32) (k0_hw8 : k0_chk8 v53) (v54 : Vec F S16 .i32) (k0_hw9 : k0_chk9 v54) (v55 : Vec F S16 .i32) (k0_hw10 : k0_chk10 v55)
    (h4 : ∀ x, v4 x = 1#32) (h46 : ∀ x, v46 x = rowVec (rowBufSA m d L j) 0 x) (h47 : ∀ x, v47 x = rowVec (rowBufSA m d L j) 1 x) (h48 : ∀ x, v48 x = rowVec (rowBufSA m d L j) 2 x) (h49 : ∀ x, v49 x = rowVec (rowBufSA m d L j) 3 x) (h50 : ∀ x, v50 x = rowVec (rowBufSA m d L j) 4 x) (h51 : ∀ x, v51 x = rowVec (rowBufSA m d L j) 5 x) (h52 : ∀ x, v52 x = rowVec (rowBufSA m d L j) 6 x) (h53 : ∀ x, v53 x = rowVec (rowBufSA m d L j) 7 x) (h54 : ∀ x, v54 x = rowVec (rowBufSA m d L j) 8 x) (h55 : ∀ x, v55 x = rowVec (rowBufSA m d L j) 9 x)
    (CA : Buf (Elt F) (sCA.view.loc (thrV d L))) :
    iprop(□ Transfers.MayWaits (thrV d L) (none : HIx 1) O ∗ owes (thrV d L) O W
        ∗ (sTab.view.loc (thrV d L) ↦{fullShare} zeroTab d L)
        ∗ (sSA.view.loc (thrV d L) ↦{fullShare} rowBufSA m d L j) ∗ semVal (cellV d L cc0_scratch7) 0
        ∗ (sDA.view.loc (thrV d L) ↦{fullShare} rowBufDA m d L j) ∗ semVal (cellV d L cc0_scratch8) 0
        ∗ v1Row m d j' ∗ v2Row m d j'
        ∗ cntFlight m d L cc0_scratch11 sCA CA j''
        ∗ (∀ (v60 : Vec F S16 .i32) (k0_hw15 : k0_chk15 v60) (v61 : Vec F S16 .i32) (k0_hw16 : k0_chk16 v61) (v62 : Vec F S16 .i32) (k0_hw17 : k0_chk17 v62) (v63 : Vec F S16 .i32) (k0_hw18 : k0_chk18 v63) (v64 : Vec F S16 .i32) (k0_hw19 : k0_chk19 v64) (v65 : Vec F S16 .i32) (k0_hw20 : k0_chk20 v65) (v66 : Vec F S16 .i32) (k0_hw21 : k0_chk21 v66) (v67 : Vec F S16 .i32) (k0_hw22 : k0_chk22 v67) (v68 : Vec F S16 .i32) (k0_hw23 : k0_chk23 v68) (v69 : Vec F S16 .i32) (k0_hw24 : k0_chk24 v69) (v70 : Vec F S16 .i32) (k0_hw25 : k0_chk25 v70) (v71 : Vec F S16 .i32) (k0_hw26 : k0_chk26 v71), ⌜(∀ x, v60 x = rowVec (rowBufDA m d L j) 1 x) ∧ (∀ x, v61 x = rowVec (rowBufDA m d L j) 2 x) ∧ (∀ x, v62 x = rowVec (rowBufDA m d L j) 3 x) ∧ (∀ x, v63 x = rowVec (rowBufDA m d L j) 4 x) ∧ (∀ x, v64 x = rowVec (rowBufDA m d L j) 5 x) ∧ (∀ x, v65 x = rowVec (rowBufDA m d L j) 6 x) ∧ (∀ x, v66 x = rowVec (rowBufDA m d L j) 7 x) ∧ (∀ x, v67 x = rowVec (rowBufDA m d L j) 8 x) ∧ (∀ x, v68 x = rowVec (rowBufDA m d L j) 9 x) ∧ (∀ x, v69 x = rowVec (rowBufDA m d L j) 10 x) ∧ (∀ x, v70 x = rowVec (rowBufDA m d L j) 11 x) ∧ (∀ x, v71 x = rowVec (rowBufDA m d L j) 12 x)⌝
            -∗ (sTab.view.loc (thrV d L) ↦{fullShare} (addedTab (fun _ => 0#32) (rowBufSA m d L j) 160 : Buf (Elt F) (sTab.view.loc (thrV d L))))
            -∗ idFlight d L cc0_scratch7 sSA (rowBufSA m d L j') (v1Row m d j')
            -∗ idFlight d L cc0_scratch8 sDA (rowBufDA m d L j') (v2Row m d j')
            -∗ v3Row d j'' (cnts m d) -∗ (sCA.view.loc (thrV d L) ↦{fullShare} CA) -∗ semVal (cellV d L cc0_scratch11) 0
            -∗ iprop(∃ W', ⌜∀ x ∈ W', x ∈ W ∨ x.2 = none⌝ ∗ owes (thrV d L) O W')
            -∗ wp frame (wpE (defs₀ (F := F)) 𝒱₀ (thrV d L) none) Set.univ (k ⟨v60, k0_hw15, v61, k0_hw16, v62, k0_hw17, v63, k0_hw18, v64, k0_hw19, v65, k0_hw20, v66, k0_hw21, v67, k0_hw22, v68, k0_hw23, v69, k0_hw24, v70, k0_hw25, v71, k0_hw26⟩) Q))
      ⊢ wp frame (wpE (defs₀ (F := F)) 𝒱₀ (thrV d L) none) Set.univ ((atTile L k0_part3 v4 kk arg18 v37 v46 k0_hw1 v47 k0_hw2 v48 k0_hw3 v49 k0_hw4 v50 k0_hw5 v51 k0_hw6 v52 k0_hw7 v53 k0_hw8 v54 k0_hw9 v55 k0_hw10) >>= k) Q := by
  have hc1 : k0_cond1 kk = 1#1 := cond1_pos kk hk15
  have hc2 : k0_cond2 kk = 1#1 := cond2_pos kk hk0
  unfold zeroTab
  iintro ⟨#Hmw, HO, Htab, HSA, Hs7, HDA, Hs8, Hn1, Hn2, Hf11, Hk⟩
  ihave Hn1 := (Entails.of_eq (pts_rowM1 (F := F) d L (k0_off5 L kk) (k0_off5_inb L kk hc1) j' e5 (pad0 m d)).symm) $$ Hn1
  ihave Hn2 := (Entails.of_eq (pts_rowM2 (F := F) d L (k0_off5 L kk) (k0_off5_inb L kk hc1) j' e5 (pad1 m d)).symm) $$ Hn2
  unfold atTile
  rw [k0_part3_eq_skeleton]; unfold k0_part3_skel
  sl_exec (disch := exact chk_of (readAt_lt_DA m d L hpre _ _ _))
  iapply (tab_sidx' d L (addedTab_first (F := F) (rowBufSA m d L j) v46 v4 _ h46 h4 (fun _ => rfl) _)) $$ Htab; iintro Htab
  iapply (tab_add d L h47 h4 16 32 rfl rfl) $$ Htab; iintro Htab
  iapply (tab_add d L h48 h4 32 48 rfl rfl) $$ Htab; iintro Htab
  iapply (tab_add d L h49 h4 48 64 rfl rfl) $$ Htab; iintro Htab
  iapply (tab_add d L h50 h4 64 80 rfl rfl) $$ Htab; iintro Htab
  iapply (tab_add d L h51 h4 80 96 rfl rfl) $$ Htab; iintro Htab
  iapply (tab_add d L h52 h4 96 112 rfl rfl) $$ Htab; iintro Htab
  iapply (tab_add d L h53 h4 112 128 rfl rfl) $$ Htab; iintro Htab
  iapply (tab_add d L h54 h4 128 144 rfl rfl) $$ Htab; iintro Htab
  iapply (tab_add d L h55 h4 144 160 rfl rfl) $$ Htab; iintro Htab
  sl_unfold_run_names
  ihave Hs7 := (Entails.of_eq (idFlight_of_exec_SA m d L j' (k0_off5 L kk) (k0_off5_inb L kk hc1) e5 _ (rowBufSA m d L j) _ rfl)) $$ Hs7
  ihave Hs8 := (Entails.of_eq (idFlight_of_exec_DA m d L j' (k0_off5 L kk) (k0_off5_inb L kk hc1) e5 _ (rowBufDA m d L j) _ rfl)) $$ Hs8
  ihave HO := (p3_owes_insert (F := F) d L O W _) $$ HO
  ihave Hf11 := (Entails.of_eq (show (semVal (thrV d L, SemLoc.dma (⟨4, _⟩ : DmaSem sig)) 0 : sProp 𝕄) = semVal (cellV d L cc0_scratch11) 0 from rfl)) $$ Hf11
  rw [pure_bind]
  iapply Hk $$ %_ %_ %_ %_ %_ %_ %_ %_ %_ %_ %_ %_ %_ %_ %_ %_ %_ %_ %_ %_ %_ %_ %_ %_ %⟨p3_readAt_rowVec_DA (F := F) d L 1 16 rfl, p3_readAt_rowVec_DA (F := F) d L 2 32 rfl, p3_readAt_rowVec_DA (F := F) d L 3 48 rfl, p3_readAt_rowVec_DA (F := F) d L 4 64 rfl, p3_readAt_rowVec_DA (F := F) d L 5 80 rfl, p3_readAt_rowVec_DA (F := F) d L 6 96 rfl, p3_readAt_rowVec_DA (F := F) d L 7 112 rfl, p3_readAt_rowVec_DA (F := F) d L 8 128 rfl, p3_readAt_rowVec_DA (F := F) d L 9 144 rfl, p3_readAt_rowVec_DA (F := F) d L 10 160 rfl, p3_readAt_rowVec_DA (F := F) d L 11 176 rfl, p3_readAt_rowVec_DA (F := F) d L 12 192 rfl⟩ Htab Hs7 Hs8 Hf11_dst Hf11_src Hf11 HO

theorem part3_first {α : Type} {Q : α → sProp 𝕄} (k : (Σ' (v60 : Vec F S16 .i32) (k0_hw15 : k0_chk15 v60) (v61 : Vec F S16 .i32) (k0_hw16 : k0_chk16 v61) (v62 : Vec F S16 .i32) (k0_hw17 : k0_chk17 v62) (v63 : Vec F S16 .i32) (k0_hw18 : k0_chk18 v63) (v64 : Vec F S16 .i32) (k0_hw19 : k0_chk19 v64) (v65 : Vec F S16 .i32) (k0_hw20 : k0_chk20 v65) (v66 : Vec F S16 .i32) (k0_hw21 : k0_chk21 v66) (v67 : Vec F S16 .i32) (k0_hw22 : k0_chk22 v67) (v68 : Vec F S16 .i32) (k0_hw23 : k0_chk23 v68) (v69 : Vec F S16 .i32) (k0_hw24 : k0_chk24 v69) (v70 : Vec F S16 .i32) (k0_hw25 : k0_chk25 v70) (v71 : Vec F S16 .i32), k0_chk26 v71) → Prog (TpuEff nD τ sig (Elt F) Λ₀ (thrV d L).2) α)
    (hpre : PreOK m) (O : CellTallies nD τ sig (HIx 1)) (W : Waits sig (HIx 1))
    (kk : Fin k0_t2_loop.trips) (hk0 : kk.val = 0)
    (j j' : Fin 1024) (e5 : k0_off5 L kk = rowOff j')
    (v4 : IVec S16 32) (arg18 v37 : BitVec 32) (v46 : Vec F S16 .i32) (k0_hw1 : k0_chk1 v46) (v47 : Vec F S16 .i32) (k0_hw2 : k0_chk2 v47) (v48 : Vec F S16 .i32) (k0_hw3 : k0_chk3 v48) (v49 : Vec F S16 .i32) (k0_hw4 : k0_chk4 v49) (v50 : Vec F S16 .i32) (k0_hw5 : k0_chk5 v50) (v51 : Vec F S16 .i32) (k0_hw6 : k0_chk6 v51) (v52 : Vec F S16 .i32) (k0_hw7 : k0_chk7 v52) (v53 : Vec F S16 .i32) (k0_hw8 : k0_chk8 v53) (v54 : Vec F S16 .i32) (k0_hw9 : k0_chk9 v54) (v55 : Vec F S16 .i32) (k0_hw10 : k0_chk10 v55)
    (h4 : ∀ x, v4 x = 1#32) (h46 : ∀ x, v46 x = rowVec (rowBufSA m d L j) 0 x) (h47 : ∀ x, v47 x = rowVec (rowBufSA m d L j) 1 x) (h48 : ∀ x, v48 x = rowVec (rowBufSA m d L j) 2 x) (h49 : ∀ x, v49 x = rowVec (rowBufSA m d L j) 3 x) (h50 : ∀ x, v50 x = rowVec (rowBufSA m d L j) 4 x) (h51 : ∀ x, v51 x = rowVec (rowBufSA m d L j) 5 x) (h52 : ∀ x, v52 x = rowVec (rowBufSA m d L j) 6 x) (h53 : ∀ x, v53 x = rowVec (rowBufSA m d L j) 7 x) (h54 : ∀ x, v54 x = rowVec (rowBufSA m d L j) 8 x) (h55 : ∀ x, v55 x = rowVec (rowBufSA m d L j) 9 x) :
    iprop(owes (thrV d L) O W
        ∗ (sTab.view.loc (thrV d L) ↦{fullShare} zeroTab d L)
        ∗ (sSA.view.loc (thrV d L) ↦{fullShare} rowBufSA m d L j) ∗ semVal (cellV d L cc0_scratch7) 0
        ∗ (sDA.view.loc (thrV d L) ↦{fullShare} rowBufDA m d L j) ∗ semVal (cellV d L cc0_scratch8) 0
        ∗ v1Row m d j' ∗ v2Row m d j'
        ∗ (∀ (v60 : Vec F S16 .i32) (k0_hw15 : k0_chk15 v60) (v61 : Vec F S16 .i32) (k0_hw16 : k0_chk16 v61) (v62 : Vec F S16 .i32) (k0_hw17 : k0_chk17 v62) (v63 : Vec F S16 .i32) (k0_hw18 : k0_chk18 v63) (v64 : Vec F S16 .i32) (k0_hw19 : k0_chk19 v64) (v65 : Vec F S16 .i32) (k0_hw20 : k0_chk20 v65) (v66 : Vec F S16 .i32) (k0_hw21 : k0_chk21 v66) (v67 : Vec F S16 .i32) (k0_hw22 : k0_chk22 v67) (v68 : Vec F S16 .i32) (k0_hw23 : k0_chk23 v68) (v69 : Vec F S16 .i32) (k0_hw24 : k0_chk24 v69) (v70 : Vec F S16 .i32) (k0_hw25 : k0_chk25 v70) (v71 : Vec F S16 .i32) (k0_hw26 : k0_chk26 v71), ⌜(∀ x, v60 x = rowVec (rowBufDA m d L j) 1 x) ∧ (∀ x, v61 x = rowVec (rowBufDA m d L j) 2 x) ∧ (∀ x, v62 x = rowVec (rowBufDA m d L j) 3 x) ∧ (∀ x, v63 x = rowVec (rowBufDA m d L j) 4 x) ∧ (∀ x, v64 x = rowVec (rowBufDA m d L j) 5 x) ∧ (∀ x, v65 x = rowVec (rowBufDA m d L j) 6 x) ∧ (∀ x, v66 x = rowVec (rowBufDA m d L j) 7 x) ∧ (∀ x, v67 x = rowVec (rowBufDA m d L j) 8 x) ∧ (∀ x, v68 x = rowVec (rowBufDA m d L j) 9 x) ∧ (∀ x, v69 x = rowVec (rowBufDA m d L j) 10 x) ∧ (∀ x, v70 x = rowVec (rowBufDA m d L j) 11 x) ∧ (∀ x, v71 x = rowVec (rowBufDA m d L j) 12 x)⌝
            -∗ (sTab.view.loc (thrV d L) ↦{fullShare} (addedTab (fun _ => 0#32) (rowBufSA m d L j) 160 : Buf (Elt F) (sTab.view.loc (thrV d L))))
            -∗ idFlight d L cc0_scratch7 sSA (rowBufSA m d L j') (v1Row m d j')
            -∗ idFlight d L cc0_scratch8 sDA (rowBufDA m d L j') (v2Row m d j')
            -∗ iprop(∃ W', ⌜∀ x ∈ W', x ∈ W ∨ x.2 = none⌝ ∗ owes (thrV d L) O W')
            -∗ wp frame (wpE (defs₀ (F := F)) 𝒱₀ (thrV d L) none) Set.univ (k ⟨v60, k0_hw15, v61, k0_hw16, v62, k0_hw17, v63, k0_hw18, v64, k0_hw19, v65, k0_hw20, v66, k0_hw21, v67, k0_hw22, v68, k0_hw23, v69, k0_hw24, v70, k0_hw25, v71, k0_hw26⟩) Q))
      ⊢ wp frame (wpE (defs₀ (F := F)) 𝒱₀ (thrV d L) none) Set.univ ((atTile L k0_part3 v4 kk arg18 v37 v46 k0_hw1 v47 k0_hw2 v48 k0_hw3 v49 k0_hw4 v50 k0_hw5 v51 k0_hw6 v52 k0_hw7 v53 k0_hw8 v54 k0_hw9 v55 k0_hw10) >>= k) Q := by
  have hc1 : k0_cond1 kk = 1#1 := cond1_pos kk (by omega)
  have hc2 : ¬ k0_cond2 kk = 1#1 := cond2_neg kk (by omega)
  unfold zeroTab
  iintro ⟨HO, Htab, HSA, Hs7, HDA, Hs8, Hn1, Hn2, Hk⟩
  ihave Hn1 := (Entails.of_eq (pts_rowM1 (F := F) d L (k0_off5 L kk) (k0_off5_inb L kk hc1) j' e5 (pad0 m d)).symm) $$ Hn1
  ihave Hn2 := (Entails.of_eq (pts_rowM2 (F := F) d L (k0_off5 L kk) (k0_off5_inb L kk hc1) j' e5 (pad1 m d)).symm) $$ Hn2
  unfold atTile
  rw [k0_part3_eq_skeleton]; unfold k0_part3_skel
  sl_exec (disch := exact chk_of (readAt_lt_DA m d L hpre _ _ _))
  iapply (tab_sidx' d L (addedTab_first (F := F) (rowBufSA m d L j) v46 v4 _ h46 h4 (fun _ => rfl) _)) $$ Htab; iintro Htab
  iapply (tab_add d L h47 h4 16 32 rfl rfl) $$ Htab; iintro Htab
  iapply (tab_add d L h48 h4 32 48 rfl rfl) $$ Htab; iintro Htab
  iapply (tab_add d L h49 h4 48 64 rfl rfl) $$ Htab; iintro Htab
  iapply (tab_add d L h50 h4 64 80 rfl rfl) $$ Htab; iintro Htab
  iapply (tab_add d L h51 h4 80 96 rfl rfl) $$ Htab; iintro Htab
  iapply (tab_add d L h52 h4 96 112 rfl rfl) $$ Htab; iintro Htab
  iapply (tab_add d L h53 h4 112 128 rfl rfl) $$ Htab; iintro Htab
  iapply (tab_add d L h54 h4 128 144 rfl rfl) $$ Htab; iintro Htab
  iapply (tab_add d L h55 h4 144 160 rfl rfl) $$ Htab; iintro Htab
  sl_unfold_run_names
  ihave Hs7 := (Entails.of_eq (idFlight_of_exec_SA m d L j' (k0_off5 L kk) (k0_off5_inb L kk hc1) e5 _ (rowBufSA m d L j) _ rfl)) $$ Hs7
  ihave Hs8 := (Entails.of_eq (idFlight_of_exec_DA m d L j' (k0_off5 L kk) (k0_off5_inb L kk hc1) e5 _ (rowBufDA m d L j) _ rfl)) $$ Hs8
  ihave HO := (p3_owes_same (F := F) d L O W) $$ HO
  rw [pure_bind]
  iapply Hk $$ %_ %_ %_ %_ %_ %_ %_ %_ %_ %_ %_ %_ %_ %_ %_ %_ %_ %_ %_ %_ %_ %_ %_ %_ %⟨p3_readAt_rowVec_DA (F := F) d L 1 16 rfl, p3_readAt_rowVec_DA (F := F) d L 2 32 rfl, p3_readAt_rowVec_DA (F := F) d L 3 48 rfl, p3_readAt_rowVec_DA (F := F) d L 4 64 rfl, p3_readAt_rowVec_DA (F := F) d L 5 80 rfl, p3_readAt_rowVec_DA (F := F) d L 6 96 rfl, p3_readAt_rowVec_DA (F := F) d L 7 112 rfl, p3_readAt_rowVec_DA (F := F) d L 8 128 rfl, p3_readAt_rowVec_DA (F := F) d L 9 144 rfl, p3_readAt_rowVec_DA (F := F) d L 10 160 rfl, p3_readAt_rowVec_DA (F := F) d L 11 176 rfl, p3_readAt_rowVec_DA (F := F) d L 12 192 rfl⟩ Htab Hs7 Hs8 HO

theorem part3_last {α : Type} {Q : α → sProp 𝕄} (k : (Σ' (v60 : Vec F S16 .i32) (k0_hw15 : k0_chk15 v60) (v61 : Vec F S16 .i32) (k0_hw16 : k0_chk16 v61) (v62 : Vec F S16 .i32) (k0_hw17 : k0_chk17 v62) (v63 : Vec F S16 .i32) (k0_hw18 : k0_chk18 v63) (v64 : Vec F S16 .i32) (k0_hw19 : k0_chk19 v64) (v65 : Vec F S16 .i32) (k0_hw20 : k0_chk20 v65) (v66 : Vec F S16 .i32) (k0_hw21 : k0_chk21 v66) (v67 : Vec F S16 .i32) (k0_hw22 : k0_chk22 v67) (v68 : Vec F S16 .i32) (k0_hw23 : k0_chk23 v68) (v69 : Vec F S16 .i32) (k0_hw24 : k0_chk24 v69) (v70 : Vec F S16 .i32) (k0_hw25 : k0_chk25 v70) (v71 : Vec F S16 .i32), k0_chk26 v71) → Prog (TpuEff nD τ sig (Elt F) Λ₀ (thrV d L).2) α)
    (hpre : PreOK m) (O : CellTallies nD τ sig (HIx 1)) (W : Waits sig (HIx 1))
    (kk : Fin k0_t2_loop.trips) (hk15 : kk.val = 15)
    (j j'' : Fin 1024) (e6 : k0_off6 L kk = rowOff j'')
    (v4 : IVec S16 32) (arg18 v37 : BitVec 32) (v46 : Vec F S16 .i32) (k0_hw1 : k0_chk1 v46) (v47 : Vec F S16 .i32) (k0_hw2 : k0_chk2 v47) (v48 : Vec F S16 .i32) (k0_hw3 : k0_chk3 v48) (v49 : Vec F S16 .i32) (k0_hw4 : k0_chk4 v49) (v50 : Vec F S16 .i32) (k0_hw5 : k0_chk5 v50) (v51 : Vec F S16 .i32) (k0_hw6 : k0_chk6 v51) (v52 : Vec F S16 .i32) (k0_hw7 : k0_chk7 v52) (v53 : Vec F S16 .i32) (k0_hw8 : k0_chk8 v53) (v54 : Vec F S16 .i32) (k0_hw9 : k0_chk9 v54) (v55 : Vec F S16 .i32) (k0_hw10 : k0_chk10 v55)
    (h4 : ∀ x, v4 x = 1#32) (h46 : ∀ x, v46 x = rowVec (rowBufSA m d L j) 0 x) (h47 : ∀ x, v47 x = rowVec (rowBufSA m d L j) 1 x) (h48 : ∀ x, v48 x = rowVec (rowBufSA m d L j) 2 x) (h49 : ∀ x, v49 x = rowVec (rowBufSA m d L j) 3 x) (h50 : ∀ x, v50 x = rowVec (rowBufSA m d L j) 4 x) (h51 : ∀ x, v51 x = rowVec (rowBufSA m d L j) 5 x) (h52 : ∀ x, v52 x = rowVec (rowBufSA m d L j) 6 x) (h53 : ∀ x, v53 x = rowVec (rowBufSA m d L j) 7 x) (h54 : ∀ x, v54 x = rowVec (rowBufSA m d L j) 8 x) (h55 : ∀ x, v55 x = rowVec (rowBufSA m d L j) 9 x)
    (CA : Buf (Elt F) (sCA.view.loc (thrV d L))) :
    iprop(□ Transfers.MayWaits (thrV d L) (none : HIx 1) O ∗ owes (thrV d L) O W
        ∗ (sTab.view.loc (thrV d L) ↦{fullShare} zeroTab d L)
        ∗ (sDA.view.loc (thrV d L) ↦{fullShare} rowBufDA m d L j)
        ∗ cntFlight m d L cc0_scratch11 sCA CA j''
        ∗ (∀ (v60 : Vec F S16 .i32) (k0_hw15 : k0_chk15 v60) (v61 : Vec F S16 .i32) (k0_hw16 : k0_chk16 v61) (v62 : Vec F S16 .i32) (k0_hw17 : k0_chk17 v62) (v63 : Vec F S16 .i32) (k0_hw18 : k0_chk18 v63) (v64 : Vec F S16 .i32) (k0_hw19 : k0_chk19 v64) (v65 : Vec F S16 .i32) (k0_hw20 : k0_chk20 v65) (v66 : Vec F S16 .i32) (k0_hw21 : k0_chk21 v66) (v67 : Vec F S16 .i32) (k0_hw22 : k0_chk22 v67) (v68 : Vec F S16 .i32) (k0_hw23 : k0_chk23 v68) (v69 : Vec F S16 .i32) (k0_hw24 : k0_chk24 v69) (v70 : Vec F S16 .i32) (k0_hw25 : k0_chk25 v70) (v71 : Vec F S16 .i32) (k0_hw26 : k0_chk26 v71), ⌜(∀ x, v60 x = rowVec (rowBufDA m d L j) 1 x) ∧ (∀ x, v61 x = rowVec (rowBufDA m d L j) 2 x) ∧ (∀ x, v62 x = rowVec (rowBufDA m d L j) 3 x) ∧ (∀ x, v63 x = rowVec (rowBufDA m d L j) 4 x) ∧ (∀ x, v64 x = rowVec (rowBufDA m d L j) 5 x) ∧ (∀ x, v65 x = rowVec (rowBufDA m d L j) 6 x) ∧ (∀ x, v66 x = rowVec (rowBufDA m d L j) 7 x) ∧ (∀ x, v67 x = rowVec (rowBufDA m d L j) 8 x) ∧ (∀ x, v68 x = rowVec (rowBufDA m d L j) 9 x) ∧ (∀ x, v69 x = rowVec (rowBufDA m d L j) 10 x) ∧ (∀ x, v70 x = rowVec (rowBufDA m d L j) 11 x) ∧ (∀ x, v71 x = rowVec (rowBufDA m d L j) 12 x)⌝
            -∗ (sTab.view.loc (thrV d L) ↦{fullShare} (addedTab (fun _ => 0#32) (rowBufSA m d L j) 160 : Buf (Elt F) (sTab.view.loc (thrV d L))))
            -∗ (sDA.view.loc (thrV d L) ↦{fullShare} rowBufDA m d L j)
            -∗ v3Row d j'' (cnts m d) -∗ (sCA.view.loc (thrV d L) ↦{fullShare} CA) -∗ semVal (cellV d L cc0_scratch11) 0
            -∗ iprop(∃ W', ⌜∀ x ∈ W', x ∈ W ∨ x.2 = none⌝ ∗ owes (thrV d L) O W')
            -∗ wp frame (wpE (defs₀ (F := F)) 𝒱₀ (thrV d L) none) Set.univ (k ⟨v60, k0_hw15, v61, k0_hw16, v62, k0_hw17, v63, k0_hw18, v64, k0_hw19, v65, k0_hw20, v66, k0_hw21, v67, k0_hw22, v68, k0_hw23, v69, k0_hw24, v70, k0_hw25, v71, k0_hw26⟩) Q))
      ⊢ wp frame (wpE (defs₀ (F := F)) 𝒱₀ (thrV d L) none) Set.univ ((atTile L k0_part3 v4 kk arg18 v37 v46 k0_hw1 v47 k0_hw2 v48 k0_hw3 v49 k0_hw4 v50 k0_hw5 v51 k0_hw6 v52 k0_hw7 v53 k0_hw8 v54 k0_hw9 v55 k0_hw10) >>= k) Q := by
  have hc1 : ¬ k0_cond1 kk = 1#1 := cond1_neg kk (by omega)
  have hc2 : k0_cond2 kk = 1#1 := cond2_pos kk (by omega)
  unfold zeroTab
  iintro ⟨#Hmw, HO, Htab, HDA, Hf11, Hk⟩
  unfold atTile
  rw [k0_part3_eq_skeleton]; unfold k0_part3_skel
  sl_exec (disch := exact chk_of (readAt_lt_DA m d L hpre _ _ _))
  iapply (tab_sidx' d L (addedTab_first (F := F) (rowBufSA m d L j) v46 v4 _ h46 h4 (fun _ => rfl) _)) $$ Htab; iintro Htab
  iapply (tab_add d L h47 h4 16 32 rfl rfl) $$ Htab; iintro Htab
  iapply (tab_add d L h48 h4 32 48 rfl rfl) $$ Htab; iintro Htab
  iapply (tab_add d L h49 h4 48 64 rfl rfl) $$ Htab; iintro Htab
  iapply (tab_add d L h50 h4 64 80 rfl rfl) $$ Htab; iintro Htab
  iapply (tab_add d L h51 h4 80 96 rfl rfl) $$ Htab; iintro Htab
  iapply (tab_add d L h52 h4 96 112 rfl rfl) $$ Htab; iintro Htab
  iapply (tab_add d L h53 h4 112 128 rfl rfl) $$ Htab; iintro Htab
  iapply (tab_add d L h54 h4 128 144 rfl rfl) $$ Htab; iintro Htab
  iapply (tab_add d L h55 h4 144 160 rfl rfl) $$ Htab; iintro Htab
  ihave HO := (p3_owes_insert (F := F) d L O W _) $$ HO
  ihave Hf11 := (Entails.of_eq (show (semVal (thrV d L, SemLoc.dma (⟨4, _⟩ : DmaSem sig)) 0 : sProp 𝕄) = semVal (cellV d L cc0_scratch11) 0 from rfl)) $$ Hf11
  rw [pure_bind]
  iapply Hk $$ %_ %_ %_ %_ %_ %_ %_ %_ %_ %_ %_ %_ %_ %_ %_ %_ %_ %_ %_ %_ %_ %_ %_ %_ %⟨p3_readAt_rowVec_DA (F := F) d L 1 16 rfl, p3_readAt_rowVec_DA (F := F) d L 2 32 rfl, p3_readAt_rowVec_DA (F := F) d L 3 48 rfl, p3_readAt_rowVec_DA (F := F) d L 4 64 rfl, p3_readAt_rowVec_DA (F := F) d L 5 80 rfl, p3_readAt_rowVec_DA (F := F) d L 6 96 rfl, p3_readAt_rowVec_DA (F := F) d L 7 112 rfl, p3_readAt_rowVec_DA (F := F) d L 8 128 rfl, p3_readAt_rowVec_DA (F := F) d L 9 144 rfl, p3_readAt_rowVec_DA (F := F) d L 10 160 rfl, p3_readAt_rowVec_DA (F := F) d L 11 176 rfl, p3_readAt_rowVec_DA (F := F) d L 12 192 rfl⟩ Htab HDA Hf11_dst Hf11_src Hf11 HO

end Cert.KernelIdeal.Sc

end
-- ==== Proof.Sc.PartsB.lean ====
import proofs.«212098_g24275155157491_cont_8to1_80_30_alg».proof.Proof.Sc.PartsA

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section PartsB
variable (d : Dev nD) (L : grid0.Coords)
open Cert.ScMath Idealize.ShloMosaic.ValueIdx

theorem part16 {α : Type} {Q : α → sProp 𝕄} (k : (Σ' (_ : Vec F S16 .i32), IVec S16 32) → Prog (TpuEff nD τ sig (Elt F) Λ₀ (thrV d L).2) α)
    (rS rD : IVec SRow 32) (base : IVec SFreq 32) (n1 n2 : ℕ)
    (v406 : Vec F S16 .i32) (hw29 : k0_chk29 v406) (v407 : Vec F S16 .i32) (hw30 : k0_chk30 v407) (v408 : Vec F S16 .i32) (hw31 : k0_chk31 v408)
    (v418 : Vec F S16 .i32) (v419 : Vec F S16 .i32) (hw42 : k0_chk42 v419) (v420 : Vec F S16 .i32) (hw43 : k0_chk43 v420) (v421 : Vec F S16 .i32) (hw44 : k0_chk44 v421)
    (v450 : Vec F S16 .i32) (v454 : IVec S16 32)
    (hv406 : ∀ x, v406 x = rowVec rS 2 x) (hv407 : ∀ x, v407 x = rowVec rS 3 x) (hv408 : ∀ x, v408 x = rowVec rS 4 x)
    (hv418 : ∀ x, v418 x = rowVec rD 1 x) (hv419 : ∀ x, v419 x = rowVec rD 2 x) (hv420 : ∀ x, v420 x = rowVec rD 3 x) (hv421 : ∀ x, v421 x = rowVec rD 4 x)
    (hv450 : ∀ x, v450 x = BitVec.ofNat 32 (occRow rS (v418 x)))
    (hv454 : ∀ (x : SLane.Idx) (hx : 16 + (x 0).val < 832), v454 x = tgtRow rS rD (ix1 ⟨16 + (x 0).val, hx⟩)) :
    iprop((sTab.view.loc (thrV d L) ↦{fullShare} (countTab rS : Buf (Elt F) (sTab.view.loc (thrV d L))))
        ∗ (sCB.view.loc (thrV d L) ↦{fullShare} (cntAt (tgtRow rS rD) base 1 n1 n2 1 : Buf (Elt F) (sCB.view.loc (thrV d L))))
        ∗ (∀ (c : Vec F S16 .i32) (w : IVec S16 32), ⌜∀ x, c x = BitVec.ofNat 32 (occRow rS (v421 x))⌝
            -∗ ⌜∀ (x : SLane.Idx) (hx : 64 + (x 0).val < 832), w x = tgtRow rS rD (ix1 ⟨64 + (x 0).val, hx⟩)⌝
            -∗ (sTab.view.loc (thrV d L) ↦{fullShare} (countTab rS : Buf (Elt F) (sTab.view.loc (thrV d L))))
            -∗ (sCB.view.loc (thrV d L) ↦{fullShare} (cntAt (tgtRow rS rD) base 4 n1 n2 4 : Buf (Elt F) (sCB.view.loc (thrV d L))))
            -∗ wp frame (wpE (defs₀ (F := F)) 𝒱₀ (thrV d L) none) Set.univ (k ⟨c, w⟩) Q))
      ⊢ wp frame (wpE (defs₀ (F := F)) 𝒱₀ (thrV d L) none) Set.univ
          (atTile L k0_part16 v406 hw29 v407 hw30 v408 hw31 v418 v419 hw42 v420 hw43 v421 hw44 v450 v454 >>= k) Q := by
  iintro ⟨HT, HC, Hk⟩
  unfold atTile; rw [k0_part16_eq_skeleton]; unfold k0_part16_skel
  sl_exec
  iapply (tab_lidx₂ d L) $$ HT; iintro HT
  sl_exec
  iapply (tab_lidx₂ d L) $$ HT; iintro HT
  sl_exec
  iapply (tab_lidx₂ d L) $$ HT; iintro HT
  sl_exec
  repeat rw [sCB_cons₂]
  rw [sCB_step (F := F) (tgtRow rS rD) base 1 n1 n2 1 2 n1 n2 1 16 _ _ (filled_step0 1 n1 n2 1 16 rfl (by omega)) hv454,
    sCB_step (F := F) (tgtRow rS rD) base 2 n1 n2 1 2 n1 n2 2 640 _ (k0_pay56 v418 v450) (filled_step3 2 n1 n2 1 640 rfl (by omega))
    (fun x hx => pay_tgt3 rS rD 1 _ rfl v418 hv418 v450 hv450 x hx),
    get0 sCB_step rS rD 2 3 32 hv406 rfl rfl rfl (k0_pay57 v406 _) rfl,
    get3 sCB_step rS rD 2 3 656 hv419 rfl rfl rfl (k0_pay58 v419 _) rfl,
    get0 sCB_step rS rD 3 4 48 hv407 rfl rfl rfl (k0_pay59 v407 _) rfl,
    get3 sCB_step rS rD 3 4 672 hv420 rfl rfl rfl (k0_pay60 v420 _) rfl]
  iapply Hk $$ %_ %_ %(fun x => loadIdx_countTab' (F := F) rS v421 _ x)
    %(fun x hx => pay_tgt0 rS rD 4 _ rfl v408 hv408 _ (fun x => loadIdx_countTab' (F := F) rS v408 _ x) x hx) HT HC

theorem part17 {α : Type} {Q : α → sProp 𝕄} (k : (Σ' (_ : Vec F S16 .i32), IVec S16 32) → Prog (TpuEff nD τ sig (Elt F) Λ₀ (thrV d L).2) α)
    (rS rD : IVec SRow 32) (base : IVec SFreq 32) (n1 n2 : ℕ)
    (v409 : Vec F S16 .i32) (hw32 : k0_chk32 v409) (v410 : Vec F S16 .i32) (hw33 : k0_chk33 v410) (v411 : Vec F S16 .i32) (hw34 : k0_chk34 v411)
    (v421 : Vec F S16 .i32) (v422 : Vec F S16 .i32) (hw45 : k0_chk45 v422) (v423 : Vec F S16 .i32) (hw46 : k0_chk46 v423) (v424 : Vec F S16 .i32) (hw47 : k0_chk47 v424)
    (v486 : Vec F S16 .i32) (v490 : IVec S16 32)
    (hv409 : ∀ x, v409 x = rowVec rS 5 x) (hv410 : ∀ x, v410 x = rowVec rS 6 x) (hv411 : ∀ x, v411 x = rowVec rS 7 x)
    (hv421 : ∀ x, v421 x = rowVec rD 4 x) (hv422 : ∀ x, v422 x = rowVec rD 5 x) (hv423 : ∀ x, v423 x = rowVec rD 6 x) (hv424 : ∀ x, v424 x = rowVec rD 7 x)
    (hv486 : ∀ x, v486 x = BitVec.ofNat 32 (occRow rS (v421 x)))
    (hv490 : ∀ (x : SLane.Idx) (hx : 64 + (x 0).val < 832), v490 x = tgtRow rS rD (ix1 ⟨64 + (x 0).val, hx⟩)) :
    iprop((sTab.view.loc (thrV d L) ↦{fullShare} (countTab rS : Buf (Elt F) (sTab.view.loc (thrV d L))))
        ∗ (sCB.view.loc (thrV d L) ↦{fullShare} (cntAt (tgtRow rS rD) base 4 n1 n2 4 : Buf (Elt F) (sCB.view.loc (thrV d L))))
        ∗ (∀ (c : Vec F S16 .i32) (w : IVec S16 32), ⌜∀ x, c x = BitVec.ofNat 32 (occRow rS (v424 x))⌝
            -∗ ⌜∀ (x : SLane.Idx) (hx : 112 + (x 0).val < 832), w x = tgtRow rS rD (ix1 ⟨112 + (x 0).val, hx⟩)⌝
            -∗ (sTab.view.loc (thrV d L) ↦{fullShare} (countTab rS : Buf (Elt F) (sTab.view.loc (thrV d L))))
            -∗ (sCB.view.loc (thrV d L) ↦{fullShare} (cntAt (tgtRow rS rD) base 7 n1 n2 7 : Buf (Elt F) (sCB.view.loc (thrV d L))))
            -∗ wp frame (wpE (defs₀ (F := F)) 𝒱₀ (thrV d L) none) Set.univ (k ⟨c, w⟩) Q))
      ⊢ wp frame (wpE (defs₀ (F := F)) 𝒱₀ (thrV d L) none) Set.univ
          (atTile L k0_part17 v409 hw32 v410 hw33 v411 hw34 v421 v422 hw45 v423 hw46 v424 hw47 v486 v490 >>= k) Q := by
  iintro ⟨HT, HC, Hk⟩
  unfold atTile; rw [k0_part17_eq_skeleton]; unfold k0_part17_skel
  sl_exec
  iapply (tab_lidx₂ d L) $$ HT; iintro HT
  sl_exec
  iapply (tab_lidx₂ d L) $$ HT; iintro HT
  sl_exec
  iapply (tab_lidx₂ d L) $$ HT; iintro HT
  sl_exec
  repeat rw [sCB_cons₂]
  rw [sCB_step (F := F) (tgtRow rS rD) base 4 n1 n2 4 5 n1 n2 4 64 _ _ (filled_step0 4 n1 n2 4 64 rfl (by omega)) hv490,
    sCB_step (F := F) (tgtRow rS rD) base 5 n1 n2 4 5 n1 n2 5 688 _ (k0_pay62 v421 v486) (filled_step3 5 n1 n2 4 688 rfl (by omega))
    (fun x hx => pay_tgt3 rS rD 4 _ rfl v421 hv421 v486 hv486 x hx),
    get0 sCB_step rS rD 5 6 80 hv409 rfl rfl rfl (k0_pay63 v409 _) rfl,
    get3 sCB_step rS rD 5 6 704 hv422 rfl rfl rfl (k0_pay64 v422 _) rfl,
    get0 sCB_step rS rD 6 7 96 hv410 rfl rfl rfl (k0_pay65 v410 _) rfl,
    get3 sCB_step rS rD 6 7 720 hv423 rfl rfl rfl (k0_pay66 v423 _) rfl]
  iapply Hk $$ %_ %_ %(fun x => loadIdx_countTab' (F := F) rS v424 _ x)
    %(fun x hx => pay_tgt0 rS rD 7 _ rfl v411 hv411 _ (fun x => loadIdx_countTab' (F := F) rS v411 _ x) x hx) HT HC

theorem part18 {α : Type} {Q : α → sProp 𝕄} (k : (Σ' (_ : Vec F S16 .i32), IVec S16 32) → Prog (TpuEff nD τ sig (Elt F) Λ₀ (thrV d L).2) α)
    (rS rD : IVec SRow 32) (base : IVec SFreq 32) (n1 n2 : ℕ)
    (v412 : Vec F S16 .i32) (hw35 : k0_chk35 v412) (v413 : Vec F S16 .i32) (hw36 : k0_chk36 v413) (v414 : Vec F S16 .i32) (hw37 : k0_chk37 v414)
    (v424 : Vec F S16 .i32) (v425 : Vec F S16 .i32) (hw48 : k0_chk48 v425) (v426 : Vec F S16 .i32) (hw49 : k0_chk49 v426) (v427 : Vec F S16 .i32) (hw50 : k0_chk50 v427)
    (v522 : Vec F S16 .i32) (v526 : IVec S16 32)
    (hv412 : ∀ x, v412 x = rowVec rS 8 x) (hv413 : ∀ x, v413 x = rowVec rS 9 x) (hv414 : ∀ x, v414 x = rowVec rS 10 x)
    (hv424 : ∀ x, v424 x = rowVec rD 7 x) (hv425 : ∀ x, v425 x = rowVec rD 8 x) (hv426 : ∀ x, v426 x = rowVec rD 9 x) (hv427 : ∀ x, v427 x = rowVec rD 10 x)
    (hv522 : ∀ x, v522 x = BitVec.ofNat 32 (occRow rS (v424 x)))
    (hv526 : ∀ (x : SLane.Idx) (hx : 112 + (x 0).val < 832), v526 x = tgtRow rS rD (ix1 ⟨112 + (x 0).val, hx⟩)) :
    iprop((sTab.view.loc (thrV d L) ↦{fullShare} (countTab rS : Buf (Elt F) (sTab.view.loc (thrV d L))))
        ∗ (sCB.view.loc (thrV d L) ↦{fullShare} (cntAt (tgtRow rS rD) base 7 n1 n2 7 : Buf (Elt F) (sCB.view.loc (thrV d L))))
        ∗ (∀ (c : Vec F S16 .i32) (w : IVec S16 32), ⌜∀ x, c x = BitVec.ofNat 32 (occRow rS (v427 x))⌝
            -∗ ⌜∀ (x : SLane.Idx) (hx : 160 + (x 0).val < 832), w x = tgtRow rS rD (ix1 ⟨160 + (x 0).val, hx⟩)⌝
            -∗ (sTab.view.loc (thrV d L) ↦{fullShare} (countTab rS : Buf (Elt F) (sTab.view.loc (thrV d L))))
            -∗ (sCB.view.loc (thrV d L) ↦{fullShare} (cntAt (tgtRow rS rD) base 10 n1 n2 10 : Buf (Elt F) (sCB.view.loc (thrV d L))))
            -∗ wp frame (wpE (defs₀ (F := F)) 𝒱₀ (thrV d L) none) Set.univ (k ⟨c, w⟩) Q))
      ⊢ wp frame (wpE (defs₀ (F := F)) 𝒱₀ (thrV d L) none) Set.univ
          (atTile L k0_part18 v412 hw35 v413 hw36 v414 hw37 v424 v425 hw48 v426 hw49 v427 hw50 v522 v526 >>= k) Q := by
  iintro ⟨HT, HC, Hk⟩
  unfold atTile; rw [k0_part18_eq_skeleton]; unfold k0_part18_skel
  sl_exec
  iapply (tab_lidx₂ d L) $$ HT; iintro HT
  sl_exec
  iapply (tab_lidx₂ d L) $$ HT; iintro HT
  sl_exec
  iapply (tab_lidx₂ d L) $$ HT; iintro HT
  sl_exec
  repeat rw [sCB_cons₂]
  rw [sCB_step (F := F) (tgtRow rS rD) base 7 n1 n2 7 8 n1 n2 7 112 _ _ (filled_step0 7 n1 n2 7 112 rfl (by omega)) hv526,
    sCB_step (F := F) (tgtRow rS rD) base 8 n1 n2 7 8 n1 n2 8 736 _ (k0_pay68 v424 v522) (filled_step3 8 n1 n2 7 736 rfl (by omega))
    (fun x hx => pay_tgt3 rS rD 7 _ rfl v424 hv424 v522 hv522 x hx),
    get0 sCB_step rS rD 8 9 128 hv412 rfl rfl rfl (k0_pay69 v412 _) rfl,
    get3 sCB_step rS rD 8 9 752 hv425 rfl rfl rfl (k0_pay70 v425 _) rfl,
    get0 sCB_step rS rD 9 10 144 hv413 rfl rfl rfl (k0_pay71 v413 _) rfl,
    get3 sCB_step rS rD 9 10 768 hv426 rfl rfl rfl (k0_pay72 v426 _) rfl]
  iapply Hk $$ %_ %_ %(fun x => loadIdx_countTab' (F := F) rS v427 _ x)
    %(fun x hx => pay_tgt0 rS rD 10 _ rfl v414 hv414 _ (fun x => loadIdx_countTab' (F := F) rS v414 _ x) x hx) HT HC

theorem part21 {α : Type} {Q : α → sProp 𝕄} (k : (Σ' (_ : Vec F S16 .i32) (_ : Vec F S16 .i32), IVec S16 32) → Prog (TpuEff nD τ sig (Elt F) Λ₀ (thrV d L).2) α)
    (rS rD : IVec SRow 32) (base : IVec SFreq 32) (n0 n3 : ℕ)
    (v406 : Vec F S16 .i32) (v407 : Vec F S16 .i32) (hw30 : k0_chk30 v407) (v408 : Vec F S16 .i32) (hw31 : k0_chk31 v408) (v409 : Vec F S16 .i32) (hw32 : k0_chk32 v409)
    (v419 : Vec F S16 .i32) (v420 : Vec F S16 .i32) (hw43 : k0_chk43 v420) (v421 : Vec F S16 .i32) (hw44 : k0_chk44 v421) (v422 : Vec F S16 .i32) (hw45 : k0_chk45 v422)
    (v617 : Vec F S16 .i32) (v618 : Vec F S16 .i32) (v619 : IVec S16 32)
    (hv406 : ∀ x, v406 x = rowVec rS 2 x) (hv407 : ∀ x, v407 x = rowVec rS 3 x) (hv408 : ∀ x, v408 x = rowVec rS 4 x) (hv409 : ∀ x, v409 x = rowVec rS 5 x)
    (hv419 : ∀ x, v419 x = rowVec rD 2 x) (hv420 : ∀ x, v420 x = rowVec rD 3 x) (hv421 : ∀ x, v421 x = rowVec rD 4 x) (hv422 : ∀ x, v422 x = rowVec rD 5 x)
    (hv617 : ∀ x, v617 x = BitVec.ofNat 32 (occRow rD (v419 x))) (hv618 : ∀ x, v618 x = BitVec.ofNat 32 (occRow rD (v406 x)))
    (hv619 : v619 = broadcast S16 0#32) :
    iprop((sTab.view.loc (thrV d L) ↦{fullShare} (countTab rD : Buf (Elt F) (sTab.view.loc (thrV d L))))
        ∗ (sCB.view.loc (thrV d L) ↦{fullShare} (cntAt (tgtRow rS rD) base n0 2 2 n3 : Buf (Elt F) (sCB.view.loc (thrV d L))))
        ∗ (∀ (c₂ c₁ : Vec F S16 .i32) (z : IVec S16 32), ⌜∀ x, c₂ x = BitVec.ofNat 32 (occRow rD (v422 x))⌝
            -∗ ⌜∀ x, c₁ x = BitVec.ofNat 32 (occRow rD (v409 x))⌝ -∗ ⌜z = broadcast S16 0#32⌝
            -∗ (sTab.view.loc (thrV d L) ↦{fullShare} (countTab rD : Buf (Elt F) (sTab.view.loc (thrV d L))))
            -∗ (sCB.view.loc (thrV d L) ↦{fullShare} (cntAt (tgtRow rS rD) base n0 5 5 n3 : Buf (Elt F) (sCB.view.loc (thrV d L))))
            -∗ wp frame (wpE (defs₀ (F := F)) 𝒱₀ (thrV d L) none) Set.univ (k ⟨c₂, c₁, z⟩) Q))
      ⊢ wp frame (wpE (defs₀ (F := F)) 𝒱₀ (thrV d L) none) Set.univ
          (atTile L k0_part21 v406 v407 hw30 v408 hw31 v409 hw32 v419 v420 hw43 v421 hw44 v422 hw45 v617 v618 v619 >>= k) Q := by
  subst hv619
  iintro ⟨HT, HC, Hk⟩
  unfold atTile; rw [k0_part21_eq_skeleton]; unfold k0_part21_skel
  sl_exec
  iapply (tab_lidx₂ d L) $$ HT; iintro HT
  sl_exec
  iapply (tab_lidx₂ d L) $$ HT; iintro HT
  sl_exec
  iapply (tab_lidx₂ d L) $$ HT; iintro HT
  repeat rw [sCB_cons₂]
  rw [sCB_step (F := F) (tgtRow rS rD) base n0 2 2 n3 n0 2 3 n3 448 _ (k0_pay84 v419 v617 _) (filled_step2 n0 2 2 n3 448 rfl (by omega))
    (fun x hx => pay_tgt2 rS rD 2 _ rfl v419 hv419 v617 hv617 x hx),
    sCB_step (F := F) (tgtRow rS rD) base n0 2 3 n3 n0 3 3 n3 240 _ (k0_pay85 v406 v618) (filled_step1 n0 2 3 n3 240 rfl (by omega))
    (fun x hx => pay_tgt1 rS rD 2 _ rfl v406 hv406 v618 hv618 x hx),
    get2 sCB_step rS rD 3 4 464 hv420 rfl rfl rfl (k0_pay86 v420 _) rfl,
    get1 sCB_step rS rD 3 4 256 hv407 rfl rfl rfl (k0_pay87 v407 _) rfl,
    get2 sCB_step rS rD 4 5 480 hv421 rfl rfl rfl (k0_pay88 v421 _) rfl,
    get1 sCB_step rS rD 4 5 272 hv408 rfl rfl rfl (k0_pay89 v408 _) rfl]
  iapply Hk $$ %_ %_ %_ %(fun x => loadIdx_countTab' (F := F) rD v422 _ x) %(fun x => loadIdx_countTab' (F := F) rD v409 _ x) %rfl HT HC

theorem part22 {α : Type} {Q : α → sProp 𝕄} (k : (Σ' (_ : Vec F S16 .i32) (_ : Vec F S16 .i32), IVec S16 32) → Prog (TpuEff nD τ sig (Elt F) Λ₀ (thrV d L).2) α)
    (rS rD : IVec SRow 32) (base : IVec SFreq 32) (n0 n3 : ℕ)
    (v409 : Vec F S16 .i32) (v410 : Vec F S16 .i32) (hw33 : k0_chk33 v410) (v411 : Vec F S16 .i32) (hw34 : k0_chk34 v411) (v412 : Vec F S16 .i32) (hw35 : k0_chk35 v412)
    (v422 : Vec F S16 .i32) (v423 : Vec F S16 .i32) (hw46 : k0_chk46 v423) (v424 : Vec F S16 .i32) (hw47 : k0_chk47 v424) (v425 : Vec F S16 .i32) (hw48 : k0_chk48 v425)
    (v653 : Vec F S16 .i32) (v654 : Vec F S16 .i32) (v655 : IVec S16 32)
    (hv409 : ∀ x, v409 x = rowVec rS 5 x) (hv410 : ∀ x, v410 x = rowVec rS 6 x) (hv411 : ∀ x, v411 x = rowVec rS 7 x) (hv412 : ∀ x, v412 x = rowVec rS 8 x)
    (hv422 : ∀ x, v422 x = rowVec rD 5 x) (hv423 : ∀ x, v423 x = rowVec rD 6 x) (hv424 : ∀ x, v424 x = rowVec rD 7 x) (hv425 : ∀ x, v425 x = rowVec rD 8 x)
    (hv653 : ∀ x, v653 x = BitVec.ofNat 32 (occRow rD (v422 x))) (hv654 : ∀ x, v654 x = BitVec.ofNat 32 (occRow rD (v409 x)))
    (hv655 : v655 = broadcast S16 0#32) :
    iprop((sTab.view.loc (thrV d L) ↦{fullShare} (countTab rD : Buf (Elt F) (sTab.view.loc (thrV d L))))
        ∗ (sCB.view.loc (thrV d L) ↦{fullShare} (cntAt (tgtRow rS rD) base n0 5 5 n3 : Buf (Elt F) (sCB.view.loc (thrV d L))))
        ∗ (∀ (c₂ c₁ : Vec F S16 .i32) (z : IVec S16 32), ⌜∀ x, c₂ x = BitVec.ofNat 32 (occRow rD (v425 x))⌝
            -∗ ⌜∀ x, c₁ x = BitVec.ofNat 32 (occRow rD (v412 x))⌝ -∗ ⌜z = broadcast S16 0#32⌝
            -∗ (sTab.view.loc (thrV d L) ↦{fullShare} (countTab rD : Buf (Elt F) (sTab.view.loc (thrV d L))))
            -∗ (sCB.view.loc (thrV d L) ↦{fullShare} (cntAt (tgtRow rS rD) base n0 8 8 n3 : Buf (Elt F) (sCB.view.loc (thrV d L))))
            -∗ wp frame (wpE (defs₀ (F := F)) 𝒱₀ (thrV d L) none) Set.univ (k ⟨c₂, c₁, z⟩) Q))
      ⊢ wp frame (wpE (defs₀ (F := F)) 𝒱₀ (thrV d L) none) Set.univ
          (atTile L k0_part22 v409 v410 hw33 v411 hw34 v412 hw35 v422 v423 hw46 v424 hw47 v425 hw48 v653 v654 v655 >>= k) Q := by
  subst hv655
  iintro ⟨HT, HC, Hk⟩
  unfold atTile; rw [k0_part22_eq_skeleton]; unfold k0_part22_skel
  sl_exec
  iapply (tab_lidx₂ d L) $$ HT; iintro HT
  sl_exec
  iapply (tab_lidx₂ d L) $$ HT; iintro HT
  sl_exec
  iapply (tab_lidx₂ d L) $$ HT; iintro HT
  repeat rw [sCB_cons₂]
  rw [sCB_step (F := F) (tgtRow rS rD) base n0 5 5 n3 n0 5 6 n3 496 _ (k0_pay91 v422 v653 _) (filled_step2 n0 5 5 n3 496 rfl (by omega))
    (fun x hx => pay_tgt2 rS rD 5 _ rfl v422 hv422 v653 hv653 x hx),
    sCB_step (F := F) (tgtRow rS rD) base n0 5 6 n3 n0 6 6 n3 288 _ (k0_pay92 v409 v654) (filled_step1 n0 5 6 n3 288 rfl (by omega))
    (fun x hx => pay_tgt1 rS rD 5 _ rfl v409 hv409 v654 hv654 x hx),
    get2 sCB_step rS rD 6 7 512 hv423 rfl rfl rfl (k0_pay93 v423 _) rfl,
    get1 sCB_step rS rD 6 7 304 hv410 rfl rfl rfl (k0_pay94 v410 _) rfl,
    get2 sCB_step rS rD 7 8 528 hv424 rfl rfl rfl (k0_pay95 v424 _) rfl,
    get1 sCB_step rS rD 7 8 320 hv411 rfl rfl rfl (k0_pay96 v411 _) rfl]
  iapply Hk $$ %_ %_ %_ %(fun x => loadIdx_countTab' (F := F) rD v425 _ x) %(fun x => loadIdx_countTab' (F := F) rD v412 _ x) %rfl HT HC

theorem part23 {α : Type} {Q : α → sProp 𝕄} (k : (Σ' (_ : Vec F S16 .i32) (_ : Vec F S16 .i32), IVec S16 32) → Prog (TpuEff nD τ sig (Elt F) Λ₀ (thrV d L).2) α)
    (rS rD : IVec SRow 32) (base : IVec SFreq 32) (n0 n3 : ℕ)
    (v412 : Vec F S16 .i32) (v413 : Vec F S16 .i32) (hw36 : k0_chk36 v413) (v414 : Vec F S16 .i32) (hw37 : k0_chk37 v414) (v415 : Vec F S16 .i32) (hw38 : k0_chk38 v415)
    (v425 : Vec F S16 .i32) (v426 : Vec F S16 .i32) (hw49 : k0_chk49 v426) (v427 : Vec F S16 .i32) (hw50 : k0_chk50 v427) (v428 : Vec F S16 .i32) (hw51 : k0_chk51 v428)
    (v689 : Vec F S16 .i32) (v690 : Vec F S16 .i32) (v691 : IVec S16 32)
    (hv412 : ∀ x, v412 x = rowVec rS 8 x) (hv413 : ∀ x, v413 x = rowVec rS 9 x) (hv414 : ∀ x, v414 x = rowVec rS 10 x) (hv415 : ∀ x, v415 x = rowVec rS 11 x)
    (hv425 : ∀ x, v425 x = rowVec rD 8 x) (hv426 : ∀ x, v426 x = rowVec rD 9 x) (hv427 : ∀ x, v427 x = rowVec rD 10 x) (hv428 : ∀ x, v428 x = rowVec rD 11 x)
    (hv689 : ∀ x, v689 x = BitVec.ofNat 32 (occRow rD (v425 x))) (hv690 : ∀ x, v690 x = BitVec.ofNat 32 (occRow rD (v412 x)))
    (hv691 : v691 = broadcast S16 0#32) :
    iprop((sTab.view.loc (thrV d L) ↦{fullShare} (countTab rD : Buf (Elt F) (sTab.view.loc (thrV d L))))
        ∗ (sCB.view.loc (thrV d L) ↦{fullShare} (cntAt (tgtRow rS rD) base n0 8 8 n3 : Buf (Elt F) (sCB.view.loc (thrV d L))))
        ∗ (∀ (c₂ c₁ : Vec F S16 .i32) (z : IVec S16 32), ⌜∀ x, c₂ x = BitVec.ofNat 32 (occRow rD (v428 x))⌝
            -∗ ⌜∀ x, c₁ x = BitVec.ofNat 32 (occRow rD (v415 x))⌝ -∗ ⌜z = broadcast S16 0#32⌝
            -∗ (sTab.view.loc (thrV d L) ↦{fullShare} (countTab rD : Buf (Elt F) (sTab.view.loc (thrV d L))))
            -∗ (sCB.view.loc (thrV d L) ↦{fullShare} (cntAt (tgtRow rS rD) base n0 11 11 n3 : Buf (Elt F) (sCB.view.loc (thrV d L))))
            -∗ wp frame (wpE (defs₀ (F := F)) 𝒱₀ (thrV d L) none) Set.univ (k ⟨c₂, c₁, z⟩) Q))
      ⊢ wp frame (wpE (defs₀ (F := F)) 𝒱₀ (thrV d L) none) Set.univ
          (atTile L k0_part23 v412 v413 hw36 v414 hw37 v415 hw38 v425 v426 hw49 v427 hw50 v428 hw51 v689 v690 v691 >>= k) Q := by
  subst hv691
  iintro ⟨HT, HC, Hk⟩
  unfold atTile; rw [k0_part23_eq_skeleton]; unfold k0_part23_skel
  sl_exec
  iapply (tab_lidx₂ d L) $$ HT; iintro HT
  sl_exec
  iapply (tab_lidx₂ d L) $$ HT; iintro HT
  sl_exec
  iapply (tab_lidx₂ d L) $$ HT; iintro HT
  repeat rw [sCB_cons₂]
  rw [sCB_step (F := F) (tgtRow rS rD) base n0 8 8 n3 n0 8 9 n3 544 _ (k0_pay98 v425 v689 _) (filled_step2 n0 8 8 n3 544 rfl (by omega))
    (fun x hx => pay_tgt2 rS rD 8 _ rfl v425 hv425 v689 hv689 x hx),
    sCB_step (F := F) (tgtRow rS rD) base n0 8 9 n3 n0 9 9 n3 336 _ (k0_pay99 v412 v690) (filled_step1 n0 8 9 n3 336 rfl (by omega))
    (fun x hx => pay_tgt1 rS rD 8 _ rfl v412 hv412 v690 hv690 x hx),
    get2 sCB_step rS rD 9 10 560 hv426 rfl rfl rfl (k0_pay100 v426 _) rfl,
    get1 sCB_step rS rD 9 10 352 hv413 rfl rfl rfl (k0_pay101 v413 _) rfl,
    get2 sCB_step rS rD 10 11 576 hv427 rfl rfl rfl (k0_pay102 v427 _) rfl,
    get1 sCB_step rS rD 10 11 368 hv414 rfl rfl rfl (k0_pay103 v414 _) rfl]
  iapply Hk $$ %_ %_ %_ %(fun x => loadIdx_countTab' (F := F) rD v428 _ x) %(fun x => loadIdx_countTab' (F := F) rD v415 _ x) %rfl HT HC

end PartsB

end Cert.KernelIdeal.Sc

end
-- ==== Proof.Sc.PartsB2.lean ====
import proofs.«212098_g24275155157491_cont_8to1_80_30_alg».proof.Proof.Sc.PartsA

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section PartsB2
variable (d : Dev nD) (L : grid0.Coords)
open Cert.ScMath Idealize.ShloMosaic.ValueIdx

theorem part19 {α : Type} {Q : α → sProp 𝕄} (k : PUnit → Prog (TpuEff nD τ sig (Elt F) Λ₀ (thrV d L).2) α)
    (rS rD : IVec SRow 32) (base : IVec SFreq 32)
    (v3 : IVec S16 32) (v404 : Vec F S16 .i32) (k0_hw27 : k0_chk27 v404) (v405 : Vec F S16 .i32) (k0_hw28 : k0_chk28 v405) (v406 : Vec F S16 .i32) (k0_hw29 : k0_chk29 v406) (v407 : Vec F S16 .i32) (k0_hw30 : k0_chk30 v407) (v408 : Vec F S16 .i32) (k0_hw31 : k0_chk31 v408) (v409 : Vec F S16 .i32) (k0_hw32 : k0_chk32 v409) (v410 : Vec F S16 .i32) (k0_hw33 : k0_chk33 v410) (v411 : Vec F S16 .i32) (k0_hw34 : k0_chk34 v411) (v412 : Vec F S16 .i32) (k0_hw35 : k0_chk35 v412) (v413 : Vec F S16 .i32) (k0_hw36 : k0_chk36 v413) (v415 : Vec F S16 .i32) (k0_hw38 : k0_chk38 v415) (v416 : Vec F S16 .i32) (k0_hw39 : k0_chk39 v416) (v427 : Vec F S16 .i32) (v428 : Vec F S16 .i32) (k0_hw51 : k0_chk51 v428) (v429 : Vec F S16 .i32) (k0_hw52 : k0_chk52 v429) (v558 : Vec F S16 .i32) (v562 : IVec S16 32)
    (h3 : ∀ x, v3 x = 0#32)
    (h404 : ∀ x, v404 x = rowVec rS 0 x)
    (h405 : ∀ x, v405 x = rowVec rS 1 x)
    (h406 : ∀ x, v406 x = rowVec rS 2 x)
    (h407 : ∀ x, v407 x = rowVec rS 3 x)
    (h408 : ∀ x, v408 x = rowVec rS 4 x)
    (h409 : ∀ x, v409 x = rowVec rS 5 x)
    (h410 : ∀ x, v410 x = rowVec rS 6 x)
    (h411 : ∀ x, v411 x = rowVec rS 7 x)
    (h412 : ∀ x, v412 x = rowVec rS 8 x)
    (h413 : ∀ x, v413 x = rowVec rS 9 x)
    (h415 : ∀ x, v415 x = rowVec rS 11 x)
    (h416 : ∀ x, v416 x = rowVec rS 12 x)
    (h427 : ∀ x, v427 x = rowVec rD 10 x)
    (h428 : ∀ x, v428 x = rowVec rD 11 x)
    (h429 : ∀ x, v429 x = rowVec rD 12 x)
    (h562 : ∀ (x : SLane.Idx) (hx : 160 + (x 0).val < 832), v562 x = tgtRow rS rD (ix1 ⟨160 + (x 0).val, hx⟩))
    (h558 : ∀ x, v558 x = BitVec.ofNat 32 (occRow rS (v427 x))) :
    iprop((sTab.view.loc (thrV d L) ↦{fullShare} (countTab rS : Buf (Elt F) (sTab.view.loc (thrV d L))))
        ∗ (sCB.view.loc (thrV d L) ↦{fullShare} (cntAt (tgtRow rS rD) base 10 0 0 10 : Buf (Elt F) (sCB.view.loc (thrV d L))))
        ∗ (∀ ret : PUnit, ⌜True⌝
            -∗ (sTab.view.loc (thrV d L) ↦{fullShare} (clearedTab (countTab rS) rS 160 : Buf (Elt F) (sTab.view.loc (thrV d L))))
            -∗ (sCB.view.loc (thrV d L) ↦{fullShare} (cntAt (tgtRow rS rD) base 13 0 0 13 : Buf (Elt F) (sCB.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part19 v3 v404 k0_hw27 v405 k0_hw28 v406 k0_hw29 v407 k0_hw30 v408 k0_hw31 v409 k0_hw32 v410 k0_hw33 v411 k0_hw34 v412 k0_hw35 v413 k0_hw36 v415 k0_hw38 v416 k0_hw39 v427 v428 k0_hw51 v429 k0_hw52 v558 v562 >>= k) Q := by
  iintro ⟨HT, HC, Hk⟩
  unfold atTile; rw [k0_part19_eq_skeleton]; unfold k0_part19_skel
  sl_exec
  rw [writes_cons₂, sCB_step (F := F) (tgtRow rS rD) base 10 0 0 10 11 0 0 10 160 _ _ (filled_step0 10 0 0 10 160 rfl (by omega))
    h562,
    sCB_step (F := F) (tgtRow rS rD) base 11 0 0 10 11 0 0 11 784 _ (k0_pay74 v427 v558) (filled_step3 11 0 0 10 784 rfl (by omega))
    (fun x hx => pay_tgt3 rS rD 10 _ rfl v427 h427 v558 h558 x hx)]
  iapply (tab_lidx₂ d L) $$ HT; iintro HT
  sl_exec
  rw [writes_cons₂, get0 sCB_step rS rD 11 12 176 h415 rfl rfl rfl (k0_pay75 v415 _) rfl,
    get3 sCB_step rS rD 11 12 800 h428 rfl rfl rfl (k0_pay76 v428 _) rfl]
  iapply (tab_lidx₂ d L) $$ HT; iintro HT
  sl_exec
  rw [writes_cons₂, get0 sCB_step rS rD 12 13 192 h416 rfl rfl rfl (k0_pay77 v416 _) rfl,
    get3 sCB_step rS rD 12 13 816 h429 rfl rfl rfl (k0_pay78 v429 _) rfl]
  iapply (tab_sidx' d L (clearedTab_first (F := F) rS v404 v3 _ h404 h3 (fun _ => rfl) _)) $$ HT; iintro HT
  iapply (tab_clear d L h405 h3 16 32 rfl rfl) $$ HT; iintro HT
  iapply (tab_clear d L h406 h3 32 48 rfl rfl) $$ HT; iintro HT
  iapply (tab_clear d L h407 h3 48 64 rfl rfl) $$ HT; iintro HT
  iapply (tab_clear d L h408 h3 64 80 rfl rfl) $$ HT; iintro HT
  iapply (tab_clear d L h409 h3 80 96 rfl rfl) $$ HT; iintro HT
  iapply (tab_clear d L h410 h3 96 112 rfl rfl) $$ HT; iintro HT
  iapply (tab_clear d L h411 h3 112 128 rfl rfl) $$ HT; iintro HT
  iapply (tab_clear d L h412 h3 128 144 rfl rfl) $$ HT; iintro HT
  iapply (tab_clear d L h413 h3 144 160 rfl rfl) $$ HT; iintro HT
  iapply Hk $$ %_ %trivial HT HC

theorem part20 {α : Type} {Q : α → sProp 𝕄} (k : (Σ' (_ : Vec F S16 .i32) (_ : Vec F S16 .i32), IVec S16 32) → Prog (TpuEff nD τ sig (Elt F) Λ₀ (thrV d L).2) α)
    (rS rD : IVec SRow 32) (base : IVec SFreq 32)
    (v3 : IVec S16 32) (v4 : IVec S16 32) (v404 : Vec F S16 .i32) (k0_hw27 : k0_chk27 v404) (v405 : Vec F S16 .i32) (k0_hw28 : k0_chk28 v405) (v406 : Vec F S16 .i32) (k0_hw29 : k0_chk29 v406) (v414 : Vec F S16 .i32) (k0_hw37 : k0_chk37 v414) (v415 : Vec F S16 .i32) (k0_hw38 : k0_chk38 v415) (v416 : Vec F S16 .i32) (k0_hw39 : k0_chk39 v416) (v417 : Vec F S16 .i32) (k0_hw40 : k0_chk40 v417) (v418 : Vec F S16 .i32) (k0_hw41 : k0_chk41 v418) (v419 : Vec F S16 .i32) (k0_hw42 : k0_chk42 v419) (v420 : Vec F S16 .i32) (k0_hw43 : k0_chk43 v420) (v421 : Vec F S16 .i32) (k0_hw44 : k0_chk44 v421) (v422 : Vec F S16 .i32) (k0_hw45 : k0_chk45 v422) (v423 : Vec F S16 .i32) (k0_hw46 : k0_chk46 v423) (v424 : Vec F S16 .i32) (k0_hw47 : k0_chk47 v424) (v425 : Vec F S16 .i32) (k0_hw48 : k0_chk48 v425) (v426 : Vec F S16 .i32) (k0_hw49 : k0_chk49 v426) (v427 : Vec F S16 .i32) (k0_hw50 : k0_chk50 v427) (v428 : Vec F S16 .i32) (k0_hw51 : k0_chk51 v428) (v429 : Vec F S16 .i32) (k0_hw52 : k0_chk52 v429)
    (h3 : ∀ x, v3 x = 0#32)
    (h4 : ∀ x, v4 x = 1#32)
    (h404 : ∀ x, v404 x = rowVec rS 0 x)
    (h405 : ∀ x, v405 x = rowVec rS 1 x)
    (h406 : ∀ x, v406 x = rowVec rS 2 x)
    (h414 : ∀ x, v414 x = rowVec rS 10 x)
    (h415 : ∀ x, v415 x = rowVec rS 11 x)
    (h416 : ∀ x, v416 x = rowVec rS 12 x)
    (h417 : ∀ x, v417 x = rowVec rD 0 x)
    (h418 : ∀ x, v418 x = rowVec rD 1 x)
    (h419 : ∀ x, v419 x = rowVec rD 2 x)
    (h420 : ∀ x, v420 x = rowVec rD 3 x)
    (h421 : ∀ x, v421 x = rowVec rD 4 x)
    (h422 : ∀ x, v422 x = rowVec rD 5 x)
    (h423 : ∀ x, v423 x = rowVec rD 6 x)
    (h424 : ∀ x, v424 x = rowVec rD 7 x)
    (h425 : ∀ x, v425 x = rowVec rD 8 x)
    (h426 : ∀ x, v426 x = rowVec rD 9 x)
    (h427 : ∀ x, v427 x = rowVec rD 10 x)
    (h428 : ∀ x, v428 x = rowVec rD 11 x)
    (h429 : ∀ x, v429 x = rowVec rD 12 x) :
    iprop((sTab.view.loc (thrV d L) ↦{fullShare} (clearedTab (countTab rS) rS 160 : Buf (Elt F) (sTab.view.loc (thrV d L))))
        ∗ (sCB.view.loc (thrV d L) ↦{fullShare} (cntAt (tgtRow rS rD) base 13 0 0 13 : Buf (Elt F) (sCB.view.loc (thrV d L))))
        ∗ (∀ ret : (Σ' (_ : Vec F S16 .i32) (_ : Vec F S16 .i32), IVec S16 32), ⌜(∀ x, ret.1 x = BitVec.ofNat 32 (occRow rD (v419 x))) ∧ (∀ x, ret.2.1 x = BitVec.ofNat 32 (occRow rD (v406 x))) ∧ ret.2.2 = broadcast S16 0#32⌝
            -∗ (sTab.view.loc (thrV d L) ↦{fullShare} (countTab rD : Buf (Elt F) (sTab.view.loc (thrV d L))))
            -∗ (sCB.view.loc (thrV d L) ↦{fullShare} (cntAt (tgtRow rS rD) base 13 2 2 13 : Buf (Elt F) (sCB.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part20 v3 v4 v404 k0_hw27 v405 k0_hw28 v406 k0_hw29 v414 k0_hw37 v415 k0_hw38 v416 k0_hw39 v417 k0_hw40 v418 k0_hw41 v419 k0_hw42 v420 k0_hw43 v421 k0_hw44 v422 k0_hw45 v423 k0_hw46 v424 k0_hw47 v425 k0_hw48 v426 k0_hw49 v427 k0_hw50 v428 k0_hw51 v429 k0_hw52 >>= k) Q := by
  iintro ⟨HT, HC, Hk⟩
  unfold atTile; rw [k0_part20_eq_skeleton]; unfold k0_part20_skel
  iapply (tab_clear d L h414 h3 160 176 rfl rfl) $$ HT; iintro HT
  iapply (tab_clear d L h415 h3 176 192 rfl rfl) $$ HT; iintro HT
  iapply (tab_sidx' d L (clearedTab_last (F := F) rS v416 v3 _ h416 h3 (fun _ => rfl) _)) $$ HT; iintro HT
  iapply (tab_sidx' d L (addedTab_first (F := F) rD v417 v4 _ h417 h4 (fun _ => rfl) _)) $$ HT; iintro HT
  iapply (tab_add d L h418 h4 16 32 rfl rfl) $$ HT; iintro HT
  iapply (tab_add d L h419 h4 32 48 rfl rfl) $$ HT; iintro HT
  iapply (tab_add d L h420 h4 48 64 rfl rfl) $$ HT; iintro HT
  iapply (tab_add d L h421 h4 64 80 rfl rfl) $$ HT; iintro HT
  iapply (tab_add d L h422 h4 80 96 rfl rfl) $$ HT; iintro HT
  iapply (tab_add d L h423 h4 96 112 rfl rfl) $$ HT; iintro HT
  iapply (tab_add d L h424 h4 112 128 rfl rfl) $$ HT; iintro HT
  iapply (tab_add d L h425 h4 128 144 rfl rfl) $$ HT; iintro HT
  iapply (tab_add d L h426 h4 144 160 rfl rfl) $$ HT; iintro HT
  iapply (tab_add d L h427 h4 160 176 rfl rfl) $$ HT; iintro HT
  iapply (tab_add d L h428 h4 176 192 rfl rfl) $$ HT; iintro HT
  iapply (tab_sidx' d L (addedTab_last (F := F) rD v429 v4 _ h429 h4 (fun _ => rfl) _)) $$ HT; iintro HT
  iapply (tab_lidx₂ d L) $$ HT; iintro HT
  sl_exec
  rw [writes_cons₂, get2 sCB_step rS rD 0 1 416 h417 rfl rfl rfl (k0_pay79 v417 _) rfl,
    get1 sCB_step rS rD 0 1 208 h404 rfl rfl rfl (k0_pay80 v404 _) rfl]
  iapply (tab_lidx₂ d L) $$ HT; iintro HT
  sl_exec
  rw [writes_cons₂, get2 sCB_step rS rD 1 2 432 h418 rfl rfl rfl (k0_pay81 v418 _) rfl,
    get1 sCB_step rS rD 1 2 224 h405 rfl rfl rfl (k0_pay82 v405 _) rfl]
  iapply (tab_lidx₂ d L) $$ HT; iintro HT
  iapply Hk $$ %_ %⟨fun x => loadIdx_countTab' (F := F) rD v419 _ x, fun x => loadIdx_countTab' (F := F) rD v406 _ x, rfl⟩ HT HC

end PartsB2

end Cert.KernelIdeal.Sc

end
-- ==== Proof.Sc.Part15.lean ====
import proofs.«212098_g24275155157491_cont_8to1_80_30_alg».proof.Proof.Sc.Inv
import proofs.«212098_g24275155157491_cont_8to1_80_30_alg».proof.Proof.Sc.Rules
import proofs.«212098_g24275155157491_cont_8to1_80_30_alg».proof.Proof.Sc.PartsB
import proofs.«212098_g24275155157491_cont_8to1_80_30_alg».proof.Proof.CntMath
import proofs.«212098_g24275155157491_cont_8to1_80_30_alg».proof.Proof.Sc.Flights
import proofs.«212098_g24275155157491_cont_8to1_80_30_alg».proof.Proof.Sc.PartsA
import proofs.«212098_g24275155157491_cont_8to1_80_30_alg».proof.Proof.Sc.AtTile

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

theorem p15_readAt_rowVec_DB (f : Buf (Elt F) (sDB.view.loc (thrV d L))) (v : Fin 13) (off : ℕ) (hoff : off = 16 * v.val)
    (h : ∀ a, (![off] : Fin 1 → ℕ) a + S16.size a ≤ S208.size a) (x : S16.Idx) :
    (sDB.view.readAt (Elt F) (Rect.unit (s := S208) ![off] S16.size h).toLoadRect f) x = rowVec f v x := by
  subst hoff
  simp only [View.readAt_apply, Memref.view_whole, View.read_whole]
  unfold rowVec
  congr 1
  funext a; apply Fin.ext
  obtain rfl : a = 0 := Subsingleton.elim _ _
  simp [LoadRect.idx_apply, ValueIdx.ix1]

theorem p15_owes12 (O : CellTallies nD τ sig (HIx 1)) (W : Waits sig (HIx 1)) (h0 : 5 < sig.nDmaSem) :
    (owes (thrV d L) O (insert (SemLoc.dma (⟨5, h0⟩ : DmaSem sig), (default : HIx 1)) W) : sProp 𝕄)
      = owes (thrV d L) O (insert (SemLoc.dma cc0_scratch12.sem, (default : HIx 1)) W) := rfl
theorem p15_semVal12 (h0 : 5 < sig.nDmaSem) :
    (semVal ((thrV d L, SemLoc.dma (⟨5, h0⟩ : DmaSem sig)) : GSem nD τ sig) 0 : sProp 𝕄) = semVal (cellV d L cc0_scratch12) 0 := rfl

-- With no piece filled, `cntAt` is its base.
theorem p15_cb (tgt C : IVec SFreq 32) :
    (sCB.view.loc (thrV d L) ↦{fullShare} (C : Buf (Elt F) (sCB.view.loc (thrV d L))) : sProp 𝕄)
      ⊢ sCB.view.loc (thrV d L) ↦{fullShare} (cntAt tgt C 0 0 0 0 : Buf (Elt F) (sCB.view.loc (thrV d L))) :=
  Entails.of_eq (by rw [cntAt_none])

theorem part15_mid {α : Type} {Q : α → sProp 𝕄}
    (kk : (Σ' (v429 : Vec F S16 .i32) (_ : k0_chk52 v429) (_ : Vec F S16 .i32), IVec S16 32) → Prog (TpuEff nD τ sig (Elt F) Λ₀ (thrV d L).2) α)
    (hpre : PreOK m) (O : CellTallies nD τ sig (HIx 1)) (W : Waits sig (HIx 1))
    (k : Fin k0_t2_loop.trips) (hk0 : 0 < k.val) (hk15 : k.val + 1 < 16)
    (j j' jq : Fin 1024) (hj' : k0_off9 L k = rowOff j') (hjq : k0_off10 L k = rowOff jq)
    (C : IVec SFreq 32)
    (v4 : IVec S16 32) (arg18 v395 : BitVec 32)
    (v404 : Vec F S16 .i32) (hw27 : k0_chk27 v404) (v405 : Vec F S16 .i32) (hw28 : k0_chk28 v405) (v406 : Vec F S16 .i32) (hw29 : k0_chk29 v406) (v407 : Vec F S16 .i32) (hw30 : k0_chk30 v407) (v408 : Vec F S16 .i32) (hw31 : k0_chk31 v408) (v409 : Vec F S16 .i32) (hw32 : k0_chk32 v409) (v410 : Vec F S16 .i32) (hw33 : k0_chk33 v410) (v411 : Vec F S16 .i32) (hw34 : k0_chk34 v411) (v412 : Vec F S16 .i32) (hw35 : k0_chk35 v412) (v413 : Vec F S16 .i32) (hw36 : k0_chk36 v413) (v414 : Vec F S16 .i32) (hw37 : k0_chk37 v414) (v415 : Vec F S16 .i32) (hw38 : k0_chk38 v415) (v416 : Vec F S16 .i32) (hw39 : k0_chk39 v416) (v417 : Vec F S16 .i32) (hw40 : k0_chk40 v417) (v418 : Vec F S16 .i32) (hw41 : k0_chk41 v418)
    (h4 : ∀ x, v4 x = 1#32)
    (h404 : ∀ x, v404 x = rowVec (rowBufSB m d L j) 0 x) (h405 : ∀ x, v405 x = rowVec (rowBufSB m d L j) 1 x) (h406 : ∀ x, v406 x = rowVec (rowBufSB m d L j) 2 x) (h407 : ∀ x, v407 x = rowVec (rowBufSB m d L j) 3 x) (h408 : ∀ x, v408 x = rowVec (rowBufSB m d L j) 4 x) (h409 : ∀ x, v409 x = rowVec (rowBufSB m d L j) 5 x) (h410 : ∀ x, v410 x = rowVec (rowBufSB m d L j) 6 x) (h411 : ∀ x, v411 x = rowVec (rowBufSB m d L j) 7 x) (h412 : ∀ x, v412 x = rowVec (rowBufSB m d L j) 8 x) (h413 : ∀ x, v413 x = rowVec (rowBufSB m d L j) 9 x) (h414 : ∀ x, v414 x = rowVec (rowBufSB m d L j) 10 x) (h415 : ∀ x, v415 x = rowVec (rowBufSB m d L j) 11 x) (h416 : ∀ x, v416 x = rowVec (rowBufSB m d L j) 12 x) (h417 : ∀ x, v417 x = rowVec (rowBufDB m d L j) 0 x) (h418 : ∀ x, v418 x = rowVec (rowBufDB m d L j) 1 x) :
    iprop(□ Transfers.MayWaits (thrV d L) (none : HIx 1) O ∗ owes (thrV d L) O W
        ∗ (sTab.view.loc (thrV d L) ↦{fullShare} zeroTab d L)
        ∗ (sSB.view.loc (thrV d L) ↦{fullShare} rowBufSB m d L j)
        ∗ (sDB.view.loc (thrV d L) ↦{fullShare} rowBufDB m d L j)
        ∗ semVal (cellV d L cc0_scratch9) 0 ∗ semVal (cellV d L cc0_scratch10) 0
        ∗ v1Row m d j' ∗ v2Row m d j'
        ∗ cntFlight m d L cc0_scratch12 sCB (C : Buf (Elt F) (sCB.view.loc (thrV d L))) jq
        ∗ (∀ (v429 : Vec F S16 .i32) (hw52 : k0_chk52 v429) (v450 : Vec F S16 .i32) (w : IVec S16 32),
            ⌜∀ x, v429 x = rowVec (rowBufDB m d L j) 12 x⌝
            -∗ ⌜∀ x, v450 x = BitVec.ofNat 32 (occRow (rowBufSB m d L j) (v418 x))⌝
            -∗ ⌜∀ (x : SLane.Idx) (hx : 16 + (x 0).val < 832), w x = tgtRow (rowBufSB m d L j) (rowBufDB m d L j) (ix1 ⟨16 + (x 0).val, hx⟩)⌝
            -∗ owes (thrV d L) O (insert (SemLoc.dma cc0_scratch12.sem, (default : HIx 1)) W)
            -∗ (sTab.view.loc (thrV d L) ↦{fullShare} (countTab (rowBufSB m d L j) : Buf (Elt F) (sTab.view.loc (thrV d L))))
            -∗ idFlight d L cc0_scratch9 sSB (rowBufSB m d L j') (v1Row m d j')
            -∗ idFlight d L cc0_scratch10 sDB (rowBufDB m d L j') (v2Row m d j')
            -∗ v3Row d jq (cnts m d)
            -∗ semVal (cellV d L cc0_scratch12) 0
            -∗ (sCB.view.loc (thrV d L) ↦{fullShare} (cntAt (tgtRow (rowBufSB m d L j) (rowBufDB m d L j)) C 1 0 0 1 : Buf (Elt F) (sCB.view.loc (thrV d L))))
            -∗ wp frame (wpE (defs₀ (F := F)) 𝒱₀ (thrV d L) none) Set.univ (kk ⟨v429, hw52, v450, w⟩) Q))
      ⊢ wp frame (wpE (defs₀ (F := F)) 𝒱₀ (thrV d L) none) Set.univ
          (atTile L k0_part15 v4 k arg18 v395 v404 hw27 v405 hw28 v406 hw29 v407 hw30 v408 hw31 v409 hw32 v410 hw33 v411 hw34 v412 hw35 v413 hw36 v414 hw37 v415 hw38 v416 hw39 v417 hw40 v418 hw41 >>= kk) Q := by
  have hc3 : k0_cond3 k = 1#1 := cond3_pos k hk15
  have hc4 : k0_cond4 k = 1#1 := cond4_pos k hk0
  unfold zeroTab
  iintro ⟨#Hmw, HO, HT, HSB, HDB, Hs9, Hs10, Hr1, Hr2, Hfl, Hk⟩
  ihave Hr1 := (Entails.of_eq (pts_rowM1 (F := F) d L (k0_off9 L k) (k0_off9_inb L k hc3) j' hj' (pad0 m d)).symm) $$ Hr1
  ihave Hr2 := (Entails.of_eq (pts_rowM2 (F := F) d L (k0_off9 L k) (k0_off9_inb L k hc3) j' hj' (pad1 m d)).symm) $$ Hr2
  unfold atTile
  rw [k0_part15_eq_skeleton]; unfold k0_part15_skel
  sl_exec (disch := first | sl_exact chk52_of m d L hpre _ _ _)
  ihave Hs9 := (Entails.of_eq (idFlight_of_exec_SB (F := F) m d L j' (k0_off9 L k) (k0_off9_inb L k hc3) hj' _ (rowBufSB m d L j) (part15_mid.sl.dma1 m d L k hc3) rfl)) $$ Hs9
  ihave Hs10 := (Entails.of_eq (idFlight_of_exec_DB (F := F) m d L j' (k0_off9 L k) (k0_off9_inb L k hc3) hj' _ (rowBufDB m d L j) (part15_mid.sl.dma1_1 m d L k hc3) rfl)) $$ Hs10
  ihave HC := (p15_cb (F := F) d L (tgtRow (rowBufSB m d L j) (rowBufDB m d L j)) C) $$ Hfl_src
  iapply (tab_sidx' d L (addedTab_first (F := F) (rowBufSB m d L j) v404 v4 _ h404 h4 (fun _ => rfl) _)) $$ HT; iintro HT
  iapply (tab_add d L h405 h4 16 32 rfl rfl) $$ HT; iintro HT
  iapply (tab_add d L h406 h4 32 48 rfl rfl) $$ HT; iintro HT
  iapply (tab_add d L h407 h4 48 64 rfl rfl) $$ HT; iintro HT
  iapply (tab_add d L h408 h4 64 80 rfl rfl) $$ HT; iintro HT
  iapply (tab_add d L h409 h4 80 96 rfl rfl) $$ HT; iintro HT
  iapply (tab_add d L h410 h4 96 112 rfl rfl) $$ HT; iintro HT
  iapply (tab_add d L h411 h4 112 128 rfl rfl) $$ HT; iintro HT
  iapply (tab_add d L h412 h4 128 144 rfl rfl) $$ HT; iintro HT
  iapply (tab_add d L h413 h4 144 160 rfl rfl) $$ HT; iintro HT
  iapply (tab_add d L h414 h4 160 176 rfl rfl) $$ HT; iintro HT
  iapply (tab_add d L h415 h4 176 192 rfl rfl) $$ HT; iintro HT
  iapply (tab_sidx' d L (addedTab_last (F := F) (rowBufSB m d L j) v416 v4 _ h416 h4 (fun _ => rfl) _)) $$ HT; iintro HT
  iapply (tab_lidx₂ d L) $$ HT; iintro HT
  sl_exec
  repeat rw [sCB_cons₂]
  rw [sCB_step (F := F) (tgtRow (rowBufSB m d L j) (rowBufDB m d L j)) C 0 0 0 0 1 0 0 0 0 _ (k0_pay53 v404 _) (filled_step0 0 0 0 0 0 rfl (by omega))
    (pay_tgt0 (rowBufSB m d L j) (rowBufDB m d L j) 0 _ rfl v404 h404 _ (loadIdx_countTab' (F := F) (rowBufSB m d L j) v404 _))]
  rw [sCB_step (F := F) (tgtRow (rowBufSB m d L j) (rowBufDB m d L j)) C 1 0 0 0 1 0 0 1 624 _ (k0_pay54 v417 _) (filled_step3 1 0 0 0 624 rfl (by omega))
    (pay_tgt3 (rowBufSB m d L j) (rowBufDB m d L j) 0 _ rfl v417 h417 _ (loadIdx_countTab' (F := F) (rowBufSB m d L j) v417 _))]
  iapply (tab_lidx₂ d L) $$ HT; iintro HT
  sl_exec
  ihave HO := (Entails.of_eq (p15_owes12 (F := F) d L O W _)) $$ HO
  ihave Hfl := (Entails.of_eq (p15_semVal12 (F := F) d L _)) $$ Hfl
  iapply Hk $$ %_ %_ %_ %_ %(p15_readAt_rowVec_DB (F := F) d L (rowBufDB m d L j) 12 192 rfl inb_S208_S16_192)
    %(loadIdx_countTab' (F := F) (rowBufSB m d L j) v418 _)
    %(pay_tgt0 (rowBufSB m d L j) (rowBufDB m d L j) 1 _ rfl v405 h405 _ (loadIdx_countTab' (F := F) (rowBufSB m d L j) v405 _)) HO HT Hs9 Hs10 Hfl_dst Hfl HC

theorem part15_first {α : Type} {Q : α → sProp 𝕄}
    (kk : (Σ' (v429 : Vec F S16 .i32) (_ : k0_chk52 v429) (_ : Vec F S16 .i32), IVec S16 32) → Prog (TpuEff nD τ sig (Elt F) Λ₀ (thrV d L).2) α)
    (hpre : PreOK m)
    (k : Fin k0_t2_loop.trips) (hk0 : k.val = 0)
    (j j' : Fin 1024) (hj' : k0_off9 L k = rowOff j')
    (C : IVec SFreq 32)
    (v4 : IVec S16 32) (arg18 v395 : BitVec 32)
    (v404 : Vec F S16 .i32) (hw27 : k0_chk27 v404) (v405 : Vec F S16 .i32) (hw28 : k0_chk28 v405) (v406 : Vec F S16 .i32) (hw29 : k0_chk29 v406) (v407 : Vec F S16 .i32) (hw30 : k0_chk30 v407) (v408 : Vec F S16 .i32) (hw31 : k0_chk31 v408) (v409 : Vec F S16 .i32) (hw32 : k0_chk32 v409) (v410 : Vec F S16 .i32) (hw33 : k0_chk33 v410) (v411 : Vec F S16 .i32) (hw34 : k0_chk34 v411) (v412 : Vec F S16 .i32) (hw35 : k0_chk35 v412) (v413 : Vec F S16 .i32) (hw36 : k0_chk36 v413) (v414 : Vec F S16 .i32) (hw37 : k0_chk37 v414) (v415 : Vec F S16 .i32) (hw38 : k0_chk38 v415) (v416 : Vec F S16 .i32) (hw39 : k0_chk39 v416) (v417 : Vec F S16 .i32) (hw40 : k0_chk40 v417) (v418 : Vec F S16 .i32) (hw41 : k0_chk41 v418)
    (h4 : ∀ x, v4 x = 1#32)
    (h404 : ∀ x, v404 x = rowVec (rowBufSB m d L j) 0 x) (h405 : ∀ x, v405 x = rowVec (rowBufSB m d L j) 1 x) (h406 : ∀ x, v406 x = rowVec (rowBufSB m d L j) 2 x) (h407 : ∀ x, v407 x = rowVec (rowBufSB m d L j) 3 x) (h408 : ∀ x, v408 x = rowVec (rowBufSB m d L j) 4 x) (h409 : ∀ x, v409 x = rowVec (rowBufSB m d L j) 5 x) (h410 : ∀ x, v410 x = rowVec (rowBufSB m d L j) 6 x) (h411 : ∀ x, v411 x = rowVec (rowBufSB m d L j) 7 x) (h412 : ∀ x, v412 x = rowVec (rowBufSB m d L j) 8 x) (h413 : ∀ x, v413 x = rowVec (rowBufSB m d L j) 9 x) (h414 : ∀ x, v414 x = rowVec (rowBufSB m d L j) 10 x) (h415 : ∀ x, v415 x = rowVec (rowBufSB m d L j) 11 x) (h416 : ∀ x, v416 x = rowVec (rowBufSB m d L j) 12 x) (h417 : ∀ x, v417 x = rowVec (rowBufDB m d L j) 0 x) (h418 : ∀ x, v418 x = rowVec (rowBufDB m d L j) 1 x) :
    iprop((sTab.view.loc (thrV d L) ↦{fullShare} zeroTab d L)
        ∗ (sSB.view.loc (thrV d L) ↦{fullShare} rowBufSB m d L j)
        ∗ (sDB.view.loc (thrV d L) ↦{fullShare} rowBufDB m d L j)
        ∗ semVal (cellV d L cc0_scratch9) 0 ∗ semVal (cellV d L cc0_scratch10) 0
        ∗ v1Row m d j' ∗ v2Row m d j'
        ∗ (sCB.view.loc (thrV d L) ↦{fullShare} (C : Buf (Elt F) (sCB.view.loc (thrV d L))))
        ∗ (∀ (v429 : Vec F S16 .i32) (hw52 : k0_chk52 v429) (v450 : Vec F S16 .i32) (w : IVec S16 32),
            ⌜∀ x, v429 x = rowVec (rowBufDB m d L j) 12 x⌝
            -∗ ⌜∀ x, v450 x = BitVec.ofNat 32 (occRow (rowBufSB m d L j) (v418 x))⌝
            -∗ ⌜∀ (x : SLane.Idx) (hx : 16 + (x 0).val < 832), w x = tgtRow (rowBufSB m d L j) (rowBufDB m d L j) (ix1 ⟨16 + (x 0).val, hx⟩)⌝
            -∗ (sTab.view.loc (thrV d L) ↦{fullShare} (countTab (rowBufSB m d L j) : Buf (Elt F) (sTab.view.loc (thrV d L))))
            -∗ idFlight d L cc0_scratch9 sSB (rowBufSB m d L j') (v1Row m d j')
            -∗ idFlight d L cc0_scratch10 sDB (rowBufDB m d L j') (v2Row m d j')
            -∗ (sCB.view.loc (thrV d L) ↦{fullShare} (cntAt (tgtRow (rowBufSB m d L j) (rowBufDB m d L j)) C 1 0 0 1 : Buf (Elt F) (sCB.view.loc (thrV d L))))
            -∗ wp frame (wpE (defs₀ (F := F)) 𝒱₀ (thrV d L) none) Set.univ (kk ⟨v429, hw52, v450, w⟩) Q))
      ⊢ wp frame (wpE (defs₀ (F := F)) 𝒱₀ (thrV d L) none) Set.univ
          (atTile L k0_part15 v4 k arg18 v395 v404 hw27 v405 hw28 v406 hw29 v407 hw30 v408 hw31 v409 hw32 v410 hw33 v411 hw34 v412 hw35 v413 hw36 v414 hw37 v415 hw38 v416 hw39 v417 hw40 v418 hw41 >>= kk) Q := by
  have hc3 : k0_cond3 k = 1#1 := cond3_pos k (by omega)
  have hc4 : ¬ k0_cond4 k = 1#1 := cond4_neg k (by omega)
  unfold zeroTab
  iintro ⟨HT, HSB, HDB, Hs9, Hs10, Hr1, Hr2, HC, Hk⟩
  ihave Hr1 := (Entails.of_eq (pts_rowM1 (F := F) d L (k0_off9 L k) (k0_off9_inb L k hc3) j' hj' (pad0 m d)).symm) $$ Hr1
  ihave Hr2 := (Entails.of_eq (pts_rowM2 (F := F) d L (k0_off9 L k) (k0_off9_inb L k hc3) j' hj' (pad1 m d)).symm) $$ Hr2
  ihave HC := (p15_cb (F := F) d L (tgtRow (rowBufSB m d L j) (rowBufDB m d L j)) C) $$ HC
  unfold atTile
  rw [k0_part15_eq_skeleton]; unfold k0_part15_skel
  sl_exec (disch := first | sl_exact chk52_of m d L hpre _ _ _)
  ihave Hs9 := (Entails.of_eq (idFlight_of_exec_SB (F := F) m d L j' (k0_off9 L k) (k0_off9_inb L k hc3) hj' _ (rowBufSB m d L j) (part15_first.sl.dma1 m d L k hc3) rfl)) $$ Hs9
  ihave Hs10 := (Entails.of_eq (idFlight_of_exec_DB (F := F) m d L j' (k0_off9 L k) (k0_off9_inb L k hc3) hj' _ (rowBufDB m d L j) (part15_first.sl.dma1_1 m d L k hc3) rfl)) $$ Hs10
  iapply (tab_sidx' d L (addedTab_first (F := F) (rowBufSB m d L j) v404 v4 _ h404 h4 (fun _ => rfl) _)) $$ HT; iintro HT
  iapply (tab_add d L h405 h4 16 32 rfl rfl) $$ HT; iintro HT
  iapply (tab_add d L h406 h4 32 48 rfl rfl) $$ HT; iintro HT
  iapply (tab_add d L h407 h4 48 64 rfl rfl) $$ HT; iintro HT
  iapply (tab_add d L h408 h4 64 80 rfl rfl) $$ HT; iintro HT
  iapply (tab_add d L h409 h4 80 96 rfl rfl) $$ HT; iintro HT
  iapply (tab_add d L h410 h4 96 112 rfl rfl) $$ HT; iintro HT
  iapply (tab_add d L h411 h4 112 128 rfl rfl) $$ HT; iintro HT
  iapply (tab_add d L h412 h4 128 144 rfl rfl) $$ HT; iintro HT
  iapply (tab_add d L h413 h4 144 160 rfl rfl) $$ HT; iintro HT
  iapply (tab_add d L h414 h4 160 176 rfl rfl) $$ HT; iintro HT
  iapply (tab_add d L h415 h4 176 192 rfl rfl) $$ HT; iintro HT
  iapply (tab_sidx' d L (addedTab_last (F := F) (rowBufSB m d L j) v416 v4 _ h416 h4 (fun _ => rfl) _)) $$ HT; iintro HT
  iapply (tab_lidx₂ d L) $$ HT; iintro HT
  sl_exec
  repeat rw [sCB_cons₂]
  rw [sCB_step (F := F) (tgtRow (rowBufSB m d L j) (rowBufDB m d L j)) C 0 0 0 0 1 0 0 0 0 _ (k0_pay53 v404 _) (filled_step0 0 0 0 0 0 rfl (by omega))
    (pay_tgt0 (rowBufSB m d L j) (rowBufDB m d L j) 0 _ rfl v404 h404 _ (loadIdx_countTab' (F := F) (rowBufSB m d L j) v404 _))]
  rw [sCB_step (F := F) (tgtRow (rowBufSB m d L j) (rowBufDB m d L j)) C 1 0 0 0 1 0 0 1 624 _ (k0_pay54 v417 _) (filled_step3 1 0 0 0 624 rfl (by omega))
    (pay_tgt3 (rowBufSB m d L j) (rowBufDB m d L j) 0 _ rfl v417 h417 _ (loadIdx_countTab' (F := F) (rowBufSB m d L j) v417 _))]
  iapply (tab_lidx₂ d L) $$ HT; iintro HT
  sl_exec
  iapply Hk $$ %_ %_ %_ %_ %(p15_readAt_rowVec_DB (F := F) d L (rowBufDB m d L j) 12 192 rfl inb_S208_S16_192)
    %(loadIdx_countTab' (F := F) (rowBufSB m d L j) v418 _)
    %(pay_tgt0 (rowBufSB m d L j) (rowBufDB m d L j) 1 _ rfl v405 h405 _ (loadIdx_countTab' (F := F) (rowBufSB m d L j) v405 _)) HT Hs9 Hs10 HC

theorem part15_last {α : Type} {Q : α → sProp 𝕄}
    (kk : (Σ' (v429 : Vec F S16 .i32) (_ : k0_chk52 v429) (_ : Vec F S16 .i32), IVec S16 32) → Prog (TpuEff nD τ sig (Elt F) Λ₀ (thrV d L).2) α)
    (hpre : PreOK m) (O : CellTallies nD τ sig (HIx 1)) (W : Waits sig (HIx 1))
    (k : Fin k0_t2_loop.trips) (hk15 : k.val = 15)
    (j jq : Fin 1024) (hjq : k0_off10 L k = rowOff jq)
    (C : IVec SFreq 32)
    (v4 : IVec S16 32) (arg18 v395 : BitVec 32)
    (v404 : Vec F S16 .i32) (hw27 : k0_chk27 v404) (v405 : Vec F S16 .i32) (hw28 : k0_chk28 v405) (v406 : Vec F S16 .i32) (hw29 : k0_chk29 v406) (v407 : Vec F S16 .i32) (hw30 : k0_chk30 v407) (v408 : Vec F S16 .i32) (hw31 : k0_chk31 v408) (v409 : Vec F S16 .i32) (hw32 : k0_chk32 v409) (v410 : Vec F S16 .i32) (hw33 : k0_chk33 v410) (v411 : Vec F S16 .i32) (hw34 : k0_chk34 v411) (v412 : Vec F S16 .i32) (hw35 : k0_chk35 v412) (v413 : Vec F S16 .i32) (hw36 : k0_chk36 v413) (v414 : Vec F S16 .i32) (hw37 : k0_chk37 v414) (v415 : Vec F S16 .i32) (hw38 : k0_chk38 v415) (v416 : Vec F S16 .i32) (hw39 : k0_chk39 v416) (v417 : Vec F S16 .i32) (hw40 : k0_chk40 v417) (v418 : Vec F S16 .i32) (hw41 : k0_chk41 v418)
    (h4 : ∀ x, v4 x = 1#32)
    (h404 : ∀ x, v404 x = rowVec (rowBufSB m d L j) 0 x) (h405 : ∀ x, v405 x = rowVec (rowBufSB m d L j) 1 x) (h406 : ∀ x, v406 x = rowVec (rowBufSB m d L j) 2 x) (h407 : ∀ x, v407 x = rowVec (rowBufSB m d L j) 3 x) (h408 : ∀ x, v408 x = rowVec (rowBufSB m d L j) 4 x) (h409 : ∀ x, v409 x = rowVec (rowBufSB m d L j) 5 x) (h410 : ∀ x, v410 x = rowVec (rowBufSB m d L j) 6 x) (h411 : ∀ x, v411 x = rowVec (rowBufSB m d L j) 7 x) (h412 : ∀ x, v412 x = rowVec (rowBufSB m d L j) 8 x) (h413 : ∀ x, v413 x = rowVec (rowBufSB m d L j) 9 x) (h414 : ∀ x, v414 x = rowVec (rowBufSB m d L j) 10 x) (h415 : ∀ x, v415 x = rowVec (rowBufSB m d L j) 11 x) (h416 : ∀ x, v416 x = rowVec (rowBufSB m d L j) 12 x) (h417 : ∀ x, v417 x = rowVec (rowBufDB m d L j) 0 x) (h418 : ∀ x, v418 x = rowVec (rowBufDB m d L j) 1 x) :
    iprop(□ Transfers.MayWaits (thrV d L) (none : HIx 1) O ∗ owes (thrV d L) O W
        ∗ (sTab.view.loc (thrV d L) ↦{fullShare} zeroTab d L)
        ∗ (sDB.view.loc (thrV d L) ↦{fullShare} rowBufDB m d L j)
        ∗ cntFlight m d L cc0_scratch12 sCB (C : Buf (Elt F) (sCB.view.loc (thrV d L))) jq
        ∗ (∀ (v429 : Vec F S16 .i32) (hw52 : k0_chk52 v429) (v450 : Vec F S16 .i32) (w : IVec S16 32),
            ⌜∀ x, v429 x = rowVec (rowBufDB m d L j) 12 x⌝
            -∗ ⌜∀ x, v450 x = BitVec.ofNat 32 (occRow (rowBufSB m d L j) (v418 x))⌝
            -∗ ⌜∀ (x : SLane.Idx) (hx : 16 + (x 0).val < 832), w x = tgtRow (rowBufSB m d L j) (rowBufDB m d L j) (ix1 ⟨16 + (x 0).val, hx⟩)⌝
            -∗ owes (thrV d L) O (insert (SemLoc.dma cc0_scratch12.sem, (default : HIx 1)) W)
            -∗ (sTab.view.loc (thrV d L) ↦{fullShare} (countTab (rowBufSB m d L j) : Buf (Elt F) (sTab.view.loc (thrV d L))))
            -∗ (sDB.view.loc (thrV d L) ↦{fullShare} rowBufDB m d L j)
            -∗ v3Row d jq (cnts m d)
            -∗ semVal (cellV d L cc0_scratch12) 0
            -∗ (sCB.view.loc (thrV d L) ↦{fullShare} (cntAt (tgtRow (rowBufSB m d L j) (rowBufDB m d L j)) C 1 0 0 1 : Buf (Elt F) (sCB.view.loc (thrV d L))))
            -∗ wp frame (wpE (defs₀ (F := F)) 𝒱₀ (thrV d L) none) Set.univ (kk ⟨v429, hw52, v450, w⟩) Q))
      ⊢ wp frame (wpE (defs₀ (F := F)) 𝒱₀ (thrV d L) none) Set.univ
          (atTile L k0_part15 v4 k arg18 v395 v404 hw27 v405 hw28 v406 hw29 v407 hw30 v408 hw31 v409 hw32 v410 hw33 v411 hw34 v412 hw35 v413 hw36 v414 hw37 v415 hw38 v416 hw39 v417 hw40 v418 hw41 >>= kk) Q := by
  have hc3 : ¬ k0_cond3 k = 1#1 := cond3_neg k (by omega)
  have hc4 : k0_cond4 k = 1#1 := cond4_pos k (by omega)
  unfold zeroTab
  iintro ⟨#Hmw, HO, HT, HDB, Hfl, Hk⟩
  unfold atTile
  rw [k0_part15_eq_skeleton]; unfold k0_part15_skel
  sl_exec (disch := first | sl_exact chk52_of m d L hpre _ _ _)
  ihave HC := (p15_cb (F := F) d L (tgtRow (rowBufSB m d L j) (rowBufDB m d L j)) C) $$ Hfl_src
  iapply (tab_sidx' d L (addedTab_first (F := F) (rowBufSB m d L j) v404 v4 _ h404 h4 (fun _ => rfl) _)) $$ HT; iintro HT
  iapply (tab_add d L h405 h4 16 32 rfl rfl) $$ HT; iintro HT
  iapply (tab_add d L h406 h4 32 48 rfl rfl) $$ HT; iintro HT
  iapply (tab_add d L h407 h4 48 64 rfl rfl) $$ HT; iintro HT
  iapply (tab_add d L h408 h4 64 80 rfl rfl) $$ HT; iintro HT
  iapply (tab_add d L h409 h4 80 96 rfl rfl) $$ HT; iintro HT
  iapply (tab_add d L h410 h4 96 112 rfl rfl) $$ HT; iintro HT
  iapply (tab_add d L h411 h4 112 128 rfl rfl) $$ HT; iintro HT
  iapply (tab_add d L h412 h4 128 144 rfl rfl) $$ HT; iintro HT
  iapply (tab_add d L h413 h4 144 160 rfl rfl) $$ HT; iintro HT
  iapply (tab_add d L h414 h4 160 176 rfl rfl) $$ HT; iintro HT
  iapply (tab_add d L h415 h4 176 192 rfl rfl) $$ HT; iintro HT
  iapply (tab_sidx' d L (addedTab_last (F := F) (rowBufSB m d L j) v416 v4 _ h416 h4 (fun _ => rfl) _)) $$ HT; iintro HT
  iapply (tab_lidx₂ d L) $$ HT; iintro HT
  sl_exec
  repeat rw [sCB_cons₂]
  rw [sCB_step (F := F) (tgtRow (rowBufSB m d L j) (rowBufDB m d L j)) C 0 0 0 0 1 0 0 0 0 _ (k0_pay53 v404 _) (filled_step0 0 0 0 0 0 rfl (by omega))
    (pay_tgt0 (rowBufSB m d L j) (rowBufDB m d L j) 0 _ rfl v404 h404 _ (loadIdx_countTab' (F := F) (rowBufSB m d L j) v404 _))]
  rw [sCB_step (F := F) (tgtRow (rowBufSB m d L j) (rowBufDB m d L j)) C 1 0 0 0 1 0 0 1 624 _ (k0_pay54 v417 _) (filled_step3 1 0 0 0 624 rfl (by omega))
    (pay_tgt3 (rowBufSB m d L j) (rowBufDB m d L j) 0 _ rfl v417 h417 _ (loadIdx_countTab' (F := F) (rowBufSB m d L j) v417 _))]
  iapply (tab_lidx₂ d L) $$ HT; iintro HT
  sl_exec
  ihave HO := (Entails.of_eq (p15_owes12 (F := F) d L O W _)) $$ HO
  ihave Hfl := (Entails.of_eq (p15_semVal12 (F := F) d L _)) $$ Hfl
  iapply Hk $$ %_ %_ %_ %_ %(p15_readAt_rowVec_DB (F := F) d L (rowBufDB m d L j) 12 192 rfl inb_S208_S16_192)
    %(loadIdx_countTab' (F := F) (rowBufSB m d L j) v418 _)
    %(pay_tgt0 (rowBufSB m d L j) (rowBufDB m d L j) 1 _ rfl v405 h405 _ (loadIdx_countTab' (F := F) (rowBufSB m d L j) v405 _)) HO HT HDB Hfl_dst Hfl HC

end Cert.KernelIdeal.Sc

end
-- ==== Proof.Sc.ChainB.lean ====
import proofs.«212098_g24275155157491_cont_8to1_80_30_alg».proof.Proof.Sc.PartsB
import proofs.«212098_g24275155157491_cont_8to1_80_30_alg».proof.Proof.Sc.PartsB2
import proofs.«212098_g24275155157491_cont_8to1_80_30_alg».proof.Proof.Sc.PartsC
import proofs.«212098_g24275155157491_cont_8to1_80_30_alg».proof.Proof.Sc.PartsD
import proofs.«212098_g24275155157491_cont_8to1_80_30_alg».proof.Proof.Sc.Part15
import proofs.«212098_g24275155157491_cont_8to1_80_30_alg».proof.Proof.Sc.AtTile

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

abbrev RetB (F : FTy → Type) [FloatOps F] : Type := Σ' (v419 : Vec F S16 .i32) (k0_hw42 : k0_chk42 v419) (v420 : Vec F S16 .i32) (k0_hw43 : k0_chk43 v420) (v421 : Vec F S16 .i32) (k0_hw44 : k0_chk44 v421) (v422 : Vec F S16 .i32) (k0_hw45 : k0_chk45 v422) (v423 : Vec F S16 .i32) (k0_hw46 : k0_chk46 v423) (v424 : Vec F S16 .i32) (k0_hw47 : k0_chk47 v424) (v425 : Vec F S16 .i32) (k0_hw48 : k0_chk48 v425) (v426 : Vec F S16 .i32) (k0_hw49 : k0_chk49 v426) (v427 : Vec F S16 .i32) (k0_hw50 : k0_chk50 v427) (v428 : Vec F S16 .i32) (k0_hw51 : k0_chk51 v428) (v429 : Vec F S16 .i32), k0_chk52 v429

section
variable [FloatOps F] (i : grid0.Coords) (arg2 : Memref sig .scVector .hbm S1024x208 .i32) (harg2 : arg2.IsWhole) (arg3 : Memref sig .scVector .hbm S1024x208 .i32) (harg3 : arg3.IsWhole) (arg4 : Memref sig .scVector .hbm S1024x832 .i32) (harg4 : arg4.IsWhole) (arg5 : Memref sig .scVector .vmem S100096 .i32) (harg5 : arg5.IsWhole) (arg6 : Memref sig .scVector .vmem S208 .i32) (harg6 : arg6.IsWhole) (arg7 : Memref sig .scVector .vmem S208 .i32) (harg7 : arg7.IsWhole) (arg8 : Memref sig .scVector .vmem S208 .i32) (harg8 : arg8.IsWhole) (arg9 : Memref sig .scVector .vmem S208 .i32) (harg9 : arg9.IsWhole) (arg10 : Memref sig .scVector .vmem S832 .i32) (harg10 : arg10.IsWhole) (arg11 : Memref sig .scVector .vmem S832 .i32) (harg11 : arg11.IsWhole) (arg12 : DmaSems sig S_) (arg13 : DmaSems sig S_) (arg14 : DmaSems sig S_) (arg15 : DmaSems sig S_) (arg16 : DmaSems sig S_) (arg17 : DmaSems sig S_)

def bchainTail (v3 v4 : IVec S16 32) (v404 : Vec F S16 .i32) (k0_hw27 : k0_chk27 v404) (v405 : Vec F S16 .i32) (k0_hw28 : k0_chk28 v405) (v406 : Vec F S16 .i32) (k0_hw29 : k0_chk29 v406) (v407 : Vec F S16 .i32) (k0_hw30 : k0_chk30 v407) (v408 : Vec F S16 .i32) (k0_hw31 : k0_chk31 v408) (v409 : Vec F S16 .i32) (k0_hw32 : k0_chk32 v409) (v410 : Vec F S16 .i32) (k0_hw33 : k0_chk33 v410) (v411 : Vec F S16 .i32) (k0_hw34 : k0_chk34 v411) (v412 : Vec F S16 .i32) (k0_hw35 : k0_chk35 v412) (v413 : Vec F S16 .i32) (k0_hw36 : k0_chk36 v413) (v414 : Vec F S16 .i32) (k0_hw37 : k0_chk37 v414) (v415 : Vec F S16 .i32) (k0_hw38 : k0_chk38 v415) (v416 : Vec F S16 .i32) (k0_hw39 : k0_chk39 v416) (v417 : Vec F S16 .i32) (k0_hw40 : k0_chk40 v417) (v418 : Vec F S16 .i32) (k0_hw41 : k0_chk41 v418) (v419 : Vec F S16 .i32) (k0_hw42 : k0_chk42 v419) (v420 : Vec F S16 .i32) (k0_hw43 : k0_chk43 v420) (v421 : Vec F S16 .i32) (k0_hw44 : k0_chk44 v421) (v422 : Vec F S16 .i32) (k0_hw45 : k0_chk45 v422) (v423 : Vec F S16 .i32) (k0_hw46 : k0_chk46 v423) (v424 : Vec F S16 .i32) (k0_hw47 : k0_chk47 v424) (v425 : Vec F S16 .i32) (k0_hw48 : k0_chk48 v425) (v426 : Vec F S16 .i32) (k0_hw49 : k0_chk49 v426) (v427 : Vec F S16 .i32) (k0_hw50 : k0_chk50 v427) (v428 : Vec F S16 .i32) (k0_hw51 : k0_chk51 v428) (v429 : Vec F S16 .i32) (k0_hw52 : k0_chk52 v429) (v450 : Vec F S16 .i32) (v454 : IVec S16 32) :
    Prog (TpuEff nD τ sig (Elt F) Λ₀ (.scVector ((i 0).castLE hcore0) ((i 1).castLE hsub0))) (RetB F) := do
  let ⟨v486, v490⟩ : Σ' (v486 : Vec F S16 .i32), IVec S16 32 ← k0_part16 i arg2 harg2 arg3 harg3 arg4 harg4 arg5 harg5 arg6 harg6 arg7 harg7 arg8 harg8 arg9 harg9 arg10 harg10 arg11 harg11 arg12 arg13 arg14 arg15 arg16 arg17 v406 k0_hw29 v407 k0_hw30 v408 k0_hw31 v418 v419 k0_hw42 v420 k0_hw43 v421 k0_hw44 v450 v454
  let ⟨v522, v526⟩ : Σ' (v522 : Vec F S16 .i32), IVec S16 32 ← k0_part17 i arg2 harg2 arg3 harg3 arg4 harg4 arg5 harg5 arg6 harg6 arg7 harg7 arg8 harg8 arg9 harg9 arg10 harg10 arg11 harg11 arg12 arg13 arg14 arg15 arg16 arg17 v409 k0_hw32 v410 k0_hw33 v411 k0_hw34 v421 v422 k0_hw45 v423 k0_hw46 v424 k0_hw47 v486 v490
  let ⟨v558, v562⟩ : Σ' (v558 : Vec F S16 .i32), IVec S16 32 ← k0_part18 i arg2 harg2 arg3 harg3 arg4 harg4 arg5 harg5 arg6 harg6 arg7 harg7 arg8 harg8 arg9 harg9 arg10 harg10 arg11 harg11 arg12 arg13 arg14 arg15 arg16 arg17 v412 k0_hw35 v413 k0_hw36 v414 k0_hw37 v424 v425 k0_hw48 v426 k0_hw49 v427 k0_hw50 v522 v526
  k0_part19 i arg2 harg2 arg3 harg3 arg4 harg4 arg5 harg5 arg6 harg6 arg7 harg7 arg8 harg8 arg9 harg9 arg10 harg10 arg11 harg11 arg12 arg13 arg14 arg15 arg16 arg17 v3 v404 k0_hw27 v405 k0_hw28 v406 k0_hw29 v407 k0_hw30 v408 k0_hw31 v409 k0_hw32 v410 k0_hw33 v411 k0_hw34 v412 k0_hw35 v413 k0_hw36 v415 k0_hw38 v416 k0_hw39 v427 v428 k0_hw51 v429 k0_hw52 v558 v562
  let ⟨v617, v618, v619⟩ : Σ' (v617 : Vec F S16 .i32) (v618 : Vec F S16 .i32), IVec S16 32 ← k0_part20 i arg2 harg2 arg3 harg3 arg4 harg4 arg5 harg5 arg6 harg6 arg7 harg7 arg8 harg8 arg9 harg9 arg10 harg10 arg11 harg11 arg12 arg13 arg14 arg15 arg16 arg17 v3 v4 v404 k0_hw27 v405 k0_hw28 v406 k0_hw29 v414 k0_hw37 v415 k0_hw38 v416 k0_hw39 v417 k0_hw40 v418 k0_hw41 v419 k0_hw42 v420 k0_hw43 v421 k0_hw44 v422 k0_hw45 v423 k0_hw46 v424 k0_hw47 v425 k0_hw48 v426 k0_hw49 v427 k0_hw50 v428 k0_hw51 v429 k0_hw52
  let ⟨v653, v654, v655⟩ : Σ' (v653 : Vec F S16 .i32) (v654 : Vec F S16 .i32), IVec S16 32 ← k0_part21 i arg2 harg2 arg3 harg3 arg4 harg4 arg5 harg5 arg6 harg6 arg7 harg7 arg8 harg8 arg9 harg9 arg10 harg10 arg11 harg11 arg12 arg13 arg14 arg15 arg16 arg17 v406 v407 k0_hw30 v408 k0_hw31 v409 k0_hw32 v419 v420 k0_hw43 v421 k0_hw44 v422 k0_hw45 v617 v618 v619
  let ⟨v689, v690, v691⟩ : Σ' (v689 : Vec F S16 .i32) (v690 : Vec F S16 .i32), IVec S16 32 ← k0_part22 i arg2 harg2 arg3 harg3 arg4 harg4 arg5 harg5 arg6 harg6 arg7 harg7 arg8 harg8 arg9 harg9 arg10 harg10 arg11 harg11 arg12 arg13 arg14 arg15 arg16 arg17 v409 v410 k0_hw33 v411 k0_hw34 v412 k0_hw35 v422 v423 k0_hw46 v424 k0_hw47 v425 k0_hw48 v653 v654 v655
  let ⟨v725, v726, v727⟩ : Σ' (v725 : Vec F S16 .i32) (v726 : Vec F S16 .i32), IVec S16 32 ← k0_part23 i arg2 harg2 arg3 harg3 arg4 harg4 arg5 harg5 arg6 harg6 arg7 harg7 arg8 harg8 arg9 harg9 arg10 harg10 arg11 harg11 arg12 arg13 arg14 arg15 arg16 arg17 v412 v413 k0_hw36 v414 k0_hw37 v415 k0_hw38 v425 v426 k0_hw49 v427 k0_hw50 v428 k0_hw51 v689 v690 v691
  let v731 : Vec F S16 .i32 ← Prog.lift (.load arg11 (Rect.unit (s := S832) ![592] S16.size inb_S832_S16_592).toLoadRect (View.loadsAt_vmem h_S16))
  Prog.lift (.store arg11 (Rect.unit (s := S832) ![592] S16.size inb_S832_S16_592) (k0_pay105 v428 v725 v727) Finset.univ (View.stores_vmem_bits_univ h_S16 rfl) (.inl rfl))
  let v736 : Vec F S16 .i32 ← Prog.lift (.load arg11 (Rect.unit (s := S832) ![384] S16.size inb_S832_S16_384).toLoadRect (View.loadsAt_vmem h_S16))
  Prog.lift (.store arg11 (Rect.unit (s := S832) ![384] S16.size inb_S832_S16_384) (k0_pay106 v415 v726) Finset.univ (View.stores_vmem_bits_univ h_S16 rfl) (.inl rfl))
  let v737 : Vec F S16 .i32 ← SparseCore.vectorLoadIdx arg5 ![v429] (k0_idx194_inb v429 k0_hw52) (View.loads_vmem h_S100096)
  let v738 : Vec F S16 .i32 ← SparseCore.vectorLoadIdx arg5 ![v416] (k0_idx195_inb v416 k0_hw39) (View.loads_vmem h_S100096)
  let v743 : Vec F S16 .i32 ← Prog.lift (.load arg11 (Rect.unit (s := S832) ![608] S16.size inb_S832_S16_608).toLoadRect (View.loadsAt_vmem h_S16))
  Prog.lift (.store arg11 (Rect.unit (s := S832) ![608] S16.size inb_S832_S16_608) (k0_pay107 v429 v737) Finset.univ (View.stores_vmem_bits_univ h_S16 rfl) (.inl rfl))
  let v748 : Vec F S16 .i32 ← Prog.lift (.load arg11 (Rect.unit (s := S832) ![400] S16.size inb_S832_S16_400).toLoadRect (View.loadsAt_vmem h_S16))
  Prog.lift (.store arg11 (Rect.unit (s := S832) ![400] S16.size inb_S832_S16_400) (k0_pay108 v416 v738) Finset.univ (View.stores_vmem_bits_univ h_S16 rfl) (.inl rfl))
  SparseCore.vectorStoreIdx arg5 ![v417] v3 (fun _ => 1#1) false (k0_idx196_inb v417 k0_hw40) (View.stores_vmem_bits_univ h_S100096 rfl)
  SparseCore.vectorStoreIdx arg5 ![v418] v3 (fun _ => 1#1) false (k0_idx197_inb v418 k0_hw41) (View.stores_vmem_bits_univ h_S100096 rfl)
  pure ⟨v419, k0_hw42, v420, k0_hw43, v421, k0_hw44, v422, k0_hw45, v423, k0_hw46, v424, k0_hw47, v425, k0_hw48, v426, k0_hw49, v427, k0_hw50, v428, k0_hw51, v429, k0_hw52⟩

def bchainProg (v3 : IVec S16 32) (v4 : IVec S16 32) (k0_t2 : Fin k0_t2_loop.trips) (arg18 v395 : BitVec 32) (v404 : Vec F S16 .i32) (k0_hw27 : k0_chk27 v404) (v405 : Vec F S16 .i32) (k0_hw28 : k0_chk28 v405) (v406 : Vec F S16 .i32) (k0_hw29 : k0_chk29 v406) (v407 : Vec F S16 .i32) (k0_hw30 : k0_chk30 v407) (v408 : Vec F S16 .i32) (k0_hw31 : k0_chk31 v408) :
    Prog (TpuEff nD τ sig (Elt F) Λ₀ (.scVector ((i 0).castLE hcore0) ((i 1).castLE hsub0))) (RetB F) := do
  let ⟨v409, k0_hw32, v410, k0_hw33, v411, k0_hw34, v412, k0_hw35, v413, k0_hw36, v414, k0_hw37, v415, k0_hw38, v416, k0_hw39, v417, k0_hw40, v418, k0_hw41, v419, k0_hw42, v420, k0_hw43, v421, k0_hw44, v422, k0_hw45, v423, k0_hw46, v424, k0_hw47, v425, k0_hw48, v426, k0_hw49, v427, k0_hw50, v428, k0_hw51⟩ : Σ' (v409 : Vec F S16 .i32) (k0_hw32 : k0_chk32 v409) (v410 : Vec F S16 .i32) (k0_hw33 : k0_chk33 v410) (v411 : Vec F S16 .i32) (k0_hw34 : k0_chk34 v411) (v412 : Vec F S16 .i32) (k0_hw35 : k0_chk35 v412) (v413 : Vec F S16 .i32) (k0_hw36 : k0_chk36 v413) (v414 : Vec F S16 .i32) (k0_hw37 : k0_chk37 v414) (v415 : Vec F S16 .i32) (k0_hw38 : k0_chk38 v415) (v416 : Vec F S16 .i32) (k0_hw39 : k0_chk39 v416) (v417 : Vec F S16 .i32) (k0_hw40 : k0_chk40 v417) (v418 : Vec F S16 .i32) (k0_hw41 : k0_chk41 v418) (v419 : Vec F S16 .i32) (k0_hw42 : k0_chk42 v419) (v420 : Vec F S16 .i32) (k0_hw43 : k0_chk43 v420) (v421 : Vec F S16 .i32) (k0_hw44 : k0_chk44 v421) (v422 : Vec F S16 .i32) (k0_hw45 : k0_chk45 v422) (v423 : Vec F S16 .i32) (k0_hw46 : k0_chk46 v423) (v424 : Vec F S16 .i32) (k0_hw47 : k0_chk47 v424) (v425 : Vec F S16 .i32) (k0_hw48 : k0_chk48 v425) (v426 : Vec F S16 .i32) (k0_hw49 : k0_chk49 v426) (v427 : Vec F S16 .i32) (k0_hw50 : k0_chk50 v427) (v428 : Vec F S16 .i32), k0_chk51 v428 ← k0_part14 i arg2 harg2 arg3 harg3 arg4 harg4 arg5 harg5 arg6 harg6 arg7 harg7 arg8 harg8 arg9 harg9 arg10 harg10 arg11 harg11 arg12 arg13 arg14 arg15 arg16 arg17
  let ⟨v429, k0_hw52, v450, v454⟩ : Σ' (v429 : Vec F S16 .i32) (k0_hw52 : k0_chk52 v429) (v450 : Vec F S16 .i32), IVec S16 32 ← k0_part15 i arg2 harg2 arg3 harg3 arg4 harg4 arg5 harg5 arg6 harg6 arg7 harg7 arg8 harg8 arg9 harg9 arg10 harg10 arg11 harg11 arg12 arg13 arg14 arg15 arg16 arg17 v4 k0_t2 arg18 v395 v404 k0_hw27 v405 k0_hw28 v406 k0_hw29 v407 k0_hw30 v408 k0_hw31 v409 k0_hw32 v410 k0_hw33 v411 k0_hw34 v412 k0_hw35 v413 k0_hw36 v414 k0_hw37 v415 k0_hw38 v416 k0_hw39 v417 k0_hw40 v418 k0_hw41
  bchainTail i arg2 harg2 arg3 harg3 arg4 harg4 arg5 harg5 arg6 harg6 arg7 harg7 arg8 harg8 arg9 harg9 arg10 harg10 arg11 harg11 arg12 arg13 arg14 arg15 arg16 arg17 v3 v4 v404 k0_hw27 v405 k0_hw28 v406 k0_hw29 v407 k0_hw30 v408 k0_hw31 v409 k0_hw32 v410 k0_hw33 v411 k0_hw34 v412 k0_hw35 v413 k0_hw36 v414 k0_hw37 v415 k0_hw38 v416 k0_hw39 v417 k0_hw40 v418 k0_hw41 v419 k0_hw42 v420 k0_hw43 v421 k0_hw44 v422 k0_hw45 v423 k0_hw46 v424 k0_hw47 v425 k0_hw48 v426 k0_hw49 v427 k0_hw50 v428 k0_hw51 v429 k0_hw52 v450 v454

end

variable (m : (ℓ : Loc nD τ sig) → Buf (Elt F) ℓ) [FloatOps F]
variable (d : Dev nD) (L : grid0.Coords)

/-- From the count table of the source row and the first piece of frequencies, the rest of the row's four runs are filled and the table is left cleared of the destination row's first two vectors. -/
theorem bchain_tail {α : Type} {Q : α → sProp 𝕄} (kont : RetB F → Prog (TpuEff nD τ sig (Elt F) Λ₀ (thrV d L).2) α)
    (rS rD : IVec SRow 32) (C : IVec SFreq 32) (v3 v4 : IVec S16 32) (h3 : ∀ x, v3 x = 0#32) (h4 : ∀ x, v4 x = 1#32)
    {v404 : Vec F S16 .i32} {hw27 : k0_chk27 v404} {v405 : Vec F S16 .i32} {hw28 : k0_chk28 v405} {v406 : Vec F S16 .i32} {hw29 : k0_chk29 v406} {v407 : Vec F S16 .i32} {hw30 : k0_chk30 v407} {v408 : Vec F S16 .i32} {hw31 : k0_chk31 v408} {v409 : Vec F S16 .i32} {hw32 : k0_chk32 v409} {v410 : Vec F S16 .i32} {hw33 : k0_chk33 v410} {v411 : Vec F S16 .i32} {hw34 : k0_chk34 v411} {v412 : Vec F S16 .i32} {hw35 : k0_chk35 v412} {v413 : Vec F S16 .i32} {hw36 : k0_chk36 v413} {v414 : Vec F S16 .i32} {hw37 : k0_chk37 v414} {v415 : Vec F S16 .i32} {hw38 : k0_chk38 v415} {v416 : Vec F S16 .i32} {hw39 : k0_chk39 v416} {v417 : Vec F S16 .i32} {hw40 : k0_chk40 v417} {v418 : Vec F S16 .i32} {hw41 : k0_chk41 v418} {v419 : Vec F S16 .i32} {hw42 : k0_chk42 v419} {v420 : Vec F S16 .i32} {hw43 : k0_chk43 v420} {v421 : Vec F S16 .i32} {hw44 : k0_chk44 v421} {v422 : Vec F S16 .i32} {hw45 : k0_chk45 v422} {v423 : Vec F S16 .i32} {hw46 : k0_chk46 v423} {v424 : Vec F S16 .i32} {hw47 : k0_chk47 v424} {v425 : Vec F S16 .i32} {hw48 : k0_chk48 v425} {v426 : Vec F S16 .i32} {hw49 : k0_chk49 v426} {v427 : Vec F S16 .i32} {hw50 : k0_chk50 v427} {v428 : Vec F S16 .i32} {hw51 : k0_chk51 v428} {v429 : Vec F S16 .i32} {hw52 : k0_chk52 v429} {v450 : Vec F S16 .i32} {w454 : IVec S16 32}
    (h404 : ∀ x, v404 x = rowVec rS 0 x) (h405 : ∀ x, v405 x = rowVec rS 1 x) (h406 : ∀ x, v406 x = rowVec rS 2 x) (h407 : ∀ x, v407 x = rowVec rS 3 x) (h408 : ∀ x, v408 x = rowVec rS 4 x) (h409 : ∀ x, v409 x = rowVec rS 5 x) (h410 : ∀ x, v410 x = rowVec rS 6 x) (h411 : ∀ x, v411 x = rowVec rS 7 x) (h412 : ∀ x, v412 x = rowVec rS 8 x) (h413 : ∀ x, v413 x = rowVec rS 9 x) (h414 : ∀ x, v414 x = rowVec rS 10 x) (h415 : ∀ x, v415 x = rowVec rS 11 x) (h416 : ∀ x, v416 x = rowVec rS 12 x) (h417 : ∀ x, v417 x = rowVec rD 0 x) (h418 : ∀ x, v418 x = rowVec rD 1 x) (h419 : ∀ x, v419 x = rowVec rD 2 x) (h420 : ∀ x, v420 x = rowVec rD 3 x) (h421 : ∀ x, v421 x = rowVec rD 4 x) (h422 : ∀ x, v422 x = rowVec rD 5 x) (h423 : ∀ x, v423 x = rowVec rD 6 x) (h424 : ∀ x, v424 x = rowVec rD 7 x) (h425 : ∀ x, v425 x = rowVec rD 8 x) (h426 : ∀ x, v426 x = rowVec rD 9 x) (h427 : ∀ x, v427 x = rowVec rD 10 x) (h428 : ∀ x, v428 x = rowVec rD 11 x) (h429 : ∀ x, v429 x = rowVec rD 12 x)
    (h450 : ∀ x, v450 x = BitVec.ofNat 32 (occRow rS (v418 x)))
    (h454 : ∀ (x : SLane.Idx) (hx : 16 + (x 0).val < 832), w454 x = tgtRow rS rD (ix1 ⟨16 + (x 0).val, hx⟩)) :
    iprop((sTab.view.loc (thrV d L) ↦{fullShare} (countTab rS : Buf (Elt F) (sTab.view.loc (thrV d L))))
        ∗ (sCB.view.loc (thrV d L) ↦{fullShare} (cntAt (tgtRow rS rD) C 1 0 0 1 : Buf (Elt F) (sCB.view.loc (thrV d L))))
        ∗ ((sTab.view.loc (thrV d L) ↦{fullShare} (clearedTab (countTab rD) rD 32 : Buf (Elt F) (sTab.view.loc (thrV d L)))) -∗ (sCB.view.loc (thrV d L) ↦{fullShare} (tgtRow rS rD : Buf (Elt F) (sCB.view.loc (thrV d L))))
            -∗ wp frame (wpE (defs₀ (F := F)) 𝒱₀ (thrV d L) none) Set.univ (kont ⟨v419, hw42, v420, hw43, v421, hw44, v422, hw45, v423, hw46, v424, hw47, v425, hw48, v426, hw49, v427, hw50, v428, hw51, v429, hw52⟩) Q))
      ⊢ wp frame (wpE (defs₀ (F := F)) 𝒱₀ (thrV d L) none) Set.univ
          (atTile L (bchainTail (F := F)) v3 v4 v404 hw27 v405 hw28 v406 hw29 v407 hw30 v408 hw31 v409 hw32 v410 hw33 v411 hw34 v412 hw35 v413 hw36 v414 hw37 v415 hw38 v416 hw39 v417 hw40 v418 hw41 v419 hw42 v420 hw43 v421 hw44 v422 hw45 v423 hw46 v424 hw47 v425 hw48 v426 hw49 v427 hw50 v428 hw51 v429 hw52 v450 w454 >>= kont) Q := by
  iintro ⟨HT, HC, Hk⟩
  unfold atTile bchainTail
  rw [Prog.bind_assoc]
  iapply (part16 (F := F) d L _ rS rD C 0 0 v406 hw29 v407 hw30 v408 hw31 _ _ _ _ _ _ _ v450 w454
    h406 h407 h408 h418 h419 h420 h421 h450 h454)
  iframe HT HC
  iintro %v486 %w490 %h486 %h490 HT HC
  dsimp only
  rw [Prog.bind_assoc]
  iapply (part17 (F := F) d L _ rS rD C 0 0 _ _ _ _ _ _ _ _ _ _ _ _ _ v486 w490
    h409 h410 h411 h421 h422 h423 h424 h486 h490)
  iframe HT HC
  iintro %v522 %w526 %h522 %h526 HT HC
  dsimp only
  rw [Prog.bind_assoc]
  iapply (part18 (F := F) d L _ rS rD C 0 0 _ _ _ _ _ _ _ _ _ _ _ _ _ v522 w526
    h412 h413 h414 h424 h425 h426 h427 h522 h526)
  iframe HT HC
  iintro %v558 %w562 %h558 %h562 HT HC
  dsimp only
  rw [Prog.bind_assoc]
  iapply (part19 (F := F) d L _ rS rD C v3 v404 hw27 v405 hw28 v406 hw29 v407 hw30 v408 hw31 _ _ _ _ _ _ _ _ _ _ _ _ _ _ _ _ _ v429 hw52 v558 w562
    h3 h404 h405 h406 h407 h408 h409 h410 h411 h412 h413 h415 h416
    h427 h428 h429 h562 h558)
  iframe HT HC
  iintro %_ %_ HT HC
  dsimp only
  rw [Prog.bind_assoc]
  iapply (part20 (F := F) d L _ rS rD C v3 v4 v404 hw27 v405 hw28 v406 hw29 _ _ _ _ _ _ _ _ _ _ _ _ _ _ _ _ _ _ _ _ _ _ _ _ _ _ _ _ _ _ v429 hw52
    h3 h4 h404 h405 h406 h414 h415 h416
    h417 h418 h419 h420 h421 h422 h423 h424 h425 h426 h427 h428 h429)
  iframe HT HC
  iintro %ret20 %hret20 HT HC
  obtain ⟨v617, v618, v619⟩ := ret20
  obtain ⟨h617, h618, h619⟩ := hret20
  dsimp only at h617 h618 h619
  dsimp only
  rw [Prog.bind_assoc]
  iapply (part21 (F := F) d L _ rS rD C 13 13 v406 v407 hw30 v408 hw31 _ _ _ _ _ _ _ _ _ v617 v618 v619
    h406 h407 h408 h409 h419 h420 h421 h422 h617 h618 h619)
  iframe HT HC
  iintro %v653 %v654 %v655 %h653 %h654 %h655 HT HC
  dsimp only
  rw [Prog.bind_assoc]
  iapply (part22 (F := F) d L _ rS rD C 13 13 _ _ _ _ _ _ _ _ _ _ _ _ _ _ v653 v654 v655
    h409 h410 h411 h412 h422 h423 h424 h425 h653 h654 h655)
  iframe HT HC
  iintro %v689 %v690 %v691 %h689 %h690 %h691 HT HC
  dsimp only
  rw [Prog.bind_assoc]
  iapply (part23 (F := F) d L _ rS rD C 13 13 _ _ _ _ _ _ _ _ _ _ _ _ _ _ v689 v690 v691
    h412 h413 h414 h415 h425 h426 h427 h428 h689 h690 h691)
  iframe HT HC
  iintro %v725 %v726 %v727 %h725 %h726 %h727 HT HC
  subst h727

  sl_exec
  rw [Prog.bind_assoc]; iapply (tab_lidx d L) $$ HT; iintro HT
  rw [Prog.bind_assoc]; iapply (tab_lidx d L) $$ HT; iintro HT
  sl_exec
  repeat rw [sCB_cons₂]
  erw [sCB_step (F := F) (tgtRow rS rD) C 13 11 11 13 13 11 12 13 592 _ (k0_pay105 _ v725 _) (filled_step2 13 11 11 13 592 rfl (by omega))
    (fun x hx => pay_tgt2 rS rD 11 _ rfl _ h428 v725 h725 x hx)]
  erw [sCB_step (F := F) (tgtRow rS rD) C 13 11 12 13 13 12 12 13 384 _ (k0_pay106 _ v726) (filled_step1 13 11 12 13 384 rfl (by omega))
    (fun x hx => pay_tgt1 rS rD 11 _ rfl _ h415 v726 h726 x hx)]
  erw [sCB_step (F := F) (tgtRow rS rD) C 13 12 12 13 13 12 13 13 608 _ (k0_pay107 v429 _) (filled_step2 13 12 12 13 608 rfl (by omega))
    (fun x hx => pay_tgt2 rS rD 12 _ rfl v429 h429 _ (fun x => loadIdx_countTab' (F := F) rD v429 _ x) x hx)]
  erw [sCB_step (F := F) (tgtRow rS rD) C 13 12 13 13 13 13 13 13 400 _ (k0_pay108 _ _) (filled_step1 13 12 13 13 400 rfl (by omega))
    (fun x hx => pay_tgt1 rS rD 12 _ rfl _ h416 _ (fun x => loadIdx_countTab' (F := F) rD _ _ x) x hx)]
  rw [cntAt_full]
  rw [Prog.bind_assoc]; iapply (tab_sidx d L (clearedTab_first (F := F) rD _ v3 _ h417 h3 (fun _ => rfl) _)) $$ HT; iintro HT
  rw [Prog.bind_assoc]; iapply (tab_sidx d L (clearedTab_step' (F := F) (countTab rD) rD 1 16 32 rfl rfl _ v3 _ h418 h3 (fun _ => rfl) _)) $$ HT; iintro HT
  rw [pure_bind]
  iapply Hk $$ HT HC

theorem bchain_mid {α : Type} {Q : α → sProp 𝕄} (kont : RetB F → Prog (TpuEff nD τ sig (Elt F) Λ₀ (thrV d L).2) α)
    (hpre : PreOK m) (O : CellTallies nD τ sig (HIx 1)) (W : Waits sig (HIx 1))
    (kk : Fin k0_t2_loop.trips) (hk0 : 0 < kk.val) (hk15 : kk.val + 1 < 16)
    (j j' jq : Fin 1024) (hj' : k0_off9 L kk = rowOff j') (hjq : k0_off10 L kk = rowOff jq)
    (C : IVec SFreq 32) (v3 v4 : IVec S16 32) (h3 : ∀ x, v3 x = 0#32) (h4 : ∀ x, v4 x = 1#32) (arg18 v395 : BitVec 32)
    (v404 : Vec F S16 .i32) (hw27 : k0_chk27 v404) (v405 : Vec F S16 .i32) (hw28 : k0_chk28 v405) (v406 : Vec F S16 .i32) (hw29 : k0_chk29 v406) (v407 : Vec F S16 .i32) (hw30 : k0_chk30 v407) (v408 : Vec F S16 .i32) (hw31 : k0_chk31 v408)
    (h404 : ∀ x, v404 x = rowVec (rowBufSB m d L j) 0 x) (h405 : ∀ x, v405 x = rowVec (rowBufSB m d L j) 1 x) (h406 : ∀ x, v406 x = rowVec (rowBufSB m d L j) 2 x) (h407 : ∀ x, v407 x = rowVec (rowBufSB m d L j) 3 x) (h408 : ∀ x, v408 x = rowVec (rowBufSB m d L j) 4 x) :
    iprop(□ Transfers.MayWaits (thrV d L) (none : HIx 1) O ∗ owes (thrV d L) O W
        ∗ (sTab.view.loc (thrV d L) ↦{fullShare} (zeroTab d L : Buf (Elt F) (sTab.view.loc (thrV d L))))
        ∗ (sSB.view.loc (thrV d L) ↦{fullShare} rowBufSB m d L j)
        ∗ (sDB.view.loc (thrV d L) ↦{fullShare} rowBufDB m d L j)
        ∗ semVal (cellV d L cc0_scratch9) 0 ∗ semVal (cellV d L cc0_scratch10) 0
        ∗ v1Row m d j' ∗ v2Row m d j'
        ∗ cntFlight m d L cc0_scratch12 sCB (C : Buf (Elt F) (sCB.view.loc (thrV d L))) jq
        ∗ (∀ (v419 : Vec F S16 .i32) (hw42 : k0_chk42 v419) (v420 : Vec F S16 .i32) (hw43 : k0_chk43 v420) (v421 : Vec F S16 .i32) (hw44 : k0_chk44 v421) (v422 : Vec F S16 .i32) (hw45 : k0_chk45 v422) (v423 : Vec F S16 .i32) (hw46 : k0_chk46 v423) (v424 : Vec F S16 .i32) (hw47 : k0_chk47 v424) (v425 : Vec F S16 .i32) (hw48 : k0_chk48 v425) (v426 : Vec F S16 .i32) (hw49 : k0_chk49 v426) (v427 : Vec F S16 .i32) (hw50 : k0_chk50 v427) (v428 : Vec F S16 .i32) (hw51 : k0_chk51 v428) (v429 : Vec F S16 .i32) (hw52 : k0_chk52 v429),
            ⌜∀ x, v419 x = rowVec (rowBufDB m d L j) 2 x⌝ -∗ ⌜∀ x, v420 x = rowVec (rowBufDB m d L j) 3 x⌝ -∗ ⌜∀ x, v421 x = rowVec (rowBufDB m d L j) 4 x⌝ -∗ ⌜∀ x, v422 x = rowVec (rowBufDB m d L j) 5 x⌝ -∗ ⌜∀ x, v423 x = rowVec (rowBufDB m d L j) 6 x⌝ -∗ ⌜∀ x, v424 x = rowVec (rowBufDB m d L j) 7 x⌝ -∗ ⌜∀ x, v425 x = rowVec (rowBufDB m d L j) 8 x⌝ -∗ ⌜∀ x, v426 x = rowVec (rowBufDB m d L j) 9 x⌝ -∗ ⌜∀ x, v427 x = rowVec (rowBufDB m d L j) 10 x⌝ -∗ ⌜∀ x, v428 x = rowVec (rowBufDB m d L j) 11 x⌝ -∗ ⌜∀ x, v429 x = rowVec (rowBufDB m d L j) 12 x⌝
            -∗ owes (thrV d L) O (insert (SemLoc.dma cc0_scratch12.sem, (default : HIx 1)) W)
            -∗ idFlight d L cc0_scratch9 sSB (rowBufSB m d L j') (v1Row m d j')
            -∗ idFlight d L cc0_scratch10 sDB (rowBufDB m d L j') (v2Row m d j')
            -∗ v3Row d jq (cnts m d)
            -∗ semVal (cellV d L cc0_scratch12) 0
            -∗ (sTab.view.loc (thrV d L) ↦{fullShare} (clearedTab (countTab (rowBufDB m d L j)) (rowBufDB m d L j) 32 : Buf (Elt F) (sTab.view.loc (thrV d L))))
            -∗ (sCB.view.loc (thrV d L) ↦{fullShare} (tgtRow (rowBufSB m d L j) (rowBufDB m d L j) : Buf (Elt F) (sCB.view.loc (thrV d L))))
            -∗ wp frame (wpE (defs₀ (F := F)) 𝒱₀ (thrV d L) none) Set.univ (kont ⟨v419, hw42, v420, hw43, v421, hw44, v422, hw45, v423, hw46, v424, hw47, v425, hw48, v426, hw49, v427, hw50, v428, hw51, v429, hw52⟩) Q))
      ⊢ wp frame (wpE (defs₀ (F := F)) 𝒱₀ (thrV d L) none) Set.univ
          (atTile L (bchainProg (F := F)) v3 v4 kk arg18 v395 v404 hw27 v405 hw28 v406 hw29 v407 hw30 v408 hw31 >>= kont) Q := by
  iintro ⟨#Hmw, HO, HT, HSB, HDB, Hs9, Hs10, Hn1, Hn2, Hf12, Hk⟩
  have eS := readAt_rowVec_SB (F := F) d L (rowBufSB m d L j)
  have eD := p15_readAt_rowVec_DB (F := F) d L (rowBufDB m d L j)
  unfold atTile bchainProg
  rw [Prog.bind_assoc]
  iapply (part14 (F := F) m d L hpre j _)
  iframe HSB HDB
  iintro ⟨HSB, HDB⟩
  dsimp only
  rw [Prog.bind_assoc]
  iapply (part15_mid (F := F) m d L _ hpre O W kk hk0 hk15 j j' jq hj' hjq C v4 arg18 v395
    v404 hw27 v405 hw28 v406 hw29 v407 hw30 v408 hw31 _ _ _ _ _ _ _ _ _ _ _ _ _ _ _ _ _ _ _ _
    h4 h404 h405 h406 h407 h408 (eS 5 80 rfl _) (eS 6 96 rfl _) (eS 7 112 rfl _) (eS 8 128 rfl _) (eS 9 144 rfl _) (eS 10 160 rfl _) (eS 11 176 rfl _) (eS 12 192 rfl _)
    (eD 0 0 rfl _) (eD 1 16 rfl _))
  iframe Hmw HO HT HSB HDB Hs9 Hs10 Hn1 Hn2 Hf12
  iintro %v429 %hw52 %v450 %w454 %h429 %h450 %h454 HO HT Hs9 Hs10 Hq Hs12 HC
  dsimp only
  iapply (bchain_tail (F := F) d L kont (rowBufSB m d L j) (rowBufDB m d L j) C v3 v4 h3 h4
    h404 h405 h406 h407 h408 (eS 5 80 rfl _) (eS 6 96 rfl _) (eS 7 112 rfl _) (eS 8 128 rfl _) (eS 9 144 rfl _) (eS 10 160 rfl _) (eS 11 176 rfl _) (eS 12 192 rfl _) (eD 0 0 rfl _) (eD 1 16 rfl _) (eD 2 32 rfl _) (eD 3 48 rfl _) (eD 4 64 rfl _) (eD 5 80 rfl _) (eD 6 96 rfl _) (eD 7 112 rfl _) (eD 8 128 rfl _) (eD 9 144 rfl _) (eD 10 160 rfl _) (eD 11 176 rfl _) h429 h450 h454)
  iframe HT HC
  iintro HT HC
  iapply Hk $$ %_ %_ %_ %_ %_ %_ %_ %_ %_ %_ %_ %_ %_ %_ %_ %_ %_ %_ %_ %_ %_ %_ %(eD 2 32 rfl _) %(eD 3 48 rfl _) %(eD 4 64 rfl _) %(eD 5 80 rfl _) %(eD 6 96 rfl _) %(eD 7 112 rfl _) %(eD 8 128 rfl _) %(eD 9 144 rfl _) %(eD 10 160 rfl _) %(eD 11 176 rfl _) %h429 HO Hs9 Hs10 Hq Hs12 HT HC

theorem bchain_first {α : Type} {Q : α → sProp 𝕄} (kont : RetB F → Prog (TpuEff nD τ sig (Elt F) Λ₀ (thrV d L).2) α)
    (hpre : PreOK m)
    (kk : Fin k0_t2_loop.trips) (hk0 : kk.val = 0)
    (j j' : Fin 1024) (hj' : k0_off9 L kk = rowOff j')
    (C : IVec SFreq 32) (v3 v4 : IVec S16 32) (h3 : ∀ x, v3 x = 0#32) (h4 : ∀ x, v4 x = 1#32) (arg18 v395 : BitVec 32)
    (v404 : Vec F S16 .i32) (hw27 : k0_chk27 v404) (v405 : Vec F S16 .i32) (hw28 : k0_chk28 v405) (v406 : Vec F S16 .i32) (hw29 : k0_chk29 v406) (v407 : Vec F S16 .i32) (hw30 : k0_chk30 v407) (v408 : Vec F S16 .i32) (hw31 : k0_chk31 v408)
    (h404 : ∀ x, v404 x = rowVec (rowBufSB m d L j) 0 x) (h405 : ∀ x, v405 x = rowVec (rowBufSB m d L j) 1 x) (h406 : ∀ x, v406 x = rowVec (rowBufSB m d L j) 2 x) (h407 : ∀ x, v407 x = rowVec (rowBufSB m d L j) 3 x) (h408 : ∀ x, v408 x = rowVec (rowBufSB m d L j) 4 x) :
    iprop((sTab.view.loc (thrV d L) ↦{fullShare} (zeroTab d L : Buf (Elt F) (sTab.view.loc (thrV d L))))
        ∗ (sSB.view.loc (thrV d L) ↦{fullShare} rowBufSB m d L j)
        ∗ (sDB.view.loc (thrV d L) ↦{fullShare} rowBufDB m d L j)
        ∗ semVal (cellV d L cc0_scratch9) 0 ∗ semVal (cellV d L cc0_scratch10) 0
        ∗ v1Row m d j' ∗ v2Row m d j'
        ∗ (sCB.view.loc (thrV d L) ↦{fullShare} (C : Buf (Elt F) (sCB.view.loc (thrV d L))))
        ∗ (∀ (v419 : Vec F S16 .i32) (hw42 : k0_chk42 v419) (v420 : Vec F S16 .i32) (hw43 : k0_chk43 v420) (v421 : Vec F S16 .i32) (hw44 : k0_chk44 v421) (v422 : Vec F S16 .i32) (hw45 : k0_chk45 v422) (v423 : Vec F S16 .i32) (hw46 : k0_chk46 v423) (v424 : Vec F S16 .i32) (hw47 : k0_chk47 v424) (v425 : Vec F S16 .i32) (hw48 : k0_chk48 v425) (v426 : Vec F S16 .i32) (hw49 : k0_chk49 v426) (v427 : Vec F S16 .i32) (hw50 : k0_chk50 v427) (v428 : Vec F S16 .i32) (hw51 : k0_chk51 v428) (v429 : Vec F S16 .i32) (hw52 : k0_chk52 v429),
            ⌜∀ x, v419 x = rowVec (rowBufDB m d L j) 2 x⌝ -∗ ⌜∀ x, v420 x = rowVec (rowBufDB m d L j) 3 x⌝ -∗ ⌜∀ x, v421 x = rowVec (rowBufDB m d L j) 4 x⌝ -∗ ⌜∀ x, v422 x = rowVec (rowBufDB m d L j) 5 x⌝ -∗ ⌜∀ x, v423 x = rowVec (rowBufDB m d L j) 6 x⌝ -∗ ⌜∀ x, v424 x = rowVec (rowBufDB m d L j) 7 x⌝ -∗ ⌜∀ x, v425 x = rowVec (rowBufDB m d L j) 8 x⌝ -∗ ⌜∀ x, v426 x = rowVec (rowBufDB m d L j) 9 x⌝ -∗ ⌜∀ x, v427 x = rowVec (rowBufDB m d L j) 10 x⌝ -∗ ⌜∀ x, v428 x = rowVec (rowBufDB m d L j) 11 x⌝ -∗ ⌜∀ x, v429 x = rowVec (rowBufDB m d L j) 12 x⌝
            -∗ idFlight d L cc0_scratch9 sSB (rowBufSB m d L j') (v1Row m d j')
            -∗ idFlight d L cc0_scratch10 sDB (rowBufDB m d L j') (v2Row m d j')
            -∗ (sTab.view.loc (thrV d L) ↦{fullShare} (clearedTab (countTab (rowBufDB m d L j)) (rowBufDB m d L j) 32 : Buf (Elt F) (sTab.view.loc (thrV d L))))
            -∗ (sCB.view.loc (thrV d L) ↦{fullShare} (tgtRow (rowBufSB m d L j) (rowBufDB m d L j) : Buf (Elt F) (sCB.view.loc (thrV d L))))
            -∗ wp frame (wpE (defs₀ (F := F)) 𝒱₀ (thrV d L) none) Set.univ (kont ⟨v419, hw42, v420, hw43, v421, hw44, v422, hw45, v423, hw46, v424, hw47, v425, hw48, v426, hw49, v427, hw50, v428, hw51, v429, hw52⟩) Q))
      ⊢ wp frame (wpE (defs₀ (F := F)) 𝒱₀ (thrV d L) none) Set.univ
          (atTile L (bchainProg (F := F)) v3 v4 kk arg18 v395 v404 hw27 v405 hw28 v406 hw29 v407 hw30 v408 hw31 >>= kont) Q := by
  iintro ⟨HT, HSB, HDB, Hs9, Hs10, Hn1, Hn2, HC, Hk⟩
  have eS := readAt_rowVec_SB (F := F) d L (rowBufSB m d L j)
  have eD := p15_readAt_rowVec_DB (F := F) d L (rowBufDB m d L j)
  unfold atTile bchainProg
  rw [Prog.bind_assoc]
  iapply (part14 (F := F) m d L hpre j _)
  iframe HSB HDB
  iintro ⟨HSB, HDB⟩
  dsimp only
  rw [Prog.bind_assoc]
  iapply (part15_first (F := F) m d L _ hpre kk hk0 j j' hj' C v4 arg18 v395
    v404 hw27 v405 hw28 v406 hw29 v407 hw30 v408 hw31 _ _ _ _ _ _ _ _ _ _ _ _ _ _ _ _ _ _ _ _
    h4 h404 h405 h406 h407 h408 (eS 5 80 rfl _) (eS 6 96 rfl _) (eS 7 112 rfl _) (eS 8 128 rfl _) (eS 9 144 rfl _) (eS 10 160 rfl _) (eS 11 176 rfl _) (eS 12 192 rfl _)
    (eD 0 0 rfl _) (eD 1 16 rfl _))
  iframe HT HSB HDB Hs9 Hs10 Hn1 Hn2 HC
  iintro %v429 %hw52 %v450 %w454 %h429 %h450 %h454 HT Hs9 Hs10 HC
  dsimp only
  iapply (bchain_tail (F := F) d L kont (rowBufSB m d L j) (rowBufDB m d L j) C v3 v4 h3 h4
    h404 h405 h406 h407 h408 (eS 5 80 rfl _) (eS 6 96 rfl _) (eS 7 112 rfl _) (eS 8 128 rfl _) (eS 9 144 rfl _) (eS 10 160 rfl _) (eS 11 176 rfl _) (eS 12 192 rfl _) (eD 0 0 rfl _) (eD 1 16 rfl _) (eD 2 32 rfl _) (eD 3 48 rfl _) (eD 4 64 rfl _) (eD 5 80 rfl _) (eD 6 96 rfl _) (eD 7 112 rfl _) (eD 8 128 rfl _) (eD 9 144 rfl _) (eD 10 160 rfl _) (eD 11 176 rfl _) h429 h450 h454)
  iframe HT HC
  iintro HT HC
  iapply Hk $$ %_ %_ %_ %_ %_ %_ %_ %_ %_ %_ %_ %_ %_ %_ %_ %_ %_ %_ %_ %_ %_ %_ %(eD 2 32 rfl _) %(eD 3 48 rfl _) %(eD 4 64 rfl _) %(eD 5 80 rfl _) %(eD 6 96 rfl _) %(eD 7 112 rfl _) %(eD 8 128 rfl _) %(eD 9 144 rfl _) %(eD 10 160 rfl _) %(eD 11 176 rfl _) %h429 Hs9 Hs10 HT HC

theorem bchain_last {α : Type} {Q : α → sProp 𝕄} (kont : RetB F → Prog (TpuEff nD τ sig (Elt F) Λ₀ (thrV d L).2) α)
    (hpre : PreOK m) (O : CellTallies nD τ sig (HIx 1)) (W : Waits sig (HIx 1))
    (kk : Fin k0_t2_loop.trips) (hk15 : kk.val = 15)
    (j jq : Fin 1024) (hjq : k0_off10 L kk = rowOff jq)
    (C : IVec SFreq 32) (v3 v4 : IVec S16 32) (h3 : ∀ x, v3 x = 0#32) (h4 : ∀ x, v4 x = 1#32) (arg18 v395 : BitVec 32)
    (v404 : Vec F S16 .i32) (hw27 : k0_chk27 v404) (v405 : Vec F S16 .i32) (hw28 : k0_chk28 v405) (v406 : Vec F S16 .i32) (hw29 : k0_chk29 v406) (v407 : Vec F S16 .i32) (hw30 : k0_chk30 v407) (v408 : Vec F S16 .i32) (hw31 : k0_chk31 v408)
    (h404 : ∀ x, v404 x = rowVec (rowBufSB m d L j) 0 x) (h405 : ∀ x, v405 x = rowVec (rowBufSB m d L j) 1 x) (h406 : ∀ x, v406 x = rowVec (rowBufSB m d L j) 2 x) (h407 : ∀ x, v407 x = rowVec (rowBufSB m d L j) 3 x) (h408 : ∀ x, v408 x = rowVec (rowBufSB m d L j) 4 x) :
    iprop(□ Transfers.MayWaits (thrV d L) (none : HIx 1) O ∗ owes (thrV d L) O W
        ∗ (sTab.view.loc (thrV d L) ↦{fullShare} (zeroTab d L : Buf (Elt F) (sTab.view.loc (thrV d L))))
        ∗ (sSB.view.loc (thrV d L) ↦{fullShare} rowBufSB m d L j)
        ∗ (sDB.view.loc (thrV d L) ↦{fullShare} rowBufDB m d L j)
        ∗ cntFlight m d L cc0_scratch12 sCB (C : Buf (Elt F) (sCB.view.loc (thrV d L))) jq
        ∗ (∀ (v419 : Vec F S16 .i32) (hw42 : k0_chk42 v419) (v420 : Vec F S16 .i32) (hw43 : k0_chk43 v420) (v421 : Vec F S16 .i32) (hw44 : k0_chk44 v421) (v422 : Vec F S16 .i32) (hw45 : k0_chk45 v422) (v423 : Vec F S16 .i32) (hw46 : k0_chk46 v423) (v424 : Vec F S16 .i32) (hw47 : k0_chk47 v424) (v425 : Vec F S16 .i32) (hw48 : k0_chk48 v425) (v426 : Vec F S16 .i32) (hw49 : k0_chk49 v426) (v427 : Vec F S16 .i32) (hw50 : k0_chk50 v427) (v428 : Vec F S16 .i32) (hw51 : k0_chk51 v428) (v429 : Vec F S16 .i32) (hw52 : k0_chk52 v429),
            ⌜∀ x, v419 x = rowVec (rowBufDB m d L j) 2 x⌝ -∗ ⌜∀ x, v420 x = rowVec (rowBufDB m d L j) 3 x⌝ -∗ ⌜∀ x, v421 x = rowVec (rowBufDB m d L j) 4 x⌝ -∗ ⌜∀ x, v422 x = rowVec (rowBufDB m d L j) 5 x⌝ -∗ ⌜∀ x, v423 x = rowVec (rowBufDB m d L j) 6 x⌝ -∗ ⌜∀ x, v424 x = rowVec (rowBufDB m d L j) 7 x⌝ -∗ ⌜∀ x, v425 x = rowVec (rowBufDB m d L j) 8 x⌝ -∗ ⌜∀ x, v426 x = rowVec (rowBufDB m d L j) 9 x⌝ -∗ ⌜∀ x, v427 x = rowVec (rowBufDB m d L j) 10 x⌝ -∗ ⌜∀ x, v428 x = rowVec (rowBufDB m d L j) 11 x⌝ -∗ ⌜∀ x, v429 x = rowVec (rowBufDB m d L j) 12 x⌝
            -∗ owes (thrV d L) O (insert (SemLoc.dma cc0_scratch12.sem, (default : HIx 1)) W)
            -∗ (sSB.view.loc (thrV d L) ↦{fullShare} rowBufSB m d L j)
            -∗ (sDB.view.loc (thrV d L) ↦{fullShare} rowBufDB m d L j)
            -∗ v3Row d jq (cnts m d)
            -∗ semVal (cellV d L cc0_scratch12) 0
            -∗ (sTab.view.loc (thrV d L) ↦{fullShare} (clearedTab (countTab (rowBufDB m d L j)) (rowBufDB m d L j) 32 : Buf (Elt F) (sTab.view.loc (thrV d L))))
            -∗ (sCB.view.loc (thrV d L) ↦{fullShare} (tgtRow (rowBufSB m d L j) (rowBufDB m d L j) : Buf (Elt F) (sCB.view.loc (thrV d L))))
            -∗ wp frame (wpE (defs₀ (F := F)) 𝒱₀ (thrV d L) none) Set.univ (kont ⟨v419, hw42, v420, hw43, v421, hw44, v422, hw45, v423, hw46, v424, hw47, v425, hw48, v426, hw49, v427, hw50, v428, hw51, v429, hw52⟩) Q))
      ⊢ wp frame (wpE (defs₀ (F := F)) 𝒱₀ (thrV d L) none) Set.univ
          (atTile L (bchainProg (F := F)) v3 v4 kk arg18 v395 v404 hw27 v405 hw28 v406 hw29 v407 hw30 v408 hw31 >>= kont) Q := by
  iintro ⟨#Hmw, HO, HT, HSB, HDB, Hf12, Hk⟩
  have eS := readAt_rowVec_SB (F := F) d L (rowBufSB m d L j)
  have eD := p15_readAt_rowVec_DB (F := F) d L (rowBufDB m d L j)
  unfold atTile bchainProg
  rw [Prog.bind_assoc]
  iapply (part14 (F := F) m d L hpre j _)
  iframe HSB HDB
  iintro ⟨HSB, HDB⟩
  dsimp only
  rw [Prog.bind_assoc]
  iapply (part15_last (F := F) m d L _ hpre O W kk hk15 j jq hjq C v4 arg18 v395
    v404 hw27 v405 hw28 v406 hw29 v407 hw30 v408 hw31 _ _ _ _ _ _ _ _ _ _ _ _ _ _ _ _ _ _ _ _
    h4 h404 h405 h406 h407 h408 (eS 5 80 rfl _) (eS 6 96 rfl _) (eS 7 112 rfl _) (eS 8 128 rfl _) (eS 9 144 rfl _) (eS 10 160 rfl _) (eS 11 176 rfl _) (eS 12 192 rfl _)
    (eD 0 0 rfl _) (eD 1 16 rfl _))
  iframe Hmw HO HT HDB Hf12
  iintro %v429 %hw52 %v450 %w454 %h429 %h450 %h454 HO HT HDB Hq Hs12 HC
  dsimp only
  iapply (bchain_tail (F := F) d L kont (rowBufSB m d L j) (rowBufDB m d L j) C v3 v4 h3 h4
    h404 h405 h406 h407 h408 (eS 5 80 rfl _) (eS 6 96 rfl _) (eS 7 112 rfl _) (eS 8 128 rfl _) (eS 9 144 rfl _) (eS 10 160 rfl _) (eS 11 176 rfl _) (eS 12 192 rfl _) (eD 0 0 rfl _) (eD 1 16 rfl _) (eD 2 32 rfl _) (eD 3 48 rfl _) (eD 4 64 rfl _) (eD 5 80 rfl _) (eD 6 96 rfl _) (eD 7 112 rfl _) (eD 8 128 rfl _) (eD 9 144 rfl _) (eD 10 160 rfl _) (eD 11 176 rfl _) h429 h450 h454)
  iframe HT HC
  iintro HT HC
  iapply Hk $$ %_ %_ %_ %_ %_ %_ %_ %_ %_ %_ %_ %_ %_ %_ %_ %_ %_ %_ %_ %_ %_ %_ %(eD 2 32 rfl _) %(eD 3 48 rfl _) %(eD 4 64 rfl _) %(eD 5 80 rfl _) %(eD 6 96 rfl _) %(eD 7 112 rfl _) %(eD 8 128 rfl _) %(eD 9 144 rfl _) %(eD 10 160 rfl _) %(eD 11 176 rfl _) %h429 HO HSB HDB Hq Hs12 HT HC

end Cert.KernelIdeal.Sc

end
-- ==== Proof.Sc.TripTop.lean ====
import proofs.«212098_g24275155157491_cont_8to1_80_30_alg».proof.Proof.Sc.TripLib

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

omit [FloatOps F] in
theorem off5_row (k : Fin k0_t2_loop.trips) (p' : Fin 16) (hp' : p'.val = k.val + 1) : k0_off5 L k = rowOff (jr L (r0 p')) := by
  rw [k0_off5_eq]; unfold rowOff; congr 1; simp only [rowIx, r0, hp', Fin.coe_cast]; omega

omit [FloatOps F] in
theorem off6_row (k : Fin k0_t2_loop.trips) (q : Fin 16) (hq : q.val + 1 = k.val) : k0_off6 L k = rowOff (jr L (r0 q)) := by
  rw [k0_off6_eq' L k (by omega)]; unfold rowOff; congr 1; simp only [rowIx, r0, Fin.coe_cast]; omega

omit [FloatOps F] in
theorem off7_row (k : Fin k0_t2_loop.trips) (p : Fin 16) (hp : p.val = k.val) : k0_off7 L k = rowOff (jr L (r0 p)) := by
  rw [k0_off7_eq]; unfold rowOff; congr 1; simp only [rowIx, r0, hp, Fin.coe_cast]

omit [FloatOps F] in
theorem off9_row (k : Fin k0_t2_loop.trips) (p' : Fin 16) (hp' : p'.val = k.val + 1) : k0_off9 L k = rowOff (jr L (r1 p')) := by
  rw [k0_off9_eq]; unfold rowOff; congr 1; simp only [rowIx, r1, hp', Fin.coe_cast]; omega

omit [FloatOps F] in
theorem off10_row (k : Fin k0_t2_loop.trips) (q : Fin 16) (hq : q.val + 1 = k.val) : k0_off10 L k = rowOff (jr L (r1 q)) := by
  rw [k0_off10_eq' L k (by omega)]; unfold rowOff; congr 1; simp only [rowIx, r1, Fin.coe_cast]; omega

omit [FloatOps F] in
theorem off11_row (k : Fin k0_t2_loop.trips) (p : Fin 16) (hp : p.val = k.val) : k0_off11 L k = rowOff (jr L (r1 p)) := by
  rw [k0_off11_eq]; unfold rowOff; congr 1; simp only [rowIx, r1, hp, Fin.coe_cast]; omega

/-- Inserting a key with index `none` keeps every member in `W` or with index `none`. -/
theorem waits_ins (s : SemLoc sig) {W W' : Waits sig (HIx 1)} (h : ∀ x ∈ W', x ∈ W ∨ x.2 = none) :
    ∀ x ∈ insert (s, (default : HIx 1)) W', x ∈ W ∨ x.2 = none := by
  intro x hx
  rcases Finset.mem_insert.1 hx with rfl | hx
  · exact Or.inr rfl
  · exact h x hx

/-- A key with index `none` may be dropped from the set the members are bounded by. -/
theorem waits_drop (s : SemLoc sig) {W W' : Waits sig (HIx 1)} (h : ∀ x ∈ W', x ∈ insert (s, (default : HIx 1)) W ∨ x.2 = none) :
    ∀ x ∈ W', x ∈ W ∨ x.2 = none := by
  intro x hx
  rcases h x hx with h | h
  · rcases Finset.mem_insert.1 h with rfl | h
    · exact Or.inr rfl
    · exact Or.inl h
  · exact Or.inr h

end Cert.KernelIdeal.Sc

end
-- ==== Proof.Sc.Tail.lean ====
import proofs.«212098_g24275155157491_cont_8to1_80_30_alg».proof.Proof.Sc.PartsD

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

abbrev tripProg (v2 : BitVec 32) (k : Fin k0_t2_loop.trips) : Prog (TpuEff nD τ sig (Elt F) Λ₀ (.scVector (cV L) (jV L))) Unit :=
  k0_t2_body L tV1 (Memref.isWhole_whole _) tV2 (Memref.isWhole_whole _) tV3 (Memref.isWhole_whole _)
    sTab (Memref.isWhole_whole _) sSA (Memref.isWhole_whole _) sDA (Memref.isWhole_whole _) sSB (Memref.isWhole_whole _) sDB (Memref.isWhole_whole _)
    sCA (Memref.isWhole_whole _) sCB (Memref.isWhole_whole _) cc0_scratch7 cc0_scratch8 cc0_scratch9 cc0_scratch10 cc0_scratch11 cc0_scratch12 v2 k ⟨⟩

abbrev tripTab : sProp 𝕄 := sTab.view.loc (thrV d L) ↦{fullShare} zeroTab d L
abbrev tripOwes (O : CellTallies nD τ sig (HIx 1)) (W : Waits sig (HIx 1)) : sProp 𝕄 :=
  iprop(∃ W', ⌜∀ x ∈ W', x ∈ W ∨ x.2 = none⌝ ∗ owes (thrV d L) O W')

/-- The long first part of a trip as a rule with any continuation: from `PRE` to row `j1`'s counts complete, with `FR` carried along. -/
def Part24 (v2 : BitVec 32) (k : Fin k0_t2_loop.trips) (j1 : Fin 1024) (PRE FR : sProp 𝕄) : Prop :=
  ∀ {α : Type} (kont : (Σ' (v419 : Vec F S16 .i32) (_ : k0_chk42 v419) (v420 : Vec F S16 .i32) (_ : k0_chk43 v420) (v421 : Vec F S16 .i32) (_ : k0_chk44 v421) (v422 : Vec F S16 .i32) (_ : k0_chk45 v422) (v423 : Vec F S16 .i32) (_ : k0_chk46 v423) (v424 : Vec F S16 .i32) (_ : k0_chk47 v424) (v425 : Vec F S16 .i32) (_ : k0_chk48 v425) (v426 : Vec F S16 .i32) (_ : k0_chk49 v426) (v427 : Vec F S16 .i32) (_ : k0_chk50 v427) (v428 : Vec F S16 .i32) (_ : k0_chk51 v428) (v429 : Vec F S16 .i32), k0_chk52 v429) → Prog (TpuEff nD τ sig (Elt F) Λ₀ (thrV d L).2) α) (Q' : α → sProp 𝕄),
      iprop(PRE ∗ (∀ (v419 : Vec F S16 .i32) (hw42 : k0_chk42 v419) (v420 : Vec F S16 .i32) (hw43 : k0_chk43 v420) (v421 : Vec F S16 .i32) (hw44 : k0_chk44 v421) (v422 : Vec F S16 .i32) (hw45 : k0_chk45 v422) (v423 : Vec F S16 .i32) (hw46 : k0_chk46 v423) (v424 : Vec F S16 .i32) (hw47 : k0_chk47 v424) (v425 : Vec F S16 .i32) (hw48 : k0_chk48 v425) (v426 : Vec F S16 .i32) (hw49 : k0_chk49 v426) (v427 : Vec F S16 .i32) (hw50 : k0_chk50 v427) (v428 : Vec F S16 .i32) (hw51 : k0_chk51 v428) (v429 : Vec F S16 .i32) (hw52 : k0_chk52 v429),
          ⌜∀ x, v419 x = rowVec (rowBufDB m d L j1) 2 x⌝ -∗ ⌜∀ x, v420 x = rowVec (rowBufDB m d L j1) 3 x⌝ -∗ ⌜∀ x, v421 x = rowVec (rowBufDB m d L j1) 4 x⌝ -∗ ⌜∀ x, v422 x = rowVec (rowBufDB m d L j1) 5 x⌝ -∗ ⌜∀ x, v423 x = rowVec (rowBufDB m d L j1) 6 x⌝ -∗ ⌜∀ x, v424 x = rowVec (rowBufDB m d L j1) 7 x⌝ -∗ ⌜∀ x, v425 x = rowVec (rowBufDB m d L j1) 8 x⌝ -∗ ⌜∀ x, v426 x = rowVec (rowBufDB m d L j1) 9 x⌝ -∗ ⌜∀ x, v427 x = rowVec (rowBufDB m d L j1) 10 x⌝ -∗ ⌜∀ x, v428 x = rowVec (rowBufDB m d L j1) 11 x⌝ -∗ ⌜∀ x, v429 x = rowVec (rowBufDB m d L j1) 12 x⌝
          -∗ ((sTab.view.loc (thrV d L) ↦{fullShare} (clearedTab (countTab (rowBufDB m d L j1)) (rowBufDB m d L j1) 32 : Buf (Elt F) (sTab.view.loc (thrV d L))))
              ∗ (sCB.view.loc (thrV d L) ↦{fullShare} (tgtRow (rowBufSB m d L j1) (rowBufDB m d L j1) : Buf (Elt F) (sCB.view.loc (thrV d L))))
              ∗ semVal (cellV d L cc0_scratch12) 0 ∗ (∃ f, v3Row d j1 f) ∗ FR)
          -∗ wp frame (wpE (defs₀ (F := F)) 𝒱₀ (thrV d L) none) Set.univ (kont ⟨v419, hw42, v420, hw43, v421, hw44, v422, hw45, v423, hw46, v424, hw47, v425, hw48, v426, hw49, v427, hw50, v428, hw51, v429, hw52⟩) Q'))
        ⊢ wp frame (wpE (defs₀ (F := F)) 𝒱₀ (thrV d L) none) Set.univ
            (k0_part24 L tV1 (Memref.isWhole_whole _) tV2 (Memref.isWhole_whole _) tV3 (Memref.isWhole_whole _)
            sTab (Memref.isWhole_whole _) sSA (Memref.isWhole_whole _) sDA (Memref.isWhole_whole _) sSB (Memref.isWhole_whole _) sDB (Memref.isWhole_whole _)
            sCA (Memref.isWhole_whole _) sCB (Memref.isWhole_whole _) cc0_scratch7 cc0_scratch8 cc0_scratch9 cc0_scratch10 cc0_scratch11 cc0_scratch12
              v2 k0_pay109 k0_pay110 0#32 1#32 k >>= kont) Q'

/-- After its long first part a trip clears the rest of row `j1`'s ids out of the table and starts the copy of the row's counts. -/
theorem trip_of_part24 (v2 : BitVec 32) (k : Fin k0_t2_loop.trips) (j1 : Fin 1024) (hj1 : k0_off11 L k = rowOff j1) (PRE FR : sProp 𝕄)
    (H24 : Part24 m d L v2 k j1 PRE FR) :
    PRE ⊢ wp frame (wpE (defs₀ (F := F)) 𝒱₀ (thrV d L) none) Set.univ (tripProg (F := F) L v2 k)
        fun _ => iprop((sTab.view.loc (thrV d L) ↦{fullShare} zeroTab d L)
          ∗ cntFlight m d L cc0_scratch12 sCB (tgtRow (rowBufSB m d L j1) (rowBufDB m d L j1)) j1 ∗ FR) := by
  unfold Part24 at H24
  unfold tripProg
  iintro HP
  unfold k0_t2_body
  iapply (H24 _ _)
  isplitl [HP]; · iexact HP
  iintro %v419 %hw42 %v420 %hw43 %v421 %hw44 %v422 %hw45 %v423 %hw46 %v424 %hw47 %v425 %hw48 %v426 %hw49 %v427 %hw50 %v428 %hw51 %v429 %hw52 %h419 %h420 %h421 %h422 %h423 %h424 %h425 %h426 %h427 %h428 %h429 ⟨HT, HC, Hs12, ⟨%f3, Hr3⟩, HFR⟩
  sl_respell []
  iapply (tab_sidx d L (clearedTab_step' (F := F) _ _ 2 32 48 rfl rfl v419 k0_pay109 _ h419 (fun _ => rfl) (fun _ => rfl) _)) $$ HT; iintro HT
  iapply (tab_sidx d L (clearedTab_step' (F := F) _ _ 3 48 64 rfl rfl v420 k0_pay109 _ h420 (fun _ => rfl) (fun _ => rfl) _)) $$ HT; iintro HT
  iapply (tab_sidx d L (clearedTab_step' (F := F) _ _ 4 64 80 rfl rfl v421 k0_pay109 _ h421 (fun _ => rfl) (fun _ => rfl) _)) $$ HT; iintro HT
  iapply (tab_sidx d L (clearedTab_step' (F := F) _ _ 5 80 96 rfl rfl v422 k0_pay109 _ h422 (fun _ => rfl) (fun _ => rfl) _)) $$ HT; iintro HT
  iapply (tab_sidx d L (clearedTab_step' (F := F) _ _ 6 96 112 rfl rfl v423 k0_pay109 _ h423 (fun _ => rfl) (fun _ => rfl) _)) $$ HT; iintro HT
  iapply (tab_sidx d L (clearedTab_step' (F := F) _ _ 7 112 128 rfl rfl v424 k0_pay109 _ h424 (fun _ => rfl) (fun _ => rfl) _)) $$ HT; iintro HT
  iapply (tab_sidx d L (clearedTab_step' (F := F) _ _ 8 128 144 rfl rfl v425 k0_pay109 _ h425 (fun _ => rfl) (fun _ => rfl) _)) $$ HT; iintro HT
  iapply (tab_sidx d L (clearedTab_step' (F := F) _ _ 9 144 160 rfl rfl v426 k0_pay109 _ h426 (fun _ => rfl) (fun _ => rfl) _)) $$ HT; iintro HT
  iapply (tab_sidx d L (clearedTab_step' (F := F) _ _ 10 160 176 rfl rfl v427 k0_pay109 _ h427 (fun _ => rfl) (fun _ => rfl) _)) $$ HT; iintro HT
  iapply (tab_sidx d L (clearedTab_step' (F := F) _ _ 11 176 192 rfl rfl v428 k0_pay109 _ h428 (fun _ => rfl) (fun _ => rfl) _)) $$ HT; iintro HT
  iapply (tab_sidx d L ((clearedTab_last (F := F) (rowBufDB m d L j1) v429 k0_pay109 _ h429 (fun _ => rfl) (fun _ => rfl) _).trans (rfl : _ = zeroTab (F := F) d L))) $$ HT; iintro HT
  ihave Hr3 := (Entails.of_eq (pts_rowM3 (F := F) d L (k0_off11 L k) (k0_off11_inb L k) j1 hj1 f3).symm) $$ Hr3
  sl_exec
  rw [landed_row (F := F) m d L j1 (k0_off11 L k) (k0_off11_inb L k) hj1 f3, pts_sCB_set, pts_sCB_rest]
  swap
  · intro p
    exact cnts_rowB m d L j1 p
  sl_step
  iframe HT
  isplitl [Hs12]; · iexact Hs12
  iexact HFR

end Cert.KernelIdeal.Sc

end
-- ==== Proof.Sc.ChainA1.lean ====
import proofs.«212098_g24275155157491_cont_8to1_80_30_alg».proof.Proof.Sc.TripLib
import proofs.«212098_g24275155157491_cont_8to1_80_30_alg».proof.Proof.Sc.Part3
import proofs.«212098_g24275155157491_cont_8to1_80_30_alg».proof.Proof.Sc.PartsA
import proofs.«212098_g24275155157491_cont_8to1_80_30_alg».proof.Proof.Sc.ChainB
import proofs.«212098_g24275155157491_cont_8to1_80_30_alg».proof.Proof.Sc.TripTop
import proofs.«212098_g24275155157491_cont_8to1_80_30_alg».proof.Proof.Sc.Tail

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

set_option maxHeartbeats 4000000 in
/-- The long first part of trip `k` on pair `p`, in the loop's three cases: the first trip, a middle trip, the last trip. -/
theorem part24_cases (hpre : PreOK m) (O : CellTallies nD τ sig (HIx 1)) (W : Waits sig (HIx 1)) (v2 : BitVec 32)
    (k : Fin k0_t2_loop.trips) (p : Fin 16) (hp : p.val = k.val) :
    (∀ p' : Fin 16, k.val = 0 → p'.val = 1 → Part24 m d L v2 k (jr L (r1 p))
      iprop(□ Transfers.MayWaits (thrV d L) (none : HIx 1) O ∗ tripTab d L ∗ idFl m d L p ∗ inRows m d L p' ∗ cntHeld d L ∗ outFree d L p ∗ owes (thrV d L) O W)
      iprop(idFl m d L p' ∗ inRows m d L p ∗ (∃ C, cntFlight m d L cc0_scratch11 sCA C (jr L (r0 p))) ∗ tripOwes d L O W)) ∧
    (∀ p' q : Fin 16, 0 < k.val → k.val + 1 < 16 → p'.val = k.val + 1 → q.val + 1 = k.val → Part24 m d L v2 k (jr L (r1 p))
      iprop(□ Transfers.MayWaits (thrV d L) (none : HIx 1) O ∗ tripTab d L ∗ idFl m d L p ∗ inRows m d L p' ∗ cntFl m d L q ∗ outFree d L p ∗ owes (thrV d L) O W)
      iprop(idFl m d L p' ∗ inRows m d L p ∗ outDone m d L q ∗ (∃ C, cntFlight m d L cc0_scratch11 sCA C (jr L (r0 p))) ∗ tripOwes d L O W)) ∧
    (∀ q : Fin 16, k.val = 15 → q.val = 14 → Part24 m d L v2 k (jr L (r1 p))
      iprop(□ Transfers.MayWaits (thrV d L) (none : HIx 1) O ∗ tripTab d L ∗ idFl m d L p ∗ cntFl m d L q ∗ outFree d L p ∗ owes (thrV d L) O W)
      iprop(idHeld d L ∗ inRows m d L p ∗ outDone m d L q ∗ (∃ C, cntFlight m d L cc0_scratch11 sCA C (jr L (r0 p))) ∗ tripOwes d L O W)) := by
  have h4 : ∀ x, (k0_pay110 : IVec S16 32) x = 1#32 := fun _ => rfl
  have h3 : ∀ x, (k0_pay109 : IVec S16 32) x = 0#32 := fun _ => rfl
  have e7 := off7_row L k p hp
  refine ⟨fun p' hk0 hp' => ?_, fun p' q hk0 hk15 hp' hq => ?_, fun q hk15 hq => ?_⟩
  all_goals intro α kont Q'
  on_goal 1 =>
    unfold idFl cntHeld outFree inRows tripTab
    iintro ⟨⟨#Hmw, Htab, ⟨Hf7, Hf8, Hf9, Hf10⟩, ⟨Hn1a, Hn2a, Hn1b, Hn2b⟩, ⟨⟨%CA, HsCA⟩, ⟨%CB, HsCB⟩, Hs11, Hs12⟩, ⟨⟨%fo0, Ho0⟩, ⟨%fo1, Ho1⟩⟩, HO⟩, Hk⟩
  on_goal 2 =>
    unfold idFl cntFl outFree inRows tripTab
    iintro ⟨⟨#Hmw, Htab, ⟨Hf7, Hf8, Hf9, Hf10⟩, ⟨Hn1a, Hn2a, Hn1b, Hn2b⟩, ⟨⟨%CA, Hf11⟩, ⟨%CB, Hf12⟩⟩, ⟨⟨%fo0, Ho0⟩, ⟨%fo1, Ho1⟩⟩, HO⟩, Hk⟩
  on_goal 3 =>
    unfold idFl cntFl outFree tripTab
    iintro ⟨⟨#Hmw, Htab, ⟨Hf7, Hf8, Hf9, Hf10⟩, ⟨⟨%CA, Hf11⟩, ⟨%CB, Hf12⟩⟩, ⟨⟨%fo0, Ho0⟩, ⟨%fo1, Ho1⟩⟩, HO⟩, Hk⟩
  all_goals
    rw [k0_part24_eq_skeleton]; unfold k0_part24_skel
    rw [Prog.bind_assoc]
    iapply (part2 (F := F) m d L hpre O W v2 0#32 1#32 k (jr L (r0 p)) _)
    iframe Hmw Hf7 Hf8 HO
    iintro ⟨HsSA, Hr1a, Hs7, HsDA, Hr2a, Hs8, HO⟩
    have hA := readAt_rowVec_SA d L (rowBufSA m d L (jr L (r0 p)))
    have h46 := hA 0 0 rfl inb_S208_S16_0
    have h47 := hA 1 16 rfl inb_S208_S16_16
    have h48 := hA 2 32 rfl inb_S208_S16_32
    have h49 := hA 3 48 rfl inb_S208_S16_48
    have h50 := hA 4 64 rfl inb_S208_S16_64
    have h51 := hA 5 80 rfl inb_S208_S16_80
    have h52 := hA 6 96 rfl inb_S208_S16_96
    have h53 := hA 7 112 rfl inb_S208_S16_112
    have h54 := hA 8 128 rfl inb_S208_S16_128
    have h55 := hA 9 144 rfl inb_S208_S16_144
    have h56 := hA 10 160 rfl inb_S208_S16_160
    have h57 := hA 11 176 rfl inb_S208_S16_176
    have h58 := hA 12 192 rfl inb_S208_S16_192
    have h59 := readAt_rowVec_DA d L (rowBufDA m d L (jr L (r0 p))) 0 0 rfl inb_S208_S16_0
    first | sl_respell [] | skip
    rw [Prog.bind_assoc]
  on_goal 1 =>
    iapply (part3_first (F := F) m d L _ hpre O _ k hk0 (jr L (r0 p)) (jr L (r0 p')) (off5_row L k p' (by omega)) k0_pay110 _ _ _ _ _ _ _ _ _ _ _ _ _ _ _ _ _ _ _ _ _ _ h4 h46 h47 h48 h49 h50 h51 h52 h53 h54 h55)
    iframe HO Htab HsSA Hs7 HsDA Hs8 Hn1a Hn2a
    iintro %v60 %hw15 %v61 %hw16 %v62 %hw17 %v63 %hw18 %v64 %hw19 %v65 %hw20 %v66 %hw21 %v67 %hw22 %v68 %hw23 %v69 %hw24 %v70 %hw25 %v71 %hw26 %hf3 Htab Hg7 Hg8 HO
  on_goal 2 =>
    iapply (part3_mid (F := F) m d L _ hpre O _ k hk0 hk15 (jr L (r0 p)) (jr L (r0 p')) (jr L (r0 q)) (off5_row L k p' hp') (off6_row L k q hq) k0_pay110 _ _ _ _ _ _ _ _ _ _ _ _ _ _ _ _ _ _ _ _ _ _ h4 h46 h47 h48 h49 h50 h51 h52 h53 h54 h55 CA)
    iframe Hmw HO Htab HsSA Hs7 HsDA Hs8 Hn1a Hn2a Hf11
    iintro %v60 %hw15 %v61 %hw16 %v62 %hw17 %v63 %hw18 %v64 %hw19 %v65 %hw20 %v66 %hw21 %v67 %hw22 %v68 %hw23 %v69 %hw24 %v70 %hw25 %v71 %hw26 %hf3 Htab Hg7 Hg8 Hd0 HsCA Hs11 HO
  on_goal 3 =>
    iapply (part3_last (F := F) m d L _ hpre O _ k hk15 (jr L (r0 p)) (jr L (r0 q)) (off6_row L k q (by omega)) k0_pay110 _ _ _ _ _ _ _ _ _ _ _ _ _ _ _ _ _ _ _ _ _ _ h4 h46 h47 h48 h49 h50 h51 h52 h53 h54 h55 CA)
    iframe Hmw HO Htab HsDA Hf11
    iintro %v60 %hw15 %v61 %hw16 %v62 %hw17 %v63 %hw18 %v64 %hw19 %v65 %hw20 %v66 %hw21 %v67 %hw22 %v68 %hw23 %v69 %hw24 %v70 %hw25 %v71 %hw26 %hf3 Htab HsDA Hd0 HsCA Hs11 HO
  all_goals
    obtain ⟨h60, h61, h62, h63, h64, h65, h66, h67, h68, h69, h70, h71⟩ := hf3
    icases HO with ⟨%W3, %hW3, HO⟩
    ihave HsCA := (Entails.of_eq (pts_sCA_none (F := F) d L (tgtRow (rowBufSA m d L (jr L (r0 p))) (rowBufDA m d L (jr L (r0 p)))) CA)) $$ HsCA
    first | sl_respell [] | skip
    rw [Prog.bind_assoc]
    iapply (part4 (F := F) d L _ _ _ _ _ _ _ _ _ _ _ _ _ _ _ _ _ _ _ _ _ _ _ h4 h46 h47 h48 h56 h57 h58 h59 h60 h61)
    iframe Htab HsCA
    iintro %ret4 %hret4 Htab HsCA
    first | sl_respell [] | skip
    rw [Prog.bind_assoc]
    iapply (part5 (F := F) d L _ _ _ _ _ _ _ _ _ _ _ _ _ _ _ _ _ h49 h50 h51 h62 h63 h64 hret4)
    iframe Htab HsCA
    iintro %ret5 %hret5 Htab HsCA
    first | sl_respell [] | skip
    rw [Prog.bind_assoc]
    iapply (part6 (F := F) d L _ _ _ _ _ _ _ _ _ _ _ _ _ _ _ _ _ h52 h53 h54 h65 h66 h67 hret5)
    iframe Htab HsCA
    iintro %ret6 %hret6 Htab HsCA
    first | sl_respell [] | skip
    rw [Prog.bind_assoc]
    iapply (part7 (F := F) d L _ _ _ _ _ _ _ _ _ _ _ _ _ _ _ _ _ h55 h56 h57 h68 h69 h70 hret6)
    iframe Htab HsCA
    iintro %ret7 %hret7 Htab HsCA
    first | sl_respell [] | skip
    rw [Prog.bind_assoc]
    iapply (part8 (F := F) d L _ _ _ _ _ _ _ _ _ _ _ _ _ _ _ _ _ _ _ _ _ _ _ _ _ _ _ _ _ _ _ _ _ _ _ _ _ _ _ _ _ _ _ _ _ _ _ _ _ _ _ _ _ _ _ _ _ _ _ h3 h4 h46 h47 h48 h49 h50 h51 h52 h53 h54 h55 h56 h57 h58 h59 h60 h61 h62 h63 h64 h65 h66 h67 h68 h69 h70 h71 hret7)
    iframe Htab HsCA
    iintro %ret8 %hret8 Htab HsCA
    first | sl_respell [] | skip
    rw [Prog.bind_assoc]
    iapply (part9 (F := F) d L _ _ _ _ _ _ _ _ _ _ _ _ _ _ _ _ _ _ h46 h47 h48 h49 h60 h61 h62 hret8)
    iframe Htab HsCA
    iintro %ret9 %hret9 Htab HsCA
    first | sl_respell [] | skip
    rw [Prog.bind_assoc]
    iapply (part10 (F := F) d L _ _ _ _ _ _ _ _ _ _ _ _ _ _ _ _ _ _ h49 h50 h51 h52 h63 h64 h65 hret9)
    iframe Htab HsCA
    iintro %ret10 %hret10 Htab HsCA
    first | sl_respell [] | skip
    rw [Prog.bind_assoc]
    iapply (part11 (F := F) d L _ _ _ _ _ _ _ _ _ _ _ _ _ _ _ _ _ _ h52 h53 h54 h55 h66 h67 h68 hret10)
    iframe Htab HsCA
    iintro %ret11 %hret11 Htab HsCA
    first | sl_respell [] | skip
    rw [Prog.bind_assoc]
    iapply (part12 (F := F) d L _ _ _ _ _ _ _ _ _ _ _ _ _ _ _ _ _ _ h55 h56 h57 h58 h69 h70 h71 hret11)
    iframe Htab HsCA
    iintro %ret12 %hret12 Htab HsCA
    first | sl_respell [] | skip
    ihave Ho0 := (Entails.of_eq (pts_rowM3 (F := F) d L (k0_off7 L k) (k0_off7_inb L k) (jr L (r0 p)) e7 fo0).symm) $$ Ho0
    rw [Prog.bind_assoc]
    iapply (part13 (F := F) m d L hpre O W3 _ k (jr L (r0 p)) (jr L (r1 p)) e7 (rowBufSA m d L (jr L (r0 p))) (rowBufDA m d L (jr L (r0 p))) CA fo0 rfl rfl k0_pay109 _ _ _ _ v60 hw15 v61 hw16 v62 hw17 v63 hw18 v64 hw19 v65 hw20 v66 hw21 v67 hw22 v68 hw23 v69 hw24 v70 hw25 v71 hw26 ret12 h3 h58 h59 h60 h61 h62 h63 h64 h65 h66 h67 h68 h69 h70 h71 hret12)
    iframe Hmw Htab HsCA Hs11 Ho0 Hf9 Hf10 HO
    iintro %v395 %v404 %hw27 %v405 %hw28 %v406 %hw29 %v407 %hw30 %v408 %hw31 %h395 %h404 %h405 %h406 %h407 %h408 Htab Hg11 HsSB Hr1b Hs9 HsDB Hr2b Hs10 HO
    first | sl_respell [] | skip
  · iapply (bchain_first (F := F) m d L kont hpre k hk0 (jr L (r1 p)) (jr L (r1 p')) (off9_row L k p' (by omega)) CB k0_pay109 k0_pay110 h3 h4 _ v395 v404 hw27 v405 hw28 v406 hw29 v407 hw30 v408 hw31 h404 h405 h406 h407 h408)
    iframe Htab HsSB HsDB Hs9 Hs10 Hn1b Hn2b HsCB
    iintro %v419 %hw42 %v420 %hw43 %v421 %hw44 %v422 %hw45 %v423 %hw46 %v424 %hw47 %v425 %hw48 %v426 %hw49 %v427 %hw50 %v428 %hw51 %v429 %hw52 %h419 %h420 %h421 %h422 %h423 %h424 %h425 %h426 %h427 %h428 %h429 Hg9 Hg10 Htab HsCB
    iapply Hk $$ %v419 %hw42 %v420 %hw43 %v421 %hw44 %v422 %hw45 %v423 %hw46 %v424 %hw47 %v425 %hw48 %v426 %hw49 %v427 %hw50 %v428 %hw51 %v429 %hw52 %h419 %h420 %h421 %h422 %h423 %h424 %h425 %h426 %h427 %h428 %h429 [Htab HsCB Hs12 Ho1 Hg7 Hg8 Hg9 Hg10 Hr1a Hr2a Hr1b Hr2b Hg11 HO]
    iframe Htab HsCB Hs12
    isplitl [Ho1]; · iexists fo1; iexact Ho1
    iframe Hg7 Hg8 Hg9 Hg10 Hr1a Hr2a Hr1b Hr2b
    isplitl [Hg11]; · iexists _; iexact Hg11
    iexists (insert (SemLoc.dma cc0_scratch10.sem, (default : HIx 1)) (insert (SemLoc.dma cc0_scratch9.sem, (default : HIx 1)) W3))
    isplitl []
    · ipureintro; exact waits_ins _ (waits_ins _ (waits_drop _ (waits_drop _ hW3)))
    iexact HO
  · iapply (bchain_mid (F := F) m d L _ hpre O (insert (SemLoc.dma cc0_scratch10.sem, (default : HIx 1)) (insert (SemLoc.dma cc0_scratch9.sem, (default : HIx 1)) W3)) k hk0 hk15 (jr L (r1 p)) (jr L (r1 p')) (jr L (r1 q)) (off9_row L k p' hp') (off10_row L k q hq) CB k0_pay109 k0_pay110 h3 h4 _ v395 v404 hw27 v405 hw28 v406 hw29 v407 hw30 v408 hw31 h404 h405 h406 h407 h408)
    iframe Hmw HO Htab HsSB HsDB Hs9 Hs10 Hn1b Hn2b Hf12
    iintro %v419 %hw42 %v420 %hw43 %v421 %hw44 %v422 %hw45 %v423 %hw46 %v424 %hw47 %v425 %hw48 %v426 %hw49 %v427 %hw50 %v428 %hw51 %v429 %hw52 %h419 %h420 %h421 %h422 %h423 %h424 %h425 %h426 %h427 %h428 %h429 HO Hg9 Hg10 Hd1 Hs12 Htab HsCB
    iapply Hk $$ %v419 %hw42 %v420 %hw43 %v421 %hw44 %v422 %hw45 %v423 %hw46 %v424 %hw47 %v425 %hw48 %v426 %hw49 %v427 %hw50 %v428 %hw51 %v429 %hw52 %h419 %h420 %h421 %h422 %h423 %h424 %h425 %h426 %h427 %h428 %h429 [Htab HsCB Hs12 Ho1 Hg7 Hg8 Hg9 Hg10 Hr1a Hr2a Hr1b Hr2b Hd0 Hd1 Hg11 HO]
    iframe Htab HsCB Hs12
    isplitl [Ho1]; · iexists fo1; iexact Ho1
    iframe Hg7 Hg8 Hg9 Hg10 Hr1a Hr2a Hr1b Hr2b
    unfold outDone
    iframe Hd0 Hd1
    isplitl [Hg11]; · iexists _; iexact Hg11
    iexists (insert (SemLoc.dma cc0_scratch12.sem, (default : HIx 1)) (insert (SemLoc.dma cc0_scratch10.sem, (default : HIx 1)) (insert (SemLoc.dma cc0_scratch9.sem, (default : HIx 1)) W3)))
    isplitl []
    · ipureintro; exact waits_ins _ (waits_ins _ (waits_ins _ (waits_drop _ (waits_drop _ hW3))))
    iexact HO
  · iapply (bchain_last (F := F) m d L kont hpre O _ k hk15 (jr L (r1 p)) (jr L (r1 q)) (off10_row L k q (by omega)) CB k0_pay109 k0_pay110 h3 h4 _ v395 v404 hw27 v405 hw28 v406 hw29 v407 hw30 v408 hw31 h404 h405 h406 h407 h408)
    iframe Hmw HO Htab HsSB HsDB Hf12
    iintro %v419 %hw42 %v420 %hw43 %v421 %hw44 %v422 %hw45 %v423 %hw46 %v424 %hw47 %v425 %hw48 %v426 %hw49 %v427 %hw50 %v428 %hw51 %v429 %hw52 %h419 %h420 %h421 %h422 %h423 %h424 %h425 %h426 %h427 %h428 %h429 HO HsSB HsDB Hd1 Hs12 Htab HsCB
    iapply Hk $$ %v419 %hw42 %v420 %hw43 %v421 %hw44 %v422 %hw45 %v423 %hw46 %v424 %hw47 %v425 %hw48 %v426 %hw49 %v427 %hw50 %v428 %hw51 %v429 %hw52 %h419 %h420 %h421 %h422 %h423 %h424 %h425 %h426 %h427 %h428 %h429 [Htab HsCB Hs12 Ho1 HsSA HsDA HsSB HsDB Hs7 Hs8 Hs9 Hs10 Hr1a Hr2a Hr1b Hr2b Hd0 Hd1 Hg11 HO]
    iframe Htab HsCB Hs12
    isplitl [Ho1]; · iexists fo1; iexact Ho1
    unfold idHeld outDone inRows
    isplitl [HsSA HsDA HsSB HsDB Hs7 Hs8 Hs9 Hs10]
    · isplitl [HsSA]; · iexists _; iexact HsSA
      isplitl [HsDA]; · iexists _; iexact HsDA
      isplitl [HsSB]; · iexists _; iexact HsSB
      isplitl [HsDB]; · iexists _; iexact HsDB
      iframe Hs7 Hs8 Hs9 Hs10
    iframe Hr1a Hr2a Hr1b Hr2b Hd0 Hd1
    isplitl [Hg11]; · iexists _; iexact Hg11
    iexists (insert (SemLoc.dma cc0_scratch12.sem, (default : HIx 1)) (insert (SemLoc.dma cc0_scratch10.sem, (default : HIx 1)) (insert (SemLoc.dma cc0_scratch9.sem, (default : HIx 1)) W3)))
    isplitl []
    · ipureintro; exact waits_ins _ (waits_ins _ (waits_ins _ (waits_drop _ (waits_drop _ hW3))))
    iexact HO

end Cert.KernelIdeal.Sc

end
-- ==== Proof.Sc.ChainA15.lean ====
import proofs.«212098_g24275155157491_cont_8to1_80_30_alg».proof.Proof.Sc.ChainA1
-- ==== Proof.Sc.Trip.lean ====
import proofs.«212098_g24275155157491_cont_8to1_80_30_alg».proof.Proof.Sc.ChainA15

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

theorem trip_mid (hpre : PreOK m) (O : CellTallies nD τ sig (HIx 1)) (W : Waits sig (HIx 1)) (v2 : BitVec 32)
    (k : Fin k0_t2_loop.trips) (hk0 : 0 < k.val) (hk15 : k.val + 1 < 16) (p p' q : Fin 16) (hp : p.val = k.val) (hp' : p'.val = k.val + 1) (hq : q.val + 1 = k.val) :
    iprop(□ Transfers.MayWaits (thrV d L) (none : HIx 1) O ∗ tripTab d L ∗ idFl m d L p ∗ inRows m d L p' ∗ cntFl m d L q ∗ outFree d L p ∗ owes (thrV d L) O W)
      ⊢ wp frame (wpE (defs₀ (F := F)) 𝒱₀ (thrV d L) none) Set.univ (tripProg (F := F) L v2 k)
          fun _ => iprop(tripTab d L ∗ idFl m d L p' ∗ inRows m d L p ∗ outDone m d L q ∗ cntFl m d L p ∗ tripOwes d L O W) := by
  refine (trip_of_part24 (F := F) m d L v2 k (jr L (r1 p)) (off11_row L k p hp) _ _ ((part24_cases m d L hpre O W v2 k p hp).2.1 p' q hk0 hk15 hp' hq)).trans (wp_mono frame _ _ fun _ => ?_)
  unfold cntFl tripTab
  iintro ⟨Htab, Hg12, Hid, Hrows, Hdone, Hg11, HO⟩
  iframe Htab Hid Hrows Hdone Hg11
  isplitl [Hg12]; · iexists _; iexact Hg12
  iexact HO

theorem trip_first (hpre : PreOK m) (O : CellTallies nD τ sig (HIx 1)) (W : Waits sig (HIx 1)) (v2 : BitVec 32)
    (k : Fin k0_t2_loop.trips) (hk0 : k.val = 0) (p p' : Fin 16) (hp : p.val = 0) (hp' : p'.val = 1) :
    iprop(□ Transfers.MayWaits (thrV d L) (none : HIx 1) O ∗ tripTab d L ∗ idFl m d L p ∗ inRows m d L p' ∗ cntHeld d L ∗ outFree d L p ∗ owes (thrV d L) O W)
      ⊢ wp frame (wpE (defs₀ (F := F)) 𝒱₀ (thrV d L) none) Set.univ (tripProg (F := F) L v2 k)
          fun _ => iprop(tripTab d L ∗ idFl m d L p' ∗ inRows m d L p ∗ cntFl m d L p ∗ tripOwes d L O W) := by
  have hpk : p.val = k.val := by omega
  refine (trip_of_part24 (F := F) m d L v2 k (jr L (r1 p)) (off11_row L k p hpk) _ _ ((part24_cases m d L hpre O W v2 k p hpk).1 p' hk0 hp')).trans (wp_mono frame _ _ fun _ => ?_)
  unfold cntFl tripTab
  iintro ⟨Htab, Hg12, Hid, Hrows, Hg11, HO⟩
  iframe Htab Hid Hrows Hg11
  isplitl [Hg12]; · iexists _; iexact Hg12
  iexact HO

theorem trip_last (hpre : PreOK m) (O : CellTallies nD τ sig (HIx 1)) (W : Waits sig (HIx 1)) (v2 : BitVec 32)
    (k : Fin k0_t2_loop.trips) (hk15 : k.val = 15) (p q : Fin 16) (hp : p.val = 15) (hq : q.val = 14) :
    iprop(□ Transfers.MayWaits (thrV d L) (none : HIx 1) O ∗ tripTab d L ∗ idFl m d L p ∗ cntFl m d L q ∗ outFree d L p ∗ owes (thrV d L) O W)
      ⊢ wp frame (wpE (defs₀ (F := F)) 𝒱₀ (thrV d L) none) Set.univ (tripProg (F := F) L v2 k)
          fun _ => iprop(tripTab d L ∗ idHeld d L ∗ inRows m d L p ∗ outDone m d L q ∗ cntFl m d L p ∗ tripOwes d L O W) := by
  have hpk : p.val = k.val := by omega
  refine (trip_of_part24 (F := F) m d L v2 k (jr L (r1 p)) (off11_row L k p hpk) _ _ ((part24_cases m d L hpre O W v2 k p hpk).2.2 q hk15 hq)).trans (wp_mono frame _ _ fun _ => ?_)
  unfold cntFl tripTab
  iintro ⟨Htab, Hg12, Hid, Hrows, Hdone, Hg11, HO⟩
  iframe Htab Hid Hrows Hdone Hg11
  isplitl [Hg12]; · iexists _; iexact Hg12
  iexact HO

end Cert.KernelIdeal.Sc

end
-- ==== Proof.Sc.Zero.lean ====
import proofs.«212098_g24275155157491_cont_8to1_80_30_alg».proof.Proof.Sc.AtTile

noncomputable section

namespace Cert.KernelIdeal.Sc

open Cert.KernelIdeal Cert.KernelIdeal.Gen Idealize.ShloMosaic Idealize.SL Idealize.SL.RA Idealize.SL.BI
open Idealize.ShloMosaic.SparseCore.Cfg (HIx)
open scoped Idealize.SL.BI
open Idealize.SL.BI.BIBase Idealize.SL.BI.Laws Idealize.SL.Sem
open Idealize.ShloMosaic.Tactic

variable {F : FTy → Type} [FloatOps F]

local notation "𝕄" => MT nD τ sig (HIx 1) (Elt F) ℕ UU ℕ

def zPiece (kk : Fin k0_t1_loop.trips) (u : Fin 8) : View.Piece (Elt F) S100096 .i32 :=
  ⟨Rect.unit (s := S100096) (k0_off1 kk (BitVec.ofNat 32 u.val)) S16.size (k0_off1_inb kk u), k0_pay109⟩

def zeroPieces (kk : Fin k0_t1_loop.trips) : List (View.Piece (Elt F) S100096 .i32) :=
  [zPiece kk 7, zPiece kk 6, zPiece kk 5, zPiece kk 4, zPiece kk 3, zPiece kk 2, zPiece kk 1, zPiece kk 0]

-- The list is the eight pieces, the last first.
theorem mem_zeroPieces (kk : Fin k0_t1_loop.trips) (p : View.Piece (Elt F) S100096 .i32) :
    p ∈ zeroPieces kk ↔ ∃ u : Fin 8, zPiece kk u = p := by
  rw [show zeroPieces (F := F) kk = List.ofFn fun u : Fin 8 => zPiece kk u.rev from rfl, List.mem_ofFn]
  exact ⟨fun ⟨u, h⟩ => ⟨_, h⟩, fun ⟨u, h⟩ => ⟨u.rev, by rw [Fin.rev_rev]; exact h⟩⟩

-- Piece `u` of trip `kk` is the sixteen words from word `128 kk + 16 u`.
theorem mem_zPiece (kk : Fin k0_t1_loop.trips) (u : Fin 8) (j : S100096.Idx) :
    j ∈ (zPiece (F := F) kk u).1.set ↔ 128 * kk.val + 16 * u.val ≤ (j 0).val ∧ (j 0).val < 128 * kk.val + 16 * u.val + 16 := by
  show j ∈ (Rect.unit (s := S100096) (k0_off1 kk (BitVec.ofNat 32 u.val)) S16.size (k0_off1_inb kk u)).set ↔ _
  rw [Rect.mem_set_unit, k0_off1_eq kk u, Fin.forall_fin_one]
  rfl

-- The eight pieces of trip `kk` are zero and cover words `128 kk` to `128 kk + 127`; below them the table is as before.
theorem zero_trip (kk : Fin k0_t1_loop.trips) (g : S100096.Idx → BitVec 32)
    (hg : ∀ j : S100096.Idx, (j 0).val < 128 * kk.val → g j = 0#32) (j : S100096.Idx) (hj : (j 0).val < 128 * (kk.val + 1)) :
    (sTab.view.writes (Elt F) g (zeroPieces kk) : S100096.Idx → BitVec 32) j = 0#32 := by
  show sTab.view.read (Elt F) (sTab.view.writes (Elt F) g (zeroPieces kk)) j = 0#32
  by_cases hlt : (j 0).val < 128 * kk.val
  · rw [View.read_writes_apply_of_forall_not_mem]
    · exact hg j hlt
    · intro p hp hm
      obtain ⟨u, rfl⟩ := (mem_zeroPieces kk p).1 hp
      have := (mem_zPiece kk u j).1 hm
      omega
  · refine View.read_writes_apply_of_pieces (Val := Elt F) sTab.view g (fun _ : S100096.Idx => (0#32 : BitVec 32)) (zeroPieces kk) ?_ j ?_
    · intro p hp x
      obtain ⟨u, rfl⟩ := (mem_zeroPieces kk p).1 hp
      rfl
    · have hu : ((j 0).val - 128 * kk.val) / 16 < 8 := by omega
      exact ⟨zPiece kk ⟨_, hu⟩, (mem_zeroPieces kk _).2 ⟨_, rfl⟩, (mem_zPiece kk _ j).2 ⟨by show 128 * kk.val + 16 * (((j 0).val - 128 * kk.val) / 16) ≤ _; omega, by show _ < 128 * kk.val + 16 * (((j 0).val - 128 * kk.val) / 16) + 16; omega⟩⟩

def zeroInv (d : Dev nD) (L : grid0.Coords) (k : Nat) (_ : Unit) : sProp 𝕄 :=
  iprop(∃ g : Buf (Elt F) ((thrV d L).loc cc0_scratch0), (sTab.view.loc (thrV d L) ↦{fullShare} g) ∗ ⌜∀ j : S100096.Idx, (j 0).val < 128 * k → g j = 0#32⌝)

-- Before trip `k` the first `128 k` words are zero; `782 · 128` is the table's length.
theorem zero_loop (d : Dev nD) (L : grid0.Coords) {α : Type} (k : Unit → Prog (TpuEff nD τ sig (Elt F) Λ₀ (.scVector (cV L) (jV L))) α) (Q : α → sProp 𝕄) (f : Buf (Elt F) ((thrV d L).loc cc0_scratch0)) :
  iprop(((sTab).view.loc (thrV d L) ↦{fullShare} f) ∗ (((sTab).view.loc (thrV d L) ↦{fullShare} zeroTab d L) -∗ wp frame (wpE (defs₀ (F := F)) 𝒱₀ (thrV d L) none) Set.univ (k ⟨⟩) Q))
    ⊢ wp frame (wpE (defs₀ (F := F)) 𝒱₀ (thrV d L) none) Set.univ
        (Scf.Loop.for k0_t1_loop k0_t1_ok ⟨⟩ (atTile L k0_t1_body) >>= k) Q := by
  unfold atTile
  iintro ⟨HT, Hk⟩
  sl_for (zeroInv (F := F) d L) $$ [HT]
  case region =>
    intro kk acc
    unfold zeroInv
    iintro ⟨%g, HT, %hg⟩
    sl_exec
    sl_step
    iexists _
    iframe HT
    ipureintro
    exact zero_trip kk g hg
  · unfold zeroInv
    iexists f
    iframe HT
    ipureintro
    exact fun j hj => absurd hj (by omega)
  iintro %acc HI
  unfold zeroInv
  icases HI with ⟨%g, HT, %hg⟩
  obtain rfl : g = zeroTab d L := funext fun (j : S100096.Idx) => hg j (by
    rw [show Scf.trips k0_t1_loop.lb k0_t1_loop.ub k0_t1_loop.st = 782 by decide]
    have hj : (j 0).val < 100096 := (j 0).isLt
    omega)
  sl_respell []
  iapply Hk
  iexact HT

end Cert.KernelIdeal.Sc

end
-- ==== Proof.Sc.Body.lean ====
import proofs.«212098_g24275155157491_cont_8to1_80_30_alg».proof.Proof.Sc.Trip
import proofs.«212098_g24275155157491_cont_8to1_80_30_alg».proof.Proof.Sc.Zero

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]
variable (d : Dev nD) (L : grid0.Coords)

theorem read_rowM1_SA (off : Fin 2 → ℕ) (h : ∀ a, off a + S1x208.size a ≤ S1024x208.size a) (j : Fin 1024) (hj : off = rowOff j) :
    (rowM1 off h).view.read (Elt F) (pad0 m d) = rowBufSA m d L j := by subst hj; rfl
theorem read_rowM2_DA (off : Fin 2 → ℕ) (h : ∀ a, off a + S1x208.size a ≤ S1024x208.size a) (j : Fin 1024) (hj : off = rowOff j) :
    (rowM2 off h).view.read (Elt F) (pad1 m d) = rowBufDA m d L j := by subst hj; rfl
theorem read_rowM1_SB (off : Fin 2 → ℕ) (h : ∀ a, off a + S1x208.size a ≤ S1024x208.size a) (j : Fin 1024) (hj : off = rowOff j) :
    (rowM1 off h).view.read (Elt F) (pad0 m d) = rowBufSB m d L j := by subst hj; rfl
theorem read_rowM2_DB (off : Fin 2 → ℕ) (h : ∀ a, off a + S1x208.size a ≤ S1024x208.size a) (j : Fin 1024) (hj : off = rowOff j) :
    (rowM2 off h).view.read (Elt F) (pad1 m d) = rowBufDB m d L j := by subst hj; rfl

section Take
open Idealize.SL.BI (bigSep_congr bigSep_univ_split bigSep_erase)

theorem k0_t2_trips : Scf.trips k0_t2_loop.lb k0_t2_loop.ub k0_t2_loop.st = 16 := by decide

theorem in_take (k : ℕ) (pk : Fin 16) (hpk : pk.val = k) (pn : Fin 16) (hpn : pn.val = k + 1) :
    (bigSep Finset.univ fun q => inSt m d L k q)
      ⊢ iprop(inRows m d L pn ∗ (inRows m d L pk -∗ bigSep Finset.univ fun q => inSt m d L (k + 1) q)) := by
  have hne : pk ≠ pn := fun e => by rw [e] at hpk; omega
  have hrest := bigSep_rest2 (fun q => inSt m d L k q) (fun q => inSt m d L (k + 1) q) pk pn (fun x hx hy => by
    have h1 : x.val ≠ k := fun e => hx (Fin.ext (e.trans hpk.symm))
    have h2 : x.val ≠ k + 1 := fun e => hy (Fin.ext (e.trans hpn.symm))
    show inSt m d L (k + 1) x = inSt m d L k x
    unfold inSt; rw [if_neg h1, if_neg h2])
  rw [bigSep_univ_split2 (fun q => inSt m d L k q) pk pn hne, bigSep_univ_split2 (fun q => inSt m d L (k + 1) q) pk pn hne, hrest]
  have e1 : inSt m d L k pk = iprop(emp) := by unfold inSt; rw [if_pos hpk]
  have e2 : inSt m d L k pn = inRows m d L pn := by unfold inSt; rw [if_neg (by omega)]
  have e3 : inSt m d L (k + 1) pk = inRows m d L pk := by unfold inSt; rw [if_neg (by omega)]
  have e4 : inSt m d L (k + 1) pn = iprop(emp) := by unfold inSt; rw [if_pos hpn]
  simp only [e1, e2, e3, e4]
  iintro ⟨He, Hn, HR⟩
  iframe Hn
  iintro Hk
  iframe Hk He HR

theorem out_take (k : ℕ) (hk : 0 < k) (pk pq : Fin 16) (hpk : pk.val = k) (hpq : pq.val + 1 = k) :
    (bigSep Finset.univ fun q => outSt m d L k q)
      ⊢ iprop(outFree d L pk ∗ (outDone m d L pq -∗ bigSep Finset.univ fun q => outSt m d L (k + 1) q)) := by
  have hne : pq ≠ pk := fun e => by rw [e] at hpq; omega
  have hrest := bigSep_rest2 (fun q => outSt m d L k q) (fun q => outSt m d L (k + 1) q) pq pk (fun x hx hy => by
    have h1 : x.val + 1 ≠ k := fun e => hx (Fin.ext (by omega))
    have h2 : x.val ≠ k := fun e => hy (Fin.ext (e.trans hpk.symm))
    show outSt m d L (k + 1) x = outSt m d L k x
    unfold outSt
    by_cases h3 : x.val + 1 < k
    · rw [if_pos h3, if_pos (by omega)]
    · rw [if_neg h3, if_neg h1, if_neg (by omega), if_neg (by omega)])
  rw [bigSep_univ_split2 (fun q => outSt m d L k q) pq pk hne, bigSep_univ_split2 (fun q => outSt m d L (k + 1) q) pq pk hne, hrest]
  have e1 : outSt m d L k pq = iprop(emp) := by unfold outSt; rw [if_neg (by omega), if_pos hpq]
  have e2 : outSt m d L k pk = outFree d L pk := by unfold outSt; rw [if_neg (by omega), if_neg (by omega)]
  have e3 : outSt m d L (k + 1) pq = outDone m d L pq := by unfold outSt; rw [if_pos (by omega)]
  have e4 : outSt m d L (k + 1) pk = iprop(emp) := by unfold outSt; rw [if_neg (by omega), if_pos (by omega)]
  simp only [e1, e2, e3, e4]
  iintro ⟨He, Hf, HR⟩
  iframe Hf
  iintro Hd
  iframe Hd He HR

theorem in_put_last (k : ℕ) (hk : k = 15) (pk : Fin 16) (hpk : pk.val = k) :
    iprop((bigSep Finset.univ fun q => inSt m d L k q) ∗ inRows m d L pk) ⊢ bigSep Finset.univ fun q => inSt m d L (k + 1) q := by
  subst hk
  exact in_step_last m d L pk hpk

end Take

def invB (O : CellTallies nD τ sig (HIx 1)) (W : Waits sig (HIx 1)) (k : ℕ) (u : PUnit) : sProp 𝕄 :=
  iprop(□ Transfers.MayWaits (thrV d L) (none : HIx 1) O ∗ invT m d L O W k u)

set_option maxHeartbeats 4000000 in

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileIn m d (cL L) (sL L)
        ∗ scopedBufs (thrV d L) ∗ scopedSems0 (thrV d L) ∗ owes (thrV d L) O W)
      ⊢ wp frame (wpE (defs₀ (F := F)) 𝒱₀ (thrV d L) none) Set.univ (kern (F := F) L)
          fun _ => iprop(tileOut m d (cL L) (sL L) ∗ scopedBufs (thrV d L) ∗ scopedSems0 (thrV d L)
            ∗ ∃ W', ⌜∀ p ∈ W', p ∈ W ∨ p.2 = none⌝ ∗ owes (thrV d L) O W') := by
  unfold kern
  simp only [cc0__sc_kernel_eq_skeleton]; unfold cc0__sc_kernel_skel
  simp only [k0_part25_eq_skeleton]; unfold k0_part25_skel
  rw [(K (F := F)).scopedBufs_V hF d (cV L) (jV L), SparseCore.Cfg.scopedSems0_V (Val := Elt F) d (cV L) (jV L), ownSems0_V, ownBufs_V]
  iintro ⟨#Hlv, -, Hin, ⟨⟨%f0, Hb0⟩, ⟨%f1, Hb1⟩, ⟨%f2, Hb2⟩, ⟨%f3, Hb3⟩, ⟨%f4, Hb4⟩, ⟨%f5, Hb5⟩, ⟨%f6, Hb6⟩, Hbufs⟩, ⟨Hs7, Hs8, Hs9, Hs10, Hs11, Hs12, Hsems⟩, HO⟩
  ihave Hmw := ((K (F := F)).mayWaits_none (thr := thrV d L) hO) $$ Hlv
  ihave Hin := (inv_start m d L) $$ Hin
  icases Hin with ⟨⟨Hr1a, Hr2a, Hr1b, Hr2b⟩, HinS, HoutS⟩
  ihave Hb0 := (Entails.of_eq (pts_sTab (F := F) d L f0)) $$ Hb0
  ihave Hb1 := (Entails.of_eq (pts_sSA (F := F) d L f1)) $$ Hb1
  ihave Hb2 := (Entails.of_eq (pts_sDA (F := F) d L f2)) $$ Hb2
  ihave Hb3 := (Entails.of_eq (pts_sSB (F := F) d L f3)) $$ Hb3
  ihave Hb4 := (Entails.of_eq (pts_sDB (F := F) d L f4)) $$ Hb4
  ihave Hb5 := (Entails.of_eq (pts_sCA (F := F) d L f5)) $$ Hb5
  ihave Hb6 := (Entails.of_eq (pts_sCB (F := F) d L f6)) $$ Hb6
  sl_exec
  rw [Prog.bind_assoc]
  iapply (zero_loop (F := F) d L _ _ f0)
  isplitl [Hb0]
  · iexact Hb0
  iintro Htab
  ihave Hr1a := (Entails.of_eq (pts_rowM1 (F := F) d L (k0_off2 L) (k0_off2_inb L) (jr L (r0 0)) (by rw [k0_off2_eq]; rfl) (pad0 m d)).symm) $$ Hr1a
  ihave Hr2a := (Entails.of_eq (pts_rowM2 (F := F) d L (k0_off2 L) (k0_off2_inb L) (jr L (r0 0)) (by rw [k0_off2_eq]; rfl) (pad1 m d)).symm) $$ Hr2a
  ihave Hr1b := (Entails.of_eq (pts_rowM1 (F := F) d L (k0_off3 L) (k0_off3_inb L) (jr L (r1 0)) (by rw [k0_off3_eq]; rfl) (pad0 m d)).symm) $$ Hr1b
  ihave Hr2b := (Entails.of_eq (pts_rowM2 (F := F) d L (k0_off3 L) (k0_off3_inb L) (jr L (r1 0)) (by rw [k0_off3_eq]; rfl) (pad1 m d)).symm) $$ Hr2b
  sl_exec
  have e7 : View.write (Elt F) sSA.view f1 (tile_body.sl.dma0 m d L) Finset.univ = rowBufSA m d L (jr L (r0 0)) := by
    unfold tile_body.sl.dma0
    exact (View.write_whole_univ (cc0_scratch1 : Ref sig .scVector) f1 _).trans (read_rowM1_SA m d L (k0_off2 L) (k0_off2_inb L) (jr L (r0 0)) (by rw [k0_off2_eq]; rfl))
  have e8 : View.write (Elt F) sDA.view f2 (tile_body.sl.dma0_1 m d L) Finset.univ = rowBufDA m d L (jr L (r0 0)) := by
    unfold tile_body.sl.dma0_1
    exact (View.write_whole_univ (cc0_scratch2 : Ref sig .scVector) f2 _).trans (read_rowM2_DA m d L (k0_off2 L) (k0_off2_inb L) (jr L (r0 0)) (by rw [k0_off2_eq]; rfl))
  have e9 : View.write (Elt F) sSB.view f3 (tile_body.sl.dma0_2 m d L) Finset.univ = rowBufSB m d L (jr L (r1 0)) := by
    unfold tile_body.sl.dma0_2
    exact (View.write_whole_univ (cc0_scratch3 : Ref sig .scVector) f3 _).trans (read_rowM1_SB m d L (k0_off3 L) (k0_off3_inb L) (jr L (r1 0)) (by rw [k0_off3_eq]; rfl))
  have e10 : View.write (Elt F) sDB.view f4 (tile_body.sl.dma0_3 m d L) Finset.univ = rowBufDB m d L (jr L (r1 0)) := by
    unfold tile_body.sl.dma0_3
    exact (View.write_whole_univ (cc0_scratch4 : Ref sig .scVector) f4 _).trans (read_rowM2_DB m d L (k0_off3 L) (k0_off3_inb L) (jr L (r1 0)) (by rw [k0_off3_eq]; rfl))
  rw [e7, e8, e9, e10]
  rw [pts_rowM1 (F := F) d L (k0_off2 L) (k0_off2_inb L) (jr L (r0 0)) (by rw [k0_off2_eq]; rfl) (pad0 m d),
    pts_rowM2 (F := F) d L (k0_off2 L) (k0_off2_inb L) (jr L (r0 0)) (by rw [k0_off2_eq]; rfl) (pad1 m d),
    pts_rowM1 (F := F) d L (k0_off3 L) (k0_off3_inb L) (jr L (r1 0)) (by rw [k0_off3_eq]; rfl) (pad0 m d),
    pts_rowM2 (F := F) d L (k0_off3 L) (k0_off3_inb L) (jr L (r1 0)) (by rw [k0_off3_eq]; rfl) (pad1 m d)]
  rw [Prog.bind_assoc]
  sl_for (invB m d L O W) $$ [Hmw Htab HinS HoutS Hs7 Hs8 Hs9 Hs10 Hs11 Hs12 Hb5 Hb6 HO]
  case region =>
    intro kk acc
    have hk : kk.val < 16 := lt_of_lt_of_eq kk.isLt k0_t2_trips
    unfold invB invT
    rcases Nat.eq_zero_or_pos kk.val with h0 | h0
    ·
      have ei : idSt m d L kk.val = idFl m d L 0 := by
        unfold idSt; rw [dif_pos hk]; exact congrArg (idFl m d L) (Fin.ext h0)
      have ec : cntSt m d L kk.val = cntHeld d L := by unfold cntSt; rw [dif_neg (by omega)]
      have ei' : idSt m d L (kk.val + 1) = idFl m d L 1 := by
        unfold idSt; rw [dif_pos (by omega)]; exact congrArg (idFl m d L) (Fin.ext (by show kk.val + 1 = 1; omega))
      have ec' : cntSt m d L (kk.val + 1) = cntFl m d L 0 := by
        unfold cntSt; rw [dif_pos ⟨by omega, by omega⟩]; exact congrArg (cntFl m d L) (Fin.ext (by show kk.val + 1 - 1 = 0; omega))
      rw [ei, ec, ei', ec', h0]
      iintro ⟨#Hmw, Htab, HinS, HoutS, Hid, Hcnt, %W', %hW', HO⟩
      ihave HinS := (in_take m d L 0 0 rfl 1 rfl) $$ HinS
      icases HinS with ⟨Hnext, HinK⟩
      ihave HoutS := (out_step_first m d L 0 rfl) $$ HoutS
      icases HoutS with ⟨Hfree, HoutS⟩
      sl_respell []
      iapply (wp_wand_r frame _ _)
      isplitl [Htab Hid Hnext Hcnt Hfree HO]
      · iapply (trip_first m d L hpre O W' (tile_body.sl.v2 L) kk h0 0 1 rfl rfl)
        iframe Hmw Htab Hid Hnext Hcnt Hfree HO
      · iintro %v ⟨Htab, Hid, Hrows, Hcnt, %W'', %hW'', HO⟩
        iframe Hmw Htab
        isplitl [HinK Hrows]; · iapply HinK; iexact Hrows
        iframe HoutS Hid Hcnt
        iexists W''; isplitr
        · ipureintro; exact fun x hx => (hW'' x hx).elim (hW' x) Or.inr
        iexact HO
    · rcases Nat.lt_or_ge (kk.val + 1) 16 with h15 | h15
      ·
        have ei : idSt m d L kk.val = idFl m d L ⟨kk.val, hk⟩ := by unfold idSt; rw [dif_pos hk]
        have ec : cntSt m d L kk.val = cntFl m d L ⟨kk.val - 1, by omega⟩ := by unfold cntSt; rw [dif_pos ⟨h0, by omega⟩]
        have ei' : idSt m d L (kk.val + 1) = idFl m d L ⟨kk.val + 1, h15⟩ := by unfold idSt; rw [dif_pos h15]
        have ec' : cntSt m d L (kk.val + 1) = cntFl m d L ⟨kk.val, hk⟩ := by
          unfold cntSt; rw [dif_pos ⟨by omega, by omega⟩]; exact congrArg (cntFl m d L) (Fin.ext (by show kk.val + 1 - 1 = kk.val; omega))
        rw [ei, ec, ei', ec']
        iintro ⟨#Hmw, Htab, HinS, HoutS, Hid, Hcnt, %W', %hW', HO⟩
        ihave HinS := (in_take m d L kk.val ⟨kk.val, hk⟩ rfl ⟨kk.val + 1, h15⟩ rfl) $$ HinS
        icases HinS with ⟨Hnext, HinK⟩
        ihave HoutS := (out_take m d L kk.val h0 ⟨kk.val, hk⟩ ⟨kk.val - 1, by omega⟩ rfl (by show kk.val - 1 + 1 = kk.val; omega)) $$ HoutS
        icases HoutS with ⟨Hfree, HoutK⟩
        sl_respell []
        iapply (wp_wand_r frame _ _)
        isplitl [Htab Hid Hnext Hcnt Hfree HO]
        · iapply (trip_mid m d L hpre O W' (tile_body.sl.v2 L) kk h0 h15 ⟨kk.val, hk⟩ ⟨kk.val + 1, h15⟩ ⟨kk.val - 1, by omega⟩ rfl rfl
            (by show kk.val - 1 + 1 = kk.val; omega))
          iframe Hmw Htab Hid Hnext Hcnt Hfree HO
        · iintro %v ⟨Htab, Hid, Hrows, Hdone, Hcnt, %W'', %hW'', HO⟩
          iframe Hmw Htab
          isplitl [HinK Hrows]; · iapply HinK; iexact Hrows
          isplitl [HoutK Hdone]; · iapply HoutK; iexact Hdone
          iframe Hid Hcnt
          iexists W''; isplitr
          · ipureintro; exact fun x hx => (hW'' x hx).elim (hW' x) Or.inr
          iexact HO
      ·
        have h15' : kk.val = 15 := by omega
        have ei : idSt m d L kk.val = idFl m d L ⟨kk.val, hk⟩ := by unfold idSt; rw [dif_pos hk]
        have ec : cntSt m d L kk.val = cntFl m d L ⟨kk.val - 1, by omega⟩ := by unfold cntSt; rw [dif_pos ⟨h0, by omega⟩]
        have ei' : idSt m d L (kk.val + 1) = idHeld d L := by unfold idSt; rw [dif_neg (by omega)]
        have ec' : cntSt m d L (kk.val + 1) = cntFl m d L ⟨kk.val, hk⟩ := by
          unfold cntSt; rw [dif_pos ⟨by omega, by omega⟩]; exact congrArg (cntFl m d L) (Fin.ext (by show kk.val + 1 - 1 = kk.val; omega))
        rw [ei, ec, ei', ec']
        iintro ⟨#Hmw, Htab, HinS, HoutS, Hid, Hcnt, %W', %hW', HO⟩
        ihave HoutS := (out_take m d L kk.val h0 ⟨kk.val, hk⟩ ⟨kk.val - 1, by omega⟩ rfl (by show kk.val - 1 + 1 = kk.val; omega)) $$ HoutS
        icases HoutS with ⟨Hfree, HoutK⟩
        sl_respell []
        iapply (wp_wand_r frame _ _)
        isplitl [Htab Hid Hcnt Hfree HO]
        · iapply (trip_last m d L hpre O W' (tile_body.sl.v2 L) kk h15' ⟨kk.val, hk⟩ ⟨kk.val - 1, by omega⟩ h15' (by show kk.val - 1 = 14; omega))
          iframe Hmw Htab Hid Hcnt Hfree HO
        · iintro %v ⟨Htab, Hid, Hrows, Hdone, Hcnt, %W'', %hW'', HO⟩
          iframe Hmw Htab
          isplitl [HinS Hrows]
          · iapply (in_put_last m d L kk.val h15' ⟨kk.val, hk⟩ rfl)
            iframe HinS Hrows
          isplitl [HoutK Hdone]; · iapply HoutK; iexact Hdone
          iframe Hid Hcnt
          iexists W''; isplitr
          · ipureintro; exact fun x hx => (hW'' x hx).elim (hW' x) Or.inr
          iexact HO
  · unfold invB invT idSt cntSt
    rw [dif_pos (show (0 : ℕ) < 16 by omega), dif_neg (show ¬ ((0 : ℕ) < 0 ∧ 0 ≤ 16) by omega)]
    unfold idFl cntHeld
    iframe Hmw Htab HinS HoutS
    isplitl [Hs7 Hs8 Hs9 Hs10]
    · isplitl [Hs7]; · iexact Hs7
      isplitl [Hs8]; · iexact Hs8
      isplitl [Hs9]; · iexact Hs9
      iexact Hs10
    isplitl [Hs11 Hs12 Hb5 Hb6]
    · isplitl [Hb5]; · iexists f5; iexact Hb5
      isplitl [Hb6]; · iexists f6; iexact Hb6
      iframe Hs11 Hs12
    iexists W; isplitr
    · ipureintro; exact fun p hp => Or.inl hp
    iexact HO
  iintro %acc HI
  rw [k0_t2_trips]
  unfold invB invT idSt cntSt
  rw [dif_neg (show ¬ (16 : ℕ) < 16 by omega), dif_pos (show (0 : ℕ) < 16 ∧ 16 ≤ 16 by omega)]
  unfold idHeld cntFl
  icases HI with ⟨-, Htab, HinS, HoutS, ⟨⟨%g1, Hb1⟩, ⟨%g2, Hb2⟩, ⟨%g3, Hb3⟩, ⟨%g4, Hb4⟩, Hs7, Hs8, Hs9, Hs10⟩, ⟨⟨%C1, Hf11⟩, ⟨%C2, Hf12⟩⟩, %W', %hW', HO⟩
  sl_respell []
  sl_exec
  sl_step
  isplitl [HinS HoutS Hf11_dst Hf12_dst]
  · iapply (inv_end m d L ⟨16 - 1, by omega⟩ rfl)
    isplitl [HinS]; · iexact HinS
    isplitl [HoutS]; · iexact HoutS
    isplitl [Hf11_dst]; · iexact Hf11_dst
    iexact Hf12_dst
  isplitl [Htab Hb1 Hb2 Hb3 Hb4 Hf11_src Hf12_src Hbufs]
  · isplitl [Htab]; · iexists _; iexact Htab
    isplitl [Hb1]; · iexists _; iexact Hb1
    isplitl [Hb2]; · iexists _; iexact Hb2
    isplitl [Hb3]; · iexists _; iexact Hb3
    isplitl [Hb4]; · iexists _; iexact Hb4
    isplitl [Hf11_src]; · iexists _; iexact Hf11_src
    isplitl [Hf12_src]; · iexists _; iexact Hf12_src
    iexact Hbufs
  isplitl [Hs7 Hs8 Hs9 Hs10 Hf11 Hf12 Hsems]
  · isplitl [Hs7]; · iexact Hs7
    isplitl [Hs8]; · iexact Hs8
    isplitl [Hs9]; · iexact Hs9
    isplitl [Hs10]; · iexact Hs10
    isplitl [Hf11]; · iexact Hf11
    isplitl [Hf12]; · iexact Hf12
    iexact Hsems
  iexists _; isplitr
  rotate_left
  · iexact HO
  · ipureintro
    intro p hp
    rcases Finset.mem_insert.1 hp with rfl | hp
    · exact Or.inr rfl
    rcases Finset.mem_insert.1 hp with rfl | hp
    · exact Or.inr rfl
    exact hW' p hp

end Cert.KernelIdeal.Sc

end
-- ==== Proof.Sc.Obl.lean ====
import proofs.«212098_g24275155157491_cont_8to1_80_30_alg».proof.Proof.Sc.Split
import proofs.«212098_g24275155157491_cont_8to1_80_30_alg».proof.Proof.Sc.Body

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => kern (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxHeartbeats 4000000 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.KernelIdeal.Sc

end
-- ==== Proof.HostValue.lean ====
import proofs.«212098_g24275155157491_cont_8to1_80_30_alg».proof.Proof.Gen.KernelIdeal
import proofs.«212098_g24275155157491_cont_8to1_80_30_alg».proof.Proof.Spec
import Idealize.ShloMosaic.Lib.Pipeline.Value
import Idealize.ShloMosaic.Lib.ValueIdx

namespace Cert.KernelIdeal.HostValue

open Idealize.ShloMosaic Idealize.ShloMosaic.ValueIdx Cert.KernelIdeal Cert.KernelIdeal.Gen

-- Below column 200 the concatenation reads the list, from column 200 on the block of the word 100000.
theorem concat_padded (hb : S_.BroadcastsInDim S1024x8 (![] : Fin 0 → Fin S1024x8.rank))
    (hc : Shape.Concatenates [S1024x200, S1024x8] S1024x208 1) (x : IVec S1024x200 32) :
    concatenate S1024x208 1
        [⟨S1024x200, x⟩, ⟨S1024x8, broadcastInDim S1024x8 ![] hb (constantI S_ 32 100000#32)⟩] hc
      = Cert.Spec.padded x := by
  funext j
  unfold Cert.Spec.padded
  by_cases h : (j 1).val < 200
  · rw [dif_pos h]
    exact concatenate_pair_apply_left 1 _ _ hc j rfl (ix2 (j 0) ⟨(j 1).val, h⟩) (Fin.forall_fin_two.2 ⟨rfl, rfl⟩)
  · rw [dif_neg h]
    exact concatenate_pair_apply_right 1 _ _ hc j rfl rfl
      (ix2 (j 0) ⟨(j 1).val - 200, by have := idx2_lt1 j; omega⟩) (Fin.forall_fin_two.2 ⟨fun _ => rfl, fun hb' => absurd rfl hb'⟩)
      (show (j 1).val - 200 + 200 = (j 1).val by omega)

end Cert.KernelIdeal.HostValue
-- ==== Proof.Tc.Region.lean ====
import proofs.«212098_g24275155157491_cont_8to1_80_30_alg».proof.Proof.Tc.Out
import proofs.«212098_g24275155157491_cont_8to1_80_30_alg».proof.Proof.Sc.Common
import proofs.«212098_g24275155157491_cont_8to1_80_30_alg».proof.Proof.Gen.KernelIdeal.Launch
import Idealize.ShloMosaic.Lib.Pipeline.Regions
import Idealize.ShloMosaic.Lib.Pipeline.Value

noncomputable section

namespace Cert.KernelIdeal.Tc

open Idealize.ShloMosaic Idealize.ShloMosaic.TcCoe Idealize.ShloMosaic.ValueIdx
open Idealize.ShloMosaic.SparseCore.Cfg (HIx)
open Idealize.SL Idealize.SL.RA
open Idealize.SL.BI (sProp bigSep)
open scoped Idealize.SL.BI
open Idealize.SL.BI.BIBase Idealize.SL.BI.Laws Idealize.SL.Sem Idealize.SL.ProofMode
open Idealize.ShloMosaic.Rounds
open Cert.KernelIdeal Cert.KernelIdeal.Gen Cert.KernelIdeal.Sc

variable {F : FTy → Type} [FloatOps F]

local notation "𝕄" => MT nD τ sig (HIx 1) (Elt F) ℕ UU ℕ

def tt (t : Fin cfg1.N) : Fin 2 := ⟨t.val, Gen.N_1 ▸ (t.isLt : t.val < grid1.N)⟩

theorem idx0 (t : Fin cfg1.N) : win1_0.index t = ![0, 0, t.val] := by
  rcases Gen.fin_N1 t with rfl | rfl <;> rfl
theorem idx5 (t : Fin cfg1.N) : win1_5.index t = ![0, 0, t.val] := by
  rcases Gen.fin_N1 t with rfl | rfl <;> rfl
theorem idx1 (t : Fin cfg1.N) : win1_1.index t = ![0, 0] := by
  rcases Gen.fin_N1 t with rfl | rfl <;> rfl
theorem idx3 (t : Fin cfg1.N) : win1_3.index t = ![0, 0] := by
  rcases Gen.fin_N1 t with rfl | rfl <;> rfl

theorem read_blk0 (t : Fin cfg1.N) (x5 : Vec F S4x208x1024 .i32) :
    (win1_0.blk t).view.read (Elt F) x5 = blk x5 (tt t) := by
  funext y
  rw [View.read_apply]
  show x5 ((win1_0.rect t).emb y) = x5 _
  congr 1
  funext a
  apply Fin.ext
  rw [Pipeline.Window.rect_emb_val, idx0 t]
  match a with
  | ⟨0, _⟩ => show 0 * 4 + (y 0).val = (y 0).val; omega
  | ⟨1, _⟩ => show 0 * 208 + (y 1).val = (y 1).val; omega
  | ⟨2, _⟩ => show t.val * 512 + (y 2).val = 512 * t.val + (y 2).val; omega

theorem read_blk1 (t : Fin cfg1.N) (w1 : Vec F S16x1 .f32) : (win1_1.blk t).view.read (Elt F) w1 = w1 := by
  funext y
  rw [View.read_apply]
  show w1 ((win1_1.rect t).emb y) = w1 y
  congr 1
  funext a
  apply Fin.ext
  rw [Pipeline.Window.rect_emb_val, idx1 t]
  match a with
  | ⟨0, _⟩ => show 0 * 16 + (y 0).val = (y 0).val; omega
  | ⟨1, _⟩ => show 0 * 1 + (y 1).val = (y 1).val; omega
theorem read_blk3 (t : Fin cfg1.N) (w2 : Vec F S16x16 .f32) : (win1_3.blk t).view.read (Elt F) w2 = w2 := by
  funext y
  rw [View.read_apply]
  show w2 ((win1_3.rect t).emb y) = w2 y
  congr 1
  funext a
  apply Fin.ext
  rw [Pipeline.Window.rect_emb_val, idx3 t]
  match a with
  | ⟨0, _⟩ => show 0 * 16 + (y 0).val = (y 0).val; omega
  | ⟨1, _⟩ => show 0 * 16 + (y 1).val = (y 1).val; omega
theorem piece_congr3 {X X' : Vec F S4x208x512 .i32} (hX : X = X') (w1 b1 : Vec F S16x1 .f32) (w2 : Vec F S16x16 .f32) (b2 : Vec F S16x1 .f32)
    (qa qb : Fin 4) {l l' : Fin 200} (h : l = l') {y y' : S1x16x512.Idx} (hy : y = y') :
    piece X w1 b1 w2 b2 qa qb l y = piece X' w1 b1 w2 b2 qa qb l' y' := by subst hX; subst h; subst hy; rfl

theorem read_blk5 (qa qb : Fin 4) (t : Fin cfg1.N) (x5 : Vec F S4x208x1024 .i32) (w1 b1 : Vec F S16x1 .f32) (w2 : Vec F S16x16 .f32) (b2 : Vec F S16x1 .f32) :
    (win1_5.blk t).view.read (Elt F) (tcOut qa qb x5 w1 b1 w2 b2) = outBlk (blk x5 (tt t)) w1 b1 w2 b2 qa qb := by
  funext y
  rw [View.read_apply]
  show tcOut qa qb x5 w1 b1 w2 b2 ((win1_5.rect t).emb y) = outBlk (blk x5 (tt t)) w1 b1 w2 b2 qa qb y
  have hv : ∀ a, (((win1_5.rect t).emb y) a).val = win1_5.index t a * win1_5.size a + (y a).val :=
    fun a => Pipeline.Window.rect_emb_val _ t y a
  have h0 : (((win1_5.rect t).emb y) 0).val = (y 0).val := by
    rw [hv, idx5 t]; show 0 * 200 + _ = _; omega
  have h1 : (((win1_5.rect t).emb y) 1).val = (y 1).val := by
    rw [hv, idx5 t]; show 0 * 16 + _ = _; omega
  have h2 : (((win1_5.rect t).emb y) 2).val = 512 * t.val + (y 2).val := by
    rw [hv, idx5 t]; show t.val * 512 + _ = _; omega
  have hy2 : (y 2).val < 512 := (y 2).isLt
  have ht : t.val < 2 := (tt t).isLt
  unfold tcOut outBlk
  refine piece_congr3 (congrArg (blk x5) (Fin.ext ?_)) w1 b1 w2 b2 qa qb (Fin.ext h0) (funext fun a => ?_)
  · show (((win1_5.rect t).emb y) 2).val / 512 = t.val
    rw [h2]; omega
  · match a with
    | ⟨0, _⟩ => rfl
    | ⟨1, _⟩ => exact Fin.ext h1
    | ⟨2, _⟩ => exact Fin.ext (by show (((win1_5.rect t).emb y) 2).val % 512 = (y 2).val; rw [h2]; omega)

section Data

variable (O : CellTallies nD τ sig (HIx 1)) (W₀ : Waits sig (HIx 1))
  (x5 : Vec F S4x208x1024 .i32) (w1 b1 : Vec F S16x1 .f32) (w2 : Vec F S16x16 .f32) (b2 : Vec F S16x1 .f32)
  (f0 f1 : Vec F S200x16x1024 .f32)

def dat (c : Dev nD) : Pipeline.Dat τ (Elt F) (HIx 1) ℕ UU ℕ cfg1 c where
  A := fun
    | 0 => x5 | 1 => w1 | 2 => b1 | 3 => w2 | 4 => b2 | 5 => f0 | 6 => f1
    | ⟨_ + 7, h⟩ => absurd h (Nat.not_lt.2 (Nat.le_add_left _ _))
  after := fun w t => match w with
    | 0 => (win1_0.blk t).view.read (Elt F) x5
    | 1 => (win1_1.blk t).view.read (Elt F) w1
    | 2 => (win1_2.blk t).view.read (Elt F) b1
    | 3 => (win1_3.blk t).view.read (Elt F) w2
    | 4 => (win1_4.blk t).view.read (Elt F) b2
    | 5 => (win1_5.blk t).view.read (Elt F) (tcOut 0 1 x5 w1 b1 w2 b2)
    | 6 => (win1_6.blk t).view.read (Elt F) (tcOut 2 3 x5 w1 b1 w2 b2)
    | ⟨_ + 7, h⟩ => absurd h (Nat.not_lt.2 (Nat.le_add_left _ _))
  Φ := fun _ => Pipeline.scopedRest spec1 c
  q := fun _ => fullShare
  owed := fun _ => O
  recorded := fun _ => ↑W₀

theorem body_obl (c : Dev nD) :
    Pipeline.BodyObligation (dat O W₀ x5 w1 b1 w2 b2 f0 f1 c) (defs₀ (F := F)) 𝒱₀ none Set.univ := by
  intro t
  set D := dat O W₀ x5 w1 b1 w2 b2 f0 f1 c
  rw [Gen.bigSep_W1, Gen.bigSep_W1]
  have hb0 : ∀ d, D.before 0 t d = blk x5 (tt t) := fun d =>
    (Pipeline.Dat.before_in_eq_fetched D 0 rfl (fun _ => rfl) (fun _ _ _ => rfl) (fun _ => rfl) t d).trans (read_blk0 t x5)
  have hb1 : ∀ d, D.before 1 t d = w1 := fun d =>
    (Pipeline.Dat.before_in_eq_fetched D 1 rfl (fun _ => rfl) (fun _ _ _ => rfl) (fun _ => rfl) t d).trans (read_blk1 t w1)
  have hb2 : ∀ d, D.before 2 t d = b1 := fun d =>
    (Pipeline.Dat.before_in_eq_fetched D 2 rfl (fun _ => rfl) (fun _ _ _ => rfl) (fun _ => rfl) t d).trans (read_blk1 t b1)
  have hb3 : ∀ d, D.before 3 t d = w2 := fun d =>
    (Pipeline.Dat.before_in_eq_fetched D 3 rfl (fun _ => rfl) (fun _ _ _ => rfl) (fun _ => rfl) t d).trans (read_blk3 t w2)
  have hb4 : ∀ d, D.before 4 t d = b2 := fun d =>
    (Pipeline.Dat.before_in_eq_fetched D 4 rfl (fun _ => rfl) (fun _ _ _ => rfl) (fun _ => rfl) t d).trans (read_blk1 t b2)
  have ha0 : D.after 0 t = blk x5 (tt t) := read_blk0 t x5
  have ha1 : D.after 1 t = w1 := read_blk1 t w1
  have ha2 : D.after 2 t = b1 := read_blk1 t b1
  have ha3 : D.after 3 t = w2 := read_blk3 t w2
  have ha4 : D.after 4 t = b2 := read_blk1 t b2
  have ha5 : D.after 5 t = outBlk (blk x5 (tt t)) w1 b1 w2 b2 0 1 := read_blk5 0 1 t x5 w1 b1 w2 b2
  have ha6 : D.after 6 t = outBlk (blk x5 (tt t)) w1 b1 w2 b2 2 3 := read_blk5 2 3 t x5 w1 b1 w2 b2
  have hΦ : ∀ u, D.Φ u = Pipeline.scopedRest spec1 c := fun _ => rfl
  have hOw : ∀ u, D.owesAt none u = Pipeline.owesWithin c O (↑W₀ ∪ Pipeline.Cfg.waitPairs cfg1 none) := fun _ => rfl
  simp only [hb0, hb1, hb2, hb3, hb4, ha0, ha1, ha2, ha3, ha4, ha5, ha6, hΦ, hOw]
  show _ ⊢ wp frame (wpE (defs₀ (F := F)) 𝒱₀ (c.tc : Thread nD τ) none) Set.univ (Gen.bodyAt1 (F := F) t) _
  iintro ⟨HΦ, HO, ⟨%d0, H0⟩, ⟨%d1, H1⟩, ⟨%d2, H2⟩, ⟨%d3, H3⟩, ⟨%d4, H4⟩, ⟨%d5, H5⟩, ⟨%d6, H6⟩⟩
  iapply (wp_wand_r frame _ Set.univ)
  isplitl [H0 H1 H2 H3 H4 H5 H6]
  · iapply (body_run (F := F) c (grid1.coords t) _ _ _ _ _ _ _ _ _ _ _ _ _ _ (blk x5 (tt t)) w1 b1 w2 b2 _ _)
    iframe
  · iintro %_ ⟨K0, K1, K2, K3, K4, K5, K6⟩
    iframe

theorem arrAt_in (c : Dev nD) (w : Fin 7) (hw : ∀ t, (cfg1.win w).flush t = false) :
    (dat O W₀ x5 w1 b1 w2 b2 f0 f1 c).arrAt w cfg1.N = (dat O W₀ x5 w1 b1 w2 b2 f0 f1 c).A w :=
  funext fun i => (dat O W₀ x5 w1 b1 w2 b2 f0 f1 c).arrAt_apply_of_forall_not_mem w cfg1.N i fun t _ hf =>
    absurd hf (by rw [hw t]; exact Bool.false_ne_true)

theorem cover5 (i : S200x16x1024.Idx) : ∃ t : Fin cfg1.N, win1_5.flush t = true ∧ i ∈ (win1_5.blk t).view.set := by
  have hi : (i 2).val < 1024 := (i 2).isLt
  have hN : (i 2).val / 512 < cfg1.N := by rw [show cfg1.N = 2 from Gen.N_1]; omega
  refine ⟨⟨(i 2).val / 512, hN⟩, Gen.flush1_5 _, ?_⟩
  have key : (win1_5.blk ⟨(i 2).val / 512, hN⟩).view.emb (ix3 (i 0) (i 1) ⟨(i 2).val % 512, Nat.mod_lt _ (by decide)⟩) = i := by
    funext a
    apply Fin.ext
    show (((win1_5.rect ⟨(i 2).val / 512, hN⟩).emb (ix3 (i 0) (i 1) ⟨(i 2).val % 512, Nat.mod_lt _ (by decide)⟩)) a).val = (i a).val
    rw [Pipeline.Window.rect_emb_val, idx5]
    match a with
    | ⟨0, _⟩ => show 0 * 200 + (i 0).val = (i 0).val; omega
    | ⟨1, _⟩ => show 0 * 16 + (i 1).val = (i 1).val; omega
    | ⟨2, _⟩ => show (i 2).val / 512 * 512 + (i 2).val % 512 = (i 2).val; omega
  have hm := (win1_5.blk ⟨(i 2).val / 512, hN⟩).view.emb_mem_set (ix3 (i 0) (i 1) ⟨(i 2).val % 512, Nat.mod_lt _ (by decide)⟩)
  rw [key] at hm
  exact hm

theorem arrAt_out5 (c : Dev nD) : (dat O W₀ x5 w1 b1 w2 b2 f0 f1 c).arrAt 5 cfg1.N = tcOut 0 1 x5 w1 b1 w2 b2 :=
  (dat O W₀ x5 w1 b1 w2 b2 f0 f1 c).arrAt_eq_of_cover 5 (tcOut 0 1 x5 w1 b1 w2 b2) (fun _ _ => rfl) cover5

theorem arrAt_out6 (c : Dev nD) : (dat O W₀ x5 w1 b1 w2 b2 f0 f1 c).arrAt 6 cfg1.N = tcOut 2 3 x5 w1 b1 w2 b2 :=
  (dat O W₀ x5 w1 b1 w2 b2 f0 f1 c).arrAt_eq_of_cover 6 (tcOut 2 3 x5 w1 b1 w2 b2) (fun _ _ => rfl) cover5

def arrs (c : Dev nD) : sProp 𝕄 :=
  iprop(((c.tc : Thread nD τ).loc main_v5 ↦{fullShare} x5) ∗ ((c.tc : Thread nD τ).loc main_arg2 ↦{fullShare} w1) ∗ ((c.tc : Thread nD τ).loc main_v6 ↦{fullShare} b1)
      ∗ ((c.tc : Thread nD τ).loc main_arg4 ↦{fullShare} w2) ∗ ((c.tc : Thread nD τ).loc main_v7 ↦{fullShare} b2)
      ∗ ((c.tc : Thread nD τ).loc main_v8_0 ↦{fullShare} f0) ∗ ((c.tc : Thread nD τ).loc main_v8_1 ↦{fullShare} f1))

theorem arrays_at (c : Dev nD) (G : (w : Fin cfg1.W) → Buf (Elt F) ((cfg1.spec w).arr.view.loc (c.tc : Thread nD τ))) :
    ((dat O W₀ x5 w1 b1 w2 b2 f0 f1 c).arrays G : sProp 𝕄) = arrs (G 0) (G 1) (G 2) (G 3) (G 4) (G 5) (G 6) c := by
  unfold arrs
  rw [Pipeline.arrays_eq (fun _ : Fin 1 => cfg1) (fun _ c => dat O W₀ x5 w1 b1 w2 b2 f0 f1 c) 0 c Gen.arr_whole1
    (fun w => by unfold Pipeline.Dat.share; split <;> rfl) G, Gen.bigSep_W1]

theorem prefHeld_none (c : Dev nD) :
    (Pipeline.prefHeld (pcfgs (F := F) 0).pre c (fun _ => fullShare) ((cfgs 0).toPCfg_adm (Val := Elt F)).1 : sProp 𝕄) = iprop(emp) := by
  unfold Pipeline.prefHeld
  show (bigSep (Finset.univ : Finset (Fin 0)) _ : sProp 𝕄) = _
  rw [Finset.univ_eq_empty, BI.bigSep_empty]
  rfl

def pre (c : Dev nD) : sProp 𝕄 := iprop(owes (c.tc : Thread nD τ) O W₀ ∗ arrs x5 w1 b1 w2 b2 f0 f1 c)

def post (c : Dev nD) : sProp 𝕄 :=
  iprop((∃ W : Waits sig (HIx 1), ⌜(↑W : Set (SemLoc sig × HIx 1)) ⊆ ↑W₀ ∪ Pipeline.Cfg.waitPairs cfg1 none⌝ ∗ owes (c.tc : Thread nD τ) O W)
    ∗ arrs x5 w1 b1 w2 b2 (tcOut 0 1 x5 w1 b1 w2 b2) (tcOut 2 3 x5 w1 b1 w2 b2) c)

end Data

section Seg

variable (lv : GSem nD τ sig → HIx 1 → ℕ) (hlv : (K (F := F)).Refines lv)
  (O : CellTallies nD τ sig (HIx 1)) (hO : ∀ g, O g none = 0) (W₀ : Waits sig (HIx 1))
  (x5 : Vec F S4x208x1024 .i32) (w1 b1 : Vec F S16x1 .f32) (w2 : Vec F S16x16 .f32) (b2 : Vec F S16x1 .f32)
  (f0 f1 : Vec F S200x16x1024 .f32)

abbrev adm : (p : Fin 1) → (pcfgs (F := F) p).Adm := fun q => (cfgs q).toPCfg_adm

include hlv hO in
def seg : Pipeline.RegionSeg (pcfgs (F := F)) adm (fun _ c => dat O W₀ x5 w1 b1 w2 b2 f0 f1 c) none (defs₀ (F := F)) 𝒱₀ (K (F := F)).L lv (0 : Fin 1) where
  win := Gen.winFacts1.to₀
  block_pos := Gen.block_pos1
  stage_whole := Gen.stage_whole1
  K := PEmpty
  osem := fun k => k.elim
  ho := Pipeline.OwnSemFacts.none _
  hbody := fun c => (body_obl O W₀ x5 w1 b1 w2 b2 f0 f1 c).loose
  hwaits := fun c => Pipeline.cellsWaits_intro _ _ none 0 c fun w s t =>
    SparseCore.Cfg.mayWait_none (K := K (F := F)) _ hO lv hlv
  pre := pre O W₀ x5 w1 b1 w2 b2 f0 f1
  post := post O W₀ x5 w1 b1 w2 b2
  X := fun _ => iprop(emp)
  Y := fun _ => iprop(emp)
  Z := fun _ => iprop(emp)
  hentry := fun c => by
    rw [arrays_at, prefHeld_none]
    unfold pre arrs
    iintro ⟨⟨HO, H5, H2, H6, H4, H7, H80, H81⟩, -, -⟩
    imodintro
    isplitl [H5 H2 H6 H4 H7 H80 H81]
    · isplitl [H5]; · iexact H5
      isplitl [H2]; · iexact H2
      isplitl [H6]; · iexact H6
      isplitl [H4]; · iexact H4
      isplitl [H7]; · iexact H7
      isplitl [H80]; · iexact H80
      iexact H81
    isplitr; · iempintro
    isplitl [HO]
    · iexists W₀
      isplitr; · ipureintro; exact Set.subset_union_left
      iexact HO
    isplitr <;> iempintro
  hin := fun c => by
    show iprop(emp ∗ Pipeline.prefHeld (pcfgs (F := F) 0).pre c (fun _ => fullShare) (adm (F := F) 0).1 ∗ Pipeline.scopedRest spec1 c)
      ⊢ Pipeline.scopedRest spec1 c
    iintro ⟨-, -, H⟩; iexact H
  hout := fun c => by
    show Pipeline.scopedRest spec1 c ⊢ iprop(emp ∗ Pipeline.ownSems0 (fun k : PEmpty => k.elim) c ∗ Pipeline.scopedRest spec1 c)
    rw [Pipeline.ownSems0_none]
    iintro H
    isplitr; · iempintro
    isplitr; · iempintro
    iexact H
  hexit := fun c => by
    have ai := arrAt_in O W₀ x5 w1 b1 w2 b2 f0 f1 c
    rw [arrays_at, ai 0 fun _ => rfl, ai 1 fun _ => rfl, ai 2 fun _ => rfl, ai 3 fun _ => rfl, ai 4 fun _ => rfl, arrAt_out5, arrAt_out6]
    unfold post arrs
    iintro ⟨⟨H5, H2, H6, H4, H7, H80, H81⟩, ⟨%W, %hW, HO⟩, -, -⟩
    imodintro
    isplitl [HO]
    · iexists W
      isplitr; · ipureintro; exact hW
      iexact HO
    isplitl [H5]; · iexact H5
    isplitl [H2]; · iexact H2
    isplitl [H6]; · iexact H6
    isplitl [H4]; · iexact H4
    isplitl [H7]; · iexact H7
    iframe

include hlv hO in
theorem inner₀ (d : Dev nD) :
    (iprop(boundary (d.tc : Thread nD τ) ∗ pre O W₀ x5 w1 b1 w2 b2 f0 f1 d ∗ levAts (K (F := F)).L lv
        ∗ Pipeline.cellsGhost cfgs ER 0 d ∗ Pipeline.toksInit cfgs ER 0 d) : sProp 𝕄)
      ⊢ wp frame (wpE (D (F := F)) 𝒱 (d.tc : Thread nD τ) none) Set.univ
          (Prog.op (TpuEff.customCall (Pipeline.entry (0 : Fin 1)) ()) fun x => Prog.ret x)
          (fun _ => iprop(boundary (d.tc : Thread nD τ) ∗ post O W₀ x5 w1 b1 w2 b2 d)) := by
  refine BI.Entails.trans ?_ (Pipeline.RegionSeg.wp (pcfgs (F := F)) adm (fun _ c => dat O W₀ x5 w1 b1 w2 b2 f0 f1 c) none Gen.cellOf_inj ER
      (defs₀ (F := F)) 𝒱₀ (K (F := F)).L lv (seg lv hlv O hO W₀ x5 w1 b1 w2 b2 f0 f1) d none (fun u hu => nomatch hu)
      (fun x => Prog.ret x) _)
  show _ ⊢ iprop((iprop(boundary (d.tc : Thread nD τ) ∗ post O W₀ x5 w1 b1 w2 b2 d) -∗ wp frame _ Set.univ (Prog.ret PUnit.unit) _)
        ∗ boundary (d.tc : Thread nD τ) ∗ pre O W₀ x5 w1 b1 w2 b2 f0 f1 d ∗ levAts (K (F := F)).L lv
        ∗ Pipeline.cellsGhost cfgs ER 0 d ∗ Pipeline.toksInit cfgs ER 0 d)
  iintro ⟨Hb, Hpre, Hlev, Hg, Ht⟩
  isplitr [Hb Hpre Hlev Hg Ht]
  · iintro H; rw [wp_ret]; imodintro; iexact H
  iframe

end Seg

theorem wbelow_of_sub (d : Dev nD) {W W' : Waits sig (HIx 1)} (hW : (K (F := F)).WBelow (SparseCore.T d) W (8 * 1))
    (hW' : (↑W' : Set (SemLoc sig × HIx 1)) ⊆ ↑W ∪ Pipeline.Cfg.waitPairs cfg1 none) : (K (F := F)).WBelow (SparseCore.T d) W' (8 * 1) := by
  intro p hp
  rcases hW' (Finset.mem_coe.mpr hp) with h | ⟨w, s, rfl⟩
  · exact hW p (Finset.mem_coe.mp h)
  · show (K (F := F)).lev (SparseCore.T d, _) none ≤ 8 * 1
    rw [SparseCore.Cfg.lev_none]; omega

theorem region_step (lv : GSem nD τ sig → HIx 1 → ℕ) (hlv : (K (F := F)).Refines lv) (d : Dev nD)
    (O : CellTallies nD τ sig (HIx 1)) (hO : ∀ g, O g none = 0) (W₀ : Waits sig (HIx 1))
    (x5 : Vec F S4x208x1024 .i32) (w1 b1 : Vec F S16x1 .f32) (w2 : Vec F S16x16 .f32) (b2 : Vec F S16x1 .f32)
    (f0 f1 : Vec F S200x16x1024 .f32)
    {α : Type} (k : PUnit → Prog (TpuEff nD τ sig (Elt F) (SparseCore.Sig (ΛP (F := F)) 1) .tc) α) (Φ : α → sProp 𝕄) :
    (iprop(levAts (K (F := F)).L lv ∗ boundary (SparseCore.T d) ∗ Pipeline.cellsGhost cfgs ER 0 d ∗ Pipeline.toksInit cfgs ER 0 d
        ∗ owes (SparseCore.T d) O W₀
        ∗ ((SparseCore.T d).loc main_v5 ↦{fullShare} x5) ∗ ((SparseCore.T d).loc main_arg2 ↦{fullShare} w1) ∗ ((SparseCore.T d).loc main_v6 ↦{fullShare} b1)
        ∗ ((SparseCore.T d).loc main_arg4 ↦{fullShare} w2) ∗ ((SparseCore.T d).loc main_v7 ↦{fullShare} b2)
        ∗ ((SparseCore.T d).loc main_v8_0 ↦{fullShare} f0) ∗ ((SparseCore.T d).loc main_v8_1 ↦{fullShare} f1)
        ∗ (iprop(boundary (SparseCore.T d) ∗ (∃ W : Waits sig (HIx 1), ⌜(↑W : Set (SemLoc sig × HIx 1)) ⊆ ↑W₀ ∪ Pipeline.Cfg.waitPairs cfg1 none⌝ ∗ owes (SparseCore.T d) O W)
            ∗ ((SparseCore.T d).loc main_v5 ↦{fullShare} x5) ∗ ((SparseCore.T d).loc main_arg2 ↦{fullShare} w1) ∗ ((SparseCore.T d).loc main_v6 ↦{fullShare} b1)
            ∗ ((SparseCore.T d).loc main_arg4 ↦{fullShare} w2) ∗ ((SparseCore.T d).loc main_v7 ↦{fullShare} b2)
            ∗ ((SparseCore.T d).loc main_v8_0 ↦{fullShare} tcOut 0 1 x5 w1 b1 w2 b2) ∗ ((SparseCore.T d).loc main_v8_1 ↦{fullShare} tcOut 2 3 x5 w1 b1 w2 b2))
          -∗ wp frame (wpE (defs (F := F)) 𝒱 (SparseCore.T d) none) Set.univ (k ⟨⟩) Φ)) : sProp 𝕄)
      ⊢ wp frame (wpE (defs (F := F)) 𝒱 (SparseCore.T d) none) Set.univ (.op (.customCall (SparseCore.inner (Pipeline.entry 0)) ()) k) Φ := by
  show _ ⊢ wp frame _ Set.univ ((SparseCore.liftProg (Q := 1) (Prog.op (TpuEff.customCall (Pipeline.entry (0 : Fin 1)) ()) fun x => Prog.ret x
    : Prog (TpuEff nD τ sig (Elt F) (ΛP (F := F)) .tc) PUnit)) >>= k) Φ
  rw [wp_bind]
  iintro ⟨Hlev, Hb, Hg, Ht, Ho, H5, H2, H6, H4, H7, H80, H81, Hk⟩
  iapply (wp_wand_r frame _ Set.univ)
  isplitr [Hk]
  · iapply ((K (F := F)).wp_liftProg (D (F := F)) 𝒱 (SparseCore.T d) Set.univ none _
      (fun _ => iprop(boundary (SparseCore.T d) ∗ post O W₀ x5 w1 b1 w2 b2 d)))
    iapply (inner₀ lv hlv O hO W₀ x5 w1 b1 w2 b2 f0 f1 d)
    unfold pre arrs
    iframe
  · iintro %_ ⟨Hb, Hp⟩
    iapply Hk
    isplitl [Hb]; · iexact Hb
    unfold post arrs; iexact Hp

end Cert.KernelIdeal.Tc

end
-- ==== Proof.Launch.lean ====
import proofs.«212098_g24275155157491_cont_8to1_80_30_alg».proof.Proof.Sc.Obl
import proofs.«212098_g24275155157491_cont_8to1_80_30_alg».proof.Proof.HostValue
import proofs.«212098_g24275155157491_cont_8to1_80_30_alg».proof.Proof.Tc.Region
import Idealize.ShloMosaic.Lib.Pipeline.Frame
import Idealize.ShloMosaic.Lib.Pipeline.Value
import Idealize.ShloMosaic.Lib.StableHlo.Run

noncomputable section

namespace Cert.KernelIdeal.Launch

open Cert.KernelIdeal Cert.KernelIdeal.Gen Cert.KernelIdeal.Sc
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)

variable {F : FTy → Type}

local notation "𝕄" => MT nD τ sig (HIx 1) (Elt F) ℕ UU ℕ

variable [FloatOps F]

abbrev opC : HloOp τ sig (Elt F) := StableHlo.nullary main_c (constantI S_ 32 100000#32)
abbrev opB : HloOp τ sig (Elt F) := StableHlo.unary main_c main_v0 (broadcastInDim S1024x8 ![] bcast_S_S1024x8 : (⟨S_, .i32⟩ : BufTy).Contents (Elt F) → (⟨S1024x8, .i32⟩ : BufTy).Contents (Elt F))
abbrev opCat0 : HloOp τ sig (Elt F) := StableHlo.binary main_arg0 main_v0 main_v1 ((fun a b => concatenate S1024x208 1 [⟨S1024x200, a⟩, ⟨S1024x8, b⟩] concatenates_S1024x200_S1024x8_S1024x208_d1) : (⟨S1024x200, .i32⟩ : BufTy).Contents (Elt F) → (⟨S1024x8, .i32⟩ : BufTy).Contents (Elt F) → (⟨S1024x208, .i32⟩ : BufTy).Contents (Elt F))
abbrev opCat1 : HloOp τ sig (Elt F) := StableHlo.binary main_arg1 main_v0 main_v2 ((fun a b => concatenate S1024x208 1 [⟨S1024x200, a⟩, ⟨S1024x8, b⟩] concatenates_S1024x200_S1024x8_S1024x208_d1) : (⟨S1024x200, .i32⟩ : BufTy).Contents (Elt F) → (⟨S1024x8, .i32⟩ : BufTy).Contents (Elt F) → (⟨S1024x208, .i32⟩ : BufTy).Contents (Elt F))
abbrev opR4 : HloOp τ sig (Elt F) := StableHlo.reshape main_v3 main_v4 rfl shapeCasts_S1024x832_S1024x4x208
abbrev opT5 : HloOp τ sig (Elt F) := StableHlo.unary main_v4 main_v5 ((transpose S4x208x1024 [1, 2, 0] · transposes_S1024x4x208_S4x208x1024_1_2_0) : (⟨S1024x4x208, .i32⟩ : BufTy).Contents (Elt F) → (⟨S4x208x1024, .i32⟩ : BufTy).Contents (Elt F))
abbrev opR6 : HloOp τ sig (Elt F) := StableHlo.reshape main_arg3 main_v6 rfl shapeCasts_S16_S16x1
abbrev opR7 : HloOp τ sig (Elt F) := StableHlo.reshape main_arg5 main_v7 rfl shapeCasts_S16_S16x1
abbrev opT9 : HloOp τ sig (Elt F) := StableHlo.unary main_v8_0 main_v9 ((transpose S1024x200x16 [2, 0, 1] · transposes_S200x16x1024_S1024x200x16_2_0_1) : (⟨S200x16x1024, .f32⟩ : BufTy).Contents (Elt F) → (⟨S1024x200x16, .f32⟩ : BufTy).Contents (Elt F))
abbrev opT10 : HloOp τ sig (Elt F) := StableHlo.unary main_v8_1 main_v10 ((transpose S1024x200x16 [2, 0, 1] · transposes_S200x16x1024_S1024x200x16_2_0_1) : (⟨S200x16x1024, .f32⟩ : BufTy).Contents (Elt F) → (⟨S1024x200x16, .f32⟩ : BufTy).Contents (Elt F))

abbrev SU : Finset (DevRef τ sig) := Pipeline.ucRefs τ sig

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v80' : DevRef τ sig := Proc.devRef .tc (main_v8_0 : Ref sig .tc)
abbrev v81' : DevRef τ sig := Proc.devRef .tc (main_v8_1 : Ref sig .tc)
abbrev v9' : DevRef τ sig := Proc.devRef .tc (main_v9 : Ref sig .tc)
abbrev v10' : DevRef τ sig := Proc.devRef .tc (main_v10 : Ref sig .tc)

variable (m : (ℓ : Loc nD τ sig) → Buf (Elt F) ℓ) (ρ : Dev nD → PrngReg)

def V0 (d : Dev nD) : Valuation τ sig (Elt F) := fun b => m (d, b)
def V4 (d : Dev nD) : Valuation τ sig (Elt F) :=
  (opCat1 (F := F)).result ((opCat0 (F := F)).result ((opB (F := F)).result ((opC (F := F)).result (V0 m d))))
def V5 (d : Dev nD) : Valuation τ sig (Elt F) := Function.update (V4 m d) v3' (cnts m d)
def V9 (d : Dev nD) : Valuation τ sig (Elt F) :=
  (opR7 (F := F)).result ((opR6 (F := F)).result ((opT5 (F := F)).result ((opR4 (F := F)).result (V5 m d))))
def o0 (d : Dev nD) : Buf (Elt F) (d, v80') := Tc.tcOut 0 1 (V9 m d v5') (V9 m d a2') (V9 m d v6') (V9 m d a4') (V9 m d v7')
def o1 (d : Dev nD) : Buf (Elt F) (d, v81') := Tc.tcOut 2 3 (V9 m d v5') (V9 m d a2') (V9 m d v6') (V9 m d a4') (V9 m d v7')
def V10 (d : Dev nD) : Valuation τ sig (Elt F) := Function.update (Function.update (V9 m d) v80' (o0 m d)) v81' (o1 m d)
def V12 (d : Dev nD) : Valuation τ sig (Elt F) := (opT10 (F := F)).result ((opT9 (F := F)).result (V10 m d))

omit [FloatOps F] in
theorem held_take (d : Dev nD) {S : Finset (DevRef τ sig)} {b : DevRef τ sig} (hb : b ∈ S) (W : Valuation τ sig (Elt F)) :
    (held (SparseCore.T d) S W : sProp 𝕄) = iprop((((d, b) : Loc nD τ sig) ↦{fullShare} W b) ∗ held (SparseCore.T d) (S.erase b) W) := by
  unfold held; exact bigSep_erase hb

local macro "val_results" : tactic =>
  `(tactic| repeat (first
     | rw [StableHlo.nullary_result] | rw [StableHlo.unary_result] | rw [StableHlo.binary_result] | rw [StableHlo.reshape_result]
     | rw [Function.update_self]
     | (rw [Function.update_of_ne]; rotate_left; decide)
     | (rw [StableHlo.nullary_result_ne]; rotate_left; decide)
     | (rw [StableHlo.unary_result_ne]; rotate_left; decide)
     | (rw [StableHlo.binary_result_ne]; rotate_left; decide)
     | (rw [StableHlo.reshape_result_ne]; rotate_left; decide)))

theorem mem_SU (b : Ref sig .tc) (h : (Proc.devRef (τ := τ) .tc b).isScoped = false) : Proc.devRef .tc b ∈ (SU : Finset (DevRef τ sig)) :=
  Finset.mem_filter.mpr ⟨StableHlo.devRef_mem_tcRefs b, by rw [h]; exact Bool.false_ne_true⟩

theorem V4_v1 (d : Dev nD) : V4 m d v1' = pad0 m d := by
  unfold V4
  val_results
  exact HostValue.concat_padded _ _ _
theorem V4_v2 (d : Dev nD) : V4 m d v2' = pad1 m d := by
  unfold V4
  val_results
  exact HostValue.concat_padded _ _ _

abbrev R3 : Finset (DevRef τ sig) := ((SU.erase v1').erase v2').erase v3'

theorem er {a b : DevRef τ sig} {S : Finset (DevRef τ sig)} (hm : a ∈ S) (h : a ≠ b := by decide) : a ∈ S.erase b :=
  Finset.mem_erase.mpr ⟨h, hm⟩

theorem m_v1 : v1' ∈ (SU : Finset (DevRef τ sig)) := mem_SU _ (by decide)
theorem m_v2 : v2' ∈ (SU : Finset (DevRef τ sig)).erase v1' := er (mem_SU _ (by decide))
theorem m_v3 : v3' ∈ ((SU : Finset (DevRef τ sig)).erase v1').erase v2' := er (er (mem_SU _ (by decide)))

def three (d : Dev nD) (f : Buf (Elt F) (v3Loc d)) : sProp 𝕄 :=
  iprop((v1Loc d ↦{fullShare} pad0 m d) ∗ (v2Loc d ↦{fullShare} pad1 m d) ∗ (v3Loc d ↦{fullShare} f) ∗ held (SparseCore.T d) R3 (V4 m d))

theorem held_V4 (d : Dev nD) :
    (held (SparseCore.T d) SU ((opCat1 (F := F)).result ((opCat0 (F := F)).result ((opB (F := F)).result ((opC (F := F)).result (V0 m d))))) : sProp 𝕄)
      = three m d (V4 m d v3') := by
  show held (SparseCore.T d) SU (V4 m d) = _
  unfold three
  rw [held_take d m_v1, held_take d m_v2, held_take d m_v3, V4_v1, V4_v2]

theorem held_V5 (d : Dev nD) : three m d (cnts m d) = (held (SparseCore.T d) SU (V5 m d) : sProp 𝕄) := by
  unfold V5 three
  rw [held_take d m_v1 (Function.update (V4 m d) v3' (cnts m d)), held_take d m_v2 (Function.update (V4 m d) v3' (cnts m d)),
    held_take d m_v3 (Function.update (V4 m d) v3' (cnts m d)), Function.update_self,
    Function.update_of_ne (show v1' ≠ v3' by decide), Function.update_of_ne (show v2' ≠ v3' by decide), V4_v1, V4_v2,
    held_congr (SparseCore.T d) (S := R3) (V := Function.update (V4 m d) v3' (cnts m d)) (V' := V4 m d)
      (fun b' hb' => Function.update_of_ne (Finset.ne_of_mem_erase hb') _ _)]

abbrev R7 : Finset (DevRef τ sig) := ((((((SU.erase v5').erase a2').erase v6').erase a4').erase v7').erase v80').erase v81'

theorem m_v5 : v5' ∈ (SU : Finset (DevRef τ sig)) := mem_SU _ (by decide)
theorem m_a2 : a2' ∈ (SU : Finset (DevRef τ sig)).erase v5' := er (mem_SU _ (by decide))
theorem m_v6 : v6' ∈ ((SU : Finset (DevRef τ sig)).erase v5').erase a2' := er (er (mem_SU _ (by decide)))
theorem m_a4 : a4' ∈ (((SU : Finset (DevRef τ sig)).erase v5').erase a2').erase v6' := er (er (er (mem_SU _ (by decide))))
theorem m_v7 : v7' ∈ ((((SU : Finset (DevRef τ sig)).erase v5').erase a2').erase v6').erase a4' := er (er (er (er (mem_SU _ (by decide)))))
theorem m_v80 : v80' ∈ (((((SU : Finset (DevRef τ sig)).erase v5').erase a2').erase v6').erase a4').erase v7' := er (er (er (er (er (mem_SU _ (by decide))))))
theorem m_v81 : v81' ∈ ((((((SU : Finset (DevRef τ sig)).erase v5').erase a2').erase v6').erase a4').erase v7').erase v80' := er (er (er (er (er (er (mem_SU _ (by decide)))))))

def seven (d : Dev nD) (f0 : Buf (Elt F) (d, v80')) (f1 : Buf (Elt F) (d, v81')) : sProp 𝕄 :=
  iprop(((SparseCore.T d).loc main_v5 ↦{fullShare} V9 m d v5') ∗ ((SparseCore.T d).loc main_arg2 ↦{fullShare} V9 m d a2') ∗ ((SparseCore.T d).loc main_v6 ↦{fullShare} V9 m d v6')
    ∗ ((SparseCore.T d).loc main_arg4 ↦{fullShare} V9 m d a4') ∗ ((SparseCore.T d).loc main_v7 ↦{fullShare} V9 m d v7')
    ∗ ((SparseCore.T d).loc main_v8_0 ↦{fullShare} f0) ∗ ((SparseCore.T d).loc main_v8_1 ↦{fullShare} f1) ∗ held (SparseCore.T d) R7 (V9 m d))

theorem held_V9 (d : Dev nD) :
    (held (SparseCore.T d) SU ((opR7 (F := F)).result ((opR6 (F := F)).result ((opT5 (F := F)).result ((opR4 (F := F)).result (V5 m d))))) : sProp 𝕄)
      = seven m d (V9 m d v80') (V9 m d v81') := by
  show held (SparseCore.T d) SU (V9 m d) = _
  unfold seven
  rw [held_take d m_v5, held_take d m_a2, held_take d m_v6, held_take d m_a4, held_take d m_v7, held_take d m_v80, held_take d m_v81]

theorem held_V10 (d : Dev nD) : seven m d (o0 m d) (o1 m d) = (held (SparseCore.T d) SU (V10 m d) : sProp 𝕄) := by
  unfold seven
  have e' : ∀ b, b ≠ v81' → b ≠ v80' → V10 m d b = V9 m d b := fun b h1 h0 => by
    unfold V10; rw [Function.update_of_ne h1, Function.update_of_ne h0]
  have e : ∀ b ∈ (R7 : Finset (DevRef τ sig)), V10 m d b = V9 m d b := fun b hb =>
    e' b (Finset.ne_of_mem_erase hb) (Finset.ne_of_mem_erase (Finset.mem_of_mem_erase hb))
  rw [held_take d m_v5 (V10 m d), held_take d m_a2 (V10 m d), held_take d m_v6 (V10 m d), held_take d m_a4 (V10 m d), held_take d m_v7 (V10 m d),
    held_take d m_v80 (V10 m d), held_take d m_v81 (V10 m d), held_congr (SparseCore.T d) e]
  have e80 : V10 m d v80' = o0 m d := by unfold V10; rw [Function.update_of_ne (by decide), Function.update_self]
  have e81 : V10 m d v81' = o1 m d := by unfold V10; rw [Function.update_self]
  rw [e' v5' (by decide) (by decide), e' a2' (by decide) (by decide), e' v6' (by decide) (by decide), e' a4' (by decide) (by decide),
    e' v7' (by decide) (by decide), e80, e81]

def x5 (d : Dev nD) : Vec F S4x208x1024 .i32 :=
  transpose S4x208x1024 [1, 2, 0] (shapeCast S1024x4x208 (cnts m d) shapeCasts_S1024x832_S1024x4x208) transposes_S1024x4x208_S4x208x1024_1_2_0
def res0 (d : Dev nD) : Vec F S1024x200x16 .f32 :=
  transpose S1024x200x16 [2, 0, 1] (Tc.tcOut 0 1 (x5 m d) (m ((SparseCore.T d).loc main_arg2)) (shapeCast S16x1 (m ((SparseCore.T d).loc main_arg3)) shapeCasts_S16_S16x1)
    (m ((SparseCore.T d).loc main_arg4)) (shapeCast S16x1 (m ((SparseCore.T d).loc main_arg5)) shapeCasts_S16_S16x1)) transposes_S200x16x1024_S1024x200x16_2_0_1
def res1 (d : Dev nD) : Vec F S1024x200x16 .f32 :=
  transpose S1024x200x16 [2, 0, 1] (Tc.tcOut 2 3 (x5 m d) (m ((SparseCore.T d).loc main_arg2)) (shapeCast S16x1 (m ((SparseCore.T d).loc main_arg3)) shapeCasts_S16_S16x1)
    (m ((SparseCore.T d).loc main_arg4)) (shapeCast S16x1 (m ((SparseCore.T d).loc main_arg5)) shapeCasts_S16_S16x1)) transposes_S200x16x1024_S1024x200x16_2_0_1

theorem V9_v5 (d : Dev nD) : V9 m d v5' = x5 m d := by unfold V9 V5; val_results; rfl
theorem V9_a2 (d : Dev nD) : V9 m d a2' = m ((SparseCore.T d).loc main_arg2) := by unfold V9 V5 V4; val_results; rfl
theorem V9_v6 (d : Dev nD) : V9 m d v6' = shapeCast S16x1 (m ((SparseCore.T d).loc main_arg3)) shapeCasts_S16_S16x1 := by unfold V9 V5 V4; val_results; rfl
theorem V9_a4 (d : Dev nD) : V9 m d a4' = m ((SparseCore.T d).loc main_arg4) := by unfold V9 V5 V4; val_results; rfl
theorem V9_v7 (d : Dev nD) : V9 m d v7' = shapeCast S16x1 (m ((SparseCore.T d).loc main_arg5)) shapeCasts_S16_S16x1 := by unfold V9 V5 V4; val_results; rfl

theorem V12_v9 (d : Dev nD) : V12 m d v9' = res0 m d := by
  unfold V12 V10; val_results; unfold o0 res0; rw [V9_v5, V9_a2, V9_v6, V9_a4, V9_v7]
theorem V12_v10 (d : Dev nD) : V12 m d v10' = res1 m d := by
  unfold V12 V10; val_results; unfold o1 res1; rw [V9_v5, V9_a2, V9_v6, V9_a4, V9_v7]
theorem V12_a0 (d : Dev nD) : V12 m d a0' = m ((SparseCore.T d).loc main_arg0) := by unfold V12 V10 V9 V5 V4; val_results; rfl
theorem V12_a1 (d : Dev nD) : V12 m d a1' = m ((SparseCore.T d).loc main_arg1) := by unfold V12 V10 V9 V5 V4; val_results; rfl
theorem V12_a2 (d : Dev nD) : V12 m d a2' = m ((SparseCore.T d).loc main_arg2) := by unfold V12 V10 V9 V5 V4; val_results; rfl
theorem V12_a3 (d : Dev nD) : V12 m d a3' = m ((SparseCore.T d).loc main_arg3) := by unfold V12 V10 V9 V5 V4; val_results; rfl
theorem V12_a4 (d : Dev nD) : V12 m d a4' = m ((SparseCore.T d).loc main_arg4) := by unfold V12 V10 V9 V5 V4; val_results; rfl
theorem V12_a5 (d : Dev nD) : V12 m d a5' = m ((SparseCore.T d).loc main_arg5) := by unfold V12 V10 V9 V5 V4; val_results; rfl

abbrev G (d : Dev nD) : sProp 𝕄 := iprop(Pipeline.cellsGhost cfgs ER 0 d ∗ Pipeline.toksInit cfgs ER 0 d)

abbrev T8 : Finset (DevRef τ sig) := {v9', v10', a0', a1', a2', a3', a4', a5'}

theorem T8_sub : (T8 : Finset (DevRef τ sig)) ⊆ SU := by
  intro b hb
  simp only [T8, Finset.mem_insert, Finset.mem_singleton] at hb
  rcases hb with rfl | rfl | rfl | rfl | rfl | rfl | rfl | rfl <;> exact mem_SU _ (by decide)

abbrev FIN (d : Dev nD) : sProp 𝕄 := held (SparseCore.T d) T8 (V12 m d)

theorem held_fin (d : Dev nD) :
    (held (SparseCore.T d) SU ((opT10 (F := F)).result ((opT9 (F := F)).result (V10 m d))) : sProp 𝕄) ⊢ FIN m d := by
  unfold held; exact bigSep_subset T8_sub

theorem tcSt_one (d : Dev nD) (n : ℕ) (hn : n = 1) :
    ((K (F := F)).tcSt (EH (F := F)) d n : sProp 𝕄)
      = iprop((∃ W, ⌜(K (F := F)).WBelow (SparseCore.T d) W (8 * 1)⌝ ∗ owes (SparseCore.T d) 0 W)
        ∗ atPos EH ((K (F := F)).doneCell d) 1 ∅ 0 ∗ reached EH ((K (F := F)).doneCell d) 1
        ∗ (bigSep Finset.univ fun c : Fin τ.nSC => reached EH ((K (F := F)).startCell d c) ((K (F := F)).sRank c 1))
        ∗ bigSep (SparseCore.Cfg.callsFrom 1) fun q => bigSep Finset.univ fun c : Fin ((K (F := F)).nCore q) =>
            iprop(dutyTok EH ((K (F := F)).startCell d ((K (F := F)).core q c)) ((K (F := F)).sRank ((K (F := F)).core q c) q.val) 0
              ∗ cred (tallyAt ((K (F := F)).doneCell d) (some q) 1))) := by
  subst hn
  unfold SparseCore.Cfg.tcSt
  rw [(K (F := F)).Otc_end d (le_refl 1)]

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) SU (V0 m d) from Pipeline.unscopedBufs_held d (V0 m d)]
  simp only [main, wp_bind, wp_pure]
  iintro ⟨#Hctx, Hst, ⟨Hb, Hheld, -, -⟩, ⟨Hcg, Htk⟩⟩
  iapply (wp_hlo_within _ _ _ _ (op := opC) (Pipeline.sub_ucRefs _ (by simp))) $$ [Hb Hheld]
  · isplitl [Hb] <;> iassumption
  iintro ⟨Hb, Hheld⟩
  rw [wp_ret]; imodintro
  iapply (wp_hlo_within _ _ _ _ (op := opB) (Pipeline.sub_ucRefs _ (by simp))) $$ [Hb Hheld]
  · isplitl [Hb] <;> iassumption
  iintro ⟨Hb, Hheld⟩
  rw [wp_ret]; imodintro
  iapply (wp_hlo_within _ _ _ _ (op := opCat0) (Pipeline.sub_ucRefs _ (by simp))) $$ [Hb Hheld]
  · isplitl [Hb] <;> iassumption
  iintro ⟨Hb, Hheld⟩
  rw [wp_ret]; imodintro
  iapply (wp_hlo_within _ _ _ _ (op := opCat1) (Pipeline.sub_ucRefs _ (by simp))) $$ [Hb Hheld]
  · isplitl [Hb] <;> iassumption
  iintro ⟨Hb, Hheld⟩
  rw [wp_ret]; imodintro
  ihave Hh := (Entails.of_eq (held_V4 (F := F) m d)) $$ Hheld
  unfold three
  icases Hh with ⟨H1, H2, H3, Hrest⟩
  iapply ((K (F := F)).wp_run (D (F := F)) 𝒱 (EH := EH) (P := P m) κ d 0) $$ [Hst H1 H2 H3 Hb Hrest Hcg Htk]
  isplitr; · iexact Hctx
  isplitl [Hst]; · iexact Hst
  isplitl [H1 H2 H3]
  · iapply (st0_intro m d (V4 m d v3')); iframe
  iintro ⟨Hst, Hdn⟩
  ihave Hdn' := (dn0_elim m d) $$ Hdn
  icases Hdn' with ⟨H1, H2, H3⟩
  ihave Hheld := (Entails.of_eq (held_V5 (F := F) m d)) $$ [H1 H2 H3 Hrest]
  · unfold three; iframe
  iapply (wp_hlo_within _ _ _ _ (op := opR4) (Pipeline.sub_ucRefs _ (by simp))) $$ [Hb Hheld]
  · isplitl [Hb] <;> iassumption
  iintro ⟨Hb, Hheld⟩
  rw [wp_ret]; imodintro
  iapply (wp_hlo_within _ _ _ _ (op := opT5) (Pipeline.sub_ucRefs _ (by simp))) $$ [Hb Hheld]
  · isplitl [Hb] <;> iassumption
  iintro ⟨Hb, Hheld⟩
  rw [wp_ret]; imodintro
  iapply (wp_hlo_within _ _ _ _ (op := opR6) (Pipeline.sub_ucRefs _ (by simp))) $$ [Hb Hheld]
  · isplitl [Hb] <;> iassumption
  iintro ⟨Hb, Hheld⟩
  rw [wp_ret]; imodintro
  iapply (wp_hlo_within _ _ _ _ (op := opR7) (Pipeline.sub_ucRefs _ (by simp))) $$ [Hb Hheld]
  · isplitl [Hb] <;> iassumption
  iintro ⟨Hb, Hheld⟩
  rw [wp_ret]; imodintro
  ihave Hh := (Entails.of_eq (held_V9 (F := F) m d)) $$ Hheld
  unfold seven
  icases Hh with ⟨Hx5, Hw1, Hb1, Hw2, Hb2, Hf0, Hf1, Hrest⟩
  ihave Hst' := (Entails.of_eq (tcSt_one (F := F) d ((0 : Fin 1).val + 1) rfl)) $$ Hst
  icases Hst' with ⟨⟨%W, %hW, HO⟩, HR⟩
  ihave Hlev := (SparseCore.Cfg.ctx_levAts κ) $$ Hctx
  iapply (Tc.region_step (F := F) (K (F := F)).lev (by sl_refines_lev) d 0 (fun _ => rfl) W (V9 m d v5') (V9 m d a2') (V9 m d v6') (V9 m d a4') (V9 m d v7')
    (V9 m d v80') (V9 m d v81')) $$ [Hlev Hb Hcg Htk HO Hx5 Hw1 Hb1 Hw2 Hb2 Hf0 Hf1 Hrest HR]
  iframe Hlev Hb Hcg Htk HO Hx5 Hw1 Hb1 Hw2 Hb2 Hf0 Hf1
  iintro ⟨Hb, ⟨%W', %hW', HO⟩, Hx5, Hw1, Hb1, Hw2, Hb2, Hf0, Hf1⟩
  rw [wp_ret]; imodintro
  ihave Hheld := (Entails.of_eq (held_V10 (F := F) m d)) $$ [Hx5 Hw1 Hb1 Hw2 Hb2 Hf0 Hf1 Hrest]
  · unfold seven o0 o1; iframe
  iapply (wp_hlo_within _ _ _ _ (op := opT9) (Pipeline.sub_ucRefs _ (by simp))) $$ [Hb Hheld]
  · isplitl [Hb] <;> iassumption
  iintro ⟨Hb, Hheld⟩
  rw [wp_ret]; imodintro
  iapply (wp_hlo_within _ _ _ _ (op := opT10) (Pipeline.sub_ucRefs _ (by simp))) $$ [Hb Hheld]
  · isplitl [Hb] <;> iassumption
  iintro ⟨Hb, Hheld⟩
  rw [wp_ret]; imodintro; imodintro
  isplitl [HO HR]
  · iapply (Entails.of_eq (tcSt_one (F := F) d 1 rfl).symm)
    isplitl [HO]
    · iexists W'; isplitr
      · ipureintro; exact Tc.wbelow_of_sub (F := F) d hW hW'
      iexact HO
    iexact HR
  iapply (held_fin m d); iexact Hheld

def u₀ : UU := (initOf (K (F := F)).hsCells (K (F := F)).hsToks, (initOf (Pipeline.cells cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split3 _ _ _) $$ Hu
  icases H with ⟨HH, HR⟩
  imod (Pipeline.fund_ghost cfgs ER cellOf_inj) $$ HR with ⟨Hcg, Htk⟩
  imodintro
  isplitl [HH]; · iexact HH
  isplitl [Hcg Htk]
  · rw [bigSep_sep' (Finset.univ : Finset (Dev nD))]
    have one : ∀ Φ : Fin 1 → Dev nD → sProp 𝕄, (bigSep Finset.univ fun d => bigSep Finset.univ fun p => Φ p d) ⊢ bigSep Finset.univ fun d => Φ 0 d :=
      fun Φ => bigSep_mono fun d _ => Entails.of_eq (bigSep_univ_of_subsingleton (0 : Fin 1))
    isplitl [Hcg]
    · iapply (SparseCore.ent (one (Pipeline.cellsGhost cfgs (ER (F := F))))); iexact Hcg
    · iapply (SparseCore.ent (one (Pipeline.toksInit cfgs (ER (F := F))))); iexact Htk
  rw [Px_emp]; iempintro

def fq (d : Dev nD) (s' : Phys nD τ sig (Elt F)) : Prop :=
  s'.mem.mem ((SparseCore.T d).loc main_v9) = res0 m d ∧ s'.mem.mem ((SparseCore.T d).loc main_v10) = res1 m d
  ∧ s'.mem.mem ((SparseCore.T d).loc main_arg0) = m ((SparseCore.T d).loc main_arg0) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)
  ∧ s'.mem.mem ((SparseCore.T d).loc main_arg4) = m ((SparseCore.T d).loc main_arg4) ∧ s'.mem.mem ((SparseCore.T d).loc main_arg5) = m ((SparseCore.T d).loc main_arg5)

omit [FloatOps F] in
-- a buffer held whole is what the memory holds there
theorem agree {ℓ : Loc nD τ sig} {f : Buf (Elt F) ℓ} (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN held
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton, V12_v9, V12_v10, V12_a0, V12_a1, V12_a2, V12_a3, V12_a4, V12_a5]
  iintro ⟨⟨H9, H10, H0, H1, H2, H3, H4, H5⟩, HSI⟩
  ihave H := (agree s') $$ [HSI H9]
  · isplitl [HSI] <;> iassumption
  icases H with ⟨%h9, HSI⟩
  ihave H := (agree s') $$ [HSI H10]
  · isplitl [HSI] <;> iassumption
  icases H with ⟨%h10, HSI⟩
  ihave H := (agree s') $$ [HSI H0]
  · isplitl [HSI] <;> iassumption
  icases H with ⟨%h0, HSI⟩
  ihave H := (agree s') $$ [HSI H1]
  · isplitl [HSI] <;> iassumption
  icases H with ⟨%h1, HSI⟩
  ihave H := (agree s') $$ [HSI H2]
  · isplitl [HSI] <;> iassumption
  icases H with ⟨%h2, HSI⟩
  ihave H := (agree s') $$ [HSI H3]
  · isplitl [HSI] <;> iassumption
  icases H with ⟨%h3, HSI⟩
  ihave H := (agree s') $$ [HSI H4]
  · isplitl [HSI] <;> iassumption
  icases H with ⟨%h4, HSI⟩
  ihave H := (agree s') $$ [HSI H5]
  · isplitl [HSI] <;> iassumption
  icases H with ⟨%h5, HSI⟩
  ipureintro
  exact ⟨h9, h10, h0, h1, h2, h3, h4, h5⟩

def QC : PUnit × MemSt nD τ sig (Elt F) → Prop := fun r => ∀ c : Dev nD,
  r.2.mem ((c.tc : Thread nD τ).loc main_v9) = res0 m c ∧ r.2.mem ((c.tc : Thread nD τ).loc main_v10) = res1 m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.KernelIdeal.Launch

end
-- ==== Proof.Bits.Sc.Common.lean ====
import proofs.«212098_g24275155157491_cont_8to1_80_30_alg».proof.Proof.Spec
import proofs.«212098_g24275155157491_cont_8to1_80_30_alg».proof.Proof.Gen.Kernel
import Idealize.ShloMosaic.Lib.SparseCore.Launch
import Idealize.ShloMosaic.Lib.SparseCore.Ops
import Idealize.ShloMosaic.Lib.Pipeline.Kit
import Idealize.ShloMosaic.Lib.Transfers
import Idealize.ShloMosaic.Lib.Tactic

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb

instance ER_landsIn : (ER : Emb UR 𝕄).LandsIn (upEmb : UEmb _ 𝕄) := by unfold ER; infer_instance

variable (m : (ℓ : Loc nD τ sig) → Buf (Elt F) ℓ)

abbrev a0Loc (d : Dev nD) : Loc nD τ sig := (SparseCore.T d).loc main_arg0
abbrev a1Loc (d : Dev nD) : Loc nD τ sig := (SparseCore.T d).loc main_arg1
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

def pad0 (d : Dev nD) : Buf (Elt F) (v1Loc d) := Cert.Spec.padded (m (a0Loc d))
def pad1 (d : Dev nD) : Buf (Elt F) (v2Loc d) := Cert.Spec.padded (m (a1Loc d))
def cnts (d : Dev nD) : Buf (Elt F) (v3Loc d) := Cert.Spec.counts (pad0 m d) (pad1 m d)

def PreOK : Prop := ∀ d : Dev nD, (∀ j, (m (a0Loc d) j).toNat ≤ 99999) ∧ (∀ j, (m (a1Loc d) j).toNat ≤ 99999)

theorem hdivP : 1024 ∣ S1024x208.size 0 := ⟨1, rfl⟩
theorem hdivC : 1024 ∣ S1024x832.size 0 := ⟨1, rfl⟩
abbrev rowP (j : Fin 1024) : Rect S1024x208 := Rect.part (s := S1024x208) (a₀ := 0) hdivP j
abbrev rowC (j : Fin 1024) : Rect S1024x832 := Rect.part (s := S1024x832) (a₀ := 0) hdivC j
abbrev rowSetP (j : Fin 1024) : Finset S1024x208.Idx := (rowP j).set
abbrev rowSetC (j : Fin 1024) : Finset S1024x832.Idx := (rowC j).set
def rowIx (c : Fin 2) (s : Fin 16) (r : Fin 32) : Fin 1024 := ⟨64 * s.val + 32 * c.val + r.val, by omega⟩

variable [FloatOps F]

abbrev v1Row (d : Dev nD) (j : Fin 1024) : sProp 𝕄 := v1Loc d ↦[rowSetP j]{fullShare} pad0 m d
abbrev v2Row (d : Dev nD) (j : Fin 1024) : sProp 𝕄 := v2Loc d ↦[rowSetP j]{fullShare} pad1 m d
abbrev v3Row (d : Dev nD) (j : Fin 1024) (f : Buf (Elt F) (v3Loc d)) : sProp 𝕄 := v3Loc d ↦[rowSetC j]{fullShare} f

def tileIn (d : Dev nD) (c : Fin 2) (s : Fin 16) : sProp 𝕄 :=
  iprop((bigSep Finset.univ fun r : Fin 32 => v1Row m d (rowIx c s r)) ∗ (bigSep Finset.univ fun r : Fin 32 => v2Row m d (rowIx c s r))
    ∗ bigSep Finset.univ fun r : Fin 32 => iprop(∃ f, v3Row d (rowIx c s r) f))
def tileOut (d : Dev nD) (c : Fin 2) (s : Fin 16) : sProp 𝕄 :=
  iprop((bigSep Finset.univ fun r : Fin 32 => v1Row m d (rowIx c s r)) ∗ (bigSep Finset.univ fun r : Fin 32 => v2Row m d (rowIx c s r))
    ∗ bigSep Finset.univ fun r : Fin 32 => v3Row d (rowIx c s r) (cnts m d))

instance tileIn_storable (d : Dev nD) (c : Fin 2) (s : Fin 16) : BI.Storable (upEmb : UEmb _ 𝕄) (tileIn m d c s) := by
  unfold tileIn; infer_instance
instance tileOut_storable (d : Dev nD) (c : Fin 2) (s : Fin 16) : BI.Storable (upEmb : UEmb _ 𝕄) (tileOut m d c s) := by
  unfold tileOut; infer_instance

def P : (K (F := F)).Pay (nD := nD) (Val := Elt F) (Name := ℕ) (U := UU) where
  st := fun q d c => match q with | 0 => bigSep Finset.univ fun s : Fin 16 => tileIn m d (Fin.cast nCore_zero c) s
  dn := fun q d c => match q with | 0 => bigSep Finset.univ fun s : Fin 16 => tileOut m d (Fin.cast nCore_zero c) s
  go := fun q d c i => match q with | 0 => tileIn m d (Fin.cast nCore_zero c) (Fin.cast nSub_zero i)
  td := fun q d c i => match q with | 0 => tileOut m d (Fin.cast nCore_zero c) (Fin.cast nSub_zero i)
  x := fun _ _ => iprop(emp)

set_option maxHeartbeats 4000000 in
instance P_storable : (P (F := F) m).IsStorable where
  st q d c := match q with
    | 0 => (inferInstance : BI.Storable (upEmb : UEmb _ 𝕄) (bigSep Finset.univ fun s : Fin 16 => tileIn m d (Fin.cast nCore_zero c) s))
  dn q d c := match q with
    | 0 => (inferInstance : BI.Storable (upEmb : UEmb _ 𝕄) (bigSep Finset.univ fun s : Fin 16 => tileOut m d (Fin.cast nCore_zero c) s))
  go q d c i := match q with
    | 0 => (inferInstance : BI.Storable (upEmb : UEmb _ 𝕄) (tileIn m d (Fin.cast nCore_zero c) (Fin.cast nSub_zero i)))
  td q d c i := match q with
    | 0 => (inferInstance : BI.Storable (upEmb : UEmb _ 𝕄) (tileOut m d (Fin.cast nCore_zero c) (Fin.cast nSub_zero i)))

end Cert.Kernel.Sc

end
-- ==== Proof.Bits.Sc.Split.lean ====
import proofs.«212098_g24275155157491_cont_8to1_80_30_alg».proof.Proof.Bits.Sc.Common

noncomputable section

namespace Cert.Kernel.Sc

open Cert.Kernel Cert.Kernel.Gen Idealize.ShloMosaic Idealize.SL Idealize.SL.RA Idealize.SL.BI
open Idealize.ShloMosaic.SparseCore.Cfg (HIx)
open scoped Idealize.SL.BI
open Idealize.SL.BI.BIBase Idealize.SL.BI.Laws Idealize.SL.Sem

variable {F : FTy → Type}

local notation "𝕄" => MT nD τ sig (HIx 1) (Elt F) ℕ UU ℕ

variable (m : (ℓ : Loc nD τ sig) → Buf (Elt F) ℓ)

-- The element is the product of its first factor and the rest, and the rest likewise; the last factor is dropped.
theorem ownU_split3 (a : UH) (b : UR) (c : Counters) :
    (ownU ((a, (b, c)) : UU) : sProp 𝕄) ⊢ iprop(BI.own (EH a) ∗ BI.own (ER b)) :=
  let E := (uEmb (nD := nD) (sig := sig) (Ix := HIx 1) (Val := Elt F) (Name := ℕ) (U := UU) (Lvl := ℕ)).toEmb
  (BI.own_op_elim (E.op_of_mem (Prod.mk_mem_op (URA.mem_op_one a) (URA.mem_one_op ((b, c) : UR × Counters))))).trans
    (sep_mono_r ((BI.own_op_elim (E.op_of_mem
      (Prod.mk_mem_op (URA.mem_op_one (1 : UH)) (Prod.mk_mem_op (URA.mem_op_one b) (URA.mem_one_op c))))).trans
        ((sep_mono_r affine).trans sep_emp_elim)))

-- Row `64 s + 32 c + r` determines `c`, `s` and `r`.
def rowEquiv : Fin 2 × Fin 16 × Fin 32 ≃ Fin 1024 where
  toFun x := rowIx x.1 x.2.1 x.2.2
  invFun j := (⟨(j.val / 32) % 2, by omega⟩, ⟨j.val / 64, by omega⟩, ⟨j.val % 32, by omega⟩)
  left_inv x := by
    obtain ⟨c, s, r⟩ := x
    refine Prod.ext (Fin.ext ?_) (Prod.ext (Fin.ext ?_) (Fin.ext ?_)) <;> simp only [rowIx] <;> omega
  right_inv j := by apply Fin.ext; simp only [rowIx]; omega

theorem bigSep_rows (Φ : Fin 1024 → sProp 𝕄) :
    bigSep Finset.univ Φ = bigSep Finset.univ fun c : Fin 2 => bigSep Finset.univ fun s : Fin 16 => bigSep Finset.univ fun r : Fin 32 => Φ (rowIx c s r) := by
  rw [bigSep_univ_equiv rowEquiv Φ, bigSep_univ_prod]
  refine bigSep_congr fun c _ => ?_
  rw [bigSep_univ_prod]; rfl

-- An array held whole is held row by row, the rows being disjoint and covering it.
theorem pts_rows {ℓ : Loc nD τ sig} (R : Fin 1024 → Finset (Idx ℓ)) (hd : ∀ i j, i ≠ j → Disjoint (R i) (R j))
    (hc : Finset.univ.biUnion R = Finset.univ) (f : Buf (Elt F) ℓ) :
    (ℓ ↦{fullShare} f : sProp 𝕄) = bigSep Finset.univ fun c : Fin 2 => bigSep Finset.univ fun s : Fin 16 =>
      bigSep Finset.univ fun r : Fin 32 => ℓ ↦[R (rowIx c s r)]{fullShare} f := by
  rw [← bigSep_rows fun j => ℓ ↦[R j]{fullShare} f, ← pointsTo_biUnion Finset.univ R fun i _ j _ => hd i j, hc]

variable [FloatOps F]

theorem Px_emp : (bigSep Finset.univ fun thr : Thread nD τ => bigSep Finset.univ fun q : Fin 1 => (P (F := F) m).x q thr) = iprop(emp) :=
  (bigSep_congr fun _ _ => bigSep_emp_const (Finset.univ : Finset (Fin 1))).trans (bigSep_emp_const _)

-- The three arrays whole are their rows, SparseCore by SparseCore and task by task.
theorem arrays_rows (d : Dev nD) (f : Buf (Elt F) (v3Loc d)) :
    (iprop((v1Loc d ↦{fullShare} pad0 m d) ∗ (v2Loc d ↦{fullShare} pad1 m d) ∗ (v3Loc d ↦{fullShare} f)) : sProp 𝕄)
      = bigSep Finset.univ fun c : Fin 2 => bigSep Finset.univ fun s : Fin 16 =>
          iprop((bigSep Finset.univ fun r : Fin 32 => v1Row m d (rowIx c s r)) ∗ (bigSep Finset.univ fun r : Fin 32 => v2Row m d (rowIx c s r))
            ∗ bigSep Finset.univ fun r : Fin 32 => v3Row d (rowIx c s r) f) := by
  rw [pts_rows (ℓ := v1Loc d) rowSetP (fun _ _ => Rect.part_disjoint hdivP) (Rect.biUnion_part hdivP),
    pts_rows (ℓ := v2Loc d) rowSetP (fun _ _ => Rect.part_disjoint hdivP) (Rect.biUnion_part hdivP),
    pts_rows (ℓ := v3Loc d) rowSetC (fun _ _ => Rect.part_disjoint hdivC) (Rect.biUnion_part hdivC)]
  simp only [bigSep_sep']

set_option maxHeartbeats 4000000 in
theorem st0_intro (d : Dev nD) (f : Buf (Elt F) (v3Loc d)) :
    iprop((v1Loc d ↦{fullShare} pad0 m d) ∗ (v2Loc d ↦{fullShare} pad1 m d) ∗ (v3Loc d ↦{fullShare} f))
      ⊢ (bigSep Finset.univ fun c : Fin ((K (F := F)).nCore 0) => (P m).st 0 d c : sProp 𝕄) := by
  rw [arrays_rows]
  exact bigSep_mono fun c _ => bigSep_mono fun s _ => sep_mono_r (sep_mono_r (bigSep_mono fun r _ =>
    exists_intro (Φ := fun g : Buf (Elt F) (v3Loc d) => v3Row d (rowIx c s r) g) f))

set_option maxHeartbeats 4000000 in
theorem dn0_elim (d : Dev nD) :
    (bigSep Finset.univ fun c : Fin ((K (F := F)).nCore 0) => (P m).dn 0 d c : sProp 𝕄)
      ⊢ iprop((v1Loc d ↦{fullShare} pad0 m d) ∗ (v2Loc d ↦{fullShare} pad1 m d) ∗ (v3Loc d ↦{fullShare} cnts m d)) := by
  rw [arrays_rows]
  exact Entails.refl _

set_option maxHeartbeats 4000000 in
theorem vecSplit : (K (F := F)).VecSplit' (P m) 0 := by
  intro d c
  show (P m).st 0 d c ⊢ |={Set.univ}=> iprop((P m).st 0 d c ∗ ((P m).dn 0 d c -∗ (P m).dn 0 d c))
  iintro H; imodintro
  isplitl [H]; · iexact H
  iintro H; iexact H

end Cert.Kernel.Sc

end
-- ==== Proof.Bits.Sc.Tile.lean ====
import proofs.«212098_g24275155157491_cont_8to1_80_30_alg».proof.Proof.Bits.Sc.Common
import proofs.«212098_g24275155157491_cont_8to1_80_30_alg».proof.Proof.Gen.Kernel.Skeleton

noncomputable section

namespace Cert.Kernel.Sc

open Cert.Kernel Cert.Kernel.Gen Idealize.ShloMosaic Idealize.SL.Sem
open Idealize.ShloMosaic.SparseCore (V)

variable {F : FTy → Type}

abbrev tV1 : Memref sig .scVector .hbm S1024x208 .i32 := Memref.whole main_v1_scv
abbrev tV2 : Memref sig .scVector .hbm S1024x208 .i32 := Memref.whole main_v2_scv
abbrev tV3 : Memref sig .scVector .hbm S1024x832 .i32 := Memref.whole main_v3_scv
abbrev sTab : Memref sig .scVector .vmem S100096 .i32 := Memref.whole cc0_scratch0
abbrev sSA : Memref sig .scVector .vmem S208 .i32 := Memref.whole cc0_scratch1
abbrev sDA : Memref sig .scVector .vmem S208 .i32 := Memref.whole cc0_scratch2
abbrev sSB : Memref sig .scVector .vmem S208 .i32 := Memref.whole cc0_scratch3
abbrev sDB : Memref sig .scVector .vmem S208 .i32 := Memref.whole cc0_scratch4
abbrev sCA : Memref sig .scVector .vmem S832 .i32 := Memref.whole cc0_scratch5
abbrev sCB : Memref sig .scVector .vmem S832 .i32 := Memref.whole cc0_scratch6

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

abbrev kern [FloatOps F] (L : grid0.Coords) : Prog (TpuEff nD τ sig (Elt F) Λ₀ (.scVector (cV L) (jV L))) PUnit :=
  cc0__sc_kernel L tV1 (Memref.isWhole_whole _) tV2 (Memref.isWhole_whole _) tV3 (Memref.isWhole_whole _)
    sTab (Memref.isWhole_whole _) sSA (Memref.isWhole_whole _) sDA (Memref.isWhole_whole _) sSB (Memref.isWhole_whole _) sDB (Memref.isWhole_whole _)
    sCA (Memref.isWhole_whole _) sCB (Memref.isWhole_whole _) cc0_scratch7 cc0_scratch8 cc0_scratch9 cc0_scratch10 cc0_scratch11 cc0_scratch12

def zeroTab (d : Dev nD) (L : grid0.Coords) : Buf (Elt F) ((thrV d L).loc cc0_scratch0) := fun _ => 0#32

end Cert.Kernel.Sc

end
-- ==== Proof.Bits.Sc.Own.lean ====
import proofs.«212098_g24275155157491_cont_8to1_80_30_alg».proof.Proof.Bits.Sc.Tile

noncomputable section

namespace Cert.Kernel.Sc

open Cert.Kernel Cert.Kernel.Gen Idealize.ShloMosaic Idealize.SL Idealize.SL.RA Idealize.SL.BI
open Idealize.ShloMosaic.SparseCore.Cfg (HIx ownBufs ownSems0 ownCells ownRefs mem_ownCells)
open scoped Idealize.SL.BI
open Idealize.SL.BI.BIBase Idealize.SL.BI.Laws Idealize.SL.Sem

variable {F : FTy → Type}

local notation "𝕄" => MT nD τ sig (HIx 1) (Elt F) ℕ UU ℕ

-- Peeling the distinct members of a list off a conjunction over a finite set, one erasure each.
theorem bigSep_peel {I : Type} [DecidableEq I] (Φ : I → sProp 𝕄) : ∀ (l : List I) (s : Finset I), l.Nodup → (∀ i ∈ l, i ∈ s) →
    bigSep s Φ = l.foldr (fun i R => iprop(Φ i ∗ R)) (bigSep (l.foldl Finset.erase s) Φ)
  | [], _, _, _ => rfl
  | i :: l, s, hn, hs => (SparseCore.bigSep_erase' (hs i (List.mem_cons_self ..))).trans (congrArg _
      (bigSep_peel Φ l (s.erase i) (List.nodup_cons.1 hn).2 fun j hj =>
        Finset.mem_erase_of_ne_of_mem (fun e => (List.nodup_cons.1 hn).1 (e ▸ hj)) (hs j (List.mem_cons_of_mem _ hj))))

variable (d : Dev nD) (L : grid0.Coords)

abbrev cellV (s : DmaSems sig S_) : GSem nD τ sig := (thrV d L, .dma s.sem)

abbrev restCells : Finset (GSem nD τ sig) := (((((((ownCells (thrV d L)).erase (cellV d L cc0_scratch7)).erase (cellV d L cc0_scratch8)).erase (cellV d L cc0_scratch9)).erase (cellV d L cc0_scratch10)).erase (cellV d L cc0_scratch11)).erase (cellV d L cc0_scratch12))
abbrev restRefs : Finset (DevRef τ sig) := ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))

theorem ownSems0_V :
    (ownSems0 (thrV d L) : sProp 𝕄)
      = iprop(semVal (cellV d L cc0_scratch7) 0 ∗ semVal (cellV d L cc0_scratch8) 0 ∗ semVal (cellV d L cc0_scratch9) 0 ∗ semVal (cellV d L cc0_scratch10) 0 ∗ semVal (cellV d L cc0_scratch11) 0 ∗ semVal (cellV d L cc0_scratch12) 0
          ∗ bigSep (restCells d L) fun g => semVal g 0) :=
  bigSep_peel (fun g => semVal g 0) ([cc0_scratch7, cc0_scratch8, cc0_scratch9, cc0_scratch10, cc0_scratch11, cc0_scratch12].map (cellV d L)) _
    (List.Nodup.of_map Prod.snd (show ([cc0_scratch7, cc0_scratch8, cc0_scratch9, cc0_scratch10, cc0_scratch11, cc0_scratch12].map fun s : DmaSems sig S_ => (SemLoc.dma s.sem : SemLoc sig)).Nodup by decide))
    (List.forall_mem_map.2 fun s hs => mem_ownCells.mpr ⟨rfl,
      (show ∀ s ∈ ([cc0_scratch7, cc0_scratch8, cc0_scratch9, cc0_scratch10, cc0_scratch11, cc0_scratch12] : List (DmaSems sig S_)), (SemLoc.dma s.sem : SemLoc sig).isScoped .scVector = true by decide) s hs⟩)

theorem ownBufs_V :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f) ∗ (∃ f, (thrV d L).loc cc0_scratch3 ↦{fullShare} f) ∗ (∃ f, (thrV d L).loc cc0_scratch4 ↦{fullShare} f) ∗ (∃ f, (thrV d L).loc cc0_scratch5 ↦{fullShare} f) ∗ (∃ f, (thrV d L).loc cc0_scratch6 ↦{fullShare} f)
          ∗ bigSep (restRefs L) fun b => iprop(∃ f, ((d, b) : Loc nD τ sig) ↦{fullShare} f)) :=
  bigSep_peel (fun b => iprop(∃ f, ((d, b) : Loc nD τ sig) ↦{fullShare} f)) ([cc0_scratch0, cc0_scratch1, cc0_scratch2, cc0_scratch3, cc0_scratch4, cc0_scratch5, cc0_scratch6].map (Proc.scVector (cV L) (jV L)).devRef) _
    ((show ([cc0_scratch0, cc0_scratch1, cc0_scratch2, cc0_scratch3, cc0_scratch4, cc0_scratch5, cc0_scratch6] : List (Ref sig .scVector)).Nodup by decide).map (Proc.devRef_injective _))
    (List.forall_mem_map.2 fun b hb => SparseCore.Cfg.mem_ownRefs_of_owner (by
      simp only [List.mem_cons, List.not_mem_nil, or_false] at hb
      rcases hb with rfl | rfl | rfl | rfl | rfl | rfl | rfl <;> rfl))

end Cert.Kernel.Sc

end
-- ==== Proof.Bits.Sc.Pairs.lean ====
import proofs.«212098_g24275155157491_cont_8to1_80_30_alg».proof.Proof.Bits.Sc.Tile

noncomputable section

namespace Cert.Kernel.Sc

open Cert.Kernel Cert.Kernel.Gen Idealize.ShloMosaic Idealize.SL Idealize.SL.RA Idealize.SL.BI
open Idealize.ShloMosaic.SparseCore.Cfg (HIx)
open scoped Idealize.SL.BI
open Idealize.SL.BI.BIBase Idealize.SL.BI.Laws Idealize.SL.Sem

variable {F : FTy → Type}

variable [FloatOps F]

local notation "𝕄" => MT nD τ sig (HIx 1) (Elt F) ℕ UU ℕ

def r0 (p : Fin 16) : Fin 32 := ⟨2 * p.val, by omega⟩
def r1 (p : Fin 16) : Fin 32 := ⟨2 * p.val + 1, by omega⟩

-- Row `2 p + b` is row `b` of pair `p`.
theorem bigSep_pairs (Φ : Fin 32 → sProp 𝕄) :
    bigSep Finset.univ Φ = bigSep Finset.univ fun p : Fin 16 => iprop(Φ (r0 p) ∗ Φ (r1 p)) := by
  rw [BI.bigSep_univ_equiv (finProdFinEquiv : Fin 16 × Fin 2 ≃ Fin 32) Φ, BI.bigSep_univ_prod]
  refine BI.bigSep_congr fun p _ => ?_
  rw [bigSep_univ_two]
  have e0 : (finProdFinEquiv : Fin 16 × Fin 2 ≃ Fin 32) (p, 0) = r0 p := Fin.ext (by simp [finProdFinEquiv, r0] <;> omega)
  have e1 : (finProdFinEquiv : Fin 16 × Fin 2 ≃ Fin 32) (p, 1) = r1 p := Fin.ext (by simp [finProdFinEquiv, r1] <;> omega)
  rw [e0, e1]

-- Three conjunctions over the rows, regrouped pair by pair.
theorem pairs3 (A B C : Fin 32 → sProp 𝕄) :
    iprop(bigSep Finset.univ A ∗ bigSep Finset.univ B ∗ bigSep Finset.univ C)
      = bigSep Finset.univ fun p : Fin 16 => iprop((A (r0 p) ∗ B (r0 p) ∗ A (r1 p) ∗ B (r1 p)) ∗ (C (r0 p) ∗ C (r1 p))) := by
  rw [bigSep_pairs A, bigSep_pairs B, bigSep_pairs C, ← bigSep_sep', ← bigSep_sep']
  refine BI.bigSep_congr fun p _ => BI.equiv_iff.mp ⟨?_, ?_⟩ <;> change (_ : sProp 𝕄) ⊢ _
  · iintro ⟨⟨A0, A1⟩, ⟨B0, B1⟩, C0, C1⟩
    iframe A0 A1 B0 B1 C0 C1
  · iintro ⟨⟨A0, B0, A1, B1⟩, C0, C1⟩
    iframe A0 A1 B0 B1 C0 C1

variable (m : (ℓ : Loc nD τ sig) → Buf (Elt F) ℓ)

theorem tileIn_pairs (d : Dev nD) (c : Fin 2) (s : Fin 16) :
    tileIn m d c s = bigSep Finset.univ fun p : Fin 16 =>
      iprop((v1Row m d (rowIx c s (r0 p)) ∗ v2Row m d (rowIx c s (r0 p)) ∗ v1Row m d (rowIx c s (r1 p)) ∗ v2Row m d (rowIx c s (r1 p)))
        ∗ ((∃ f, v3Row d (rowIx c s (r0 p)) f) ∗ (∃ f, v3Row d (rowIx c s (r1 p)) f))) :=
  pairs3 (fun r => v1Row m d (rowIx c s r)) (fun r => v2Row m d (rowIx c s r)) fun r => iprop(∃ f, v3Row d (rowIx c s r) f)

theorem tileOut_pairs (d : Dev nD) (c : Fin 2) (s : Fin 16) :
    tileOut m d c s = bigSep Finset.univ fun p : Fin 16 =>
      iprop((v1Row m d (rowIx c s (r0 p)) ∗ v2Row m d (rowIx c s (r0 p)) ∗ v1Row m d (rowIx c s (r1 p)) ∗ v2Row m d (rowIx c s (r1 p)))
        ∗ (v3Row d (rowIx c s (r0 p)) (cnts m d) ∗ v3Row d (rowIx c s (r1 p)) (cnts m d))) :=
  pairs3 (fun r => v1Row m d (rowIx c s r)) (fun r => v2Row m d (rowIx c s r)) fun r => v3Row d (rowIx c s r) (cnts m d)

end Cert.Kernel.Sc

end
-- ==== Proof.Bits.Sc.Rows.lean ====
import proofs.«212098_g24275155157491_cont_8to1_80_30_alg».proof.Proof.Bits.Sc.Own
import proofs.«212098_g24275155157491_cont_8to1_80_30_alg».proof.Proof.Bits.Sc.Pairs

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section
variable (d : Dev nD) (L : grid0.Coords)
theorem pts_sTab (f : Buf (Elt F) ((thrV d L).loc cc0_scratch0)) :
    ((thrV d L).loc cc0_scratch0 ↦{fullShare} f : sProp 𝕄) = (sTab.view.loc (thrV d L) ↦{fullShare} f) := rfl
theorem pts_sSA (f : Buf (Elt F) ((thrV d L).loc cc0_scratch1)) :
    ((thrV d L).loc cc0_scratch1 ↦{fullShare} f : sProp 𝕄) = (sSA.view.loc (thrV d L) ↦{fullShare} f) := rfl
theorem pts_sDA (f : Buf (Elt F) ((thrV d L).loc cc0_scratch2)) :
    ((thrV d L).loc cc0_scratch2 ↦{fullShare} f : sProp 𝕄) = (sDA.view.loc (thrV d L) ↦{fullShare} f) := rfl
theorem pts_sSB (f : Buf (Elt F) ((thrV d L).loc cc0_scratch3)) :
    ((thrV d L).loc cc0_scratch3 ↦{fullShare} f : sProp 𝕄) = (sSB.view.loc (thrV d L) ↦{fullShare} f) := rfl
theorem pts_sDB (f : Buf (Elt F) ((thrV d L).loc cc0_scratch4)) :
    ((thrV d L).loc cc0_scratch4 ↦{fullShare} f : sProp 𝕄) = (sDB.view.loc (thrV d L) ↦{fullShare} f) := rfl
theorem pts_sCA (f : Buf (Elt F) ((thrV d L).loc cc0_scratch5)) :
    ((thrV d L).loc cc0_scratch5 ↦{fullShare} f : sProp 𝕄) = (sCA.view.loc (thrV d L) ↦{fullShare} f) := rfl
theorem pts_sCB (f : Buf (Elt F) ((thrV d L).loc cc0_scratch6)) :
    ((thrV d L).loc cc0_scratch6 ↦{fullShare} f : sProp 𝕄) = (sCB.view.loc (thrV d L) ↦{fullShare} f) := rfl
end

variable (m : (ℓ : Loc nD τ sig) → Buf (Elt F) ℓ) [FloatOps F]
variable (d : Dev nD) (L : grid0.Coords)

abbrev rowM1 (off : Fin 2 → ℕ) (h : ∀ a, off a + S1x208.size a ≤ S1024x208.size a) : Memref sig .scVector .hbm S208 .i32 :=
  (tV1.slice (Rect.unit (s := S1024x208) off S1x208.size h) (fun _ => rfl)).squeeze S208 squeezes_S1x208_S208
abbrev rowM2 (off : Fin 2 → ℕ) (h : ∀ a, off a + S1x208.size a ≤ S1024x208.size a) : Memref sig .scVector .hbm S208 .i32 :=
  (tV2.slice (Rect.unit (s := S1024x208) off S1x208.size h) (fun _ => rfl)).squeeze S208 squeezes_S1x208_S208
abbrev rowM3 (off : Fin 2 → ℕ) (h : ∀ a, off a + S1x832.size a ≤ S1024x832.size a) : Memref sig .scVector .hbm S832 .i32 :=
  (tV3.slice (Rect.unit (s := S1024x832) off S1x832.size h) (fun _ => rfl)).squeeze S832 squeezes_S1x832_S832

theorem rect_rowP (off : Fin 2 → ℕ) (h : ∀ a, off a + S1x208.size a ≤ S1024x208.size a) (j : Fin 1024) (hj : off = ![j.val, 0]) :
    Rect.unit (s := S1024x208) off S1x208.size h = rowP j := by
  subst hj
  unfold rowP Rect.part Rect.block
  congr 1 <;> funext a <;> fin_cases a <;> simp [Shape.partIx, Shape.partSize]
theorem rect_rowC (off : Fin 2 → ℕ) (h : ∀ a, off a + S1x832.size a ≤ S1024x832.size a) (j : Fin 1024) (hj : off = ![j.val, 0]) :
    Rect.unit (s := S1024x832) off S1x832.size h = rowC j := by
  subst hj
  unfold rowC Rect.part Rect.block
  congr 1 <;> funext a <;> fin_cases a <;> simp [Shape.partIx, Shape.partSize]

theorem set_rowM1 (off : Fin 2 → ℕ) (h : ∀ a, off a + S1x208.size a ≤ S1024x208.size a) (j : Fin 1024) (hj : off = ![j.val, 0]) :
    (rowM1 off h).view.set = rowSetP j :=
  ((View.set_reshape _ _).trans (View.set_slice_whole _ _)).trans (by rw [rect_rowP off h j hj])
theorem set_rowM2 (off : Fin 2 → ℕ) (h : ∀ a, off a + S1x208.size a ≤ S1024x208.size a) (j : Fin 1024) (hj : off = ![j.val, 0]) :
    (rowM2 off h).view.set = rowSetP j :=
  ((View.set_reshape _ _).trans (View.set_slice_whole _ _)).trans (by rw [rect_rowP off h j hj])
theorem set_rowM3 (off : Fin 2 → ℕ) (h : ∀ a, off a + S1x832.size a ≤ S1024x832.size a) (j : Fin 1024) (hj : off = ![j.val, 0]) :
    (rowM3 off h).view.set = rowSetC j :=
  ((View.set_reshape _ _).trans (View.set_slice_whole _ _)).trans (by rw [rect_rowC off h j hj])

theorem pts_rowM1 (off : Fin 2 → ℕ) (h : ∀ a, off a + S1x208.size a ≤ S1024x208.size a) (j : Fin 1024) (hj : off = ![j.val, 0]) (f : Buf (Elt F) (v1Loc d)) :
    ((rowM1 off h).view.loc (thrV d L) ↦[(rowM1 off h).view.set]{fullShare} f : sProp 𝕄) = (v1Loc d ↦[rowSetP j]{fullShare} f) := by
  rw [set_rowM1 off h j hj]
theorem pts_rowM2 (off : Fin 2 → ℕ) (h : ∀ a, off a + S1x208.size a ≤ S1024x208.size a) (j : Fin 1024) (hj : off = ![j.val, 0]) (f : Buf (Elt F) (v2Loc d)) :
    ((rowM2 off h).view.loc (thrV d L) ↦[(rowM2 off h).view.set]{fullShare} f : sProp 𝕄) = (v2Loc d ↦[rowSetP j]{fullShare} f) := by
  rw [set_rowM2 off h j hj]
theorem pts_rowM3 (off : Fin 2 → ℕ) (h : ∀ a, off a + S1x832.size a ≤ S1024x832.size a) (j : Fin 1024) (hj : off = ![j.val, 0]) (f : Buf (Elt F) (v3Loc d)) :
    ((rowM3 off h).view.loc (thrV d L) ↦[(rowM3 off h).view.set]{fullShare} f : sProp 𝕄) = (v3Loc d ↦[rowSetC j]{fullShare} f) := by
  rw [set_rowM3 off h j hj]

def rowOff (j : Fin 1024) : Fin 2 → ℕ := ![j.val, 0]
theorem rowOff_inbP (j : Fin 1024) : ∀ a, rowOff j a + S1x208.size a ≤ S1024x208.size a := by
  intro a; fin_cases a <;> simp [rowOff] <;> omega

abbrev jr (r : Fin 32) : Fin 1024 := rowIx (cL L) (sL L) r

abbrev idFlight (sem : DmaSems sig S_) (buf : Memref sig .scVector .vmem S208 .i32) (val : Buf (Elt F) (buf.view.loc (thrV d L))) (row : sProp 𝕄) : sProp 𝕄 :=
  Transfers.Flight countersEmb (thrV d L) (SemLoc.dma sem.sem) (default : HIx 1) 6656 iprop((buf.view.loc (thrV d L) ↦{fullShare} val) ∗ row)

-- one bound on a vector's lanes bounds the index each lane names
theorem chk_of {v : IVec S16 32} (h : ∀ x, (v x).toNat < 100096) :
    (∀ a x, ((![v] : Fin 1 → IVec S16 32) a x).toNat < S100096.size a) ∧ (∀ a x, ((![v] : Fin 1 → IVec S16 32) a x).toNat < S100096.size a)
      ∧ (∀ a x, ((![v] : Fin 1 → IVec S16 32) a x).toNat < S100096.size a) ∧ (∀ a x, ((![v] : Fin 1 → IVec S16 32) a x).toNat < S100096.size a) :=
  have H : ∀ a x, ((![v] : Fin 1 → IVec S16 32) a x).toNat < S100096.size a := fun a x => by
    obtain rfl : a = 0 := Subsingleton.elim _ _; exact h x
  ⟨H, H, H, H⟩

def rowBufSA (j : Fin 1024) : Buf (Elt F) (sSA.view.loc (thrV d L)) :=
  (rowM1 (rowOff j) (rowOff_inbP j)).view.read (Elt F) (pad0 m d)
def rowBufDA (j : Fin 1024) : Buf (Elt F) (sDA.view.loc (thrV d L)) :=
  (rowM2 (rowOff j) (rowOff_inbP j)).view.read (Elt F) (pad1 m d)
def rowBufSB (j : Fin 1024) : Buf (Elt F) (sSB.view.loc (thrV d L)) :=
  (rowM1 (rowOff j) (rowOff_inbP j)).view.read (Elt F) (pad0 m d)
def rowBufDB (j : Fin 1024) : Buf (Elt F) (sDB.view.loc (thrV d L)) :=
  (rowM2 (rowOff j) (rowOff_inbP j)).view.read (Elt F) (pad1 m d)

section
variable (hpre : PreOK m) (j : Fin 1024) (off : ℕ) (h : ∀ a, (![off] : Fin 1 → ℕ) a + S16.size a ≤ S208.size a)
include hpre

-- an id or the padding word is below the table's length
theorem pad0_lt (i : S1024x208.Idx) : (pad0 m d i).toNat < 100096 := by
  unfold pad0 Cert.Spec.padded
  split
  · exact Nat.lt_of_le_of_lt ((hpre d).1 _) (by decide)
  · decide
theorem pad1_lt (i : S1024x208.Idx) : (pad1 m d i).toNat < 100096 := by
  unfold pad1 Cert.Spec.padded
  split
  · exact Nat.lt_of_le_of_lt ((hpre d).2 _) (by decide)
  · decide

theorem readAt_lt_SA (x : S16.Idx) :
    ((sSA.view.readAt (Elt F) (Rect.unit (s := S208) ![off] S16.size h).toLoadRect (rowBufSA m d L j)) x).toNat < 100096 := by
  simp only [View.readAt_apply, Memref.view_whole, View.read_whole]
  unfold rowBufSA; rw [View.read_apply]; exact pad0_lt m d hpre _
theorem readAt_lt_DA (x : S16.Idx) :
    ((sDA.view.readAt (Elt F) (Rect.unit (s := S208) ![off] S16.size h).toLoadRect (rowBufDA m d L j)) x).toNat < 100096 := by
  simp only [View.readAt_apply, Memref.view_whole, View.read_whole]
  unfold rowBufDA; rw [View.read_apply]; exact pad1_lt m d hpre _
theorem readAt_lt_SB (x : S16.Idx) :
    ((sSB.view.readAt (Elt F) (Rect.unit (s := S208) ![off] S16.size h).toLoadRect (rowBufSB m d L j)) x).toNat < 100096 := by
  simp only [View.readAt_apply, Memref.view_whole, View.read_whole]
  unfold rowBufSB; rw [View.read_apply]; exact pad0_lt m d hpre _
theorem readAt_lt_DB (x : S16.Idx) :
    ((sDB.view.readAt (Elt F) (Rect.unit (s := S208) ![off] S16.size h).toLoadRect (rowBufDB m d L j)) x).toNat < 100096 := by
  simp only [View.readAt_apply, Memref.view_whole, View.read_whole]
  unfold rowBufDB; rw [View.read_apply]; exact pad1_lt m d hpre _

theorem chk1_of : k0_chk1 (sSA.view.readAt (Elt F) (Rect.unit (s := S208) ![off] S16.size h).toLoadRect (rowBufSA m d L j)) :=
  chk_of (readAt_lt_SA m d L hpre j off h)
theorem chk2_of : k0_chk2 (sSA.view.readAt (Elt F) (Rect.unit (s := S208) ![off] S16.size h).toLoadRect (rowBufSA m d L j)) :=
  chk_of (readAt_lt_SA m d L hpre j off h)
theorem chk3_of : k0_chk3 (sSA.view.readAt (Elt F) (Rect.unit (s := S208) ![off] S16.size h).toLoadRect (rowBufSA m d L j)) :=
  chk_of (readAt_lt_SA m d L hpre j off h)
theorem chk4_of : k0_chk4 (sSA.view.readAt (Elt F) (Rect.unit (s := S208) ![off] S16.size h).toLoadRect (rowBufSA m d L j)) :=
  chk_of (readAt_lt_SA m d L hpre j off h)
theorem chk5_of : k0_chk5 (sSA.view.readAt (Elt F) (Rect.unit (s := S208) ![off] S16.size h).toLoadRect (rowBufSA m d L j)) :=
  chk_of (readAt_lt_SA m d L hpre j off h)
theorem chk6_of : k0_chk6 (sSA.view.readAt (Elt F) (Rect.unit (s := S208) ![off] S16.size h).toLoadRect (rowBufSA m d L j)) :=
  chk_of (readAt_lt_SA m d L hpre j off h)
theorem chk7_of : k0_chk7 (sSA.view.readAt (Elt F) (Rect.unit (s := S208) ![off] S16.size h).toLoadRect (rowBufSA m d L j)) :=
  chk_of (readAt_lt_SA m d L hpre j off h)
theorem chk8_of : k0_chk8 (sSA.view.readAt (Elt F) (Rect.unit (s := S208) ![off] S16.size h).toLoadRect (rowBufSA m d L j)) :=
  chk_of (readAt_lt_SA m d L hpre j off h)
theorem chk9_of : k0_chk9 (sSA.view.readAt (Elt F) (Rect.unit (s := S208) ![off] S16.size h).toLoadRect (rowBufSA m d L j)) :=
  chk_of (readAt_lt_SA m d L hpre j off h)
theorem chk10_of : k0_chk10 (sSA.view.readAt (Elt F) (Rect.unit (s := S208) ![off] S16.size h).toLoadRect (rowBufSA m d L j)) :=
  chk_of (readAt_lt_SA m d L hpre j off h)
theorem chk11_of : k0_chk11 (sSA.view.readAt (Elt F) (Rect.unit (s := S208) ![off] S16.size h).toLoadRect (rowBufSA m d L j)) :=
  chk_of (readAt_lt_SA m d L hpre j off h)
theorem chk12_of : k0_chk12 (sSA.view.readAt (Elt F) (Rect.unit (s := S208) ![off] S16.size h).toLoadRect (rowBufSA m d L j)) :=
  chk_of (readAt_lt_SA m d L hpre j off h)
theorem chk13_of : k0_chk13 (sSA.view.readAt (Elt F) (Rect.unit (s := S208) ![off] S16.size h).toLoadRect (rowBufSA m d L j)) :=
  chk_of (readAt_lt_SA m d L hpre j off h)
theorem chk14_of : k0_chk14 (sDA.view.readAt (Elt F) (Rect.unit (s := S208) ![off] S16.size h).toLoadRect (rowBufDA m d L j)) :=
  chk_of (readAt_lt_DA m d L hpre j off h)
theorem chk27_of : k0_chk27 (sSB.view.readAt (Elt F) (Rect.unit (s := S208) ![off] S16.size h).toLoadRect (rowBufSB m d L j)) :=
  chk_of (readAt_lt_SB m d L hpre j off h)
theorem chk28_of : k0_chk28 (sSB.view.readAt (Elt F) (Rect.unit (s := S208) ![off] S16.size h).toLoadRect (rowBufSB m d L j)) :=
  chk_of (readAt_lt_SB m d L hpre j off h)
theorem chk29_of : k0_chk29 (sSB.view.readAt (Elt F) (Rect.unit (s := S208) ![off] S16.size h).toLoadRect (rowBufSB m d L j)) :=
  chk_of (readAt_lt_SB m d L hpre j off h)
theorem chk30_of : k0_chk30 (sSB.view.readAt (Elt F) (Rect.unit (s := S208) ![off] S16.size h).toLoadRect (rowBufSB m d L j)) :=
  chk_of (readAt_lt_SB m d L hpre j off h)
theorem chk31_of : k0_chk31 (sSB.view.readAt (Elt F) (Rect.unit (s := S208) ![off] S16.size h).toLoadRect (rowBufSB m d L j)) :=
  chk_of (readAt_lt_SB m d L hpre j off h)
theorem chk32_of : k0_chk32 (sSB.view.readAt (Elt F) (Rect.unit (s := S208) ![off] S16.size h).toLoadRect (rowBufSB m d L j)) :=
  chk_of (readAt_lt_SB m d L hpre j off h)
theorem chk33_of : k0_chk33 (sSB.view.readAt (Elt F) (Rect.unit (s := S208) ![off] S16.size h).toLoadRect (rowBufSB m d L j)) :=
  chk_of (readAt_lt_SB m d L hpre j off h)
theorem chk34_of : k0_chk34 (sSB.view.readAt (Elt F) (Rect.unit (s := S208) ![off] S16.size h).toLoadRect (rowBufSB m d L j)) :=
  chk_of (readAt_lt_SB m d L hpre j off h)
theorem chk35_of : k0_chk35 (sSB.view.readAt (Elt F) (Rect.unit (s := S208) ![off] S16.size h).toLoadRect (rowBufSB m d L j)) :=
  chk_of (readAt_lt_SB m d L hpre j off h)
theorem chk36_of : k0_chk36 (sSB.view.readAt (Elt F) (Rect.unit (s := S208) ![off] S16.size h).toLoadRect (rowBufSB m d L j)) :=
  chk_of (readAt_lt_SB m d L hpre j off h)
theorem chk37_of : k0_chk37 (sSB.view.readAt (Elt F) (Rect.unit (s := S208) ![off] S16.size h).toLoadRect (rowBufSB m d L j)) :=
  chk_of (readAt_lt_SB m d L hpre j off h)
theorem chk38_of : k0_chk38 (sSB.view.readAt (Elt F) (Rect.unit (s := S208) ![off] S16.size h).toLoadRect (rowBufSB m d L j)) :=
  chk_of (readAt_lt_SB m d L hpre j off h)
theorem chk39_of : k0_chk39 (sSB.view.readAt (Elt F) (Rect.unit (s := S208) ![off] S16.size h).toLoadRect (rowBufSB m d L j)) :=
  chk_of (readAt_lt_SB m d L hpre j off h)
theorem chk40_of : k0_chk40 (sDB.view.readAt (Elt F) (Rect.unit (s := S208) ![off] S16.size h).toLoadRect (rowBufDB m d L j)) :=
  chk_of (readAt_lt_DB m d L hpre j off h)
theorem chk41_of : k0_chk41 (sDB.view.readAt (Elt F) (Rect.unit (s := S208) ![off] S16.size h).toLoadRect (rowBufDB m d L j)) :=
  chk_of (readAt_lt_DB m d L hpre j off h)
theorem chk42_of : k0_chk42 (sDB.view.readAt (Elt F) (Rect.unit (s := S208) ![off] S16.size h).toLoadRect (rowBufDB m d L j)) :=
  chk_of (readAt_lt_DB m d L hpre j off h)
theorem chk43_of : k0_chk43 (sDB.view.readAt (Elt F) (Rect.unit (s := S208) ![off] S16.size h).toLoadRect (rowBufDB m d L j)) :=
  chk_of (readAt_lt_DB m d L hpre j off h)
theorem chk44_of : k0_chk44 (sDB.view.readAt (Elt F) (Rect.unit (s := S208) ![off] S16.size h).toLoadRect (rowBufDB m d L j)) :=
  chk_of (readAt_lt_DB m d L hpre j off h)
theorem chk45_of : k0_chk45 (sDB.view.readAt (Elt F) (Rect.unit (s := S208) ![off] S16.size h).toLoadRect (rowBufDB m d L j)) :=
  chk_of (readAt_lt_DB m d L hpre j off h)
theorem chk46_of : k0_chk46 (sDB.view.readAt (Elt F) (Rect.unit (s := S208) ![off] S16.size h).toLoadRect (rowBufDB m d L j)) :=
  chk_of (readAt_lt_DB m d L hpre j off h)
theorem chk47_of : k0_chk47 (sDB.view.readAt (Elt F) (Rect.unit (s := S208) ![off] S16.size h).toLoadRect (rowBufDB m d L j)) :=
  chk_of (readAt_lt_DB m d L hpre j off h)
theorem chk48_of : k0_chk48 (sDB.view.readAt (Elt F) (Rect.unit (s := S208) ![off] S16.size h).toLoadRect (rowBufDB m d L j)) :=
  chk_of (readAt_lt_DB m d L hpre j off h)
theorem chk49_of : k0_chk49 (sDB.view.readAt (Elt F) (Rect.unit (s := S208) ![off] S16.size h).toLoadRect (rowBufDB m d L j)) :=
  chk_of (readAt_lt_DB m d L hpre j off h)
theorem chk50_of : k0_chk50 (sDB.view.readAt (Elt F) (Rect.unit (s := S208) ![off] S16.size h).toLoadRect (rowBufDB m d L j)) :=
  chk_of (readAt_lt_DB m d L hpre j off h)
theorem chk51_of : k0_chk51 (sDB.view.readAt (Elt F) (Rect.unit (s := S208) ![off] S16.size h).toLoadRect (rowBufDB m d L j)) :=
  chk_of (readAt_lt_DB m d L hpre j off h)
theorem chk52_of : k0_chk52 (sDB.view.readAt (Elt F) (Rect.unit (s := S208) ![off] S16.size h).toLoadRect (rowBufDB m d L j)) :=
  chk_of (readAt_lt_DB m d L hpre j off h)
end
theorem cond1_pos (k : Fin k0_t2_loop.trips) (h : k.val + 1 < 16) : k0_cond1 k = 1#1 := by revert k; decide +kernel
theorem cond1_neg (k : Fin k0_t2_loop.trips) (h : ¬ k.val + 1 < 16) : ¬ k0_cond1 k = 1#1 := by revert k; decide +kernel
theorem cond2_pos (k : Fin k0_t2_loop.trips) (h : 0 < k.val) : k0_cond2 k = 1#1 := by revert k; decide +kernel
theorem cond2_neg (k : Fin k0_t2_loop.trips) (h : ¬ 0 < k.val) : ¬ k0_cond2 k = 1#1 := by revert k; decide +kernel
theorem cond3_pos (k : Fin k0_t2_loop.trips) (h : k.val + 1 < 16) : k0_cond3 k = 1#1 := by revert k; decide +kernel
theorem cond3_neg (k : Fin k0_t2_loop.trips) (h : ¬ k.val + 1 < 16) : ¬ k0_cond3 k = 1#1 := by revert k; decide +kernel
theorem cond4_pos (k : Fin k0_t2_loop.trips) (h : 0 < k.val) : k0_cond4 k = 1#1 := by revert k; decide +kernel
theorem cond4_neg (k : Fin k0_t2_loop.trips) (h : ¬ 0 < k.val) : ¬ k0_cond4 k = 1#1 := by revert k; decide +kernel

end Cert.Kernel.Sc

end
-- ==== Proof.Bits.Sc.Inv.lean ====
import proofs.«212098_g24275155157491_cont_8to1_80_30_alg».proof.Proof.Bits.Sc.Rows

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) [FloatOps F]
variable (d : Dev nD) (L : grid0.Coords)

abbrev inRows (p : Fin 16) : sProp 𝕄 :=
  iprop(v1Row m d (jr L (r0 p)) ∗ v2Row m d (jr L (r0 p)) ∗ v1Row m d (jr L (r1 p)) ∗ v2Row m d (jr L (r1 p)))
abbrev outFree (p : Fin 16) : sProp 𝕄 := iprop((∃ f, v3Row d (jr L (r0 p)) f) ∗ (∃ f, v3Row d (jr L (r1 p)) f))
abbrev outDone (p : Fin 16) : sProp 𝕄 := iprop(v3Row d (jr L (r0 p)) (cnts m d) ∗ v3Row d (jr L (r1 p)) (cnts m d))

def inSt (k : ℕ) (p : Fin 16) : sProp 𝕄 := if p.val = k then iprop(emp) else inRows m d L p

def outSt (k : ℕ) (p : Fin 16) : sProp 𝕄 :=
  if p.val + 1 < k then outDone m d L p else if p.val + 1 = k then iprop(emp) else outFree d L p

def idFl (p : Fin 16) : sProp 𝕄 :=
  iprop(idFlight d L cc0_scratch7 sSA (rowBufSA m d L (jr L (r0 p))) (v1Row m d (jr L (r0 p)))
    ∗ idFlight d L cc0_scratch8 sDA (rowBufDA m d L (jr L (r0 p))) (v2Row m d (jr L (r0 p)))
    ∗ idFlight d L cc0_scratch9 sSB (rowBufSB m d L (jr L (r1 p))) (v1Row m d (jr L (r1 p)))
    ∗ idFlight d L cc0_scratch10 sDB (rowBufDB m d L (jr L (r1 p))) (v2Row m d (jr L (r1 p))))

def idHeld : sProp 𝕄 :=
  iprop((∃ f, sSA.view.loc (thrV d L) ↦{fullShare} f) ∗ (∃ f, sDA.view.loc (thrV d L) ↦{fullShare} f)
    ∗ (∃ f, sSB.view.loc (thrV d L) ↦{fullShare} f) ∗ (∃ f, sDB.view.loc (thrV d L) ↦{fullShare} f)
    ∗ semVal (cellV d L cc0_scratch7) 0 ∗ semVal (cellV d L cc0_scratch8) 0 ∗ semVal (cellV d L cc0_scratch9) 0 ∗ semVal (cellV d L cc0_scratch10) 0)

abbrev cntFlight (sem : DmaSems sig S_) (buf : Memref sig .scVector .vmem S832 .i32) (C : Buf (Elt F) (buf.view.loc (thrV d L))) (j : Fin 1024) : sProp 𝕄 :=
  Transfers.Flight countersEmb (thrV d L) (SemLoc.dma sem.sem) (default : HIx 1) 26624
    iprop(v3Row d j (cnts m d) ∗ (buf.view.loc (thrV d L) ↦{fullShare} C))

def cntFl (p : Fin 16) : sProp 𝕄 :=
  iprop((∃ C, cntFlight m d L cc0_scratch11 sCA C (jr L (r0 p))) ∗ (∃ C, cntFlight m d L cc0_scratch12 sCB C (jr L (r1 p))))

def cntHeld : sProp 𝕄 :=
  iprop((∃ C, sCA.view.loc (thrV d L) ↦{fullShare} C) ∗ (∃ C, sCB.view.loc (thrV d L) ↦{fullShare} C)
    ∗ semVal (cellV d L cc0_scratch11) 0 ∗ semVal (cellV d L cc0_scratch12) 0)

def idSt (k : ℕ) : sProp 𝕄 := if h : k < 16 then idFl m d L ⟨k, h⟩ else idHeld d L
def cntSt (k : ℕ) : sProp 𝕄 := if h : 0 < k ∧ k ≤ 16 then cntFl m d L ⟨k - 1, by omega⟩ else cntHeld d L

def invT (O : CellTallies nD τ sig (HIx 1)) (W : Waits sig (HIx 1)) (k : ℕ) (_ : PUnit) : sProp 𝕄 :=
  iprop((sTab.view.loc (thrV d L) ↦{fullShare} zeroTab d L)
    ∗ (bigSep Finset.univ fun p : Fin 16 => inSt m d L k p) ∗ (bigSep Finset.univ fun p : Fin 16 => outSt m d L k p)
    ∗ idSt m d L k ∗ cntSt m d L k
    ∗ ∃ W', ⌜∀ p ∈ W', p ∈ W ∨ p.2 = none⌝ ∗ owes (thrV d L) O W')

section Steps
open Idealize.SL.BI (bigSep_congr bigSep_univ_split bigSep_erase)

theorem bigSep_univ_split2 {I : Type} [Fintype I] [DecidableEq I] (Φ : I → sProp 𝕄) (i j : I) (hij : i ≠ j) :
    bigSep Finset.univ Φ = iprop(Φ i ∗ Φ j ∗ bigSep (((Finset.univ : Finset I).erase i).erase j) Φ) :=
  (BI.bigSep_univ_split i).trans (congrArg (BI.sep (Φ i))
    (BI.bigSep_erase (Finset.mem_erase.2 ⟨hij.symm, Finset.mem_univ _⟩)))

theorem bigSep_rest2 {I : Type} [Fintype I] [DecidableEq I] (Φ Ψ : I → sProp 𝕄) (i j : I)
    (h : ∀ x, x ≠ i → x ≠ j → Ψ x = Φ x) :
    bigSep (((Finset.univ : Finset I).erase i).erase j) Ψ = bigSep (((Finset.univ : Finset I).erase i).erase j) Φ :=
  BI.bigSep_congr fun x hx => h x (Finset.ne_of_mem_erase (Finset.mem_of_mem_erase hx)) (Finset.ne_of_mem_erase hx)

theorem in_step_last (pk : Fin 16) (hpk : pk.val = 15) :
    iprop((bigSep Finset.univ fun q => inSt m d L 15 q) ∗ inRows m d L pk) ⊢ bigSep Finset.univ fun q => inSt m d L 16 q := by
  have hrest : bigSep ((Finset.univ : Finset (Fin 16)).erase pk) (fun q => inSt m d L 16 q)
      = bigSep ((Finset.univ : Finset (Fin 16)).erase pk) (fun q => inSt m d L 15 q) :=
    BI.bigSep_congr fun x hx => by
      have h1 : x.val ≠ 15 := fun e => Finset.ne_of_mem_erase hx (Fin.ext (e.trans hpk.symm))
      have h2 : x.val ≠ 16 := by have := x.isLt; omega
      show inSt m d L 16 x = inSt m d L 15 x
      unfold inSt; rw [if_neg h1, if_neg h2]
  rw [bigSep_univ_at (fun q => inSt m d L 15 q) pk, bigSep_univ_at (fun q => inSt m d L 16 q) pk, hrest]
  have e1 : inSt m d L 15 pk = iprop(emp) := by unfold inSt; rw [if_pos hpk]
  have e2 : inSt m d L 16 pk = inRows m d L pk := by unfold inSt; rw [if_neg (by omega)]
  simp only [e1, e2]
  iintro ⟨⟨He, HR⟩, Hk⟩
  iclear He
  iframe Hk HR

theorem out_step_first (p0 : Fin 16) (hp0 : p0.val = 0) :
    (bigSep Finset.univ fun q => outSt m d L 0 q) ⊢ iprop(outFree d L p0 ∗ bigSep Finset.univ fun q => outSt m d L 1 q) := by
  have hrest : bigSep ((Finset.univ : Finset (Fin 16)).erase p0) (fun q => outSt m d L 1 q)
      = bigSep ((Finset.univ : Finset (Fin 16)).erase p0) (fun q => outSt m d L 0 q) :=
    BI.bigSep_congr fun x hx => by
      have h1 : x.val ≠ 0 := fun e => Finset.ne_of_mem_erase hx (Fin.ext (e.trans hp0.symm))
      show outSt m d L 1 x = outSt m d L 0 x
      unfold outSt; rw [if_neg (by omega), if_neg (by omega), if_neg (by omega), if_neg (by omega)]
  rw [bigSep_univ_at (fun q => outSt m d L 0 q) p0, bigSep_univ_at (fun q => outSt m d L 1 q) p0, hrest]
  have e1 : outSt m d L 0 p0 = outFree d L p0 := by unfold outSt; rw [if_neg (by omega), if_neg (by omega)]
  have e2 : outSt m d L 1 p0 = iprop(emp) := by unfold outSt; rw [if_neg (by omega), if_pos (by omega)]
  simp only [e1, e2]
  iintro ⟨Hf, HR⟩
  iframe Hf
  isplitl []; · iempintro
  iexact HR

theorem inv_start :
    tileIn m d (cL L) (sL L)
      ⊢ iprop(inRows m d L 0 ∗ (bigSep Finset.univ fun q => inSt m d L 0 q) ∗ bigSep Finset.univ fun q => outSt m d L 0 q) := by
  rw [tileIn_pairs]
  show bigSep Finset.univ (fun p : Fin 16 => iprop(inRows m d L p ∗ outFree d L p)) ⊢ _
  rw [bigSep_sep']
  have h0 : ((0 : Fin 16) : ℕ) = 0 := rfl
  have hout : (bigSep Finset.univ fun q => outSt m d L 0 q) = bigSep Finset.univ fun p : Fin 16 => outFree d L p :=
    BI.bigSep_congr fun x _ => by
      show outSt m d L 0 x = outFree d L x
      unfold outSt; rw [if_neg (by omega), if_neg (by omega)]
  have hin : bigSep ((Finset.univ : Finset (Fin 16)).erase 0) (fun q => inSt m d L 0 q)
      = bigSep ((Finset.univ : Finset (Fin 16)).erase 0) fun p => inRows m d L p :=
    BI.bigSep_congr fun x hx => by
      have h1 : x.val ≠ 0 := fun e => Finset.ne_of_mem_erase hx (Fin.ext (e.trans h0.symm))
      show inSt m d L 0 x = inRows m d L x
      unfold inSt; rw [if_neg h1]
  rw [hout, bigSep_univ_at (fun q => inSt m d L 0 q) 0, hin, bigSep_univ_at (fun p : Fin 16 => inRows m d L p) 0]
  have e1 : inSt m d L 0 0 = iprop(emp) := by unfold inSt; rw [if_pos h0]
  simp only [e1]
  iintro ⟨⟨H0, HR⟩, HO⟩
  iframe H0
  isplitl [HR]
  · isplitl []; · iempintro
    iexact HR
  iexact HO

theorem inv_end (p15 : Fin 16) (h : p15.val = 15) :
    iprop((bigSep Finset.univ fun q => inSt m d L 16 q) ∗ (bigSep Finset.univ fun q => outSt m d L 16 q) ∗ outDone m d L p15)
      ⊢ tileOut m d (cL L) (sL L) := by
  rw [tileOut_pairs]
  show _ ⊢ bigSep Finset.univ (fun p : Fin 16 => iprop(inRows m d L p ∗ outDone m d L p))
  rw [bigSep_sep']
  have hin : (bigSep Finset.univ fun q => inSt m d L 16 q) = bigSep Finset.univ fun p : Fin 16 => inRows m d L p :=
    BI.bigSep_congr fun x _ => by
      have h2 : x.val ≠ 16 := by have := x.isLt; omega
      show inSt m d L 16 x = inRows m d L x
      unfold inSt; rw [if_neg h2]
  have hrest : bigSep ((Finset.univ : Finset (Fin 16)).erase p15) (fun q => outSt m d L 16 q)
      = bigSep ((Finset.univ : Finset (Fin 16)).erase p15) fun p => outDone m d L p :=
    BI.bigSep_congr fun x hx => by
      have h1 : x.val ≠ 15 := fun e => Finset.ne_of_mem_erase hx (Fin.ext (e.trans h.symm))
      have h2 : x.val < 16 := x.isLt
      show outSt m d L 16 x = outDone m d L x
      unfold outSt; rw [if_pos (by omega)]
  rw [hin, bigSep_univ_at (fun q => outSt m d L 16 q) p15, hrest, bigSep_univ_at (fun p : Fin 16 => outDone m d L p) p15]
  have e1 : outSt m d L 16 p15 = iprop(emp) := by unfold outSt; rw [if_neg (by omega), if_pos (by omega)]
  simp only [e1]
  iintro ⟨HI, ⟨He, HR⟩, HD⟩
  iclear He
  iframe HI HD HR

end Steps

end Cert.Kernel.Sc

end
-- ==== Proof.Bits.Sc.AtTile.lean ====
import proofs.«212098_g24275155157491_cont_8to1_80_30_alg».proof.Proof.Bits.Sc.Tile

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

/-- A function of a grid point and the kernel's sixteen operands, at the tile of grid point `L`: its arrays, its scratch and its six semaphores. -/
abbrev atTile {β : grid0.Coords → Type 1} (L : grid0.Coords)
    (f : (i : grid0.Coords) → (a2 : Memref sig .scVector .hbm S1024x208 .i32) → a2.IsWhole → (a3 : Memref sig .scVector .hbm S1024x208 .i32) → a3.IsWhole
      → (a4 : Memref sig .scVector .hbm S1024x832 .i32) → a4.IsWhole → (a5 : Memref sig .scVector .vmem S100096 .i32) → a5.IsWhole
      → (a6 : Memref sig .scVector .vmem S208 .i32) → a6.IsWhole → (a7 : Memref sig .scVector .vmem S208 .i32) → a7.IsWhole
      → (a8 : Memref sig .scVector .vmem S208 .i32) → a8.IsWhole → (a9 : Memref sig .scVector .vmem S208 .i32) → a9.IsWhole
      → (a10 : Memref sig .scVector .vmem S832 .i32) → a10.IsWhole → (a11 : Memref sig .scVector .vmem S832 .i32) → a11.IsWhole
      → DmaSems sig S_ → DmaSems sig S_ → DmaSems sig S_ → DmaSems sig S_ → DmaSems sig S_ → DmaSems sig S_ → β i) : β L :=
  f L tV1 (Memref.isWhole_whole _) tV2 (Memref.isWhole_whole _) tV3 (Memref.isWhole_whole _)
    sTab (Memref.isWhole_whole _) sSA (Memref.isWhole_whole _) sDA (Memref.isWhole_whole _) sSB (Memref.isWhole_whole _) sDB (Memref.isWhole_whole _)
    sCA (Memref.isWhole_whole _) sCB (Memref.isWhole_whole _) cc0_scratch7 cc0_scratch8 cc0_scratch9 cc0_scratch10 cc0_scratch11 cc0_scratch12

end Cert.Kernel.Sc

end
-- ==== Proof.Bits.Sc.PartsC.lean ====
import proofs.«212098_g24275155157491_cont_8to1_80_30_alg».proof.Proof.Bits.Sc.Inv
import proofs.«212098_g24275155157491_cont_8to1_80_30_alg».proof.Proof.Bits.Sc.AtTile

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

-- The sixteen words from `o` on of an id buffer.
abbrev vecAt (B : Memref sig .scVector .vmem S208 .i32) (f : B.view.ty.Contents (Elt F)) (o : ℕ)
    (h : ∀ a, (![o] : Fin 1 → ℕ) a + S16.size a ≤ S208.size a) :=
  B.view.readAt (Elt F) (Rect.unit (s := S208) ![o] S16.size h).toLoadRect f

section PartsC
variable (d : Dev nD) (L : grid0.Coords)

theorem part2 {α : Type} {Q : α → sProp 𝕄} (hpre : PreOK m) (O : CellTallies nD τ sig (HIx 1)) (W : Waits sig (HIx 1))
    (v2 c0 c1 : BitVec 32) (k : Fin k0_t2_loop.trips) (j : Fin 1024)
    (kont : (Σ' (arg18 : BitVec 32) (v37 : BitVec 32) (v46 : Vec F S16 .i32) (k0_hw1 : k0_chk1 v46) (v47 : Vec F S16 .i32) (k0_hw2 : k0_chk2 v47) (v48 : Vec F S16 .i32) (k0_hw3 : k0_chk3 v48) (v49 : Vec F S16 .i32) (k0_hw4 : k0_chk4 v49) (v50 : Vec F S16 .i32) (k0_hw5 : k0_chk5 v50) (v51 : Vec F S16 .i32) (k0_hw6 : k0_chk6 v51) (v52 : Vec F S16 .i32) (k0_hw7 : k0_chk7 v52) (v53 : Vec F S16 .i32) (k0_hw8 : k0_chk8 v53) (v54 : Vec F S16 .i32) (k0_hw9 : k0_chk9 v54) (v55 : Vec F S16 .i32) (k0_hw10 : k0_chk10 v55) (v56 : Vec F S16 .i32) (k0_hw11 : k0_chk11 v56) (v57 : Vec F S16 .i32) (k0_hw12 : k0_chk12 v57) (v58 : Vec F S16 .i32) (k0_hw13 : k0_chk13 v58) (v59 : Vec F S16 .i32), k0_chk14 v59) → Prog (TpuEff nD τ sig (Elt F) Λ₀ (thrV d L).2) α) :
    iprop(□ Transfers.MayWaits (thrV d L) (none : HIx 1) O
        ∗ idFlight d L cc0_scratch7 sSA (rowBufSA m d L j) (v1Row m d j)
        ∗ idFlight d L cc0_scratch8 sDA (rowBufDA m d L j) (v2Row m d j)
        ∗ owes (thrV d L) O W
        ∗ (iprop((sSA.view.loc (thrV d L) ↦{fullShare} rowBufSA m d L j) ∗ v1Row m d j
              ∗ semVal (cellV d L cc0_scratch7) 0
              ∗ (sDA.view.loc (thrV d L) ↦{fullShare} rowBufDA m d L j) ∗ v2Row m d j
              ∗ semVal (cellV d L cc0_scratch8) 0
              ∗ owes (thrV d L) O (insert (SemLoc.dma cc0_scratch8.sem, (default : HIx 1)) (insert (SemLoc.dma cc0_scratch7.sem, (default : HIx 1)) W)))
            -∗ wp frame (wpE (defs₀ (F := F)) 𝒱₀ (thrV d L) none) Set.univ
                (kont ⟨Scf.iv c0 c1 k,
              Scalar.addi v2 (Scalar.muli 2#32 (Scf.iv c0 c1 k)),
              vecAt sSA (rowBufSA m d L j) 0 inb_S208_S16_0, chk1_of m d L hpre j 0 inb_S208_S16_0,
              vecAt sSA (rowBufSA m d L j) 16 inb_S208_S16_16, chk2_of m d L hpre j 16 inb_S208_S16_16,
              vecAt sSA (rowBufSA m d L j) 32 inb_S208_S16_32, chk3_of m d L hpre j 32 inb_S208_S16_32,
              vecAt sSA (rowBufSA m d L j) 48 inb_S208_S16_48, chk4_of m d L hpre j 48 inb_S208_S16_48,
              vecAt sSA (rowBufSA m d L j) 64 inb_S208_S16_64, chk5_of m d L hpre j 64 inb_S208_S16_64,
              vecAt sSA (rowBufSA m d L j) 80 inb_S208_S16_80, chk6_of m d L hpre j 80 inb_S208_S16_80,
              vecAt sSA (rowBufSA m d L j) 96 inb_S208_S16_96, chk7_of m d L hpre j 96 inb_S208_S16_96,
              vecAt sSA (rowBufSA m d L j) 112 inb_S208_S16_112, chk8_of m d L hpre j 112 inb_S208_S16_112,
              vecAt sSA (rowBufSA m d L j) 128 inb_S208_S16_128, chk9_of m d L hpre j 128 inb_S208_S16_128,
              vecAt sSA (rowBufSA m d L j) 144 inb_S208_S16_144, chk10_of m d L hpre j 144 inb_S208_S16_144,
              vecAt sSA (rowBufSA m d L j) 160 inb_S208_S16_160, chk11_of m d L hpre j 160 inb_S208_S16_160,
              vecAt sSA (rowBufSA m d L j) 176 inb_S208_S16_176, chk12_of m d L hpre j 176 inb_S208_S16_176,
              vecAt sSA (rowBufSA m d L j) 192 inb_S208_S16_192, chk13_of m d L hpre j 192 inb_S208_S16_192,
              vecAt sDA (rowBufDA m d L j) 0 inb_S208_S16_0, chk14_of m d L hpre j 0 inb_S208_S16_0⟩) Q))
      ⊢ wp frame (wpE (defs₀ (F := F)) 𝒱₀ (thrV d L) none) Set.univ
          (atTile L k0_part2 v2 c0 c1 k >>= kont) Q := by
  iintro ⟨#Hmw, Hf7, Hf8, HO, Hk⟩
  unfold atTile; rw [k0_part2_eq_skeleton]; unfold k0_part2_skel
  sl_exec (disch := first
    | sl_exact chk1_of m d L hpre _ _ _
    | sl_exact chk2_of m d L hpre _ _ _
    | sl_exact chk3_of m d L hpre _ _ _
    | sl_exact chk4_of m d L hpre _ _ _
    | sl_exact chk5_of m d L hpre _ _ _
    | sl_exact chk6_of m d L hpre _ _ _
    | sl_exact chk7_of m d L hpre _ _ _
    | sl_exact chk8_of m d L hpre _ _ _
    | sl_exact chk9_of m d L hpre _ _ _
    | sl_exact chk10_of m d L hpre _ _ _
    | sl_exact chk11_of m d L hpre _ _ _
    | sl_exact chk12_of m d L hpre _ _ _
    | sl_exact chk13_of m d L hpre _ _ _
    | sl_exact chk14_of m d L hpre _ _ _)
  iapply Hk
  isplitl [Hf7_dst]; · iexact Hf7_dst
  isplitl [Hf7_src]; · iexact Hf7_src
  isplitl [Hf7]; · iexact Hf7
  isplitl [Hf8_dst]; · iexact Hf8_dst
  isplitl [Hf8_src]; · iexact Hf8_src
  isplitl [Hf8]; · iexact Hf8
  iexact HO

theorem part14 {α : Type} {Q : α → sProp 𝕄} (hpre : PreOK m) (j : Fin 1024)
    (kont : (Σ' (v409 : Vec F S16 .i32) (k0_hw32 : k0_chk32 v409) (v410 : Vec F S16 .i32) (k0_hw33 : k0_chk33 v410) (v411 : Vec F S16 .i32) (k0_hw34 : k0_chk34 v411) (v412 : Vec F S16 .i32) (k0_hw35 : k0_chk35 v412) (v413 : Vec F S16 .i32) (k0_hw36 : k0_chk36 v413) (v414 : Vec F S16 .i32) (k0_hw37 : k0_chk37 v414) (v415 : Vec F S16 .i32) (k0_hw38 : k0_chk38 v415) (v416 : Vec F S16 .i32) (k0_hw39 : k0_chk39 v416) (v417 : Vec F S16 .i32) (k0_hw40 : k0_chk40 v417) (v418 : Vec F S16 .i32) (k0_hw41 : k0_chk41 v418) (v419 : Vec F S16 .i32) (k0_hw42 : k0_chk42 v419) (v420 : Vec F S16 .i32) (k0_hw43 : k0_chk43 v420) (v421 : Vec F S16 .i32) (k0_hw44 : k0_chk44 v421) (v422 : Vec F S16 .i32) (k0_hw45 : k0_chk45 v422) (v423 : Vec F S16 .i32) (k0_hw46 : k0_chk46 v423) (v424 : Vec F S16 .i32) (k0_hw47 : k0_chk47 v424) (v425 : Vec F S16 .i32) (k0_hw48 : k0_chk48 v425) (v426 : Vec F S16 .i32) (k0_hw49 : k0_chk49 v426) (v427 : Vec F S16 .i32) (k0_hw50 : k0_chk50 v427) (v428 : Vec F S16 .i32), k0_chk51 v428) → Prog (TpuEff nD τ sig (Elt F) Λ₀ (thrV d L).2) α) :
    iprop((sSB.view.loc (thrV d L) ↦{fullShare} rowBufSB m d L j)
        ∗ (sDB.view.loc (thrV d L) ↦{fullShare} rowBufDB m d L j)
        ∗ (iprop((sSB.view.loc (thrV d L) ↦{fullShare} rowBufSB m d L j)
              ∗ (sDB.view.loc (thrV d L) ↦{fullShare} rowBufDB m d L j))
            -∗ wp frame (wpE (defs₀ (F := F)) 𝒱₀ (thrV d L) none) Set.univ
                (kont ⟨vecAt sSB (rowBufSB m d L j) 80 inb_S208_S16_80, chk32_of m d L hpre j 80 inb_S208_S16_80,
              vecAt sSB (rowBufSB m d L j) 96 inb_S208_S16_96, chk33_of m d L hpre j 96 inb_S208_S16_96,
              vecAt sSB (rowBufSB m d L j) 112 inb_S208_S16_112, chk34_of m d L hpre j 112 inb_S208_S16_112,
              vecAt sSB (rowBufSB m d L j) 128 inb_S208_S16_128, chk35_of m d L hpre j 128 inb_S208_S16_128,
              vecAt sSB (rowBufSB m d L j) 144 inb_S208_S16_144, chk36_of m d L hpre j 144 inb_S208_S16_144,
              vecAt sSB (rowBufSB m d L j) 160 inb_S208_S16_160, chk37_of m d L hpre j 160 inb_S208_S16_160,
              vecAt sSB (rowBufSB m d L j) 176 inb_S208_S16_176, chk38_of m d L hpre j 176 inb_S208_S16_176,
              vecAt sSB (rowBufSB m d L j) 192 inb_S208_S16_192, chk39_of m d L hpre j 192 inb_S208_S16_192,
              vecAt sDB (rowBufDB m d L j) 0 inb_S208_S16_0, chk40_of m d L hpre j 0 inb_S208_S16_0,
              vecAt sDB (rowBufDB m d L j) 16 inb_S208_S16_16, chk41_of m d L hpre j 16 inb_S208_S16_16,
              vecAt sDB (rowBufDB m d L j) 32 inb_S208_S16_32, chk42_of m d L hpre j 32 inb_S208_S16_32,
              vecAt sDB (rowBufDB m d L j) 48 inb_S208_S16_48, chk43_of m d L hpre j 48 inb_S208_S16_48,
              vecAt sDB (rowBufDB m d L j) 64 inb_S208_S16_64, chk44_of m d L hpre j 64 inb_S208_S16_64,
              vecAt sDB (rowBufDB m d L j) 80 inb_S208_S16_80, chk45_of m d L hpre j 80 inb_S208_S16_80,
              vecAt sDB (rowBufDB m d L j) 96 inb_S208_S16_96, chk46_of m d L hpre j 96 inb_S208_S16_96,
              vecAt sDB (rowBufDB m d L j) 112 inb_S208_S16_112, chk47_of m d L hpre j 112 inb_S208_S16_112,
              vecAt sDB (rowBufDB m d L j) 128 inb_S208_S16_128, chk48_of m d L hpre j 128 inb_S208_S16_128,
              vecAt sDB (rowBufDB m d L j) 144 inb_S208_S16_144, chk49_of m d L hpre j 144 inb_S208_S16_144,
              vecAt sDB (rowBufDB m d L j) 160 inb_S208_S16_160, chk50_of m d L hpre j 160 inb_S208_S16_160,
              vecAt sDB (rowBufDB m d L j) 176 inb_S208_S16_176, chk51_of m d L hpre j 176 inb_S208_S16_176⟩) Q))
      ⊢ wp frame (wpE (defs₀ (F := F)) 𝒱₀ (thrV d L) none) Set.univ
          (atTile L k0_part14 >>= kont) Q := by
  iintro ⟨HSB, HDB, Hk⟩
  unfold atTile; rw [k0_part14_eq_skeleton]; unfold k0_part14_skel
  sl_exec (disch := first
    | sl_exact chk32_of m d L hpre _ _ _
    | sl_exact chk33_of m d L hpre _ _ _
    | sl_exact chk34_of m d L hpre _ _ _
    | sl_exact chk35_of m d L hpre _ _ _
    | sl_exact chk36_of m d L hpre _ _ _
    | sl_exact chk37_of m d L hpre _ _ _
    | sl_exact chk38_of m d L hpre _ _ _
    | sl_exact chk39_of m d L hpre _ _ _
    | sl_exact chk40_of m d L hpre _ _ _
    | sl_exact chk41_of m d L hpre _ _ _
    | sl_exact chk42_of m d L hpre _ _ _
    | sl_exact chk43_of m d L hpre _ _ _
    | sl_exact chk44_of m d L hpre _ _ _
    | sl_exact chk45_of m d L hpre _ _ _
    | sl_exact chk46_of m d L hpre _ _ _
    | sl_exact chk47_of m d L hpre _ _ _
    | sl_exact chk48_of m d L hpre _ _ _
    | sl_exact chk49_of m d L hpre _ _ _
    | sl_exact chk50_of m d L hpre _ _ _
    | sl_exact chk51_of m d L hpre _ _ _)
  iapply Hk
  iframe HSB HDB

end PartsC

end Cert.Kernel.Sc

end
-- ==== Proof.Bits.Sc.RowVal.lean ====
import proofs.«212098_g24275155157491_cont_8to1_80_30_alg».proof.Proof.Bits.Sc.Rows
import proofs.«212098_g24275155157491_cont_8to1_80_30_alg».proof.Proof.CntMath
import Idealize.ShloMosaic.Lib.ValueIdx

namespace Cert.Kernel.Sc

open Cert.Kernel Cert.Kernel.Gen Idealize.ShloMosaic

variable {F : FTy → Type}

variable (m : (ℓ : Loc nD τ sig) → Buf (Elt F) ℓ) [FloatOps F]
variable (d : Dev nD) (L : grid0.Coords)

omit [FloatOps F] in
-- Both indices have the same row-major position.
theorem reshape_row {n : ℕ} (h : (⟨1, ![n]⟩ : Shape).numel = (⟨2, ![1, n]⟩ : Shape).numel) (l : Fin n) :
    Shape.reshapeEquiv h (ValueIdx.ix1 l) = ValueIdx.ix2 (0 : Fin 1) l :=
  Shape.reshapeEquiv_eq_of_rowMajor h (by
    rw [Shape.rowMajor_val_two, Shape.rowMajor_val_one]
    show 0 * n + l.val = l.val
    omega)

-- Position `l` of row `j` taken as a block of one row is position `(j, l)` of the list.
theorem rowEmb (j : Fin 1024) (l : Fin 208) :
    (Rect.unit (s := S1024x208) (rowOff j) S1x208.size (rowOff_inbP j)).emb
      (Shape.reshapeEquiv squeezes_S1x208_S208.numel_eq (ValueIdx.ix1 l)) = ValueIdx.ix2 j l := by
  rw [reshape_row]
  funext a
  apply Fin.ext
  match a with
  | ⟨0, _⟩ => show j.val + 1 * 0 = j.val; omega
  | ⟨1, _⟩ => show 0 + 1 * l.val = l.val; omega

theorem cnts_rowA (j : Fin 1024) (p : Fin 832) :
    Cert.ScMath.tgtRow (rowBufSA m d L j) (rowBufDA m d L j) (ValueIdx.ix1 p) = cnts m d (ValueIdx.ix2 j p) :=
  Cert.ScMath.tgtRow_eq_counts (pad0 m d) (pad1 m d) j _ _
    (fun l => congrArg (pad0 m d) (rowEmb j l)) (fun l => congrArg (pad1 m d) (rowEmb j l)) p

-- The second pair of id buffers holds the same rows.
theorem cnts_rowB (j : Fin 1024) (p : Fin 832) :
    Cert.ScMath.tgtRow (rowBufSB m d L j) (rowBufDB m d L j) (ValueIdx.ix1 p) = cnts m d (ValueIdx.ix2 j p) :=
  cnts_rowA m d L j p

end Cert.Kernel.Sc
-- ==== Proof.Bits.Sc.Rules.lean ====
import proofs.«212098_g24275155157491_cont_8to1_80_30_alg».proof.Proof.Bits.Sc.Tile
import proofs.«212098_g24275155157491_cont_8to1_80_30_alg».proof.Proof.ScMath

noncomputable section

namespace Cert.Kernel.Sc

open Cert.Kernel Cert.Kernel.Gen Idealize.ShloMosaic Idealize.SL Idealize.SL.RA Idealize.SL.BI
open Idealize.ShloMosaic.SparseCore.Cfg (HIx)
open scoped Idealize.SL.BI
open Idealize.SL.BI.BIBase Idealize.SL.BI.Laws Idealize.SL.Sem
open Idealize.ShloMosaic.Tactic

variable {F : FTy → Type} [FloatOps F]

local notation "𝕄" => MT nD τ sig (HIx 1) (Elt F) ℕ UU ℕ
section Rules
variable (d : Dev nD) (L : grid0.Coords)

theorem tab_sidx {α : Type} {Q : α → sProp 𝕄} {k : PUnit → Prog (TpuEff nD τ sig (Elt F) Λ₀ (thrV d L).2) α}
    {T T' : Buf (Elt F) (sTab.view.loc (thrV d L))} {iv p : IVec S16 32} {add : Bool}
    {h : ∀ a x, ((![iv] : Fin 1 → IVec S16 32) a x).toNat < S100096.size a}
    {hs : (sTab.access (.whole S100096)).Stores Finset.univ}
    (hT : storeIdx (F := F) (s := S100096) (e := .i32) T ![iv] p (fun _ => 1#1) add h = T') :
    (sTab.view.loc (thrV d L) ↦{fullShare} T)
      ⊢ iprop(((sTab.view.loc (thrV d L) ↦{fullShare} T') -∗ wp frame (wpE (defs₀ (F := F)) 𝒱₀ (thrV d L) none) Set.univ (k ⟨⟩) Q)
        -∗ wp frame (wpE (defs₀ (F := F)) 𝒱₀ (thrV d L) none) Set.univ (SparseCore.vectorStoreIdx sTab ![iv] p (fun _ => 1#1) add h hs >>= k) Q) := by
  subst hT
  have h0 := SparseCore.wp_vectorStoreIdx (defs := defs₀ (F := F)) 𝒱₀ (thrV d L) none Set.univ (Q := Q) (base := sTab) (idxs := ![iv])
    (v := p) (mask := fun _ => 1#1) (add := add) (h := h) (hs := hs) (k := k) (f := T)
  erw [Memref.set_access_whole, Memref.write_access_whole_univ, Memref.read_access_whole] at h0
  exact h0

theorem tab_lidx {α : Type} {Q : α → sProp 𝕄} {k : Vec F S16 .i32 → Prog (TpuEff nD τ sig (Elt F) Λ₀ (thrV d L).2) α}
    {T : Buf (Elt F) (sTab.view.loc (thrV d L))} {iv : IVec S16 32}
    {h : ∀ a x, ((![iv] : Fin 1 → IVec S16 32) a x).toNat < S100096.size a} {hl : sTab.view.Loads} :
    (sTab.view.loc (thrV d L) ↦{fullShare} T)
      ⊢ iprop(((sTab.view.loc (thrV d L) ↦{fullShare} T) -∗ wp frame (wpE (defs₀ (F := F)) 𝒱₀ (thrV d L) none) Set.univ (k (loadIdx (F := F) (s := S100096) (e := .i32) T ![iv] h)) Q)
        -∗ wp frame (wpE (defs₀ (F := F)) 𝒱₀ (thrV d L) none) Set.univ (SparseCore.vectorLoadIdx sTab ![iv] h hl >>= k) Q) := by
  have h0 := SparseCore.wp_vectorLoadIdx (defs := defs₀ (F := F)) 𝒱₀ (thrV d L) none Set.univ (Q := Q) (base := sTab) (idxs := ![iv])
    (h := h) (hl := hl) (k := k) (S := Finset.univ) (q := fullShare) (f := T) (Finset.subset_univ _)
  erw [Memref.read_access_whole] at h0
  exact h0

end Rules

end Cert.Kernel.Sc

end
-- ==== Proof.Bits.Sc.PartsA.lean ====
import proofs.«212098_g24275155157491_cont_8to1_80_30_alg».proof.Proof.Bits.Sc.AtTile
import proofs.«212098_g24275155157491_cont_8to1_80_30_alg».proof.Proof.Bits.Sc.Rules
import proofs.«212098_g24275155157491_cont_8to1_80_30_alg».proof.Proof.CntMath

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Rules'
open Cert.ScMath Idealize.ShloMosaic.ValueIdx
variable (d : Dev nD) (L : grid0.Coords)

-- An indexed store into the table, a further continuation after it.
theorem tab_sidx' {α β : Type} {Q : β → sProp 𝕄} {k : PUnit → Prog (TpuEff nD τ sig (Elt F) Λ₀ (thrV d L).2) α} {k' : α → Prog (TpuEff nD τ sig (Elt F) Λ₀ (thrV d L).2) β} {T T' : Buf (Elt F) (sTab.view.loc (thrV d L))} {iv p : IVec S16 32} {add : Bool}
    {h : ∀ a x, ((![iv] : Fin 1 → IVec S16 32) a x).toNat < S100096.size a} {hs : (sTab.access (.whole S100096)).Stores Finset.univ}
    (hT : storeIdx (F := F) (s := S100096) (e := .i32) T ![iv] p (fun _ => 1#1) add h = T') :
    (sTab.view.loc (thrV d L) ↦{fullShare} T)
      ⊢ iprop(((sTab.view.loc (thrV d L) ↦{fullShare} T') -∗ wp frame (wpE (defs₀ (F := F)) 𝒱₀ (thrV d L) none) Set.univ (k ⟨⟩ >>= k') Q)
        -∗ wp frame (wpE (defs₀ (F := F)) 𝒱₀ (thrV d L) none) Set.univ ((SparseCore.vectorStoreIdx sTab ![iv] p (fun _ => 1#1) add h hs >>= k) >>= k') Q) := by
  rw [Prog.bind_assoc]
  exact tab_sidx d L (k := fun a => k a >>= k') hT

-- One more vector of a row added onto the table.
theorem tab_add {α β : Type} {Q : β → sProp 𝕄} {k : PUnit → Prog (TpuEff nD τ sig (Elt F) Λ₀ (thrV d L).2) α} {k' : α → Prog (TpuEff nD τ sig (Elt F) Λ₀ (thrV d L).2) β} {f : IVec STab 32} {r : IVec SRow 32} {i : Fin 13} {iv p : IVec S16 32}
    (hiv : ∀ x, iv x = rowVec r i x) (hp : ∀ x, p x = 1#32) (a b : ℕ) (ha : a = 16 * i.val) (hb : b = a + 16)
    {h : ∀ a x, ((![iv] : Fin 1 → IVec S16 32) a x).toNat < S100096.size a} {hs : (sTab.access (.whole S100096)).Stores Finset.univ} :
    (sTab.view.loc (thrV d L) ↦{fullShare} (addedTab f r a : Buf (Elt F) (sTab.view.loc (thrV d L))))
      ⊢ iprop(((sTab.view.loc (thrV d L) ↦{fullShare} (addedTab f r b : Buf (Elt F) (sTab.view.loc (thrV d L)))) -∗ wp frame (wpE (defs₀ (F := F)) 𝒱₀ (thrV d L) none) Set.univ (k ⟨⟩ >>= k') Q)
        -∗ wp frame (wpE (defs₀ (F := F)) 𝒱₀ (thrV d L) none) Set.univ ((SparseCore.vectorStoreIdx sTab ![iv] p (fun _ => 1#1) true h hs >>= k) >>= k') Q) :=
  tab_sidx' d L (addedTab_step' (F := F) f r i a b ha hb iv p _ hiv hp (fun _ => rfl) h)

-- One more vector of a row cleared out of the table.
theorem tab_clear {α β : Type} {Q : β → sProp 𝕄} {k : PUnit → Prog (TpuEff nD τ sig (Elt F) Λ₀ (thrV d L).2) α} {k' : α → Prog (TpuEff nD τ sig (Elt F) Λ₀ (thrV d L).2) β} {f : IVec STab 32} {r : IVec SRow 32} {i : Fin 13} {iv p : IVec S16 32}
    (hiv : ∀ x, iv x = rowVec r i x) (hp : ∀ x, p x = 0#32) (a b : ℕ) (ha : a = 16 * i.val) (hb : b = a + 16)
    {h : ∀ a x, ((![iv] : Fin 1 → IVec S16 32) a x).toNat < S100096.size a} {hs : (sTab.access (.whole S100096)).Stores Finset.univ} :
    (sTab.view.loc (thrV d L) ↦{fullShare} (clearedTab f r a : Buf (Elt F) (sTab.view.loc (thrV d L))))
      ⊢ iprop(((sTab.view.loc (thrV d L) ↦{fullShare} (clearedTab f r b : Buf (Elt F) (sTab.view.loc (thrV d L)))) -∗ wp frame (wpE (defs₀ (F := F)) 𝒱₀ (thrV d L) none) Set.univ (k ⟨⟩ >>= k') Q)
        -∗ wp frame (wpE (defs₀ (F := F)) 𝒱₀ (thrV d L) none) Set.univ ((SparseCore.vectorStoreIdx sTab ![iv] p (fun _ => 1#1) false h hs >>= k) >>= k') Q) :=
  tab_sidx' d L (clearedTab_step' (F := F) f r i a b ha hb iv p _ hiv hp (fun _ => rfl) h)

-- An indexed load from the table, a further continuation after it.
theorem tab_lidx' {α β : Type} {Q : β → sProp 𝕄} {k : Vec F S16 .i32 → Prog (TpuEff nD τ sig (Elt F) Λ₀ (thrV d L).2) α} {k' : α → Prog (TpuEff nD τ sig (Elt F) Λ₀ (thrV d L).2) β} {T : Buf (Elt F) (sTab.view.loc (thrV d L))} {iv : IVec S16 32}
    {h : ∀ a x, ((![iv] : Fin 1 → IVec S16 32) a x).toNat < S100096.size a} {hl : sTab.view.Loads} :
    (sTab.view.loc (thrV d L) ↦{fullShare} T)
      ⊢ iprop(((sTab.view.loc (thrV d L) ↦{fullShare} T) -∗ wp frame (wpE (defs₀ (F := F)) 𝒱₀ (thrV d L) none) Set.univ (k (loadIdx (F := F) (s := S100096) (e := .i32) T ![iv] h) >>= k') Q)
        -∗ wp frame (wpE (defs₀ (F := F)) 𝒱₀ (thrV d L) none) Set.univ ((SparseCore.vectorLoadIdx sTab ![iv] h hl >>= k) >>= k') Q) := by
  rw [Prog.bind_assoc]
  exact tab_lidx (F := F) d L (k := fun a => k a >>= k')

-- Two indexed loads from the table in a row.
theorem tab_lidx₂ {α β : Type} {Q : β → sProp 𝕄} {k : Vec F S16 .i32 → Vec F S16 .i32 → Prog (TpuEff nD τ sig (Elt F) Λ₀ (thrV d L).2) α} {k' : α → Prog (TpuEff nD τ sig (Elt F) Λ₀ (thrV d L).2) β} {T : Buf (Elt F) (sTab.view.loc (thrV d L))} {iv iv' : IVec S16 32}
    {h : ∀ a x, ((![iv] : Fin 1 → IVec S16 32) a x).toNat < S100096.size a} {h' : ∀ a x, ((![iv'] : Fin 1 → IVec S16 32) a x).toNat < S100096.size a} {hl hl' : sTab.view.Loads} :
    (sTab.view.loc (thrV d L) ↦{fullShare} T)
      ⊢ iprop(((sTab.view.loc (thrV d L) ↦{fullShare} T) -∗ wp frame (wpE (defs₀ (F := F)) 𝒱₀ (thrV d L) none) Set.univ
            (k (loadIdx (F := F) (s := S100096) (e := .i32) T ![iv] h) (loadIdx (F := F) (s := S100096) (e := .i32) T ![iv'] h') >>= k') Q)
        -∗ wp frame (wpE (defs₀ (F := F)) 𝒱₀ (thrV d L) none) Set.univ
            ((SparseCore.vectorLoadIdx sTab ![iv] h hl >>= fun c => SparseCore.vectorLoadIdx sTab ![iv'] h' hl' >>= k c) >>= k') Q) := by
  iintro HT Hk
  iapply (tab_lidx' d L) $$ HT; iintro HT
  iapply (tab_lidx' d L) $$ HT; iintro HT
  iapply Hk $$ HT

end Rules'

section CntSteps
open Cert.ScMath Idealize.ShloMosaic.ValueIdx

-- The last of a run of stores, peeled off.
theorem writes_cons₂ {sg : RefSig} {κ : Kind} {sp : Space} {s : Shape} {e : EltTy} {Val : EltTy → Type} (v : View sg κ sp s e)
    (f : v.ty.Contents Val) (p q : View.Piece Val s e) (l : List (View.Piece Val s e)) :
    v.writes Val f (p :: q :: l) = v.writes Val (v.writes Val f (q :: l)) [p] := rfl

theorem sCB_cons₂ (f : sCB.view.ty.Contents (Elt F)) (p q : View.Piece (Elt F) S832 .i32) (l : List (View.Piece (Elt F) S832 .i32)) :
    sCB.view.writes (Elt F) f (p :: q :: l) = sCB.view.writes (Elt F) (sCB.view.writes (Elt F) f (q :: l)) [p] := rfl

theorem sCA_writes_one (f : IVec SFreq 32) (off : ℕ)
    (inb : ∀ a, (![off] : Fin 1 → ℕ) a + S16.size a ≤ S832.size a) (w : IVec S16 32) :
    sCA.view.writes (Elt F) f [⟨Rect.unit ![off] S16.size inb, w⟩] = pieceAt f off w := by
  funext y
  exact read_writes_one (Val := Elt F) sCA.view f off inb w y

theorem sCB_writes_one (f : IVec SFreq 32) (off : ℕ)
    (inb : ∀ a, (![off] : Fin 1 → ℕ) a + S16.size a ≤ S832.size a) (w : IVec S16 32) :
    sCB.view.writes (Elt F) f [⟨Rect.unit ![off] S16.size inb, w⟩] = pieceAt f off w := by
  funext y
  exact read_writes_one (Val := Elt F) sCB.view f off inb w y

-- A piece of the target stored next to the filled part of its run extends that part.
theorem sCA_step (tgt base : IVec SFreq 32) (n0 n1 n2 n3 m0 m1 m2 m3 off : ℕ)
    (inb : ∀ a, (![off] : Fin 1 → ℕ) a + S16.size a ≤ S832.size a) (w : IVec S16 32)
    (hf : ∀ y, y < 832 → (filled m0 m1 m2 m3 y ↔ filled n0 n1 n2 n3 y ∨ (off ≤ y ∧ y < off + 16)))
    (hw : ∀ (x : SLane.Idx) (hx : off + (x 0).val < 832), w x = tgt (ix1 ⟨off + (x 0).val, hx⟩)) :
    sCA.view.writes (Elt F) (cntAt tgt base n0 n1 n2 n3) [⟨Rect.unit ![off] S16.size inb, w⟩]
      = cntAt tgt base m0 m1 m2 m3 := by
  rw [sCA_writes_one]
  exact pieceAt_cntAt tgt base n0 n1 n2 n3 m0 m1 m2 m3 off w hf hw

theorem sCB_step (tgt base : IVec SFreq 32) (n0 n1 n2 n3 m0 m1 m2 m3 off : ℕ)
    (inb : ∀ a, (![off] : Fin 1 → ℕ) a + S16.size a ≤ S832.size a) (w : IVec S16 32)
    (hf : ∀ y, y < 832 → (filled m0 m1 m2 m3 y ↔ filled n0 n1 n2 n3 y ∨ (off ≤ y ∧ y < off + 16)))
    (hw : ∀ (x : SLane.Idx) (hx : off + (x 0).val < 832), w x = tgt (ix1 ⟨off + (x 0).val, hx⟩)) :
    sCB.view.writes (Elt F) (cntAt tgt base n0 n1 n2 n3) [⟨Rect.unit ![off] S16.size inb, w⟩]
      = cntAt tgt base m0 m1 m2 m3 := by
  rw [sCB_writes_one]
  exact pieceAt_cntAt tgt base n0 n1 n2 n3 m0 m1 m2 m3 off w hf hw

-- The same of any way `W` of storing pieces into a buffer of four runs.
def StepOf (W : IVec SFreq 32 → List (View.Piece (Elt F) S832 .i32) → IVec SFreq 32) : Prop :=
  ∀ (tgt base : IVec SFreq 32) (n0 n1 n2 n3 m0 m1 m2 m3 off : ℕ) (inb : ∀ a, (![off] : Fin 1 → ℕ) a + S16.size a ≤ S832.size a) (w : IVec S16 32),
    (∀ y, y < 832 → (filled m0 m1 m2 m3 y ↔ filled n0 n1 n2 n3 y ∨ (off ≤ y ∧ y < off + 16))) →
    (∀ (x : SLane.Idx) (hx : off + (x 0).val < 832), w x = tgt (ix1 ⟨off + (x 0).val, hx⟩)) →
    W (cntAt tgt base n0 n1 n2 n3) [⟨Rect.unit ![off] S16.size inb, w⟩] = cntAt tgt base m0 m1 m2 m3

-- The words kept for vector `i` of a row, its counts just looked up in a row's table, are the next piece of their run.
theorem get0 {W : IVec SFreq 32 → List (View.Piece (Elt F) S832 .i32) → IVec SFreq 32} (hW : StepOf (F := F) W) (rS rD : IVec SRow 32) {base : IVec SFreq 32} (n0 : ℕ) {n1 n2 n3 : ℕ} (m off : ℕ) {i : Fin 13} {iv : IVec SLane 32}
    (hiv : ∀ x, iv x = rowVec rS i x) (hi : i.val = n0) (hm : m = n0 + 1) (hoff : off = 16 * n0)
    {inb : ∀ a, (![off] : Fin 1 → ℕ) a + S16.size a ≤ S832.size a} {h : ∀ a x, ((![iv] : Fin 1 → IVec SLane 32) a x).toNat < STab.size a}
    (w : IVec S16 32) (hw : w = select (cmpi .eq iv (broadcast SLane 0#32)) (broadcast SLane 0#32)
      (loadIdx (F := F) (s := STab) (e := .i32) (countTab rS) ![iv] h)) :
    W (cntAt (tgtRow rS rD) base n0 n1 n2 n3) [⟨Rect.unit ![off] S16.size inb, w⟩] = cntAt (tgtRow rS rD) base m n1 n2 n3 := by
  subst hi hm hw
  exact hW _ base _ n1 n2 n3 _ n1 n2 n3 off inb _ (filled_step0 _ n1 n2 n3 off hoff i.isLt)
    (pay_tgt0 rS rD i off hoff iv hiv _ (loadIdx_countTab' rS iv h))
theorem get1 {W : IVec SFreq 32 → List (View.Piece (Elt F) S832 .i32) → IVec SFreq 32} (hW : StepOf (F := F) W) (rS rD : IVec SRow 32) {base : IVec SFreq 32} (n1 : ℕ) {n0 n2 n3 : ℕ} (m off : ℕ) {i : Fin 13} {iv : IVec SLane 32}
    (hiv : ∀ x, iv x = rowVec rS i x) (hi : i.val = n1) (hm : m = n1 + 1) (hoff : off = 208 + 16 * n1)
    {inb : ∀ a, (![off] : Fin 1 → ℕ) a + S16.size a ≤ S832.size a} {h : ∀ a x, ((![iv] : Fin 1 → IVec SLane 32) a x).toNat < STab.size a}
    (w : IVec S16 32) (hw : w = select (cmpi .eq iv (broadcast SLane 0#32)) (broadcast SLane 0#32)
      (loadIdx (F := F) (s := STab) (e := .i32) (countTab rD) ![iv] h)) :
    W (cntAt (tgtRow rS rD) base n0 n1 n2 n3) [⟨Rect.unit ![off] S16.size inb, w⟩] = cntAt (tgtRow rS rD) base n0 m n2 n3 := by
  subst hi hm hw
  exact hW _ base n0 _ n2 n3 n0 _ n2 n3 off inb _ (filled_step1 n0 _ n2 n3 off hoff i.isLt)
    (pay_tgt1 rS rD i off hoff iv hiv _ (loadIdx_countTab' rD iv h))
theorem get2 {W : IVec SFreq 32 → List (View.Piece (Elt F) S832 .i32) → IVec SFreq 32} (hW : StepOf (F := F) W) (rS rD : IVec SRow 32) {base : IVec SFreq 32} (n2 : ℕ) {n0 n1 n3 : ℕ} (m off : ℕ) {i : Fin 13} {iv : IVec SLane 32}
    (hiv : ∀ x, iv x = rowVec rD i x) (hi : i.val = n2) (hm : m = n2 + 1) (hoff : off = 416 + 16 * n2)
    {inb : ∀ a, (![off] : Fin 1 → ℕ) a + S16.size a ≤ S832.size a} {h : ∀ a x, ((![iv] : Fin 1 → IVec SLane 32) a x).toNat < STab.size a}
    (w : IVec S16 32) (hw : w = select (cmpi .eq iv (broadcast SLane 0#32)) (broadcast SLane 0#32)
      (loadIdx (F := F) (s := STab) (e := .i32) (countTab rD) ![iv] h)) :
    W (cntAt (tgtRow rS rD) base n0 n1 n2 n3) [⟨Rect.unit ![off] S16.size inb, w⟩] = cntAt (tgtRow rS rD) base n0 n1 m n3 := by
  subst hi hm hw
  exact hW _ base n0 n1 _ n3 n0 n1 _ n3 off inb _ (filled_step2 n0 n1 _ n3 off hoff i.isLt)
    (pay_tgt2 rS rD i off hoff iv hiv _ (loadIdx_countTab' rD iv h))
theorem get3 {W : IVec SFreq 32 → List (View.Piece (Elt F) S832 .i32) → IVec SFreq 32} (hW : StepOf (F := F) W) (rS rD : IVec SRow 32) {base : IVec SFreq 32} (n3 : ℕ) {n0 n1 n2 : ℕ} (m off : ℕ) {i : Fin 13} {iv : IVec SLane 32}
    (hiv : ∀ x, iv x = rowVec rD i x) (hi : i.val = n3) (hm : m = n3 + 1) (hoff : off = 624 + 16 * n3)
    {inb : ∀ a, (![off] : Fin 1 → ℕ) a + S16.size a ≤ S832.size a} {h : ∀ a x, ((![iv] : Fin 1 → IVec SLane 32) a x).toNat < STab.size a}
    (w : IVec S16 32) (hw : w = select (cmpi .eq iv (broadcast SLane 0#32)) (broadcast SLane 0#32)
      (loadIdx (F := F) (s := STab) (e := .i32) (countTab rS) ![iv] h)) :
    W (cntAt (tgtRow rS rD) base n0 n1 n2 n3) [⟨Rect.unit ![off] S16.size inb, w⟩] = cntAt (tgtRow rS rD) base n0 n1 n2 m := by
  subst hi hm hw
  exact hW _ base n0 n1 n2 _ n0 n1 n2 _ off inb _ (filled_step3 n0 n1 n2 _ off hoff i.isLt)
    (pay_tgt3 rS rD i off hoff iv hiv _ (loadIdx_countTab' rS iv h))

end CntSteps

section PartsA
variable (d : Dev nD) (L : grid0.Coords)
open Cert.ScMath Idealize.ShloMosaic.ValueIdx

theorem part4 {α : Type} {Q : α → sProp 𝕄} (k : IVec S16 32 → Prog (TpuEff nD τ sig (Elt F) Λ₀ (thrV d L).2) α)
    (rS rD : IVec SRow 32) (base : IVec SFreq 32)
    (v4 : IVec S16 32) (v46 : Vec F S16 .i32) (k0_hw1 : k0_chk1 v46) (v47 : Vec F S16 .i32) (k0_hw2 : k0_chk2 v47) (v48 : Vec F S16 .i32) (k0_hw3 : k0_chk3 v48) (v56 : Vec F S16 .i32) (k0_hw11 : k0_chk11 v56) (v57 : Vec F S16 .i32) (k0_hw12 : k0_chk12 v57) (v58 : Vec F S16 .i32) (k0_hw13 : k0_chk13 v58) (v59 : Vec F S16 .i32) (k0_hw14 : k0_chk14 v59) (v60 : Vec F S16 .i32) (k0_hw15 : k0_chk15 v60) (v61 : Vec F S16 .i32) (k0_hw16 : k0_chk16 v61)
    (h4 : ∀ x, v4 x = 1#32)
    (h46 : ∀ x, v46 x = rowVec rS 0 x)
    (h47 : ∀ x, v47 x = rowVec rS 1 x)
    (h48 : ∀ x, v48 x = rowVec rS 2 x)
    (h56 : ∀ x, v56 x = rowVec rS 10 x)
    (h57 : ∀ x, v57 x = rowVec rS 11 x)
    (h58 : ∀ x, v58 x = rowVec rS 12 x)
    (h59 : ∀ x, v59 x = rowVec rD 0 x)
    (h60 : ∀ x, v60 x = rowVec rD 1 x)
    (h61 : ∀ x, v61 x = rowVec rD 2 x) :
    iprop((sTab.view.loc (thrV d L) ↦{fullShare} (addedTab (fun _ => 0#32) rS 160 : Buf (Elt F) (sTab.view.loc (thrV d L))))
        ∗ (sCA.view.loc (thrV d L) ↦{fullShare} (cntAt (tgtRow rS rD) base 0 0 0 0 : Buf (Elt F) (sCA.view.loc (thrV d L))))
        ∗ (∀ ret : IVec S16 32, ⌜∀ (x : SLane.Idx) (hx : 656 + (x 0).val < 832), ret x = tgtRow rS rD (ix1 ⟨656 + (x 0).val, hx⟩)⌝
            -∗ (sTab.view.loc (thrV d L) ↦{fullShare} (countTab rS : Buf (Elt F) (sTab.view.loc (thrV d L))))
            -∗ (sCA.view.loc (thrV d L) ↦{fullShare} (cntAt (tgtRow rS rD) base 3 0 0 2 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part4 v4 v46 k0_hw1 v47 k0_hw2 v48 k0_hw3 v56 k0_hw11 v57 k0_hw12 v58 k0_hw13 v59 k0_hw14 v60 k0_hw15 v61 k0_hw16 >>= k) Q := by
  iintro ⟨HT, HC, Hk⟩
  unfold atTile; rw [k0_part4_eq_skeleton]; unfold k0_part4_skel
  iapply (tab_add d L h56 h4 160 176 rfl rfl) $$ HT; iintro HT
  iapply (tab_add d L h57 h4 176 192 rfl rfl) $$ HT; iintro HT
  iapply (tab_sidx' d L (addedTab_last (F := F) rS v58 v4 _ h58 h4 (fun _ => rfl) _)) $$ HT; iintro HT
  iapply (tab_lidx₂ d L) $$ HT; iintro HT
  sl_exec
  rw [writes_cons₂, get0 sCA_step rS rD 0 1 0 h46 rfl rfl rfl (k0_pay1 v46 _) rfl,
    get3 sCA_step rS rD 0 1 624 h59 rfl rfl rfl (k0_pay2 v59 _) rfl]
  iapply (tab_lidx₂ d L) $$ HT; iintro HT
  sl_exec
  rw [writes_cons₂, get0 sCA_step rS rD 1 2 16 h47 rfl rfl rfl (k0_pay3 v47 _) rfl,
    get3 sCA_step rS rD 1 2 640 h60 rfl rfl rfl (k0_pay4 v60 _) rfl]
  iapply (tab_lidx₂ d L) $$ HT; iintro HT
  sl_exec
  rw [get0 sCA_step rS rD 2 3 32 h48 rfl rfl rfl (k0_pay5 v48 _) rfl]
  iapply Hk $$ %_ %(fun x hx => pay_tgt3 rS rD 2 _ rfl v61 h61 _ (fun x => loadIdx_countTab' (F := F) rS v61 _ x) x hx) HT HC

theorem part5 {α : Type} {Q : α → sProp 𝕄} (k : IVec S16 32 → Prog (TpuEff nD τ sig (Elt F) Λ₀ (thrV d L).2) α)
    (rS rD : IVec SRow 32) (base : IVec SFreq 32)
    (v49 : Vec F S16 .i32) (k0_hw4 : k0_chk4 v49) (v50 : Vec F S16 .i32) (k0_hw5 : k0_chk5 v50) (v51 : Vec F S16 .i32) (k0_hw6 : k0_chk6 v51) (v62 : Vec F S16 .i32) (k0_hw17 : k0_chk17 v62) (v63 : Vec F S16 .i32) (k0_hw18 : k0_chk18 v63) (v64 : Vec F S16 .i32) (k0_hw19 : k0_chk19 v64) (v113 : IVec S16 32)
    (h49 : ∀ x, v49 x = rowVec rS 3 x)
    (h50 : ∀ x, v50 x = rowVec rS 4 x)
    (h51 : ∀ x, v51 x = rowVec rS 5 x)
    (h62 : ∀ x, v62 x = rowVec rD 3 x)
    (h63 : ∀ x, v63 x = rowVec rD 4 x)
    (h64 : ∀ x, v64 x = rowVec rD 5 x)
    (h113 : ∀ (x : SLane.Idx) (hx : 656 + (x 0).val < 832), v113 x = tgtRow rS rD (ix1 ⟨656 + (x 0).val, hx⟩)) :
    iprop((sTab.view.loc (thrV d L) ↦{fullShare} (countTab rS : Buf (Elt F) (sTab.view.loc (thrV d L))))
        ∗ (sCA.view.loc (thrV d L) ↦{fullShare} (cntAt (tgtRow rS rD) base 3 0 0 2 : Buf (Elt F) (sCA.view.loc (thrV d L))))
        ∗ (∀ ret : IVec S16 32, ⌜∀ (x : SLane.Idx) (hx : 704 + (x 0).val < 832), ret x = tgtRow rS rD (ix1 ⟨704 + (x 0).val, hx⟩)⌝
            -∗ (sTab.view.loc (thrV d L) ↦{fullShare} (countTab rS : Buf (Elt F) (sTab.view.loc (thrV d L))))
            -∗ (sCA.view.loc (thrV d L) ↦{fullShare} (cntAt (tgtRow rS rD) base 6 0 0 5 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part5 v49 k0_hw4 v50 k0_hw5 v51 k0_hw6 v62 k0_hw17 v63 k0_hw18 v64 k0_hw19 v113 >>= k) Q := by
  iintro ⟨HT, HC, Hk⟩
  unfold atTile; rw [k0_part5_eq_skeleton]; unfold k0_part5_skel
  sl_exec
  rw [sCA_step (F := F) (tgtRow rS rD) base 3 0 0 2 3 0 0 3 656 _ _ (filled_step3 3 0 0 2 656 rfl (by omega))
    h113]
  iapply (tab_lidx₂ d L) $$ HT; iintro HT
  sl_exec
  rw [writes_cons₂, get0 sCA_step rS rD 3 4 48 h49 rfl rfl rfl (k0_pay7 v49 _) rfl,
    get3 sCA_step rS rD 3 4 672 h62 rfl rfl rfl (k0_pay8 v62 _) rfl]
  iapply (tab_lidx₂ d L) $$ HT; iintro HT
  sl_exec
  rw [writes_cons₂, get0 sCA_step rS rD 4 5 64 h50 rfl rfl rfl (k0_pay9 v50 _) rfl,
    get3 sCA_step rS rD 4 5 688 h63 rfl rfl rfl (k0_pay10 v63 _) rfl]
  iapply (tab_lidx₂ d L) $$ HT; iintro HT
  sl_exec
  rw [get0 sCA_step rS rD 5 6 80 h51 rfl rfl rfl (k0_pay11 v51 _) rfl]
  iapply Hk $$ %_ %(fun x hx => pay_tgt3 rS rD 5 _ rfl v64 h64 _ (fun x => loadIdx_countTab' (F := F) rS v64 _ x) x hx) HT HC

theorem part6 {α : Type} {Q : α → sProp 𝕄} (k : IVec S16 32 → Prog (TpuEff nD τ sig (Elt F) Λ₀ (thrV d L).2) α)
    (rS rD : IVec SRow 32) (base : IVec SFreq 32)
    (v52 : Vec F S16 .i32) (k0_hw7 : k0_chk7 v52) (v53 : Vec F S16 .i32) (k0_hw8 : k0_chk8 v53) (v54 : Vec F S16 .i32) (k0_hw9 : k0_chk9 v54) (v65 : Vec F S16 .i32) (k0_hw20 : k0_chk20 v65) (v66 : Vec F S16 .i32) (k0_hw21 : k0_chk21 v66) (v67 : Vec F S16 .i32) (k0_hw22 : k0_chk22 v67) (v149 : IVec S16 32)
    (h52 : ∀ x, v52 x = rowVec rS 6 x)
    (h53 : ∀ x, v53 x = rowVec rS 7 x)
    (h54 : ∀ x, v54 x = rowVec rS 8 x)
    (h65 : ∀ x, v65 x = rowVec rD 6 x)
    (h66 : ∀ x, v66 x = rowVec rD 7 x)
    (h67 : ∀ x, v67 x = rowVec rD 8 x)
    (h149 : ∀ (x : SLane.Idx) (hx : 704 + (x 0).val < 832), v149 x = tgtRow rS rD (ix1 ⟨704 + (x 0).val, hx⟩)) :
    iprop((sTab.view.loc (thrV d L) ↦{fullShare} (countTab rS : Buf (Elt F) (sTab.view.loc (thrV d L))))
        ∗ (sCA.view.loc (thrV d L) ↦{fullShare} (cntAt (tgtRow rS rD) base 6 0 0 5 : Buf (Elt F) (sCA.view.loc (thrV d L))))
        ∗ (∀ ret : IVec S16 32, ⌜∀ (x : SLane.Idx) (hx : 752 + (x 0).val < 832), ret x = tgtRow rS rD (ix1 ⟨752 + (x 0).val, hx⟩)⌝
            -∗ (sTab.view.loc (thrV d L) ↦{fullShare} (countTab rS : Buf (Elt F) (sTab.view.loc (thrV d L))))
            -∗ (sCA.view.loc (thrV d L) ↦{fullShare} (cntAt (tgtRow rS rD) base 9 0 0 8 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part6 v52 k0_hw7 v53 k0_hw8 v54 k0_hw9 v65 k0_hw20 v66 k0_hw21 v67 k0_hw22 v149 >>= k) Q := by
  iintro ⟨HT, HC, Hk⟩
  unfold atTile; rw [k0_part6_eq_skeleton]; unfold k0_part6_skel
  sl_exec
  rw [sCA_step (F := F) (tgtRow rS rD) base 6 0 0 5 6 0 0 6 704 _ _ (filled_step3 6 0 0 5 704 rfl (by omega))
    h149]
  iapply (tab_lidx₂ d L) $$ HT; iintro HT
  sl_exec
  rw [writes_cons₂, get0 sCA_step rS rD 6 7 96 h52 rfl rfl rfl (k0_pay13 v52 _) rfl,
    get3 sCA_step rS rD 6 7 720 h65 rfl rfl rfl (k0_pay14 v65 _) rfl]
  iapply (tab_lidx₂ d L) $$ HT; iintro HT
  sl_exec
  rw [writes_cons₂, get0 sCA_step rS rD 7 8 112 h53 rfl rfl rfl (k0_pay15 v53 _) rfl,
    get3 sCA_step rS rD 7 8 736 h66 rfl rfl rfl (k0_pay16 v66 _) rfl]
  iapply (tab_lidx₂ d L) $$ HT; iintro HT
  sl_exec
  rw [get0 sCA_step rS rD 8 9 128 h54 rfl rfl rfl (k0_pay17 v54 _) rfl]
  iapply Hk $$ %_ %(fun x hx => pay_tgt3 rS rD 8 _ rfl v67 h67 _ (fun x => loadIdx_countTab' (F := F) rS v67 _ x) x hx) HT HC

theorem part7 {α : Type} {Q : α → sProp 𝕄} (k : IVec S16 32 → Prog (TpuEff nD τ sig (Elt F) Λ₀ (thrV d L).2) α)
    (rS rD : IVec SRow 32) (base : IVec SFreq 32)
    (v55 : Vec F S16 .i32) (k0_hw10 : k0_chk10 v55) (v56 : Vec F S16 .i32) (k0_hw11 : k0_chk11 v56) (v57 : Vec F S16 .i32) (k0_hw12 : k0_chk12 v57) (v68 : Vec F S16 .i32) (k0_hw23 : k0_chk23 v68) (v69 : Vec F S16 .i32) (k0_hw24 : k0_chk24 v69) (v70 : Vec F S16 .i32) (k0_hw25 : k0_chk25 v70) (v185 : IVec S16 32)
    (h55 : ∀ x, v55 x = rowVec rS 9 x)
    (h56 : ∀ x, v56 x = rowVec rS 10 x)
    (h57 : ∀ x, v57 x = rowVec rS 11 x)
    (h68 : ∀ x, v68 x = rowVec rD 9 x)
    (h69 : ∀ x, v69 x = rowVec rD 10 x)
    (h70 : ∀ x, v70 x = rowVec rD 11 x)
    (h185 : ∀ (x : SLane.Idx) (hx : 752 + (x 0).val < 832), v185 x = tgtRow rS rD (ix1 ⟨752 + (x 0).val, hx⟩)) :
    iprop((sTab.view.loc (thrV d L) ↦{fullShare} (countTab rS : Buf (Elt F) (sTab.view.loc (thrV d L))))
        ∗ (sCA.view.loc (thrV d L) ↦{fullShare} (cntAt (tgtRow rS rD) base 9 0 0 8 : Buf (Elt F) (sCA.view.loc (thrV d L))))
        ∗ (∀ ret : IVec S16 32, ⌜∀ (x : SLane.Idx) (hx : 800 + (x 0).val < 832), ret x = tgtRow rS rD (ix1 ⟨800 + (x 0).val, hx⟩)⌝
            -∗ (sTab.view.loc (thrV d L) ↦{fullShare} (countTab rS : Buf (Elt F) (sTab.view.loc (thrV d L))))
            -∗ (sCA.view.loc (thrV d L) ↦{fullShare} (cntAt (tgtRow rS rD) base 12 0 0 11 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part7 v55 k0_hw10 v56 k0_hw11 v57 k0_hw12 v68 k0_hw23 v69 k0_hw24 v70 k0_hw25 v185 >>= k) Q := by
  iintro ⟨HT, HC, Hk⟩
  unfold atTile; rw [k0_part7_eq_skeleton]; unfold k0_part7_skel
  sl_exec
  rw [sCA_step (F := F) (tgtRow rS rD) base 9 0 0 8 9 0 0 9 752 _ _ (filled_step3 9 0 0 8 752 rfl (by omega))
    h185]
  iapply (tab_lidx₂ d L) $$ HT; iintro HT
  sl_exec
  rw [writes_cons₂, get0 sCA_step rS rD 9 10 144 h55 rfl rfl rfl (k0_pay19 v55 _) rfl,
    get3 sCA_step rS rD 9 10 768 h68 rfl rfl rfl (k0_pay20 v68 _) rfl]
  iapply (tab_lidx₂ d L) $$ HT; iintro HT
  sl_exec
  rw [writes_cons₂, get0 sCA_step rS rD 10 11 160 h56 rfl rfl rfl (k0_pay21 v56 _) rfl,
    get3 sCA_step rS rD 10 11 784 h69 rfl rfl rfl (k0_pay22 v69 _) rfl]
  iapply (tab_lidx₂ d L) $$ HT; iintro HT
  sl_exec
  rw [get0 sCA_step rS rD 11 12 176 h57 rfl rfl rfl (k0_pay23 v57 _) rfl]
  iapply Hk $$ %_ %(fun x hx => pay_tgt3 rS rD 11 _ rfl v70 h70 _ (fun x => loadIdx_countTab' (F := F) rS v70 _ x) x hx) HT HC

theorem part8 {α : Type} {Q : α → sProp 𝕄} (k : Vec F S16 .i32 → Prog (TpuEff nD τ sig (Elt F) Λ₀ (thrV d L).2) α)
    (rS rD : IVec SRow 32) (base : IVec SFreq 32)
    (v3 : IVec S16 32) (v4 : IVec S16 32) (v46 : Vec F S16 .i32) (k0_hw1 : k0_chk1 v46) (v47 : Vec F S16 .i32) (k0_hw2 : k0_chk2 v47) (v48 : Vec F S16 .i32) (k0_hw3 : k0_chk3 v48) (v49 : Vec F S16 .i32) (k0_hw4 : k0_chk4 v49) (v50 : Vec F S16 .i32) (k0_hw5 : k0_chk5 v50) (v51 : Vec F S16 .i32) (k0_hw6 : k0_chk6 v51) (v52 : Vec F S16 .i32) (k0_hw7 : k0_chk7 v52) (v53 : Vec F S16 .i32) (k0_hw8 : k0_chk8 v53) (v54 : Vec F S16 .i32) (k0_hw9 : k0_chk9 v54) (v55 : Vec F S16 .i32) (k0_hw10 : k0_chk10 v55) (v56 : Vec F S16 .i32) (k0_hw11 : k0_chk11 v56) (v57 : Vec F S16 .i32) (k0_hw12 : k0_chk12 v57) (v58 : Vec F S16 .i32) (k0_hw13 : k0_chk13 v58) (v59 : Vec F S16 .i32) (k0_hw14 : k0_chk14 v59) (v60 : Vec F S16 .i32) (k0_hw15 : k0_chk15 v60) (v61 : Vec F S16 .i32) (k0_hw16 : k0_chk16 v61) (v62 : Vec F S16 .i32) (k0_hw17 : k0_chk17 v62) (v63 : Vec F S16 .i32) (k0_hw18 : k0_chk18 v63) (v64 : Vec F S16 .i32) (k0_hw19 : k0_chk19 v64) (v65 : Vec F S16 .i32) (k0_hw20 : k0_chk20 v65) (v66 : Vec F S16 .i32) (k0_hw21 : k0_chk21 v66) (v67 : Vec F S16 .i32) (k0_hw22 : k0_chk22 v67) (v68 : Vec F S16 .i32) (k0_hw23 : k0_chk23 v68) (v69 : Vec F S16 .i32) (k0_hw24 : k0_chk24 v69) (v70 : Vec F S16 .i32) (k0_hw25 : k0_chk25 v70) (v71 : Vec F S16 .i32) (k0_hw26 : k0_chk26 v71) (v221 : IVec S16 32)
    (h3 : ∀ x, v3 x = 0#32)
    (h4 : ∀ x, v4 x = 1#32)
    (h46 : ∀ x, v46 x = rowVec rS 0 x)
    (h47 : ∀ x, v47 x = rowVec rS 1 x)
    (h48 : ∀ x, v48 x = rowVec rS 2 x)
    (h49 : ∀ x, v49 x = rowVec rS 3 x)
    (h50 : ∀ x, v50 x = rowVec rS 4 x)
    (h51 : ∀ x, v51 x = rowVec rS 5 x)
    (h52 : ∀ x, v52 x = rowVec rS 6 x)
    (h53 : ∀ x, v53 x = rowVec rS 7 x)
    (h54 : ∀ x, v54 x = rowVec rS 8 x)
    (h55 : ∀ x, v55 x = rowVec rS 9 x)
    (h56 : ∀ x, v56 x = rowVec rS 10 x)
    (h57 : ∀ x, v57 x = rowVec rS 11 x)
    (h58 : ∀ x, v58 x = rowVec rS 12 x)
    (h59 : ∀ x, v59 x = rowVec rD 0 x)
    (h60 : ∀ x, v60 x = rowVec rD 1 x)
    (h61 : ∀ x, v61 x = rowVec rD 2 x)
    (h62 : ∀ x, v62 x = rowVec rD 3 x)
    (h63 : ∀ x, v63 x = rowVec rD 4 x)
    (h64 : ∀ x, v64 x = rowVec rD 5 x)
    (h65 : ∀ x, v65 x = rowVec rD 6 x)
    (h66 : ∀ x, v66 x = rowVec rD 7 x)
    (h67 : ∀ x, v67 x = rowVec rD 8 x)
    (h68 : ∀ x, v68 x = rowVec rD 9 x)
    (h69 : ∀ x, v69 x = rowVec rD 10 x)
    (h70 : ∀ x, v70 x = rowVec rD 11 x)
    (h71 : ∀ x, v71 x = rowVec rD 12 x)
    (h221 : ∀ (x : SLane.Idx) (hx : 800 + (x 0).val < 832), v221 x = tgtRow rS rD (ix1 ⟨800 + (x 0).val, hx⟩)) :
    iprop((sTab.view.loc (thrV d L) ↦{fullShare} (countTab rS : Buf (Elt F) (sTab.view.loc (thrV d L))))
        ∗ (sCA.view.loc (thrV d L) ↦{fullShare} (cntAt (tgtRow rS rD) base 12 0 0 11 : Buf (Elt F) (sCA.view.loc (thrV d L))))
        ∗ (∀ ret : Vec F S16 .i32, ⌜∀ x, ret x = BitVec.ofNat 32 (occRow rD (v46 x))⌝
            -∗ (sTab.view.loc (thrV d L) ↦{fullShare} (countTab rD : Buf (Elt F) (sTab.view.loc (thrV d L))))
            -∗ (sCA.view.loc (thrV d L) ↦{fullShare} (cntAt (tgtRow rS rD) base 13 0 1 13 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part8 v3 v4 v46 k0_hw1 v47 k0_hw2 v48 k0_hw3 v49 k0_hw4 v50 k0_hw5 v51 k0_hw6 v52 k0_hw7 v53 k0_hw8 v54 k0_hw9 v55 k0_hw10 v56 k0_hw11 v57 k0_hw12 v58 k0_hw13 v59 k0_hw14 v60 k0_hw15 v61 k0_hw16 v62 k0_hw17 v63 k0_hw18 v64 k0_hw19 v65 k0_hw20 v66 k0_hw21 v67 k0_hw22 v68 k0_hw23 v69 k0_hw24 v70 k0_hw25 v71 k0_hw26 v221 >>= k) Q := by
  iintro ⟨HT, HC, Hk⟩
  unfold atTile; rw [k0_part8_eq_skeleton]; unfold k0_part8_skel
  sl_exec
  rw [sCA_step (F := F) (tgtRow rS rD) base 12 0 0 11 12 0 0 12 800 _ _ (filled_step3 12 0 0 11 800 rfl (by omega))
    h221]
  iapply (tab_lidx₂ d L) $$ HT; iintro HT
  sl_exec
  rw [writes_cons₂, get0 sCA_step rS rD 12 13 192 h58 rfl rfl rfl (k0_pay25 v58 _) rfl,
    get3 sCA_step rS rD 12 13 816 h71 rfl rfl rfl (k0_pay26 v71 _) rfl]
  iapply (tab_sidx' d L (clearedTab_first (F := F) rS v46 v3 _ h46 h3 (fun _ => rfl) _)) $$ HT; iintro HT
  iapply (tab_clear d L h47 h3 16 32 rfl rfl) $$ HT; iintro HT
  iapply (tab_clear d L h48 h3 32 48 rfl rfl) $$ HT; iintro HT
  iapply (tab_clear d L h49 h3 48 64 rfl rfl) $$ HT; iintro HT
  iapply (tab_clear d L h50 h3 64 80 rfl rfl) $$ HT; iintro HT
  iapply (tab_clear d L h51 h3 80 96 rfl rfl) $$ HT; iintro HT
  iapply (tab_clear d L h52 h3 96 112 rfl rfl) $$ HT; iintro HT
  iapply (tab_clear d L h53 h3 112 128 rfl rfl) $$ HT; iintro HT
  iapply (tab_clear d L h54 h3 128 144 rfl rfl) $$ HT; iintro HT
  iapply (tab_clear d L h55 h3 144 160 rfl rfl) $$ HT; iintro HT
  iapply (tab_clear d L h56 h3 160 176 rfl rfl) $$ HT; iintro HT
  iapply (tab_clear d L h57 h3 176 192 rfl rfl) $$ HT; iintro HT
  iapply (tab_sidx' d L (clearedTab_last (F := F) rS v58 v3 _ h58 h3 (fun _ => rfl) _)) $$ HT; iintro HT
  iapply (tab_sidx' d L (addedTab_first (F := F) rD v59 v4 _ h59 h4 (fun _ => rfl) _)) $$ HT; iintro HT
  iapply (tab_add d L h60 h4 16 32 rfl rfl) $$ HT; iintro HT
  iapply (tab_add d L h61 h4 32 48 rfl rfl) $$ HT; iintro HT
  iapply (tab_add d L h62 h4 48 64 rfl rfl) $$ HT; iintro HT
  iapply (tab_add d L h63 h4 64 80 rfl rfl) $$ HT; iintro HT
  iapply (tab_add d L h64 h4 80 96 rfl rfl) $$ HT; iintro HT
  iapply (tab_add d L h65 h4 96 112 rfl rfl) $$ HT; iintro HT
  iapply (tab_add d L h66 h4 112 128 rfl rfl) $$ HT; iintro HT
  iapply (tab_add d L h67 h4 128 144 rfl rfl) $$ HT; iintro HT
  iapply (tab_add d L h68 h4 144 160 rfl rfl) $$ HT; iintro HT
  iapply (tab_add d L h69 h4 160 176 rfl rfl) $$ HT; iintro HT
  iapply (tab_add d L h70 h4 176 192 rfl rfl) $$ HT; iintro HT
  iapply (tab_sidx' d L (addedTab_last (F := F) rD v71 v4 _ h71 h4 (fun _ => rfl) _)) $$ HT; iintro HT
  iapply (tab_lidx₂ d L) $$ HT; iintro HT
  sl_exec
  rw [get2 sCA_step rS rD 0 1 416 h59 rfl rfl rfl (k0_pay27 v59 _) rfl]
  iapply Hk $$ %_ %(fun x => loadIdx_countTab' (F := F) rD v46 _ x) HT HC

theorem part9 {α : Type} {Q : α → sProp 𝕄} (k : Vec F S16 .i32 → Prog (TpuEff nD τ sig (Elt F) Λ₀ (thrV d L).2) α)
    (rS rD : IVec SRow 32) (base : IVec SFreq 32)
    (v46 : Vec F S16 .i32) (v47 : Vec F S16 .i32) (k0_hw2 : k0_chk2 v47) (v48 : Vec F S16 .i32) (k0_hw3 : k0_chk3 v48) (v49 : Vec F S16 .i32) (k0_hw4 : k0_chk4 v49) (v60 : Vec F S16 .i32) (k0_hw15 : k0_chk15 v60) (v61 : Vec F S16 .i32) (k0_hw16 : k0_chk16 v61) (v62 : Vec F S16 .i32) (k0_hw17 : k0_chk17 v62) (v236 : Vec F S16 .i32)
    (h46 : ∀ x, v46 x = rowVec rS 0 x)
    (h47 : ∀ x, v47 x = rowVec rS 1 x)
    (h48 : ∀ x, v48 x = rowVec rS 2 x)
    (h49 : ∀ x, v49 x = rowVec rS 3 x)
    (h60 : ∀ x, v60 x = rowVec rD 1 x)
    (h61 : ∀ x, v61 x = rowVec rD 2 x)
    (h62 : ∀ x, v62 x = rowVec rD 3 x)
    (h236 : ∀ x, v236 x = BitVec.ofNat 32 (occRow rD (v46 x))) :
    iprop((sTab.view.loc (thrV d L) ↦{fullShare} (countTab rD : Buf (Elt F) (sTab.view.loc (thrV d L))))
        ∗ (sCA.view.loc (thrV d L) ↦{fullShare} (cntAt (tgtRow rS rD) base 13 0 1 13 : Buf (Elt F) (sCA.view.loc (thrV d L))))
        ∗ (∀ ret : Vec F S16 .i32, ⌜∀ x, ret x = BitVec.ofNat 32 (occRow rD (v49 x))⌝
            -∗ (sTab.view.loc (thrV d L) ↦{fullShare} (countTab rD : Buf (Elt F) (sTab.view.loc (thrV d L))))
            -∗ (sCA.view.loc (thrV d L) ↦{fullShare} (cntAt (tgtRow rS rD) base 13 3 4 13 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part9 v46 v47 k0_hw2 v48 k0_hw3 v49 k0_hw4 v60 k0_hw15 v61 k0_hw16 v62 k0_hw17 v236 >>= k) Q := by
  iintro ⟨HT, HC, Hk⟩
  unfold atTile; rw [k0_part9_eq_skeleton]; unfold k0_part9_skel
  sl_exec
  rw [sCA_step (F := F) (tgtRow rS rD) base 13 0 1 13 13 1 1 13 208 _ (k0_pay28 v46 v236) (filled_step1 13 0 1 13 208 rfl (by omega))
    (fun x hx => pay_tgt1 rS rD 0 _ rfl v46 h46 v236 h236 x hx)]
  iapply (tab_lidx₂ d L) $$ HT; iintro HT
  sl_exec
  rw [writes_cons₂, get2 sCA_step rS rD 1 2 432 h60 rfl rfl rfl (k0_pay29 v60 _) rfl,
    get1 sCA_step rS rD 1 2 224 h47 rfl rfl rfl (k0_pay30 v47 _) rfl]
  iapply (tab_lidx₂ d L) $$ HT; iintro HT
  sl_exec
  rw [writes_cons₂, get2 sCA_step rS rD 2 3 448 h61 rfl rfl rfl (k0_pay31 v61 _) rfl,
    get1 sCA_step rS rD 2 3 240 h48 rfl rfl rfl (k0_pay32 v48 _) rfl]
  iapply (tab_lidx₂ d L) $$ HT; iintro HT
  sl_exec
  rw [get2 sCA_step rS rD 3 4 464 h62 rfl rfl rfl (k0_pay33 v62 _) rfl]
  iapply Hk $$ %_ %(fun x => loadIdx_countTab' (F := F) rD v49 _ x) HT HC

theorem part10 {α : Type} {Q : α → sProp 𝕄} (k : Vec F S16 .i32 → Prog (TpuEff nD τ sig (Elt F) Λ₀ (thrV d L).2) α)
    (rS rD : IVec SRow 32) (base : IVec SFreq 32)
    (v49 : Vec F S16 .i32) (v50 : Vec F S16 .i32) (k0_hw5 : k0_chk5 v50) (v51 : Vec F S16 .i32) (k0_hw6 : k0_chk6 v51) (v52 : Vec F S16 .i32) (k0_hw7 : k0_chk7 v52) (v63 : Vec F S16 .i32) (k0_hw18 : k0_chk18 v63) (v64 : Vec F S16 .i32) (k0_hw19 : k0_chk19 v64) (v65 : Vec F S16 .i32) (k0_hw20 : k0_chk20 v65) (v272 : Vec F S16 .i32)
    (h49 : ∀ x, v49 x = rowVec rS 3 x)
    (h50 : ∀ x, v50 x = rowVec rS 4 x)
    (h51 : ∀ x, v51 x = rowVec rS 5 x)
    (h52 : ∀ x, v52 x = rowVec rS 6 x)
    (h63 : ∀ x, v63 x = rowVec rD 4 x)
    (h64 : ∀ x, v64 x = rowVec rD 5 x)
    (h65 : ∀ x, v65 x = rowVec rD 6 x)
    (h272 : ∀ x, v272 x = BitVec.ofNat 32 (occRow rD (v49 x))) :
    iprop((sTab.view.loc (thrV d L) ↦{fullShare} (countTab rD : Buf (Elt F) (sTab.view.loc (thrV d L))))
        ∗ (sCA.view.loc (thrV d L) ↦{fullShare} (cntAt (tgtRow rS rD) base 13 3 4 13 : Buf (Elt F) (sCA.view.loc (thrV d L))))
        ∗ (∀ ret : Vec F S16 .i32, ⌜∀ x, ret x = BitVec.ofNat 32 (occRow rD (v52 x))⌝
            -∗ (sTab.view.loc (thrV d L) ↦{fullShare} (countTab rD : Buf (Elt F) (sTab.view.loc (thrV d L))))
            -∗ (sCA.view.loc (thrV d L) ↦{fullShare} (cntAt (tgtRow rS rD) base 13 6 7 13 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part10 v49 v50 k0_hw5 v51 k0_hw6 v52 k0_hw7 v63 k0_hw18 v64 k0_hw19 v65 k0_hw20 v272 >>= k) Q := by
  iintro ⟨HT, HC, Hk⟩
  unfold atTile; rw [k0_part10_eq_skeleton]; unfold k0_part10_skel
  sl_exec
  rw [sCA_step (F := F) (tgtRow rS rD) base 13 3 4 13 13 4 4 13 256 _ (k0_pay34 v49 v272) (filled_step1 13 3 4 13 256 rfl (by omega))
    (fun x hx => pay_tgt1 rS rD 3 _ rfl v49 h49 v272 h272 x hx)]
  iapply (tab_lidx₂ d L) $$ HT; iintro HT
  sl_exec
  rw [writes_cons₂, get2 sCA_step rS rD 4 5 480 h63 rfl rfl rfl (k0_pay35 v63 _) rfl,
    get1 sCA_step rS rD 4 5 272 h50 rfl rfl rfl (k0_pay36 v50 _) rfl]
  iapply (tab_lidx₂ d L) $$ HT; iintro HT
  sl_exec
  rw [writes_cons₂, get2 sCA_step rS rD 5 6 496 h64 rfl rfl rfl (k0_pay37 v64 _) rfl,
    get1 sCA_step rS rD 5 6 288 h51 rfl rfl rfl (k0_pay38 v51 _) rfl]
  iapply (tab_lidx₂ d L) $$ HT; iintro HT
  sl_exec
  rw [get2 sCA_step rS rD 6 7 512 h65 rfl rfl rfl (k0_pay39 v65 _) rfl]
  iapply Hk $$ %_ %(fun x => loadIdx_countTab' (F := F) rD v52 _ x) HT HC

theorem part11 {α : Type} {Q : α → sProp 𝕄} (k : Vec F S16 .i32 → Prog (TpuEff nD τ sig (Elt F) Λ₀ (thrV d L).2) α)
    (rS rD : IVec SRow 32) (base : IVec SFreq 32)
    (v52 : Vec F S16 .i32) (v53 : Vec F S16 .i32) (k0_hw8 : k0_chk8 v53) (v54 : Vec F S16 .i32) (k0_hw9 : k0_chk9 v54) (v55 : Vec F S16 .i32) (k0_hw10 : k0_chk10 v55) (v66 : Vec F S16 .i32) (k0_hw21 : k0_chk21 v66) (v67 : Vec F S16 .i32) (k0_hw22 : k0_chk22 v67) (v68 : Vec F S16 .i32) (k0_hw23 : k0_chk23 v68) (v308 : Vec F S16 .i32)
    (h52 : ∀ x, v52 x = rowVec rS 6 x)
    (h53 : ∀ x, v53 x = rowVec rS 7 x)
    (h54 : ∀ x, v54 x = rowVec rS 8 x)
    (h55 : ∀ x, v55 x = rowVec rS 9 x)
    (h66 : ∀ x, v66 x = rowVec rD 7 x)
    (h67 : ∀ x, v67 x = rowVec rD 8 x)
    (h68 : ∀ x, v68 x = rowVec rD 9 x)
    (h308 : ∀ x, v308 x = BitVec.ofNat 32 (occRow rD (v52 x))) :
    iprop((sTab.view.loc (thrV d L) ↦{fullShare} (countTab rD : Buf (Elt F) (sTab.view.loc (thrV d L))))
        ∗ (sCA.view.loc (thrV d L) ↦{fullShare} (cntAt (tgtRow rS rD) base 13 6 7 13 : Buf (Elt F) (sCA.view.loc (thrV d L))))
        ∗ (∀ ret : Vec F S16 .i32, ⌜∀ x, ret x = BitVec.ofNat 32 (occRow rD (v55 x))⌝
            -∗ (sTab.view.loc (thrV d L) ↦{fullShare} (countTab rD : Buf (Elt F) (sTab.view.loc (thrV d L))))
            -∗ (sCA.view.loc (thrV d L) ↦{fullShare} (cntAt (tgtRow rS rD) base 13 9 10 13 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part11 v52 v53 k0_hw8 v54 k0_hw9 v55 k0_hw10 v66 k0_hw21 v67 k0_hw22 v68 k0_hw23 v308 >>= k) Q := by
  iintro ⟨HT, HC, Hk⟩
  unfold atTile; rw [k0_part11_eq_skeleton]; unfold k0_part11_skel
  sl_exec
  rw [sCA_step (F := F) (tgtRow rS rD) base 13 6 7 13 13 7 7 13 304 _ (k0_pay40 v52 v308) (filled_step1 13 6 7 13 304 rfl (by omega))
    (fun x hx => pay_tgt1 rS rD 6 _ rfl v52 h52 v308 h308 x hx)]
  iapply (tab_lidx₂ d L) $$ HT; iintro HT
  sl_exec
  rw [writes_cons₂, get2 sCA_step rS rD 7 8 528 h66 rfl rfl rfl (k0_pay41 v66 _) rfl,
    get1 sCA_step rS rD 7 8 320 h53 rfl rfl rfl (k0_pay42 v53 _) rfl]
  iapply (tab_lidx₂ d L) $$ HT; iintro HT
  sl_exec
  rw [writes_cons₂, get2 sCA_step rS rD 8 9 544 h67 rfl rfl rfl (k0_pay43 v67 _) rfl,
    get1 sCA_step rS rD 8 9 336 h54 rfl rfl rfl (k0_pay44 v54 _) rfl]
  iapply (tab_lidx₂ d L) $$ HT; iintro HT
  sl_exec
  rw [get2 sCA_step rS rD 9 10 560 h68 rfl rfl rfl (k0_pay45 v68 _) rfl]
  iapply Hk $$ %_ %(fun x => loadIdx_countTab' (F := F) rD v55 _ x) HT HC

theorem part12 {α : Type} {Q : α → sProp 𝕄} (k : Vec F S16 .i32 → Prog (TpuEff nD τ sig (Elt F) Λ₀ (thrV d L).2) α)
    (rS rD : IVec SRow 32) (base : IVec SFreq 32)
    (v55 : Vec F S16 .i32) (v56 : Vec F S16 .i32) (k0_hw11 : k0_chk11 v56) (v57 : Vec F S16 .i32) (k0_hw12 : k0_chk12 v57) (v58 : Vec F S16 .i32) (k0_hw13 : k0_chk13 v58) (v69 : Vec F S16 .i32) (k0_hw24 : k0_chk24 v69) (v70 : Vec F S16 .i32) (k0_hw25 : k0_chk25 v70) (v71 : Vec F S16 .i32) (k0_hw26 : k0_chk26 v71) (v344 : Vec F S16 .i32)
    (h55 : ∀ x, v55 x = rowVec rS 9 x)
    (h56 : ∀ x, v56 x = rowVec rS 10 x)
    (h57 : ∀ x, v57 x = rowVec rS 11 x)
    (h58 : ∀ x, v58 x = rowVec rS 12 x)
    (h69 : ∀ x, v69 x = rowVec rD 10 x)
    (h70 : ∀ x, v70 x = rowVec rD 11 x)
    (h71 : ∀ x, v71 x = rowVec rD 12 x)
    (h344 : ∀ x, v344 x = BitVec.ofNat 32 (occRow rD (v55 x))) :
    iprop((sTab.view.loc (thrV d L) ↦{fullShare} (countTab rD : Buf (Elt F) (sTab.view.loc (thrV d L))))
        ∗ (sCA.view.loc (thrV d L) ↦{fullShare} (cntAt (tgtRow rS rD) base 13 9 10 13 : Buf (Elt F) (sCA.view.loc (thrV d L))))
        ∗ (∀ ret : Vec F S16 .i32, ⌜∀ x, ret x = BitVec.ofNat 32 (occRow rD (v58 x))⌝
            -∗ (sTab.view.loc (thrV d L) ↦{fullShare} (countTab rD : Buf (Elt F) (sTab.view.loc (thrV d L))))
            -∗ (sCA.view.loc (thrV d L) ↦{fullShare} (cntAt (tgtRow rS rD) base 13 12 13 13 : Buf (Elt F) (sCA.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part12 v55 v56 k0_hw11 v57 k0_hw12 v58 k0_hw13 v69 k0_hw24 v70 k0_hw25 v71 k0_hw26 v344 >>= k) Q := by
  iintro ⟨HT, HC, Hk⟩
  unfold atTile; rw [k0_part12_eq_skeleton]; unfold k0_part12_skel
  sl_exec
  rw [sCA_step (F := F) (tgtRow rS rD) base 13 9 10 13 13 10 10 13 352 _ (k0_pay46 v55 v344) (filled_step1 13 9 10 13 352 rfl (by omega))
    (fun x hx => pay_tgt1 rS rD 9 _ rfl v55 h55 v344 h344 x hx)]
  iapply (tab_lidx₂ d L) $$ HT; iintro HT
  sl_exec
  rw [writes_cons₂, get2 sCA_step rS rD 10 11 576 h69 rfl rfl rfl (k0_pay47 v69 _) rfl,
    get1 sCA_step rS rD 10 11 368 h56 rfl rfl rfl (k0_pay48 v56 _) rfl]
  iapply (tab_lidx₂ d L) $$ HT; iintro HT
  sl_exec
  rw [writes_cons₂, get2 sCA_step rS rD 11 12 592 h70 rfl rfl rfl (k0_pay49 v70 _) rfl,
    get1 sCA_step rS rD 11 12 384 h57 rfl rfl rfl (k0_pay50 v57 _) rfl]
  iapply (tab_lidx₂ d L) $$ HT; iintro HT
  sl_exec
  rw [get2 sCA_step rS rD 12 13 608 h71 rfl rfl rfl (k0_pay51 v71 _) rfl]
  iapply Hk $$ %_ %(fun x => loadIdx_countTab' (F := F) rD v58 _ x) HT HC

end PartsA

end Cert.Kernel.Sc

end
-- ==== Proof.Bits.Sc.PartsD.lean ====
import proofs.«212098_g24275155157491_cont_8to1_80_30_alg».proof.Proof.Bits.Sc.Inv
import proofs.«212098_g24275155157491_cont_8to1_80_30_alg».proof.Proof.Bits.Sc.RowVal
import proofs.«212098_g24275155157491_cont_8to1_80_30_alg».proof.Proof.Bits.Sc.PartsA

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

theorem emb_rowM3 (j : Fin 1024) (h : ∀ a, rowOff j a + S1x832.size a ≤ S1024x832.size a) (p : Fin 832) :
    (rowM3 (rowOff j) h).view.emb (ix1 p) = ix2 j p := by
  show (Rect.unit (s := S1024x832) (rowOff j) S1x832.size h).emb (Shape.reshapeEquiv squeezes_S1x832_S832.numel_eq (ix1 p)) = _
  rw [reshape_row]
  funext a
  apply Fin.ext
  match a with
  | ⟨0, _⟩ => show j.val + 1 * 0 = j.val; omega
  | ⟨1, _⟩ => show 0 + 1 * p.val = p.val; omega

theorem landed_row (j : Fin 1024) (off : Fin 2 → ℕ) (h : ∀ a, off a + S1x832.size a ≤ S1024x832.size a) (hoff : off = rowOff j)
    (f3 : Buf (Elt F) (v3Loc d)) {w : S832.Idx → Elt F .i32} (hw : ∀ p : Fin 832, w (ix1 p) = cnts m d (ix2 j p)) :
    ((rowM3 off h).view.loc (thrV d L) ↦[(rowM3 off h).view.set]{fullShare}
        ((rowM3 off h).view.writes (Elt F) f3 [⟨Rect.whole S832, w⟩]) : sProp 𝕄)
      = v3Row d j (cnts m d) := by
  subst hoff
  rw [pts_rowM3 (F := F) d L (rowOff j) h j rfl]
  refine pointsTo_congr fun i hi => ?_
  rw [← set_rowM3 (rowOff j) h j rfl] at hi
  obtain ⟨y, -, rfl⟩ := Finset.mem_map.1 hi
  obtain ⟨p, rfl⟩ : ∃ p : Fin 832, y = ix1 p := ⟨y 0, eq_ix1 y⟩
  have e := View.read_writes_cons_emb (rowM3 (rowOff j) h).view f3 (Rect.whole S832) w [] (ix1 p)
  rw [Rect.emb_whole_apply, View.read_apply] at e
  rw [emb_rowM3 j h p] at e ⊢
  exact (cast_eq _ _).symm.trans (e.trans (hw p))

theorem readAt_rowVec_SB (f : Buf (Elt F) (sSB.view.loc (thrV d L))) (v : Fin 13) (off : ℕ) (hoff : off = 16 * v.val)
    (h : ∀ a, (![off] : Fin 1 → ℕ) a + S16.size a ≤ S208.size a) (x : S16.Idx) :
    (sSB.view.readAt (Elt F) (Rect.unit (s := S208) ![off] S16.size h).toLoadRect f) x = rowVec f v x := by
  subst hoff
  simp only [View.readAt_apply, Memref.view_whole, View.read_whole]
  unfold rowVec
  congr 1
  funext a; apply Fin.ext
  obtain rfl : a = 0 := Subsingleton.elim _ _
  simp [LoadRect.idx_apply, ValueIdx.ix1]

omit [FloatOps F] in
theorem pts_sCA_set (C : Buf (Elt F) (sCA.view.loc (thrV d L))) :
    (sCA.view.loc (thrV d L) ↦[sCA.view.set]{fullShare} C : sProp 𝕄)
      = (sCA.view.loc (thrV d L) ↦{fullShare} C) := by
  simp only [Memref.view_whole, View.set_whole]

omit [FloatOps F] in
theorem pts_sCB_set (C : Buf (Elt F) (sCB.view.loc (thrV d L))) :
    (sCB.view.loc (thrV d L) ↦[sCB.view.set]{fullShare} C : sProp 𝕄)
      = (sCB.view.loc (thrV d L) ↦{fullShare} C) := by
  simp only [Memref.view_whole, View.set_whole]

omit [FloatOps F] in
theorem pts_sCB_rest (C : Buf (Elt F) (sCB.view.loc (thrV d L))) :
    (sCB.view.loc (thrV d L) ↦[Finset.univ \ sCB.view.set]{fullShare} C : sProp 𝕄) = iprop(emp) := by
  simp only [Memref.view_whole, View.set_whole, Finset.sdiff_self]
  exact pointsTo_empty

omit [FloatOps F] in
theorem pts_sCA_rest (C : Buf (Elt F) (sCA.view.loc (thrV d L))) :
    (sCA.view.loc (thrV d L) ↦[Finset.univ \ sCA.view.set]{fullShare} C : sProp 𝕄) = iprop(emp) := by
  simp only [Memref.view_whole, View.set_whole, Finset.sdiff_self]
  exact pointsTo_empty

theorem part13 (hpre : PreOK m) (O : CellTallies nD τ sig (HIx 1)) (W : Waits sig (HIx 1)) {α : Type} {Q : α → sProp 𝕄}
    (kk : (Σ' (v395 : BitVec 32) (v404 : Vec F S16 .i32) (_ : k0_chk27 v404) (v405 : Vec F S16 .i32) (_ : k0_chk28 v405) (v406 : Vec F S16 .i32) (_ : k0_chk29 v406) (v407 : Vec F S16 .i32) (_ : k0_chk30 v407) (v408 : Vec F S16 .i32), k0_chk31 v408) → Prog (TpuEff nD τ sig (Elt F) Λ₀ (thrV d L).2) α)
    (k : Fin k0_t2_loop.trips) (j j' : Fin 1024) (hj : k0_off7 L k = rowOff j)
    (rS rD : IVec SRow 32) (base : IVec SFreq 32) (f3 : Buf (Elt F) (v3Loc d))
    (hrS : rS = rowBufSA m d L j) (hrD : rD = rowBufDA m d L j)
    (v3 : IVec S16 32) (v37 : BitVec 32) (v58 : Vec F S16 .i32)
    (v59 : Vec F S16 .i32) (hw14 : k0_chk14 v59) (v60 : Vec F S16 .i32) (hw15 : k0_chk15 v60) (v61 : Vec F S16 .i32) (hw16 : k0_chk16 v61) (v62 : Vec F S16 .i32) (hw17 : k0_chk17 v62) (v63 : Vec F S16 .i32) (hw18 : k0_chk18 v63) (v64 : Vec F S16 .i32) (hw19 : k0_chk19 v64) (v65 : Vec F S16 .i32) (hw20 : k0_chk20 v65) (v66 : Vec F S16 .i32) (hw21 : k0_chk21 v66) (v67 : Vec F S16 .i32) (hw22 : k0_chk22 v67) (v68 : Vec F S16 .i32) (hw23 : k0_chk23 v68) (v69 : Vec F S16 .i32) (hw24 : k0_chk24 v69) (v70 : Vec F S16 .i32) (hw25 : k0_chk25 v70) (v71 : Vec F S16 .i32) (hw26 : k0_chk26 v71)
    (v380 : Vec F S16 .i32)
    (h3 : ∀ x, v3 x = 0#32) (h58 : ∀ x, v58 x = rowVec rS 12 x)
    (h59 : ∀ x, v59 x = rowVec rD 0 x) (h60 : ∀ x, v60 x = rowVec rD 1 x) (h61 : ∀ x, v61 x = rowVec rD 2 x) (h62 : ∀ x, v62 x = rowVec rD 3 x) (h63 : ∀ x, v63 x = rowVec rD 4 x) (h64 : ∀ x, v64 x = rowVec rD 5 x) (h65 : ∀ x, v65 x = rowVec rD 6 x) (h66 : ∀ x, v66 x = rowVec rD 7 x) (h67 : ∀ x, v67 x = rowVec rD 8 x) (h68 : ∀ x, v68 x = rowVec rD 9 x) (h69 : ∀ x, v69 x = rowVec rD 10 x) (h70 : ∀ x, v70 x = rowVec rD 11 x) (h71 : ∀ x, v71 x = rowVec rD 12 x)
    (h380 : ∀ x, v380 x = BitVec.ofNat 32 (occRow rD (v58 x))) :
    iprop(□ Transfers.MayWaits (thrV d L) (none : HIx 1) O
        ∗ (sTab.view.loc (thrV d L) ↦{fullShare} (countTab rD : Buf (Elt F) (sTab.view.loc (thrV d L))))
        ∗ (sCA.view.loc (thrV d L) ↦{fullShare} (cntAt (tgtRow rS rD) base 13 12 13 13 : Buf (Elt F) (sCA.view.loc (thrV d L))))
        ∗ semVal (cellV d L cc0_scratch11) 0
        ∗ ((rowM3 (k0_off7 L k) (k0_off7_inb L k)).view.loc (thrV d L) ↦[(rowM3 (k0_off7 L k) (k0_off7_inb L k)).view.set]{fullShare} f3)
        ∗ idFlight d L cc0_scratch9 sSB (rowBufSB m d L j') (v1Row m d j')
        ∗ idFlight d L cc0_scratch10 sDB (rowBufDB m d L j') (v2Row m d j')
        ∗ owes (thrV d L) O W
        ∗ (∀ (v395 : BitVec 32) (v404 : Vec F S16 .i32) (hw27 : k0_chk27 v404) (v405 : Vec F S16 .i32) (hw28 : k0_chk28 v405) (v406 : Vec F S16 .i32) (hw29 : k0_chk29 v406)
              (v407 : Vec F S16 .i32) (hw30 : k0_chk30 v407) (v408 : Vec F S16 .i32) (hw31 : k0_chk31 v408),
            ⌜v395 = Scalar.addi v37 1#32⌝ -∗ ⌜∀ x, v404 x = rowVec (rowBufSB m d L j') 0 x⌝ -∗ ⌜∀ x, v405 x = rowVec (rowBufSB m d L j') 1 x⌝ -∗ ⌜∀ x, v406 x = rowVec (rowBufSB m d L j') 2 x⌝ -∗ ⌜∀ x, v407 x = rowVec (rowBufSB m d L j') 3 x⌝ -∗ ⌜∀ x, v408 x = rowVec (rowBufSB m d L j') 4 x⌝
            -∗ (sTab.view.loc (thrV d L) ↦{fullShare} zeroTab d L)
            -∗ cntFlight m d L cc0_scratch11 sCA (tgtRow rS rD) j
            -∗ (sSB.view.loc (thrV d L) ↦{fullShare} rowBufSB m d L j') -∗ v1Row m d j' -∗ semVal (cellV d L cc0_scratch9) 0
            -∗ (sDB.view.loc (thrV d L) ↦{fullShare} rowBufDB m d L j') -∗ v2Row m d j' -∗ semVal (cellV d L cc0_scratch10) 0
            -∗ owes (thrV d L) O (insert (SemLoc.dma cc0_scratch10.sem, (default : HIx 1)) (insert (SemLoc.dma cc0_scratch9.sem, (default : HIx 1)) W))
            -∗ wp frame (wpE (defs₀ (F := F)) 𝒱₀ (thrV d L) none) Set.univ (kk ⟨v395, v404, hw27, v405, hw28, v406, hw29, v407, hw30, v408, hw31⟩) Q))
      ⊢ wp frame (wpE (defs₀ (F := F)) 𝒱₀ (thrV d L) none) Set.univ
          (atTile L k0_part13 v3 k v37 v58 v59 hw14 v60 hw15 v61 hw16 v62 hw17 v63 hw18 v64 hw19 v65 hw20 v66 hw21 v67 hw22 v68 hw23 v69 hw24 v70 hw25 v71 hw26 v380 >>= kk) Q := by
  iintro ⟨#Hmw, HT, HC, Hs11, Hr3, Hf9, Hf10, HO, Hk⟩
  unfold atTile; rw [k0_part13_eq_skeleton]; unfold k0_part13_skel
  sl_exec
  rw [sCA_step (F := F) (tgtRow rS rD) base 13 12 13 13 13 13 13 13 400 _ (k0_pay52 v58 v380) (filled_step1 13 12 13 13 400 rfl (by omega))
    (fun x hx => pay_tgt1 rS rD 12 _ rfl v58 h58 v380 h380 x hx), cntAt_full]
  iapply (tab_sidx' d L (clearedTab_first (F := F) rD v59 v3 _ h59 h3 (fun _ => rfl) _)) $$ HT; iintro HT
  iapply (tab_clear d L h60 h3 16 32 rfl rfl) $$ HT; iintro HT
  iapply (tab_clear d L h61 h3 32 48 rfl rfl) $$ HT; iintro HT
  iapply (tab_clear d L h62 h3 48 64 rfl rfl) $$ HT; iintro HT
  iapply (tab_clear d L h63 h3 64 80 rfl rfl) $$ HT; iintro HT
  iapply (tab_clear d L h64 h3 80 96 rfl rfl) $$ HT; iintro HT
  iapply (tab_clear d L h65 h3 96 112 rfl rfl) $$ HT; iintro HT
  iapply (tab_clear d L h66 h3 112 128 rfl rfl) $$ HT; iintro HT
  iapply (tab_clear d L h67 h3 128 144 rfl rfl) $$ HT; iintro HT
  iapply (tab_clear d L h68 h3 144 160 rfl rfl) $$ HT; iintro HT
  iapply (tab_clear d L h69 h3 160 176 rfl rfl) $$ HT; iintro HT
  iapply (tab_clear d L h70 h3 176 192 rfl rfl) $$ HT; iintro HT
  iapply (tab_sidx' d L ((clearedTab_last (F := F) rD v71 v3 _ h71 h3 (fun _ => rfl) _).trans (rfl : _ = zeroTab (F := F) d L))) $$ HT; iintro HT
  sl_exec (disch := first
    | sl_exact chk27_of m d L hpre _ _ _
    | sl_exact chk28_of m d L hpre _ _ _
    | sl_exact chk29_of m d L hpre _ _ _
    | sl_exact chk30_of m d L hpre _ _ _
    | sl_exact chk31_of m d L hpre _ _ _)
  rw [landed_row (F := F) m d L j (k0_off7 L k) (k0_off7_inb L k) hj f3, pts_sCA_set, pts_sCA_rest]
  swap
  · intro p
    subst hrS hrD
    exact cnts_rowA m d L j p
  iapply Hk $$ %_ %_ %_ %_ %_ %_ %_ %_ %_ %_ %_ %rfl
    %(fun x => readAt_rowVec_SB (F := F) d L _ 0 0 rfl _ x) %(fun x => readAt_rowVec_SB (F := F) d L _ 1 16 rfl _ x)
    %(fun x => readAt_rowVec_SB (F := F) d L _ 2 32 rfl _ x) %(fun x => readAt_rowVec_SB (F := F) d L _ 3 48 rfl _ x)
    %(fun x => readAt_rowVec_SB (F := F) d L _ 4 64 rfl _ x) HT [Hs11] Hf9_dst Hf9_src [Hf9] Hf10_dst Hf10_src [Hf10] [HO]
  · iexact Hs11
  · iexact Hf9
  · iexact Hf10
  · iexact HO

end Cert.Kernel.Sc

end
-- ==== Proof.Bits.Sc.TripLib.lean ====
import proofs.«212098_g24275155157491_cont_8to1_80_30_alg».proof.Proof.Bits.Sc.PartsC
import proofs.«212098_g24275155157491_cont_8to1_80_30_alg».proof.Proof.Bits.Sc.PartsD

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

theorem readAt_rowVec_SA (f : Buf (Elt F) (sSA.view.loc (thrV d L))) (v : Fin 13) (off : ℕ) (hoff : off = 16 * v.val)
    (h : ∀ a, (![off] : Fin 1 → ℕ) a + S16.size a ≤ S208.size a) (x : S16.Idx) :
    (sSA.view.readAt (Elt F) (Rect.unit (s := S208) ![off] S16.size h).toLoadRect f) x = rowVec f v x := by
  subst hoff
  simp only [View.readAt_apply, Memref.view_whole, View.read_whole]
  unfold rowVec
  congr 1
  funext a; apply Fin.ext
  obtain rfl : a = 0 := Subsingleton.elim _ _
  simp [LoadRect.idx_apply, ValueIdx.ix1]
theorem readAt_rowVec_DA (f : Buf (Elt F) (sDA.view.loc (thrV d L))) (v : Fin 13) (off : ℕ) (hoff : off = 16 * v.val)
    (h : ∀ a, (![off] : Fin 1 → ℕ) a + S16.size a ≤ S208.size a) (x : S16.Idx) :
    (sDA.view.readAt (Elt F) (Rect.unit (s := S208) ![off] S16.size h).toLoadRect f) x = rowVec f v x := by
  subst hoff
  simp only [View.readAt_apply, Memref.view_whole, View.read_whole]
  unfold rowVec
  congr 1
  funext a; apply Fin.ext
  obtain rfl : a = 0 := Subsingleton.elim _ _
  simp [LoadRect.idx_apply, ValueIdx.ix1]

theorem k0_off6_eq' : ∀ (i : grid0.Coords) (k : Fin k0_t2_loop.trips), 0 < k.val → k0_off6 i k = ![64 * (i 1).val + 32 * (i 0).val + 2 * k.val - 2, 0] := by
  decide +kernel
theorem k0_off10_eq' : ∀ (i : grid0.Coords) (k : Fin k0_t2_loop.trips), 0 < k.val → k0_off10 i k = ![64 * (i 1).val + 32 * (i 0).val + 2 * k.val - 1, 0] := by
  decide +kernel

theorem pts_sCA_none (tgt : IVec SFreq 32) (C : Buf (Elt F) (sCA.view.loc (thrV d L))) :
    (sCA.view.loc (thrV d L) ↦{fullShare} C : sProp 𝕄)
      = (sCA.view.loc (thrV d L) ↦{fullShare} (cntAt tgt C 0 0 0 0 : Buf (Elt F) (sCA.view.loc (thrV d L)))) := by
  rw [cntAt_none]

end Cert.Kernel.Sc

end
-- ==== Proof.Bits.Sc.Flights.lean ====
import proofs.«212098_g24275155157491_cont_8to1_80_30_alg».proof.Proof.Bits.Sc.Inv

noncomputable section

namespace Cert.Kernel.Sc

open Cert.Kernel Cert.Kernel.Gen Idealize.ShloMosaic Idealize.SL Idealize.SL.RA Idealize.SL.BI
open Idealize.ShloMosaic.SparseCore.Cfg (HIx)
open scoped Idealize.SL.BI
open Idealize.SL.BI.BIBase Idealize.SL.BI.Laws Idealize.SL.Sem

variable {F : FTy → Type}

local notation "𝕄" => MT nD τ sig (HIx 1) (Elt F) ℕ UU ℕ

variable (m : (ℓ : Loc nD τ sig) → Buf (Elt F) ℓ) [FloatOps F] (d : Dev nD) (L : grid0.Coords)

-- A buffer overwritten whole holds the words written, whatever it held.
theorem flight_whole {g : SemLoc sig} (b : Ref sig .scVector) (f w : b.ty.Contents (Elt F)) {R R' : sProp 𝕄} (hR : R = R') :
    (Transfers.Flight countersEmb (thrV d L) g (default : HIx 1) 6656
        iprop(((View.whole b).loc (thrV d L) ↦{fullShare} (View.whole b).write (Elt F) f w Finset.univ) ∗ R) : sProp 𝕄)
      = Transfers.Flight countersEmb (thrV d L) g (default : HIx 1) 6656 iprop(((View.whole b).loc (thrV d L) ↦{fullShare} w) ∗ R') := by
  rw [View.write_whole_univ, hR]

variable (j' : Fin 1024) (off : Fin 2 → ℕ) (h : ∀ a, off a + S1x208.size a ≤ S1024x208.size a) (e : off = rowOff j')
include e

theorem idFlight_of_exec_SA (h0 : 0 < sig.nDmaSem)
    (f : Buf (Elt F) (sSA.view.loc (thrV d L))) (w : S208.Idx → Elt F .i32)
    (hw : w = ReadAs.same.apply ((rowM1 off h).view.read (Elt F) (pad0 m d))) :
    (Transfers.Flight countersEmb (thrV d L) (SemLoc.dma (⟨0, h0⟩ : DmaSem sig)) (default : HIx 1) 6656
        iprop((sSA.view.loc (thrV d L) ↦{fullShare} View.write (Elt F) sSA.view f w Finset.univ)
          ∗ ((rowM1 off h).view.loc (thrV d L) ↦[(rowM1 off h).view.set]{fullShare} pad0 m d)) : sProp 𝕄)
      = idFlight d L cc0_scratch7 sSA (rowBufSA m d L j') (v1Row m d j') := by
  subst e hw
  exact flight_whole d L cc0_scratch1 f _ (pts_rowM1 d L _ h j' rfl (pad0 m d))

theorem idFlight_of_exec_DA (h0 : 1 < sig.nDmaSem)
    (f : Buf (Elt F) (sDA.view.loc (thrV d L))) (w : S208.Idx → Elt F .i32)
    (hw : w = ReadAs.same.apply ((rowM2 off h).view.read (Elt F) (pad1 m d))) :
    (Transfers.Flight countersEmb (thrV d L) (SemLoc.dma (⟨1, h0⟩ : DmaSem sig)) (default : HIx 1) 6656
        iprop((sDA.view.loc (thrV d L) ↦{fullShare} View.write (Elt F) sDA.view f w Finset.univ)
          ∗ ((rowM2 off h).view.loc (thrV d L) ↦[(rowM2 off h).view.set]{fullShare} pad1 m d)) : sProp 𝕄)
      = idFlight d L cc0_scratch8 sDA (rowBufDA m d L j') (v2Row m d j') := by
  subst e hw
  exact flight_whole d L cc0_scratch2 f _ (pts_rowM2 d L _ h j' rfl (pad1 m d))

theorem idFlight_of_exec_SB (h0 : 2 < sig.nDmaSem)
    (f : Buf (Elt F) (sSB.view.loc (thrV d L))) (w : S208.Idx → Elt F .i32)
    (hw : w = ReadAs.same.apply ((rowM1 off h).view.read (Elt F) (pad0 m d))) :
    (Transfers.Flight countersEmb (thrV d L) (SemLoc.dma (⟨2, h0⟩ : DmaSem sig)) (default : HIx 1) 6656
        iprop((sSB.view.loc (thrV d L) ↦{fullShare} View.write (Elt F) sSB.view f w Finset.univ)
          ∗ ((rowM1 off h).view.loc (thrV d L) ↦[(rowM1 off h).view.set]{fullShare} pad0 m d)) : sProp 𝕄)
      = idFlight d L cc0_scratch9 sSB (rowBufSB m d L j') (v1Row m d j') := by
  subst e hw
  exact flight_whole d L cc0_scratch3 f _ (pts_rowM1 d L _ h j' rfl (pad0 m d))

theorem idFlight_of_exec_DB (h0 : 3 < sig.nDmaSem)
    (f : Buf (Elt F) (sDB.view.loc (thrV d L))) (w : S208.Idx → Elt F .i32)
    (hw : w = ReadAs.same.apply ((rowM2 off h).view.read (Elt F) (pad1 m d))) :
    (Transfers.Flight countersEmb (thrV d L) (SemLoc.dma (⟨3, h0⟩ : DmaSem sig)) (default : HIx 1) 6656
        iprop((sDB.view.loc (thrV d L) ↦{fullShare} View.write (Elt F) sDB.view f w Finset.univ)
          ∗ ((rowM2 off h).view.loc (thrV d L) ↦[(rowM2 off h).view.set]{fullShare} pad1 m d)) : sProp 𝕄)
      = idFlight d L cc0_scratch10 sDB (rowBufDB m d L j') (v2Row m d j') := by
  subst e hw
  exact flight_whole d L cc0_scratch4 f _ (pts_rowM2 d L _ h j' rfl (pad1 m d))

end Cert.Kernel.Sc

end
-- ==== Proof.Bits.Sc.Part3.lean ====
import proofs.«212098_g24275155157491_cont_8to1_80_30_alg».proof.Proof.Bits.Sc.Inv
import proofs.«212098_g24275155157491_cont_8to1_80_30_alg».proof.Proof.Bits.Sc.Rules
import proofs.«212098_g24275155157491_cont_8to1_80_30_alg».proof.Proof.CntMath
import proofs.«212098_g24275155157491_cont_8to1_80_30_alg».proof.Proof.Bits.Sc.Flights
import proofs.«212098_g24275155157491_cont_8to1_80_30_alg».proof.Proof.Bits.Sc.PartsA
import proofs.«212098_g24275155157491_cont_8to1_80_30_alg».proof.Proof.Bits.Sc.AtTile

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath

variable {F : FTy → Type}

local notation "𝕄" => MT nD τ sig (HIx 1) (Elt F) ℕ UU ℕ

variable (m : (ℓ : Loc nD τ sig) → Buf (Elt F) ℓ) [FloatOps F]
variable (d : Dev nD) (L : grid0.Coords)

theorem p3_readAt_rowVec_DA {f : Buf (Elt F) (sDA.view.loc (thrV d L))} (v : Fin 13) (off : ℕ) (hoff : off = 16 * v.val)
    {h : ∀ a, (![off] : Fin 1 → ℕ) a + S16.size a ≤ S208.size a} (x : S16.Idx) :
    (sDA.view.readAt (Elt F) (Rect.unit (s := S208) ![off] S16.size h).toLoadRect f) x = rowVec f v x := by
  subst hoff
  simp only [View.readAt_apply, Memref.view_whole, View.read_whole]
  unfold rowVec
  congr 1
  funext a; apply Fin.ext
  obtain rfl : a = 0 := Subsingleton.elim _ _
  simp [LoadRect.idx_apply, ValueIdx.ix1]

theorem p3_owes_insert (O : CellTallies nD τ sig (HIx 1)) (W : Waits sig (HIx 1)) (s : SemLoc sig) :
    (owes (thrV d L) O (insert (s, (default : HIx 1)) W) : sProp 𝕄)
      ⊢ iprop(∃ W', ⌜∀ x ∈ W', x ∈ W ∨ x.2 = none⌝ ∗ owes (thrV d L) O W') := by
  iintro H
  iexists (insert (s, (default : HIx 1)) W)
  isplitr
  · ipureintro
    intro x hx
    rcases Finset.mem_insert.mp hx with rfl | hx
    · exact Or.inr rfl
    · exact Or.inl hx
  · iexact H

theorem p3_owes_same (O : CellTallies nD τ sig (HIx 1)) (W : Waits sig (HIx 1)) :
    (owes (thrV d L) O W : sProp 𝕄) ⊢ iprop(∃ W', ⌜∀ x ∈ W', x ∈ W ∨ x.2 = none⌝ ∗ owes (thrV d L) O W') := by
  iintro H
  iexists W
  isplitr
  · ipureintro; exact fun x hx => Or.inl hx
  · iexact H

theorem part3_mid {α : Type} {Q : α → sProp 𝕄} (k : (Σ' (v60 : Vec F S16 .i32) (k0_hw15 : k0_chk15 v60) (v61 : Vec F S16 .i32) (k0_hw16 : k0_chk16 v61) (v62 : Vec F S16 .i32) (k0_hw17 : k0_chk17 v62) (v63 : Vec F S16 .i32) (k0_hw18 : k0_chk18 v63) (v64 : Vec F S16 .i32) (k0_hw19 : k0_chk19 v64) (v65 : Vec F S16 .i32) (k0_hw20 : k0_chk20 v65) (v66 : Vec F S16 .i32) (k0_hw21 : k0_chk21 v66) (v67 : Vec F S16 .i32) (k0_hw22 : k0_chk22 v67) (v68 : Vec F S16 .i32) (k0_hw23 : k0_chk23 v68) (v69 : Vec F S16 .i32) (k0_hw24 : k0_chk24 v69) (v70 : Vec F S16 .i32) (k0_hw25 : k0_chk25 v70) (v71 : Vec F S16 .i32), k0_chk26 v71) → Prog (TpuEff nD τ sig (Elt F) Λ₀ (thrV d L).2) α)
    (hpre : PreOK m) (O : CellTallies nD τ sig (HIx 1)) (W : Waits sig (HIx 1))
    (kk : Fin k0_t2_loop.trips) (hk0 : 0 < kk.val) (hk15 : kk.val + 1 < 16)
    (j j' j'' : Fin 1024) (e5 : k0_off5 L kk = rowOff j') (e6 : k0_off6 L kk = rowOff j'')
    (v4 : IVec S16 32) (arg18 v37 : BitVec 32) (v46 : Vec F S16 .i32) (k0_hw1 : k0_chk1 v46) (v47 : Vec F S16 .i32) (k0_hw2 : k0_chk2 v47) (v48 : Vec F S16 .i32) (k0_hw3 : k0_chk3 v48) (v49 : Vec F S16 .i32) (k0_hw4 : k0_chk4 v49) (v50 : Vec F S16 .i32) (k0_hw5 : k0_chk5 v50) (v51 : Vec F S16 .i32) (k0_hw6 : k0_chk6 v51) (v52 : Vec F S16 .i32) (k0_hw7 : k0_chk7 v52) (v53 : Vec F S16 .i32) (k0_hw8 : k0_chk8 v53) (v54 : Vec F S16 .i32) (k0_hw9 : k0_chk9 v54) (v55 : Vec F S16 .i32) (k0_hw10 : k0_chk10 v55)
    (h4 : ∀ x, v4 x = 1#32) (h46 : ∀ x, v46 x = rowVec (rowBufSA m d L j) 0 x) (h47 : ∀ x, v47 x = rowVec (rowBufSA m d L j) 1 x) (h48 : ∀ x, v48 x = rowVec (rowBufSA m d L j) 2 x) (h49 : ∀ x, v49 x = rowVec (rowBufSA m d L j) 3 x) (h50 : ∀ x, v50 x = rowVec (rowBufSA m d L j) 4 x) (h51 : ∀ x, v51 x = rowVec (rowBufSA m d L j) 5 x) (h52 : ∀ x, v52 x = rowVec (rowBufSA m d L j) 6 x) (h53 : ∀ x, v53 x = rowVec (rowBufSA m d L j) 7 x) (h54 : ∀ x, v54 x = rowVec (rowBufSA m d L j) 8 x) (h55 : ∀ x, v55 x = rowVec (rowBufSA m d L j) 9 x)
    (CA : Buf (Elt F) (sCA.view.loc (thrV d L))) :
    iprop(□ Transfers.MayWaits (thrV d L) (none : HIx 1) O ∗ owes (thrV d L) O W
        ∗ (sTab.view.loc (thrV d L) ↦{fullShare} zeroTab d L)
        ∗ (sSA.view.loc (thrV d L) ↦{fullShare} rowBufSA m d L j) ∗ semVal (cellV d L cc0_scratch7) 0
        ∗ (sDA.view.loc (thrV d L) ↦{fullShare} rowBufDA m d L j) ∗ semVal (cellV d L cc0_scratch8) 0
        ∗ v1Row m d j' ∗ v2Row m d j'
        ∗ cntFlight m d L cc0_scratch11 sCA CA j''
        ∗ (∀ (v60 : Vec F S16 .i32) (k0_hw15 : k0_chk15 v60) (v61 : Vec F S16 .i32) (k0_hw16 : k0_chk16 v61) (v62 : Vec F S16 .i32) (k0_hw17 : k0_chk17 v62) (v63 : Vec F S16 .i32) (k0_hw18 : k0_chk18 v63) (v64 : Vec F S16 .i32) (k0_hw19 : k0_chk19 v64) (v65 : Vec F S16 .i32) (k0_hw20 : k0_chk20 v65) (v66 : Vec F S16 .i32) (k0_hw21 : k0_chk21 v66) (v67 : Vec F S16 .i32) (k0_hw22 : k0_chk22 v67) (v68 : Vec F S16 .i32) (k0_hw23 : k0_chk23 v68) (v69 : Vec F S16 .i32) (k0_hw24 : k0_chk24 v69) (v70 : Vec F S16 .i32) (k0_hw25 : k0_chk25 v70) (v71 : Vec F S16 .i32) (k0_hw26 : k0_chk26 v71), ⌜(∀ x, v60 x = rowVec (rowBufDA m d L j) 1 x) ∧ (∀ x, v61 x = rowVec (rowBufDA m d L j) 2 x) ∧ (∀ x, v62 x = rowVec (rowBufDA m d L j) 3 x) ∧ (∀ x, v63 x = rowVec (rowBufDA m d L j) 4 x) ∧ (∀ x, v64 x = rowVec (rowBufDA m d L j) 5 x) ∧ (∀ x, v65 x = rowVec (rowBufDA m d L j) 6 x) ∧ (∀ x, v66 x = rowVec (rowBufDA m d L j) 7 x) ∧ (∀ x, v67 x = rowVec (rowBufDA m d L j) 8 x) ∧ (∀ x, v68 x = rowVec (rowBufDA m d L j) 9 x) ∧ (∀ x, v69 x = rowVec (rowBufDA m d L j) 10 x) ∧ (∀ x, v70 x = rowVec (rowBufDA m d L j) 11 x) ∧ (∀ x, v71 x = rowVec (rowBufDA m d L j) 12 x)⌝
            -∗ (sTab.view.loc (thrV d L) ↦{fullShare} (addedTab (fun _ => 0#32) (rowBufSA m d L j) 160 : Buf (Elt F) (sTab.view.loc (thrV d L))))
            -∗ idFlight d L cc0_scratch7 sSA (rowBufSA m d L j') (v1Row m d j')
            -∗ idFlight d L cc0_scratch8 sDA (rowBufDA m d L j') (v2Row m d j')
            -∗ v3Row d j'' (cnts m d) -∗ (sCA.view.loc (thrV d L) ↦{fullShare} CA) -∗ semVal (cellV d L cc0_scratch11) 0
            -∗ iprop(∃ W', ⌜∀ x ∈ W', x ∈ W ∨ x.2 = none⌝ ∗ owes (thrV d L) O W')
            -∗ wp frame (wpE (defs₀ (F := F)) 𝒱₀ (thrV d L) none) Set.univ (k ⟨v60, k0_hw15, v61, k0_hw16, v62, k0_hw17, v63, k0_hw18, v64, k0_hw19, v65, k0_hw20, v66, k0_hw21, v67, k0_hw22, v68, k0_hw23, v69, k0_hw24, v70, k0_hw25, v71, k0_hw26⟩) Q))
      ⊢ wp frame (wpE (defs₀ (F := F)) 𝒱₀ (thrV d L) none) Set.univ ((atTile L k0_part3 v4 kk arg18 v37 v46 k0_hw1 v47 k0_hw2 v48 k0_hw3 v49 k0_hw4 v50 k0_hw5 v51 k0_hw6 v52 k0_hw7 v53 k0_hw8 v54 k0_hw9 v55 k0_hw10) >>= k) Q := by
  have hc1 : k0_cond1 kk = 1#1 := cond1_pos kk hk15
  have hc2 : k0_cond2 kk = 1#1 := cond2_pos kk hk0
  unfold zeroTab
  iintro ⟨#Hmw, HO, Htab, HSA, Hs7, HDA, Hs8, Hn1, Hn2, Hf11, Hk⟩
  ihave Hn1 := (Entails.of_eq (pts_rowM1 (F := F) d L (k0_off5 L kk) (k0_off5_inb L kk hc1) j' e5 (pad0 m d)).symm) $$ Hn1
  ihave Hn2 := (Entails.of_eq (pts_rowM2 (F := F) d L (k0_off5 L kk) (k0_off5_inb L kk hc1) j' e5 (pad1 m d)).symm) $$ Hn2
  unfold atTile
  rw [k0_part3_eq_skeleton]; unfold k0_part3_skel
  sl_exec (disch := exact chk_of (readAt_lt_DA m d L hpre _ _ _))
  iapply (tab_sidx' d L (addedTab_first (F := F) (rowBufSA m d L j) v46 v4 _ h46 h4 (fun _ => rfl) _)) $$ Htab; iintro Htab
  iapply (tab_add d L h47 h4 16 32 rfl rfl) $$ Htab; iintro Htab
  iapply (tab_add d L h48 h4 32 48 rfl rfl) $$ Htab; iintro Htab
  iapply (tab_add d L h49 h4 48 64 rfl rfl) $$ Htab; iintro Htab
  iapply (tab_add d L h50 h4 64 80 rfl rfl) $$ Htab; iintro Htab
  iapply (tab_add d L h51 h4 80 96 rfl rfl) $$ Htab; iintro Htab
  iapply (tab_add d L h52 h4 96 112 rfl rfl) $$ Htab; iintro Htab
  iapply (tab_add d L h53 h4 112 128 rfl rfl) $$ Htab; iintro Htab
  iapply (tab_add d L h54 h4 128 144 rfl rfl) $$ Htab; iintro Htab
  iapply (tab_add d L h55 h4 144 160 rfl rfl) $$ Htab; iintro Htab
  sl_unfold_run_names
  ihave Hs7 := (Entails.of_eq (idFlight_of_exec_SA m d L j' (k0_off5 L kk) (k0_off5_inb L kk hc1) e5 _ (rowBufSA m d L j) _ rfl)) $$ Hs7
  ihave Hs8 := (Entails.of_eq (idFlight_of_exec_DA m d L j' (k0_off5 L kk) (k0_off5_inb L kk hc1) e5 _ (rowBufDA m d L j) _ rfl)) $$ Hs8
  ihave HO := (p3_owes_insert (F := F) d L O W _) $$ HO
  ihave Hf11 := (Entails.of_eq (show (semVal (thrV d L, SemLoc.dma (⟨4, _⟩ : DmaSem sig)) 0 : sProp 𝕄) = semVal (cellV d L cc0_scratch11) 0 from rfl)) $$ Hf11
  rw [pure_bind]
  iapply Hk $$ %_ %_ %_ %_ %_ %_ %_ %_ %_ %_ %_ %_ %_ %_ %_ %_ %_ %_ %_ %_ %_ %_ %_ %_ %⟨p3_readAt_rowVec_DA (F := F) d L 1 16 rfl, p3_readAt_rowVec_DA (F := F) d L 2 32 rfl, p3_readAt_rowVec_DA (F := F) d L 3 48 rfl, p3_readAt_rowVec_DA (F := F) d L 4 64 rfl, p3_readAt_rowVec_DA (F := F) d L 5 80 rfl, p3_readAt_rowVec_DA (F := F) d L 6 96 rfl, p3_readAt_rowVec_DA (F := F) d L 7 112 rfl, p3_readAt_rowVec_DA (F := F) d L 8 128 rfl, p3_readAt_rowVec_DA (F := F) d L 9 144 rfl, p3_readAt_rowVec_DA (F := F) d L 10 160 rfl, p3_readAt_rowVec_DA (F := F) d L 11 176 rfl, p3_readAt_rowVec_DA (F := F) d L 12 192 rfl⟩ Htab Hs7 Hs8 Hf11_dst Hf11_src Hf11 HO

theorem part3_first {α : Type} {Q : α → sProp 𝕄} (k : (Σ' (v60 : Vec F S16 .i32) (k0_hw15 : k0_chk15 v60) (v61 : Vec F S16 .i32) (k0_hw16 : k0_chk16 v61) (v62 : Vec F S16 .i32) (k0_hw17 : k0_chk17 v62) (v63 : Vec F S16 .i32) (k0_hw18 : k0_chk18 v63) (v64 : Vec F S16 .i32) (k0_hw19 : k0_chk19 v64) (v65 : Vec F S16 .i32) (k0_hw20 : k0_chk20 v65) (v66 : Vec F S16 .i32) (k0_hw21 : k0_chk21 v66) (v67 : Vec F S16 .i32) (k0_hw22 : k0_chk22 v67) (v68 : Vec F S16 .i32) (k0_hw23 : k0_chk23 v68) (v69 : Vec F S16 .i32) (k0_hw24 : k0_chk24 v69) (v70 : Vec F S16 .i32) (k0_hw25 : k0_chk25 v70) (v71 : Vec F S16 .i32), k0_chk26 v71) → Prog (TpuEff nD τ sig (Elt F) Λ₀ (thrV d L).2) α)
    (hpre : PreOK m) (O : CellTallies nD τ sig (HIx 1)) (W : Waits sig (HIx 1))
    (kk : Fin k0_t2_loop.trips) (hk0 : kk.val = 0)
    (j j' : Fin 1024) (e5 : k0_off5 L kk = rowOff j')
    (v4 : IVec S16 32) (arg18 v37 : BitVec 32) (v46 : Vec F S16 .i32) (k0_hw1 : k0_chk1 v46) (v47 : Vec F S16 .i32) (k0_hw2 : k0_chk2 v47) (v48 : Vec F S16 .i32) (k0_hw3 : k0_chk3 v48) (v49 : Vec F S16 .i32) (k0_hw4 : k0_chk4 v49) (v50 : Vec F S16 .i32) (k0_hw5 : k0_chk5 v50) (v51 : Vec F S16 .i32) (k0_hw6 : k0_chk6 v51) (v52 : Vec F S16 .i32) (k0_hw7 : k0_chk7 v52) (v53 : Vec F S16 .i32) (k0_hw8 : k0_chk8 v53) (v54 : Vec F S16 .i32) (k0_hw9 : k0_chk9 v54) (v55 : Vec F S16 .i32) (k0_hw10 : k0_chk10 v55)
    (h4 : ∀ x, v4 x = 1#32) (h46 : ∀ x, v46 x = rowVec (rowBufSA m d L j) 0 x) (h47 : ∀ x, v47 x = rowVec (rowBufSA m d L j) 1 x) (h48 : ∀ x, v48 x = rowVec (rowBufSA m d L j) 2 x) (h49 : ∀ x, v49 x = rowVec (rowBufSA m d L j) 3 x) (h50 : ∀ x, v50 x = rowVec (rowBufSA m d L j) 4 x) (h51 : ∀ x, v51 x = rowVec (rowBufSA m d L j) 5 x) (h52 : ∀ x, v52 x = rowVec (rowBufSA m d L j) 6 x) (h53 : ∀ x, v53 x = rowVec (rowBufSA m d L j) 7 x) (h54 : ∀ x, v54 x = rowVec (rowBufSA m d L j) 8 x) (h55 : ∀ x, v55 x = rowVec (rowBufSA m d L j) 9 x) :
    iprop(owes (thrV d L) O W
        ∗ (sTab.view.loc (thrV d L) ↦{fullShare} zeroTab d L)
        ∗ (sSA.view.loc (thrV d L) ↦{fullShare} rowBufSA m d L j) ∗ semVal (cellV d L cc0_scratch7) 0
        ∗ (sDA.view.loc (thrV d L) ↦{fullShare} rowBufDA m d L j) ∗ semVal (cellV d L cc0_scratch8) 0
        ∗ v1Row m d j' ∗ v2Row m d j'
        ∗ (∀ (v60 : Vec F S16 .i32) (k0_hw15 : k0_chk15 v60) (v61 : Vec F S16 .i32) (k0_hw16 : k0_chk16 v61) (v62 : Vec F S16 .i32) (k0_hw17 : k0_chk17 v62) (v63 : Vec F S16 .i32) (k0_hw18 : k0_chk18 v63) (v64 : Vec F S16 .i32) (k0_hw19 : k0_chk19 v64) (v65 : Vec F S16 .i32) (k0_hw20 : k0_chk20 v65) (v66 : Vec F S16 .i32) (k0_hw21 : k0_chk21 v66) (v67 : Vec F S16 .i32) (k0_hw22 : k0_chk22 v67) (v68 : Vec F S16 .i32) (k0_hw23 : k0_chk23 v68) (v69 : Vec F S16 .i32) (k0_hw24 : k0_chk24 v69) (v70 : Vec F S16 .i32) (k0_hw25 : k0_chk25 v70) (v71 : Vec F S16 .i32) (k0_hw26 : k0_chk26 v71), ⌜(∀ x, v60 x = rowVec (rowBufDA m d L j) 1 x) ∧ (∀ x, v61 x = rowVec (rowBufDA m d L j) 2 x) ∧ (∀ x, v62 x = rowVec (rowBufDA m d L j) 3 x) ∧ (∀ x, v63 x = rowVec (rowBufDA m d L j) 4 x) ∧ (∀ x, v64 x = rowVec (rowBufDA m d L j) 5 x) ∧ (∀ x, v65 x = rowVec (rowBufDA m d L j) 6 x) ∧ (∀ x, v66 x = rowVec (rowBufDA m d L j) 7 x) ∧ (∀ x, v67 x = rowVec (rowBufDA m d L j) 8 x) ∧ (∀ x, v68 x = rowVec (rowBufDA m d L j) 9 x) ∧ (∀ x, v69 x = rowVec (rowBufDA m d L j) 10 x) ∧ (∀ x, v70 x = rowVec (rowBufDA m d L j) 11 x) ∧ (∀ x, v71 x = rowVec (rowBufDA m d L j) 12 x)⌝
            -∗ (sTab.view.loc (thrV d L) ↦{fullShare} (addedTab (fun _ => 0#32) (rowBufSA m d L j) 160 : Buf (Elt F) (sTab.view.loc (thrV d L))))
            -∗ idFlight d L cc0_scratch7 sSA (rowBufSA m d L j') (v1Row m d j')
            -∗ idFlight d L cc0_scratch8 sDA (rowBufDA m d L j') (v2Row m d j')
            -∗ iprop(∃ W', ⌜∀ x ∈ W', x ∈ W ∨ x.2 = none⌝ ∗ owes (thrV d L) O W')
            -∗ wp frame (wpE (defs₀ (F := F)) 𝒱₀ (thrV d L) none) Set.univ (k ⟨v60, k0_hw15, v61, k0_hw16, v62, k0_hw17, v63, k0_hw18, v64, k0_hw19, v65, k0_hw20, v66, k0_hw21, v67, k0_hw22, v68, k0_hw23, v69, k0_hw24, v70, k0_hw25, v71, k0_hw26⟩) Q))
      ⊢ wp frame (wpE (defs₀ (F := F)) 𝒱₀ (thrV d L) none) Set.univ ((atTile L k0_part3 v4 kk arg18 v37 v46 k0_hw1 v47 k0_hw2 v48 k0_hw3 v49 k0_hw4 v50 k0_hw5 v51 k0_hw6 v52 k0_hw7 v53 k0_hw8 v54 k0_hw9 v55 k0_hw10) >>= k) Q := by
  have hc1 : k0_cond1 kk = 1#1 := cond1_pos kk (by omega)
  have hc2 : ¬ k0_cond2 kk = 1#1 := cond2_neg kk (by omega)
  unfold zeroTab
  iintro ⟨HO, Htab, HSA, Hs7, HDA, Hs8, Hn1, Hn2, Hk⟩
  ihave Hn1 := (Entails.of_eq (pts_rowM1 (F := F) d L (k0_off5 L kk) (k0_off5_inb L kk hc1) j' e5 (pad0 m d)).symm) $$ Hn1
  ihave Hn2 := (Entails.of_eq (pts_rowM2 (F := F) d L (k0_off5 L kk) (k0_off5_inb L kk hc1) j' e5 (pad1 m d)).symm) $$ Hn2
  unfold atTile
  rw [k0_part3_eq_skeleton]; unfold k0_part3_skel
  sl_exec (disch := exact chk_of (readAt_lt_DA m d L hpre _ _ _))
  iapply (tab_sidx' d L (addedTab_first (F := F) (rowBufSA m d L j) v46 v4 _ h46 h4 (fun _ => rfl) _)) $$ Htab; iintro Htab
  iapply (tab_add d L h47 h4 16 32 rfl rfl) $$ Htab; iintro Htab
  iapply (tab_add d L h48 h4 32 48 rfl rfl) $$ Htab; iintro Htab
  iapply (tab_add d L h49 h4 48 64 rfl rfl) $$ Htab; iintro Htab
  iapply (tab_add d L h50 h4 64 80 rfl rfl) $$ Htab; iintro Htab
  iapply (tab_add d L h51 h4 80 96 rfl rfl) $$ Htab; iintro Htab
  iapply (tab_add d L h52 h4 96 112 rfl rfl) $$ Htab; iintro Htab
  iapply (tab_add d L h53 h4 112 128 rfl rfl) $$ Htab; iintro Htab
  iapply (tab_add d L h54 h4 128 144 rfl rfl) $$ Htab; iintro Htab
  iapply (tab_add d L h55 h4 144 160 rfl rfl) $$ Htab; iintro Htab
  sl_unfold_run_names
  ihave Hs7 := (Entails.of_eq (idFlight_of_exec_SA m d L j' (k0_off5 L kk) (k0_off5_inb L kk hc1) e5 _ (rowBufSA m d L j) _ rfl)) $$ Hs7
  ihave Hs8 := (Entails.of_eq (idFlight_of_exec_DA m d L j' (k0_off5 L kk) (k0_off5_inb L kk hc1) e5 _ (rowBufDA m d L j) _ rfl)) $$ Hs8
  ihave HO := (p3_owes_same (F := F) d L O W) $$ HO
  rw [pure_bind]
  iapply Hk $$ %_ %_ %_ %_ %_ %_ %_ %_ %_ %_ %_ %_ %_ %_ %_ %_ %_ %_ %_ %_ %_ %_ %_ %_ %⟨p3_readAt_rowVec_DA (F := F) d L 1 16 rfl, p3_readAt_rowVec_DA (F := F) d L 2 32 rfl, p3_readAt_rowVec_DA (F := F) d L 3 48 rfl, p3_readAt_rowVec_DA (F := F) d L 4 64 rfl, p3_readAt_rowVec_DA (F := F) d L 5 80 rfl, p3_readAt_rowVec_DA (F := F) d L 6 96 rfl, p3_readAt_rowVec_DA (F := F) d L 7 112 rfl, p3_readAt_rowVec_DA (F := F) d L 8 128 rfl, p3_readAt_rowVec_DA (F := F) d L 9 144 rfl, p3_readAt_rowVec_DA (F := F) d L 10 160 rfl, p3_readAt_rowVec_DA (F := F) d L 11 176 rfl, p3_readAt_rowVec_DA (F := F) d L 12 192 rfl⟩ Htab Hs7 Hs8 HO

theorem part3_last {α : Type} {Q : α → sProp 𝕄} (k : (Σ' (v60 : Vec F S16 .i32) (k0_hw15 : k0_chk15 v60) (v61 : Vec F S16 .i32) (k0_hw16 : k0_chk16 v61) (v62 : Vec F S16 .i32) (k0_hw17 : k0_chk17 v62) (v63 : Vec F S16 .i32) (k0_hw18 : k0_chk18 v63) (v64 : Vec F S16 .i32) (k0_hw19 : k0_chk19 v64) (v65 : Vec F S16 .i32) (k0_hw20 : k0_chk20 v65) (v66 : Vec F S16 .i32) (k0_hw21 : k0_chk21 v66) (v67 : Vec F S16 .i32) (k0_hw22 : k0_chk22 v67) (v68 : Vec F S16 .i32) (k0_hw23 : k0_chk23 v68) (v69 : Vec F S16 .i32) (k0_hw24 : k0_chk24 v69) (v70 : Vec F S16 .i32) (k0_hw25 : k0_chk25 v70) (v71 : Vec F S16 .i32), k0_chk26 v71) → Prog (TpuEff nD τ sig (Elt F) Λ₀ (thrV d L).2) α)
    (hpre : PreOK m) (O : CellTallies nD τ sig (HIx 1)) (W : Waits sig (HIx 1))
    (kk : Fin k0_t2_loop.trips) (hk15 : kk.val = 15)
    (j j'' : Fin 1024) (e6 : k0_off6 L kk = rowOff j'')
    (v4 : IVec S16 32) (arg18 v37 : BitVec 32) (v46 : Vec F S16 .i32) (k0_hw1 : k0_chk1 v46) (v47 : Vec F S16 .i32) (k0_hw2 : k0_chk2 v47) (v48 : Vec F S16 .i32) (k0_hw3 : k0_chk3 v48) (v49 : Vec F S16 .i32) (k0_hw4 : k0_chk4 v49) (v50 : Vec F S16 .i32) (k0_hw5 : k0_chk5 v50) (v51 : Vec F S16 .i32) (k0_hw6 : k0_chk6 v51) (v52 : Vec F S16 .i32) (k0_hw7 : k0_chk7 v52) (v53 : Vec F S16 .i32) (k0_hw8 : k0_chk8 v53) (v54 : Vec F S16 .i32) (k0_hw9 : k0_chk9 v54) (v55 : Vec F S16 .i32) (k0_hw10 : k0_chk10 v55)
    (h4 : ∀ x, v4 x = 1#32) (h46 : ∀ x, v46 x = rowVec (rowBufSA m d L j) 0 x) (h47 : ∀ x, v47 x = rowVec (rowBufSA m d L j) 1 x) (h48 : ∀ x, v48 x = rowVec (rowBufSA m d L j) 2 x) (h49 : ∀ x, v49 x = rowVec (rowBufSA m d L j) 3 x) (h50 : ∀ x, v50 x = rowVec (rowBufSA m d L j) 4 x) (h51 : ∀ x, v51 x = rowVec (rowBufSA m d L j) 5 x) (h52 : ∀ x, v52 x = rowVec (rowBufSA m d L j) 6 x) (h53 : ∀ x, v53 x = rowVec (rowBufSA m d L j) 7 x) (h54 : ∀ x, v54 x = rowVec (rowBufSA m d L j) 8 x) (h55 : ∀ x, v55 x = rowVec (rowBufSA m d L j) 9 x)
    (CA : Buf (Elt F) (sCA.view.loc (thrV d L))) :
    iprop(□ Transfers.MayWaits (thrV d L) (none : HIx 1) O ∗ owes (thrV d L) O W
        ∗ (sTab.view.loc (thrV d L) ↦{fullShare} zeroTab d L)
        ∗ (sDA.view.loc (thrV d L) ↦{fullShare} rowBufDA m d L j)
        ∗ cntFlight m d L cc0_scratch11 sCA CA j''
        ∗ (∀ (v60 : Vec F S16 .i32) (k0_hw15 : k0_chk15 v60) (v61 : Vec F S16 .i32) (k0_hw16 : k0_chk16 v61) (v62 : Vec F S16 .i32) (k0_hw17 : k0_chk17 v62) (v63 : Vec F S16 .i32) (k0_hw18 : k0_chk18 v63) (v64 : Vec F S16 .i32) (k0_hw19 : k0_chk19 v64) (v65 : Vec F S16 .i32) (k0_hw20 : k0_chk20 v65) (v66 : Vec F S16 .i32) (k0_hw21 : k0_chk21 v66) (v67 : Vec F S16 .i32) (k0_hw22 : k0_chk22 v67) (v68 : Vec F S16 .i32) (k0_hw23 : k0_chk23 v68) (v69 : Vec F S16 .i32) (k0_hw24 : k0_chk24 v69) (v70 : Vec F S16 .i32) (k0_hw25 : k0_chk25 v70) (v71 : Vec F S16 .i32) (k0_hw26 : k0_chk26 v71), ⌜(∀ x, v60 x = rowVec (rowBufDA m d L j) 1 x) ∧ (∀ x, v61 x = rowVec (rowBufDA m d L j) 2 x) ∧ (∀ x, v62 x = rowVec (rowBufDA m d L j) 3 x) ∧ (∀ x, v63 x = rowVec (rowBufDA m d L j) 4 x) ∧ (∀ x, v64 x = rowVec (rowBufDA m d L j) 5 x) ∧ (∀ x, v65 x = rowVec (rowBufDA m d L j) 6 x) ∧ (∀ x, v66 x = rowVec (rowBufDA m d L j) 7 x) ∧ (∀ x, v67 x = rowVec (rowBufDA m d L j) 8 x) ∧ (∀ x, v68 x = rowVec (rowBufDA m d L j) 9 x) ∧ (∀ x, v69 x = rowVec (rowBufDA m d L j) 10 x) ∧ (∀ x, v70 x = rowVec (rowBufDA m d L j) 11 x) ∧ (∀ x, v71 x = rowVec (rowBufDA m d L j) 12 x)⌝
            -∗ (sTab.view.loc (thrV d L) ↦{fullShare} (addedTab (fun _ => 0#32) (rowBufSA m d L j) 160 : Buf (Elt F) (sTab.view.loc (thrV d L))))
            -∗ (sDA.view.loc (thrV d L) ↦{fullShare} rowBufDA m d L j)
            -∗ v3Row d j'' (cnts m d) -∗ (sCA.view.loc (thrV d L) ↦{fullShare} CA) -∗ semVal (cellV d L cc0_scratch11) 0
            -∗ iprop(∃ W', ⌜∀ x ∈ W', x ∈ W ∨ x.2 = none⌝ ∗ owes (thrV d L) O W')
            -∗ wp frame (wpE (defs₀ (F := F)) 𝒱₀ (thrV d L) none) Set.univ (k ⟨v60, k0_hw15, v61, k0_hw16, v62, k0_hw17, v63, k0_hw18, v64, k0_hw19, v65, k0_hw20, v66, k0_hw21, v67, k0_hw22, v68, k0_hw23, v69, k0_hw24, v70, k0_hw25, v71, k0_hw26⟩) Q))
      ⊢ wp frame (wpE (defs₀ (F := F)) 𝒱₀ (thrV d L) none) Set.univ ((atTile L k0_part3 v4 kk arg18 v37 v46 k0_hw1 v47 k0_hw2 v48 k0_hw3 v49 k0_hw4 v50 k0_hw5 v51 k0_hw6 v52 k0_hw7 v53 k0_hw8 v54 k0_hw9 v55 k0_hw10) >>= k) Q := by
  have hc1 : ¬ k0_cond1 kk = 1#1 := cond1_neg kk (by omega)
  have hc2 : k0_cond2 kk = 1#1 := cond2_pos kk (by omega)
  unfold zeroTab
  iintro ⟨#Hmw, HO, Htab, HDA, Hf11, Hk⟩
  unfold atTile
  rw [k0_part3_eq_skeleton]; unfold k0_part3_skel
  sl_exec (disch := exact chk_of (readAt_lt_DA m d L hpre _ _ _))
  iapply (tab_sidx' d L (addedTab_first (F := F) (rowBufSA m d L j) v46 v4 _ h46 h4 (fun _ => rfl) _)) $$ Htab; iintro Htab
  iapply (tab_add d L h47 h4 16 32 rfl rfl) $$ Htab; iintro Htab
  iapply (tab_add d L h48 h4 32 48 rfl rfl) $$ Htab; iintro Htab
  iapply (tab_add d L h49 h4 48 64 rfl rfl) $$ Htab; iintro Htab
  iapply (tab_add d L h50 h4 64 80 rfl rfl) $$ Htab; iintro Htab
  iapply (tab_add d L h51 h4 80 96 rfl rfl) $$ Htab; iintro Htab
  iapply (tab_add d L h52 h4 96 112 rfl rfl) $$ Htab; iintro Htab
  iapply (tab_add d L h53 h4 112 128 rfl rfl) $$ Htab; iintro Htab
  iapply (tab_add d L h54 h4 128 144 rfl rfl) $$ Htab; iintro Htab
  iapply (tab_add d L h55 h4 144 160 rfl rfl) $$ Htab; iintro Htab
  ihave HO := (p3_owes_insert (F := F) d L O W _) $$ HO
  ihave Hf11 := (Entails.of_eq (show (semVal (thrV d L, SemLoc.dma (⟨4, _⟩ : DmaSem sig)) 0 : sProp 𝕄) = semVal (cellV d L cc0_scratch11) 0 from rfl)) $$ Hf11
  rw [pure_bind]
  iapply Hk $$ %_ %_ %_ %_ %_ %_ %_ %_ %_ %_ %_ %_ %_ %_ %_ %_ %_ %_ %_ %_ %_ %_ %_ %_ %⟨p3_readAt_rowVec_DA (F := F) d L 1 16 rfl, p3_readAt_rowVec_DA (F := F) d L 2 32 rfl, p3_readAt_rowVec_DA (F := F) d L 3 48 rfl, p3_readAt_rowVec_DA (F := F) d L 4 64 rfl, p3_readAt_rowVec_DA (F := F) d L 5 80 rfl, p3_readAt_rowVec_DA (F := F) d L 6 96 rfl, p3_readAt_rowVec_DA (F := F) d L 7 112 rfl, p3_readAt_rowVec_DA (F := F) d L 8 128 rfl, p3_readAt_rowVec_DA (F := F) d L 9 144 rfl, p3_readAt_rowVec_DA (F := F) d L 10 160 rfl, p3_readAt_rowVec_DA (F := F) d L 11 176 rfl, p3_readAt_rowVec_DA (F := F) d L 12 192 rfl⟩ Htab HDA Hf11_dst Hf11_src Hf11 HO

end Cert.Kernel.Sc

end
-- ==== Proof.Bits.Sc.PartsB.lean ====
import proofs.«212098_g24275155157491_cont_8to1_80_30_alg».proof.Proof.Bits.Sc.PartsA

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section PartsB
variable (d : Dev nD) (L : grid0.Coords)
open Cert.ScMath Idealize.ShloMosaic.ValueIdx

theorem part16 {α : Type} {Q : α → sProp 𝕄} (k : (Σ' (_ : Vec F S16 .i32), IVec S16 32) → Prog (TpuEff nD τ sig (Elt F) Λ₀ (thrV d L).2) α)
    (rS rD : IVec SRow 32) (base : IVec SFreq 32) (n1 n2 : ℕ)
    (v406 : Vec F S16 .i32) (hw29 : k0_chk29 v406) (v407 : Vec F S16 .i32) (hw30 : k0_chk30 v407) (v408 : Vec F S16 .i32) (hw31 : k0_chk31 v408)
    (v418 : Vec F S16 .i32) (v419 : Vec F S16 .i32) (hw42 : k0_chk42 v419) (v420 : Vec F S16 .i32) (hw43 : k0_chk43 v420) (v421 : Vec F S16 .i32) (hw44 : k0_chk44 v421)
    (v450 : Vec F S16 .i32) (v454 : IVec S16 32)
    (hv406 : ∀ x, v406 x = rowVec rS 2 x) (hv407 : ∀ x, v407 x = rowVec rS 3 x) (hv408 : ∀ x, v408 x = rowVec rS 4 x)
    (hv418 : ∀ x, v418 x = rowVec rD 1 x) (hv419 : ∀ x, v419 x = rowVec rD 2 x) (hv420 : ∀ x, v420 x = rowVec rD 3 x) (hv421 : ∀ x, v421 x = rowVec rD 4 x)
    (hv450 : ∀ x, v450 x = BitVec.ofNat 32 (occRow rS (v418 x)))
    (hv454 : ∀ (x : SLane.Idx) (hx : 16 + (x 0).val < 832), v454 x = tgtRow rS rD (ix1 ⟨16 + (x 0).val, hx⟩)) :
    iprop((sTab.view.loc (thrV d L) ↦{fullShare} (countTab rS : Buf (Elt F) (sTab.view.loc (thrV d L))))
        ∗ (sCB.view.loc (thrV d L) ↦{fullShare} (cntAt (tgtRow rS rD) base 1 n1 n2 1 : Buf (Elt F) (sCB.view.loc (thrV d L))))
        ∗ (∀ (c : Vec F S16 .i32) (w : IVec S16 32), ⌜∀ x, c x = BitVec.ofNat 32 (occRow rS (v421 x))⌝
            -∗ ⌜∀ (x : SLane.Idx) (hx : 64 + (x 0).val < 832), w x = tgtRow rS rD (ix1 ⟨64 + (x 0).val, hx⟩)⌝
            -∗ (sTab.view.loc (thrV d L) ↦{fullShare} (countTab rS : Buf (Elt F) (sTab.view.loc (thrV d L))))
            -∗ (sCB.view.loc (thrV d L) ↦{fullShare} (cntAt (tgtRow rS rD) base 4 n1 n2 4 : Buf (Elt F) (sCB.view.loc (thrV d L))))
            -∗ wp frame (wpE (defs₀ (F := F)) 𝒱₀ (thrV d L) none) Set.univ (k ⟨c, w⟩) Q))
      ⊢ wp frame (wpE (defs₀ (F := F)) 𝒱₀ (thrV d L) none) Set.univ
          (atTile L k0_part16 v406 hw29 v407 hw30 v408 hw31 v418 v419 hw42 v420 hw43 v421 hw44 v450 v454 >>= k) Q := by
  iintro ⟨HT, HC, Hk⟩
  unfold atTile; rw [k0_part16_eq_skeleton]; unfold k0_part16_skel
  sl_exec
  iapply (tab_lidx₂ d L) $$ HT; iintro HT
  sl_exec
  iapply (tab_lidx₂ d L) $$ HT; iintro HT
  sl_exec
  iapply (tab_lidx₂ d L) $$ HT; iintro HT
  sl_exec
  repeat rw [sCB_cons₂]
  rw [sCB_step (F := F) (tgtRow rS rD) base 1 n1 n2 1 2 n1 n2 1 16 _ _ (filled_step0 1 n1 n2 1 16 rfl (by omega)) hv454,
    sCB_step (F := F) (tgtRow rS rD) base 2 n1 n2 1 2 n1 n2 2 640 _ (k0_pay56 v418 v450) (filled_step3 2 n1 n2 1 640 rfl (by omega))
    (fun x hx => pay_tgt3 rS rD 1 _ rfl v418 hv418 v450 hv450 x hx),
    get0 sCB_step rS rD 2 3 32 hv406 rfl rfl rfl (k0_pay57 v406 _) rfl,
    get3 sCB_step rS rD 2 3 656 hv419 rfl rfl rfl (k0_pay58 v419 _) rfl,
    get0 sCB_step rS rD 3 4 48 hv407 rfl rfl rfl (k0_pay59 v407 _) rfl,
    get3 sCB_step rS rD 3 4 672 hv420 rfl rfl rfl (k0_pay60 v420 _) rfl]
  iapply Hk $$ %_ %_ %(fun x => loadIdx_countTab' (F := F) rS v421 _ x)
    %(fun x hx => pay_tgt0 rS rD 4 _ rfl v408 hv408 _ (fun x => loadIdx_countTab' (F := F) rS v408 _ x) x hx) HT HC

theorem part17 {α : Type} {Q : α → sProp 𝕄} (k : (Σ' (_ : Vec F S16 .i32), IVec S16 32) → Prog (TpuEff nD τ sig (Elt F) Λ₀ (thrV d L).2) α)
    (rS rD : IVec SRow 32) (base : IVec SFreq 32) (n1 n2 : ℕ)
    (v409 : Vec F S16 .i32) (hw32 : k0_chk32 v409) (v410 : Vec F S16 .i32) (hw33 : k0_chk33 v410) (v411 : Vec F S16 .i32) (hw34 : k0_chk34 v411)
    (v421 : Vec F S16 .i32) (v422 : Vec F S16 .i32) (hw45 : k0_chk45 v422) (v423 : Vec F S16 .i32) (hw46 : k0_chk46 v423) (v424 : Vec F S16 .i32) (hw47 : k0_chk47 v424)
    (v486 : Vec F S16 .i32) (v490 : IVec S16 32)
    (hv409 : ∀ x, v409 x = rowVec rS 5 x) (hv410 : ∀ x, v410 x = rowVec rS 6 x) (hv411 : ∀ x, v411 x = rowVec rS 7 x)
    (hv421 : ∀ x, v421 x = rowVec rD 4 x) (hv422 : ∀ x, v422 x = rowVec rD 5 x) (hv423 : ∀ x, v423 x = rowVec rD 6 x) (hv424 : ∀ x, v424 x = rowVec rD 7 x)
    (hv486 : ∀ x, v486 x = BitVec.ofNat 32 (occRow rS (v421 x)))
    (hv490 : ∀ (x : SLane.Idx) (hx : 64 + (x 0).val < 832), v490 x = tgtRow rS rD (ix1 ⟨64 + (x 0).val, hx⟩)) :
    iprop((sTab.view.loc (thrV d L) ↦{fullShare} (countTab rS : Buf (Elt F) (sTab.view.loc (thrV d L))))
        ∗ (sCB.view.loc (thrV d L) ↦{fullShare} (cntAt (tgtRow rS rD) base 4 n1 n2 4 : Buf (Elt F) (sCB.view.loc (thrV d L))))
        ∗ (∀ (c : Vec F S16 .i32) (w : IVec S16 32), ⌜∀ x, c x = BitVec.ofNat 32 (occRow rS (v424 x))⌝
            -∗ ⌜∀ (x : SLane.Idx) (hx : 112 + (x 0).val < 832), w x = tgtRow rS rD (ix1 ⟨112 + (x 0).val, hx⟩)⌝
            -∗ (sTab.view.loc (thrV d L) ↦{fullShare} (countTab rS : Buf (Elt F) (sTab.view.loc (thrV d L))))
            -∗ (sCB.view.loc (thrV d L) ↦{fullShare} (cntAt (tgtRow rS rD) base 7 n1 n2 7 : Buf (Elt F) (sCB.view.loc (thrV d L))))
            -∗ wp frame (wpE (defs₀ (F := F)) 𝒱₀ (thrV d L) none) Set.univ (k ⟨c, w⟩) Q))
      ⊢ wp frame (wpE (defs₀ (F := F)) 𝒱₀ (thrV d L) none) Set.univ
          (atTile L k0_part17 v409 hw32 v410 hw33 v411 hw34 v421 v422 hw45 v423 hw46 v424 hw47 v486 v490 >>= k) Q := by
  iintro ⟨HT, HC, Hk⟩
  unfold atTile; rw [k0_part17_eq_skeleton]; unfold k0_part17_skel
  sl_exec
  iapply (tab_lidx₂ d L) $$ HT; iintro HT
  sl_exec
  iapply (tab_lidx₂ d L) $$ HT; iintro HT
  sl_exec
  iapply (tab_lidx₂ d L) $$ HT; iintro HT
  sl_exec
  repeat rw [sCB_cons₂]
  rw [sCB_step (F := F) (tgtRow rS rD) base 4 n1 n2 4 5 n1 n2 4 64 _ _ (filled_step0 4 n1 n2 4 64 rfl (by omega)) hv490,
    sCB_step (F := F) (tgtRow rS rD) base 5 n1 n2 4 5 n1 n2 5 688 _ (k0_pay62 v421 v486) (filled_step3 5 n1 n2 4 688 rfl (by omega))
    (fun x hx => pay_tgt3 rS rD 4 _ rfl v421 hv421 v486 hv486 x hx),
    get0 sCB_step rS rD 5 6 80 hv409 rfl rfl rfl (k0_pay63 v409 _) rfl,
    get3 sCB_step rS rD 5 6 704 hv422 rfl rfl rfl (k0_pay64 v422 _) rfl,
    get0 sCB_step rS rD 6 7 96 hv410 rfl rfl rfl (k0_pay65 v410 _) rfl,
    get3 sCB_step rS rD 6 7 720 hv423 rfl rfl rfl (k0_pay66 v423 _) rfl]
  iapply Hk $$ %_ %_ %(fun x => loadIdx_countTab' (F := F) rS v424 _ x)
    %(fun x hx => pay_tgt0 rS rD 7 _ rfl v411 hv411 _ (fun x => loadIdx_countTab' (F := F) rS v411 _ x) x hx) HT HC

theorem part18 {α : Type} {Q : α → sProp 𝕄} (k : (Σ' (_ : Vec F S16 .i32), IVec S16 32) → Prog (TpuEff nD τ sig (Elt F) Λ₀ (thrV d L).2) α)
    (rS rD : IVec SRow 32) (base : IVec SFreq 32) (n1 n2 : ℕ)
    (v412 : Vec F S16 .i32) (hw35 : k0_chk35 v412) (v413 : Vec F S16 .i32) (hw36 : k0_chk36 v413) (v414 : Vec F S16 .i32) (hw37 : k0_chk37 v414)
    (v424 : Vec F S16 .i32) (v425 : Vec F S16 .i32) (hw48 : k0_chk48 v425) (v426 : Vec F S16 .i32) (hw49 : k0_chk49 v426) (v427 : Vec F S16 .i32) (hw50 : k0_chk50 v427)
    (v522 : Vec F S16 .i32) (v526 : IVec S16 32)
    (hv412 : ∀ x, v412 x = rowVec rS 8 x) (hv413 : ∀ x, v413 x = rowVec rS 9 x) (hv414 : ∀ x, v414 x = rowVec rS 10 x)
    (hv424 : ∀ x, v424 x = rowVec rD 7 x) (hv425 : ∀ x, v425 x = rowVec rD 8 x) (hv426 : ∀ x, v426 x = rowVec rD 9 x) (hv427 : ∀ x, v427 x = rowVec rD 10 x)
    (hv522 : ∀ x, v522 x = BitVec.ofNat 32 (occRow rS (v424 x)))
    (hv526 : ∀ (x : SLane.Idx) (hx : 112 + (x 0).val < 832), v526 x = tgtRow rS rD (ix1 ⟨112 + (x 0).val, hx⟩)) :
    iprop((sTab.view.loc (thrV d L) ↦{fullShare} (countTab rS : Buf (Elt F) (sTab.view.loc (thrV d L))))
        ∗ (sCB.view.loc (thrV d L) ↦{fullShare} (cntAt (tgtRow rS rD) base 7 n1 n2 7 : Buf (Elt F) (sCB.view.loc (thrV d L))))
        ∗ (∀ (c : Vec F S16 .i32) (w : IVec S16 32), ⌜∀ x, c x = BitVec.ofNat 32 (occRow rS (v427 x))⌝
            -∗ ⌜∀ (x : SLane.Idx) (hx : 160 + (x 0).val < 832), w x = tgtRow rS rD (ix1 ⟨160 + (x 0).val, hx⟩)⌝
            -∗ (sTab.view.loc (thrV d L) ↦{fullShare} (countTab rS : Buf (Elt F) (sTab.view.loc (thrV d L))))
            -∗ (sCB.view.loc (thrV d L) ↦{fullShare} (cntAt (tgtRow rS rD) base 10 n1 n2 10 : Buf (Elt F) (sCB.view.loc (thrV d L))))
            -∗ wp frame (wpE (defs₀ (F := F)) 𝒱₀ (thrV d L) none) Set.univ (k ⟨c, w⟩) Q))
      ⊢ wp frame (wpE (defs₀ (F := F)) 𝒱₀ (thrV d L) none) Set.univ
          (atTile L k0_part18 v412 hw35 v413 hw36 v414 hw37 v424 v425 hw48 v426 hw49 v427 hw50 v522 v526 >>= k) Q := by
  iintro ⟨HT, HC, Hk⟩
  unfold atTile; rw [k0_part18_eq_skeleton]; unfold k0_part18_skel
  sl_exec
  iapply (tab_lidx₂ d L) $$ HT; iintro HT
  sl_exec
  iapply (tab_lidx₂ d L) $$ HT; iintro HT
  sl_exec
  iapply (tab_lidx₂ d L) $$ HT; iintro HT
  sl_exec
  repeat rw [sCB_cons₂]
  rw [sCB_step (F := F) (tgtRow rS rD) base 7 n1 n2 7 8 n1 n2 7 112 _ _ (filled_step0 7 n1 n2 7 112 rfl (by omega)) hv526,
    sCB_step (F := F) (tgtRow rS rD) base 8 n1 n2 7 8 n1 n2 8 736 _ (k0_pay68 v424 v522) (filled_step3 8 n1 n2 7 736 rfl (by omega))
    (fun x hx => pay_tgt3 rS rD 7 _ rfl v424 hv424 v522 hv522 x hx),
    get0 sCB_step rS rD 8 9 128 hv412 rfl rfl rfl (k0_pay69 v412 _) rfl,
    get3 sCB_step rS rD 8 9 752 hv425 rfl rfl rfl (k0_pay70 v425 _) rfl,
    get0 sCB_step rS rD 9 10 144 hv413 rfl rfl rfl (k0_pay71 v413 _) rfl,
    get3 sCB_step rS rD 9 10 768 hv426 rfl rfl rfl (k0_pay72 v426 _) rfl]
  iapply Hk $$ %_ %_ %(fun x => loadIdx_countTab' (F := F) rS v427 _ x)
    %(fun x hx => pay_tgt0 rS rD 10 _ rfl v414 hv414 _ (fun x => loadIdx_countTab' (F := F) rS v414 _ x) x hx) HT HC

theorem part21 {α : Type} {Q : α → sProp 𝕄} (k : (Σ' (_ : Vec F S16 .i32) (_ : Vec F S16 .i32), IVec S16 32) → Prog (TpuEff nD τ sig (Elt F) Λ₀ (thrV d L).2) α)
    (rS rD : IVec SRow 32) (base : IVec SFreq 32) (n0 n3 : ℕ)
    (v406 : Vec F S16 .i32) (v407 : Vec F S16 .i32) (hw30 : k0_chk30 v407) (v408 : Vec F S16 .i32) (hw31 : k0_chk31 v408) (v409 : Vec F S16 .i32) (hw32 : k0_chk32 v409)
    (v419 : Vec F S16 .i32) (v420 : Vec F S16 .i32) (hw43 : k0_chk43 v420) (v421 : Vec F S16 .i32) (hw44 : k0_chk44 v421) (v422 : Vec F S16 .i32) (hw45 : k0_chk45 v422)
    (v617 : Vec F S16 .i32) (v618 : Vec F S16 .i32) (v619 : IVec S16 32)
    (hv406 : ∀ x, v406 x = rowVec rS 2 x) (hv407 : ∀ x, v407 x = rowVec rS 3 x) (hv408 : ∀ x, v408 x = rowVec rS 4 x) (hv409 : ∀ x, v409 x = rowVec rS 5 x)
    (hv419 : ∀ x, v419 x = rowVec rD 2 x) (hv420 : ∀ x, v420 x = rowVec rD 3 x) (hv421 : ∀ x, v421 x = rowVec rD 4 x) (hv422 : ∀ x, v422 x = rowVec rD 5 x)
    (hv617 : ∀ x, v617 x = BitVec.ofNat 32 (occRow rD (v419 x))) (hv618 : ∀ x, v618 x = BitVec.ofNat 32 (occRow rD (v406 x)))
    (hv619 : v619 = broadcast S16 0#32) :
    iprop((sTab.view.loc (thrV d L) ↦{fullShare} (countTab rD : Buf (Elt F) (sTab.view.loc (thrV d L))))
        ∗ (sCB.view.loc (thrV d L) ↦{fullShare} (cntAt (tgtRow rS rD) base n0 2 2 n3 : Buf (Elt F) (sCB.view.loc (thrV d L))))
        ∗ (∀ (c₂ c₁ : Vec F S16 .i32) (z : IVec S16 32), ⌜∀ x, c₂ x = BitVec.ofNat 32 (occRow rD (v422 x))⌝
            -∗ ⌜∀ x, c₁ x = BitVec.ofNat 32 (occRow rD (v409 x))⌝ -∗ ⌜z = broadcast S16 0#32⌝
            -∗ (sTab.view.loc (thrV d L) ↦{fullShare} (countTab rD : Buf (Elt F) (sTab.view.loc (thrV d L))))
            -∗ (sCB.view.loc (thrV d L) ↦{fullShare} (cntAt (tgtRow rS rD) base n0 5 5 n3 : Buf (Elt F) (sCB.view.loc (thrV d L))))
            -∗ wp frame (wpE (defs₀ (F := F)) 𝒱₀ (thrV d L) none) Set.univ (k ⟨c₂, c₁, z⟩) Q))
      ⊢ wp frame (wpE (defs₀ (F := F)) 𝒱₀ (thrV d L) none) Set.univ
          (atTile L k0_part21 v406 v407 hw30 v408 hw31 v409 hw32 v419 v420 hw43 v421 hw44 v422 hw45 v617 v618 v619 >>= k) Q := by
  subst hv619
  iintro ⟨HT, HC, Hk⟩
  unfold atTile; rw [k0_part21_eq_skeleton]; unfold k0_part21_skel
  sl_exec
  iapply (tab_lidx₂ d L) $$ HT; iintro HT
  sl_exec
  iapply (tab_lidx₂ d L) $$ HT; iintro HT
  sl_exec
  iapply (tab_lidx₂ d L) $$ HT; iintro HT
  repeat rw [sCB_cons₂]
  rw [sCB_step (F := F) (tgtRow rS rD) base n0 2 2 n3 n0 2 3 n3 448 _ (k0_pay84 v419 v617 _) (filled_step2 n0 2 2 n3 448 rfl (by omega))
    (fun x hx => pay_tgt2 rS rD 2 _ rfl v419 hv419 v617 hv617 x hx),
    sCB_step (F := F) (tgtRow rS rD) base n0 2 3 n3 n0 3 3 n3 240 _ (k0_pay85 v406 v618) (filled_step1 n0 2 3 n3 240 rfl (by omega))
    (fun x hx => pay_tgt1 rS rD 2 _ rfl v406 hv406 v618 hv618 x hx),
    get2 sCB_step rS rD 3 4 464 hv420 rfl rfl rfl (k0_pay86 v420 _) rfl,
    get1 sCB_step rS rD 3 4 256 hv407 rfl rfl rfl (k0_pay87 v407 _) rfl,
    get2 sCB_step rS rD 4 5 480 hv421 rfl rfl rfl (k0_pay88 v421 _) rfl,
    get1 sCB_step rS rD 4 5 272 hv408 rfl rfl rfl (k0_pay89 v408 _) rfl]
  iapply Hk $$ %_ %_ %_ %(fun x => loadIdx_countTab' (F := F) rD v422 _ x) %(fun x => loadIdx_countTab' (F := F) rD v409 _ x) %rfl HT HC

theorem part22 {α : Type} {Q : α → sProp 𝕄} (k : (Σ' (_ : Vec F S16 .i32) (_ : Vec F S16 .i32), IVec S16 32) → Prog (TpuEff nD τ sig (Elt F) Λ₀ (thrV d L).2) α)
    (rS rD : IVec SRow 32) (base : IVec SFreq 32) (n0 n3 : ℕ)
    (v409 : Vec F S16 .i32) (v410 : Vec F S16 .i32) (hw33 : k0_chk33 v410) (v411 : Vec F S16 .i32) (hw34 : k0_chk34 v411) (v412 : Vec F S16 .i32) (hw35 : k0_chk35 v412)
    (v422 : Vec F S16 .i32) (v423 : Vec F S16 .i32) (hw46 : k0_chk46 v423) (v424 : Vec F S16 .i32) (hw47 : k0_chk47 v424) (v425 : Vec F S16 .i32) (hw48 : k0_chk48 v425)
    (v653 : Vec F S16 .i32) (v654 : Vec F S16 .i32) (v655 : IVec S16 32)
    (hv409 : ∀ x, v409 x = rowVec rS 5 x) (hv410 : ∀ x, v410 x = rowVec rS 6 x) (hv411 : ∀ x, v411 x = rowVec rS 7 x) (hv412 : ∀ x, v412 x = rowVec rS 8 x)
    (hv422 : ∀ x, v422 x = rowVec rD 5 x) (hv423 : ∀ x, v423 x = rowVec rD 6 x) (hv424 : ∀ x, v424 x = rowVec rD 7 x) (hv425 : ∀ x, v425 x = rowVec rD 8 x)
    (hv653 : ∀ x, v653 x = BitVec.ofNat 32 (occRow rD (v422 x))) (hv654 : ∀ x, v654 x = BitVec.ofNat 32 (occRow rD (v409 x)))
    (hv655 : v655 = broadcast S16 0#32) :
    iprop((sTab.view.loc (thrV d L) ↦{fullShare} (countTab rD : Buf (Elt F) (sTab.view.loc (thrV d L))))
        ∗ (sCB.view.loc (thrV d L) ↦{fullShare} (cntAt (tgtRow rS rD) base n0 5 5 n3 : Buf (Elt F) (sCB.view.loc (thrV d L))))
        ∗ (∀ (c₂ c₁ : Vec F S16 .i32) (z : IVec S16 32), ⌜∀ x, c₂ x = BitVec.ofNat 32 (occRow rD (v425 x))⌝
            -∗ ⌜∀ x, c₁ x = BitVec.ofNat 32 (occRow rD (v412 x))⌝ -∗ ⌜z = broadcast S16 0#32⌝
            -∗ (sTab.view.loc (thrV d L) ↦{fullShare} (countTab rD : Buf (Elt F) (sTab.view.loc (thrV d L))))
            -∗ (sCB.view.loc (thrV d L) ↦{fullShare} (cntAt (tgtRow rS rD) base n0 8 8 n3 : Buf (Elt F) (sCB.view.loc (thrV d L))))
            -∗ wp frame (wpE (defs₀ (F := F)) 𝒱₀ (thrV d L) none) Set.univ (k ⟨c₂, c₁, z⟩) Q))
      ⊢ wp frame (wpE (defs₀ (F := F)) 𝒱₀ (thrV d L) none) Set.univ
          (atTile L k0_part22 v409 v410 hw33 v411 hw34 v412 hw35 v422 v423 hw46 v424 hw47 v425 hw48 v653 v654 v655 >>= k) Q := by
  subst hv655
  iintro ⟨HT, HC, Hk⟩
  unfold atTile; rw [k0_part22_eq_skeleton]; unfold k0_part22_skel
  sl_exec
  iapply (tab_lidx₂ d L) $$ HT; iintro HT
  sl_exec
  iapply (tab_lidx₂ d L) $$ HT; iintro HT
  sl_exec
  iapply (tab_lidx₂ d L) $$ HT; iintro HT
  repeat rw [sCB_cons₂]
  rw [sCB_step (F := F) (tgtRow rS rD) base n0 5 5 n3 n0 5 6 n3 496 _ (k0_pay91 v422 v653 _) (filled_step2 n0 5 5 n3 496 rfl (by omega))
    (fun x hx => pay_tgt2 rS rD 5 _ rfl v422 hv422 v653 hv653 x hx),
    sCB_step (F := F) (tgtRow rS rD) base n0 5 6 n3 n0 6 6 n3 288 _ (k0_pay92 v409 v654) (filled_step1 n0 5 6 n3 288 rfl (by omega))
    (fun x hx => pay_tgt1 rS rD 5 _ rfl v409 hv409 v654 hv654 x hx),
    get2 sCB_step rS rD 6 7 512 hv423 rfl rfl rfl (k0_pay93 v423 _) rfl,
    get1 sCB_step rS rD 6 7 304 hv410 rfl rfl rfl (k0_pay94 v410 _) rfl,
    get2 sCB_step rS rD 7 8 528 hv424 rfl rfl rfl (k0_pay95 v424 _) rfl,
    get1 sCB_step rS rD 7 8 320 hv411 rfl rfl rfl (k0_pay96 v411 _) rfl]
  iapply Hk $$ %_ %_ %_ %(fun x => loadIdx_countTab' (F := F) rD v425 _ x) %(fun x => loadIdx_countTab' (F := F) rD v412 _ x) %rfl HT HC

theorem part23 {α : Type} {Q : α → sProp 𝕄} (k : (Σ' (_ : Vec F S16 .i32) (_ : Vec F S16 .i32), IVec S16 32) → Prog (TpuEff nD τ sig (Elt F) Λ₀ (thrV d L).2) α)
    (rS rD : IVec SRow 32) (base : IVec SFreq 32) (n0 n3 : ℕ)
    (v412 : Vec F S16 .i32) (v413 : Vec F S16 .i32) (hw36 : k0_chk36 v413) (v414 : Vec F S16 .i32) (hw37 : k0_chk37 v414) (v415 : Vec F S16 .i32) (hw38 : k0_chk38 v415)
    (v425 : Vec F S16 .i32) (v426 : Vec F S16 .i32) (hw49 : k0_chk49 v426) (v427 : Vec F S16 .i32) (hw50 : k0_chk50 v427) (v428 : Vec F S16 .i32) (hw51 : k0_chk51 v428)
    (v689 : Vec F S16 .i32) (v690 : Vec F S16 .i32) (v691 : IVec S16 32)
    (hv412 : ∀ x, v412 x = rowVec rS 8 x) (hv413 : ∀ x, v413 x = rowVec rS 9 x) (hv414 : ∀ x, v414 x = rowVec rS 10 x) (hv415 : ∀ x, v415 x = rowVec rS 11 x)
    (hv425 : ∀ x, v425 x = rowVec rD 8 x) (hv426 : ∀ x, v426 x = rowVec rD 9 x) (hv427 : ∀ x, v427 x = rowVec rD 10 x) (hv428 : ∀ x, v428 x = rowVec rD 11 x)
    (hv689 : ∀ x, v689 x = BitVec.ofNat 32 (occRow rD (v425 x))) (hv690 : ∀ x, v690 x = BitVec.ofNat 32 (occRow rD (v412 x)))
    (hv691 : v691 = broadcast S16 0#32) :
    iprop((sTab.view.loc (thrV d L) ↦{fullShare} (countTab rD : Buf (Elt F) (sTab.view.loc (thrV d L))))
        ∗ (sCB.view.loc (thrV d L) ↦{fullShare} (cntAt (tgtRow rS rD) base n0 8 8 n3 : Buf (Elt F) (sCB.view.loc (thrV d L))))
        ∗ (∀ (c₂ c₁ : Vec F S16 .i32) (z : IVec S16 32), ⌜∀ x, c₂ x = BitVec.ofNat 32 (occRow rD (v428 x))⌝
            -∗ ⌜∀ x, c₁ x = BitVec.ofNat 32 (occRow rD (v415 x))⌝ -∗ ⌜z = broadcast S16 0#32⌝
            -∗ (sTab.view.loc (thrV d L) ↦{fullShare} (countTab rD : Buf (Elt F) (sTab.view.loc (thrV d L))))
            -∗ (sCB.view.loc (thrV d L) ↦{fullShare} (cntAt (tgtRow rS rD) base n0 11 11 n3 : Buf (Elt F) (sCB.view.loc (thrV d L))))
            -∗ wp frame (wpE (defs₀ (F := F)) 𝒱₀ (thrV d L) none) Set.univ (k ⟨c₂, c₁, z⟩) Q))
      ⊢ wp frame (wpE (defs₀ (F := F)) 𝒱₀ (thrV d L) none) Set.univ
          (atTile L k0_part23 v412 v413 hw36 v414 hw37 v415 hw38 v425 v426 hw49 v427 hw50 v428 hw51 v689 v690 v691 >>= k) Q := by
  subst hv691
  iintro ⟨HT, HC, Hk⟩
  unfold atTile; rw [k0_part23_eq_skeleton]; unfold k0_part23_skel
  sl_exec
  iapply (tab_lidx₂ d L) $$ HT; iintro HT
  sl_exec
  iapply (tab_lidx₂ d L) $$ HT; iintro HT
  sl_exec
  iapply (tab_lidx₂ d L) $$ HT; iintro HT
  repeat rw [sCB_cons₂]
  rw [sCB_step (F := F) (tgtRow rS rD) base n0 8 8 n3 n0 8 9 n3 544 _ (k0_pay98 v425 v689 _) (filled_step2 n0 8 8 n3 544 rfl (by omega))
    (fun x hx => pay_tgt2 rS rD 8 _ rfl v425 hv425 v689 hv689 x hx),
    sCB_step (F := F) (tgtRow rS rD) base n0 8 9 n3 n0 9 9 n3 336 _ (k0_pay99 v412 v690) (filled_step1 n0 8 9 n3 336 rfl (by omega))
    (fun x hx => pay_tgt1 rS rD 8 _ rfl v412 hv412 v690 hv690 x hx),
    get2 sCB_step rS rD 9 10 560 hv426 rfl rfl rfl (k0_pay100 v426 _) rfl,
    get1 sCB_step rS rD 9 10 352 hv413 rfl rfl rfl (k0_pay101 v413 _) rfl,
    get2 sCB_step rS rD 10 11 576 hv427 rfl rfl rfl (k0_pay102 v427 _) rfl,
    get1 sCB_step rS rD 10 11 368 hv414 rfl rfl rfl (k0_pay103 v414 _) rfl]
  iapply Hk $$ %_ %_ %_ %(fun x => loadIdx_countTab' (F := F) rD v428 _ x) %(fun x => loadIdx_countTab' (F := F) rD v415 _ x) %rfl HT HC

end PartsB

end Cert.Kernel.Sc

end
-- ==== Proof.Bits.Sc.PartsB2.lean ====
import proofs.«212098_g24275155157491_cont_8to1_80_30_alg».proof.Proof.Bits.Sc.PartsA

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section PartsB2
variable (d : Dev nD) (L : grid0.Coords)
open Cert.ScMath Idealize.ShloMosaic.ValueIdx

theorem part19 {α : Type} {Q : α → sProp 𝕄} (k : PUnit → Prog (TpuEff nD τ sig (Elt F) Λ₀ (thrV d L).2) α)
    (rS rD : IVec SRow 32) (base : IVec SFreq 32)
    (v3 : IVec S16 32) (v404 : Vec F S16 .i32) (k0_hw27 : k0_chk27 v404) (v405 : Vec F S16 .i32) (k0_hw28 : k0_chk28 v405) (v406 : Vec F S16 .i32) (k0_hw29 : k0_chk29 v406) (v407 : Vec F S16 .i32) (k0_hw30 : k0_chk30 v407) (v408 : Vec F S16 .i32) (k0_hw31 : k0_chk31 v408) (v409 : Vec F S16 .i32) (k0_hw32 : k0_chk32 v409) (v410 : Vec F S16 .i32) (k0_hw33 : k0_chk33 v410) (v411 : Vec F S16 .i32) (k0_hw34 : k0_chk34 v411) (v412 : Vec F S16 .i32) (k0_hw35 : k0_chk35 v412) (v413 : Vec F S16 .i32) (k0_hw36 : k0_chk36 v413) (v415 : Vec F S16 .i32) (k0_hw38 : k0_chk38 v415) (v416 : Vec F S16 .i32) (k0_hw39 : k0_chk39 v416) (v427 : Vec F S16 .i32) (v428 : Vec F S16 .i32) (k0_hw51 : k0_chk51 v428) (v429 : Vec F S16 .i32) (k0_hw52 : k0_chk52 v429) (v558 : Vec F S16 .i32) (v562 : IVec S16 32)
    (h3 : ∀ x, v3 x = 0#32)
    (h404 : ∀ x, v404 x = rowVec rS 0 x)
    (h405 : ∀ x, v405 x = rowVec rS 1 x)
    (h406 : ∀ x, v406 x = rowVec rS 2 x)
    (h407 : ∀ x, v407 x = rowVec rS 3 x)
    (h408 : ∀ x, v408 x = rowVec rS 4 x)
    (h409 : ∀ x, v409 x = rowVec rS 5 x)
    (h410 : ∀ x, v410 x = rowVec rS 6 x)
    (h411 : ∀ x, v411 x = rowVec rS 7 x)
    (h412 : ∀ x, v412 x = rowVec rS 8 x)
    (h413 : ∀ x, v413 x = rowVec rS 9 x)
    (h415 : ∀ x, v415 x = rowVec rS 11 x)
    (h416 : ∀ x, v416 x = rowVec rS 12 x)
    (h427 : ∀ x, v427 x = rowVec rD 10 x)
    (h428 : ∀ x, v428 x = rowVec rD 11 x)
    (h429 : ∀ x, v429 x = rowVec rD 12 x)
    (h562 : ∀ (x : SLane.Idx) (hx : 160 + (x 0).val < 832), v562 x = tgtRow rS rD (ix1 ⟨160 + (x 0).val, hx⟩))
    (h558 : ∀ x, v558 x = BitVec.ofNat 32 (occRow rS (v427 x))) :
    iprop((sTab.view.loc (thrV d L) ↦{fullShare} (countTab rS : Buf (Elt F) (sTab.view.loc (thrV d L))))
        ∗ (sCB.view.loc (thrV d L) ↦{fullShare} (cntAt (tgtRow rS rD) base 10 0 0 10 : Buf (Elt F) (sCB.view.loc (thrV d L))))
        ∗ (∀ ret : PUnit, ⌜True⌝
            -∗ (sTab.view.loc (thrV d L) ↦{fullShare} (clearedTab (countTab rS) rS 160 : Buf (Elt F) (sTab.view.loc (thrV d L))))
            -∗ (sCB.view.loc (thrV d L) ↦{fullShare} (cntAt (tgtRow rS rD) base 13 0 0 13 : Buf (Elt F) (sCB.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part19 v3 v404 k0_hw27 v405 k0_hw28 v406 k0_hw29 v407 k0_hw30 v408 k0_hw31 v409 k0_hw32 v410 k0_hw33 v411 k0_hw34 v412 k0_hw35 v413 k0_hw36 v415 k0_hw38 v416 k0_hw39 v427 v428 k0_hw51 v429 k0_hw52 v558 v562 >>= k) Q := by
  iintro ⟨HT, HC, Hk⟩
  unfold atTile; rw [k0_part19_eq_skeleton]; unfold k0_part19_skel
  sl_exec
  rw [writes_cons₂, sCB_step (F := F) (tgtRow rS rD) base 10 0 0 10 11 0 0 10 160 _ _ (filled_step0 10 0 0 10 160 rfl (by omega))
    h562,
    sCB_step (F := F) (tgtRow rS rD) base 11 0 0 10 11 0 0 11 784 _ (k0_pay74 v427 v558) (filled_step3 11 0 0 10 784 rfl (by omega))
    (fun x hx => pay_tgt3 rS rD 10 _ rfl v427 h427 v558 h558 x hx)]
  iapply (tab_lidx₂ d L) $$ HT; iintro HT
  sl_exec
  rw [writes_cons₂, get0 sCB_step rS rD 11 12 176 h415 rfl rfl rfl (k0_pay75 v415 _) rfl,
    get3 sCB_step rS rD 11 12 800 h428 rfl rfl rfl (k0_pay76 v428 _) rfl]
  iapply (tab_lidx₂ d L) $$ HT; iintro HT
  sl_exec
  rw [writes_cons₂, get0 sCB_step rS rD 12 13 192 h416 rfl rfl rfl (k0_pay77 v416 _) rfl,
    get3 sCB_step rS rD 12 13 816 h429 rfl rfl rfl (k0_pay78 v429 _) rfl]
  iapply (tab_sidx' d L (clearedTab_first (F := F) rS v404 v3 _ h404 h3 (fun _ => rfl) _)) $$ HT; iintro HT
  iapply (tab_clear d L h405 h3 16 32 rfl rfl) $$ HT; iintro HT
  iapply (tab_clear d L h406 h3 32 48 rfl rfl) $$ HT; iintro HT
  iapply (tab_clear d L h407 h3 48 64 rfl rfl) $$ HT; iintro HT
  iapply (tab_clear d L h408 h3 64 80 rfl rfl) $$ HT; iintro HT
  iapply (tab_clear d L h409 h3 80 96 rfl rfl) $$ HT; iintro HT
  iapply (tab_clear d L h410 h3 96 112 rfl rfl) $$ HT; iintro HT
  iapply (tab_clear d L h411 h3 112 128 rfl rfl) $$ HT; iintro HT
  iapply (tab_clear d L h412 h3 128 144 rfl rfl) $$ HT; iintro HT
  iapply (tab_clear d L h413 h3 144 160 rfl rfl) $$ HT; iintro HT
  iapply Hk $$ %_ %trivial HT HC

theorem part20 {α : Type} {Q : α → sProp 𝕄} (k : (Σ' (_ : Vec F S16 .i32) (_ : Vec F S16 .i32), IVec S16 32) → Prog (TpuEff nD τ sig (Elt F) Λ₀ (thrV d L).2) α)
    (rS rD : IVec SRow 32) (base : IVec SFreq 32)
    (v3 : IVec S16 32) (v4 : IVec S16 32) (v404 : Vec F S16 .i32) (k0_hw27 : k0_chk27 v404) (v405 : Vec F S16 .i32) (k0_hw28 : k0_chk28 v405) (v406 : Vec F S16 .i32) (k0_hw29 : k0_chk29 v406) (v414 : Vec F S16 .i32) (k0_hw37 : k0_chk37 v414) (v415 : Vec F S16 .i32) (k0_hw38 : k0_chk38 v415) (v416 : Vec F S16 .i32) (k0_hw39 : k0_chk39 v416) (v417 : Vec F S16 .i32) (k0_hw40 : k0_chk40 v417) (v418 : Vec F S16 .i32) (k0_hw41 : k0_chk41 v418) (v419 : Vec F S16 .i32) (k0_hw42 : k0_chk42 v419) (v420 : Vec F S16 .i32) (k0_hw43 : k0_chk43 v420) (v421 : Vec F S16 .i32) (k0_hw44 : k0_chk44 v421) (v422 : Vec F S16 .i32) (k0_hw45 : k0_chk45 v422) (v423 : Vec F S16 .i32) (k0_hw46 : k0_chk46 v423) (v424 : Vec F S16 .i32) (k0_hw47 : k0_chk47 v424) (v425 : Vec F S16 .i32) (k0_hw48 : k0_chk48 v425) (v426 : Vec F S16 .i32) (k0_hw49 : k0_chk49 v426) (v427 : Vec F S16 .i32) (k0_hw50 : k0_chk50 v427) (v428 : Vec F S16 .i32) (k0_hw51 : k0_chk51 v428) (v429 : Vec F S16 .i32) (k0_hw52 : k0_chk52 v429)
    (h3 : ∀ x, v3 x = 0#32)
    (h4 : ∀ x, v4 x = 1#32)
    (h404 : ∀ x, v404 x = rowVec rS 0 x)
    (h405 : ∀ x, v405 x = rowVec rS 1 x)
    (h406 : ∀ x, v406 x = rowVec rS 2 x)
    (h414 : ∀ x, v414 x = rowVec rS 10 x)
    (h415 : ∀ x, v415 x = rowVec rS 11 x)
    (h416 : ∀ x, v416 x = rowVec rS 12 x)
    (h417 : ∀ x, v417 x = rowVec rD 0 x)
    (h418 : ∀ x, v418 x = rowVec rD 1 x)
    (h419 : ∀ x, v419 x = rowVec rD 2 x)
    (h420 : ∀ x, v420 x = rowVec rD 3 x)
    (h421 : ∀ x, v421 x = rowVec rD 4 x)
    (h422 : ∀ x, v422 x = rowVec rD 5 x)
    (h423 : ∀ x, v423 x = rowVec rD 6 x)
    (h424 : ∀ x, v424 x = rowVec rD 7 x)
    (h425 : ∀ x, v425 x = rowVec rD 8 x)
    (h426 : ∀ x, v426 x = rowVec rD 9 x)
    (h427 : ∀ x, v427 x = rowVec rD 10 x)
    (h428 : ∀ x, v428 x = rowVec rD 11 x)
    (h429 : ∀ x, v429 x = rowVec rD 12 x) :
    iprop((sTab.view.loc (thrV d L) ↦{fullShare} (clearedTab (countTab rS) rS 160 : Buf (Elt F) (sTab.view.loc (thrV d L))))
        ∗ (sCB.view.loc (thrV d L) ↦{fullShare} (cntAt (tgtRow rS rD) base 13 0 0 13 : Buf (Elt F) (sCB.view.loc (thrV d L))))
        ∗ (∀ ret : (Σ' (_ : Vec F S16 .i32) (_ : Vec F S16 .i32), IVec S16 32), ⌜(∀ x, ret.1 x = BitVec.ofNat 32 (occRow rD (v419 x))) ∧ (∀ x, ret.2.1 x = BitVec.ofNat 32 (occRow rD (v406 x))) ∧ ret.2.2 = broadcast S16 0#32⌝
            -∗ (sTab.view.loc (thrV d L) ↦{fullShare} (countTab rD : Buf (Elt F) (sTab.view.loc (thrV d L))))
            -∗ (sCB.view.loc (thrV d L) ↦{fullShare} (cntAt (tgtRow rS rD) base 13 2 2 13 : Buf (Elt F) (sCB.view.loc (thrV d L))))
            -∗ wp frame (wpE (defs₀ (F := F)) 𝒱₀ (thrV d L) none) Set.univ (k ret) Q))
      ⊢ wp frame (wpE (defs₀ (F := F)) 𝒱₀ (thrV d L) none) Set.univ
          (atTile L k0_part20 v3 v4 v404 k0_hw27 v405 k0_hw28 v406 k0_hw29 v414 k0_hw37 v415 k0_hw38 v416 k0_hw39 v417 k0_hw40 v418 k0_hw41 v419 k0_hw42 v420 k0_hw43 v421 k0_hw44 v422 k0_hw45 v423 k0_hw46 v424 k0_hw47 v425 k0_hw48 v426 k0_hw49 v427 k0_hw50 v428 k0_hw51 v429 k0_hw52 >>= k) Q := by
  iintro ⟨HT, HC, Hk⟩
  unfold atTile; rw [k0_part20_eq_skeleton]; unfold k0_part20_skel
  iapply (tab_clear d L h414 h3 160 176 rfl rfl) $$ HT; iintro HT
  iapply (tab_clear d L h415 h3 176 192 rfl rfl) $$ HT; iintro HT
  iapply (tab_sidx' d L (clearedTab_last (F := F) rS v416 v3 _ h416 h3 (fun _ => rfl) _)) $$ HT; iintro HT
  iapply (tab_sidx' d L (addedTab_first (F := F) rD v417 v4 _ h417 h4 (fun _ => rfl) _)) $$ HT; iintro HT
  iapply (tab_add d L h418 h4 16 32 rfl rfl) $$ HT; iintro HT
  iapply (tab_add d L h419 h4 32 48 rfl rfl) $$ HT; iintro HT
  iapply (tab_add d L h420 h4 48 64 rfl rfl) $$ HT; iintro HT
  iapply (tab_add d L h421 h4 64 80 rfl rfl) $$ HT; iintro HT
  iapply (tab_add d L h422 h4 80 96 rfl rfl) $$ HT; iintro HT
  iapply (tab_add d L h423 h4 96 112 rfl rfl) $$ HT; iintro HT
  iapply (tab_add d L h424 h4 112 128 rfl rfl) $$ HT; iintro HT
  iapply (tab_add d L h425 h4 128 144 rfl rfl) $$ HT; iintro HT
  iapply (tab_add d L h426 h4 144 160 rfl rfl) $$ HT; iintro HT
  iapply (tab_add d L h427 h4 160 176 rfl rfl) $$ HT; iintro HT
  iapply (tab_add d L h428 h4 176 192 rfl rfl) $$ HT; iintro HT
  iapply (tab_sidx' d L (addedTab_last (F := F) rD v429 v4 _ h429 h4 (fun _ => rfl) _)) $$ HT; iintro HT
  iapply (tab_lidx₂ d L) $$ HT; iintro HT
  sl_exec
  rw [writes_cons₂, get2 sCB_step rS rD 0 1 416 h417 rfl rfl rfl (k0_pay79 v417 _) rfl,
    get1 sCB_step rS rD 0 1 208 h404 rfl rfl rfl (k0_pay80 v404 _) rfl]
  iapply (tab_lidx₂ d L) $$ HT; iintro HT
  sl_exec
  rw [writes_cons₂, get2 sCB_step rS rD 1 2 432 h418 rfl rfl rfl (k0_pay81 v418 _) rfl,
    get1 sCB_step rS rD 1 2 224 h405 rfl rfl rfl (k0_pay82 v405 _) rfl]
  iapply (tab_lidx₂ d L) $$ HT; iintro HT
  iapply Hk $$ %_ %⟨fun x => loadIdx_countTab' (F := F) rD v419 _ x, fun x => loadIdx_countTab' (F := F) rD v406 _ x, rfl⟩ HT HC

end PartsB2

end Cert.Kernel.Sc

end
-- ==== Proof.Bits.Sc.Part15.lean ====
import proofs.«212098_g24275155157491_cont_8to1_80_30_alg».proof.Proof.Bits.Sc.Inv
import proofs.«212098_g24275155157491_cont_8to1_80_30_alg».proof.Proof.Bits.Sc.Rules
import proofs.«212098_g24275155157491_cont_8to1_80_30_alg».proof.Proof.Bits.Sc.PartsB
import proofs.«212098_g24275155157491_cont_8to1_80_30_alg».proof.Proof.CntMath
import proofs.«212098_g24275155157491_cont_8to1_80_30_alg».proof.Proof.Bits.Sc.Flights
import proofs.«212098_g24275155157491_cont_8to1_80_30_alg».proof.Proof.Bits.Sc.PartsA
import proofs.«212098_g24275155157491_cont_8to1_80_30_alg».proof.Proof.Bits.Sc.AtTile

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

theorem p15_readAt_rowVec_DB (f : Buf (Elt F) (sDB.view.loc (thrV d L))) (v : Fin 13) (off : ℕ) (hoff : off = 16 * v.val)
    (h : ∀ a, (![off] : Fin 1 → ℕ) a + S16.size a ≤ S208.size a) (x : S16.Idx) :
    (sDB.view.readAt (Elt F) (Rect.unit (s := S208) ![off] S16.size h).toLoadRect f) x = rowVec f v x := by
  subst hoff
  simp only [View.readAt_apply, Memref.view_whole, View.read_whole]
  unfold rowVec
  congr 1
  funext a; apply Fin.ext
  obtain rfl : a = 0 := Subsingleton.elim _ _
  simp [LoadRect.idx_apply, ValueIdx.ix1]

theorem p15_owes12 (O : CellTallies nD τ sig (HIx 1)) (W : Waits sig (HIx 1)) (h0 : 5 < sig.nDmaSem) :
    (owes (thrV d L) O (insert (SemLoc.dma (⟨5, h0⟩ : DmaSem sig), (default : HIx 1)) W) : sProp 𝕄)
      = owes (thrV d L) O (insert (SemLoc.dma cc0_scratch12.sem, (default : HIx 1)) W) := rfl
theorem p15_semVal12 (h0 : 5 < sig.nDmaSem) :
    (semVal ((thrV d L, SemLoc.dma (⟨5, h0⟩ : DmaSem sig)) : GSem nD τ sig) 0 : sProp 𝕄) = semVal (cellV d L cc0_scratch12) 0 := rfl

-- With no piece filled, `cntAt` is its base.
theorem p15_cb (tgt C : IVec SFreq 32) :
    (sCB.view.loc (thrV d L) ↦{fullShare} (C : Buf (Elt F) (sCB.view.loc (thrV d L))) : sProp 𝕄)
      ⊢ sCB.view.loc (thrV d L) ↦{fullShare} (cntAt tgt C 0 0 0 0 : Buf (Elt F) (sCB.view.loc (thrV d L))) :=
  Entails.of_eq (by rw [cntAt_none])

theorem part15_mid {α : Type} {Q : α → sProp 𝕄}
    (kk : (Σ' (v429 : Vec F S16 .i32) (_ : k0_chk52 v429) (_ : Vec F S16 .i32), IVec S16 32) → Prog (TpuEff nD τ sig (Elt F) Λ₀ (thrV d L).2) α)
    (hpre : PreOK m) (O : CellTallies nD τ sig (HIx 1)) (W : Waits sig (HIx 1))
    (k : Fin k0_t2_loop.trips) (hk0 : 0 < k.val) (hk15 : k.val + 1 < 16)
    (j j' jq : Fin 1024) (hj' : k0_off9 L k = rowOff j') (hjq : k0_off10 L k = rowOff jq)
    (C : IVec SFreq 32)
    (v4 : IVec S16 32) (arg18 v395 : BitVec 32)
    (v404 : Vec F S16 .i32) (hw27 : k0_chk27 v404) (v405 : Vec F S16 .i32) (hw28 : k0_chk28 v405) (v406 : Vec F S16 .i32) (hw29 : k0_chk29 v406) (v407 : Vec F S16 .i32) (hw30 : k0_chk30 v407) (v408 : Vec F S16 .i32) (hw31 : k0_chk31 v408) (v409 : Vec F S16 .i32) (hw32 : k0_chk32 v409) (v410 : Vec F S16 .i32) (hw33 : k0_chk33 v410) (v411 : Vec F S16 .i32) (hw34 : k0_chk34 v411) (v412 : Vec F S16 .i32) (hw35 : k0_chk35 v412) (v413 : Vec F S16 .i32) (hw36 : k0_chk36 v413) (v414 : Vec F S16 .i32) (hw37 : k0_chk37 v414) (v415 : Vec F S16 .i32) (hw38 : k0_chk38 v415) (v416 : Vec F S16 .i32) (hw39 : k0_chk39 v416) (v417 : Vec F S16 .i32) (hw40 : k0_chk40 v417) (v418 : Vec F S16 .i32) (hw41 : k0_chk41 v418)
    (h4 : ∀ x, v4 x = 1#32)
    (h404 : ∀ x, v404 x = rowVec (rowBufSB m d L j) 0 x) (h405 : ∀ x, v405 x = rowVec (rowBufSB m d L j) 1 x) (h406 : ∀ x, v406 x = rowVec (rowBufSB m d L j) 2 x) (h407 : ∀ x, v407 x = rowVec (rowBufSB m d L j) 3 x) (h408 : ∀ x, v408 x = rowVec (rowBufSB m d L j) 4 x) (h409 : ∀ x, v409 x = rowVec (rowBufSB m d L j) 5 x) (h410 : ∀ x, v410 x = rowVec (rowBufSB m d L j) 6 x) (h411 : ∀ x, v411 x = rowVec (rowBufSB m d L j) 7 x) (h412 : ∀ x, v412 x = rowVec (rowBufSB m d L j) 8 x) (h413 : ∀ x, v413 x = rowVec (rowBufSB m d L j) 9 x) (h414 : ∀ x, v414 x = rowVec (rowBufSB m d L j) 10 x) (h415 : ∀ x, v415 x = rowVec (rowBufSB m d L j) 11 x) (h416 : ∀ x, v416 x = rowVec (rowBufSB m d L j) 12 x) (h417 : ∀ x, v417 x = rowVec (rowBufDB m d L j) 0 x) (h418 : ∀ x, v418 x = rowVec (rowBufDB m d L j) 1 x) :
    iprop(□ Transfers.MayWaits (thrV d L) (none : HIx 1) O ∗ owes (thrV d L) O W
        ∗ (sTab.view.loc (thrV d L) ↦{fullShare} zeroTab d L)
        ∗ (sSB.view.loc (thrV d L) ↦{fullShare} rowBufSB m d L j)
        ∗ (sDB.view.loc (thrV d L) ↦{fullShare} rowBufDB m d L j)
        ∗ semVal (cellV d L cc0_scratch9) 0 ∗ semVal (cellV d L cc0_scratch10) 0
        ∗ v1Row m d j' ∗ v2Row m d j'
        ∗ cntFlight m d L cc0_scratch12 sCB (C : Buf (Elt F) (sCB.view.loc (thrV d L))) jq
        ∗ (∀ (v429 : Vec F S16 .i32) (hw52 : k0_chk52 v429) (v450 : Vec F S16 .i32) (w : IVec S16 32),
            ⌜∀ x, v429 x = rowVec (rowBufDB m d L j) 12 x⌝
            -∗ ⌜∀ x, v450 x = BitVec.ofNat 32 (occRow (rowBufSB m d L j) (v418 x))⌝
            -∗ ⌜∀ (x : SLane.Idx) (hx : 16 + (x 0).val < 832), w x = tgtRow (rowBufSB m d L j) (rowBufDB m d L j) (ix1 ⟨16 + (x 0).val, hx⟩)⌝
            -∗ owes (thrV d L) O (insert (SemLoc.dma cc0_scratch12.sem, (default : HIx 1)) W)
            -∗ (sTab.view.loc (thrV d L) ↦{fullShare} (countTab (rowBufSB m d L j) : Buf (Elt F) (sTab.view.loc (thrV d L))))
            -∗ idFlight d L cc0_scratch9 sSB (rowBufSB m d L j') (v1Row m d j')
            -∗ idFlight d L cc0_scratch10 sDB (rowBufDB m d L j') (v2Row m d j')
            -∗ v3Row d jq (cnts m d)
            -∗ semVal (cellV d L cc0_scratch12) 0
            -∗ (sCB.view.loc (thrV d L) ↦{fullShare} (cntAt (tgtRow (rowBufSB m d L j) (rowBufDB m d L j)) C 1 0 0 1 : Buf (Elt F) (sCB.view.loc (thrV d L))))
            -∗ wp frame (wpE (defs₀ (F := F)) 𝒱₀ (thrV d L) none) Set.univ (kk ⟨v429, hw52, v450, w⟩) Q))
      ⊢ wp frame (wpE (defs₀ (F := F)) 𝒱₀ (thrV d L) none) Set.univ
          (atTile L k0_part15 v4 k arg18 v395 v404 hw27 v405 hw28 v406 hw29 v407 hw30 v408 hw31 v409 hw32 v410 hw33 v411 hw34 v412 hw35 v413 hw36 v414 hw37 v415 hw38 v416 hw39 v417 hw40 v418 hw41 >>= kk) Q := by
  have hc3 : k0_cond3 k = 1#1 := cond3_pos k hk15
  have hc4 : k0_cond4 k = 1#1 := cond4_pos k hk0
  unfold zeroTab
  iintro ⟨#Hmw, HO, HT, HSB, HDB, Hs9, Hs10, Hr1, Hr2, Hfl, Hk⟩
  ihave Hr1 := (Entails.of_eq (pts_rowM1 (F := F) d L (k0_off9 L k) (k0_off9_inb L k hc3) j' hj' (pad0 m d)).symm) $$ Hr1
  ihave Hr2 := (Entails.of_eq (pts_rowM2 (F := F) d L (k0_off9 L k) (k0_off9_inb L k hc3) j' hj' (pad1 m d)).symm) $$ Hr2
  unfold atTile
  rw [k0_part15_eq_skeleton]; unfold k0_part15_skel
  sl_exec (disch := first | sl_exact chk52_of m d L hpre _ _ _)
  ihave Hs9 := (Entails.of_eq (idFlight_of_exec_SB (F := F) m d L j' (k0_off9 L k) (k0_off9_inb L k hc3) hj' _ (rowBufSB m d L j) (part15_mid.sl.dma1 m d L k hc3) rfl)) $$ Hs9
  ihave Hs10 := (Entails.of_eq (idFlight_of_exec_DB (F := F) m d L j' (k0_off9 L k) (k0_off9_inb L k hc3) hj' _ (rowBufDB m d L j) (part15_mid.sl.dma1_1 m d L k hc3) rfl)) $$ Hs10
  ihave HC := (p15_cb (F := F) d L (tgtRow (rowBufSB m d L j) (rowBufDB m d L j)) C) $$ Hfl_src
  iapply (tab_sidx' d L (addedTab_first (F := F) (rowBufSB m d L j) v404 v4 _ h404 h4 (fun _ => rfl) _)) $$ HT; iintro HT
  iapply (tab_add d L h405 h4 16 32 rfl rfl) $$ HT; iintro HT
  iapply (tab_add d L h406 h4 32 48 rfl rfl) $$ HT; iintro HT
  iapply (tab_add d L h407 h4 48 64 rfl rfl) $$ HT; iintro HT
  iapply (tab_add d L h408 h4 64 80 rfl rfl) $$ HT; iintro HT
  iapply (tab_add d L h409 h4 80 96 rfl rfl) $$ HT; iintro HT
  iapply (tab_add d L h410 h4 96 112 rfl rfl) $$ HT; iintro HT
  iapply (tab_add d L h411 h4 112 128 rfl rfl) $$ HT; iintro HT
  iapply (tab_add d L h412 h4 128 144 rfl rfl) $$ HT; iintro HT
  iapply (tab_add d L h413 h4 144 160 rfl rfl) $$ HT; iintro HT
  iapply (tab_add d L h414 h4 160 176 rfl rfl) $$ HT; iintro HT
  iapply (tab_add d L h415 h4 176 192 rfl rfl) $$ HT; iintro HT
  iapply (tab_sidx' d L (addedTab_last (F := F) (rowBufSB m d L j) v416 v4 _ h416 h4 (fun _ => rfl) _)) $$ HT; iintro HT
  iapply (tab_lidx₂ d L) $$ HT; iintro HT
  sl_exec
  repeat rw [sCB_cons₂]
  rw [sCB_step (F := F) (tgtRow (rowBufSB m d L j) (rowBufDB m d L j)) C 0 0 0 0 1 0 0 0 0 _ (k0_pay53 v404 _) (filled_step0 0 0 0 0 0 rfl (by omega))
    (pay_tgt0 (rowBufSB m d L j) (rowBufDB m d L j) 0 _ rfl v404 h404 _ (loadIdx_countTab' (F := F) (rowBufSB m d L j) v404 _))]
  rw [sCB_step (F := F) (tgtRow (rowBufSB m d L j) (rowBufDB m d L j)) C 1 0 0 0 1 0 0 1 624 _ (k0_pay54 v417 _) (filled_step3 1 0 0 0 624 rfl (by omega))
    (pay_tgt3 (rowBufSB m d L j) (rowBufDB m d L j) 0 _ rfl v417 h417 _ (loadIdx_countTab' (F := F) (rowBufSB m d L j) v417 _))]
  iapply (tab_lidx₂ d L) $$ HT; iintro HT
  sl_exec
  ihave HO := (Entails.of_eq (p15_owes12 (F := F) d L O W _)) $$ HO
  ihave Hfl := (Entails.of_eq (p15_semVal12 (F := F) d L _)) $$ Hfl
  iapply Hk $$ %_ %_ %_ %_ %(p15_readAt_rowVec_DB (F := F) d L (rowBufDB m d L j) 12 192 rfl inb_S208_S16_192)
    %(loadIdx_countTab' (F := F) (rowBufSB m d L j) v418 _)
    %(pay_tgt0 (rowBufSB m d L j) (rowBufDB m d L j) 1 _ rfl v405 h405 _ (loadIdx_countTab' (F := F) (rowBufSB m d L j) v405 _)) HO HT Hs9 Hs10 Hfl_dst Hfl HC

theorem part15_first {α : Type} {Q : α → sProp 𝕄}
    (kk : (Σ' (v429 : Vec F S16 .i32) (_ : k0_chk52 v429) (_ : Vec F S16 .i32), IVec S16 32) → Prog (TpuEff nD τ sig (Elt F) Λ₀ (thrV d L).2) α)
    (hpre : PreOK m)
    (k : Fin k0_t2_loop.trips) (hk0 : k.val = 0)
    (j j' : Fin 1024) (hj' : k0_off9 L k = rowOff j')
    (C : IVec SFreq 32)
    (v4 : IVec S16 32) (arg18 v395 : BitVec 32)
    (v404 : Vec F S16 .i32) (hw27 : k0_chk27 v404) (v405 : Vec F S16 .i32) (hw28 : k0_chk28 v405) (v406 : Vec F S16 .i32) (hw29 : k0_chk29 v406) (v407 : Vec F S16 .i32) (hw30 : k0_chk30 v407) (v408 : Vec F S16 .i32) (hw31 : k0_chk31 v408) (v409 : Vec F S16 .i32) (hw32 : k0_chk32 v409) (v410 : Vec F S16 .i32) (hw33 : k0_chk33 v410) (v411 : Vec F S16 .i32) (hw34 : k0_chk34 v411) (v412 : Vec F S16 .i32) (hw35 : k0_chk35 v412) (v413 : Vec F S16 .i32) (hw36 : k0_chk36 v413) (v414 : Vec F S16 .i32) (hw37 : k0_chk37 v414) (v415 : Vec F S16 .i32) (hw38 : k0_chk38 v415) (v416 : Vec F S16 .i32) (hw39 : k0_chk39 v416) (v417 : Vec F S16 .i32) (hw40 : k0_chk40 v417) (v418 : Vec F S16 .i32) (hw41 : k0_chk41 v418)
    (h4 : ∀ x, v4 x = 1#32)
    (h404 : ∀ x, v404 x = rowVec (rowBufSB m d L j) 0 x) (h405 : ∀ x, v405 x = rowVec (rowBufSB m d L j) 1 x) (h406 : ∀ x, v406 x = rowVec (rowBufSB m d L j) 2 x) (h407 : ∀ x, v407 x = rowVec (rowBufSB m d L j) 3 x) (h408 : ∀ x, v408 x = rowVec (rowBufSB m d L j) 4 x) (h409 : ∀ x, v409 x = rowVec (rowBufSB m d L j) 5 x) (h410 : ∀ x, v410 x = rowVec (rowBufSB m d L j) 6 x) (h411 : ∀ x, v411 x = rowVec (rowBufSB m d L j) 7 x) (h412 : ∀ x, v412 x = rowVec (rowBufSB m d L j) 8 x) (h413 : ∀ x, v413 x = rowVec (rowBufSB m d L j) 9 x) (h414 : ∀ x, v414 x = rowVec (rowBufSB m d L j) 10 x) (h415 : ∀ x, v415 x = rowVec (rowBufSB m d L j) 11 x) (h416 : ∀ x, v416 x = rowVec (rowBufSB m d L j) 12 x) (h417 : ∀ x, v417 x = rowVec (rowBufDB m d L j) 0 x) (h418 : ∀ x, v418 x = rowVec (rowBufDB m d L j) 1 x) :
    iprop((sTab.view.loc (thrV d L) ↦{fullShare} zeroTab d L)
        ∗ (sSB.view.loc (thrV d L) ↦{fullShare} rowBufSB m d L j)
        ∗ (sDB.view.loc (thrV d L) ↦{fullShare} rowBufDB m d L j)
        ∗ semVal (cellV d L cc0_scratch9) 0 ∗ semVal (cellV d L cc0_scratch10) 0
        ∗ v1Row m d j' ∗ v2Row m d j'
        ∗ (sCB.view.loc (thrV d L) ↦{fullShare} (C : Buf (Elt F) (sCB.view.loc (thrV d L))))
        ∗ (∀ (v429 : Vec F S16 .i32) (hw52 : k0_chk52 v429) (v450 : Vec F S16 .i32) (w : IVec S16 32),
            ⌜∀ x, v429 x = rowVec (rowBufDB m d L j) 12 x⌝
            -∗ ⌜∀ x, v450 x = BitVec.ofNat 32 (occRow (rowBufSB m d L j) (v418 x))⌝
            -∗ ⌜∀ (x : SLane.Idx) (hx : 16 + (x 0).val < 832), w x = tgtRow (rowBufSB m d L j) (rowBufDB m d L j) (ix1 ⟨16 + (x 0).val, hx⟩)⌝
            -∗ (sTab.view.loc (thrV d L) ↦{fullShare} (countTab (rowBufSB m d L j) : Buf (Elt F) (sTab.view.loc (thrV d L))))
            -∗ idFlight d L cc0_scratch9 sSB (rowBufSB m d L j') (v1Row m d j')
            -∗ idFlight d L cc0_scratch10 sDB (rowBufDB m d L j') (v2Row m d j')
            -∗ (sCB.view.loc (thrV d L) ↦{fullShare} (cntAt (tgtRow (rowBufSB m d L j) (rowBufDB m d L j)) C 1 0 0 1 : Buf (Elt F) (sCB.view.loc (thrV d L))))
            -∗ wp frame (wpE (defs₀ (F := F)) 𝒱₀ (thrV d L) none) Set.univ (kk ⟨v429, hw52, v450, w⟩) Q))
      ⊢ wp frame (wpE (defs₀ (F := F)) 𝒱₀ (thrV d L) none) Set.univ
          (atTile L k0_part15 v4 k arg18 v395 v404 hw27 v405 hw28 v406 hw29 v407 hw30 v408 hw31 v409 hw32 v410 hw33 v411 hw34 v412 hw35 v413 hw36 v414 hw37 v415 hw38 v416 hw39 v417 hw40 v418 hw41 >>= kk) Q := by
  have hc3 : k0_cond3 k = 1#1 := cond3_pos k (by omega)
  have hc4 : ¬ k0_cond4 k = 1#1 := cond4_neg k (by omega)
  unfold zeroTab
  iintro ⟨HT, HSB, HDB, Hs9, Hs10, Hr1, Hr2, HC, Hk⟩
  ihave Hr1 := (Entails.of_eq (pts_rowM1 (F := F) d L (k0_off9 L k) (k0_off9_inb L k hc3) j' hj' (pad0 m d)).symm) $$ Hr1
  ihave Hr2 := (Entails.of_eq (pts_rowM2 (F := F) d L (k0_off9 L k) (k0_off9_inb L k hc3) j' hj' (pad1 m d)).symm) $$ Hr2
  ihave HC := (p15_cb (F := F) d L (tgtRow (rowBufSB m d L j) (rowBufDB m d L j)) C) $$ HC
  unfold atTile
  rw [k0_part15_eq_skeleton]; unfold k0_part15_skel
  sl_exec (disch := first | sl_exact chk52_of m d L hpre _ _ _)
  ihave Hs9 := (Entails.of_eq (idFlight_of_exec_SB (F := F) m d L j' (k0_off9 L k) (k0_off9_inb L k hc3) hj' _ (rowBufSB m d L j) (part15_first.sl.dma1 m d L k hc3) rfl)) $$ Hs9
  ihave Hs10 := (Entails.of_eq (idFlight_of_exec_DB (F := F) m d L j' (k0_off9 L k) (k0_off9_inb L k hc3) hj' _ (rowBufDB m d L j) (part15_first.sl.dma1_1 m d L k hc3) rfl)) $$ Hs10
  iapply (tab_sidx' d L (addedTab_first (F := F) (rowBufSB m d L j) v404 v4 _ h404 h4 (fun _ => rfl) _)) $$ HT; iintro HT
  iapply (tab_add d L h405 h4 16 32 rfl rfl) $$ HT; iintro HT
  iapply (tab_add d L h406 h4 32 48 rfl rfl) $$ HT; iintro HT
  iapply (tab_add d L h407 h4 48 64 rfl rfl) $$ HT; iintro HT
  iapply (tab_add d L h408 h4 64 80 rfl rfl) $$ HT; iintro HT
  iapply (tab_add d L h409 h4 80 96 rfl rfl) $$ HT; iintro HT
  iapply (tab_add d L h410 h4 96 112 rfl rfl) $$ HT; iintro HT
  iapply (tab_add d L h411 h4 112 128 rfl rfl) $$ HT; iintro HT
  iapply (tab_add d L h412 h4 128 144 rfl rfl) $$ HT; iintro HT
  iapply (tab_add d L h413 h4 144 160 rfl rfl) $$ HT; iintro HT
  iapply (tab_add d L h414 h4 160 176 rfl rfl) $$ HT; iintro HT
  iapply (tab_add d L h415 h4 176 192 rfl rfl) $$ HT; iintro HT
  iapply (tab_sidx' d L (addedTab_last (F := F) (rowBufSB m d L j) v416 v4 _ h416 h4 (fun _ => rfl) _)) $$ HT; iintro HT
  iapply (tab_lidx₂ d L) $$ HT; iintro HT
  sl_exec
  repeat rw [sCB_cons₂]
  rw [sCB_step (F := F) (tgtRow (rowBufSB m d L j) (rowBufDB m d L j)) C 0 0 0 0 1 0 0 0 0 _ (k0_pay53 v404 _) (filled_step0 0 0 0 0 0 rfl (by omega))
    (pay_tgt0 (rowBufSB m d L j) (rowBufDB m d L j) 0 _ rfl v404 h404 _ (loadIdx_countTab' (F := F) (rowBufSB m d L j) v404 _))]
  rw [sCB_step (F := F) (tgtRow (rowBufSB m d L j) (rowBufDB m d L j)) C 1 0 0 0 1 0 0 1 624 _ (k0_pay54 v417 _) (filled_step3 1 0 0 0 624 rfl (by omega))
    (pay_tgt3 (rowBufSB m d L j) (rowBufDB m d L j) 0 _ rfl v417 h417 _ (loadIdx_countTab' (F := F) (rowBufSB m d L j) v417 _))]
  iapply (tab_lidx₂ d L) $$ HT; iintro HT
  sl_exec
  iapply Hk $$ %_ %_ %_ %_ %(p15_readAt_rowVec_DB (F := F) d L (rowBufDB m d L j) 12 192 rfl inb_S208_S16_192)
    %(loadIdx_countTab' (F := F) (rowBufSB m d L j) v418 _)
    %(pay_tgt0 (rowBufSB m d L j) (rowBufDB m d L j) 1 _ rfl v405 h405 _ (loadIdx_countTab' (F := F) (rowBufSB m d L j) v405 _)) HT Hs9 Hs10 HC

theorem part15_last {α : Type} {Q : α → sProp 𝕄}
    (kk : (Σ' (v429 : Vec F S16 .i32) (_ : k0_chk52 v429) (_ : Vec F S16 .i32), IVec S16 32) → Prog (TpuEff nD τ sig (Elt F) Λ₀ (thrV d L).2) α)
    (hpre : PreOK m) (O : CellTallies nD τ sig (HIx 1)) (W : Waits sig (HIx 1))
    (k : Fin k0_t2_loop.trips) (hk15 : k.val = 15)
    (j jq : Fin 1024) (hjq : k0_off10 L k = rowOff jq)
    (C : IVec SFreq 32)
    (v4 : IVec S16 32) (arg18 v395 : BitVec 32)
    (v404 : Vec F S16 .i32) (hw27 : k0_chk27 v404) (v405 : Vec F S16 .i32) (hw28 : k0_chk28 v405) (v406 : Vec F S16 .i32) (hw29 : k0_chk29 v406) (v407 : Vec F S16 .i32) (hw30 : k0_chk30 v407) (v408 : Vec F S16 .i32) (hw31 : k0_chk31 v408) (v409 : Vec F S16 .i32) (hw32 : k0_chk32 v409) (v410 : Vec F S16 .i32) (hw33 : k0_chk33 v410) (v411 : Vec F S16 .i32) (hw34 : k0_chk34 v411) (v412 : Vec F S16 .i32) (hw35 : k0_chk35 v412) (v413 : Vec F S16 .i32) (hw36 : k0_chk36 v413) (v414 : Vec F S16 .i32) (hw37 : k0_chk37 v414) (v415 : Vec F S16 .i32) (hw38 : k0_chk38 v415) (v416 : Vec F S16 .i32) (hw39 : k0_chk39 v416) (v417 : Vec F S16 .i32) (hw40 : k0_chk40 v417) (v418 : Vec F S16 .i32) (hw41 : k0_chk41 v418)
    (h4 : ∀ x, v4 x = 1#32)
    (h404 : ∀ x, v404 x = rowVec (rowBufSB m d L j) 0 x) (h405 : ∀ x, v405 x = rowVec (rowBufSB m d L j) 1 x) (h406 : ∀ x, v406 x = rowVec (rowBufSB m d L j) 2 x) (h407 : ∀ x, v407 x = rowVec (rowBufSB m d L j) 3 x) (h408 : ∀ x, v408 x = rowVec (rowBufSB m d L j) 4 x) (h409 : ∀ x, v409 x = rowVec (rowBufSB m d L j) 5 x) (h410 : ∀ x, v410 x = rowVec (rowBufSB m d L j) 6 x) (h411 : ∀ x, v411 x = rowVec (rowBufSB m d L j) 7 x) (h412 : ∀ x, v412 x = rowVec (rowBufSB m d L j) 8 x) (h413 : ∀ x, v413 x = rowVec (rowBufSB m d L j) 9 x) (h414 : ∀ x, v414 x = rowVec (rowBufSB m d L j) 10 x) (h415 : ∀ x, v415 x = rowVec (rowBufSB m d L j) 11 x) (h416 : ∀ x, v416 x = rowVec (rowBufSB m d L j) 12 x) (h417 : ∀ x, v417 x = rowVec (rowBufDB m d L j) 0 x) (h418 : ∀ x, v418 x = rowVec (rowBufDB m d L j) 1 x) :
    iprop(□ Transfers.MayWaits (thrV d L) (none : HIx 1) O ∗ owes (thrV d L) O W
        ∗ (sTab.view.loc (thrV d L) ↦{fullShare} zeroTab d L)
        ∗ (sDB.view.loc (thrV d L) ↦{fullShare} rowBufDB m d L j)
        ∗ cntFlight m d L cc0_scratch12 sCB (C : Buf (Elt F) (sCB.view.loc (thrV d L))) jq
        ∗ (∀ (v429 : Vec F S16 .i32) (hw52 : k0_chk52 v429) (v450 : Vec F S16 .i32) (w : IVec S16 32),
            ⌜∀ x, v429 x = rowVec (rowBufDB m d L j) 12 x⌝
            -∗ ⌜∀ x, v450 x = BitVec.ofNat 32 (occRow (rowBufSB m d L j) (v418 x))⌝
            -∗ ⌜∀ (x : SLane.Idx) (hx : 16 + (x 0).val < 832), w x = tgtRow (rowBufSB m d L j) (rowBufDB m d L j) (ix1 ⟨16 + (x 0).val, hx⟩)⌝
            -∗ owes (thrV d L) O (insert (SemLoc.dma cc0_scratch12.sem, (default : HIx 1)) W)
            -∗ (sTab.view.loc (thrV d L) ↦{fullShare} (countTab (rowBufSB m d L j) : Buf (Elt F) (sTab.view.loc (thrV d L))))
            -∗ (sDB.view.loc (thrV d L) ↦{fullShare} rowBufDB m d L j)
            -∗ v3Row d jq (cnts m d)
            -∗ semVal (cellV d L cc0_scratch12) 0
            -∗ (sCB.view.loc (thrV d L) ↦{fullShare} (cntAt (tgtRow (rowBufSB m d L j) (rowBufDB m d L j)) C 1 0 0 1 : Buf (Elt F) (sCB.view.loc (thrV d L))))
            -∗ wp frame (wpE (defs₀ (F := F)) 𝒱₀ (thrV d L) none) Set.univ (kk ⟨v429, hw52, v450, w⟩) Q))
      ⊢ wp frame (wpE (defs₀ (F := F)) 𝒱₀ (thrV d L) none) Set.univ
          (atTile L k0_part15 v4 k arg18 v395 v404 hw27 v405 hw28 v406 hw29 v407 hw30 v408 hw31 v409 hw32 v410 hw33 v411 hw34 v412 hw35 v413 hw36 v414 hw37 v415 hw38 v416 hw39 v417 hw40 v418 hw41 >>= kk) Q := by
  have hc3 : ¬ k0_cond3 k = 1#1 := cond3_neg k (by omega)
  have hc4 : k0_cond4 k = 1#1 := cond4_pos k (by omega)
  unfold zeroTab
  iintro ⟨#Hmw, HO, HT, HDB, Hfl, Hk⟩
  unfold atTile
  rw [k0_part15_eq_skeleton]; unfold k0_part15_skel
  sl_exec (disch := first | sl_exact chk52_of m d L hpre _ _ _)
  ihave HC := (p15_cb (F := F) d L (tgtRow (rowBufSB m d L j) (rowBufDB m d L j)) C) $$ Hfl_src
  iapply (tab_sidx' d L (addedTab_first (F := F) (rowBufSB m d L j) v404 v4 _ h404 h4 (fun _ => rfl) _)) $$ HT; iintro HT
  iapply (tab_add d L h405 h4 16 32 rfl rfl) $$ HT; iintro HT
  iapply (tab_add d L h406 h4 32 48 rfl rfl) $$ HT; iintro HT
  iapply (tab_add d L h407 h4 48 64 rfl rfl) $$ HT; iintro HT
  iapply (tab_add d L h408 h4 64 80 rfl rfl) $$ HT; iintro HT
  iapply (tab_add d L h409 h4 80 96 rfl rfl) $$ HT; iintro HT
  iapply (tab_add d L h410 h4 96 112 rfl rfl) $$ HT; iintro HT
  iapply (tab_add d L h411 h4 112 128 rfl rfl) $$ HT; iintro HT
  iapply (tab_add d L h412 h4 128 144 rfl rfl) $$ HT; iintro HT
  iapply (tab_add d L h413 h4 144 160 rfl rfl) $$ HT; iintro HT
  iapply (tab_add d L h414 h4 160 176 rfl rfl) $$ HT; iintro HT
  iapply (tab_add d L h415 h4 176 192 rfl rfl) $$ HT; iintro HT
  iapply (tab_sidx' d L (addedTab_last (F := F) (rowBufSB m d L j) v416 v4 _ h416 h4 (fun _ => rfl) _)) $$ HT; iintro HT
  iapply (tab_lidx₂ d L) $$ HT; iintro HT
  sl_exec
  repeat rw [sCB_cons₂]
  rw [sCB_step (F := F) (tgtRow (rowBufSB m d L j) (rowBufDB m d L j)) C 0 0 0 0 1 0 0 0 0 _ (k0_pay53 v404 _) (filled_step0 0 0 0 0 0 rfl (by omega))
    (pay_tgt0 (rowBufSB m d L j) (rowBufDB m d L j) 0 _ rfl v404 h404 _ (loadIdx_countTab' (F := F) (rowBufSB m d L j) v404 _))]
  rw [sCB_step (F := F) (tgtRow (rowBufSB m d L j) (rowBufDB m d L j)) C 1 0 0 0 1 0 0 1 624 _ (k0_pay54 v417 _) (filled_step3 1 0 0 0 624 rfl (by omega))
    (pay_tgt3 (rowBufSB m d L j) (rowBufDB m d L j) 0 _ rfl v417 h417 _ (loadIdx_countTab' (F := F) (rowBufSB m d L j) v417 _))]
  iapply (tab_lidx₂ d L) $$ HT; iintro HT
  sl_exec
  ihave HO := (Entails.of_eq (p15_owes12 (F := F) d L O W _)) $$ HO
  ihave Hfl := (Entails.of_eq (p15_semVal12 (F := F) d L _)) $$ Hfl
  iapply Hk $$ %_ %_ %_ %_ %(p15_readAt_rowVec_DB (F := F) d L (rowBufDB m d L j) 12 192 rfl inb_S208_S16_192)
    %(loadIdx_countTab' (F := F) (rowBufSB m d L j) v418 _)
    %(pay_tgt0 (rowBufSB m d L j) (rowBufDB m d L j) 1 _ rfl v405 h405 _ (loadIdx_countTab' (F := F) (rowBufSB m d L j) v405 _)) HO HT HDB Hfl_dst Hfl HC

end Cert.Kernel.Sc

end
-- ==== Proof.Bits.Sc.ChainB.lean ====
import proofs.«212098_g24275155157491_cont_8to1_80_30_alg».proof.Proof.Bits.Sc.PartsB
import proofs.«212098_g24275155157491_cont_8to1_80_30_alg».proof.Proof.Bits.Sc.PartsB2
import proofs.«212098_g24275155157491_cont_8to1_80_30_alg».proof.Proof.Bits.Sc.PartsC
import proofs.«212098_g24275155157491_cont_8to1_80_30_alg».proof.Proof.Bits.Sc.PartsD
import proofs.«212098_g24275155157491_cont_8to1_80_30_alg».proof.Proof.Bits.Sc.Part15
import proofs.«212098_g24275155157491_cont_8to1_80_30_alg».proof.Proof.Bits.Sc.AtTile

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

abbrev RetB (F : FTy → Type) [FloatOps F] : Type := Σ' (v419 : Vec F S16 .i32) (k0_hw42 : k0_chk42 v419) (v420 : Vec F S16 .i32) (k0_hw43 : k0_chk43 v420) (v421 : Vec F S16 .i32) (k0_hw44 : k0_chk44 v421) (v422 : Vec F S16 .i32) (k0_hw45 : k0_chk45 v422) (v423 : Vec F S16 .i32) (k0_hw46 : k0_chk46 v423) (v424 : Vec F S16 .i32) (k0_hw47 : k0_chk47 v424) (v425 : Vec F S16 .i32) (k0_hw48 : k0_chk48 v425) (v426 : Vec F S16 .i32) (k0_hw49 : k0_chk49 v426) (v427 : Vec F S16 .i32) (k0_hw50 : k0_chk50 v427) (v428 : Vec F S16 .i32) (k0_hw51 : k0_chk51 v428) (v429 : Vec F S16 .i32), k0_chk52 v429

section
variable [FloatOps F] (i : grid0.Coords) (arg2 : Memref sig .scVector .hbm S1024x208 .i32) (harg2 : arg2.IsWhole) (arg3 : Memref sig .scVector .hbm S1024x208 .i32) (harg3 : arg3.IsWhole) (arg4 : Memref sig .scVector .hbm S1024x832 .i32) (harg4 : arg4.IsWhole) (arg5 : Memref sig .scVector .vmem S100096 .i32) (harg5 : arg5.IsWhole) (arg6 : Memref sig .scVector .vmem S208 .i32) (harg6 : arg6.IsWhole) (arg7 : Memref sig .scVector .vmem S208 .i32) (harg7 : arg7.IsWhole) (arg8 : Memref sig .scVector .vmem S208 .i32) (harg8 : arg8.IsWhole) (arg9 : Memref sig .scVector .vmem S208 .i32) (harg9 : arg9.IsWhole) (arg10 : Memref sig .scVector .vmem S832 .i32) (harg10 : arg10.IsWhole) (arg11 : Memref sig .scVector .vmem S832 .i32) (harg11 : arg11.IsWhole) (arg12 : DmaSems sig S_) (arg13 : DmaSems sig S_) (arg14 : DmaSems sig S_) (arg15 : DmaSems sig S_) (arg16 : DmaSems sig S_) (arg17 : DmaSems sig S_)

def bchainTail (v3 v4 : IVec S16 32) (v404 : Vec F S16 .i32) (k0_hw27 : k0_chk27 v404) (v405 : Vec F S16 .i32) (k0_hw28 : k0_chk28 v405) (v406 : Vec F S16 .i32) (k0_hw29 : k0_chk29 v406) (v407 : Vec F S16 .i32) (k0_hw30 : k0_chk30 v407) (v408 : Vec F S16 .i32) (k0_hw31 : k0_chk31 v408) (v409 : Vec F S16 .i32) (k0_hw32 : k0_chk32 v409) (v410 : Vec F S16 .i32) (k0_hw33 : k0_chk33 v410) (v411 : Vec F S16 .i32) (k0_hw34 : k0_chk34 v411) (v412 : Vec F S16 .i32) (k0_hw35 : k0_chk35 v412) (v413 : Vec F S16 .i32) (k0_hw36 : k0_chk36 v413) (v414 : Vec F S16 .i32) (k0_hw37 : k0_chk37 v414) (v415 : Vec F S16 .i32) (k0_hw38 : k0_chk38 v415) (v416 : Vec F S16 .i32) (k0_hw39 : k0_chk39 v416) (v417 : Vec F S16 .i32) (k0_hw40 : k0_chk40 v417) (v418 : Vec F S16 .i32) (k0_hw41 : k0_chk41 v418) (v419 : Vec F S16 .i32) (k0_hw42 : k0_chk42 v419) (v420 : Vec F S16 .i32) (k0_hw43 : k0_chk43 v420) (v421 : Vec F S16 .i32) (k0_hw44 : k0_chk44 v421) (v422 : Vec F S16 .i32) (k0_hw45 : k0_chk45 v422) (v423 : Vec F S16 .i32) (k0_hw46 : k0_chk46 v423) (v424 : Vec F S16 .i32) (k0_hw47 : k0_chk47 v424) (v425 : Vec F S16 .i32) (k0_hw48 : k0_chk48 v425) (v426 : Vec F S16 .i32) (k0_hw49 : k0_chk49 v426) (v427 : Vec F S16 .i32) (k0_hw50 : k0_chk50 v427) (v428 : Vec F S16 .i32) (k0_hw51 : k0_chk51 v428) (v429 : Vec F S16 .i32) (k0_hw52 : k0_chk52 v429) (v450 : Vec F S16 .i32) (v454 : IVec S16 32) :
    Prog (TpuEff nD τ sig (Elt F) Λ₀ (.scVector ((i 0).castLE hcore0) ((i 1).castLE hsub0))) (RetB F) := do
  let ⟨v486, v490⟩ : Σ' (v486 : Vec F S16 .i32), IVec S16 32 ← k0_part16 i arg2 harg2 arg3 harg3 arg4 harg4 arg5 harg5 arg6 harg6 arg7 harg7 arg8 harg8 arg9 harg9 arg10 harg10 arg11 harg11 arg12 arg13 arg14 arg15 arg16 arg17 v406 k0_hw29 v407 k0_hw30 v408 k0_hw31 v418 v419 k0_hw42 v420 k0_hw43 v421 k0_hw44 v450 v454
  let ⟨v522, v526⟩ : Σ' (v522 : Vec F S16 .i32), IVec S16 32 ← k0_part17 i arg2 harg2 arg3 harg3 arg4 harg4 arg5 harg5 arg6 harg6 arg7 harg7 arg8 harg8 arg9 harg9 arg10 harg10 arg11 harg11 arg12 arg13 arg14 arg15 arg16 arg17 v409 k0_hw32 v410 k0_hw33 v411 k0_hw34 v421 v422 k0_hw45 v423 k0_hw46 v424 k0_hw47 v486 v490
  let ⟨v558, v562⟩ : Σ' (v558 : Vec F S16 .i32), IVec S16 32 ← k0_part18 i arg2 harg2 arg3 harg3 arg4 harg4 arg5 harg5 arg6 harg6 arg7 harg7 arg8 harg8 arg9 harg9 arg10 harg10 arg11 harg11 arg12 arg13 arg14 arg15 arg16 arg17 v412 k0_hw35 v413 k0_hw36 v414 k0_hw37 v424 v425 k0_hw48 v426 k0_hw49 v427 k0_hw50 v522 v526
  k0_part19 i arg2 harg2 arg3 harg3 arg4 harg4 arg5 harg5 arg6 harg6 arg7 harg7 arg8 harg8 arg9 harg9 arg10 harg10 arg11 harg11 arg12 arg13 arg14 arg15 arg16 arg17 v3 v404 k0_hw27 v405 k0_hw28 v406 k0_hw29 v407 k0_hw30 v408 k0_hw31 v409 k0_hw32 v410 k0_hw33 v411 k0_hw34 v412 k0_hw35 v413 k0_hw36 v415 k0_hw38 v416 k0_hw39 v427 v428 k0_hw51 v429 k0_hw52 v558 v562
  let ⟨v617, v618, v619⟩ : Σ' (v617 : Vec F S16 .i32) (v618 : Vec F S16 .i32), IVec S16 32 ← k0_part20 i arg2 harg2 arg3 harg3 arg4 harg4 arg5 harg5 arg6 harg6 arg7 harg7 arg8 harg8 arg9 harg9 arg10 harg10 arg11 harg11 arg12 arg13 arg14 arg15 arg16 arg17 v3 v4 v404 k0_hw27 v405 k0_hw28 v406 k0_hw29 v414 k0_hw37 v415 k0_hw38 v416 k0_hw39 v417 k0_hw40 v418 k0_hw41 v419 k0_hw42 v420 k0_hw43 v421 k0_hw44 v422 k0_hw45 v423 k0_hw46 v424 k0_hw47 v425 k0_hw48 v426 k0_hw49 v427 k0_hw50 v428 k0_hw51 v429 k0_hw52
  let ⟨v653, v654, v655⟩ : Σ' (v653 : Vec F S16 .i32) (v654 : Vec F S16 .i32), IVec S16 32 ← k0_part21 i arg2 harg2 arg3 harg3 arg4 harg4 arg5 harg5 arg6 harg6 arg7 harg7 arg8 harg8 arg9 harg9 arg10 harg10 arg11 harg11 arg12 arg13 arg14 arg15 arg16 arg17 v406 v407 k0_hw30 v408 k0_hw31 v409 k0_hw32 v419 v420 k0_hw43 v421 k0_hw44 v422 k0_hw45 v617 v618 v619
  let ⟨v689, v690, v691⟩ : Σ' (v689 : Vec F S16 .i32) (v690 : Vec F S16 .i32), IVec S16 32 ← k0_part22 i arg2 harg2 arg3 harg3 arg4 harg4 arg5 harg5 arg6 harg6 arg7 harg7 arg8 harg8 arg9 harg9 arg10 harg10 arg11 harg11 arg12 arg13 arg14 arg15 arg16 arg17 v409 v410 k0_hw33 v411 k0_hw34 v412 k0_hw35 v422 v423 k0_hw46 v424 k0_hw47 v425 k0_hw48 v653 v654 v655
  let ⟨v725, v726, v727⟩ : Σ' (v725 : Vec F S16 .i32) (v726 : Vec F S16 .i32), IVec S16 32 ← k0_part23 i arg2 harg2 arg3 harg3 arg4 harg4 arg5 harg5 arg6 harg6 arg7 harg7 arg8 harg8 arg9 harg9 arg10 harg10 arg11 harg11 arg12 arg13 arg14 arg15 arg16 arg17 v412 v413 k0_hw36 v414 k0_hw37 v415 k0_hw38 v425 v426 k0_hw49 v427 k0_hw50 v428 k0_hw51 v689 v690 v691
  let v731 : Vec F S16 .i32 ← Prog.lift (.load arg11 (Rect.unit (s := S832) ![592] S16.size inb_S832_S16_592).toLoadRect (View.loadsAt_vmem h_S16))
  Prog.lift (.store arg11 (Rect.unit (s := S832) ![592] S16.size inb_S832_S16_592) (k0_pay105 v428 v725 v727) Finset.univ (View.stores_vmem_bits_univ h_S16 rfl) (.inl rfl))
  let v736 : Vec F S16 .i32 ← Prog.lift (.load arg11 (Rect.unit (s := S832) ![384] S16.size inb_S832_S16_384).toLoadRect (View.loadsAt_vmem h_S16))
  Prog.lift (.store arg11 (Rect.unit (s := S832) ![384] S16.size inb_S832_S16_384) (k0_pay106 v415 v726) Finset.univ (View.stores_vmem_bits_univ h_S16 rfl) (.inl rfl))
  let v737 : Vec F S16 .i32 ← SparseCore.vectorLoadIdx arg5 ![v429] (k0_idx194_inb v429 k0_hw52) (View.loads_vmem h_S100096)
  let v738 : Vec F S16 .i32 ← SparseCore.vectorLoadIdx arg5 ![v416] (k0_idx195_inb v416 k0_hw39) (View.loads_vmem h_S100096)
  let v743 : Vec F S16 .i32 ← Prog.lift (.load arg11 (Rect.unit (s := S832) ![608] S16.size inb_S832_S16_608).toLoadRect (View.loadsAt_vmem h_S16))
  Prog.lift (.store arg11 (Rect.unit (s := S832) ![608] S16.size inb_S832_S16_608) (k0_pay107 v429 v737) Finset.univ (View.stores_vmem_bits_univ h_S16 rfl) (.inl rfl))
  let v748 : Vec F S16 .i32 ← Prog.lift (.load arg11 (Rect.unit (s := S832) ![400] S16.size inb_S832_S16_400).toLoadRect (View.loadsAt_vmem h_S16))
  Prog.lift (.store arg11 (Rect.unit (s := S832) ![400] S16.size inb_S832_S16_400) (k0_pay108 v416 v738) Finset.univ (View.stores_vmem_bits_univ h_S16 rfl) (.inl rfl))
  SparseCore.vectorStoreIdx arg5 ![v417] v3 (fun _ => 1#1) false (k0_idx196_inb v417 k0_hw40) (View.stores_vmem_bits_univ h_S100096 rfl)
  SparseCore.vectorStoreIdx arg5 ![v418] v3 (fun _ => 1#1) false (k0_idx197_inb v418 k0_hw41) (View.stores_vmem_bits_univ h_S100096 rfl)
  pure ⟨v419, k0_hw42, v420, k0_hw43, v421, k0_hw44, v422, k0_hw45, v423, k0_hw46, v424, k0_hw47, v425, k0_hw48, v426, k0_hw49, v427, k0_hw50, v428, k0_hw51, v429, k0_hw52⟩

def bchainProg (v3 : IVec S16 32) (v4 : IVec S16 32) (k0_t2 : Fin k0_t2_loop.trips) (arg18 v395 : BitVec 32) (v404 : Vec F S16 .i32) (k0_hw27 : k0_chk27 v404) (v405 : Vec F S16 .i32) (k0_hw28 : k0_chk28 v405) (v406 : Vec F S16 .i32) (k0_hw29 : k0_chk29 v406) (v407 : Vec F S16 .i32) (k0_hw30 : k0_chk30 v407) (v408 : Vec F S16 .i32) (k0_hw31 : k0_chk31 v408) :
    Prog (TpuEff nD τ sig (Elt F) Λ₀ (.scVector ((i 0).castLE hcore0) ((i 1).castLE hsub0))) (RetB F) := do
  let ⟨v409, k0_hw32, v410, k0_hw33, v411, k0_hw34, v412, k0_hw35, v413, k0_hw36, v414, k0_hw37, v415, k0_hw38, v416, k0_hw39, v417, k0_hw40, v418, k0_hw41, v419, k0_hw42, v420, k0_hw43, v421, k0_hw44, v422, k0_hw45, v423, k0_hw46, v424, k0_hw47, v425, k0_hw48, v426, k0_hw49, v427, k0_hw50, v428, k0_hw51⟩ : Σ' (v409 : Vec F S16 .i32) (k0_hw32 : k0_chk32 v409) (v410 : Vec F S16 .i32) (k0_hw33 : k0_chk33 v410) (v411 : Vec F S16 .i32) (k0_hw34 : k0_chk34 v411) (v412 : Vec F S16 .i32) (k0_hw35 : k0_chk35 v412) (v413 : Vec F S16 .i32) (k0_hw36 : k0_chk36 v413) (v414 : Vec F S16 .i32) (k0_hw37 : k0_chk37 v414) (v415 : Vec F S16 .i32) (k0_hw38 : k0_chk38 v415) (v416 : Vec F S16 .i32) (k0_hw39 : k0_chk39 v416) (v417 : Vec F S16 .i32) (k0_hw40 : k0_chk40 v417) (v418 : Vec F S16 .i32) (k0_hw41 : k0_chk41 v418) (v419 : Vec F S16 .i32) (k0_hw42 : k0_chk42 v419) (v420 : Vec F S16 .i32) (k0_hw43 : k0_chk43 v420) (v421 : Vec F S16 .i32) (k0_hw44 : k0_chk44 v421) (v422 : Vec F S16 .i32) (k0_hw45 : k0_chk45 v422) (v423 : Vec F S16 .i32) (k0_hw46 : k0_chk46 v423) (v424 : Vec F S16 .i32) (k0_hw47 : k0_chk47 v424) (v425 : Vec F S16 .i32) (k0_hw48 : k0_chk48 v425) (v426 : Vec F S16 .i32) (k0_hw49 : k0_chk49 v426) (v427 : Vec F S16 .i32) (k0_hw50 : k0_chk50 v427) (v428 : Vec F S16 .i32), k0_chk51 v428 ← k0_part14 i arg2 harg2 arg3 harg3 arg4 harg4 arg5 harg5 arg6 harg6 arg7 harg7 arg8 harg8 arg9 harg9 arg10 harg10 arg11 harg11 arg12 arg13 arg14 arg15 arg16 arg17
  let ⟨v429, k0_hw52, v450, v454⟩ : Σ' (v429 : Vec F S16 .i32) (k0_hw52 : k0_chk52 v429) (v450 : Vec F S16 .i32), IVec S16 32 ← k0_part15 i arg2 harg2 arg3 harg3 arg4 harg4 arg5 harg5 arg6 harg6 arg7 harg7 arg8 harg8 arg9 harg9 arg10 harg10 arg11 harg11 arg12 arg13 arg14 arg15 arg16 arg17 v4 k0_t2 arg18 v395 v404 k0_hw27 v405 k0_hw28 v406 k0_hw29 v407 k0_hw30 v408 k0_hw31 v409 k0_hw32 v410 k0_hw33 v411 k0_hw34 v412 k0_hw35 v413 k0_hw36 v414 k0_hw37 v415 k0_hw38 v416 k0_hw39 v417 k0_hw40 v418 k0_hw41
  bchainTail i arg2 harg2 arg3 harg3 arg4 harg4 arg5 harg5 arg6 harg6 arg7 harg7 arg8 harg8 arg9 harg9 arg10 harg10 arg11 harg11 arg12 arg13 arg14 arg15 arg16 arg17 v3 v4 v404 k0_hw27 v405 k0_hw28 v406 k0_hw29 v407 k0_hw30 v408 k0_hw31 v409 k0_hw32 v410 k0_hw33 v411 k0_hw34 v412 k0_hw35 v413 k0_hw36 v414 k0_hw37 v415 k0_hw38 v416 k0_hw39 v417 k0_hw40 v418 k0_hw41 v419 k0_hw42 v420 k0_hw43 v421 k0_hw44 v422 k0_hw45 v423 k0_hw46 v424 k0_hw47 v425 k0_hw48 v426 k0_hw49 v427 k0_hw50 v428 k0_hw51 v429 k0_hw52 v450 v454

end

variable (m : (ℓ : Loc nD τ sig) → Buf (Elt F) ℓ) [FloatOps F]
variable (d : Dev nD) (L : grid0.Coords)

/-- From the count table of the source row and the first piece of frequencies, the rest of the row's four runs are filled and the table is left cleared of the destination row's first two vectors. -/
theorem bchain_tail {α : Type} {Q : α → sProp 𝕄} (kont : RetB F → Prog (TpuEff nD τ sig (Elt F) Λ₀ (thrV d L).2) α)
    (rS rD : IVec SRow 32) (C : IVec SFreq 32) (v3 v4 : IVec S16 32) (h3 : ∀ x, v3 x = 0#32) (h4 : ∀ x, v4 x = 1#32)
    {v404 : Vec F S16 .i32} {hw27 : k0_chk27 v404} {v405 : Vec F S16 .i32} {hw28 : k0_chk28 v405} {v406 : Vec F S16 .i32} {hw29 : k0_chk29 v406} {v407 : Vec F S16 .i32} {hw30 : k0_chk30 v407} {v408 : Vec F S16 .i32} {hw31 : k0_chk31 v408} {v409 : Vec F S16 .i32} {hw32 : k0_chk32 v409} {v410 : Vec F S16 .i32} {hw33 : k0_chk33 v410} {v411 : Vec F S16 .i32} {hw34 : k0_chk34 v411} {v412 : Vec F S16 .i32} {hw35 : k0_chk35 v412} {v413 : Vec F S16 .i32} {hw36 : k0_chk36 v413} {v414 : Vec F S16 .i32} {hw37 : k0_chk37 v414} {v415 : Vec F S16 .i32} {hw38 : k0_chk38 v415} {v416 : Vec F S16 .i32} {hw39 : k0_chk39 v416} {v417 : Vec F S16 .i32} {hw40 : k0_chk40 v417} {v418 : Vec F S16 .i32} {hw41 : k0_chk41 v418} {v419 : Vec F S16 .i32} {hw42 : k0_chk42 v419} {v420 : Vec F S16 .i32} {hw43 : k0_chk43 v420} {v421 : Vec F S16 .i32} {hw44 : k0_chk44 v421} {v422 : Vec F S16 .i32} {hw45 : k0_chk45 v422} {v423 : Vec F S16 .i32} {hw46 : k0_chk46 v423} {v424 : Vec F S16 .i32} {hw47 : k0_chk47 v424} {v425 : Vec F S16 .i32} {hw48 : k0_chk48 v425} {v426 : Vec F S16 .i32} {hw49 : k0_chk49 v426} {v427 : Vec F S16 .i32} {hw50 : k0_chk50 v427} {v428 : Vec F S16 .i32} {hw51 : k0_chk51 v428} {v429 : Vec F S16 .i32} {hw52 : k0_chk52 v429} {v450 : Vec F S16 .i32} {w454 : IVec S16 32}
    (h404 : ∀ x, v404 x = rowVec rS 0 x) (h405 : ∀ x, v405 x = rowVec rS 1 x) (h406 : ∀ x, v406 x = rowVec rS 2 x) (h407 : ∀ x, v407 x = rowVec rS 3 x) (h408 : ∀ x, v408 x = rowVec rS 4 x) (h409 : ∀ x, v409 x = rowVec rS 5 x) (h410 : ∀ x, v410 x = rowVec rS 6 x) (h411 : ∀ x, v411 x = rowVec rS 7 x) (h412 : ∀ x, v412 x = rowVec rS 8 x) (h413 : ∀ x, v413 x = rowVec rS 9 x) (h414 : ∀ x, v414 x = rowVec rS 10 x) (h415 : ∀ x, v415 x = rowVec rS 11 x) (h416 : ∀ x, v416 x = rowVec rS 12 x) (h417 : ∀ x, v417 x = rowVec rD 0 x) (h418 : ∀ x, v418 x = rowVec rD 1 x) (h419 : ∀ x, v419 x = rowVec rD 2 x) (h420 : ∀ x, v420 x = rowVec rD 3 x) (h421 : ∀ x, v421 x = rowVec rD 4 x) (h422 : ∀ x, v422 x = rowVec rD 5 x) (h423 : ∀ x, v423 x = rowVec rD 6 x) (h424 : ∀ x, v424 x = rowVec rD 7 x) (h425 : ∀ x, v425 x = rowVec rD 8 x) (h426 : ∀ x, v426 x = rowVec rD 9 x) (h427 : ∀ x, v427 x = rowVec rD 10 x) (h428 : ∀ x, v428 x = rowVec rD 11 x) (h429 : ∀ x, v429 x = rowVec rD 12 x)
    (h450 : ∀ x, v450 x = BitVec.ofNat 32 (occRow rS (v418 x)))
    (h454 : ∀ (x : SLane.Idx) (hx : 16 + (x 0).val < 832), w454 x = tgtRow rS rD (ix1 ⟨16 + (x 0).val, hx⟩)) :
    iprop((sTab.view.loc (thrV d L) ↦{fullShare} (countTab rS : Buf (Elt F) (sTab.view.loc (thrV d L))))
        ∗ (sCB.view.loc (thrV d L) ↦{fullShare} (cntAt (tgtRow rS rD) C 1 0 0 1 : Buf (Elt F) (sCB.view.loc (thrV d L))))
        ∗ ((sTab.view.loc (thrV d L) ↦{fullShare} (clearedTab (countTab rD) rD 32 : Buf (Elt F) (sTab.view.loc (thrV d L)))) -∗ (sCB.view.loc (thrV d L) ↦{fullShare} (tgtRow rS rD : Buf (Elt F) (sCB.view.loc (thrV d L))))
            -∗ wp frame (wpE (defs₀ (F := F)) 𝒱₀ (thrV d L) none) Set.univ (kont ⟨v419, hw42, v420, hw43, v421, hw44, v422, hw45, v423, hw46, v424, hw47, v425, hw48, v426, hw49, v427, hw50, v428, hw51, v429, hw52⟩) Q))
      ⊢ wp frame (wpE (defs₀ (F := F)) 𝒱₀ (thrV d L) none) Set.univ
          (atTile L (bchainTail (F := F)) v3 v4 v404 hw27 v405 hw28 v406 hw29 v407 hw30 v408 hw31 v409 hw32 v410 hw33 v411 hw34 v412 hw35 v413 hw36 v414 hw37 v415 hw38 v416 hw39 v417 hw40 v418 hw41 v419 hw42 v420 hw43 v421 hw44 v422 hw45 v423 hw46 v424 hw47 v425 hw48 v426 hw49 v427 hw50 v428 hw51 v429 hw52 v450 w454 >>= kont) Q := by
  iintro ⟨HT, HC, Hk⟩
  unfold atTile bchainTail
  rw [Prog.bind_assoc]
  iapply (part16 (F := F) d L _ rS rD C 0 0 v406 hw29 v407 hw30 v408 hw31 _ _ _ _ _ _ _ v450 w454
    h406 h407 h408 h418 h419 h420 h421 h450 h454)
  iframe HT HC
  iintro %v486 %w490 %h486 %h490 HT HC
  dsimp only
  rw [Prog.bind_assoc]
  iapply (part17 (F := F) d L _ rS rD C 0 0 _ _ _ _ _ _ _ _ _ _ _ _ _ v486 w490
    h409 h410 h411 h421 h422 h423 h424 h486 h490)
  iframe HT HC
  iintro %v522 %w526 %h522 %h526 HT HC
  dsimp only
  rw [Prog.bind_assoc]
  iapply (part18 (F := F) d L _ rS rD C 0 0 _ _ _ _ _ _ _ _ _ _ _ _ _ v522 w526
    h412 h413 h414 h424 h425 h426 h427 h522 h526)
  iframe HT HC
  iintro %v558 %w562 %h558 %h562 HT HC
  dsimp only
  rw [Prog.bind_assoc]
  iapply (part19 (F := F) d L _ rS rD C v3 v404 hw27 v405 hw28 v406 hw29 v407 hw30 v408 hw31 _ _ _ _ _ _ _ _ _ _ _ _ _ _ _ _ _ v429 hw52 v558 w562
    h3 h404 h405 h406 h407 h408 h409 h410 h411 h412 h413 h415 h416
    h427 h428 h429 h562 h558)
  iframe HT HC
  iintro %_ %_ HT HC
  dsimp only
  rw [Prog.bind_assoc]
  iapply (part20 (F := F) d L _ rS rD C v3 v4 v404 hw27 v405 hw28 v406 hw29 _ _ _ _ _ _ _ _ _ _ _ _ _ _ _ _ _ _ _ _ _ _ _ _ _ _ _ _ _ _ v429 hw52
    h3 h4 h404 h405 h406 h414 h415 h416
    h417 h418 h419 h420 h421 h422 h423 h424 h425 h426 h427 h428 h429)
  iframe HT HC
  iintro %ret20 %hret20 HT HC
  obtain ⟨v617, v618, v619⟩ := ret20
  obtain ⟨h617, h618, h619⟩ := hret20
  dsimp only at h617 h618 h619
  dsimp only
  rw [Prog.bind_assoc]
  iapply (part21 (F := F) d L _ rS rD C 13 13 v406 v407 hw30 v408 hw31 _ _ _ _ _ _ _ _ _ v617 v618 v619
    h406 h407 h408 h409 h419 h420 h421 h422 h617 h618 h619)
  iframe HT HC
  iintro %v653 %v654 %v655 %h653 %h654 %h655 HT HC
  dsimp only
  rw [Prog.bind_assoc]
  iapply (part22 (F := F) d L _ rS rD C 13 13 _ _ _ _ _ _ _ _ _ _ _ _ _ _ v653 v654 v655
    h409 h410 h411 h412 h422 h423 h424 h425 h653 h654 h655)
  iframe HT HC
  iintro %v689 %v690 %v691 %h689 %h690 %h691 HT HC
  dsimp only
  rw [Prog.bind_assoc]
  iapply (part23 (F := F) d L _ rS rD C 13 13 _ _ _ _ _ _ _ _ _ _ _ _ _ _ v689 v690 v691
    h412 h413 h414 h415 h425 h426 h427 h428 h689 h690 h691)
  iframe HT HC
  iintro %v725 %v726 %v727 %h725 %h726 %h727 HT HC
  subst h727

  sl_exec
  rw [Prog.bind_assoc]; iapply (tab_lidx d L) $$ HT; iintro HT
  rw [Prog.bind_assoc]; iapply (tab_lidx d L) $$ HT; iintro HT
  sl_exec
  repeat rw [sCB_cons₂]
  erw [sCB_step (F := F) (tgtRow rS rD) C 13 11 11 13 13 11 12 13 592 _ (k0_pay105 _ v725 _) (filled_step2 13 11 11 13 592 rfl (by omega))
    (fun x hx => pay_tgt2 rS rD 11 _ rfl _ h428 v725 h725 x hx)]
  erw [sCB_step (F := F) (tgtRow rS rD) C 13 11 12 13 13 12 12 13 384 _ (k0_pay106 _ v726) (filled_step1 13 11 12 13 384 rfl (by omega))
    (fun x hx => pay_tgt1 rS rD 11 _ rfl _ h415 v726 h726 x hx)]
  erw [sCB_step (F := F) (tgtRow rS rD) C 13 12 12 13 13 12 13 13 608 _ (k0_pay107 v429 _) (filled_step2 13 12 12 13 608 rfl (by omega))
    (fun x hx => pay_tgt2 rS rD 12 _ rfl v429 h429 _ (fun x => loadIdx_countTab' (F := F) rD v429 _ x) x hx)]
  erw [sCB_step (F := F) (tgtRow rS rD) C 13 12 13 13 13 13 13 13 400 _ (k0_pay108 _ _) (filled_step1 13 12 13 13 400 rfl (by omega))
    (fun x hx => pay_tgt1 rS rD 12 _ rfl _ h416 _ (fun x => loadIdx_countTab' (F := F) rD _ _ x) x hx)]
  rw [cntAt_full]
  rw [Prog.bind_assoc]; iapply (tab_sidx d L (clearedTab_first (F := F) rD _ v3 _ h417 h3 (fun _ => rfl) _)) $$ HT; iintro HT
  rw [Prog.bind_assoc]; iapply (tab_sidx d L (clearedTab_step' (F := F) (countTab rD) rD 1 16 32 rfl rfl _ v3 _ h418 h3 (fun _ => rfl) _)) $$ HT; iintro HT
  rw [pure_bind]
  iapply Hk $$ HT HC

theorem bchain_mid {α : Type} {Q : α → sProp 𝕄} (kont : RetB F → Prog (TpuEff nD τ sig (Elt F) Λ₀ (thrV d L).2) α)
    (hpre : PreOK m) (O : CellTallies nD τ sig (HIx 1)) (W : Waits sig (HIx 1))
    (kk : Fin k0_t2_loop.trips) (hk0 : 0 < kk.val) (hk15 : kk.val + 1 < 16)
    (j j' jq : Fin 1024) (hj' : k0_off9 L kk = rowOff j') (hjq : k0_off10 L kk = rowOff jq)
    (C : IVec SFreq 32) (v3 v4 : IVec S16 32) (h3 : ∀ x, v3 x = 0#32) (h4 : ∀ x, v4 x = 1#32) (arg18 v395 : BitVec 32)
    (v404 : Vec F S16 .i32) (hw27 : k0_chk27 v404) (v405 : Vec F S16 .i32) (hw28 : k0_chk28 v405) (v406 : Vec F S16 .i32) (hw29 : k0_chk29 v406) (v407 : Vec F S16 .i32) (hw30 : k0_chk30 v407) (v408 : Vec F S16 .i32) (hw31 : k0_chk31 v408)
    (h404 : ∀ x, v404 x = rowVec (rowBufSB m d L j) 0 x) (h405 : ∀ x, v405 x = rowVec (rowBufSB m d L j) 1 x) (h406 : ∀ x, v406 x = rowVec (rowBufSB m d L j) 2 x) (h407 : ∀ x, v407 x = rowVec (rowBufSB m d L j) 3 x) (h408 : ∀ x, v408 x = rowVec (rowBufSB m d L j) 4 x) :
    iprop(□ Transfers.MayWaits (thrV d L) (none : HIx 1) O ∗ owes (thrV d L) O W
        ∗ (sTab.view.loc (thrV d L) ↦{fullShare} (zeroTab d L : Buf (Elt F) (sTab.view.loc (thrV d L))))
        ∗ (sSB.view.loc (thrV d L) ↦{fullShare} rowBufSB m d L j)
        ∗ (sDB.view.loc (thrV d L) ↦{fullShare} rowBufDB m d L j)
        ∗ semVal (cellV d L cc0_scratch9) 0 ∗ semVal (cellV d L cc0_scratch10) 0
        ∗ v1Row m d j' ∗ v2Row m d j'
        ∗ cntFlight m d L cc0_scratch12 sCB (C : Buf (Elt F) (sCB.view.loc (thrV d L))) jq
        ∗ (∀ (v419 : Vec F S16 .i32) (hw42 : k0_chk42 v419) (v420 : Vec F S16 .i32) (hw43 : k0_chk43 v420) (v421 : Vec F S16 .i32) (hw44 : k0_chk44 v421) (v422 : Vec F S16 .i32) (hw45 : k0_chk45 v422) (v423 : Vec F S16 .i32) (hw46 : k0_chk46 v423) (v424 : Vec F S16 .i32) (hw47 : k0_chk47 v424) (v425 : Vec F S16 .i32) (hw48 : k0_chk48 v425) (v426 : Vec F S16 .i32) (hw49 : k0_chk49 v426) (v427 : Vec F S16 .i32) (hw50 : k0_chk50 v427) (v428 : Vec F S16 .i32) (hw51 : k0_chk51 v428) (v429 : Vec F S16 .i32) (hw52 : k0_chk52 v429),
            ⌜∀ x, v419 x = rowVec (rowBufDB m d L j) 2 x⌝ -∗ ⌜∀ x, v420 x = rowVec (rowBufDB m d L j) 3 x⌝ -∗ ⌜∀ x, v421 x = rowVec (rowBufDB m d L j) 4 x⌝ -∗ ⌜∀ x, v422 x = rowVec (rowBufDB m d L j) 5 x⌝ -∗ ⌜∀ x, v423 x = rowVec (rowBufDB m d L j) 6 x⌝ -∗ ⌜∀ x, v424 x = rowVec (rowBufDB m d L j) 7 x⌝ -∗ ⌜∀ x, v425 x = rowVec (rowBufDB m d L j) 8 x⌝ -∗ ⌜∀ x, v426 x = rowVec (rowBufDB m d L j) 9 x⌝ -∗ ⌜∀ x, v427 x = rowVec (rowBufDB m d L j) 10 x⌝ -∗ ⌜∀ x, v428 x = rowVec (rowBufDB m d L j) 11 x⌝ -∗ ⌜∀ x, v429 x = rowVec (rowBufDB m d L j) 12 x⌝
            -∗ owes (thrV d L) O (insert (SemLoc.dma cc0_scratch12.sem, (default : HIx 1)) W)
            -∗ idFlight d L cc0_scratch9 sSB (rowBufSB m d L j') (v1Row m d j')
            -∗ idFlight d L cc0_scratch10 sDB (rowBufDB m d L j') (v2Row m d j')
            -∗ v3Row d jq (cnts m d)
            -∗ semVal (cellV d L cc0_scratch12) 0
            -∗ (sTab.view.loc (thrV d L) ↦{fullShare} (clearedTab (countTab (rowBufDB m d L j)) (rowBufDB m d L j) 32 : Buf (Elt F) (sTab.view.loc (thrV d L))))
            -∗ (sCB.view.loc (thrV d L) ↦{fullShare} (tgtRow (rowBufSB m d L j) (rowBufDB m d L j) : Buf (Elt F) (sCB.view.loc (thrV d L))))
            -∗ wp frame (wpE (defs₀ (F := F)) 𝒱₀ (thrV d L) none) Set.univ (kont ⟨v419, hw42, v420, hw43, v421, hw44, v422, hw45, v423, hw46, v424, hw47, v425, hw48, v426, hw49, v427, hw50, v428, hw51, v429, hw52⟩) Q))
      ⊢ wp frame (wpE (defs₀ (F := F)) 𝒱₀ (thrV d L) none) Set.univ
          (atTile L (bchainProg (F := F)) v3 v4 kk arg18 v395 v404 hw27 v405 hw28 v406 hw29 v407 hw30 v408 hw31 >>= kont) Q := by
  iintro ⟨#Hmw, HO, HT, HSB, HDB, Hs9, Hs10, Hn1, Hn2, Hf12, Hk⟩
  have eS := readAt_rowVec_SB (F := F) d L (rowBufSB m d L j)
  have eD := p15_readAt_rowVec_DB (F := F) d L (rowBufDB m d L j)
  unfold atTile bchainProg
  rw [Prog.bind_assoc]
  iapply (part14 (F := F) m d L hpre j _)
  iframe HSB HDB
  iintro ⟨HSB, HDB⟩
  dsimp only
  rw [Prog.bind_assoc]
  iapply (part15_mid (F := F) m d L _ hpre O W kk hk0 hk15 j j' jq hj' hjq C v4 arg18 v395
    v404 hw27 v405 hw28 v406 hw29 v407 hw30 v408 hw31 _ _ _ _ _ _ _ _ _ _ _ _ _ _ _ _ _ _ _ _
    h4 h404 h405 h406 h407 h408 (eS 5 80 rfl _) (eS 6 96 rfl _) (eS 7 112 rfl _) (eS 8 128 rfl _) (eS 9 144 rfl _) (eS 10 160 rfl _) (eS 11 176 rfl _) (eS 12 192 rfl _)
    (eD 0 0 rfl _) (eD 1 16 rfl _))
  iframe Hmw HO HT HSB HDB Hs9 Hs10 Hn1 Hn2 Hf12
  iintro %v429 %hw52 %v450 %w454 %h429 %h450 %h454 HO HT Hs9 Hs10 Hq Hs12 HC
  dsimp only
  iapply (bchain_tail (F := F) d L kont (rowBufSB m d L j) (rowBufDB m d L j) C v3 v4 h3 h4
    h404 h405 h406 h407 h408 (eS 5 80 rfl _) (eS 6 96 rfl _) (eS 7 112 rfl _) (eS 8 128 rfl _) (eS 9 144 rfl _) (eS 10 160 rfl _) (eS 11 176 rfl _) (eS 12 192 rfl _) (eD 0 0 rfl _) (eD 1 16 rfl _) (eD 2 32 rfl _) (eD 3 48 rfl _) (eD 4 64 rfl _) (eD 5 80 rfl _) (eD 6 96 rfl _) (eD 7 112 rfl _) (eD 8 128 rfl _) (eD 9 144 rfl _) (eD 10 160 rfl _) (eD 11 176 rfl _) h429 h450 h454)
  iframe HT HC
  iintro HT HC
  iapply Hk $$ %_ %_ %_ %_ %_ %_ %_ %_ %_ %_ %_ %_ %_ %_ %_ %_ %_ %_ %_ %_ %_ %_ %(eD 2 32 rfl _) %(eD 3 48 rfl _) %(eD 4 64 rfl _) %(eD 5 80 rfl _) %(eD 6 96 rfl _) %(eD 7 112 rfl _) %(eD 8 128 rfl _) %(eD 9 144 rfl _) %(eD 10 160 rfl _) %(eD 11 176 rfl _) %h429 HO Hs9 Hs10 Hq Hs12 HT HC

theorem bchain_first {α : Type} {Q : α → sProp 𝕄} (kont : RetB F → Prog (TpuEff nD τ sig (Elt F) Λ₀ (thrV d L).2) α)
    (hpre : PreOK m)
    (kk : Fin k0_t2_loop.trips) (hk0 : kk.val = 0)
    (j j' : Fin 1024) (hj' : k0_off9 L kk = rowOff j')
    (C : IVec SFreq 32) (v3 v4 : IVec S16 32) (h3 : ∀ x, v3 x = 0#32) (h4 : ∀ x, v4 x = 1#32) (arg18 v395 : BitVec 32)
    (v404 : Vec F S16 .i32) (hw27 : k0_chk27 v404) (v405 : Vec F S16 .i32) (hw28 : k0_chk28 v405) (v406 : Vec F S16 .i32) (hw29 : k0_chk29 v406) (v407 : Vec F S16 .i32) (hw30 : k0_chk30 v407) (v408 : Vec F S16 .i32) (hw31 : k0_chk31 v408)
    (h404 : ∀ x, v404 x = rowVec (rowBufSB m d L j) 0 x) (h405 : ∀ x, v405 x = rowVec (rowBufSB m d L j) 1 x) (h406 : ∀ x, v406 x = rowVec (rowBufSB m d L j) 2 x) (h407 : ∀ x, v407 x = rowVec (rowBufSB m d L j) 3 x) (h408 : ∀ x, v408 x = rowVec (rowBufSB m d L j) 4 x) :
    iprop((sTab.view.loc (thrV d L) ↦{fullShare} (zeroTab d L : Buf (Elt F) (sTab.view.loc (thrV d L))))
        ∗ (sSB.view.loc (thrV d L) ↦{fullShare} rowBufSB m d L j)
        ∗ (sDB.view.loc (thrV d L) ↦{fullShare} rowBufDB m d L j)
        ∗ semVal (cellV d L cc0_scratch9) 0 ∗ semVal (cellV d L cc0_scratch10) 0
        ∗ v1Row m d j' ∗ v2Row m d j'
        ∗ (sCB.view.loc (thrV d L) ↦{fullShare} (C : Buf (Elt F) (sCB.view.loc (thrV d L))))
        ∗ (∀ (v419 : Vec F S16 .i32) (hw42 : k0_chk42 v419) (v420 : Vec F S16 .i32) (hw43 : k0_chk43 v420) (v421 : Vec F S16 .i32) (hw44 : k0_chk44 v421) (v422 : Vec F S16 .i32) (hw45 : k0_chk45 v422) (v423 : Vec F S16 .i32) (hw46 : k0_chk46 v423) (v424 : Vec F S16 .i32) (hw47 : k0_chk47 v424) (v425 : Vec F S16 .i32) (hw48 : k0_chk48 v425) (v426 : Vec F S16 .i32) (hw49 : k0_chk49 v426) (v427 : Vec F S16 .i32) (hw50 : k0_chk50 v427) (v428 : Vec F S16 .i32) (hw51 : k0_chk51 v428) (v429 : Vec F S16 .i32) (hw52 : k0_chk52 v429),
            ⌜∀ x, v419 x = rowVec (rowBufDB m d L j) 2 x⌝ -∗ ⌜∀ x, v420 x = rowVec (rowBufDB m d L j) 3 x⌝ -∗ ⌜∀ x, v421 x = rowVec (rowBufDB m d L j) 4 x⌝ -∗ ⌜∀ x, v422 x = rowVec (rowBufDB m d L j) 5 x⌝ -∗ ⌜∀ x, v423 x = rowVec (rowBufDB m d L j) 6 x⌝ -∗ ⌜∀ x, v424 x = rowVec (rowBufDB m d L j) 7 x⌝ -∗ ⌜∀ x, v425 x = rowVec (rowBufDB m d L j) 8 x⌝ -∗ ⌜∀ x, v426 x = rowVec (rowBufDB m d L j) 9 x⌝ -∗ ⌜∀ x, v427 x = rowVec (rowBufDB m d L j) 10 x⌝ -∗ ⌜∀ x, v428 x = rowVec (rowBufDB m d L j) 11 x⌝ -∗ ⌜∀ x, v429 x = rowVec (rowBufDB m d L j) 12 x⌝
            -∗ idFlight d L cc0_scratch9 sSB (rowBufSB m d L j') (v1Row m d j')
            -∗ idFlight d L cc0_scratch10 sDB (rowBufDB m d L j') (v2Row m d j')
            -∗ (sTab.view.loc (thrV d L) ↦{fullShare} (clearedTab (countTab (rowBufDB m d L j)) (rowBufDB m d L j) 32 : Buf (Elt F) (sTab.view.loc (thrV d L))))
            -∗ (sCB.view.loc (thrV d L) ↦{fullShare} (tgtRow (rowBufSB m d L j) (rowBufDB m d L j) : Buf (Elt F) (sCB.view.loc (thrV d L))))
            -∗ wp frame (wpE (defs₀ (F := F)) 𝒱₀ (thrV d L) none) Set.univ (kont ⟨v419, hw42, v420, hw43, v421, hw44, v422, hw45, v423, hw46, v424, hw47, v425, hw48, v426, hw49, v427, hw50, v428, hw51, v429, hw52⟩) Q))
      ⊢ wp frame (wpE (defs₀ (F := F)) 𝒱₀ (thrV d L) none) Set.univ
          (atTile L (bchainProg (F := F)) v3 v4 kk arg18 v395 v404 hw27 v405 hw28 v406 hw29 v407 hw30 v408 hw31 >>= kont) Q := by
  iintro ⟨HT, HSB, HDB, Hs9, Hs10, Hn1, Hn2, HC, Hk⟩
  have eS := readAt_rowVec_SB (F := F) d L (rowBufSB m d L j)
  have eD := p15_readAt_rowVec_DB (F := F) d L (rowBufDB m d L j)
  unfold atTile bchainProg
  rw [Prog.bind_assoc]
  iapply (part14 (F := F) m d L hpre j _)
  iframe HSB HDB
  iintro ⟨HSB, HDB⟩
  dsimp only
  rw [Prog.bind_assoc]
  iapply (part15_first (F := F) m d L _ hpre kk hk0 j j' hj' C v4 arg18 v395
    v404 hw27 v405 hw28 v406 hw29 v407 hw30 v408 hw31 _ _ _ _ _ _ _ _ _ _ _ _ _ _ _ _ _ _ _ _
    h4 h404 h405 h406 h407 h408 (eS 5 80 rfl _) (eS 6 96 rfl _) (eS 7 112 rfl _) (eS 8 128 rfl _) (eS 9 144 rfl _) (eS 10 160 rfl _) (eS 11 176 rfl _) (eS 12 192 rfl _)
    (eD 0 0 rfl _) (eD 1 16 rfl _))
  iframe HT HSB HDB Hs9 Hs10 Hn1 Hn2 HC
  iintro %v429 %hw52 %v450 %w454 %h429 %h450 %h454 HT Hs9 Hs10 HC
  dsimp only
  iapply (bchain_tail (F := F) d L kont (rowBufSB m d L j) (rowBufDB m d L j) C v3 v4 h3 h4
    h404 h405 h406 h407 h408 (eS 5 80 rfl _) (eS 6 96 rfl _) (eS 7 112 rfl _) (eS 8 128 rfl _) (eS 9 144 rfl _) (eS 10 160 rfl _) (eS 11 176 rfl _) (eS 12 192 rfl _) (eD 0 0 rfl _) (eD 1 16 rfl _) (eD 2 32 rfl _) (eD 3 48 rfl _) (eD 4 64 rfl _) (eD 5 80 rfl _) (eD 6 96 rfl _) (eD 7 112 rfl _) (eD 8 128 rfl _) (eD 9 144 rfl _) (eD 10 160 rfl _) (eD 11 176 rfl _) h429 h450 h454)
  iframe HT HC
  iintro HT HC
  iapply Hk $$ %_ %_ %_ %_ %_ %_ %_ %_ %_ %_ %_ %_ %_ %_ %_ %_ %_ %_ %_ %_ %_ %_ %(eD 2 32 rfl _) %(eD 3 48 rfl _) %(eD 4 64 rfl _) %(eD 5 80 rfl _) %(eD 6 96 rfl _) %(eD 7 112 rfl _) %(eD 8 128 rfl _) %(eD 9 144 rfl _) %(eD 10 160 rfl _) %(eD 11 176 rfl _) %h429 Hs9 Hs10 HT HC

theorem bchain_last {α : Type} {Q : α → sProp 𝕄} (kont : RetB F → Prog (TpuEff nD τ sig (Elt F) Λ₀ (thrV d L).2) α)
    (hpre : PreOK m) (O : CellTallies nD τ sig (HIx 1)) (W : Waits sig (HIx 1))
    (kk : Fin k0_t2_loop.trips) (hk15 : kk.val = 15)
    (j jq : Fin 1024) (hjq : k0_off10 L kk = rowOff jq)
    (C : IVec SFreq 32) (v3 v4 : IVec S16 32) (h3 : ∀ x, v3 x = 0#32) (h4 : ∀ x, v4 x = 1#32) (arg18 v395 : BitVec 32)
    (v404 : Vec F S16 .i32) (hw27 : k0_chk27 v404) (v405 : Vec F S16 .i32) (hw28 : k0_chk28 v405) (v406 : Vec F S16 .i32) (hw29 : k0_chk29 v406) (v407 : Vec F S16 .i32) (hw30 : k0_chk30 v407) (v408 : Vec F S16 .i32) (hw31 : k0_chk31 v408)
    (h404 : ∀ x, v404 x = rowVec (rowBufSB m d L j) 0 x) (h405 : ∀ x, v405 x = rowVec (rowBufSB m d L j) 1 x) (h406 : ∀ x, v406 x = rowVec (rowBufSB m d L j) 2 x) (h407 : ∀ x, v407 x = rowVec (rowBufSB m d L j) 3 x) (h408 : ∀ x, v408 x = rowVec (rowBufSB m d L j) 4 x) :
    iprop(□ Transfers.MayWaits (thrV d L) (none : HIx 1) O ∗ owes (thrV d L) O W
        ∗ (sTab.view.loc (thrV d L) ↦{fullShare} (zeroTab d L : Buf (Elt F) (sTab.view.loc (thrV d L))))
        ∗ (sSB.view.loc (thrV d L) ↦{fullShare} rowBufSB m d L j)
        ∗ (sDB.view.loc (thrV d L) ↦{fullShare} rowBufDB m d L j)
        ∗ cntFlight m d L cc0_scratch12 sCB (C : Buf (Elt F) (sCB.view.loc (thrV d L))) jq
        ∗ (∀ (v419 : Vec F S16 .i32) (hw42 : k0_chk42 v419) (v420 : Vec F S16 .i32) (hw43 : k0_chk43 v420) (v421 : Vec F S16 .i32) (hw44 : k0_chk44 v421) (v422 : Vec F S16 .i32) (hw45 : k0_chk45 v422) (v423 : Vec F S16 .i32) (hw46 : k0_chk46 v423) (v424 : Vec F S16 .i32) (hw47 : k0_chk47 v424) (v425 : Vec F S16 .i32) (hw48 : k0_chk48 v425) (v426 : Vec F S16 .i32) (hw49 : k0_chk49 v426) (v427 : Vec F S16 .i32) (hw50 : k0_chk50 v427) (v428 : Vec F S16 .i32) (hw51 : k0_chk51 v428) (v429 : Vec F S16 .i32) (hw52 : k0_chk52 v429),
            ⌜∀ x, v419 x = rowVec (rowBufDB m d L j) 2 x⌝ -∗ ⌜∀ x, v420 x = rowVec (rowBufDB m d L j) 3 x⌝ -∗ ⌜∀ x, v421 x = rowVec (rowBufDB m d L j) 4 x⌝ -∗ ⌜∀ x, v422 x = rowVec (rowBufDB m d L j) 5 x⌝ -∗ ⌜∀ x, v423 x = rowVec (rowBufDB m d L j) 6 x⌝ -∗ ⌜∀ x, v424 x = rowVec (rowBufDB m d L j) 7 x⌝ -∗ ⌜∀ x, v425 x = rowVec (rowBufDB m d L j) 8 x⌝ -∗ ⌜∀ x, v426 x = rowVec (rowBufDB m d L j) 9 x⌝ -∗ ⌜∀ x, v427 x = rowVec (rowBufDB m d L j) 10 x⌝ -∗ ⌜∀ x, v428 x = rowVec (rowBufDB m d L j) 11 x⌝ -∗ ⌜∀ x, v429 x = rowVec (rowBufDB m d L j) 12 x⌝
            -∗ owes (thrV d L) O (insert (SemLoc.dma cc0_scratch12.sem, (default : HIx 1)) W)
            -∗ (sSB.view.loc (thrV d L) ↦{fullShare} rowBufSB m d L j)
            -∗ (sDB.view.loc (thrV d L) ↦{fullShare} rowBufDB m d L j)
            -∗ v3Row d jq (cnts m d)
            -∗ semVal (cellV d L cc0_scratch12) 0
            -∗ (sTab.view.loc (thrV d L) ↦{fullShare} (clearedTab (countTab (rowBufDB m d L j)) (rowBufDB m d L j) 32 : Buf (Elt F) (sTab.view.loc (thrV d L))))
            -∗ (sCB.view.loc (thrV d L) ↦{fullShare} (tgtRow (rowBufSB m d L j) (rowBufDB m d L j) : Buf (Elt F) (sCB.view.loc (thrV d L))))
            -∗ wp frame (wpE (defs₀ (F := F)) 𝒱₀ (thrV d L) none) Set.univ (kont ⟨v419, hw42, v420, hw43, v421, hw44, v422, hw45, v423, hw46, v424, hw47, v425, hw48, v426, hw49, v427, hw50, v428, hw51, v429, hw52⟩) Q))
      ⊢ wp frame (wpE (defs₀ (F := F)) 𝒱₀ (thrV d L) none) Set.univ
          (atTile L (bchainProg (F := F)) v3 v4 kk arg18 v395 v404 hw27 v405 hw28 v406 hw29 v407 hw30 v408 hw31 >>= kont) Q := by
  iintro ⟨#Hmw, HO, HT, HSB, HDB, Hf12, Hk⟩
  have eS := readAt_rowVec_SB (F := F) d L (rowBufSB m d L j)
  have eD := p15_readAt_rowVec_DB (F := F) d L (rowBufDB m d L j)
  unfold atTile bchainProg
  rw [Prog.bind_assoc]
  iapply (part14 (F := F) m d L hpre j _)
  iframe HSB HDB
  iintro ⟨HSB, HDB⟩
  dsimp only
  rw [Prog.bind_assoc]
  iapply (part15_last (F := F) m d L _ hpre O W kk hk15 j jq hjq C v4 arg18 v395
    v404 hw27 v405 hw28 v406 hw29 v407 hw30 v408 hw31 _ _ _ _ _ _ _ _ _ _ _ _ _ _ _ _ _ _ _ _
    h4 h404 h405 h406 h407 h408 (eS 5 80 rfl _) (eS 6 96 rfl _) (eS 7 112 rfl _) (eS 8 128 rfl _) (eS 9 144 rfl _) (eS 10 160 rfl _) (eS 11 176 rfl _) (eS 12 192 rfl _)
    (eD 0 0 rfl _) (eD 1 16 rfl _))
  iframe Hmw HO HT HDB Hf12
  iintro %v429 %hw52 %v450 %w454 %h429 %h450 %h454 HO HT HDB Hq Hs12 HC
  dsimp only
  iapply (bchain_tail (F := F) d L kont (rowBufSB m d L j) (rowBufDB m d L j) C v3 v4 h3 h4
    h404 h405 h406 h407 h408 (eS 5 80 rfl _) (eS 6 96 rfl _) (eS 7 112 rfl _) (eS 8 128 rfl _) (eS 9 144 rfl _) (eS 10 160 rfl _) (eS 11 176 rfl _) (eS 12 192 rfl _) (eD 0 0 rfl _) (eD 1 16 rfl _) (eD 2 32 rfl _) (eD 3 48 rfl _) (eD 4 64 rfl _) (eD 5 80 rfl _) (eD 6 96 rfl _) (eD 7 112 rfl _) (eD 8 128 rfl _) (eD 9 144 rfl _) (eD 10 160 rfl _) (eD 11 176 rfl _) h429 h450 h454)
  iframe HT HC
  iintro HT HC
  iapply Hk $$ %_ %_ %_ %_ %_ %_ %_ %_ %_ %_ %_ %_ %_ %_ %_ %_ %_ %_ %_ %_ %_ %_ %(eD 2 32 rfl _) %(eD 3 48 rfl _) %(eD 4 64 rfl _) %(eD 5 80 rfl _) %(eD 6 96 rfl _) %(eD 7 112 rfl _) %(eD 8 128 rfl _) %(eD 9 144 rfl _) %(eD 10 160 rfl _) %(eD 11 176 rfl _) %h429 HO HSB HDB Hq Hs12 HT HC

end Cert.Kernel.Sc

end
-- ==== Proof.Bits.Sc.TripTop.lean ====
import proofs.«212098_g24275155157491_cont_8to1_80_30_alg».proof.Proof.Bits.Sc.TripLib

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

omit [FloatOps F] in
theorem off5_row (k : Fin k0_t2_loop.trips) (p' : Fin 16) (hp' : p'.val = k.val + 1) : k0_off5 L k = rowOff (jr L (r0 p')) := by
  rw [k0_off5_eq]; unfold rowOff; congr 1; simp only [rowIx, r0, hp', Fin.coe_cast]; omega

omit [FloatOps F] in
theorem off6_row (k : Fin k0_t2_loop.trips) (q : Fin 16) (hq : q.val + 1 = k.val) : k0_off6 L k = rowOff (jr L (r0 q)) := by
  rw [k0_off6_eq' L k (by omega)]; unfold rowOff; congr 1; simp only [rowIx, r0, Fin.coe_cast]; omega

omit [FloatOps F] in
theorem off7_row (k : Fin k0_t2_loop.trips) (p : Fin 16) (hp : p.val = k.val) : k0_off7 L k = rowOff (jr L (r0 p)) := by
  rw [k0_off7_eq]; unfold rowOff; congr 1; simp only [rowIx, r0, hp, Fin.coe_cast]

omit [FloatOps F] in
theorem off9_row (k : Fin k0_t2_loop.trips) (p' : Fin 16) (hp' : p'.val = k.val + 1) : k0_off9 L k = rowOff (jr L (r1 p')) := by
  rw [k0_off9_eq]; unfold rowOff; congr 1; simp only [rowIx, r1, hp', Fin.coe_cast]; omega

omit [FloatOps F] in
theorem off10_row (k : Fin k0_t2_loop.trips) (q : Fin 16) (hq : q.val + 1 = k.val) : k0_off10 L k = rowOff (jr L (r1 q)) := by
  rw [k0_off10_eq' L k (by omega)]; unfold rowOff; congr 1; simp only [rowIx, r1, Fin.coe_cast]; omega

omit [FloatOps F] in
theorem off11_row (k : Fin k0_t2_loop.trips) (p : Fin 16) (hp : p.val = k.val) : k0_off11 L k = rowOff (jr L (r1 p)) := by
  rw [k0_off11_eq]; unfold rowOff; congr 1; simp only [rowIx, r1, hp, Fin.coe_cast]; omega

/-- Inserting a key with index `none` keeps every member in `W` or with index `none`. -/
theorem waits_ins (s : SemLoc sig) {W W' : Waits sig (HIx 1)} (h : ∀ x ∈ W', x ∈ W ∨ x.2 = none) :
    ∀ x ∈ insert (s, (default : HIx 1)) W', x ∈ W ∨ x.2 = none := by
  intro x hx
  rcases Finset.mem_insert.1 hx with rfl | hx
  · exact Or.inr rfl
  · exact h x hx

/-- A key with index `none` may be dropped from the set the members are bounded by. -/
theorem waits_drop (s : SemLoc sig) {W W' : Waits sig (HIx 1)} (h : ∀ x ∈ W', x ∈ insert (s, (default : HIx 1)) W ∨ x.2 = none) :
    ∀ x ∈ W', x ∈ W ∨ x.2 = none := by
  intro x hx
  rcases h x hx with h | h
  · rcases Finset.mem_insert.1 h with rfl | h
    · exact Or.inr rfl
    · exact Or.inl h
  · exact Or.inr h

end Cert.Kernel.Sc

end
-- ==== Proof.Bits.Sc.Tail.lean ====
import proofs.«212098_g24275155157491_cont_8to1_80_30_alg».proof.Proof.Bits.Sc.PartsD

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

abbrev tripProg (v2 : BitVec 32) (k : Fin k0_t2_loop.trips) : Prog (TpuEff nD τ sig (Elt F) Λ₀ (.scVector (cV L) (jV L))) Unit :=
  k0_t2_body L tV1 (Memref.isWhole_whole _) tV2 (Memref.isWhole_whole _) tV3 (Memref.isWhole_whole _)
    sTab (Memref.isWhole_whole _) sSA (Memref.isWhole_whole _) sDA (Memref.isWhole_whole _) sSB (Memref.isWhole_whole _) sDB (Memref.isWhole_whole _)
    sCA (Memref.isWhole_whole _) sCB (Memref.isWhole_whole _) cc0_scratch7 cc0_scratch8 cc0_scratch9 cc0_scratch10 cc0_scratch11 cc0_scratch12 v2 k ⟨⟩

abbrev tripTab : sProp 𝕄 := sTab.view.loc (thrV d L) ↦{fullShare} zeroTab d L
abbrev tripOwes (O : CellTallies nD τ sig (HIx 1)) (W : Waits sig (HIx 1)) : sProp 𝕄 :=
  iprop(∃ W', ⌜∀ x ∈ W', x ∈ W ∨ x.2 = none⌝ ∗ owes (thrV d L) O W')

/-- The long first part of a trip as a rule with any continuation: from `PRE` to row `j1`'s counts complete, with `FR` carried along. -/
def Part24 (v2 : BitVec 32) (k : Fin k0_t2_loop.trips) (j1 : Fin 1024) (PRE FR : sProp 𝕄) : Prop :=
  ∀ {α : Type} (kont : (Σ' (v419 : Vec F S16 .i32) (_ : k0_chk42 v419) (v420 : Vec F S16 .i32) (_ : k0_chk43 v420) (v421 : Vec F S16 .i32) (_ : k0_chk44 v421) (v422 : Vec F S16 .i32) (_ : k0_chk45 v422) (v423 : Vec F S16 .i32) (_ : k0_chk46 v423) (v424 : Vec F S16 .i32) (_ : k0_chk47 v424) (v425 : Vec F S16 .i32) (_ : k0_chk48 v425) (v426 : Vec F S16 .i32) (_ : k0_chk49 v426) (v427 : Vec F S16 .i32) (_ : k0_chk50 v427) (v428 : Vec F S16 .i32) (_ : k0_chk51 v428) (v429 : Vec F S16 .i32), k0_chk52 v429) → Prog (TpuEff nD τ sig (Elt F) Λ₀ (thrV d L).2) α) (Q' : α → sProp 𝕄),
      iprop(PRE ∗ (∀ (v419 : Vec F S16 .i32) (hw42 : k0_chk42 v419) (v420 : Vec F S16 .i32) (hw43 : k0_chk43 v420) (v421 : Vec F S16 .i32) (hw44 : k0_chk44 v421) (v422 : Vec F S16 .i32) (hw45 : k0_chk45 v422) (v423 : Vec F S16 .i32) (hw46 : k0_chk46 v423) (v424 : Vec F S16 .i32) (hw47 : k0_chk47 v424) (v425 : Vec F S16 .i32) (hw48 : k0_chk48 v425) (v426 : Vec F S16 .i32) (hw49 : k0_chk49 v426) (v427 : Vec F S16 .i32) (hw50 : k0_chk50 v427) (v428 : Vec F S16 .i32) (hw51 : k0_chk51 v428) (v429 : Vec F S16 .i32) (hw52 : k0_chk52 v429),
          ⌜∀ x, v419 x = rowVec (rowBufDB m d L j1) 2 x⌝ -∗ ⌜∀ x, v420 x = rowVec (rowBufDB m d L j1) 3 x⌝ -∗ ⌜∀ x, v421 x = rowVec (rowBufDB m d L j1) 4 x⌝ -∗ ⌜∀ x, v422 x = rowVec (rowBufDB m d L j1) 5 x⌝ -∗ ⌜∀ x, v423 x = rowVec (rowBufDB m d L j1) 6 x⌝ -∗ ⌜∀ x, v424 x = rowVec (rowBufDB m d L j1) 7 x⌝ -∗ ⌜∀ x, v425 x = rowVec (rowBufDB m d L j1) 8 x⌝ -∗ ⌜∀ x, v426 x = rowVec (rowBufDB m d L j1) 9 x⌝ -∗ ⌜∀ x, v427 x = rowVec (rowBufDB m d L j1) 10 x⌝ -∗ ⌜∀ x, v428 x = rowVec (rowBufDB m d L j1) 11 x⌝ -∗ ⌜∀ x, v429 x = rowVec (rowBufDB m d L j1) 12 x⌝
          -∗ ((sTab.view.loc (thrV d L) ↦{fullShare} (clearedTab (countTab (rowBufDB m d L j1)) (rowBufDB m d L j1) 32 : Buf (Elt F) (sTab.view.loc (thrV d L))))
              ∗ (sCB.view.loc (thrV d L) ↦{fullShare} (tgtRow (rowBufSB m d L j1) (rowBufDB m d L j1) : Buf (Elt F) (sCB.view.loc (thrV d L))))
              ∗ semVal (cellV d L cc0_scratch12) 0 ∗ (∃ f, v3Row d j1 f) ∗ FR)
          -∗ wp frame (wpE (defs₀ (F := F)) 𝒱₀ (thrV d L) none) Set.univ (kont ⟨v419, hw42, v420, hw43, v421, hw44, v422, hw45, v423, hw46, v424, hw47, v425, hw48, v426, hw49, v427, hw50, v428, hw51, v429, hw52⟩) Q'))
        ⊢ wp frame (wpE (defs₀ (F := F)) 𝒱₀ (thrV d L) none) Set.univ
            (k0_part24 L tV1 (Memref.isWhole_whole _) tV2 (Memref.isWhole_whole _) tV3 (Memref.isWhole_whole _)
            sTab (Memref.isWhole_whole _) sSA (Memref.isWhole_whole _) sDA (Memref.isWhole_whole _) sSB (Memref.isWhole_whole _) sDB (Memref.isWhole_whole _)
            sCA (Memref.isWhole_whole _) sCB (Memref.isWhole_whole _) cc0_scratch7 cc0_scratch8 cc0_scratch9 cc0_scratch10 cc0_scratch11 cc0_scratch12
              v2 k0_pay109 k0_pay110 0#32 1#32 k >>= kont) Q'

/-- After its long first part a trip clears the rest of row `j1`'s ids out of the table and starts the copy of the row's counts. -/
theorem trip_of_part24 (v2 : BitVec 32) (k : Fin k0_t2_loop.trips) (j1 : Fin 1024) (hj1 : k0_off11 L k = rowOff j1) (PRE FR : sProp 𝕄)
    (H24 : Part24 m d L v2 k j1 PRE FR) :
    PRE ⊢ wp frame (wpE (defs₀ (F := F)) 𝒱₀ (thrV d L) none) Set.univ (tripProg (F := F) L v2 k)
        fun _ => iprop((sTab.view.loc (thrV d L) ↦{fullShare} zeroTab d L)
          ∗ cntFlight m d L cc0_scratch12 sCB (tgtRow (rowBufSB m d L j1) (rowBufDB m d L j1)) j1 ∗ FR) := by
  unfold Part24 at H24
  unfold tripProg
  iintro HP
  unfold k0_t2_body
  iapply (H24 _ _)
  isplitl [HP]; · iexact HP
  iintro %v419 %hw42 %v420 %hw43 %v421 %hw44 %v422 %hw45 %v423 %hw46 %v424 %hw47 %v425 %hw48 %v426 %hw49 %v427 %hw50 %v428 %hw51 %v429 %hw52 %h419 %h420 %h421 %h422 %h423 %h424 %h425 %h426 %h427 %h428 %h429 ⟨HT, HC, Hs12, ⟨%f3, Hr3⟩, HFR⟩
  sl_respell []
  iapply (tab_sidx d L (clearedTab_step' (F := F) _ _ 2 32 48 rfl rfl v419 k0_pay109 _ h419 (fun _ => rfl) (fun _ => rfl) _)) $$ HT; iintro HT
  iapply (tab_sidx d L (clearedTab_step' (F := F) _ _ 3 48 64 rfl rfl v420 k0_pay109 _ h420 (fun _ => rfl) (fun _ => rfl) _)) $$ HT; iintro HT
  iapply (tab_sidx d L (clearedTab_step' (F := F) _ _ 4 64 80 rfl rfl v421 k0_pay109 _ h421 (fun _ => rfl) (fun _ => rfl) _)) $$ HT; iintro HT
  iapply (tab_sidx d L (clearedTab_step' (F := F) _ _ 5 80 96 rfl rfl v422 k0_pay109 _ h422 (fun _ => rfl) (fun _ => rfl) _)) $$ HT; iintro HT
  iapply (tab_sidx d L (clearedTab_step' (F := F) _ _ 6 96 112 rfl rfl v423 k0_pay109 _ h423 (fun _ => rfl) (fun _ => rfl) _)) $$ HT; iintro HT
  iapply (tab_sidx d L (clearedTab_step' (F := F) _ _ 7 112 128 rfl rfl v424 k0_pay109 _ h424 (fun _ => rfl) (fun _ => rfl) _)) $$ HT; iintro HT
  iapply (tab_sidx d L (clearedTab_step' (F := F) _ _ 8 128 144 rfl rfl v425 k0_pay109 _ h425 (fun _ => rfl) (fun _ => rfl) _)) $$ HT; iintro HT
  iapply (tab_sidx d L (clearedTab_step' (F := F) _ _ 9 144 160 rfl rfl v426 k0_pay109 _ h426 (fun _ => rfl) (fun _ => rfl) _)) $$ HT; iintro HT
  iapply (tab_sidx d L (clearedTab_step' (F := F) _ _ 10 160 176 rfl rfl v427 k0_pay109 _ h427 (fun _ => rfl) (fun _ => rfl) _)) $$ HT; iintro HT
  iapply (tab_sidx d L (clearedTab_step' (F := F) _ _ 11 176 192 rfl rfl v428 k0_pay109 _ h428 (fun _ => rfl) (fun _ => rfl) _)) $$ HT; iintro HT
  iapply (tab_sidx d L ((clearedTab_last (F := F) (rowBufDB m d L j1) v429 k0_pay109 _ h429 (fun _ => rfl) (fun _ => rfl) _).trans (rfl : _ = zeroTab (F := F) d L))) $$ HT; iintro HT
  ihave Hr3 := (Entails.of_eq (pts_rowM3 (F := F) d L (k0_off11 L k) (k0_off11_inb L k) j1 hj1 f3).symm) $$ Hr3
  sl_exec
  rw [landed_row (F := F) m d L j1 (k0_off11 L k) (k0_off11_inb L k) hj1 f3, pts_sCB_set, pts_sCB_rest]
  swap
  · intro p
    exact cnts_rowB m d L j1 p
  sl_step
  iframe HT
  isplitl [Hs12]; · iexact Hs12
  iexact HFR

end Cert.Kernel.Sc

end
-- ==== Proof.Bits.Sc.ChainA1.lean ====
import proofs.«212098_g24275155157491_cont_8to1_80_30_alg».proof.Proof.Bits.Sc.TripLib
import proofs.«212098_g24275155157491_cont_8to1_80_30_alg».proof.Proof.Bits.Sc.Part3
import proofs.«212098_g24275155157491_cont_8to1_80_30_alg».proof.Proof.Bits.Sc.PartsA
import proofs.«212098_g24275155157491_cont_8to1_80_30_alg».proof.Proof.Bits.Sc.ChainB
import proofs.«212098_g24275155157491_cont_8to1_80_30_alg».proof.Proof.Bits.Sc.TripTop
import proofs.«212098_g24275155157491_cont_8to1_80_30_alg».proof.Proof.Bits.Sc.Tail

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

set_option maxHeartbeats 4000000 in
/-- The long first part of trip `k` on pair `p`, in the loop's three cases: the first trip, a middle trip, the last trip. -/
theorem part24_cases (hpre : PreOK m) (O : CellTallies nD τ sig (HIx 1)) (W : Waits sig (HIx 1)) (v2 : BitVec 32)
    (k : Fin k0_t2_loop.trips) (p : Fin 16) (hp : p.val = k.val) :
    (∀ p' : Fin 16, k.val = 0 → p'.val = 1 → Part24 m d L v2 k (jr L (r1 p))
      iprop(□ Transfers.MayWaits (thrV d L) (none : HIx 1) O ∗ tripTab d L ∗ idFl m d L p ∗ inRows m d L p' ∗ cntHeld d L ∗ outFree d L p ∗ owes (thrV d L) O W)
      iprop(idFl m d L p' ∗ inRows m d L p ∗ (∃ C, cntFlight m d L cc0_scratch11 sCA C (jr L (r0 p))) ∗ tripOwes d L O W)) ∧
    (∀ p' q : Fin 16, 0 < k.val → k.val + 1 < 16 → p'.val = k.val + 1 → q.val + 1 = k.val → Part24 m d L v2 k (jr L (r1 p))
      iprop(□ Transfers.MayWaits (thrV d L) (none : HIx 1) O ∗ tripTab d L ∗ idFl m d L p ∗ inRows m d L p' ∗ cntFl m d L q ∗ outFree d L p ∗ owes (thrV d L) O W)
      iprop(idFl m d L p' ∗ inRows m d L p ∗ outDone m d L q ∗ (∃ C, cntFlight m d L cc0_scratch11 sCA C (jr L (r0 p))) ∗ tripOwes d L O W)) ∧
    (∀ q : Fin 16, k.val = 15 → q.val = 14 → Part24 m d L v2 k (jr L (r1 p))
      iprop(□ Transfers.MayWaits (thrV d L) (none : HIx 1) O ∗ tripTab d L ∗ idFl m d L p ∗ cntFl m d L q ∗ outFree d L p ∗ owes (thrV d L) O W)
      iprop(idHeld d L ∗ inRows m d L p ∗ outDone m d L q ∗ (∃ C, cntFlight m d L cc0_scratch11 sCA C (jr L (r0 p))) ∗ tripOwes d L O W)) := by
  have h4 : ∀ x, (k0_pay110 : IVec S16 32) x = 1#32 := fun _ => rfl
  have h3 : ∀ x, (k0_pay109 : IVec S16 32) x = 0#32 := fun _ => rfl
  have e7 := off7_row L k p hp
  refine ⟨fun p' hk0 hp' => ?_, fun p' q hk0 hk15 hp' hq => ?_, fun q hk15 hq => ?_⟩
  all_goals intro α kont Q'
  on_goal 1 =>
    unfold idFl cntHeld outFree inRows tripTab
    iintro ⟨⟨#Hmw, Htab, ⟨Hf7, Hf8, Hf9, Hf10⟩, ⟨Hn1a, Hn2a, Hn1b, Hn2b⟩, ⟨⟨%CA, HsCA⟩, ⟨%CB, HsCB⟩, Hs11, Hs12⟩, ⟨⟨%fo0, Ho0⟩, ⟨%fo1, Ho1⟩⟩, HO⟩, Hk⟩
  on_goal 2 =>
    unfold idFl cntFl outFree inRows tripTab
    iintro ⟨⟨#Hmw, Htab, ⟨Hf7, Hf8, Hf9, Hf10⟩, ⟨Hn1a, Hn2a, Hn1b, Hn2b⟩, ⟨⟨%CA, Hf11⟩, ⟨%CB, Hf12⟩⟩, ⟨⟨%fo0, Ho0⟩, ⟨%fo1, Ho1⟩⟩, HO⟩, Hk⟩
  on_goal 3 =>
    unfold idFl cntFl outFree tripTab
    iintro ⟨⟨#Hmw, Htab, ⟨Hf7, Hf8, Hf9, Hf10⟩, ⟨⟨%CA, Hf11⟩, ⟨%CB, Hf12⟩⟩, ⟨⟨%fo0, Ho0⟩, ⟨%fo1, Ho1⟩⟩, HO⟩, Hk⟩
  all_goals
    rw [k0_part24_eq_skeleton]; unfold k0_part24_skel
    rw [Prog.bind_assoc]
    iapply (part2 (F := F) m d L hpre O W v2 0#32 1#32 k (jr L (r0 p)) _)
    iframe Hmw Hf7 Hf8 HO
    iintro ⟨HsSA, Hr1a, Hs7, HsDA, Hr2a, Hs8, HO⟩
    have hA := readAt_rowVec_SA d L (rowBufSA m d L (jr L (r0 p)))
    have h46 := hA 0 0 rfl inb_S208_S16_0
    have h47 := hA 1 16 rfl inb_S208_S16_16
    have h48 := hA 2 32 rfl inb_S208_S16_32
    have h49 := hA 3 48 rfl inb_S208_S16_48
    have h50 := hA 4 64 rfl inb_S208_S16_64
    have h51 := hA 5 80 rfl inb_S208_S16_80
    have h52 := hA 6 96 rfl inb_S208_S16_96
    have h53 := hA 7 112 rfl inb_S208_S16_112
    have h54 := hA 8 128 rfl inb_S208_S16_128
    have h55 := hA 9 144 rfl inb_S208_S16_144
    have h56 := hA 10 160 rfl inb_S208_S16_160
    have h57 := hA 11 176 rfl inb_S208_S16_176
    have h58 := hA 12 192 rfl inb_S208_S16_192
    have h59 := readAt_rowVec_DA d L (rowBufDA m d L (jr L (r0 p))) 0 0 rfl inb_S208_S16_0
    first | sl_respell [] | skip
    rw [Prog.bind_assoc]
  on_goal 1 =>
    iapply (part3_first (F := F) m d L _ hpre O _ k hk0 (jr L (r0 p)) (jr L (r0 p')) (off5_row L k p' (by omega)) k0_pay110 _ _ _ _ _ _ _ _ _ _ _ _ _ _ _ _ _ _ _ _ _ _ h4 h46 h47 h48 h49 h50 h51 h52 h53 h54 h55)
    iframe HO Htab HsSA Hs7 HsDA Hs8 Hn1a Hn2a
    iintro %v60 %hw15 %v61 %hw16 %v62 %hw17 %v63 %hw18 %v64 %hw19 %v65 %hw20 %v66 %hw21 %v67 %hw22 %v68 %hw23 %v69 %hw24 %v70 %hw25 %v71 %hw26 %hf3 Htab Hg7 Hg8 HO
  on_goal 2 =>
    iapply (part3_mid (F := F) m d L _ hpre O _ k hk0 hk15 (jr L (r0 p)) (jr L (r0 p')) (jr L (r0 q)) (off5_row L k p' hp') (off6_row L k q hq) k0_pay110 _ _ _ _ _ _ _ _ _ _ _ _ _ _ _ _ _ _ _ _ _ _ h4 h46 h47 h48 h49 h50 h51 h52 h53 h54 h55 CA)
    iframe Hmw HO Htab HsSA Hs7 HsDA Hs8 Hn1a Hn2a Hf11
    iintro %v60 %hw15 %v61 %hw16 %v62 %hw17 %v63 %hw18 %v64 %hw19 %v65 %hw20 %v66 %hw21 %v67 %hw22 %v68 %hw23 %v69 %hw24 %v70 %hw25 %v71 %hw26 %hf3 Htab Hg7 Hg8 Hd0 HsCA Hs11 HO
  on_goal 3 =>
    iapply (part3_last (F := F) m d L _ hpre O _ k hk15 (jr L (r0 p)) (jr L (r0 q)) (off6_row L k q (by omega)) k0_pay110 _ _ _ _ _ _ _ _ _ _ _ _ _ _ _ _ _ _ _ _ _ _ h4 h46 h47 h48 h49 h50 h51 h52 h53 h54 h55 CA)
    iframe Hmw HO Htab HsDA Hf11
    iintro %v60 %hw15 %v61 %hw16 %v62 %hw17 %v63 %hw18 %v64 %hw19 %v65 %hw20 %v66 %hw21 %v67 %hw22 %v68 %hw23 %v69 %hw24 %v70 %hw25 %v71 %hw26 %hf3 Htab HsDA Hd0 HsCA Hs11 HO
  all_goals
    obtain ⟨h60, h61, h62, h63, h64, h65, h66, h67, h68, h69, h70, h71⟩ := hf3
    icases HO with ⟨%W3, %hW3, HO⟩
    ihave HsCA := (Entails.of_eq (pts_sCA_none (F := F) d L (tgtRow (rowBufSA m d L (jr L (r0 p))) (rowBufDA m d L (jr L (r0 p)))) CA)) $$ HsCA
    first | sl_respell [] | skip
    rw [Prog.bind_assoc]
    iapply (part4 (F := F) d L _ _ _ _ _ _ _ _ _ _ _ _ _ _ _ _ _ _ _ _ _ _ _ h4 h46 h47 h48 h56 h57 h58 h59 h60 h61)
    iframe Htab HsCA
    iintro %ret4 %hret4 Htab HsCA
    first | sl_respell [] | skip
    rw [Prog.bind_assoc]
    iapply (part5 (F := F) d L _ _ _ _ _ _ _ _ _ _ _ _ _ _ _ _ _ h49 h50 h51 h62 h63 h64 hret4)
    iframe Htab HsCA
    iintro %ret5 %hret5 Htab HsCA
    first | sl_respell [] | skip
    rw [Prog.bind_assoc]
    iapply (part6 (F := F) d L _ _ _ _ _ _ _ _ _ _ _ _ _ _ _ _ _ h52 h53 h54 h65 h66 h67 hret5)
    iframe Htab HsCA
    iintro %ret6 %hret6 Htab HsCA
    first | sl_respell [] | skip
    rw [Prog.bind_assoc]
    iapply (part7 (F := F) d L _ _ _ _ _ _ _ _ _ _ _ _ _ _ _ _ _ h55 h56 h57 h68 h69 h70 hret6)
    iframe Htab HsCA
    iintro %ret7 %hret7 Htab HsCA
    first | sl_respell [] | skip
    rw [Prog.bind_assoc]
    iapply (part8 (F := F) d L _ _ _ _ _ _ _ _ _ _ _ _ _ _ _ _ _ _ _ _ _ _ _ _ _ _ _ _ _ _ _ _ _ _ _ _ _ _ _ _ _ _ _ _ _ _ _ _ _ _ _ _ _ _ _ _ _ _ _ h3 h4 h46 h47 h48 h49 h50 h51 h52 h53 h54 h55 h56 h57 h58 h59 h60 h61 h62 h63 h64 h65 h66 h67 h68 h69 h70 h71 hret7)
    iframe Htab HsCA
    iintro %ret8 %hret8 Htab HsCA
    first | sl_respell [] | skip
    rw [Prog.bind_assoc]
    iapply (part9 (F := F) d L _ _ _ _ _ _ _ _ _ _ _ _ _ _ _ _ _ _ h46 h47 h48 h49 h60 h61 h62 hret8)
    iframe Htab HsCA
    iintro %ret9 %hret9 Htab HsCA
    first | sl_respell [] | skip
    rw [Prog.bind_assoc]
    iapply (part10 (F := F) d L _ _ _ _ _ _ _ _ _ _ _ _ _ _ _ _ _ _ h49 h50 h51 h52 h63 h64 h65 hret9)
    iframe Htab HsCA
    iintro %ret10 %hret10 Htab HsCA
    first | sl_respell [] | skip
    rw [Prog.bind_assoc]
    iapply (part11 (F := F) d L _ _ _ _ _ _ _ _ _ _ _ _ _ _ _ _ _ _ h52 h53 h54 h55 h66 h67 h68 hret10)
    iframe Htab HsCA
    iintro %ret11 %hret11 Htab HsCA
    first | sl_respell [] | skip
    rw [Prog.bind_assoc]
    iapply (part12 (F := F) d L _ _ _ _ _ _ _ _ _ _ _ _ _ _ _ _ _ _ h55 h56 h57 h58 h69 h70 h71 hret11)
    iframe Htab HsCA
    iintro %ret12 %hret12 Htab HsCA
    first | sl_respell [] | skip
    ihave Ho0 := (Entails.of_eq (pts_rowM3 (F := F) d L (k0_off7 L k) (k0_off7_inb L k) (jr L (r0 p)) e7 fo0).symm) $$ Ho0
    rw [Prog.bind_assoc]
    iapply (part13 (F := F) m d L hpre O W3 _ k (jr L (r0 p)) (jr L (r1 p)) e7 (rowBufSA m d L (jr L (r0 p))) (rowBufDA m d L (jr L (r0 p))) CA fo0 rfl rfl k0_pay109 _ _ _ _ v60 hw15 v61 hw16 v62 hw17 v63 hw18 v64 hw19 v65 hw20 v66 hw21 v67 hw22 v68 hw23 v69 hw24 v70 hw25 v71 hw26 ret12 h3 h58 h59 h60 h61 h62 h63 h64 h65 h66 h67 h68 h69 h70 h71 hret12)
    iframe Hmw Htab HsCA Hs11 Ho0 Hf9 Hf10 HO
    iintro %v395 %v404 %hw27 %v405 %hw28 %v406 %hw29 %v407 %hw30 %v408 %hw31 %h395 %h404 %h405 %h406 %h407 %h408 Htab Hg11 HsSB Hr1b Hs9 HsDB Hr2b Hs10 HO
    first | sl_respell [] | skip
  · iapply (bchain_first (F := F) m d L kont hpre k hk0 (jr L (r1 p)) (jr L (r1 p')) (off9_row L k p' (by omega)) CB k0_pay109 k0_pay110 h3 h4 _ v395 v404 hw27 v405 hw28 v406 hw29 v407 hw30 v408 hw31 h404 h405 h406 h407 h408)
    iframe Htab HsSB HsDB Hs9 Hs10 Hn1b Hn2b HsCB
    iintro %v419 %hw42 %v420 %hw43 %v421 %hw44 %v422 %hw45 %v423 %hw46 %v424 %hw47 %v425 %hw48 %v426 %hw49 %v427 %hw50 %v428 %hw51 %v429 %hw52 %h419 %h420 %h421 %h422 %h423 %h424 %h425 %h426 %h427 %h428 %h429 Hg9 Hg10 Htab HsCB
    iapply Hk $$ %v419 %hw42 %v420 %hw43 %v421 %hw44 %v422 %hw45 %v423 %hw46 %v424 %hw47 %v425 %hw48 %v426 %hw49 %v427 %hw50 %v428 %hw51 %v429 %hw52 %h419 %h420 %h421 %h422 %h423 %h424 %h425 %h426 %h427 %h428 %h429 [Htab HsCB Hs12 Ho1 Hg7 Hg8 Hg9 Hg10 Hr1a Hr2a Hr1b Hr2b Hg11 HO]
    iframe Htab HsCB Hs12
    isplitl [Ho1]; · iexists fo1; iexact Ho1
    iframe Hg7 Hg8 Hg9 Hg10 Hr1a Hr2a Hr1b Hr2b
    isplitl [Hg11]; · iexists _; iexact Hg11
    iexists (insert (SemLoc.dma cc0_scratch10.sem, (default : HIx 1)) (insert (SemLoc.dma cc0_scratch9.sem, (default : HIx 1)) W3))
    isplitl []
    · ipureintro; exact waits_ins _ (waits_ins _ (waits_drop _ (waits_drop _ hW3)))
    iexact HO
  · iapply (bchain_mid (F := F) m d L _ hpre O (insert (SemLoc.dma cc0_scratch10.sem, (default : HIx 1)) (insert (SemLoc.dma cc0_scratch9.sem, (default : HIx 1)) W3)) k hk0 hk15 (jr L (r1 p)) (jr L (r1 p')) (jr L (r1 q)) (off9_row L k p' hp') (off10_row L k q hq) CB k0_pay109 k0_pay110 h3 h4 _ v395 v404 hw27 v405 hw28 v406 hw29 v407 hw30 v408 hw31 h404 h405 h406 h407 h408)
    iframe Hmw HO Htab HsSB HsDB Hs9 Hs10 Hn1b Hn2b Hf12
    iintro %v419 %hw42 %v420 %hw43 %v421 %hw44 %v422 %hw45 %v423 %hw46 %v424 %hw47 %v425 %hw48 %v426 %hw49 %v427 %hw50 %v428 %hw51 %v429 %hw52 %h419 %h420 %h421 %h422 %h423 %h424 %h425 %h426 %h427 %h428 %h429 HO Hg9 Hg10 Hd1 Hs12 Htab HsCB
    iapply Hk $$ %v419 %hw42 %v420 %hw43 %v421 %hw44 %v422 %hw45 %v423 %hw46 %v424 %hw47 %v425 %hw48 %v426 %hw49 %v427 %hw50 %v428 %hw51 %v429 %hw52 %h419 %h420 %h421 %h422 %h423 %h424 %h425 %h426 %h427 %h428 %h429 [Htab HsCB Hs12 Ho1 Hg7 Hg8 Hg9 Hg10 Hr1a Hr2a Hr1b Hr2b Hd0 Hd1 Hg11 HO]
    iframe Htab HsCB Hs12
    isplitl [Ho1]; · iexists fo1; iexact Ho1
    iframe Hg7 Hg8 Hg9 Hg10 Hr1a Hr2a Hr1b Hr2b
    unfold outDone
    iframe Hd0 Hd1
    isplitl [Hg11]; · iexists _; iexact Hg11
    iexists (insert (SemLoc.dma cc0_scratch12.sem, (default : HIx 1)) (insert (SemLoc.dma cc0_scratch10.sem, (default : HIx 1)) (insert (SemLoc.dma cc0_scratch9.sem, (default : HIx 1)) W3)))
    isplitl []
    · ipureintro; exact waits_ins _ (waits_ins _ (waits_ins _ (waits_drop _ (waits_drop _ hW3))))
    iexact HO
  · iapply (bchain_last (F := F) m d L kont hpre O _ k hk15 (jr L (r1 p)) (jr L (r1 q)) (off10_row L k q (by omega)) CB k0_pay109 k0_pay110 h3 h4 _ v395 v404 hw27 v405 hw28 v406 hw29 v407 hw30 v408 hw31 h404 h405 h406 h407 h408)
    iframe Hmw HO Htab HsSB HsDB Hf12
    iintro %v419 %hw42 %v420 %hw43 %v421 %hw44 %v422 %hw45 %v423 %hw46 %v424 %hw47 %v425 %hw48 %v426 %hw49 %v427 %hw50 %v428 %hw51 %v429 %hw52 %h419 %h420 %h421 %h422 %h423 %h424 %h425 %h426 %h427 %h428 %h429 HO HsSB HsDB Hd1 Hs12 Htab HsCB
    iapply Hk $$ %v419 %hw42 %v420 %hw43 %v421 %hw44 %v422 %hw45 %v423 %hw46 %v424 %hw47 %v425 %hw48 %v426 %hw49 %v427 %hw50 %v428 %hw51 %v429 %hw52 %h419 %h420 %h421 %h422 %h423 %h424 %h425 %h426 %h427 %h428 %h429 [Htab HsCB Hs12 Ho1 HsSA HsDA HsSB HsDB Hs7 Hs8 Hs9 Hs10 Hr1a Hr2a Hr1b Hr2b Hd0 Hd1 Hg11 HO]
    iframe Htab HsCB Hs12
    isplitl [Ho1]; · iexists fo1; iexact Ho1
    unfold idHeld outDone inRows
    isplitl [HsSA HsDA HsSB HsDB Hs7 Hs8 Hs9 Hs10]
    · isplitl [HsSA]; · iexists _; iexact HsSA
      isplitl [HsDA]; · iexists _; iexact HsDA
      isplitl [HsSB]; · iexists _; iexact HsSB
      isplitl [HsDB]; · iexists _; iexact HsDB
      iframe Hs7 Hs8 Hs9 Hs10
    iframe Hr1a Hr2a Hr1b Hr2b Hd0 Hd1
    isplitl [Hg11]; · iexists _; iexact Hg11
    iexists (insert (SemLoc.dma cc0_scratch12.sem, (default : HIx 1)) (insert (SemLoc.dma cc0_scratch10.sem, (default : HIx 1)) (insert (SemLoc.dma cc0_scratch9.sem, (default : HIx 1)) W3)))
    isplitl []
    · ipureintro; exact waits_ins _ (waits_ins _ (waits_ins _ (waits_drop _ (waits_drop _ hW3))))
    iexact HO

end Cert.Kernel.Sc

end
-- ==== Proof.Bits.Sc.ChainA15.lean ====
import proofs.«212098_g24275155157491_cont_8to1_80_30_alg».proof.Proof.Bits.Sc.ChainA1
-- ==== Proof.Bits.Sc.Trip.lean ====
import proofs.«212098_g24275155157491_cont_8to1_80_30_alg».proof.Proof.Bits.Sc.ChainA15

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ScMath Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

theorem trip_mid (hpre : PreOK m) (O : CellTallies nD τ sig (HIx 1)) (W : Waits sig (HIx 1)) (v2 : BitVec 32)
    (k : Fin k0_t2_loop.trips) (hk0 : 0 < k.val) (hk15 : k.val + 1 < 16) (p p' q : Fin 16) (hp : p.val = k.val) (hp' : p'.val = k.val + 1) (hq : q.val + 1 = k.val) :
    iprop(□ Transfers.MayWaits (thrV d L) (none : HIx 1) O ∗ tripTab d L ∗ idFl m d L p ∗ inRows m d L p' ∗ cntFl m d L q ∗ outFree d L p ∗ owes (thrV d L) O W)
      ⊢ wp frame (wpE (defs₀ (F := F)) 𝒱₀ (thrV d L) none) Set.univ (tripProg (F := F) L v2 k)
          fun _ => iprop(tripTab d L ∗ idFl m d L p' ∗ inRows m d L p ∗ outDone m d L q ∗ cntFl m d L p ∗ tripOwes d L O W) := by
  refine (trip_of_part24 (F := F) m d L v2 k (jr L (r1 p)) (off11_row L k p hp) _ _ ((part24_cases m d L hpre O W v2 k p hp).2.1 p' q hk0 hk15 hp' hq)).trans (wp_mono frame _ _ fun _ => ?_)
  unfold cntFl tripTab
  iintro ⟨Htab, Hg12, Hid, Hrows, Hdone, Hg11, HO⟩
  iframe Htab Hid Hrows Hdone Hg11
  isplitl [Hg12]; · iexists _; iexact Hg12
  iexact HO

theorem trip_first (hpre : PreOK m) (O : CellTallies nD τ sig (HIx 1)) (W : Waits sig (HIx 1)) (v2 : BitVec 32)
    (k : Fin k0_t2_loop.trips) (hk0 : k.val = 0) (p p' : Fin 16) (hp : p.val = 0) (hp' : p'.val = 1) :
    iprop(□ Transfers.MayWaits (thrV d L) (none : HIx 1) O ∗ tripTab d L ∗ idFl m d L p ∗ inRows m d L p' ∗ cntHeld d L ∗ outFree d L p ∗ owes (thrV d L) O W)
      ⊢ wp frame (wpE (defs₀ (F := F)) 𝒱₀ (thrV d L) none) Set.univ (tripProg (F := F) L v2 k)
          fun _ => iprop(tripTab d L ∗ idFl m d L p' ∗ inRows m d L p ∗ cntFl m d L p ∗ tripOwes d L O W) := by
  have hpk : p.val = k.val := by omega
  refine (trip_of_part24 (F := F) m d L v2 k (jr L (r1 p)) (off11_row L k p hpk) _ _ ((part24_cases m d L hpre O W v2 k p hpk).1 p' hk0 hp')).trans (wp_mono frame _ _ fun _ => ?_)
  unfold cntFl tripTab
  iintro ⟨Htab, Hg12, Hid, Hrows, Hg11, HO⟩
  iframe Htab Hid Hrows Hg11
  isplitl [Hg12]; · iexists _; iexact Hg12
  iexact HO

theorem trip_last (hpre : PreOK m) (O : CellTallies nD τ sig (HIx 1)) (W : Waits sig (HIx 1)) (v2 : BitVec 32)
    (k : Fin k0_t2_loop.trips) (hk15 : k.val = 15) (p q : Fin 16) (hp : p.val = 15) (hq : q.val = 14) :
    iprop(□ Transfers.MayWaits (thrV d L) (none : HIx 1) O ∗ tripTab d L ∗ idFl m d L p ∗ cntFl m d L q ∗ outFree d L p ∗ owes (thrV d L) O W)
      ⊢ wp frame (wpE (defs₀ (F := F)) 𝒱₀ (thrV d L) none) Set.univ (tripProg (F := F) L v2 k)
          fun _ => iprop(tripTab d L ∗ idHeld d L ∗ inRows m d L p ∗ outDone m d L q ∗ cntFl m d L p ∗ tripOwes d L O W) := by
  have hpk : p.val = k.val := by omega
  refine (trip_of_part24 (F := F) m d L v2 k (jr L (r1 p)) (off11_row L k p hpk) _ _ ((part24_cases m d L hpre O W v2 k p hpk).2.2 q hk15 hq)).trans (wp_mono frame _ _ fun _ => ?_)
  unfold cntFl tripTab
  iintro ⟨Htab, Hg12, Hid, Hrows, Hdone, Hg11, HO⟩
  iframe Htab Hid Hrows Hdone Hg11
  isplitl [Hg12]; · iexists _; iexact Hg12
  iexact HO

end Cert.Kernel.Sc

end
-- ==== Proof.Bits.Sc.Zero.lean ====
import proofs.«212098_g24275155157491_cont_8to1_80_30_alg».proof.Proof.Bits.Sc.AtTile

noncomputable section

namespace Cert.Kernel.Sc

open Cert.Kernel Cert.Kernel.Gen Idealize.ShloMosaic Idealize.SL Idealize.SL.RA Idealize.SL.BI
open Idealize.ShloMosaic.SparseCore.Cfg (HIx)
open scoped Idealize.SL.BI
open Idealize.SL.BI.BIBase Idealize.SL.BI.Laws Idealize.SL.Sem
open Idealize.ShloMosaic.Tactic

variable {F : FTy → Type} [FloatOps F]

local notation "𝕄" => MT nD τ sig (HIx 1) (Elt F) ℕ UU ℕ

def zPiece (kk : Fin k0_t1_loop.trips) (u : Fin 8) : View.Piece (Elt F) S100096 .i32 :=
  ⟨Rect.unit (s := S100096) (k0_off1 kk (BitVec.ofNat 32 u.val)) S16.size (k0_off1_inb kk u), k0_pay109⟩

def zeroPieces (kk : Fin k0_t1_loop.trips) : List (View.Piece (Elt F) S100096 .i32) :=
  [zPiece kk 7, zPiece kk 6, zPiece kk 5, zPiece kk 4, zPiece kk 3, zPiece kk 2, zPiece kk 1, zPiece kk 0]

-- The list is the eight pieces, the last first.
theorem mem_zeroPieces (kk : Fin k0_t1_loop.trips) (p : View.Piece (Elt F) S100096 .i32) :
    p ∈ zeroPieces kk ↔ ∃ u : Fin 8, zPiece kk u = p := by
  rw [show zeroPieces (F := F) kk = List.ofFn fun u : Fin 8 => zPiece kk u.rev from rfl, List.mem_ofFn]
  exact ⟨fun ⟨u, h⟩ => ⟨_, h⟩, fun ⟨u, h⟩ => ⟨u.rev, by rw [Fin.rev_rev]; exact h⟩⟩

-- Piece `u` of trip `kk` is the sixteen words from word `128 kk + 16 u`.
theorem mem_zPiece (kk : Fin k0_t1_loop.trips) (u : Fin 8) (j : S100096.Idx) :
    j ∈ (zPiece (F := F) kk u).1.set ↔ 128 * kk.val + 16 * u.val ≤ (j 0).val ∧ (j 0).val < 128 * kk.val + 16 * u.val + 16 := by
  show j ∈ (Rect.unit (s := S100096) (k0_off1 kk (BitVec.ofNat 32 u.val)) S16.size (k0_off1_inb kk u)).set ↔ _
  rw [Rect.mem_set_unit, k0_off1_eq kk u, Fin.forall_fin_one]
  rfl

-- The eight pieces of trip `kk` are zero and cover words `128 kk` to `128 kk + 127`; below them the table is as before.
theorem zero_trip (kk : Fin k0_t1_loop.trips) (g : S100096.Idx → BitVec 32)
    (hg : ∀ j : S100096.Idx, (j 0).val < 128 * kk.val → g j = 0#32) (j : S100096.Idx) (hj : (j 0).val < 128 * (kk.val + 1)) :
    (sTab.view.writes (Elt F) g (zeroPieces kk) : S100096.Idx → BitVec 32) j = 0#32 := by
  show sTab.view.read (Elt F) (sTab.view.writes (Elt F) g (zeroPieces kk)) j = 0#32
  by_cases hlt : (j 0).val < 128 * kk.val
  · rw [View.read_writes_apply_of_forall_not_mem]
    · exact hg j hlt
    · intro p hp hm
      obtain ⟨u, rfl⟩ := (mem_zeroPieces kk p).1 hp
      have := (mem_zPiece kk u j).1 hm
      omega
  · refine View.read_writes_apply_of_pieces (Val := Elt F) sTab.view g (fun _ : S100096.Idx => (0#32 : BitVec 32)) (zeroPieces kk) ?_ j ?_
    · intro p hp x
      obtain ⟨u, rfl⟩ := (mem_zeroPieces kk p).1 hp
      rfl
    · have hu : ((j 0).val - 128 * kk.val) / 16 < 8 := by omega
      exact ⟨zPiece kk ⟨_, hu⟩, (mem_zeroPieces kk _).2 ⟨_, rfl⟩, (mem_zPiece kk _ j).2 ⟨by show 128 * kk.val + 16 * (((j 0).val - 128 * kk.val) / 16) ≤ _; omega, by show _ < 128 * kk.val + 16 * (((j 0).val - 128 * kk.val) / 16) + 16; omega⟩⟩

def zeroInv (d : Dev nD) (L : grid0.Coords) (k : Nat) (_ : Unit) : sProp 𝕄 :=
  iprop(∃ g : Buf (Elt F) ((thrV d L).loc cc0_scratch0), (sTab.view.loc (thrV d L) ↦{fullShare} g) ∗ ⌜∀ j : S100096.Idx, (j 0).val < 128 * k → g j = 0#32⌝)

-- Before trip `k` the first `128 k` words are zero; `782 · 128` is the table's length.
theorem zero_loop (d : Dev nD) (L : grid0.Coords) {α : Type} (k : Unit → Prog (TpuEff nD τ sig (Elt F) Λ₀ (.scVector (cV L) (jV L))) α) (Q : α → sProp 𝕄) (f : Buf (Elt F) ((thrV d L).loc cc0_scratch0)) :
  iprop(((sTab).view.loc (thrV d L) ↦{fullShare} f) ∗ (((sTab).view.loc (thrV d L) ↦{fullShare} zeroTab d L) -∗ wp frame (wpE (defs₀ (F := F)) 𝒱₀ (thrV d L) none) Set.univ (k ⟨⟩) Q))
    ⊢ wp frame (wpE (defs₀ (F := F)) 𝒱₀ (thrV d L) none) Set.univ
        (Scf.Loop.for k0_t1_loop k0_t1_ok ⟨⟩ (atTile L k0_t1_body) >>= k) Q := by
  unfold atTile
  iintro ⟨HT, Hk⟩
  sl_for (zeroInv (F := F) d L) $$ [HT]
  case region =>
    intro kk acc
    unfold zeroInv
    iintro ⟨%g, HT, %hg⟩
    sl_exec
    sl_step
    iexists _
    iframe HT
    ipureintro
    exact zero_trip kk g hg
  · unfold zeroInv
    iexists f
    iframe HT
    ipureintro
    exact fun j hj => absurd hj (by omega)
  iintro %acc HI
  unfold zeroInv
  icases HI with ⟨%g, HT, %hg⟩
  obtain rfl : g = zeroTab d L := funext fun (j : S100096.Idx) => hg j (by
    rw [show Scf.trips k0_t1_loop.lb k0_t1_loop.ub k0_t1_loop.st = 782 by decide]
    have hj : (j 0).val < 100096 := (j 0).isLt
    omega)
  sl_respell []
  iapply Hk
  iexact HT

end Cert.Kernel.Sc

end
-- ==== Proof.Bits.Sc.Body.lean ====
import proofs.«212098_g24275155157491_cont_8to1_80_30_alg».proof.Proof.Bits.Sc.Trip
import proofs.«212098_g24275155157491_cont_8to1_80_30_alg».proof.Proof.Bits.Sc.Zero

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]
variable (d : Dev nD) (L : grid0.Coords)

theorem read_rowM1_SA (off : Fin 2 → ℕ) (h : ∀ a, off a + S1x208.size a ≤ S1024x208.size a) (j : Fin 1024) (hj : off = rowOff j) :
    (rowM1 off h).view.read (Elt F) (pad0 m d) = rowBufSA m d L j := by subst hj; rfl
theorem read_rowM2_DA (off : Fin 2 → ℕ) (h : ∀ a, off a + S1x208.size a ≤ S1024x208.size a) (j : Fin 1024) (hj : off = rowOff j) :
    (rowM2 off h).view.read (Elt F) (pad1 m d) = rowBufDA m d L j := by subst hj; rfl
theorem read_rowM1_SB (off : Fin 2 → ℕ) (h : ∀ a, off a + S1x208.size a ≤ S1024x208.size a) (j : Fin 1024) (hj : off = rowOff j) :
    (rowM1 off h).view.read (Elt F) (pad0 m d) = rowBufSB m d L j := by subst hj; rfl
theorem read_rowM2_DB (off : Fin 2 → ℕ) (h : ∀ a, off a + S1x208.size a ≤ S1024x208.size a) (j : Fin 1024) (hj : off = rowOff j) :
    (rowM2 off h).view.read (Elt F) (pad1 m d) = rowBufDB m d L j := by subst hj; rfl

section Take
open Idealize.SL.BI (bigSep_congr bigSep_univ_split bigSep_erase)

theorem k0_t2_trips : Scf.trips k0_t2_loop.lb k0_t2_loop.ub k0_t2_loop.st = 16 := by decide

theorem in_take (k : ℕ) (pk : Fin 16) (hpk : pk.val = k) (pn : Fin 16) (hpn : pn.val = k + 1) :
    (bigSep Finset.univ fun q => inSt m d L k q)
      ⊢ iprop(inRows m d L pn ∗ (inRows m d L pk -∗ bigSep Finset.univ fun q => inSt m d L (k + 1) q)) := by
  have hne : pk ≠ pn := fun e => by rw [e] at hpk; omega
  have hrest := bigSep_rest2 (fun q => inSt m d L k q) (fun q => inSt m d L (k + 1) q) pk pn (fun x hx hy => by
    have h1 : x.val ≠ k := fun e => hx (Fin.ext (e.trans hpk.symm))
    have h2 : x.val ≠ k + 1 := fun e => hy (Fin.ext (e.trans hpn.symm))
    show inSt m d L (k + 1) x = inSt m d L k x
    unfold inSt; rw [if_neg h1, if_neg h2])
  rw [bigSep_univ_split2 (fun q => inSt m d L k q) pk pn hne, bigSep_univ_split2 (fun q => inSt m d L (k + 1) q) pk pn hne, hrest]
  have e1 : inSt m d L k pk = iprop(emp) := by unfold inSt; rw [if_pos hpk]
  have e2 : inSt m d L k pn = inRows m d L pn := by unfold inSt; rw [if_neg (by omega)]
  have e3 : inSt m d L (k + 1) pk = inRows m d L pk := by unfold inSt; rw [if_neg (by omega)]
  have e4 : inSt m d L (k + 1) pn = iprop(emp) := by unfold inSt; rw [if_pos hpn]
  simp only [e1, e2, e3, e4]
  iintro ⟨He, Hn, HR⟩
  iframe Hn
  iintro Hk
  iframe Hk He HR

theorem out_take (k : ℕ) (hk : 0 < k) (pk pq : Fin 16) (hpk : pk.val = k) (hpq : pq.val + 1 = k) :
    (bigSep Finset.univ fun q => outSt m d L k q)
      ⊢ iprop(outFree d L pk ∗ (outDone m d L pq -∗ bigSep Finset.univ fun q => outSt m d L (k + 1) q)) := by
  have hne : pq ≠ pk := fun e => by rw [e] at hpq; omega
  have hrest := bigSep_rest2 (fun q => outSt m d L k q) (fun q => outSt m d L (k + 1) q) pq pk (fun x hx hy => by
    have h1 : x.val + 1 ≠ k := fun e => hx (Fin.ext (by omega))
    have h2 : x.val ≠ k := fun e => hy (Fin.ext (e.trans hpk.symm))
    show outSt m d L (k + 1) x = outSt m d L k x
    unfold outSt
    by_cases h3 : x.val + 1 < k
    · rw [if_pos h3, if_pos (by omega)]
    · rw [if_neg h3, if_neg h1, if_neg (by omega), if_neg (by omega)])
  rw [bigSep_univ_split2 (fun q => outSt m d L k q) pq pk hne, bigSep_univ_split2 (fun q => outSt m d L (k + 1) q) pq pk hne, hrest]
  have e1 : outSt m d L k pq = iprop(emp) := by unfold outSt; rw [if_neg (by omega), if_pos hpq]
  have e2 : outSt m d L k pk = outFree d L pk := by unfold outSt; rw [if_neg (by omega), if_neg (by omega)]
  have e3 : outSt m d L (k + 1) pq = outDone m d L pq := by unfold outSt; rw [if_pos (by omega)]
  have e4 : outSt m d L (k + 1) pk = iprop(emp) := by unfold outSt; rw [if_neg (by omega), if_pos (by omega)]
  simp only [e1, e2, e3, e4]
  iintro ⟨He, Hf, HR⟩
  iframe Hf
  iintro Hd
  iframe Hd He HR

theorem in_put_last (k : ℕ) (hk : k = 15) (pk : Fin 16) (hpk : pk.val = k) :
    iprop((bigSep Finset.univ fun q => inSt m d L k q) ∗ inRows m d L pk) ⊢ bigSep Finset.univ fun q => inSt m d L (k + 1) q := by
  subst hk
  exact in_step_last m d L pk hpk

end Take

def invB (O : CellTallies nD τ sig (HIx 1)) (W : Waits sig (HIx 1)) (k : ℕ) (u : PUnit) : sProp 𝕄 :=
  iprop(□ Transfers.MayWaits (thrV d L) (none : HIx 1) O ∗ invT m d L O W k u)

set_option maxHeartbeats 4000000 in

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileIn m d (cL L) (sL L)
        ∗ scopedBufs (thrV d L) ∗ scopedSems0 (thrV d L) ∗ owes (thrV d L) O W)
      ⊢ wp frame (wpE (defs₀ (F := F)) 𝒱₀ (thrV d L) none) Set.univ (kern (F := F) L)
          fun _ => iprop(tileOut m d (cL L) (sL L) ∗ scopedBufs (thrV d L) ∗ scopedSems0 (thrV d L)
            ∗ ∃ W', ⌜∀ p ∈ W', p ∈ W ∨ p.2 = none⌝ ∗ owes (thrV d L) O W') := by
  unfold kern
  simp only [cc0__sc_kernel_eq_skeleton]; unfold cc0__sc_kernel_skel
  simp only [k0_part25_eq_skeleton]; unfold k0_part25_skel
  rw [(K (F := F)).scopedBufs_V hF d (cV L) (jV L), SparseCore.Cfg.scopedSems0_V (Val := Elt F) d (cV L) (jV L), ownSems0_V, ownBufs_V]
  iintro ⟨#Hlv, -, Hin, ⟨⟨%f0, Hb0⟩, ⟨%f1, Hb1⟩, ⟨%f2, Hb2⟩, ⟨%f3, Hb3⟩, ⟨%f4, Hb4⟩, ⟨%f5, Hb5⟩, ⟨%f6, Hb6⟩, Hbufs⟩, ⟨Hs7, Hs8, Hs9, Hs10, Hs11, Hs12, Hsems⟩, HO⟩
  ihave Hmw := ((K (F := F)).mayWaits_none (thr := thrV d L) hO) $$ Hlv
  ihave Hin := (inv_start m d L) $$ Hin
  icases Hin with ⟨⟨Hr1a, Hr2a, Hr1b, Hr2b⟩, HinS, HoutS⟩
  ihave Hb0 := (Entails.of_eq (pts_sTab (F := F) d L f0)) $$ Hb0
  ihave Hb1 := (Entails.of_eq (pts_sSA (F := F) d L f1)) $$ Hb1
  ihave Hb2 := (Entails.of_eq (pts_sDA (F := F) d L f2)) $$ Hb2
  ihave Hb3 := (Entails.of_eq (pts_sSB (F := F) d L f3)) $$ Hb3
  ihave Hb4 := (Entails.of_eq (pts_sDB (F := F) d L f4)) $$ Hb4
  ihave Hb5 := (Entails.of_eq (pts_sCA (F := F) d L f5)) $$ Hb5
  ihave Hb6 := (Entails.of_eq (pts_sCB (F := F) d L f6)) $$ Hb6
  sl_exec
  rw [Prog.bind_assoc]
  iapply (zero_loop (F := F) d L _ _ f0)
  isplitl [Hb0]
  · iexact Hb0
  iintro Htab
  ihave Hr1a := (Entails.of_eq (pts_rowM1 (F := F) d L (k0_off2 L) (k0_off2_inb L) (jr L (r0 0)) (by rw [k0_off2_eq]; rfl) (pad0 m d)).symm) $$ Hr1a
  ihave Hr2a := (Entails.of_eq (pts_rowM2 (F := F) d L (k0_off2 L) (k0_off2_inb L) (jr L (r0 0)) (by rw [k0_off2_eq]; rfl) (pad1 m d)).symm) $$ Hr2a
  ihave Hr1b := (Entails.of_eq (pts_rowM1 (F := F) d L (k0_off3 L) (k0_off3_inb L) (jr L (r1 0)) (by rw [k0_off3_eq]; rfl) (pad0 m d)).symm) $$ Hr1b
  ihave Hr2b := (Entails.of_eq (pts_rowM2 (F := F) d L (k0_off3 L) (k0_off3_inb L) (jr L (r1 0)) (by rw [k0_off3_eq]; rfl) (pad1 m d)).symm) $$ Hr2b
  sl_exec
  have e7 : View.write (Elt F) sSA.view f1 (tile_body.sl.dma0 m d L) Finset.univ = rowBufSA m d L (jr L (r0 0)) := by
    unfold tile_body.sl.dma0
    exact (View.write_whole_univ (cc0_scratch1 : Ref sig .scVector) f1 _).trans (read_rowM1_SA m d L (k0_off2 L) (k0_off2_inb L) (jr L (r0 0)) (by rw [k0_off2_eq]; rfl))
  have e8 : View.write (Elt F) sDA.view f2 (tile_body.sl.dma0_1 m d L) Finset.univ = rowBufDA m d L (jr L (r0 0)) := by
    unfold tile_body.sl.dma0_1
    exact (View.write_whole_univ (cc0_scratch2 : Ref sig .scVector) f2 _).trans (read_rowM2_DA m d L (k0_off2 L) (k0_off2_inb L) (jr L (r0 0)) (by rw [k0_off2_eq]; rfl))
  have e9 : View.write (Elt F) sSB.view f3 (tile_body.sl.dma0_2 m d L) Finset.univ = rowBufSB m d L (jr L (r1 0)) := by
    unfold tile_body.sl.dma0_2
    exact (View.write_whole_univ (cc0_scratch3 : Ref sig .scVector) f3 _).trans (read_rowM1_SB m d L (k0_off3 L) (k0_off3_inb L) (jr L (r1 0)) (by rw [k0_off3_eq]; rfl))
  have e10 : View.write (Elt F) sDB.view f4 (tile_body.sl.dma0_3 m d L) Finset.univ = rowBufDB m d L (jr L (r1 0)) := by
    unfold tile_body.sl.dma0_3
    exact (View.write_whole_univ (cc0_scratch4 : Ref sig .scVector) f4 _).trans (read_rowM2_DB m d L (k0_off3 L) (k0_off3_inb L) (jr L (r1 0)) (by rw [k0_off3_eq]; rfl))
  rw [e7, e8, e9, e10]
  rw [pts_rowM1 (F := F) d L (k0_off2 L) (k0_off2_inb L) (jr L (r0 0)) (by rw [k0_off2_eq]; rfl) (pad0 m d),
    pts_rowM2 (F := F) d L (k0_off2 L) (k0_off2_inb L) (jr L (r0 0)) (by rw [k0_off2_eq]; rfl) (pad1 m d),
    pts_rowM1 (F := F) d L (k0_off3 L) (k0_off3_inb L) (jr L (r1 0)) (by rw [k0_off3_eq]; rfl) (pad0 m d),
    pts_rowM2 (F := F) d L (k0_off3 L) (k0_off3_inb L) (jr L (r1 0)) (by rw [k0_off3_eq]; rfl) (pad1 m d)]
  rw [Prog.bind_assoc]
  sl_for (invB m d L O W) $$ [Hmw Htab HinS HoutS Hs7 Hs8 Hs9 Hs10 Hs11 Hs12 Hb5 Hb6 HO]
  case region =>
    intro kk acc
    have hk : kk.val < 16 := lt_of_lt_of_eq kk.isLt k0_t2_trips
    unfold invB invT
    rcases Nat.eq_zero_or_pos kk.val with h0 | h0
    ·
      have ei : idSt m d L kk.val = idFl m d L 0 := by
        unfold idSt; rw [dif_pos hk]; exact congrArg (idFl m d L) (Fin.ext h0)
      have ec : cntSt m d L kk.val = cntHeld d L := by unfold cntSt; rw [dif_neg (by omega)]
      have ei' : idSt m d L (kk.val + 1) = idFl m d L 1 := by
        unfold idSt; rw [dif_pos (by omega)]; exact congrArg (idFl m d L) (Fin.ext (by show kk.val + 1 = 1; omega))
      have ec' : cntSt m d L (kk.val + 1) = cntFl m d L 0 := by
        unfold cntSt; rw [dif_pos ⟨by omega, by omega⟩]; exact congrArg (cntFl m d L) (Fin.ext (by show kk.val + 1 - 1 = 0; omega))
      rw [ei, ec, ei', ec', h0]
      iintro ⟨#Hmw, Htab, HinS, HoutS, Hid, Hcnt, %W', %hW', HO⟩
      ihave HinS := (in_take m d L 0 0 rfl 1 rfl) $$ HinS
      icases HinS with ⟨Hnext, HinK⟩
      ihave HoutS := (out_step_first m d L 0 rfl) $$ HoutS
      icases HoutS with ⟨Hfree, HoutS⟩
      sl_respell []
      iapply (wp_wand_r frame _ _)
      isplitl [Htab Hid Hnext Hcnt Hfree HO]
      · iapply (trip_first m d L hpre O W' (tile_body.sl.v2 L) kk h0 0 1 rfl rfl)
        iframe Hmw Htab Hid Hnext Hcnt Hfree HO
      · iintro %v ⟨Htab, Hid, Hrows, Hcnt, %W'', %hW'', HO⟩
        iframe Hmw Htab
        isplitl [HinK Hrows]; · iapply HinK; iexact Hrows
        iframe HoutS Hid Hcnt
        iexists W''; isplitr
        · ipureintro; exact fun x hx => (hW'' x hx).elim (hW' x) Or.inr
        iexact HO
    · rcases Nat.lt_or_ge (kk.val + 1) 16 with h15 | h15
      ·
        have ei : idSt m d L kk.val = idFl m d L ⟨kk.val, hk⟩ := by unfold idSt; rw [dif_pos hk]
        have ec : cntSt m d L kk.val = cntFl m d L ⟨kk.val - 1, by omega⟩ := by unfold cntSt; rw [dif_pos ⟨h0, by omega⟩]
        have ei' : idSt m d L (kk.val + 1) = idFl m d L ⟨kk.val + 1, h15⟩ := by unfold idSt; rw [dif_pos h15]
        have ec' : cntSt m d L (kk.val + 1) = cntFl m d L ⟨kk.val, hk⟩ := by
          unfold cntSt; rw [dif_pos ⟨by omega, by omega⟩]; exact congrArg (cntFl m d L) (Fin.ext (by show kk.val + 1 - 1 = kk.val; omega))
        rw [ei, ec, ei', ec']
        iintro ⟨#Hmw, Htab, HinS, HoutS, Hid, Hcnt, %W', %hW', HO⟩
        ihave HinS := (in_take m d L kk.val ⟨kk.val, hk⟩ rfl ⟨kk.val + 1, h15⟩ rfl) $$ HinS
        icases HinS with ⟨Hnext, HinK⟩
        ihave HoutS := (out_take m d L kk.val h0 ⟨kk.val, hk⟩ ⟨kk.val - 1, by omega⟩ rfl (by show kk.val - 1 + 1 = kk.val; omega)) $$ HoutS
        icases HoutS with ⟨Hfree, HoutK⟩
        sl_respell []
        iapply (wp_wand_r frame _ _)
        isplitl [Htab Hid Hnext Hcnt Hfree HO]
        · iapply (trip_mid m d L hpre O W' (tile_body.sl.v2 L) kk h0 h15 ⟨kk.val, hk⟩ ⟨kk.val + 1, h15⟩ ⟨kk.val - 1, by omega⟩ rfl rfl
            (by show kk.val - 1 + 1 = kk.val; omega))
          iframe Hmw Htab Hid Hnext Hcnt Hfree HO
        · iintro %v ⟨Htab, Hid, Hrows, Hdone, Hcnt, %W'', %hW'', HO⟩
          iframe Hmw Htab
          isplitl [HinK Hrows]; · iapply HinK; iexact Hrows
          isplitl [HoutK Hdone]; · iapply HoutK; iexact Hdone
          iframe Hid Hcnt
          iexists W''; isplitr
          · ipureintro; exact fun x hx => (hW'' x hx).elim (hW' x) Or.inr
          iexact HO
      ·
        have h15' : kk.val = 15 := by omega
        have ei : idSt m d L kk.val = idFl m d L ⟨kk.val, hk⟩ := by unfold idSt; rw [dif_pos hk]
        have ec : cntSt m d L kk.val = cntFl m d L ⟨kk.val - 1, by omega⟩ := by unfold cntSt; rw [dif_pos ⟨h0, by omega⟩]
        have ei' : idSt m d L (kk.val + 1) = idHeld d L := by unfold idSt; rw [dif_neg (by omega)]
        have ec' : cntSt m d L (kk.val + 1) = cntFl m d L ⟨kk.val, hk⟩ := by
          unfold cntSt; rw [dif_pos ⟨by omega, by omega⟩]; exact congrArg (cntFl m d L) (Fin.ext (by show kk.val + 1 - 1 = kk.val; omega))
        rw [ei, ec, ei', ec']
        iintro ⟨#Hmw, Htab, HinS, HoutS, Hid, Hcnt, %W', %hW', HO⟩
        ihave HoutS := (out_take m d L kk.val h0 ⟨kk.val, hk⟩ ⟨kk.val - 1, by omega⟩ rfl (by show kk.val - 1 + 1 = kk.val; omega)) $$ HoutS
        icases HoutS with ⟨Hfree, HoutK⟩
        sl_respell []
        iapply (wp_wand_r frame _ _)
        isplitl [Htab Hid Hcnt Hfree HO]
        · iapply (trip_last m d L hpre O W' (tile_body.sl.v2 L) kk h15' ⟨kk.val, hk⟩ ⟨kk.val - 1, by omega⟩ h15' (by show kk.val - 1 = 14; omega))
          iframe Hmw Htab Hid Hcnt Hfree HO
        · iintro %v ⟨Htab, Hid, Hrows, Hdone, Hcnt, %W'', %hW'', HO⟩
          iframe Hmw Htab
          isplitl [HinS Hrows]
          · iapply (in_put_last m d L kk.val h15' ⟨kk.val, hk⟩ rfl)
            iframe HinS Hrows
          isplitl [HoutK Hdone]; · iapply HoutK; iexact Hdone
          iframe Hid Hcnt
          iexists W''; isplitr
          · ipureintro; exact fun x hx => (hW'' x hx).elim (hW' x) Or.inr
          iexact HO
  · unfold invB invT idSt cntSt
    rw [dif_pos (show (0 : ℕ) < 16 by omega), dif_neg (show ¬ ((0 : ℕ) < 0 ∧ 0 ≤ 16) by omega)]
    unfold idFl cntHeld
    iframe Hmw Htab HinS HoutS
    isplitl [Hs7 Hs8 Hs9 Hs10]
    · isplitl [Hs7]; · iexact Hs7
      isplitl [Hs8]; · iexact Hs8
      isplitl [Hs9]; · iexact Hs9
      iexact Hs10
    isplitl [Hs11 Hs12 Hb5 Hb6]
    · isplitl [Hb5]; · iexists f5; iexact Hb5
      isplitl [Hb6]; · iexists f6; iexact Hb6
      iframe Hs11 Hs12
    iexists W; isplitr
    · ipureintro; exact fun p hp => Or.inl hp
    iexact HO
  iintro %acc HI
  rw [k0_t2_trips]
  unfold invB invT idSt cntSt
  rw [dif_neg (show ¬ (16 : ℕ) < 16 by omega), dif_pos (show (0 : ℕ) < 16 ∧ 16 ≤ 16 by omega)]
  unfold idHeld cntFl
  icases HI with ⟨-, Htab, HinS, HoutS, ⟨⟨%g1, Hb1⟩, ⟨%g2, Hb2⟩, ⟨%g3, Hb3⟩, ⟨%g4, Hb4⟩, Hs7, Hs8, Hs9, Hs10⟩, ⟨⟨%C1, Hf11⟩, ⟨%C2, Hf12⟩⟩, %W', %hW', HO⟩
  sl_respell []
  sl_exec
  sl_step
  isplitl [HinS HoutS Hf11_dst Hf12_dst]
  · iapply (inv_end m d L ⟨16 - 1, by omega⟩ rfl)
    isplitl [HinS]; · iexact HinS
    isplitl [HoutS]; · iexact HoutS
    isplitl [Hf11_dst]; · iexact Hf11_dst
    iexact Hf12_dst
  isplitl [Htab Hb1 Hb2 Hb3 Hb4 Hf11_src Hf12_src Hbufs]
  · isplitl [Htab]; · iexists _; iexact Htab
    isplitl [Hb1]; · iexists _; iexact Hb1
    isplitl [Hb2]; · iexists _; iexact Hb2
    isplitl [Hb3]; · iexists _; iexact Hb3
    isplitl [Hb4]; · iexists _; iexact Hb4
    isplitl [Hf11_src]; · iexists _; iexact Hf11_src
    isplitl [Hf12_src]; · iexists _; iexact Hf12_src
    iexact Hbufs
  isplitl [Hs7 Hs8 Hs9 Hs10 Hf11 Hf12 Hsems]
  · isplitl [Hs7]; · iexact Hs7
    isplitl [Hs8]; · iexact Hs8
    isplitl [Hs9]; · iexact Hs9
    isplitl [Hs10]; · iexact Hs10
    isplitl [Hf11]; · iexact Hf11
    isplitl [Hf12]; · iexact Hf12
    iexact Hsems
  iexists _; isplitr
  rotate_left
  · iexact HO
  · ipureintro
    intro p hp
    rcases Finset.mem_insert.1 hp with rfl | hp
    · exact Or.inr rfl
    rcases Finset.mem_insert.1 hp with rfl | hp
    · exact Or.inr rfl
    exact hW' p hp

end Cert.Kernel.Sc

end
-- ==== Proof.Bits.Sc.Obl.lean ====
import proofs.«212098_g24275155157491_cont_8to1_80_30_alg».proof.Proof.Bits.Sc.Split
import proofs.«212098_g24275155157491_cont_8to1_80_30_alg».proof.Proof.Bits.Sc.Body

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => kern (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxHeartbeats 4000000 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Kernel.Sc

end
-- ==== Proof.Bits.HostValue.lean ====
import proofs.«212098_g24275155157491_cont_8to1_80_30_alg».proof.Proof.Gen.Kernel
import proofs.«212098_g24275155157491_cont_8to1_80_30_alg».proof.Proof.Spec
import Idealize.ShloMosaic.Lib.Pipeline.Value
import Idealize.ShloMosaic.Lib.ValueIdx

namespace Cert.Kernel.HostValue

open Idealize.ShloMosaic Idealize.ShloMosaic.ValueIdx Cert.Kernel Cert.Kernel.Gen

-- Below column 200 the concatenation reads the list, from column 200 on the block of the word 100000.
theorem concat_padded (hb : S_.BroadcastsInDim S1024x8 (![] : Fin 0 → Fin S1024x8.rank))
    (hc : Shape.Concatenates [S1024x200, S1024x8] S1024x208 1) (x : IVec S1024x200 32) :
    concatenate S1024x208 1
        [⟨S1024x200, x⟩, ⟨S1024x8, broadcastInDim S1024x8 ![] hb (constantI S_ 32 100000#32)⟩] hc
      = Cert.Spec.padded x := by
  funext j
  unfold Cert.Spec.padded
  by_cases h : (j 1).val < 200
  · rw [dif_pos h]
    exact concatenate_pair_apply_left 1 _ _ hc j rfl (ix2 (j 0) ⟨(j 1).val, h⟩) (Fin.forall_fin_two.2 ⟨rfl, rfl⟩)
  · rw [dif_neg h]
    exact concatenate_pair_apply_right 1 _ _ hc j rfl rfl
      (ix2 (j 0) ⟨(j 1).val - 200, by have := idx2_lt1 j; omega⟩) (Fin.forall_fin_two.2 ⟨fun _ => rfl, fun hb' => absurd rfl hb'⟩)
      (show (j 1).val - 200 + 200 = (j 1).val by omega)

end Cert.Kernel.HostValue
-- ==== Proof.Bits.Tc.Body.lean ====
import proofs.«212098_g24275155157491_cont_8to1_80_30_alg».proof.Proof.Gen.Kernel.Skeleton
import proofs.«212098_g24275155157491_cont_8to1_80_30_alg».proof.Proof.Gen.Kernel.Points
import Idealize.ShloMosaic.Lib.Tactic
import Idealize.ShloMosaic.Lib.Ring
import Idealize.ShloMosaic.Lib.ValueIdx
import Idealize.ShloMosaic.Lib.Pipeline.Value

noncomputable section

namespace Cert.Kernel.Tc

open Idealize.ShloMosaic Idealize.ShloMosaic.TcCoe Idealize.ShloMosaic.ValueIdx
open Idealize.SL Idealize.SL.RA
open Idealize.SL.BI (sProp bigSep)
open scoped Idealize.SL.BI
open Idealize.SL.BI.BIBase Idealize.SL.BI.Laws Idealize.SL.Sem Idealize.SL.ProofMode
open Idealize.ShloMosaic.Tactic
open Cert.Kernel Cert.Kernel.Gen

variable {F : FTy → Type} [FloatOps F]

theorem slices_row (q : Fin 4) (l : Fin 200) : S4x208x512.Slices ![q.val, l.val, 0] S1x1x512 :=
  ⟨rfl, fun a => match a with
    | ⟨0, _⟩ => by show q.val + 1 ≤ 4; omega
    | ⟨1, _⟩ => by show l.val + 1 ≤ 208; omega
    | ⟨2, _⟩ => by show 0 + 512 ≤ 512; omega⟩

def hid (x2 : FVec F S4x208x512 .f32) (w1 : Vec F S16x1 .f32) (b1s : FVec F S16x1 .f32) (q : Fin 4) (l : Fin 200) : FVec F S16x512 .f32 :=
  maximumf
    (addf
      (mulf (broadcastTo S16x512 w1 broadcasts_S16x1_S16x512)
        (broadcastTo S16x512
          (shapeCast S1x512 (extractStridedSlice S1x1x512 ![q.val, l.val, 0] x2 (slices_row q l)) shapeCasts_S1x1x512_S1x512)
          broadcasts_S1x512_S16x512))
      (broadcastTo S16x512 b1s broadcasts_S16x1_S16x512))
    (broadcast S16x512 (Scalar.ofBits .f32 0x00000000#32))

section
variable (x : Vec F S4x208x512 .i32) (w1 b1 : Vec F S16x1 .f32) (w2 : Vec F S16x16 .f32) (b2 : Vec F S16x1 .f32) (qa qb : Fin 4)

def piece (l : Fin 200) : FVec F S1x16x512 .f32 :=
  shapeCast S1x16x512
    (addf
      (matmul dot_S16x16_S16x512_S16x512_1_0_0_1_n_n none w2
        (addf (hid (k1_pay2 x) w1 (k1_pay3 b1) qa l) (hid (k1_pay2 x) w1 (k1_pay3 b1) qb l))
        (constant S16x512 .f32 0x00000000#32))
      (broadcastTo S16x512 (k1_pay4 b2) broadcasts_S16x1_S16x512))
    shapeCasts_S16x512_S1x16x512

def outBlk : FVec F S200x16x512 .f32 :=
  fun j => piece x w1 b1 w2 b2 qa qb (j 0) (ix3 0 (j 1) (j 2))

theorem pay5_eq :
    k1_pay5 x w1 b1 w2 b2 = piece x w1 b1 w2 b2 0 1 0 := rfl

theorem piece_congr {l l' : Fin 200} (h : l = l') {y y' : S1x16x512.Idx} (hy : y = y') :
    piece x w1 b1 w2 b2 qa qb l y = piece x w1 b1 w2 b2 qa qb l' y' := by subst h; subst hy; rfl

theorem outBlk_emb (l : ℕ) (hl : l < 200) (inb : ∀ a, (![l, 0, 0] : Fin 3 → ℕ) a + S1x16x512.size a ≤ S200x16x512.size a)
    (w : S1x16x512.Idx → F .f32) (hw : w = piece x w1 b1 w2 b2 qa qb ⟨l, hl⟩) (y : S1x16x512.Idx) :
    w y = outBlk x w1 b1 w2 b2 qa qb ((Rect.unit (s := S200x16x512) ![l, 0, 0] S1x16x512.size inb).emb y) := by
  subst hw
  have h0 : (y 0).val = 0 := by have h : (y 0).val < 1 := (y 0).isLt; omega
  refine piece_congr x w1 b1 w2 b2 qa qb (Fin.ext ?_) (funext fun a => ?_)
  · show l = l + 1 * (y 0).val
    omega
  · match a with
    | ⟨0, _⟩ => exact Fin.ext (by show (y 0).val = 0; exact h0)
    | ⟨1, _⟩ => exact Fin.ext (by show (y 1).val = 0 + 1 * (y 1).val; omega)
    | ⟨2, _⟩ => exact Fin.ext (by show (y 2).val = 0 + 1 * (y 2).val; omega)

theorem inb_row (l : ℕ) (hl : l < 200) : ∀ a, (![l, 0, 0] : Fin 3 → ℕ) a + S1x16x512.size a ≤ S200x16x512.size a :=
  fun a => match a with
    | ⟨0, _⟩ => by show l + 1 ≤ 200; omega
    | ⟨1, _⟩ => by show 0 + 16 ≤ 16; omega
    | ⟨2, _⟩ => by show 0 + 512 ≤ 512; omega

def slabs :
    ℕ → List (View.Piece (Elt F) S200x16x512 .f32)
  | 0 => []
  | n + 1 =>
    if h : n < 200 then ⟨Rect.unit ![n, 0, 0] S1x16x512.size (inb_row n h), piece x w1 b1 w2 b2 qa qb ⟨n, h⟩⟩ :: slabs n
    else slabs n

theorem slabs_ok :
    ∀ n, ∀ p ∈ slabs x w1 b1 w2 b2 qa qb n, ∀ y : p.1.shape.Idx, p.2 y = outBlk x w1 b1 w2 b2 qa qb (p.1.emb y)
  | 0 => fun p hp => absurd hp List.not_mem_nil
  | n + 1 => fun p hp => by
    unfold slabs at hp
    split at hp
    · rename_i h
      rcases List.mem_cons.mp hp with rfl | hp'
      · exact fun y => outBlk_emb x w1 b1 w2 b2 qa qb n h (inb_row n h) _ rfl y
      · exact slabs_ok n p hp'
    · exact slabs_ok n p hp

end

theorem read_writes_slabs {κ : Kind} {sp : Space} (v : View sig κ sp S200x16x512 .f32) (g : v.ty.Contents (Elt F))
    (L : List (View.Piece (Elt F) S200x16x512 .f32))
    (x : Vec F S4x208x512 .i32) (w1 b1 : Vec F S16x1 .f32) (w2 : Vec F S16x16 .f32) (b2 : Vec F S16x1 .f32) (qa qb : Fin 4)
    (hL : L = slabs x w1 b1 w2 b2 qa qb 200) :
    v.read (Elt F) (v.writes (Elt F) g L) = outBlk x w1 b1 w2 b2 qa qb := by
  subst hL
  have hc : ∀ y : S200x16x512.Idx, ∃ p ∈ slabs x w1 b1 w2 b2 qa qb 200, y ∈ p.1.set :=
    View.cover_of_tiledL (slabs x w1 b1 w2 b2 qa qb 200) S1x16x512.size (by sl_kernel_rfl)
  rw [View.read_writes_eq_canon v g _ hc]
  funext y
  exact View.canon_apply_of_pieces (outBlk x w1 b1 w2 b2 qa qb) _ (slabs_ok x w1 b1 w2 b2 qa qb 200) y (hc y)

variable {Ix : Type} [DecidableEq Ix] {Name : Type} [DecidableEq Name] {U : Type} [URA U] {Lvl : Type} [Preorder Lvl]

local notation "𝕄" => MT nD τ sig Ix (Elt F) Name U Lvl

theorem body_run (c : Dev nD) (i : grid1.Coords) (arg1 : Memref sig .tc .vmem S4x208x512 .i32) (harg1 : arg1.IsWhole) (arg2 : Memref sig .tc .vmem S16x1 .f32) (harg2 : arg2.IsWhole) (arg3 : Memref sig .tc .vmem S16x1 .f32) (harg3 : arg3.IsWhole) (arg4 : Memref sig .tc .vmem S16x16 .f32) (harg4 : arg4.IsWhole) (arg5 : Memref sig .tc .vmem S16x1 .f32) (harg5 : arg5.IsWhole) (arg6 : Memref sig .tc .vmem S200x16x512 .f32) (harg6 : arg6.IsWhole) (arg7 : Memref sig .tc .vmem S200x16x512 .f32) (harg7 : arg7.IsWhole)
    (x : Vec F S4x208x512 .i32) (w1 b1 : Vec F S16x1 .f32) (w2 : Vec F S16x16 .f32) (b2 : Vec F S16x1 .f32)
    (y6 y7 : Vec F S200x16x512 .f32) :
    (iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2
        ∗ owns (c : Thread nD τ) arg6 fullShare y6 ∗ owns (c : Thread nD τ) arg7 fullShare y7) : sProp 𝕄)
      ⊢ wp frame (wpE (defs₀ (F := F)) Variants.none (c : Thread nD τ) none) Set.univ (cc1__mlp_tc_kernel (F := F) i arg1 harg1 arg2 harg2 arg3 harg3 arg4 harg4 arg5 harg5 arg6 harg6 arg7 harg7)
          (fun _ => iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (outBlk x w1 b1 w2 b2 0 1) ∗ owns (c : Thread nD τ) arg7 fullShare (outBlk x w1 b1 w2 b2 2 3))) := by
  unfold owns
  iintro ⟨⟨%g1, %h1, H1⟩, ⟨%g2, %h2, H2⟩, ⟨%g3, %h3, H3⟩, ⟨%g4, %h4, H4⟩, ⟨%g5, %h5, H5⟩, ⟨%g6, %h6, H6⟩, ⟨%g7, %h7, H7⟩⟩
  have e1 : (View.readAt (Elt F) arg1.view (Rect.unit ![0, 0, 0] S4x208x512.size inb_S4x208x512_S4x208x512_0_0_0).toLoadRect g1) = x :=
    (View.readAt_eq_ld _ _ _).trans ((View.ld_unit_zero (funext fun a => match a with | ⟨0, _⟩ => rfl | ⟨1, _⟩ => rfl | ⟨2, _⟩ => rfl) _ _).trans h1)
  have z : (![0, 0] : Fin 2 → ℕ) = fun _ => 0 := funext fun a => match a with | ⟨0, _⟩ => rfl | ⟨1, _⟩ => rfl
  have e2 : (View.readAt (Elt F) arg2.view (Rect.unit ![0, 0] S16x1.size inb_S16x1_S16x1_0_0).toLoadRect g2) = w1 :=
    (View.readAt_eq_ld _ _ _).trans ((View.ld_unit_zero z _ _).trans h2)
  have e3 : (View.readAt (Elt F) arg3.view (Rect.unit ![0, 0] S16x1.size inb_S16x1_S16x1_0_0).toLoadRect g3) = b1 :=
    (View.readAt_eq_ld _ _ _).trans ((View.ld_unit_zero z _ _).trans h3)
  have e4 : (View.readAt (Elt F) arg4.view (Rect.unit ![0, 0] S16x16.size inb_S16x16_S16x16_0_0).toLoadRect g4) = w2 :=
    (View.readAt_eq_ld _ _ _).trans ((View.ld_unit_zero z _ _).trans h4)
  have e5 : (View.readAt (Elt F) arg5.view (Rect.unit ![0, 0] S16x1.size inb_S16x1_S16x1_0_0).toLoadRect g5) = b2 :=
    (View.readAt_eq_ld _ _ _).trans ((View.ld_unit_zero z _ _).trans h5)
  rw [cc1__mlp_tc_kernel_eq_skeleton]
  unfold cc1__mlp_tc_kernel_skel
  sl_exec_parts
  sl_step
  isplitl [H1]
  · iexists g1; isplitr
    · ipureintro; exact h1
    · iexact H1
  isplitl [H2]
  · iexists g2; isplitr
    · ipureintro; exact h2
    · iexact H2
  isplitl [H3]
  · iexists g3; isplitr
    · ipureintro; exact h3
    · iexact H3
  isplitl [H4]
  · iexists g4; isplitr
    · ipureintro; exact h4
    · iexact H4
  isplitl [H5]
  · iexists g5; isplitr
    · ipureintro; exact h5
    · iexact H5
  isplitl [H6]
  · iexists _; isplitr
    rotate_left
    · iexact H6
    · ipureintro
      refine read_writes_slabs _ _ _ x w1 b1 w2 b2 0 1 ?_
      sl_kernel_rfl
  · iexists _; isplitr
    rotate_left
    · iexact H7
    · ipureintro
      refine read_writes_slabs _ _ _ x w1 b1 w2 b2 2 3 ?_
      sl_kernel_rfl

end Cert.Kernel.Tc

end
-- ==== Proof.Bits.Tc.Out.lean ====
import proofs.«212098_g24275155157491_cont_8to1_80_30_alg».proof.Proof.Bits.Tc.Body

noncomputable section

namespace Cert.Kernel.Tc

open Idealize.ShloMosaic Idealize.ShloMosaic.ValueIdx
open Cert.Kernel Cert.Kernel.Gen

variable {F : FTy → Type} [FloatOps F]

def blk (x5 : Vec F S4x208x1024 .i32) (t : Fin 2) : Vec F S4x208x512 .i32 :=
  fun y => x5 (ix3 (y 0) (y 1) ⟨512 * t.val + (y 2).val, by have h : (y 2).val < 512 := (y 2).isLt; omega⟩)

def tcOut (qa qb : Fin 4) (x5 : Vec F S4x208x1024 .i32) (w1 b1 : Vec F S16x1 .f32) (w2 : Vec F S16x16 .f32) (b2 : Vec F S16x1 .f32) :
    FVec F S200x16x1024 .f32 :=
  fun j => piece (blk x5 ⟨(j 2).val / 512, by have h : (j 2).val < 1024 := (j 2).isLt; omega⟩) w1 b1 w2 b2 qa qb (j 0)
    (ix3 0 (j 1) ⟨(j 2).val % 512, Nat.mod_lt _ (by decide)⟩)

theorem tcOut_apply (qa qb : Fin 4) (x5 : Vec F S4x208x1024 .i32) (w1 b1 : Vec F S16x1 .f32) (w2 : Vec F S16x16 .f32) (b2 : Vec F S16x1 .f32)
    (t : Fin 2) (l : Fin 200) (p : Fin 16) (i : Fin 512) :
    tcOut qa qb x5 w1 b1 w2 b2 (ix3 l p ⟨512 * t.val + i.val, by omega⟩)
      = piece (blk x5 t) w1 b1 w2 b2 qa qb l (ix3 0 p i) := by
  have e1 : (⟨(512 * t.val + i.val) / 512, by omega⟩ : Fin 2) = t := Fin.ext (show _ / 512 = _ by omega)
  have e2 : (⟨(512 * t.val + i.val) % 512, Nat.mod_lt _ (by decide)⟩ : Fin 512) = i := Fin.ext (show _ % 512 = _ by omega)
  show piece (blk x5 ⟨(512 * t.val + i.val) / 512, _⟩) w1 b1 w2 b2 qa qb l (ix3 0 p ⟨(512 * t.val + i.val) % 512, _⟩) = _
  rw [e1, e2]

end Cert.Kernel.Tc

end
-- ==== Proof.Bits.Tc.Region.lean ====
import proofs.«212098_g24275155157491_cont_8to1_80_30_alg».proof.Proof.Bits.Tc.Out
import proofs.«212098_g24275155157491_cont_8to1_80_30_alg».proof.Proof.Bits.Sc.Common
import proofs.«212098_g24275155157491_cont_8to1_80_30_alg».proof.Proof.Gen.Kernel.Launch
import Idealize.ShloMosaic.Lib.Pipeline.Regions
import Idealize.ShloMosaic.Lib.Pipeline.Value

noncomputable section

namespace Cert.Kernel.Tc

open Idealize.ShloMosaic Idealize.ShloMosaic.TcCoe Idealize.ShloMosaic.ValueIdx
open Idealize.ShloMosaic.SparseCore.Cfg (HIx)
open Idealize.SL Idealize.SL.RA
open Idealize.SL.BI (sProp bigSep)
open scoped Idealize.SL.BI
open Idealize.SL.BI.BIBase Idealize.SL.BI.Laws Idealize.SL.Sem Idealize.SL.ProofMode
open Idealize.ShloMosaic.Rounds
open Cert.Kernel Cert.Kernel.Gen Cert.Kernel.Sc

variable {F : FTy → Type} [FloatOps F]

local notation "𝕄" => MT nD τ sig (HIx 1) (Elt F) ℕ UU ℕ

def tt (t : Fin cfg1.N) : Fin 2 := ⟨t.val, Gen.N_1 ▸ (t.isLt : t.val < grid1.N)⟩

theorem idx0 (t : Fin cfg1.N) : win1_0.index t = ![0, 0, t.val] := by
  rcases Gen.fin_N1 t with rfl | rfl <;> rfl
theorem idx5 (t : Fin cfg1.N) : win1_5.index t = ![0, 0, t.val] := by
  rcases Gen.fin_N1 t with rfl | rfl <;> rfl
theorem idx1 (t : Fin cfg1.N) : win1_1.index t = ![0, 0] := by
  rcases Gen.fin_N1 t with rfl | rfl <;> rfl
theorem idx3 (t : Fin cfg1.N) : win1_3.index t = ![0, 0] := by
  rcases Gen.fin_N1 t with rfl | rfl <;> rfl

theorem read_blk0 (t : Fin cfg1.N) (x5 : Vec F S4x208x1024 .i32) :
    (win1_0.blk t).view.read (Elt F) x5 = blk x5 (tt t) := by
  funext y
  rw [View.read_apply]
  show x5 ((win1_0.rect t).emb y) = x5 _
  congr 1
  funext a
  apply Fin.ext
  rw [Pipeline.Window.rect_emb_val, idx0 t]
  match a with
  | ⟨0, _⟩ => show 0 * 4 + (y 0).val = (y 0).val; omega
  | ⟨1, _⟩ => show 0 * 208 + (y 1).val = (y 1).val; omega
  | ⟨2, _⟩ => show t.val * 512 + (y 2).val = 512 * t.val + (y 2).val; omega

theorem read_blk1 (t : Fin cfg1.N) (w1 : Vec F S16x1 .f32) : (win1_1.blk t).view.read (Elt F) w1 = w1 := by
  funext y
  rw [View.read_apply]
  show w1 ((win1_1.rect t).emb y) = w1 y
  congr 1
  funext a
  apply Fin.ext
  rw [Pipeline.Window.rect_emb_val, idx1 t]
  match a with
  | ⟨0, _⟩ => show 0 * 16 + (y 0).val = (y 0).val; omega
  | ⟨1, _⟩ => show 0 * 1 + (y 1).val = (y 1).val; omega
theorem read_blk3 (t : Fin cfg1.N) (w2 : Vec F S16x16 .f32) : (win1_3.blk t).view.read (Elt F) w2 = w2 := by
  funext y
  rw [View.read_apply]
  show w2 ((win1_3.rect t).emb y) = w2 y
  congr 1
  funext a
  apply Fin.ext
  rw [Pipeline.Window.rect_emb_val, idx3 t]
  match a with
  | ⟨0, _⟩ => show 0 * 16 + (y 0).val = (y 0).val; omega
  | ⟨1, _⟩ => show 0 * 16 + (y 1).val = (y 1).val; omega
theorem piece_congr3 {X X' : Vec F S4x208x512 .i32} (hX : X = X') (w1 b1 : Vec F S16x1 .f32) (w2 : Vec F S16x16 .f32) (b2 : Vec F S16x1 .f32)
    (qa qb : Fin 4) {l l' : Fin 200} (h : l = l') {y y' : S1x16x512.Idx} (hy : y = y') :
    piece X w1 b1 w2 b2 qa qb l y = piece X' w1 b1 w2 b2 qa qb l' y' := by subst hX; subst h; subst hy; rfl

theorem read_blk5 (qa qb : Fin 4) (t : Fin cfg1.N) (x5 : Vec F S4x208x1024 .i32) (w1 b1 : Vec F S16x1 .f32) (w2 : Vec F S16x16 .f32) (b2 : Vec F S16x1 .f32) :
    (win1_5.blk t).view.read (Elt F) (tcOut qa qb x5 w1 b1 w2 b2) = outBlk (blk x5 (tt t)) w1 b1 w2 b2 qa qb := by
  funext y
  rw [View.read_apply]
  show tcOut qa qb x5 w1 b1 w2 b2 ((win1_5.rect t).emb y) = outBlk (blk x5 (tt t)) w1 b1 w2 b2 qa qb y
  have hv : ∀ a, (((win1_5.rect t).emb y) a).val = win1_5.index t a * win1_5.size a + (y a).val :=
    fun a => Pipeline.Window.rect_emb_val _ t y a
  have h0 : (((win1_5.rect t).emb y) 0).val = (y 0).val := by
    rw [hv, idx5 t]; show 0 * 200 + _ = _; omega
  have h1 : (((win1_5.rect t).emb y) 1).val = (y 1).val := by
    rw [hv, idx5 t]; show 0 * 16 + _ = _; omega
  have h2 : (((win1_5.rect t).emb y) 2).val = 512 * t.val + (y 2).val := by
    rw [hv, idx5 t]; show t.val * 512 + _ = _; omega
  have hy2 : (y 2).val < 512 := (y 2).isLt
  have ht : t.val < 2 := (tt t).isLt
  unfold tcOut outBlk
  refine piece_congr3 (congrArg (blk x5) (Fin.ext ?_)) w1 b1 w2 b2 qa qb (Fin.ext h0) (funext fun a => ?_)
  · show (((win1_5.rect t).emb y) 2).val / 512 = t.val
    rw [h2]; omega
  · match a with
    | ⟨0, _⟩ => rfl
    | ⟨1, _⟩ => exact Fin.ext h1
    | ⟨2, _⟩ => exact Fin.ext (by show (((win1_5.rect t).emb y) 2).val % 512 = (y 2).val; rw [h2]; omega)

section Data

variable (O : CellTallies nD τ sig (HIx 1)) (W₀ : Waits sig (HIx 1))
  (x5 : Vec F S4x208x1024 .i32) (w1 b1 : Vec F S16x1 .f32) (w2 : Vec F S16x16 .f32) (b2 : Vec F S16x1 .f32)
  (f0 f1 : Vec F S200x16x1024 .f32)

def dat (c : Dev nD) : Pipeline.Dat τ (Elt F) (HIx 1) ℕ UU ℕ cfg1 c where
  A := fun
    | 0 => x5 | 1 => w1 | 2 => b1 | 3 => w2 | 4 => b2 | 5 => f0 | 6 => f1
    | ⟨_ + 7, h⟩ => absurd h (Nat.not_lt.2 (Nat.le_add_left _ _))
  after := fun w t => match w with
    | 0 => (win1_0.blk t).view.read (Elt F) x5
    | 1 => (win1_1.blk t).view.read (Elt F) w1
    | 2 => (win1_2.blk t).view.read (Elt F) b1
    | 3 => (win1_3.blk t).view.read (Elt F) w2
    | 4 => (win1_4.blk t).view.read (Elt F) b2
    | 5 => (win1_5.blk t).view.read (Elt F) (tcOut 0 1 x5 w1 b1 w2 b2)
    | 6 => (win1_6.blk t).view.read (Elt F) (tcOut 2 3 x5 w1 b1 w2 b2)
    | ⟨_ + 7, h⟩ => absurd h (Nat.not_lt.2 (Nat.le_add_left _ _))
  Φ := fun _ => Pipeline.scopedRest spec1 c
  q := fun _ => fullShare
  owed := fun _ => O
  recorded := fun _ => ↑W₀

theorem body_obl (c : Dev nD) :
    Pipeline.BodyObligation (dat O W₀ x5 w1 b1 w2 b2 f0 f1 c) (defs₀ (F := F)) 𝒱₀ none Set.univ := by
  intro t
  set D := dat O W₀ x5 w1 b1 w2 b2 f0 f1 c
  rw [Gen.bigSep_W1, Gen.bigSep_W1]
  have hb0 : ∀ d, D.before 0 t d = blk x5 (tt t) := fun d =>
    (Pipeline.Dat.before_in_eq_fetched D 0 rfl (fun _ => rfl) (fun _ _ _ => rfl) (fun _ => rfl) t d).trans (read_blk0 t x5)
  have hb1 : ∀ d, D.before 1 t d = w1 := fun d =>
    (Pipeline.Dat.before_in_eq_fetched D 1 rfl (fun _ => rfl) (fun _ _ _ => rfl) (fun _ => rfl) t d).trans (read_blk1 t w1)
  have hb2 : ∀ d, D.before 2 t d = b1 := fun d =>
    (Pipeline.Dat.before_in_eq_fetched D 2 rfl (fun _ => rfl) (fun _ _ _ => rfl) (fun _ => rfl) t d).trans (read_blk1 t b1)
  have hb3 : ∀ d, D.before 3 t d = w2 := fun d =>
    (Pipeline.Dat.before_in_eq_fetched D 3 rfl (fun _ => rfl) (fun _ _ _ => rfl) (fun _ => rfl) t d).trans (read_blk3 t w2)
  have hb4 : ∀ d, D.before 4 t d = b2 := fun d =>
    (Pipeline.Dat.before_in_eq_fetched D 4 rfl (fun _ => rfl) (fun _ _ _ => rfl) (fun _ => rfl) t d).trans (read_blk1 t b2)
  have ha0 : D.after 0 t = blk x5 (tt t) := read_blk0 t x5
  have ha1 : D.after 1 t = w1 := read_blk1 t w1
  have ha2 : D.after 2 t = b1 := read_blk1 t b1
  have ha3 : D.after 3 t = w2 := read_blk3 t w2
  have ha4 : D.after 4 t = b2 := read_blk1 t b2
  have ha5 : D.after 5 t = outBlk (blk x5 (tt t)) w1 b1 w2 b2 0 1 := read_blk5 0 1 t x5 w1 b1 w2 b2
  have ha6 : D.after 6 t = outBlk (blk x5 (tt t)) w1 b1 w2 b2 2 3 := read_blk5 2 3 t x5 w1 b1 w2 b2
  have hΦ : ∀ u, D.Φ u = Pipeline.scopedRest spec1 c := fun _ => rfl
  have hOw : ∀ u, D.owesAt none u = Pipeline.owesWithin c O (↑W₀ ∪ Pipeline.Cfg.waitPairs cfg1 none) := fun _ => rfl
  simp only [hb0, hb1, hb2, hb3, hb4, ha0, ha1, ha2, ha3, ha4, ha5, ha6, hΦ, hOw]
  show _ ⊢ wp frame (wpE (defs₀ (F := F)) 𝒱₀ (c.tc : Thread nD τ) none) Set.univ (Gen.bodyAt1 (F := F) t) _
  iintro ⟨HΦ, HO, ⟨%d0, H0⟩, ⟨%d1, H1⟩, ⟨%d2, H2⟩, ⟨%d3, H3⟩, ⟨%d4, H4⟩, ⟨%d5, H5⟩, ⟨%d6, H6⟩⟩
  iapply (wp_wand_r frame _ Set.univ)
  isplitl [H0 H1 H2 H3 H4 H5 H6]
  · iapply (body_run (F := F) c (grid1.coords t) _ _ _ _ _ _ _ _ _ _ _ _ _ _ (blk x5 (tt t)) w1 b1 w2 b2 _ _)
    iframe
  · iintro %_ ⟨K0, K1, K2, K3, K4, K5, K6⟩
    iframe

theorem arrAt_in (c : Dev nD) (w : Fin 7) (hw : ∀ t, (cfg1.win w).flush t = false) :
    (dat O W₀ x5 w1 b1 w2 b2 f0 f1 c).arrAt w cfg1.N = (dat O W₀ x5 w1 b1 w2 b2 f0 f1 c).A w :=
  funext fun i => (dat O W₀ x5 w1 b1 w2 b2 f0 f1 c).arrAt_apply_of_forall_not_mem w cfg1.N i fun t _ hf =>
    absurd hf (by rw [hw t]; exact Bool.false_ne_true)

theorem cover5 (i : S200x16x1024.Idx) : ∃ t : Fin cfg1.N, win1_5.flush t = true ∧ i ∈ (win1_5.blk t).view.set := by
  have hi : (i 2).val < 1024 := (i 2).isLt
  have hN : (i 2).val / 512 < cfg1.N := by rw [show cfg1.N = 2 from Gen.N_1]; omega
  refine ⟨⟨(i 2).val / 512, hN⟩, Gen.flush1_5 _, ?_⟩
  have key : (win1_5.blk ⟨(i 2).val / 512, hN⟩).view.emb (ix3 (i 0) (i 1) ⟨(i 2).val % 512, Nat.mod_lt _ (by decide)⟩) = i := by
    funext a
    apply Fin.ext
    show (((win1_5.rect ⟨(i 2).val / 512, hN⟩).emb (ix3 (i 0) (i 1) ⟨(i 2).val % 512, Nat.mod_lt _ (by decide)⟩)) a).val = (i a).val
    rw [Pipeline.Window.rect_emb_val, idx5]
    match a with
    | ⟨0, _⟩ => show 0 * 200 + (i 0).val = (i 0).val; omega
    | ⟨1, _⟩ => show 0 * 16 + (i 1).val = (i 1).val; omega
    | ⟨2, _⟩ => show (i 2).val / 512 * 512 + (i 2).val % 512 = (i 2).val; omega
  have hm := (win1_5.blk ⟨(i 2).val / 512, hN⟩).view.emb_mem_set (ix3 (i 0) (i 1) ⟨(i 2).val % 512, Nat.mod_lt _ (by decide)⟩)
  rw [key] at hm
  exact hm

theorem arrAt_out5 (c : Dev nD) : (dat O W₀ x5 w1 b1 w2 b2 f0 f1 c).arrAt 5 cfg1.N = tcOut 0 1 x5 w1 b1 w2 b2 :=
  (dat O W₀ x5 w1 b1 w2 b2 f0 f1 c).arrAt_eq_of_cover 5 (tcOut 0 1 x5 w1 b1 w2 b2) (fun _ _ => rfl) cover5

theorem arrAt_out6 (c : Dev nD) : (dat O W₀ x5 w1 b1 w2 b2 f0 f1 c).arrAt 6 cfg1.N = tcOut 2 3 x5 w1 b1 w2 b2 :=
  (dat O W₀ x5 w1 b1 w2 b2 f0 f1 c).arrAt_eq_of_cover 6 (tcOut 2 3 x5 w1 b1 w2 b2) (fun _ _ => rfl) cover5

def arrs (c : Dev nD) : sProp 𝕄 :=
  iprop(((c.tc : Thread nD τ).loc main_v5 ↦{fullShare} x5) ∗ ((c.tc : Thread nD τ).loc main_arg2 ↦{fullShare} w1) ∗ ((c.tc : Thread nD τ).loc main_v6 ↦{fullShare} b1)
      ∗ ((c.tc : Thread nD τ).loc main_arg4 ↦{fullShare} w2) ∗ ((c.tc : Thread nD τ).loc main_v7 ↦{fullShare} b2)
      ∗ ((c.tc : Thread nD τ).loc main_v8_0 ↦{fullShare} f0) ∗ ((c.tc : Thread nD τ).loc main_v8_1 ↦{fullShare} f1))

theorem arrays_at (c : Dev nD) (G : (w : Fin cfg1.W) → Buf (Elt F) ((cfg1.spec w).arr.view.loc (c.tc : Thread nD τ))) :
    ((dat O W₀ x5 w1 b1 w2 b2 f0 f1 c).arrays G : sProp 𝕄) = arrs (G 0) (G 1) (G 2) (G 3) (G 4) (G 5) (G 6) c := by
  unfold arrs
  rw [Pipeline.arrays_eq (fun _ : Fin 1 => cfg1) (fun _ c => dat O W₀ x5 w1 b1 w2 b2 f0 f1 c) 0 c Gen.arr_whole1
    (fun w => by unfold Pipeline.Dat.share; split <;> rfl) G, Gen.bigSep_W1]

theorem prefHeld_none (c : Dev nD) :
    (Pipeline.prefHeld (pcfgs (F := F) 0).pre c (fun _ => fullShare) ((cfgs 0).toPCfg_adm (Val := Elt F)).1 : sProp 𝕄) = iprop(emp) := by
  unfold Pipeline.prefHeld
  show (bigSep (Finset.univ : Finset (Fin 0)) _ : sProp 𝕄) = _
  rw [Finset.univ_eq_empty, BI.bigSep_empty]
  rfl

def pre (c : Dev nD) : sProp 𝕄 := iprop(owes (c.tc : Thread nD τ) O W₀ ∗ arrs x5 w1 b1 w2 b2 f0 f1 c)

def post (c : Dev nD) : sProp 𝕄 :=
  iprop((∃ W : Waits sig (HIx 1), ⌜(↑W : Set (SemLoc sig × HIx 1)) ⊆ ↑W₀ ∪ Pipeline.Cfg.waitPairs cfg1 none⌝ ∗ owes (c.tc : Thread nD τ) O W)
    ∗ arrs x5 w1 b1 w2 b2 (tcOut 0 1 x5 w1 b1 w2 b2) (tcOut 2 3 x5 w1 b1 w2 b2) c)

end Data

section Seg

variable (lv : GSem nD τ sig → HIx 1 → ℕ) (hlv : (K (F := F)).Refines lv)
  (O : CellTallies nD τ sig (HIx 1)) (hO : ∀ g, O g none = 0) (W₀ : Waits sig (HIx 1))
  (x5 : Vec F S4x208x1024 .i32) (w1 b1 : Vec F S16x1 .f32) (w2 : Vec F S16x16 .f32) (b2 : Vec F S16x1 .f32)
  (f0 f1 : Vec F S200x16x1024 .f32)

abbrev adm : (p : Fin 1) → (pcfgs (F := F) p).Adm := fun q => (cfgs q).toPCfg_adm

include hlv hO in
def seg : Pipeline.RegionSeg (pcfgs (F := F)) adm (fun _ c => dat O W₀ x5 w1 b1 w2 b2 f0 f1 c) none (defs₀ (F := F)) 𝒱₀ (K (F := F)).L lv (0 : Fin 1) where
  win := Gen.winFacts1.to₀
  block_pos := Gen.block_pos1
  stage_whole := Gen.stage_whole1
  K := PEmpty
  osem := fun k => k.elim
  ho := Pipeline.OwnSemFacts.none _
  hbody := fun c => (body_obl O W₀ x5 w1 b1 w2 b2 f0 f1 c).loose
  hwaits := fun c => Pipeline.cellsWaits_intro _ _ none 0 c fun w s t =>
    SparseCore.Cfg.mayWait_none (K := K (F := F)) _ hO lv hlv
  pre := pre O W₀ x5 w1 b1 w2 b2 f0 f1
  post := post O W₀ x5 w1 b1 w2 b2
  X := fun _ => iprop(emp)
  Y := fun _ => iprop(emp)
  Z := fun _ => iprop(emp)
  hentry := fun c => by
    rw [arrays_at, prefHeld_none]
    unfold pre arrs
    iintro ⟨⟨HO, H5, H2, H6, H4, H7, H80, H81⟩, -, -⟩
    imodintro
    isplitl [H5 H2 H6 H4 H7 H80 H81]
    · isplitl [H5]; · iexact H5
      isplitl [H2]; · iexact H2
      isplitl [H6]; · iexact H6
      isplitl [H4]; · iexact H4
      isplitl [H7]; · iexact H7
      isplitl [H80]; · iexact H80
      iexact H81
    isplitr; · iempintro
    isplitl [HO]
    · iexists W₀
      isplitr; · ipureintro; exact Set.subset_union_left
      iexact HO
    isplitr <;> iempintro
  hin := fun c => by
    show iprop(emp ∗ Pipeline.prefHeld (pcfgs (F := F) 0).pre c (fun _ => fullShare) (adm (F := F) 0).1 ∗ Pipeline.scopedRest spec1 c)
      ⊢ Pipeline.scopedRest spec1 c
    iintro ⟨-, -, H⟩; iexact H
  hout := fun c => by
    show Pipeline.scopedRest spec1 c ⊢ iprop(emp ∗ Pipeline.ownSems0 (fun k : PEmpty => k.elim) c ∗ Pipeline.scopedRest spec1 c)
    rw [Pipeline.ownSems0_none]
    iintro H
    isplitr; · iempintro
    isplitr; · iempintro
    iexact H
  hexit := fun c => by
    have ai := arrAt_in O W₀ x5 w1 b1 w2 b2 f0 f1 c
    rw [arrays_at, ai 0 fun _ => rfl, ai 1 fun _ => rfl, ai 2 fun _ => rfl, ai 3 fun _ => rfl, ai 4 fun _ => rfl, arrAt_out5, arrAt_out6]
    unfold post arrs
    iintro ⟨⟨H5, H2, H6, H4, H7, H80, H81⟩, ⟨%W, %hW, HO⟩, -, -⟩
    imodintro
    isplitl [HO]
    · iexists W
      isplitr; · ipureintro; exact hW
      iexact HO
    isplitl [H5]; · iexact H5
    isplitl [H2]; · iexact H2
    isplitl [H6]; · iexact H6
    isplitl [H4]; · iexact H4
    isplitl [H7]; · iexact H7
    iframe

include hlv hO in
theorem inner₀ (d : Dev nD) :
    (iprop(boundary (d.tc : Thread nD τ) ∗ pre O W₀ x5 w1 b1 w2 b2 f0 f1 d ∗ levAts (K (F := F)).L lv
        ∗ Pipeline.cellsGhost cfgs ER 0 d ∗ Pipeline.toksInit cfgs ER 0 d) : sProp 𝕄)
      ⊢ wp frame (wpE (D (F := F)) 𝒱 (d.tc : Thread nD τ) none) Set.univ
          (Prog.op (TpuEff.customCall (Pipeline.entry (0 : Fin 1)) ()) fun x => Prog.ret x)
          (fun _ => iprop(boundary (d.tc : Thread nD τ) ∗ post O W₀ x5 w1 b1 w2 b2 d)) := by
  refine BI.Entails.trans ?_ (Pipeline.RegionSeg.wp (pcfgs (F := F)) adm (fun _ c => dat O W₀ x5 w1 b1 w2 b2 f0 f1 c) none Gen.cellOf_inj ER
      (defs₀ (F := F)) 𝒱₀ (K (F := F)).L lv (seg lv hlv O hO W₀ x5 w1 b1 w2 b2 f0 f1) d none (fun u hu => nomatch hu)
      (fun x => Prog.ret x) _)
  show _ ⊢ iprop((iprop(boundary (d.tc : Thread nD τ) ∗ post O W₀ x5 w1 b1 w2 b2 d) -∗ wp frame _ Set.univ (Prog.ret PUnit.unit) _)
        ∗ boundary (d.tc : Thread nD τ) ∗ pre O W₀ x5 w1 b1 w2 b2 f0 f1 d ∗ levAts (K (F := F)).L lv
        ∗ Pipeline.cellsGhost cfgs ER 0 d ∗ Pipeline.toksInit cfgs ER 0 d)
  iintro ⟨Hb, Hpre, Hlev, Hg, Ht⟩
  isplitr [Hb Hpre Hlev Hg Ht]
  · iintro H; rw [wp_ret]; imodintro; iexact H
  iframe

end Seg

theorem wbelow_of_sub (d : Dev nD) {W W' : Waits sig (HIx 1)} (hW : (K (F := F)).WBelow (SparseCore.T d) W (8 * 1))
    (hW' : (↑W' : Set (SemLoc sig × HIx 1)) ⊆ ↑W ∪ Pipeline.Cfg.waitPairs cfg1 none) : (K (F := F)).WBelow (SparseCore.T d) W' (8 * 1) := by
  intro p hp
  rcases hW' (Finset.mem_coe.mpr hp) with h | ⟨w, s, rfl⟩
  · exact hW p (Finset.mem_coe.mp h)
  · show (K (F := F)).lev (SparseCore.T d, _) none ≤ 8 * 1
    rw [SparseCore.Cfg.lev_none]; omega

theorem region_step (lv : GSem nD τ sig → HIx 1 → ℕ) (hlv : (K (F := F)).Refines lv) (d : Dev nD)
    (O : CellTallies nD τ sig (HIx 1)) (hO : ∀ g, O g none = 0) (W₀ : Waits sig (HIx 1))
    (x5 : Vec F S4x208x1024 .i32) (w1 b1 : Vec F S16x1 .f32) (w2 : Vec F S16x16 .f32) (b2 : Vec F S16x1 .f32)
    (f0 f1 : Vec F S200x16x1024 .f32)
    {α : Type} (k : PUnit → Prog (TpuEff nD τ sig (Elt F) (SparseCore.Sig (ΛP (F := F)) 1) .tc) α) (Φ : α → sProp 𝕄) :
    (iprop(levAts (K (F := F)).L lv ∗ boundary (SparseCore.T d) ∗ Pipeline.cellsGhost cfgs ER 0 d ∗ Pipeline.toksInit cfgs ER 0 d
        ∗ owes (SparseCore.T d) O W₀
        ∗ ((SparseCore.T d).loc main_v5 ↦{fullShare} x5) ∗ ((SparseCore.T d).loc main_arg2 ↦{fullShare} w1) ∗ ((SparseCore.T d).loc main_v6 ↦{fullShare} b1)
        ∗ ((SparseCore.T d).loc main_arg4 ↦{fullShare} w2) ∗ ((SparseCore.T d).loc main_v7 ↦{fullShare} b2)
        ∗ ((SparseCore.T d).loc main_v8_0 ↦{fullShare} f0) ∗ ((SparseCore.T d).loc main_v8_1 ↦{fullShare} f1)
        ∗ (iprop(boundary (SparseCore.T d) ∗ (∃ W : Waits sig (HIx 1), ⌜(↑W : Set (SemLoc sig × HIx 1)) ⊆ ↑W₀ ∪ Pipeline.Cfg.waitPairs cfg1 none⌝ ∗ owes (SparseCore.T d) O W)
            ∗ ((SparseCore.T d).loc main_v5 ↦{fullShare} x5) ∗ ((SparseCore.T d).loc main_arg2 ↦{fullShare} w1) ∗ ((SparseCore.T d).loc main_v6 ↦{fullShare} b1)
            ∗ ((SparseCore.T d).loc main_arg4 ↦{fullShare} w2) ∗ ((SparseCore.T d).loc main_v7 ↦{fullShare} b2)
            ∗ ((SparseCore.T d).loc main_v8_0 ↦{fullShare} tcOut 0 1 x5 w1 b1 w2 b2) ∗ ((SparseCore.T d).loc main_v8_1 ↦{fullShare} tcOut 2 3 x5 w1 b1 w2 b2))
          -∗ wp frame (wpE (defs (F := F)) 𝒱 (SparseCore.T d) none) Set.univ (k ⟨⟩) Φ)) : sProp 𝕄)
      ⊢ wp frame (wpE (defs (F := F)) 𝒱 (SparseCore.T d) none) Set.univ (.op (.customCall (SparseCore.inner (Pipeline.entry 0)) ()) k) Φ := by
  show _ ⊢ wp frame _ Set.univ ((SparseCore.liftProg (Q := 1) (Prog.op (TpuEff.customCall (Pipeline.entry (0 : Fin 1)) ()) fun x => Prog.ret x
    : Prog (TpuEff nD τ sig (Elt F) (ΛP (F := F)) .tc) PUnit)) >>= k) Φ
  rw [wp_bind]
  iintro ⟨Hlev, Hb, Hg, Ht, Ho, H5, H2, H6, H4, H7, H80, H81, Hk⟩
  iapply (wp_wand_r frame _ Set.univ)
  isplitr [Hk]
  · iapply ((K (F := F)).wp_liftProg (D (F := F)) 𝒱 (SparseCore.T d) Set.univ none _
      (fun _ => iprop(boundary (SparseCore.T d) ∗ post O W₀ x5 w1 b1 w2 b2 d)))
    iapply (inner₀ lv hlv O hO W₀ x5 w1 b1 w2 b2 f0 f1 d)
    unfold pre arrs
    iframe
  · iintro %_ ⟨Hb, Hp⟩
    iapply Hk
    isplitl [Hb]; · iexact Hb
    unfold post arrs; iexact Hp

end Cert.Kernel.Tc

end
-- ==== Proof.Bits.Launch.lean ====
import proofs.«212098_g24275155157491_cont_8to1_80_30_alg».proof.Proof.Bits.Sc.Obl
import proofs.«212098_g24275155157491_cont_8to1_80_30_alg».proof.Proof.Bits.HostValue
import proofs.«212098_g24275155157491_cont_8to1_80_30_alg».proof.Proof.Bits.Tc.Region
import Idealize.ShloMosaic.Lib.Pipeline.Frame
import Idealize.ShloMosaic.Lib.Pipeline.Value
import Idealize.ShloMosaic.Lib.StableHlo.Run

noncomputable section

namespace Cert.Kernel.Launch

open Cert.Kernel Cert.Kernel.Gen Cert.Kernel.Sc
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)

variable {F : FTy → Type}

local notation "𝕄" => MT nD τ sig (HIx 1) (Elt F) ℕ UU ℕ

variable [FloatOps F]

abbrev opC : HloOp τ sig (Elt F) := StableHlo.nullary main_c (constantI S_ 32 100000#32)
abbrev opB : HloOp τ sig (Elt F) := StableHlo.unary main_c main_v0 (broadcastInDim S1024x8 ![] bcast_S_S1024x8 : (⟨S_, .i32⟩ : BufTy).Contents (Elt F) → (⟨S1024x8, .i32⟩ : BufTy).Contents (Elt F))
abbrev opCat0 : HloOp τ sig (Elt F) := StableHlo.binary main_arg0 main_v0 main_v1 ((fun a b => concatenate S1024x208 1 [⟨S1024x200, a⟩, ⟨S1024x8, b⟩] concatenates_S1024x200_S1024x8_S1024x208_d1) : (⟨S1024x200, .i32⟩ : BufTy).Contents (Elt F) → (⟨S1024x8, .i32⟩ : BufTy).Contents (Elt F) → (⟨S1024x208, .i32⟩ : BufTy).Contents (Elt F))
abbrev opCat1 : HloOp τ sig (Elt F) := StableHlo.binary main_arg1 main_v0 main_v2 ((fun a b => concatenate S1024x208 1 [⟨S1024x200, a⟩, ⟨S1024x8, b⟩] concatenates_S1024x200_S1024x8_S1024x208_d1) : (⟨S1024x200, .i32⟩ : BufTy).Contents (Elt F) → (⟨S1024x8, .i32⟩ : BufTy).Contents (Elt F) → (⟨S1024x208, .i32⟩ : BufTy).Contents (Elt F))
abbrev opR4 : HloOp τ sig (Elt F) := StableHlo.reshape main_v3 main_v4 rfl shapeCasts_S1024x832_S1024x4x208
abbrev opT5 : HloOp τ sig (Elt F) := StableHlo.unary main_v4 main_v5 ((transpose S4x208x1024 [1, 2, 0] · transposes_S1024x4x208_S4x208x1024_1_2_0) : (⟨S1024x4x208, .i32⟩ : BufTy).Contents (Elt F) → (⟨S4x208x1024, .i32⟩ : BufTy).Contents (Elt F))
abbrev opR6 : HloOp τ sig (Elt F) := StableHlo.reshape main_arg3 main_v6 rfl shapeCasts_S16_S16x1
abbrev opR7 : HloOp τ sig (Elt F) := StableHlo.reshape main_arg5 main_v7 rfl shapeCasts_S16_S16x1
abbrev opT9 : HloOp τ sig (Elt F) := StableHlo.unary main_v8_0 main_v9 ((transpose S1024x200x16 [2, 0, 1] · transposes_S200x16x1024_S1024x200x16_2_0_1) : (⟨S200x16x1024, .f32⟩ : BufTy).Contents (Elt F) → (⟨S1024x200x16, .f32⟩ : BufTy).Contents (Elt F))
abbrev opT10 : HloOp τ sig (Elt F) := StableHlo.unary main_v8_1 main_v10 ((transpose S1024x200x16 [2, 0, 1] · transposes_S200x16x1024_S1024x200x16_2_0_1) : (⟨S200x16x1024, .f32⟩ : BufTy).Contents (Elt F) → (⟨S1024x200x16, .f32⟩ : BufTy).Contents (Elt F))

abbrev SU : Finset (DevRef τ sig) := Pipeline.ucRefs τ sig

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v80' : DevRef τ sig := Proc.devRef .tc (main_v8_0 : Ref sig .tc)
abbrev v81' : DevRef τ sig := Proc.devRef .tc (main_v8_1 : Ref sig .tc)
abbrev v9' : DevRef τ sig := Proc.devRef .tc (main_v9 : Ref sig .tc)
abbrev v10' : DevRef τ sig := Proc.devRef .tc (main_v10 : Ref sig .tc)

variable (m : (ℓ : Loc nD τ sig) → Buf (Elt F) ℓ) (ρ : Dev nD → PrngReg)

def V0 (d : Dev nD) : Valuation τ sig (Elt F) := fun b => m (d, b)
def V4 (d : Dev nD) : Valuation τ sig (Elt F) :=
  (opCat1 (F := F)).result ((opCat0 (F := F)).result ((opB (F := F)).result ((opC (F := F)).result (V0 m d))))
def V5 (d : Dev nD) : Valuation τ sig (Elt F) := Function.update (V4 m d) v3' (cnts m d)
def V9 (d : Dev nD) : Valuation τ sig (Elt F) :=
  (opR7 (F := F)).result ((opR6 (F := F)).result ((opT5 (F := F)).result ((opR4 (F := F)).result (V5 m d))))
def o0 (d : Dev nD) : Buf (Elt F) (d, v80') := Tc.tcOut 0 1 (V9 m d v5') (V9 m d a2') (V9 m d v6') (V9 m d a4') (V9 m d v7')
def o1 (d : Dev nD) : Buf (Elt F) (d, v81') := Tc.tcOut 2 3 (V9 m d v5') (V9 m d a2') (V9 m d v6') (V9 m d a4') (V9 m d v7')
def V10 (d : Dev nD) : Valuation τ sig (Elt F) := Function.update (Function.update (V9 m d) v80' (o0 m d)) v81' (o1 m d)
def V12 (d : Dev nD) : Valuation τ sig (Elt F) := (opT10 (F := F)).result ((opT9 (F := F)).result (V10 m d))

omit [FloatOps F] in
theorem held_take (d : Dev nD) {S : Finset (DevRef τ sig)} {b : DevRef τ sig} (hb : b ∈ S) (W : Valuation τ sig (Elt F)) :
    (held (SparseCore.T d) S W : sProp 𝕄) = iprop((((d, b) : Loc nD τ sig) ↦{fullShare} W b) ∗ held (SparseCore.T d) (S.erase b) W) := by
  unfold held; exact bigSep_erase hb

local macro "val_results" : tactic =>
  `(tactic| repeat (first
     | rw [StableHlo.nullary_result] | rw [StableHlo.unary_result] | rw [StableHlo.binary_result] | rw [StableHlo.reshape_result]
     | rw [Function.update_self]
     | (rw [Function.update_of_ne]; rotate_left; decide)
     | (rw [StableHlo.nullary_result_ne]; rotate_left; decide)
     | (rw [StableHlo.unary_result_ne]; rotate_left; decide)
     | (rw [StableHlo.binary_result_ne]; rotate_left; decide)
     | (rw [StableHlo.reshape_result_ne]; rotate_left; decide)))

theorem mem_SU (b : Ref sig .tc) (h : (Proc.devRef (τ := τ) .tc b).isScoped = false) : Proc.devRef .tc b ∈ (SU : Finset (DevRef τ sig)) :=
  Finset.mem_filter.mpr ⟨StableHlo.devRef_mem_tcRefs b, by rw [h]; exact Bool.false_ne_true⟩

theorem V4_v1 (d : Dev nD) : V4 m d v1' = pad0 m d := by
  unfold V4
  val_results
  exact HostValue.concat_padded _ _ _
theorem V4_v2 (d : Dev nD) : V4 m d v2' = pad1 m d := by
  unfold V4
  val_results
  exact HostValue.concat_padded _ _ _

abbrev R3 : Finset (DevRef τ sig) := ((SU.erase v1').erase v2').erase v3'

theorem er {a b : DevRef τ sig} {S : Finset (DevRef τ sig)} (hm : a ∈ S) (h : a ≠ b := by decide) : a ∈ S.erase b :=
  Finset.mem_erase.mpr ⟨h, hm⟩

theorem m_v1 : v1' ∈ (SU : Finset (DevRef τ sig)) := mem_SU _ (by decide)
theorem m_v2 : v2' ∈ (SU : Finset (DevRef τ sig)).erase v1' := er (mem_SU _ (by decide))
theorem m_v3 : v3' ∈ ((SU : Finset (DevRef τ sig)).erase v1').erase v2' := er (er (mem_SU _ (by decide)))

def three (d : Dev nD) (f : Buf (Elt F) (v3Loc d)) : sProp 𝕄 :=
  iprop((v1Loc d ↦{fullShare} pad0 m d) ∗ (v2Loc d ↦{fullShare} pad1 m d) ∗ (v3Loc d ↦{fullShare} f) ∗ held (SparseCore.T d) R3 (V4 m d))

theorem held_V4 (d : Dev nD) :
    (held (SparseCore.T d) SU ((opCat1 (F := F)).result ((opCat0 (F := F)).result ((opB (F := F)).result ((opC (F := F)).result (V0 m d))))) : sProp 𝕄)
      = three m d (V4 m d v3') := by
  show held (SparseCore.T d) SU (V4 m d) = _
  unfold three
  rw [held_take d m_v1, held_take d m_v2, held_take d m_v3, V4_v1, V4_v2]

theorem held_V5 (d : Dev nD) : three m d (cnts m d) = (held (SparseCore.T d) SU (V5 m d) : sProp 𝕄) := by
  unfold V5 three
  rw [held_take d m_v1 (Function.update (V4 m d) v3' (cnts m d)), held_take d m_v2 (Function.update (V4 m d) v3' (cnts m d)),
    held_take d m_v3 (Function.update (V4 m d) v3' (cnts m d)), Function.update_self,
    Function.update_of_ne (show v1' ≠ v3' by decide), Function.update_of_ne (show v2' ≠ v3' by decide), V4_v1, V4_v2,
    held_congr (SparseCore.T d) (S := R3) (V := Function.update (V4 m d) v3' (cnts m d)) (V' := V4 m d)
      (fun b' hb' => Function.update_of_ne (Finset.ne_of_mem_erase hb') _ _)]

abbrev R7 : Finset (DevRef τ sig) := ((((((SU.erase v5').erase a2').erase v6').erase a4').erase v7').erase v80').erase v81'

theorem m_v5 : v5' ∈ (SU : Finset (DevRef τ sig)) := mem_SU _ (by decide)
theorem m_a2 : a2' ∈ (SU : Finset (DevRef τ sig)).erase v5' := er (mem_SU _ (by decide))
theorem m_v6 : v6' ∈ ((SU : Finset (DevRef τ sig)).erase v5').erase a2' := er (er (mem_SU _ (by decide)))
theorem m_a4 : a4' ∈ (((SU : Finset (DevRef τ sig)).erase v5').erase a2').erase v6' := er (er (er (mem_SU _ (by decide))))
theorem m_v7 : v7' ∈ ((((SU : Finset (DevRef τ sig)).erase v5').erase a2').erase v6').erase a4' := er (er (er (er (mem_SU _ (by decide)))))
theorem m_v80 : v80' ∈ (((((SU : Finset (DevRef τ sig)).erase v5').erase a2').erase v6').erase a4').erase v7' := er (er (er (er (er (mem_SU _ (by decide))))))
theorem m_v81 : v81' ∈ ((((((SU : Finset (DevRef τ sig)).erase v5').erase a2').erase v6').erase a4').erase v7').erase v80' := er (er (er (er (er (er (mem_SU _ (by decide)))))))

def seven (d : Dev nD) (f0 : Buf (Elt F) (d, v80')) (f1 : Buf (Elt F) (d, v81')) : sProp 𝕄 :=
  iprop(((SparseCore.T d).loc main_v5 ↦{fullShare} V9 m d v5') ∗ ((SparseCore.T d).loc main_arg2 ↦{fullShare} V9 m d a2') ∗ ((SparseCore.T d).loc main_v6 ↦{fullShare} V9 m d v6')
    ∗ ((SparseCore.T d).loc main_arg4 ↦{fullShare} V9 m d a4') ∗ ((SparseCore.T d).loc main_v7 ↦{fullShare} V9 m d v7')
    ∗ ((SparseCore.T d).loc main_v8_0 ↦{fullShare} f0) ∗ ((SparseCore.T d).loc main_v8_1 ↦{fullShare} f1) ∗ held (SparseCore.T d) R7 (V9 m d))

theorem held_V9 (d : Dev nD) :
    (held (SparseCore.T d) SU ((opR7 (F := F)).result ((opR6 (F := F)).result ((opT5 (F := F)).result ((opR4 (F := F)).result (V5 m d))))) : sProp 𝕄)
      = seven m d (V9 m d v80') (V9 m d v81') := by
  show held (SparseCore.T d) SU (V9 m d) = _
  unfold seven
  rw [held_take d m_v5, held_take d m_a2, held_take d m_v6, held_take d m_a4, held_take d m_v7, held_take d m_v80, held_take d m_v81]

theorem held_V10 (d : Dev nD) : seven m d (o0 m d) (o1 m d) = (held (SparseCore.T d) SU (V10 m d) : sProp 𝕄) := by
  unfold seven
  have e' : ∀ b, b ≠ v81' → b ≠ v80' → V10 m d b = V9 m d b := fun b h1 h0 => by
    unfold V10; rw [Function.update_of_ne h1, Function.update_of_ne h0]
  have e : ∀ b ∈ (R7 : Finset (DevRef τ sig)), V10 m d b = V9 m d b := fun b hb =>
    e' b (Finset.ne_of_mem_erase hb) (Finset.ne_of_mem_erase (Finset.mem_of_mem_erase hb))
  rw [held_take d m_v5 (V10 m d), held_take d m_a2 (V10 m d), held_take d m_v6 (V10 m d), held_take d m_a4 (V10 m d), held_take d m_v7 (V10 m d),
    held_take d m_v80 (V10 m d), held_take d m_v81 (V10 m d), held_congr (SparseCore.T d) e]
  have e80 : V10 m d v80' = o0 m d := by unfold V10; rw [Function.update_of_ne (by decide), Function.update_self]
  have e81 : V10 m d v81' = o1 m d := by unfold V10; rw [Function.update_self]
  rw [e' v5' (by decide) (by decide), e' a2' (by decide) (by decide), e' v6' (by decide) (by decide), e' a4' (by decide) (by decide),
    e' v7' (by decide) (by decide), e80, e81]

def x5 (d : Dev nD) : Vec F S4x208x1024 .i32 :=
  transpose S4x208x1024 [1, 2, 0] (shapeCast S1024x4x208 (cnts m d) shapeCasts_S1024x832_S1024x4x208) transposes_S1024x4x208_S4x208x1024_1_2_0
def res0 (d : Dev nD) : Vec F S1024x200x16 .f32 :=
  transpose S1024x200x16 [2, 0, 1] (Tc.tcOut 0 1 (x5 m d) (m ((SparseCore.T d).loc main_arg2)) (shapeCast S16x1 (m ((SparseCore.T d).loc main_arg3)) shapeCasts_S16_S16x1)
    (m ((SparseCore.T d).loc main_arg4)) (shapeCast S16x1 (m ((SparseCore.T d).loc main_arg5)) shapeCasts_S16_S16x1)) transposes_S200x16x1024_S1024x200x16_2_0_1
def res1 (d : Dev nD) : Vec F S1024x200x16 .f32 :=
  transpose S1024x200x16 [2, 0, 1] (Tc.tcOut 2 3 (x5 m d) (m ((SparseCore.T d).loc main_arg2)) (shapeCast S16x1 (m ((SparseCore.T d).loc main_arg3)) shapeCasts_S16_S16x1)
    (m ((SparseCore.T d).loc main_arg4)) (shapeCast S16x1 (m ((SparseCore.T d).loc main_arg5)) shapeCasts_S16_S16x1)) transposes_S200x16x1024_S1024x200x16_2_0_1

theorem V9_v5 (d : Dev nD) : V9 m d v5' = x5 m d := by unfold V9 V5; val_results; rfl
theorem V9_a2 (d : Dev nD) : V9 m d a2' = m ((SparseCore.T d).loc main_arg2) := by unfold V9 V5 V4; val_results; rfl
theorem V9_v6 (d : Dev nD) : V9 m d v6' = shapeCast S16x1 (m ((SparseCore.T d).loc main_arg3)) shapeCasts_S16_S16x1 := by unfold V9 V5 V4; val_results; rfl
theorem V9_a4 (d : Dev nD) : V9 m d a4' = m ((SparseCore.T d).loc main_arg4) := by unfold V9 V5 V4; val_results; rfl
theorem V9_v7 (d : Dev nD) : V9 m d v7' = shapeCast S16x1 (m ((SparseCore.T d).loc main_arg5)) shapeCasts_S16_S16x1 := by unfold V9 V5 V4; val_results; rfl

theorem V12_v9 (d : Dev nD) : V12 m d v9' = res0 m d := by
  unfold V12 V10; val_results; unfold o0 res0; rw [V9_v5, V9_a2, V9_v6, V9_a4, V9_v7]
theorem V12_v10 (d : Dev nD) : V12 m d v10' = res1 m d := by
  unfold V12 V10; val_results; unfold o1 res1; rw [V9_v5, V9_a2, V9_v6, V9_a4, V9_v7]
theorem V12_a0 (d : Dev nD) : V12 m d a0' = m ((SparseCore.T d).loc main_arg0) := by unfold V12 V10 V9 V5 V4; val_results; rfl
theorem V12_a1 (d : Dev nD) : V12 m d a1' = m ((SparseCore.T d).loc main_arg1) := by unfold V12 V10 V9 V5 V4; val_results; rfl
theorem V12_a2 (d : Dev nD) : V12 m d a2' = m ((SparseCore.T d).loc main_arg2) := by unfold V12 V10 V9 V5 V4; val_results; rfl
theorem V12_a3 (d : Dev nD) : V12 m d a3' = m ((SparseCore.T d).loc main_arg3) := by unfold V12 V10 V9 V5 V4; val_results; rfl
theorem V12_a4 (d : Dev nD) : V12 m d a4' = m ((SparseCore.T d).loc main_arg4) := by unfold V12 V10 V9 V5 V4; val_results; rfl
theorem V12_a5 (d : Dev nD) : V12 m d a5' = m ((SparseCore.T d).loc main_arg5) := by unfold V12 V10 V9 V5 V4; val_results; rfl

abbrev G (d : Dev nD) : sProp 𝕄 := iprop(Pipeline.cellsGhost cfgs ER 0 d ∗ Pipeline.toksInit cfgs ER 0 d)

abbrev T8 : Finset (DevRef τ sig) := {v9', v10', a0', a1', a2', a3', a4', a5'}

theorem T8_sub : (T8 : Finset (DevRef τ sig)) ⊆ SU := by
  intro b hb
  simp only [T8, Finset.mem_insert, Finset.mem_singleton] at hb
  rcases hb with rfl | rfl | rfl | rfl | rfl | rfl | rfl | rfl <;> exact mem_SU _ (by decide)

abbrev FIN (d : Dev nD) : sProp 𝕄 := held (SparseCore.T d) T8 (V12 m d)

theorem held_fin (d : Dev nD) :
    (held (SparseCore.T d) SU ((opT10 (F := F)).result ((opT9 (F := F)).result (V10 m d))) : sProp 𝕄) ⊢ FIN m d := by
  unfold held; exact bigSep_subset T8_sub

theorem tcSt_one (d : Dev nD) (n : ℕ) (hn : n = 1) :
    ((K (F := F)).tcSt (EH (F := F)) d n : sProp 𝕄)
      = iprop((∃ W, ⌜(K (F := F)).WBelow (SparseCore.T d) W (8 * 1)⌝ ∗ owes (SparseCore.T d) 0 W)
        ∗ atPos EH ((K (F := F)).doneCell d) 1 ∅ 0 ∗ reached EH ((K (F := F)).doneCell d) 1
        ∗ (bigSep Finset.univ fun c : Fin τ.nSC => reached EH ((K (F := F)).startCell d c) ((K (F := F)).sRank c 1))
        ∗ bigSep (SparseCore.Cfg.callsFrom 1) fun q => bigSep Finset.univ fun c : Fin ((K (F := F)).nCore q) =>
            iprop(dutyTok EH ((K (F := F)).startCell d ((K (F := F)).core q c)) ((K (F := F)).sRank ((K (F := F)).core q c) q.val) 0
              ∗ cred (tallyAt ((K (F := F)).doneCell d) (some q) 1))) := by
  subst hn
  unfold SparseCore.Cfg.tcSt
  rw [(K (F := F)).Otc_end d (le_refl 1)]

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) SU (V0 m d) from Pipeline.unscopedBufs_held d (V0 m d)]
  simp only [main, wp_bind, wp_pure]
  iintro ⟨#Hctx, Hst, ⟨Hb, Hheld, -, -⟩, ⟨Hcg, Htk⟩⟩
  iapply (wp_hlo_within _ _ _ _ (op := opC) (Pipeline.sub_ucRefs _ (by simp))) $$ [Hb Hheld]
  · isplitl [Hb] <;> iassumption
  iintro ⟨Hb, Hheld⟩
  rw [wp_ret]; imodintro
  iapply (wp_hlo_within _ _ _ _ (op := opB) (Pipeline.sub_ucRefs _ (by simp))) $$ [Hb Hheld]
  · isplitl [Hb] <;> iassumption
  iintro ⟨Hb, Hheld⟩
  rw [wp_ret]; imodintro
  iapply (wp_hlo_within _ _ _ _ (op := opCat0) (Pipeline.sub_ucRefs _ (by simp))) $$ [Hb Hheld]
  · isplitl [Hb] <;> iassumption
  iintro ⟨Hb, Hheld⟩
  rw [wp_ret]; imodintro
  iapply (wp_hlo_within _ _ _ _ (op := opCat1) (Pipeline.sub_ucRefs _ (by simp))) $$ [Hb Hheld]
  · isplitl [Hb] <;> iassumption
  iintro ⟨Hb, Hheld⟩
  rw [wp_ret]; imodintro
  ihave Hh := (Entails.of_eq (held_V4 (F := F) m d)) $$ Hheld
  unfold three
  icases Hh with ⟨H1, H2, H3, Hrest⟩
  iapply ((K (F := F)).wp_run (D (F := F)) 𝒱 (EH := EH) (P := P m) κ d 0) $$ [Hst H1 H2 H3 Hb Hrest Hcg Htk]
  isplitr; · iexact Hctx
  isplitl [Hst]; · iexact Hst
  isplitl [H1 H2 H3]
  · iapply (st0_intro m d (V4 m d v3')); iframe
  iintro ⟨Hst, Hdn⟩
  ihave Hdn' := (dn0_elim m d) $$ Hdn
  icases Hdn' with ⟨H1, H2, H3⟩
  ihave Hheld := (Entails.of_eq (held_V5 (F := F) m d)) $$ [H1 H2 H3 Hrest]
  · unfold three; iframe
  iapply (wp_hlo_within _ _ _ _ (op := opR4) (Pipeline.sub_ucRefs _ (by simp))) $$ [Hb Hheld]
  · isplitl [Hb] <;> iassumption
  iintro ⟨Hb, Hheld⟩
  rw [wp_ret]; imodintro
  iapply (wp_hlo_within _ _ _ _ (op := opT5) (Pipeline.sub_ucRefs _ (by simp))) $$ [Hb Hheld]
  · isplitl [Hb] <;> iassumption
  iintro ⟨Hb, Hheld⟩
  rw [wp_ret]; imodintro
  iapply (wp_hlo_within _ _ _ _ (op := opR6) (Pipeline.sub_ucRefs _ (by simp))) $$ [Hb Hheld]
  · isplitl [Hb] <;> iassumption
  iintro ⟨Hb, Hheld⟩
  rw [wp_ret]; imodintro
  iapply (wp_hlo_within _ _ _ _ (op := opR7) (Pipeline.sub_ucRefs _ (by simp))) $$ [Hb Hheld]
  · isplitl [Hb] <;> iassumption
  iintro ⟨Hb, Hheld⟩
  rw [wp_ret]; imodintro
  ihave Hh := (Entails.of_eq (held_V9 (F := F) m d)) $$ Hheld
  unfold seven
  icases Hh with ⟨Hx5, Hw1, Hb1, Hw2, Hb2, Hf0, Hf1, Hrest⟩
  ihave Hst' := (Entails.of_eq (tcSt_one (F := F) d ((0 : Fin 1).val + 1) rfl)) $$ Hst
  icases Hst' with ⟨⟨%W, %hW, HO⟩, HR⟩
  ihave Hlev := (SparseCore.Cfg.ctx_levAts κ) $$ Hctx
  iapply (Tc.region_step (F := F) (K (F := F)).lev (by sl_refines_lev) d 0 (fun _ => rfl) W (V9 m d v5') (V9 m d a2') (V9 m d v6') (V9 m d a4') (V9 m d v7')
    (V9 m d v80') (V9 m d v81')) $$ [Hlev Hb Hcg Htk HO Hx5 Hw1 Hb1 Hw2 Hb2 Hf0 Hf1 Hrest HR]
  iframe Hlev Hb Hcg Htk HO Hx5 Hw1 Hb1 Hw2 Hb2 Hf0 Hf1
  iintro ⟨Hb, ⟨%W', %hW', HO⟩, Hx5, Hw1, Hb1, Hw2, Hb2, Hf0, Hf1⟩
  rw [wp_ret]; imodintro
  ihave Hheld := (Entails.of_eq (held_V10 (F := F) m d)) $$ [Hx5 Hw1 Hb1 Hw2 Hb2 Hf0 Hf1 Hrest]
  · unfold seven o0 o1; iframe
  iapply (wp_hlo_within _ _ _ _ (op := opT9) (Pipeline.sub_ucRefs _ (by simp))) $$ [Hb Hheld]
  · isplitl [Hb] <;> iassumption
  iintro ⟨Hb, Hheld⟩
  rw [wp_ret]; imodintro
  iapply (wp_hlo_within _ _ _ _ (op := opT10) (Pipeline.sub_ucRefs _ (by simp))) $$ [Hb Hheld]
  · isplitl [Hb] <;> iassumption
  iintro ⟨Hb, Hheld⟩
  rw [wp_ret]; imodintro; imodintro
  isplitl [HO HR]
  · iapply (Entails.of_eq (tcSt_one (F := F) d 1 rfl).symm)
    isplitl [HO]
    · iexists W'; isplitr
      · ipureintro; exact Tc.wbelow_of_sub (F := F) d hW hW'
      iexact HO
    iexact HR
  iapply (held_fin m d); iexact Hheld

def u₀ : UU := (initOf (K (F := F)).hsCells (K (F := F)).hsToks, (initOf (Pipeline.cells cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split3 _ _ _) $$ Hu
  icases H with ⟨HH, HR⟩
  imod (Pipeline.fund_ghost cfgs ER cellOf_inj) $$ HR with ⟨Hcg, Htk⟩
  imodintro
  isplitl [HH]; · iexact HH
  isplitl [Hcg Htk]
  · rw [bigSep_sep' (Finset.univ : Finset (Dev nD))]
    have one : ∀ Φ : Fin 1 → Dev nD → sProp 𝕄, (bigSep Finset.univ fun d => bigSep Finset.univ fun p => Φ p d) ⊢ bigSep Finset.univ fun d => Φ 0 d :=
      fun Φ => bigSep_mono fun d _ => Entails.of_eq (bigSep_univ_of_subsingleton (0 : Fin 1))
    isplitl [Hcg]
    · iapply (SparseCore.ent (one (Pipeline.cellsGhost cfgs (ER (F := F))))); iexact Hcg
    · iapply (SparseCore.ent (one (Pipeline.toksInit cfgs (ER (F := F))))); iexact Htk
  rw [Px_emp]; iempintro

def fq (d : Dev nD) (s' : Phys nD τ sig (Elt F)) : Prop :=
  s'.mem.mem ((SparseCore.T d).loc main_v9) = res0 m d ∧ s'.mem.mem ((SparseCore.T d).loc main_v10) = res1 m d
  ∧ s'.mem.mem ((SparseCore.T d).loc main_arg0) = m ((SparseCore.T d).loc main_arg0) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)
  ∧ s'.mem.mem ((SparseCore.T d).loc main_arg4) = m ((SparseCore.T d).loc main_arg4) ∧ s'.mem.mem ((SparseCore.T d).loc main_arg5) = m ((SparseCore.T d).loc main_arg5)

omit [FloatOps F] in
-- a buffer held whole is what the memory holds there
theorem agree {ℓ : Loc nD τ sig} {f : Buf (Elt F) ℓ} (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN held
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton, V12_v9, V12_v10, V12_a0, V12_a1, V12_a2, V12_a3, V12_a4, V12_a5]
  iintro ⟨⟨H9, H10, H0, H1, H2, H3, H4, H5⟩, HSI⟩
  ihave H := (agree s') $$ [HSI H9]
  · isplitl [HSI] <;> iassumption
  icases H with ⟨%h9, HSI⟩
  ihave H := (agree s') $$ [HSI H10]
  · isplitl [HSI] <;> iassumption
  icases H with ⟨%h10, HSI⟩
  ihave H := (agree s') $$ [HSI H0]
  · isplitl [HSI] <;> iassumption
  icases H with ⟨%h0, HSI⟩
  ihave H := (agree s') $$ [HSI H1]
  · isplitl [HSI] <;> iassumption
  icases H with ⟨%h1, HSI⟩
  ihave H := (agree s') $$ [HSI H2]
  · isplitl [HSI] <;> iassumption
  icases H with ⟨%h2, HSI⟩
  ihave H := (agree s') $$ [HSI H3]
  · isplitl [HSI] <;> iassumption
  icases H with ⟨%h3, HSI⟩
  ihave H := (agree s') $$ [HSI H4]
  · isplitl [HSI] <;> iassumption
  icases H with ⟨%h4, HSI⟩
  ihave H := (agree s') $$ [HSI H5]
  · isplitl [HSI] <;> iassumption
  icases H with ⟨%h5, HSI⟩
  ipureintro
  exact ⟨h9, h10, h0, h1, h2, h3, h4, h5⟩

def QC : PUnit × MemSt nD τ sig (Elt F) → Prop := fun r => ∀ c : Dev nD,
  r.2.mem ((c.tc : Thread nD τ).loc main_v9) = res0 m c ∧ r.2.mem ((c.tc : Thread nD τ).loc main_v10) = res1 m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.Kernel.Launch

end
-- ==== Proof.Assemble.lean ====
import proofs.«212098_g24275155157491_cont_8to1_80_30_alg».proof.Defs
import proofs.«212098_g24275155157491_cont_8to1_80_30_alg».proof.Proof.Gen.Kernel
import proofs.«212098_g24275155157491_cont_8to1_80_30_alg».proof.Proof.Gen.KernelIdeal
import proofs.«212098_g24275155157491_cont_8to1_80_30_alg».proof.Proof.Gen.ReferenceIdeal
import proofs.«212098_g24275155157491_cont_8to1_80_30_alg».proof.Proof.Gen.Pre_input_domain
import proofs.«212098_g24275155157491_cont_8to1_80_30_alg».proof.Proof.PreDecode
import proofs.«212098_g24275155157491_cont_8to1_80_30_alg».proof.Proof.Algebra
import proofs.«212098_g24275155157491_cont_8to1_80_30_alg».proof.Proof.RefValue
import proofs.«212098_g24275155157491_cont_8to1_80_30_alg».proof.Proof.TcValue
import proofs.«212098_g24275155157491_cont_8to1_80_30_alg».proof.Proof.Launch
import proofs.«212098_g24275155157491_cont_8to1_80_30_alg».proof.Proof.Bits.Launch

noncomputable section

namespace Cert.Proof.Assemble

open Idealize.ShloMosaic Idealize.SL.Sem Cert.Spec

-- Each run ends with results and unchanged arguments; the frame keeps the arguments only.
theorem frame_ki : Cert.frame_KernelIdeal := fun m ρ hpre =>
  (θ_run (Cert.KernelIdeal.defs (F := Ideal)) _ _).mono (fun _ hq c => (hq c).2.2)
    (Cert.KernelIdeal.Launch.run_main (F := Ideal) m ρ fun c => Cert.PreDecode.ids_le _ _ _ _ _ _ (hpre c))

theorem frame_k : Cert.frame_Kernel := fun m ρ hpre =>
  (θ_run (Cert.Kernel.defs (F := Bits)) _ _).mono (fun _ hq c => (hq c).2.2)
    (Cert.Kernel.Launch.run_main (F := Bits) m ρ fun c => Cert.PreDecode.ids_le _ _ _ _ _ _ (hpre c))

theorem frame_ri : Cert.frame_ReferenceIdeal := Cert.ReferenceIdeal.RefValue.frame_ri

-- A function of the six arguments, at device `c`'s argument arrays in the memory `m`.
abbrev atArgs (G : IVec SIds 32 → IVec SIds 32 → Vec Ideal SW1 .f32 → Vec Ideal SB .f32 → Vec Ideal SW2 .f32 → Vec Ideal SB .f32 → Vec Ideal SOut .f32)
    (m : (ℓ : Loc Cert.KernelIdeal.nD Cert.KernelIdeal.τ Cert.KernelIdeal.sig) → Buf (Elt Ideal) ℓ) (c : Dev Cert.KernelIdeal.nD) : Vec Ideal SOut .f32 :=
  G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))

-- Ids at most 99999 are matched by no padding word, and on real weights the two arrangements of the perceptron agree.
theorem res_eq (m : (ℓ : Loc Cert.KernelIdeal.nD Cert.KernelIdeal.τ Cert.KernelIdeal.sig) → Buf (Elt Ideal) ℓ) (hpre : Cert.Pre_KernelIdeal m) (c : Dev Cert.KernelIdeal.nD) :
    Cert.KernelIdeal.Launch.res0 (F := Ideal) m c = atArgs GR0 m c ∧ Cert.KernelIdeal.Launch.res1 (F := Ideal) m c = atArgs GR1 m c := by
  obtain ⟨ha0, ha1⟩ := Cert.PreDecode.ids_le _ _ _ _ _ _ (hpre c)
  obtain ⟨hW1, hb1, hW2, hb2⟩ := Cert.PreDecode.finite _ _ _ _ _ _ (hpre c)
  unfold Cert.KernelIdeal.Launch.res0 Cert.KernelIdeal.Launch.res1 Cert.KernelIdeal.Launch.x5 Cert.KernelIdeal.Sc.cnts Cert.KernelIdeal.Sc.pad0 Cert.KernelIdeal.Sc.pad1
  exact ⟨(Cert.TcValue.tcOut_eq _ _ _ _ _ _ _ _ _ _ 0 1 _ _ (fun c l hn => (Cert.TcValue.counts_slots _ _ ha0 ha1 c l _ hn).1 rfl)
      (fun c l hn => (Cert.TcValue.counts_slots _ _ ha0 ha1 c l _ hn).2.1 rfl)).trans (funext fun _ => outK_eq_outR _ _ _ _ hW1 hb1 hW2 hb2 _ _ _),
    (Cert.TcValue.tcOut_eq _ _ _ _ _ _ _ _ _ _ 2 3 _ _ (fun c l hn => (Cert.TcValue.counts_slots _ _ ha0 ha1 c l _ hn).2.2.1 rfl)
      (fun c l hn => (Cert.TcValue.counts_slots _ _ ha0 ha1 c l _ hn).2.2.2 rfl)).trans (funext fun _ => outK_eq_outR _ _ _ _ hW1 hb1 hW2 hb2 _ _ _)⟩

-- Both programs end at the reference's arrangement of the specification at the kernel's arguments.
theorem algebraic : Cert.algebraic_KernelIdeal_ReferenceIdeal := fun m g m' g' hpre hagree =>
  ⟨atArgs GR0 m, atArgs GR1 m,
    (θ_run (Cert.KernelIdeal.defs (F := Ideal)) _ _).mono
      (fun _ hq c => ⟨(hq c).1.trans (res_eq m hpre c).1, (hq c).2.1.trans (res_eq m hpre c).2, (hq c).2.2⟩)
      (Cert.KernelIdeal.Launch.run_main (F := Ideal) m g fun c => Cert.PreDecode.ids_le _ _ _ _ _ _ (hpre c)),
    (θ_run (Cert.ReferenceIdeal.defs (F := Ideal)) _ _).mono
      (fun _ hq c => by
        obtain ⟨e0, e1, e2, e3, e4, e5⟩ := hagree c
        refine ⟨?_, ?_, (hq c).2.2⟩
        · rw [(hq c).1, e0, e1, e2, e3, e4, e5]
        · rw [(hq c).2.1, e0, e1, e2, e3, e4, e5])
      (Cert.ReferenceIdeal.RefValue.ref_run m' g')⟩

end Cert.Proof.Assemble

end
-- ==== Proof.lean ====
/- Both programs compute, for every batch row and every position of its two id lists, how often the id there occurs in each of the two lists (zero at the padding id 0), and the sum over the two counts of a two-layer perceptron of the count. -/
import proofs.«212098_g24275155157491_cont_8to1_80_30_alg».proof.Defs
import proofs.«212098_g24275155157491_cont_8to1_80_30_alg».proof.Proof.Gen.Kernel
import proofs.«212098_g24275155157491_cont_8to1_80_30_alg».proof.Proof.Gen.Kernel.Skeleton
import proofs.«212098_g24275155157491_cont_8to1_80_30_alg».proof.Proof.Gen.Kernel.Launch
import proofs.«212098_g24275155157491_cont_8to1_80_30_alg».proof.Proof.Gen.Kernel.Points
import proofs.«212098_g24275155157491_cont_8to1_80_30_alg».proof.Proof.Gen.KernelIdeal
import proofs.«212098_g24275155157491_cont_8to1_80_30_alg».proof.Proof.Gen.KernelIdeal.Skeleton
import proofs.«212098_g24275155157491_cont_8to1_80_30_alg».proof.Proof.Gen.KernelIdeal.Launch
import proofs.«212098_g24275155157491_cont_8to1_80_30_alg».proof.Proof.Gen.KernelIdeal.Points
import proofs.«212098_g24275155157491_cont_8to1_80_30_alg».proof.Proof.Gen.ReferenceIdeal
import proofs.«212098_g24275155157491_cont_8to1_80_30_alg».proof.Proof.Gen.Pre_input_domain
import Idealize.ShloMosaic.Adequacy
import Idealize.ShloMosaic.Init
import proofs.«212098_g24275155157491_cont_8to1_80_30_alg».proof.Proof.Assemble

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  Assemble.frame_k, Assemble.frame_ki, Assemble.frame_ri, trivial, Assemble.algebraic⟩

end Cert.Proof

end
